-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v201)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v201) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S4x128x64 : Shape := ⟨3, ![4, 128, 64]⟩
abbrev S4x64 : Shape := ⟨2, ![4, 64]⟩
abbrev S4 : Shape := ⟨1, ![4]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_arg13 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg1 main_v59
  let main_c_23 : IVec S_ 1 := constantI S_ 1 1#1
  let main_v61 : IVec S_ 1 := (fun x v => Host.reduce IntOp.andi x v reducesTo_S2x800000_S_d0_1 h_S_) main_v60 main_c_23
  let main_v62 : IVec S_ 1 := andi main_v58 main_v61
  let main_c_24 : IVec S_ 32 := constantI S_ 32 50000#32
  let main_v63 : IVec S2x800000 32 := broadcastInDim S2x800000 ![] bcast_S_S2x800000 main_c_24
  let main_v64 : IVec S2x800000 1 := cmpi .slt main_arg1 main_v63
  let main_c_25 : IVec S_ 1 := constantI S_ 1 1#1
  let main_v65 : IVec S_ 1 := (fun x v => Host.reduce IntOp.andi x v reducesTo_S2x800000_S_d0_1 h_S_) main_v64 main_c_25
  let main_v66 : IVec S_ 1 := andi main_v62 main_v65
  main_v66

def fn_part2 {F : FTy → Type} [FloatOps F] (main_arg1 : IVec S2x800000 32) (main_arg9 : FVec F S4x64 .f32) (main_arg10 : FVec F S64x64 .f32) (main_arg11 : FVec F S64 .f32) (main_arg12 : FVec F S64x10 .f32) (main_arg13 : FVec F S10 .f32) (main_v33 : IVec S_ 1) : IVec S_ 1 :=
  let main_v34 : FVec F S4x64 .f32 := Host.absf main_arg9
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x10 .f32 := Host.absf main_arg12
  let main_cst_18 : FVec F S_ .f32 := constant S_ .f32 0x7F800000#32
  let main_v50 : FVec F S64x10 .f32 := broadcastInDim S64x10 ![] bcast_S_S64x10 main_cst_18
  fn_part3 (F := F) main_arg1 main_arg13 main_v48 main_v49 main_v50

def fn_part1 {F : FTy → Type} [FloatOps F] (main_arg1 : IVec S2x800000 32) (main_arg6 : FVec F S4x64 .f32) (main_arg7 : FVec F S4 .f32) (main_arg8 : FVec F S4x64 .f32) (main_arg9 : FVec F S4x64 .f32) (main_arg10 : FVec F S64x64 .f32) (main_arg11 : FVec F S64 .f32) (main_arg12 : FVec F S64x10 .f32) (main_arg13 : FVec F S10 .f32) (main_v13 : IVec S_ 1) (main_v16 : IVec S4x128x64 1) : IVec S_ 1 :=
  let main_c_5 : IVec S_ 1 := constantI S_ 1 1#1
  let main_v17 : IVec S_ 1 := (fun x v => Host.reduce IntOp.andi x v reducesTo_S4x128x64_S_d0_1_2 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4 .f32 := Host.absf main_arg7
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S50000x64 .f32) (main_arg1 : IVec S2x800000 32) (main_arg2 : IVec S50000 32) (main_arg3 : FVec F S4x128x64 .f32) (main_arg4 : FVec F S4x64 .f32) (main_arg5 : FVec F S4x128x64 .f32) (main_arg6 : FVec F S4x64 .f32) (main_arg7 : FVec F S4 .f32) (main_arg8 : FVec F S4x64 .f32) (main_arg9 : FVec F S4x64 .f32) (main_arg10 : FVec F S64x64 .f32) (main_arg11 : FVec F S64 .f32) (main_arg12 : FVec F S64x10 .f32) (main_arg13 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x128x64 .f32 := Host.absf main_arg3
  let main_cst_0 : FVec F S_ .f32 := constant S_ .f32 0x7F800000#32
  let main_v5 : FVec F S4x128x64 .f32 := broadcastInDim S4x128x64 ![] bcast_S_S4x128x64 main_cst_0
  let main_v6 : IVec S4x128x64 1 := cmpf .olt main_v4 main_v5
  let main_c_1 : IVec S_ 1 := constantI S_ 1 1#1
  let main_v7 : IVec S_ 1 := (fun x v => Host.reduce IntOp.andi x v reducesTo_S4x128x64_S_d0_1_2 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x128x64 .f32 := Host.absf main_arg5
  let main_cst_4 : FVec F S_ .f32 := constant S_ .f32 0x7F800000#32
  let main_v15 : FVec F S4x128x64 .f32 := broadcastInDim S4x128x64 ![] bcast_S_S4x128x64 main_cst_4
  let main_v16 : IVec S4x128x64 1 := cmpf .olt main_v14 main_v15
  fn_part1 (F := F) main_arg1 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S4x128x64 : Shape := ⟨3, ![4, 128, 64]⟩
abbrev S4x64 : Shape := ⟨2, ![4, 64]⟩
abbrev S4 : Shape := ⟨1, ![4]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x64x64 : Shape := ⟨3, ![1, 64, 64]⟩
abbrev S1x64 : Shape := ⟨2, ![1, 64]⟩
abbrev S1 : Shape := ⟨1, ![1]⟩
abbrev S1x1 : Shape := ⟨2, ![1, 1]⟩
abbrev S800000x64 : Shape := ⟨2, ![800000, 64]⟩
abbrev S8000x64 : Shape := ⟨2, ![8000, 64]⟩
abbrev S10000x64 : Shape := ⟨2, ![10000, 64]⟩
abbrev S500 : Shape := ⟨1, ![500]⟩
abbrev S500x1 : Shape := ⟨2, ![500, 1]⟩
abbrev S500x64 : Shape := ⟨2, ![500, 64]⟩
abbrev S1x10 : Shape := ⟨2, ![1, 10]⟩
abbrev S500x10 : Shape := ⟨2, ![500, 10]⟩

abbrev nBuf : Space → Nat
  | .hbm => 423
  | .vmem => 138
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S4x128x64, .f32⟩
  | 4 => ⟨S4x64, .f32⟩
  | 5 => ⟨S4x128x64, .f32⟩
  | 6 => ⟨S4x64, .f32⟩
  | 7 => ⟨S4, .f32⟩
  | 8 => ⟨S4x64, .f32⟩
  | 9 => ⟨S4x64, .f32⟩
  | 10 => ⟨S64x64, .f32⟩
  | 11 => ⟨S64, .f32⟩
  | 12 => ⟨S64x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S1x64x64, .f32⟩
  | 29 => ⟨S64x64, .f32⟩
  | 30 => ⟨S1x64x64, .f32⟩
  | 31 => ⟨S64x64, .f32⟩
  | 32 => ⟨S1x64x64, .f32⟩
  | 33 => ⟨S64x64, .f32⟩
  | 34 => ⟨S1x64x64, .f32⟩
  | 35 => ⟨S64x64, .f32⟩
  | 36 => ⟨S1x64, .f32⟩
  | 37 => ⟨S64, .f32⟩
  | 38 => ⟨S1x64, .f32⟩
  | 39 => ⟨S1x64, .f32⟩
  | 40 => ⟨S64, .f32⟩
  | 41 => ⟨S1x64, .f32⟩
  | 42 => ⟨S1, .f32⟩
  | 43 => ⟨S_, .f32⟩
  | 44 => ⟨S1x64, .f32⟩
  | 45 => ⟨S1x64, .f32⟩
  | 46 => ⟨S64, .f32⟩
  | 47 => ⟨S1x64, .f32⟩
  | 48 => ⟨S1x64, .f32⟩
  | 49 => ⟨S64, .f32⟩
  | 50 => ⟨S1x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x64, .f32⟩
  | 70 => ⟨S800000x64, .i1⟩
  | 71 => ⟨S_, .f32⟩
  | 72 => ⟨S800000x64, .f32⟩
  | 73 => ⟨S800000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S1, .i32⟩
  | 83 => ⟨S_, .i32⟩
  | 84 => ⟨S800000x1, .i32⟩
  | 85 => ⟨S800000x1, .i1⟩
  | 86 => ⟨S1x1, .i32⟩
  | 87 => ⟨S800000x1, .i32⟩
  | 88 => ⟨S800000x1, .i1⟩
  | 89 => ⟨S800000x1, .i1⟩
  | 90 => ⟨S_, .i1⟩
  | 91 => ⟨S800000, .i1⟩
  | 92 => ⟨S800000x64, .f32⟩
  | 93 => ⟨S800000x64, .i1⟩
  | 94 => ⟨S_, .f32⟩
  | 95 => ⟨S800000x64, .f32⟩
  | 96 => ⟨S800000x64, .f32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S50000x64, .f32⟩
  | 103 => ⟨S50000x64, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S50000x64, .f32⟩
  | 122 => ⟨S1x64x64, .f32⟩
  | 123 => ⟨S64x64, .f32⟩
  | 124 => ⟨S1x64x64, .f32⟩
  | 125 => ⟨S64x64, .f32⟩
  | 126 => ⟨S1x64x64, .f32⟩
  | 127 => ⟨S64x64, .f32⟩
  | _ => ⟨S50000x64, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S1x64, .f32⟩
  | 5 => ⟨S1x64, .f32⟩
  | 6 => ⟨S64, .f32⟩
  | 7 => ⟨S1x64, .f32⟩
  | 8 => ⟨S1, .f32⟩
  | 9 => ⟨S_, .f32⟩
  | 10 => ⟨S1x64, .f32⟩
  | 11 => ⟨S1x64, .f32⟩
  | 12 => ⟨S64, .f32⟩
  | 13 => ⟨S1x64, .f32⟩
  | 14 => ⟨S1x64, .f32⟩
  | 15 => ⟨S64, .f32⟩
  | 16 => ⟨S1x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S1, .i32⟩
  | 26 => ⟨S_, .i32⟩
  | 27 => ⟨S800000x1, .i32⟩
  | 28 => ⟨S800000x1, .i1⟩
  | 29 => ⟨S1x1, .i32⟩
  | 30 => ⟨S800000x1, .i32⟩
  | 31 => ⟨S800000x1, .i1⟩
  | 32 => ⟨S800000x1, .i1⟩
  | 33 => ⟨S_, .i1⟩
  | 34 => ⟨S800000, .i1⟩
  | 35 => ⟨S800000x64, .f32⟩
  | 36 => ⟨S800000x64, .i1⟩
  | 37 => ⟨S_, .f32⟩
  | 38 => ⟨S800000x64, .f32⟩
  | 39 => ⟨S800000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S1, .i32⟩
  | 49 => ⟨S_, .i32⟩
  | 50 => ⟨S800000x1, .i32⟩
  | 51 => ⟨S800000x1, .i1⟩
  | 52 => ⟨S1x1, .i32⟩
  | 53 => ⟨S800000x1, .i32⟩
  | 54 => ⟨S800000x1, .i1⟩
  | 55 => ⟨S800000x1, .i1⟩
  | 56 => ⟨S_, .i1⟩
  | 57 => ⟨S800000, .i1⟩
  | 58 => ⟨S800000x64, .f32⟩
  | 59 => ⟨S800000x64, .i1⟩
  | 60 => ⟨S_, .f32⟩
  | 61 => ⟨S800000x64, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x64, .f32⟩
  | 69 => ⟨S50000x64, .f32⟩
  | 70 => ⟨S1x64, .f32⟩
  | 71 => ⟨S1x64, .f32⟩
  | 72 => ⟨S_, .f32⟩
  | 73 => ⟨S1x64, .f32⟩
  | 74 => ⟨S1x64, .f32⟩
  | 75 => ⟨S_, .f32⟩
  | 76 => ⟨S1x64, .f32⟩
  | 77 => ⟨S1x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S50000x64, .f32⟩
  | 88 => ⟨S1x64x64, .f32⟩
  | 89 => ⟨S64x64, .f32⟩
  | 90 => ⟨S1x64x64, .f32⟩
  | 91 => ⟨S64x64, .f32⟩
  | 92 => ⟨S1x64x64, .f32⟩
  | 93 => ⟨S64x64, .f32⟩
  | 94 => ⟨S1x64x64, .f32⟩
  | 95 => ⟨S64x64, .f32⟩
  | 96 => ⟨S1x64, .f32⟩
  | 97 => ⟨S64, .f32⟩
  | 98 => ⟨S1x64, .f32⟩
  | 99 => ⟨S1x64, .f32⟩
  | 100 => ⟨S64, .f32⟩
  | 101 => ⟨S1x64, .f32⟩
  | 102 => ⟨S1, .f32⟩
  | 103 => ⟨S_, .f32⟩
  | 104 => ⟨S1x64, .f32⟩
  | 105 => ⟨S1x64, .f32⟩
  | 106 => ⟨S64, .f32⟩
  | 107 => ⟨S1x64, .f32⟩
  | 108 => ⟨S1x64, .f32⟩
  | 109 => ⟨S64, .f32⟩
  | 110 => ⟨S1x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S1, .i32⟩
  | 120 => ⟨S_, .i32⟩
  | 121 => ⟨S800000x1, .i32⟩
  | 122 => ⟨S800000x1, .i1⟩
  | 123 => ⟨S1x1, .i32⟩
  | 124 => ⟨S800000x1, .i32⟩
  | 125 => ⟨S800000x1, .i1⟩
  | 126 => ⟨S800000x1, .i1⟩
  | 127 => ⟨S_, .i1⟩
  | _ => ⟨S50000x64, .f32⟩

abbrev hbmTy0_2 (i : Nat) : BufTy := match i % 128 with
  | 0 => ⟨S800000, .i1⟩
  | 1 => ⟨S800000x64, .f32⟩
  | 2 => ⟨S800000x64, .i1⟩
  | 3 => ⟨S_, .f32⟩
  | 4 => ⟨S800000x64, .f32⟩
  | 5 => ⟨S800000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S1, .i32⟩
  | 15 => ⟨S_, .i32⟩
  | 16 => ⟨S800000x1, .i32⟩
  | 17 => ⟨S800000x1, .i1⟩
  | 18 => ⟨S1x1, .i32⟩
  | 19 => ⟨S800000x1, .i32⟩
  | 20 => ⟨S800000x1, .i1⟩
  | 21 => ⟨S800000x1, .i1⟩
  | 22 => ⟨S_, .i1⟩
  | 23 => ⟨S800000, .i1⟩
  | 24 => ⟨S800000x64, .f32⟩
  | 25 => ⟨S800000x64, .i1⟩
  | 26 => ⟨S_, .f32⟩
  | 27 => ⟨S800000x64, .f32⟩
  | 28 => ⟨S800000x64, .f32⟩
  | 29 => ⟨S800000x64, .f32⟩
  | 30 => ⟨S_, .f32⟩
  | 31 => ⟨S50000x64, .f32⟩
  | 32 => ⟨S800000x1, .i32⟩
  | 33 => ⟨S50000x64, .f32⟩
  | 34 => ⟨S50000x64, .f32⟩
  | 35 => ⟨S50000x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S_, .f32⟩
  | 50 => ⟨S1x64, .f32⟩
  | 51 => ⟨S1x64, .f32⟩
  | 52 => ⟨S1x64, .f32⟩
  | 53 => ⟨S50000x64, .f32⟩
  | 54 => ⟨S1x64x64, .f32⟩
  | 55 => ⟨S64x64, .f32⟩
  | 56 => ⟨S1x64x64, .f32⟩
  | 57 => ⟨S64x64, .f32⟩
  | 58 => ⟨S1x64x64, .f32⟩
  | 59 => ⟨S64x64, .f32⟩
  | 60 => ⟨S1x64x64, .f32⟩
  | 61 => ⟨S64x64, .f32⟩
  | 62 => ⟨S1x64, .f32⟩
  | 63 => ⟨S64, .f32⟩
  | 64 => ⟨S1x64, .f32⟩
  | 65 => ⟨S1x64, .f32⟩
  | 66 => ⟨S64, .f32⟩
  | 67 => ⟨S1x64, .f32⟩
  | 68 => ⟨S1, .f32⟩
  | 69 => ⟨S_, .f32⟩
  | 70 => ⟨S1x64, .f32⟩
  | 71 => ⟨S1x64, .f32⟩
  | 72 => ⟨S64, .f32⟩
  | 73 => ⟨S1x64, .f32⟩
  | 74 => ⟨S1x64, .f32⟩
  | 75 => ⟨S64, .f32⟩
  | 76 => ⟨S1x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S1, .i32⟩
  | 86 => ⟨S_, .i32⟩
  | 87 => ⟨S800000x1, .i32⟩
  | 88 => ⟨S800000x1, .i1⟩
  | 89 => ⟨S1x1, .i32⟩
  | 90 => ⟨S800000x1, .i32⟩
  | 91 => ⟨S800000x1, .i1⟩
  | 92 => ⟨S800000x1, .i1⟩
  | 93 => ⟨S_, .i1⟩
  | 94 => ⟨S800000, .i1⟩
  | 95 => ⟨S800000x64, .f32⟩
  | 96 => ⟨S800000x64, .i1⟩
  | 97 => ⟨S_, .f32⟩
  | 98 => ⟨S800000x64, .f32⟩
  | 99 => ⟨S800000x64, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S1, .i32⟩
  | 109 => ⟨S_, .i32⟩
  | 110 => ⟨S800000x1, .i32⟩
  | 111 => ⟨S800000x1, .i1⟩
  | 112 => ⟨S1x1, .i32⟩
  | 113 => ⟨S800000x1, .i32⟩
  | 114 => ⟨S800000x1, .i1⟩
  | 115 => ⟨S800000x1, .i1⟩
  | 116 => ⟨S_, .i1⟩
  | 117 => ⟨S800000, .i1⟩
  | 118 => ⟨S800000x64, .f32⟩
  | 119 => ⟨S800000x64, .i1⟩
  | 120 => ⟨S_, .f32⟩
  | 121 => ⟨S800000x64, .f32⟩
  | 122 => ⟨S800000x64, .f32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x64, .f32⟩

abbrev hbmTy0_3 (i : Nat) : BufTy := match i % 128 with
  | 0 => ⟨S50000x64, .f32⟩
  | 1 => ⟨S50000x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S1x64, .f32⟩
  | 19 => ⟨S50000x64, .f32⟩
  | 20 => ⟨S_, .f32⟩
  | 21 => ⟨S50000, .f32⟩
  | 22 => ⟨S_, .f32⟩
  | 23 => ⟨S500, .f32⟩
  | 24 => ⟨S50000x1, .i32⟩
  | 25 => ⟨S500, .f32⟩
  | 26 => ⟨S_, .f32⟩
  | 27 => ⟨S500, .f32⟩
  | 28 => ⟨S500, .f32⟩
  | 29 => ⟨S500x1, .f32⟩
  | 30 => ⟨S_, .f32⟩
  | 31 => ⟨S500x64, .f32⟩
  | 32 => ⟨S50000x1, .i32⟩
  | 33 => ⟨S500x64, .f32⟩
  | 34 => ⟨S500x64, .f32⟩
  | 35 => ⟨S500x64, .f32⟩
  | 36 => ⟨S1x64, .f32⟩
  | 37 => ⟨S1x10, .f32⟩
  | 38 => ⟨S500x10, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev vmemTy0_0 (i : Nat) : BufTy := match i % 128 with
  | 0 => ⟨S8000x64, .f32⟩
  | 1 => ⟨S8000x64, .f32⟩
  | 2 => ⟨S8000x64, .f32⟩
  | 3 => ⟨S8000x64, .f32⟩
  | 4 => ⟨S64x64, .f32⟩
  | 5 => ⟨S64x64, .f32⟩
  | 6 => ⟨S1x64, .f32⟩
  | 7 => ⟨S8000x64, .f32⟩
  | 8 => ⟨S8000x64, .f32⟩
  | 9 => ⟨S10000x64, .f32⟩
  | 10 => ⟨S10000x64, .f32⟩
  | 11 => ⟨S10000x64, .f32⟩
  | 12 => ⟨S10000x64, .f32⟩
  | 13 => ⟨S64x64, .f32⟩
  | 14 => ⟨S64x64, .f32⟩
  | 15 => ⟨S1x64, .f32⟩
  | 16 => ⟨S1x64, .f32⟩
  | 17 => ⟨S1x64, .f32⟩
  | 18 => ⟨S1x64, .f32⟩
  | 19 => ⟨S10000x64, .f32⟩
  | 20 => ⟨S10000x64, .f32⟩
  | 21 => ⟨S10000x64, .f32⟩
  | 22 => ⟨S10000x64, .f32⟩
  | 23 => ⟨S64x64, .f32⟩
  | 24 => ⟨S64x64, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S10000x64, .f32⟩
  | 32 => ⟨S10000x64, .f32⟩
  | 33 => ⟨S8000x64, .f32⟩
  | 34 => ⟨S8000x64, .f32⟩
  | 35 => ⟨S8000x64, .f32⟩
  | 36 => ⟨S8000x64, .f32⟩
  | 37 => ⟨S64x64, .f32⟩
  | 38 => ⟨S64x64, .f32⟩
  | 39 => ⟨S1x64, .f32⟩
  | 40 => ⟨S8000x64, .f32⟩
  | 41 => ⟨S8000x64, .f32⟩
  | 42 => ⟨S10000x64, .f32⟩
  | 43 => ⟨S10000x64, .f32⟩
  | 44 => ⟨S10000x64, .f32⟩
  | 45 => ⟨S10000x64, .f32⟩
  | 46 => ⟨S64x64, .f32⟩
  | 47 => ⟨S64x64, .f32⟩
  | 48 => ⟨S1x64, .f32⟩
  | 49 => ⟨S1x64, .f32⟩
  | 50 => ⟨S1x64, .f32⟩
  | 51 => ⟨S1x64, .f32⟩
  | 52 => ⟨S10000x64, .f32⟩
  | 53 => ⟨S10000x64, .f32⟩
  | 54 => ⟨S10000x64, .f32⟩
  | 55 => ⟨S10000x64, .f32⟩
  | 56 => ⟨S64x64, .f32⟩
  | 57 => ⟨S64x64, .f32⟩
  | 58 => ⟨S1x64, .f32⟩
  | 59 => ⟨S1x64, .f32⟩
  | 60 => ⟨S1x64, .f32⟩
  | 61 => ⟨S1x64, .f32⟩
  | 62 => ⟨S1x64, .f32⟩
  | 63 => ⟨S1x64, .f32⟩
  | 64 => ⟨S10000x64, .f32⟩
  | 65 => ⟨S10000x64, .f32⟩
  | 66 => ⟨S8000x64, .f32⟩
  | 67 => ⟨S8000x64, .f32⟩
  | 68 => ⟨S8000x64, .f32⟩
  | 69 => ⟨S8000x64, .f32⟩
  | 70 => ⟨S64x64, .f32⟩
  | 71 => ⟨S64x64, .f32⟩
  | 72 => ⟨S1x64, .f32⟩
  | 73 => ⟨S8000x64, .f32⟩
  | 74 => ⟨S8000x64, .f32⟩
  | 75 => ⟨S10000x64, .f32⟩
  | 76 => ⟨S10000x64, .f32⟩
  | 77 => ⟨S10000x64, .f32⟩
  | 78 => ⟨S10000x64, .f32⟩
  | 79 => ⟨S64x64, .f32⟩
  | 80 => ⟨S64x64, .f32⟩
  | 81 => ⟨S1x64, .f32⟩
  | 82 => ⟨S1x64, .f32⟩
  | 83 => ⟨S1x64, .f32⟩
  | 84 => ⟨S1x64, .f32⟩
  | 85 => ⟨S10000x64, .f32⟩
  | 86 => ⟨S10000x64, .f32⟩
  | 87 => ⟨S10000x64, .f32⟩
  | 88 => ⟨S10000x64, .f32⟩
  | 89 => ⟨S64x64, .f32⟩
  | 90 => ⟨S64x64, .f32⟩
  | 91 => ⟨S1x64, .f32⟩
  | 92 => ⟨S1x64, .f32⟩
  | 93 => ⟨S1x64, .f32⟩
  | 94 => ⟨S1x64, .f32⟩
  | 95 => ⟨S1x64, .f32⟩
  | 96 => ⟨S1x64, .f32⟩
  | 97 => ⟨S10000x64, .f32⟩
  | 98 => ⟨S10000x64, .f32⟩
  | 99 => ⟨S8000x64, .f32⟩
  | 100 => ⟨S8000x64, .f32⟩
  | 101 => ⟨S8000x64, .f32⟩
  | 102 => ⟨S8000x64, .f32⟩
  | 103 => ⟨S64x64, .f32⟩
  | 104 => ⟨S64x64, .f32⟩
  | 105 => ⟨S1x64, .f32⟩
  | 106 => ⟨S8000x64, .f32⟩
  | 107 => ⟨S8000x64, .f32⟩
  | 108 => ⟨S10000x64, .f32⟩
  | 109 => ⟨S10000x64, .f32⟩
  | 110 => ⟨S10000x64, .f32⟩
  | 111 => ⟨S10000x64, .f32⟩
  | 112 => ⟨S64x64, .f32⟩
  | 113 => ⟨S64x64, .f32⟩
  | 114 => ⟨S1x64, .f32⟩
  | 115 => ⟨S1x64, .f32⟩
  | 116 => ⟨S1x64, .f32⟩
  | 117 => ⟨S1x64, .f32⟩
  | 118 => ⟨S10000x64, .f32⟩
  | 119 => ⟨S10000x64, .f32⟩
  | 120 => ⟨S10000x64, .f32⟩
  | 121 => ⟨S10000x64, .f32⟩
  | 122 => ⟨S64x64, .f32⟩
  | 123 => ⟨S64x64, .f32⟩
  | 124 => ⟨S1x64, .f32⟩
  | 125 => ⟨S1x64, .f32⟩
  | 126 => ⟨S1x64, .f32⟩
  | 127 => ⟨S1x64, .f32⟩
  | _ => ⟨S50000x64, .f32⟩

abbrev vmemTy0_1 (i : Nat) : BufTy := match i % 128 with
  | 0 => ⟨S1x64, .f32⟩
  | 1 => ⟨S1x64, .f32⟩
  | 2 => ⟨S10000x64, .f32⟩
  | 3 => ⟨S10000x64, .f32⟩
  | 4 => ⟨S500x64, .f32⟩
  | 5 => ⟨S64x64, .f32⟩
  | 6 => ⟨S1x64, .f32⟩
  | 7 => ⟨S64x10, .f32⟩
  | 8 => ⟨S1x10, .f32⟩
  | 9 => ⟨S500x10, .f32⟩
  | _ => ⟨S50000x64, .f32⟩

abbrev vmemTy (i : Nat) : BufTy := match i / 128 with
  | 0 => vmemTy0_0 i
  | 1 => vmemTy0_1 i
  | _ => ⟨S50000x64, .f32⟩

abbrev bufTy : (tb : Table) → Fin (tcTables nBuf tb) → BufTy
  | .hbm, ⟨i, _⟩ => hbmTy i
  | .local _ .vmem, ⟨i, _⟩ => vmemTy i
  | _, _ => ⟨S50000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_c_1 : Ref sig .tc := ⟨.hbm, 59, rfl⟩
abbrev main_call0_c_2 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_3 : Ref sig .tc := ⟨.hbm, 67, rfl⟩
abbrev main_call0_v12 : Ref sig .tc := ⟨.hbm, 68, rfl⟩
abbrev main_call0_v13 : Ref sig .tc := ⟨.hbm, 69, rfl⟩
abbrev main_call0_v14 : Ref sig .tc := ⟨.hbm, 70, rfl⟩
abbrev main_call0_cst : Ref sig .tc := ⟨.hbm, 71, rfl⟩
abbrev main_call0_v15 : Ref sig .tc := ⟨.hbm, 72, rfl⟩
abbrev main_v34 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_cst : Ref sig .tc := ⟨.hbm, 94, rfl⟩
abbrev main_call1_v15 : Ref sig .tc := ⟨.hbm, 95, rfl⟩
abbrev main_v35 : Ref sig .tc := ⟨.hbm, 96, rfl⟩
abbrev main_v36 : Ref sig .tc := ⟨.hbm, 97, rfl⟩
abbrev main_cst_2 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42_0 : Ref sig .tc := ⟨.hbm, 104, rfl⟩
abbrev main_v42_1 : Ref sig .tc := ⟨.hbm, 105, rfl⟩
abbrev main_cst_3 : Ref sig .tc := ⟨.hbm, 106, rfl⟩
abbrev main_v43 : Ref sig .tc := ⟨.hbm, 107, rfl⟩
abbrev main_v44 : Ref sig .tc := ⟨.hbm, 108, rfl⟩
abbrev main_cst_4 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_cst_5 : Ref sig .tc := ⟨.hbm, 114, rfl⟩
abbrev main_v49 : Ref sig .tc := ⟨.hbm, 115, rfl⟩
abbrev main_v50 : Ref sig .tc := ⟨.hbm, 116, rfl⟩
abbrev main_cst_6 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_call2_c : Ref sig .tc := ⟨.hbm, 145, rfl⟩
abbrev main_call2_v0 : Ref sig .tc := ⟨.hbm, 146, rfl⟩
abbrev main_call2_v1 : Ref sig .tc := ⟨.hbm, 147, rfl⟩
abbrev main_call2_c_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_c_1 : Ref sig .tc := ⟨.hbm, 153, rfl⟩
abbrev main_call2_c_2 : Ref sig .tc := ⟨.hbm, 154, rfl⟩
abbrev main_call2_v6 : Ref sig .tc := ⟨.hbm, 155, rfl⟩
abbrev main_call2_v7 : Ref sig .tc := ⟨.hbm, 156, rfl⟩
abbrev main_call2_v8 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_c_3 : Ref sig .tc := ⟨.hbm, 161, rfl⟩
abbrev main_call2_v12 : Ref sig .tc := ⟨.hbm, 162, rfl⟩
abbrev main_call2_v13 : Ref sig .tc := ⟨.hbm, 163, rfl⟩
abbrev main_call2_v14 : Ref sig .tc := ⟨.hbm, 164, rfl⟩
abbrev main_call2_cst : Ref sig .tc := ⟨.hbm, 165, rfl⟩
abbrev main_call2_v15 : Ref sig .tc := ⟨.hbm, 166, rfl⟩
abbrev main_v78 : Ref sig .tc := ⟨.hbm, 167, rfl⟩
abbrev main_call3_c : Ref sig .tc := ⟨.hbm, 168, rfl⟩
abbrev main_call3_v0 : Ref sig .tc := ⟨.hbm, 169, rfl⟩
abbrev main_call3_v1 : Ref sig .tc := ⟨.hbm, 170, rfl⟩
abbrev main_call3_c_0 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_call3_v5 : Ref sig .tc := ⟨.hbm, 175, rfl⟩
abbrev main_call3_c_1 : Ref sig .tc := ⟨.hbm, 176, rfl⟩
abbrev main_call3_c_2 : Ref sig .tc := ⟨.hbm, 177, rfl⟩
abbrev main_call3_v6 : Ref sig .tc := ⟨.hbm, 178, rfl⟩
abbrev main_call3_v7 : Ref sig .tc := ⟨.hbm, 179, rfl⟩
abbrev main_call3_v8 : Ref sig .tc := ⟨.hbm, 180, rfl⟩
abbrev main_call3_v9 : Ref sig .tc := ⟨.hbm, 181, rfl⟩
abbrev main_call3_v10 : Ref sig .tc := ⟨.hbm, 182, rfl⟩
abbrev main_call3_v11 : Ref sig .tc := ⟨.hbm, 183, rfl⟩
abbrev main_call3_c_3 : Ref sig .tc := ⟨.hbm, 184, rfl⟩
abbrev main_call3_v12 : Ref sig .tc := ⟨.hbm, 185, rfl⟩
abbrev main_call3_v13 : Ref sig .tc := ⟨.hbm, 186, rfl⟩
abbrev main_call3_v14 : Ref sig .tc := ⟨.hbm, 187, rfl⟩
abbrev main_call3_cst : Ref sig .tc := ⟨.hbm, 188, rfl⟩
abbrev main_call3_v15 : Ref sig .tc := ⟨.hbm, 189, rfl⟩
abbrev main_v79 : Ref sig .tc := ⟨.hbm, 190, rfl⟩
abbrev main_v80 : Ref sig .tc := ⟨.hbm, 191, rfl⟩
abbrev main_cst_7 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_v85 : Ref sig .tc := ⟨.hbm, 197, rfl⟩
abbrev main_v86_0 : Ref sig .tc := ⟨.hbm, 198, rfl⟩
abbrev main_v86_1 : Ref sig .tc := ⟨.hbm, 199, rfl⟩
abbrev main_cst_8 : Ref sig .tc := ⟨.hbm, 200, rfl⟩
abbrev main_v87 : Ref sig .tc := ⟨.hbm, 201, rfl⟩
abbrev main_v88 : Ref sig .tc := ⟨.hbm, 202, rfl⟩
abbrev main_cst_9 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_cst_10 : Ref sig .tc := ⟨.hbm, 208, rfl⟩
abbrev main_v93 : Ref sig .tc := ⟨.hbm, 209, rfl⟩
abbrev main_v94 : Ref sig .tc := ⟨.hbm, 210, rfl⟩
abbrev main_cst_11 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_call4_c : Ref sig .tc := ⟨.hbm, 239, rfl⟩
abbrev main_call4_v0 : Ref sig .tc := ⟨.hbm, 240, rfl⟩
abbrev main_call4_v1 : Ref sig .tc := ⟨.hbm, 241, rfl⟩
abbrev main_call4_c_0 : Ref sig .tc := ⟨.hbm, 242, rfl⟩
abbrev main_call4_v2 : Ref sig .tc := ⟨.hbm, 243, rfl⟩
abbrev main_call4_v3 : Ref sig .tc := ⟨.hbm, 244, rfl⟩
abbrev main_call4_v4 : Ref sig .tc := ⟨.hbm, 245, rfl⟩
abbrev main_call4_v5 : Ref sig .tc := ⟨.hbm, 246, rfl⟩
abbrev main_call4_c_1 : Ref sig .tc := ⟨.hbm, 247, rfl⟩
abbrev main_call4_c_2 : Ref sig .tc := ⟨.hbm, 248, rfl⟩
abbrev main_call4_v6 : Ref sig .tc := ⟨.hbm, 249, rfl⟩
abbrev main_call4_v7 : Ref sig .tc := ⟨.hbm, 250, rfl⟩
abbrev main_call4_v8 : Ref sig .tc := ⟨.hbm, 251, rfl⟩
abbrev main_call4_v9 : Ref sig .tc := ⟨.hbm, 252, rfl⟩
abbrev main_call4_v10 : Ref sig .tc := ⟨.hbm, 253, rfl⟩
abbrev main_call4_v11 : Ref sig .tc := ⟨.hbm, 254, rfl⟩
abbrev main_call4_c_3 : Ref sig .tc := ⟨.hbm, 255, rfl⟩
abbrev main_call4_v12 : Ref sig .tc := ⟨.hbm, 256, rfl⟩
abbrev main_call4_v13 : Ref sig .tc := ⟨.hbm, 257, rfl⟩
abbrev main_call4_v14 : Ref sig .tc := ⟨.hbm, 258, rfl⟩
abbrev main_call4_cst : Ref sig .tc := ⟨.hbm, 259, rfl⟩
abbrev main_call4_v15 : Ref sig .tc := ⟨.hbm, 260, rfl⟩
abbrev main_v122 : Ref sig .tc := ⟨.hbm, 261, rfl⟩
abbrev main_call5_c : Ref sig .tc := ⟨.hbm, 262, rfl⟩
abbrev main_call5_v0 : Ref sig .tc := ⟨.hbm, 263, rfl⟩
abbrev main_call5_v1 : Ref sig .tc := ⟨.hbm, 264, rfl⟩
abbrev main_call5_c_0 : Ref sig .tc := ⟨.hbm, 265, rfl⟩
abbrev main_call5_v2 : Ref sig .tc := ⟨.hbm, 266, rfl⟩
abbrev main_call5_v3 : Ref sig .tc := ⟨.hbm, 267, rfl⟩
abbrev main_call5_v4 : Ref sig .tc := ⟨.hbm, 268, rfl⟩
abbrev main_call5_v5 : Ref sig .tc := ⟨.hbm, 269, rfl⟩
abbrev main_call5_c_1 : Ref sig .tc := ⟨.hbm, 270, rfl⟩
abbrev main_call5_c_2 : Ref sig .tc := ⟨.hbm, 271, rfl⟩
abbrev main_call5_v6 : Ref sig .tc := ⟨.hbm, 272, rfl⟩
abbrev main_call5_v7 : Ref sig .tc := ⟨.hbm, 273, rfl⟩
abbrev main_call5_v8 : Ref sig .tc := ⟨.hbm, 274, rfl⟩
abbrev main_call5_v9 : Ref sig .tc := ⟨.hbm, 275, rfl⟩
abbrev main_call5_v10 : Ref sig .tc := ⟨.hbm, 276, rfl⟩
abbrev main_call5_v11 : Ref sig .tc := ⟨.hbm, 277, rfl⟩
abbrev main_call5_c_3 : Ref sig .tc := ⟨.hbm, 278, rfl⟩
abbrev main_call5_v12 : Ref sig .tc := ⟨.hbm, 279, rfl⟩
abbrev main_call5_v13 : Ref sig .tc := ⟨.hbm, 280, rfl⟩
abbrev main_call5_v14 : Ref sig .tc := ⟨.hbm, 281, rfl⟩
abbrev main_call5_cst : Ref sig .tc := ⟨.hbm, 282, rfl⟩
abbrev main_call5_v15 : Ref sig .tc := ⟨.hbm, 283, rfl⟩
abbrev main_v123 : Ref sig .tc := ⟨.hbm, 284, rfl⟩
abbrev main_v124 : Ref sig .tc := ⟨.hbm, 285, rfl⟩
abbrev main_cst_12 : Ref sig .tc := ⟨.hbm, 286, rfl⟩
abbrev main_v125 : Ref sig .tc := ⟨.hbm, 287, rfl⟩
abbrev main_v126 : Ref sig .tc := ⟨.hbm, 288, rfl⟩
abbrev main_v127 : Ref sig .tc := ⟨.hbm, 289, rfl⟩
abbrev main_v128 : Ref sig .tc := ⟨.hbm, 290, rfl⟩
abbrev main_v129 : Ref sig .tc := ⟨.hbm, 291, rfl⟩
abbrev main_v130_0 : Ref sig .tc := ⟨.hbm, 292, rfl⟩
abbrev main_v130_1 : Ref sig .tc := ⟨.hbm, 293, rfl⟩
abbrev main_cst_13 : Ref sig .tc := ⟨.hbm, 294, rfl⟩
abbrev main_v131 : Ref sig .tc := ⟨.hbm, 295, rfl⟩
abbrev main_v132 : Ref sig .tc := ⟨.hbm, 296, rfl⟩
abbrev main_cst_14 : Ref sig .tc := ⟨.hbm, 297, rfl⟩
abbrev main_v133 : Ref sig .tc := ⟨.hbm, 298, rfl⟩
abbrev main_v134 : Ref sig .tc := ⟨.hbm, 299, rfl⟩
abbrev main_v135 : Ref sig .tc := ⟨.hbm, 300, rfl⟩
abbrev main_v136 : Ref sig .tc := ⟨.hbm, 301, rfl⟩
abbrev main_cst_15 : Ref sig .tc := ⟨.hbm, 302, rfl⟩
abbrev main_v137 : Ref sig .tc := ⟨.hbm, 303, rfl⟩
abbrev main_v138 : Ref sig .tc := ⟨.hbm, 304, rfl⟩
abbrev main_cst_16 : Ref sig .tc := ⟨.hbm, 305, rfl⟩
abbrev main_v139 : Ref sig .tc := ⟨.hbm, 306, rfl⟩
abbrev main_v140 : Ref sig .tc := ⟨.hbm, 307, rfl⟩
abbrev main_v141 : Ref sig .tc := ⟨.hbm, 308, rfl⟩
abbrev main_v142 : Ref sig .tc := ⟨.hbm, 309, rfl⟩
abbrev main_v143 : Ref sig .tc := ⟨.hbm, 310, rfl⟩
abbrev main_v144 : Ref sig .tc := ⟨.hbm, 311, rfl⟩
abbrev main_v145 : Ref sig .tc := ⟨.hbm, 312, rfl⟩
abbrev main_v146 : Ref sig .tc := ⟨.hbm, 313, rfl⟩
abbrev main_v147 : Ref sig .tc := ⟨.hbm, 314, rfl⟩
abbrev main_v148 : Ref sig .tc := ⟨.hbm, 315, rfl⟩
abbrev main_v149 : Ref sig .tc := ⟨.hbm, 316, rfl⟩
abbrev main_v150 : Ref sig .tc := ⟨.hbm, 317, rfl⟩
abbrev main_v151 : Ref sig .tc := ⟨.hbm, 318, rfl⟩
abbrev main_v152 : Ref sig .tc := ⟨.hbm, 319, rfl⟩
abbrev main_v153 : Ref sig .tc := ⟨.hbm, 320, rfl⟩
abbrev main_v154 : Ref sig .tc := ⟨.hbm, 321, rfl⟩
abbrev main_v155 : Ref sig .tc := ⟨.hbm, 322, rfl⟩
abbrev main_v156 : Ref sig .tc := ⟨.hbm, 323, rfl⟩
abbrev main_v157 : Ref sig .tc := ⟨.hbm, 324, rfl⟩
abbrev main_v158 : Ref sig .tc := ⟨.hbm, 325, rfl⟩
abbrev main_v159 : Ref sig .tc := ⟨.hbm, 326, rfl⟩
abbrev main_v160 : Ref sig .tc := ⟨.hbm, 327, rfl⟩
abbrev main_v161 : Ref sig .tc := ⟨.hbm, 328, rfl⟩
abbrev main_v162 : Ref sig .tc := ⟨.hbm, 329, rfl⟩
abbrev main_v163 : Ref sig .tc := ⟨.hbm, 330, rfl⟩
abbrev main_v164 : Ref sig .tc := ⟨.hbm, 331, rfl⟩
abbrev main_v165 : Ref sig .tc := ⟨.hbm, 332, rfl⟩
abbrev main_call6_c : Ref sig .tc := ⟨.hbm, 333, rfl⟩
abbrev main_call6_v0 : Ref sig .tc := ⟨.hbm, 334, rfl⟩
abbrev main_call6_v1 : Ref sig .tc := ⟨.hbm, 335, rfl⟩
abbrev main_call6_c_0 : Ref sig .tc := ⟨.hbm, 336, rfl⟩
abbrev main_call6_v2 : Ref sig .tc := ⟨.hbm, 337, rfl⟩
abbrev main_call6_v3 : Ref sig .tc := ⟨.hbm, 338, rfl⟩
abbrev main_call6_v4 : Ref sig .tc := ⟨.hbm, 339, rfl⟩
abbrev main_call6_v5 : Ref sig .tc := ⟨.hbm, 340, rfl⟩
abbrev main_call6_c_1 : Ref sig .tc := ⟨.hbm, 341, rfl⟩
abbrev main_call6_c_2 : Ref sig .tc := ⟨.hbm, 342, rfl⟩
abbrev main_call6_v6 : Ref sig .tc := ⟨.hbm, 343, rfl⟩
abbrev main_call6_v7 : Ref sig .tc := ⟨.hbm, 344, rfl⟩
abbrev main_call6_v8 : Ref sig .tc := ⟨.hbm, 345, rfl⟩
abbrev main_call6_v9 : Ref sig .tc := ⟨.hbm, 346, rfl⟩
abbrev main_call6_v10 : Ref sig .tc := ⟨.hbm, 347, rfl⟩
abbrev main_call6_v11 : Ref sig .tc := ⟨.hbm, 348, rfl⟩
abbrev main_call6_c_3 : Ref sig .tc := ⟨.hbm, 349, rfl⟩
abbrev main_call6_v12 : Ref sig .tc := ⟨.hbm, 350, rfl⟩
abbrev main_call6_v13 : Ref sig .tc := ⟨.hbm, 351, rfl⟩
abbrev main_call6_v14 : Ref sig .tc := ⟨.hbm, 352, rfl⟩
abbrev main_call6_cst : Ref sig .tc := ⟨.hbm, 353, rfl⟩
abbrev main_call6_v15 : Ref sig .tc := ⟨.hbm, 354, rfl⟩
abbrev main_v166 : Ref sig .tc := ⟨.hbm, 355, rfl⟩
abbrev main_call7_c : Ref sig .tc := ⟨.hbm, 356, rfl⟩
abbrev main_call7_v0 : Ref sig .tc := ⟨.hbm, 357, rfl⟩
abbrev main_call7_v1 : Ref sig .tc := ⟨.hbm, 358, rfl⟩
abbrev main_call7_c_0 : Ref sig .tc := ⟨.hbm, 359, rfl⟩
abbrev main_call7_v2 : Ref sig .tc := ⟨.hbm, 360, rfl⟩
abbrev main_call7_v3 : Ref sig .tc := ⟨.hbm, 361, rfl⟩
abbrev main_call7_v4 : Ref sig .tc := ⟨.hbm, 362, rfl⟩
abbrev main_call7_v5 : Ref sig .tc := ⟨.hbm, 363, rfl⟩
abbrev main_call7_c_1 : Ref sig .tc := ⟨.hbm, 364, rfl⟩
abbrev main_call7_c_2 : Ref sig .tc := ⟨.hbm, 365, rfl⟩
abbrev main_call7_v6 : Ref sig .tc := ⟨.hbm, 366, rfl⟩
abbrev main_call7_v7 : Ref sig .tc := ⟨.hbm, 367, rfl⟩
abbrev main_call7_v8 : Ref sig .tc := ⟨.hbm, 368, rfl⟩
abbrev main_call7_v9 : Ref sig .tc := ⟨.hbm, 369, rfl⟩
abbrev main_call7_v10 : Ref sig .tc := ⟨.hbm, 370, rfl⟩
abbrev main_call7_v11 : Ref sig .tc := ⟨.hbm, 371, rfl⟩
abbrev main_call7_c_3 : Ref sig .tc := ⟨.hbm, 372, rfl⟩
abbrev main_call7_v12 : Ref sig .tc := ⟨.hbm, 373, rfl⟩
abbrev main_call7_v13 : Ref sig .tc := ⟨.hbm, 374, rfl⟩
abbrev main_call7_v14 : Ref sig .tc := ⟨.hbm, 375, rfl⟩
abbrev main_call7_cst : Ref sig .tc := ⟨.hbm, 376, rfl⟩
abbrev main_call7_v15 : Ref sig .tc := ⟨.hbm, 377, rfl⟩
abbrev main_v167 : Ref sig .tc := ⟨.hbm, 378, rfl⟩
abbrev main_v168 : Ref sig .tc := ⟨.hbm, 379, rfl⟩
abbrev main_cst_17 : Ref sig .tc := ⟨.hbm, 380, rfl⟩
abbrev main_v169 : Ref sig .tc := ⟨.hbm, 381, rfl⟩
abbrev main_v170 : Ref sig .tc := ⟨.hbm, 382, rfl⟩
abbrev main_v171 : Ref sig .tc := ⟨.hbm, 383, rfl⟩
abbrev main_v172 : Ref sig .tc := ⟨.hbm, 384, rfl⟩
abbrev main_v173 : Ref sig .tc := ⟨.hbm, 385, rfl⟩
abbrev main_v174_0 : Ref sig .tc := ⟨.hbm, 386, rfl⟩
abbrev main_v174_1 : Ref sig .tc := ⟨.hbm, 387, rfl⟩
abbrev main_cst_18 : Ref sig .tc := ⟨.hbm, 388, rfl⟩
abbrev main_v175 : Ref sig .tc := ⟨.hbm, 389, rfl⟩
abbrev main_v176 : Ref sig .tc := ⟨.hbm, 390, rfl⟩
abbrev main_cst_19 : Ref sig .tc := ⟨.hbm, 391, rfl⟩
abbrev main_v177 : Ref sig .tc := ⟨.hbm, 392, rfl⟩
abbrev main_v178 : Ref sig .tc := ⟨.hbm, 393, rfl⟩
abbrev main_v179 : Ref sig .tc := ⟨.hbm, 394, rfl⟩
abbrev main_v180 : Ref sig .tc := ⟨.hbm, 395, rfl⟩
abbrev main_cst_20 : Ref sig .tc := ⟨.hbm, 396, rfl⟩
abbrev main_v181 : Ref sig .tc := ⟨.hbm, 397, rfl⟩
abbrev main_v182 : Ref sig .tc := ⟨.hbm, 398, rfl⟩
abbrev main_cst_21 : Ref sig .tc := ⟨.hbm, 399, rfl⟩
abbrev main_v183 : Ref sig .tc := ⟨.hbm, 400, rfl⟩
abbrev main_v184 : Ref sig .tc := ⟨.hbm, 401, rfl⟩
abbrev main_v185 : Ref sig .tc := ⟨.hbm, 402, rfl⟩
abbrev main_v186 : Ref sig .tc := ⟨.hbm, 403, rfl⟩
abbrev main_cst_22 : Ref sig .tc := ⟨.hbm, 404, rfl⟩
abbrev main_v187 : Ref sig .tc := ⟨.hbm, 405, rfl⟩
abbrev main_cst_23 : Ref sig .tc := ⟨.hbm, 406, rfl⟩
abbrev main_v188 : Ref sig .tc := ⟨.hbm, 407, rfl⟩
abbrev main_v189 : Ref sig .tc := ⟨.hbm, 408, rfl⟩
abbrev main_v190 : Ref sig .tc := ⟨.hbm, 409, rfl⟩
abbrev main_cst_24 : Ref sig .tc := ⟨.hbm, 410, rfl⟩
abbrev main_v191 : Ref sig .tc := ⟨.hbm, 411, rfl⟩
abbrev main_v192 : Ref sig .tc := ⟨.hbm, 412, rfl⟩
abbrev main_v193 : Ref sig .tc := ⟨.hbm, 413, rfl⟩
abbrev main_cst_25 : Ref sig .tc := ⟨.hbm, 414, rfl⟩
abbrev main_v194 : Ref sig .tc := ⟨.hbm, 415, rfl⟩
abbrev main_v195 : Ref sig .tc := ⟨.hbm, 416, rfl⟩
abbrev main_v196 : Ref sig .tc := ⟨.hbm, 417, rfl⟩
abbrev main_v197 : Ref sig .tc := ⟨.hbm, 418, rfl⟩
abbrev main_v198 : Ref sig .tc := ⟨.hbm, 419, rfl⟩
abbrev main_v199 : Ref sig .tc := ⟨.hbm, 420, rfl⟩
abbrev main_v200 : Ref sig .tc := ⟨.hbm, 421, rfl⟩
abbrev main_v201 : Ref sig .tc := ⟨.hbm, 422, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg10_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg9_0 : Ref sig .tc := ⟨.vmem, 63, rfl⟩
abbrev cc5_stg10_0 : Ref sig .tc := ⟨.vmem, 64, rfl⟩
abbrev cc5_stg10_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg5_1 : Ref sig .tc := ⟨.vmem, 74, rfl⟩
abbrev cc7_stg0_0 : Ref sig .tc := ⟨.vmem, 75, rfl⟩
abbrev cc7_stg0_1 : Ref sig .tc := ⟨.vmem, 76, rfl⟩
abbrev cc7_stg1_0 : Ref sig .tc := ⟨.vmem, 77, rfl⟩
abbrev cc7_stg1_1 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg6_0 : Ref sig .tc := ⟨.vmem, 83, rfl⟩
abbrev cc7_stg7_0 : Ref sig .tc := ⟨.vmem, 84, rfl⟩
abbrev cc8_stg0_0 : Ref sig .tc := ⟨.vmem, 85, rfl⟩
abbrev cc8_stg0_1 : Ref sig .tc := ⟨.vmem, 86, rfl⟩
abbrev cc8_stg1_0 : Ref sig .tc := ⟨.vmem, 87, rfl⟩
abbrev cc8_stg1_1 : Ref sig .tc := ⟨.vmem, 88, rfl⟩
abbrev cc8_stg2_0 : Ref sig .tc := ⟨.vmem, 89, rfl⟩
abbrev cc8_stg3_0 : Ref sig .tc := ⟨.vmem, 90, rfl⟩
abbrev cc8_stg4_0 : Ref sig .tc := ⟨.vmem, 91, rfl⟩
abbrev cc8_stg5_0 : Ref sig .tc := ⟨.vmem, 92, rfl⟩
abbrev cc8_stg6_0 : Ref sig .tc := ⟨.vmem, 93, rfl⟩
abbrev cc8_stg7_0 : Ref sig .tc := ⟨.vmem, 94, rfl⟩
abbrev cc8_stg8_0 : Ref sig .tc := ⟨.vmem, 95, rfl⟩
abbrev cc8_stg9_0 : Ref sig .tc := ⟨.vmem, 96, rfl⟩
abbrev cc8_stg10_0 : Ref sig .tc := ⟨.vmem, 97, rfl⟩
abbrev cc8_stg10_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg1_1 : Ref sig .tc := ⟨.vmem, 102, rfl⟩
abbrev cc9_stg2_0 : Ref sig .tc := ⟨.vmem, 103, rfl⟩
abbrev cc9_stg3_0 : Ref sig .tc := ⟨.vmem, 104, rfl⟩
abbrev cc9_stg4_0 : Ref sig .tc := ⟨.vmem, 105, rfl⟩
abbrev cc9_stg5_0 : Ref sig .tc := ⟨.vmem, 106, rfl⟩
abbrev cc9_stg5_1 : Ref sig .tc := ⟨.vmem, 107, rfl⟩
abbrev cc10_stg0_0 : Ref sig .tc := ⟨.vmem, 108, rfl⟩
abbrev cc10_stg0_1 : Ref sig .tc := ⟨.vmem, 109, rfl⟩
abbrev cc10_stg1_0 : Ref sig .tc := ⟨.vmem, 110, rfl⟩
abbrev cc10_stg1_1 : Ref sig .tc := ⟨.vmem, 111, rfl⟩
abbrev cc10_stg2_0 : Ref sig .tc := ⟨.vmem, 112, rfl⟩
abbrev cc10_stg3_0 : Ref sig .tc := ⟨.vmem, 113, rfl⟩
abbrev cc10_stg4_0 : Ref sig .tc := ⟨.vmem, 114, rfl⟩
abbrev cc10_stg5_0 : Ref sig .tc := ⟨.vmem, 115, rfl⟩
abbrev cc10_stg6_0 : Ref sig .tc := ⟨.vmem, 116, rfl⟩
abbrev cc10_stg7_0 : Ref sig .tc := ⟨.vmem, 117, rfl⟩
abbrev cc11_stg0_0 : Ref sig .tc := ⟨.vmem, 118, rfl⟩
abbrev cc11_stg0_1 : Ref sig .tc := ⟨.vmem, 119, rfl⟩
abbrev cc11_stg1_0 : Ref sig .tc := ⟨.vmem, 120, rfl⟩
abbrev cc11_stg1_1 : Ref sig .tc := ⟨.vmem, 121, rfl⟩
abbrev cc11_stg2_0 : Ref sig .tc := ⟨.vmem, 122, rfl⟩
abbrev cc11_stg3_0 : Ref sig .tc := ⟨.vmem, 123, rfl⟩
abbrev cc11_stg4_0 : Ref sig .tc := ⟨.vmem, 124, rfl⟩
abbrev cc11_stg5_0 : Ref sig .tc := ⟨.vmem, 125, rfl⟩
abbrev cc11_stg6_0 : Ref sig .tc := ⟨.vmem, 126, rfl⟩
abbrev cc11_stg7_0 : Ref sig .tc := ⟨.vmem, 127, rfl⟩
abbrev cc11_stg8_0 : Ref sig .tc := ⟨.vmem, 128, rfl⟩
abbrev cc11_stg9_0 : Ref sig .tc := ⟨.vmem, 129, rfl⟩
abbrev cc11_stg10_0 : Ref sig .tc := ⟨.vmem, 130, rfl⟩
abbrev cc11_stg10_1 : Ref sig .tc := ⟨.vmem, 131, rfl⟩
abbrev cc12_stg0_0 : Ref sig .tc := ⟨.vmem, 132, rfl⟩
abbrev cc12_stg1_0 : Ref sig .tc := ⟨.vmem, 133, rfl⟩
abbrev cc12_stg2_0 : Ref sig .tc := ⟨.vmem, 134, rfl⟩
abbrev cc12_stg3_0 : Ref sig .tc := ⟨.vmem, 135, rfl⟩
abbrev cc12_stg4_0 : Ref sig .tc := ⟨.vmem, 136, rfl⟩
abbrev cc12_stg5_0 : Ref sig .tc := ⟨.vmem, 137, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem10_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem9_0 : DmaSem sig := 63
abbrev cc5_sem10_0 : DmaSem sig := 64
abbrev cc5_sem10_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem5_1 : DmaSem sig := 74
abbrev cc7_sem0_0 : DmaSem sig := 75
abbrev cc7_sem0_1 : DmaSem sig := 76
abbrev cc7_sem1_0 : DmaSem sig := 77
abbrev cc7_sem1_1 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem6_0 : DmaSem sig := 83
abbrev cc7_sem7_0 : DmaSem sig := 84
abbrev cc8_sem0_0 : DmaSem sig := 85
abbrev cc8_sem0_1 : DmaSem sig := 86
abbrev cc8_sem1_0 : DmaSem sig := 87
abbrev cc8_sem1_1 : DmaSem sig := 88
abbrev cc8_sem2_0 : DmaSem sig := 89
abbrev cc8_sem3_0 : DmaSem sig := 90
abbrev cc8_sem4_0 : DmaSem sig := 91
abbrev cc8_sem5_0 : DmaSem sig := 92
abbrev cc8_sem6_0 : DmaSem sig := 93
abbrev cc8_sem7_0 : DmaSem sig := 94
abbrev cc8_sem8_0 : DmaSem sig := 95
abbrev cc8_sem9_0 : DmaSem sig := 96
abbrev cc8_sem10_0 : DmaSem sig := 97
abbrev cc8_sem10_1 : DmaSem sig := 98
abbrev cc9_sem0_0 : DmaSem sig := 99
abbrev cc9_sem0_1 : DmaSem sig := 100
abbrev cc9_sem1_0 : DmaSem sig := 101
abbrev cc9_sem1_1 : DmaSem sig := 102
abbrev cc9_sem2_0 : DmaSem sig := 103
abbrev cc9_sem3_0 : DmaSem sig := 104
abbrev cc9_sem4_0 : DmaSem sig := 105
abbrev cc9_sem5_0 : DmaSem sig := 106
abbrev cc9_sem5_1 : DmaSem sig := 107
abbrev cc10_sem0_0 : DmaSem sig := 108
abbrev cc10_sem0_1 : DmaSem sig := 109
abbrev cc10_sem1_0 : DmaSem sig := 110
abbrev cc10_sem1_1 : DmaSem sig := 111
abbrev cc10_sem2_0 : DmaSem sig := 112
abbrev cc10_sem3_0 : DmaSem sig := 113
abbrev cc10_sem4_0 : DmaSem sig := 114
abbrev cc10_sem5_0 : DmaSem sig := 115
abbrev cc10_sem6_0 : DmaSem sig := 116
abbrev cc10_sem7_0 : DmaSem sig := 117
abbrev cc11_sem0_0 : DmaSem sig := 118
abbrev cc11_sem0_1 : DmaSem sig := 119
abbrev cc11_sem1_0 : DmaSem sig := 120
abbrev cc11_sem1_1 : DmaSem sig := 121
abbrev cc11_sem2_0 : DmaSem sig := 122
abbrev cc11_sem3_0 : DmaSem sig := 123
abbrev cc11_sem4_0 : DmaSem sig := 124
abbrev cc11_sem5_0 : DmaSem sig := 125
abbrev cc11_sem6_0 : DmaSem sig := 126
abbrev cc11_sem7_0 : DmaSem sig := 127
abbrev cc11_sem8_0 : DmaSem sig := 128
abbrev cc11_sem9_0 : DmaSem sig := 129
abbrev cc11_sem10_0 : DmaSem sig := 130
abbrev cc11_sem10_1 : DmaSem sig := 131
abbrev cc12_sem0_0 : DmaSem sig := 132
abbrev cc12_sem1_0 : DmaSem sig := 133
abbrev cc12_sem2_0 : DmaSem sig := 134
abbrev cc12_sem3_0 : DmaSem sig := 135
abbrev cc12_sem4_0 : DmaSem sig := 136
abbrev cc12_sem5_0 : DmaSem sig := 137

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S10000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S10000x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S8000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S10000x64 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S8000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x64 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x64 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S1x64 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 2 → Memref sig .tc .vmem S10000x64 .f32 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S500x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x10 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x10 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S500x10 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S4x128x64_S1x64x64_0_0_0 : S4x128x64.Slices ![0, 0, 0] S1x64x64
  shapeCasts_S1x64x64_S64x64 : S1x64x64.ShapeCasts S64x64
  slices_S4x128x64_S1x64x64_0_64_0 : S4x128x64.Slices ![0, 64, 0] S1x64x64
  slices_S4x64_S1x64_0_0 : S4x64.Slices ![0, 0] S1x64
  shapeCasts_S1x64_S64 : S1x64.ShapeCasts S64
  shapeCasts_S64_S1x64 : S64.ShapeCasts S1x64
  slices_S4_S1_0 : S4.Slices ![0] S1
  shapeCasts_S1_S_ : S1.ShapeCasts S_
  bcast_S_S1x64 : S_.BroadcastsInDim S1x64 (![] : Fin 0 → Fin S1x64.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reduces_S10000x64_S64 : S10000x64.Reduces [0] S64
  slices_S4x128x64_S1x64x64_1_0_0 : S4x128x64.Slices ![1, 0, 0] S1x64x64
  slices_S4x128x64_S1x64x64_1_64_0 : S4x128x64.Slices ![1, 64, 0] S1x64x64
  slices_S4x64_S1x64_1_0 : S4x64.Slices ![1, 0] S1x64
  slices_S4_S1_1 : S4.Slices ![1] S1
  slices_S4x128x64_S1x64x64_2_0_0 : S4x128x64.Slices ![2, 0, 0] S1x64x64
  slices_S4x128x64_S1x64x64_2_64_0 : S4x128x64.Slices ![2, 64, 0] S1x64x64
  slices_S4x64_S1x64_2_0 : S4x64.Slices ![2, 0] S1x64
  slices_S4_S1_2 : S4.Slices ![2] S1
  slices_S4x128x64_S1x64x64_3_0_0 : S4x128x64.Slices ![3, 0, 0] S1x64x64
  slices_S4x128x64_S1x64x64_3_64_0 : S4x128x64.Slices ![3, 64, 0] S1x64x64
  slices_S4x64_S1x64_3_0 : S4x64.Slices ![3, 0] S1x64
  slices_S4_S1_3 : S4.Slices ![3] S1
  bcast_S_S500 : S_.BroadcastsInDim S500 (![] : Fin 0 → Fin S500.rank)
  bcast_S500_S500x1_0 : S500.BroadcastsInDim S500x1 (![0] : Fin 1 → Fin S500x1.rank)
  bcast_S_S500x64 : S_.BroadcastsInDim S500x64 (![] : Fin 0 → Fin S500x64.rank)
  bcast_S500x1_S500x64_0_1 : S500x1.BroadcastsInDim S500x64 (![0, 1] : Fin 2 → Fin S500x64.rank)
  shapeCasts_S10_S1x10 : S10.ShapeCasts S1x10
  inb_S500x64_S500x64_0_0 : ∀ a, (![0, 0] : Fin 2 → Nat) a + S500x64.size a ≤ S500x64.size a
  h_S500x64 : 0 < S500x64.numel
  shapeCasts_S500x64_S500x64 : S500x64.ShapeCasts S500x64
  broadcasts_S1x64_S500x64 : S1x64.Broadcasts S500x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S500_S50000x1_S50000_n_0_0_1_wf : ScatterDims.WF S500 S50000x1 S50000 [] [0] [0] 1
  scatter_S500x64_S50000x1_S50000x64_1_0_0_1_wf : ScatterDims.WF S500x64 S50000x1 S50000x64 [1] [0] [0] 1
  dot_S500x64_S64x64_S500x64_1_0_0_1_n_n_wf : DotDims.WF S500x64 S64x64 S500x64 [1] [0] [0] [1] [] []
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x64.size a ≤ S50000x64.size a
  hwx2_10 : ∀ i : grid2.Coords, EltTy.bits .f32 = 32 ∨ (Rect.block (s := S50000x64) S10000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S800000x64.size a
  hwx3_1 : ∀ i : grid3.Coords, EltTy.bits .f32 = 32 ∨ (Rect.block (s := S800000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S800000x64.size a
  hwx3_5 : ∀ i : grid3.Coords, EltTy.bits .f32 = 32 ∨ (Rect.block (s := S800000x64) S8000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S10000x64.size a ≤ S50000x64.size a
  hwx5_10 : ∀ i : grid5.Coords, EltTy.bits .f32 = 32 ∨ (Rect.block (s := S50000x64) S10000x64.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S800000x64.size a
  hwx6_0 : ∀ i : grid6.Coords, EltTy.bits .f32 = 32 ∨ (Rect.block (s := S800000x64) S8000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S800000x64.size a
  hwx6_1 : ∀ i : grid6.Coords, EltTy.bits .f32 = 32 ∨ (Rect.block (s := S800000x64) S8000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S8000x64.size a ≤ S800000x64.size a
  hwx6_5 : ∀ i : grid6.Coords, EltTy.bits .f32 = 32 ∨ (Rect.block (s := S800000x64) S8000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S50000x64.size a
  hwx7_1 : ∀ i : grid7.Coords, EltTy.bits .f32 = 32 ∨ (Rect.block (s := S50000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S50000x64.size a
  hwx8_1 : ∀ i : grid8.Coords, EltTy.bits .f32 = 32 ∨ (Rect.block (s := S50000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x64.size a ≤ S1x64.size a
  hwx8_8 : ∀ i : grid8.Coords, EltTy.bits .f32 = 32 ∨ (Rect.block (s := S1x64) S1x64.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x64.size a ≤ S1x64.size a
  hwx8_9 : ∀ i : grid8.Coords, EltTy.bits .f32 = 32 ∨ (Rect.block (s := S1x64) S1x64.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S10000x64.size a ≤ S50000x64.size a
  hwx8_10 : ∀ i : grid8.Coords, EltTy.bits .f32 = 32 ∨ (Rect.block (s := S50000x64) S10000x64.size (cc8_transform_10 i) (hinb8_10 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x64.size a ≤ S800000x64.size a
  hwx9_0 : ∀ i : grid9.Coords, EltTy.bits .f32 = 32 ∨ (Rect.block (s := S800000x64) S8000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x64.size a ≤ S800000x64.size a
  hwx9_1 : ∀ i : grid9.Coords, EltTy.bits .f32 = 32 ∨ (Rect.block (s := S800000x64) S8000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S8000x64.size a ≤ S800000x64.size a
  hwx9_5 : ∀ i : grid9.Coords, EltTy.bits .f32 = 32 ∨ (Rect.block (s := S800000x64) S8000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S50000x64.size a
  hwx10_0 : ∀ i : grid10.Coords, EltTy.bits .f32 = 32 ∨ (Rect.block (s := S50000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S50000x64.size a
  hwx10_1 : ∀ i : grid10.Coords, EltTy.bits .f32 = 32 ∨ (Rect.block (s := S50000x64) S10000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x64.size a ≤ S1x64.size a
  hwx10_7 : ∀ i : grid10.Coords, EltTy.bits .f32 = 32 ∨ (Rect.block (s := S1x64) S1x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S50000x64.size a
  hwx11_0 : ∀ i : grid11.Coords, EltTy.bits .f32 = 32 ∨ (Rect.block (s := S50000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S50000x64.size a
  hwx11_1 : ∀ i : grid11.Coords, EltTy.bits .f32 = 32 ∨ (Rect.block (s := S50000x64) S10000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x64.size a ≤ S1x64.size a
  hwx11_5 : ∀ i : grid11.Coords, EltTy.bits .f32 = 32 ∨ (Rect.block (s := S1x64) S1x64.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x64.size a ≤ S1x64.size a
  hwx11_6 : ∀ i : grid11.Coords, EltTy.bits .f32 = 32 ∨ (Rect.block (s := S1x64) S1x64.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x64.size a ≤ S1x64.size a
  hwx11_7 : ∀ i : grid11.Coords, EltTy.bits .f32 = 32 ∨ (Rect.block (s := S1x64) S1x64.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x64.size a ≤ S1x64.size a
  hwx11_8 : ∀ i : grid11.Coords, EltTy.bits .f32 = 32 ∨ (Rect.block (s := S1x64) S1x64.size (cc11_transform_8 i) (hinb11_8 i)).WholeWords (EltTy.packing .f32)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S1x64.size a ≤ S1x64.size a
  hwx11_9 : ∀ i : grid11.Coords, EltTy.bits .f32 = 32 ∨ (Rect.block (s := S1x64) S1x64.size (cc11_transform_9 i) (hinb11_9 i)).WholeWords (EltTy.packing .f32)
  hstage11_10 : ∀ j, (stage11_10 j).IsWhole
  nbuf11_10 : grid11.bufCount reads11_10 false = 2
  hreads11_10 : ∀ i i' : grid11.Coords, (∀ a, reads11_10 a = true → i a = i' a) → cc11_transform_10 i = cc11_transform_10 i'
  hinb11_10 : ∀ (i : grid11.Coords) a, (cc11_transform_10 i a + 1) * S10000x64.size a ≤ S50000x64.size a
  hwx11_10 : ∀ i : grid11.Coords, EltTy.bits .f32 = 32 ∨ (Rect.block (s := S50000x64) S10000x64.size (cc11_transform_10 i) (hinb11_10 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S500x64.size a ≤ S500x64.size a
  hwx12_0 : ∀ i : grid12.Coords, EltTy.bits .f32 = 32 ∨ (Rect.block (s := S500x64) S500x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x10.size a ≤ S64x10.size a
  hwx12_3 : ∀ i : grid12.Coords, EltTy.bits .f32 = 32 ∨ (Rect.block (s := S64x10) S64x10.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x10.size a ≤ S1x10.size a
  hwx12_4 : ∀ i : grid12.Coords, EltTy.bits .f32 = 32 ∨ (Rect.block (s := S1x10) S1x10.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S500x10.size a ≤ S500x10.size a
  hwx12_5 : ∀ i : grid12.Coords, EltTy.bits .f32 = 32 ∨ (Rect.block (s := S500x10) S500x10.size (cc12_transform_5 i) (hinb12_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_v34) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42_0) S1x64.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42_1) S1x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v30) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v33) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v54) S10000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v78) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S8000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86_0) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v86_1) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v54) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v97) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v74) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v77) S1x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v98) S10000x64.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v122) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v123) S8000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v100) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v124) S8000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v98) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v104) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v106) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v112) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130_0) S1x64.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v130_1) S1x64.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v98) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v129) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v104) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v106) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v112) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v115) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v132) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v141) S1x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v118) S1x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v121) S1x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v142) S10000x64.size cc8_transform_10 reads8_10 true false 2 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev win9_0 : Pipeline.Window sig grid9 :=
  Pipeline.Window.ofSpec (Memref.whole main_v166) S8000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v167) S8000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v144) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v146) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v153) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v168) S8000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v142) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v173) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v148) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v150) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v156) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v159) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v174_0) S1x64.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v174_1) S1x64.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v142) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v173) S10000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v148) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v150) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v156) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v159) S1x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v176) S1x64.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v185) S1x64.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v162) S1x64.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v165) S1x64.size cc11_transform_9 reads11_9 false true 1 stage11_9 sem11_9
    hrank11 hreads11_9 hinb11_9 nbuf11_9 (Memref.isWhole_whole _) hwx11_9 hstage11_9

abbrev win11_10 : Pipeline.Window sig grid11 :=
  Pipeline.Window.ofSpec (Memref.whole main_v186) S10000x64.size cc11_transform_10 reads11_10 true false 2 stage11_10 sem11_10
    hrank11 hreads11_10 hinb11_10 nbuf11_10 (Memref.isWhole_whole _) hwx11_10 hstage11_10

abbrev win11 : Fin 11 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | ⟨_ + 11, h⟩ => absurd h (Nat.not_lt.2 (Nat.le_add_left _ _))
abbrev spec11 : Fin 11 → Pipeline.WinSpec sig grid11.rank := fun w => (win11 w).toWinSpec

abbrev win12_0 : Pipeline.Window sig grid12 :=
  Pipeline.Window.ofSpec (Memref.whole main_v198) S500x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_arg10) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v199) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg12) S64x10.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v200) S1x10.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v201) S500x10.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S4x128x64 : Shape := ⟨3, ![4, 128, 64]⟩
abbrev S4x64 : Shape := ⟨2, ![4, 64]⟩
abbrev S4 : Shape := ⟨1, ![4]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64 : Shape := ⟨2, ![1, 64]⟩
abbrev S50000x128 : Shape := ⟨2, ![50000, 128]⟩
abbrev S1 : Shape := ⟨1, ![1]⟩
abbrev S500 : Shape := ⟨1, ![500]⟩
abbrev S500x1 : Shape := ⟨2, ![500, 1]⟩
abbrev S500x64 : Shape := ⟨2, ![500, 64]⟩
abbrev S500x10 : Shape := ⟨2, ![500, 10]⟩
abbrev S1x10 : Shape := ⟨2, ![1, 10]⟩

abbrev nBuf : Space → Nat
  | .hbm => 459
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S4x128x64, .f32⟩
  | 4 => ⟨S4x64, .f32⟩
  | 5 => ⟨S4x128x64, .f32⟩
  | 6 => ⟨S4x64, .f32⟩
  | 7 => ⟨S4, .f32⟩
  | 8 => ⟨S4x64, .f32⟩
  | 9 => ⟨S4x64, .f32⟩
  | 10 => ⟨S64x64, .f32⟩
  | 11 => ⟨S64, .f32⟩
  | 12 => ⟨S64x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S800000x128, .f32⟩
  | 47 => ⟨S1x128x64, .f32⟩
  | 48 => ⟨S128x64, .f32⟩
  | 49 => ⟨S800000x64, .f32⟩
  | 50 => ⟨S1x64, .f32⟩
  | 51 => ⟨S64, .f32⟩
  | 52 => ⟨S1x64, .f32⟩
  | 53 => ⟨S800000x64, .f32⟩
  | 54 => ⟨S800000x64, .f32⟩
  | 55 => ⟨S_, .f32⟩
  | 56 => ⟨S800000x64, .f32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000x64, .f32⟩
  | 63 => ⟨S50000x64, .f32⟩
  | 64 => ⟨S50000x128, .f32⟩
  | 65 => ⟨S1x128x64, .f32⟩
  | 66 => ⟨S128x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .i1⟩
  | 76 => ⟨S1, .f32⟩
  | 77 => ⟨S_, .f32⟩
  | 78 => ⟨S50000x64, .f32⟩
  | 79 => ⟨S50000x64, .f32⟩
  | 80 => ⟨S50000x64, .f32⟩
  | 81 => ⟨S_, .f32⟩
  | 82 => ⟨S64, .f32⟩
  | 83 => ⟨S_, .f32⟩
  | 84 => ⟨S64, .f32⟩
  | 85 => ⟨S64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S50000x64, .f32⟩
  | 94 => ⟨S50000x64, .f32⟩
  | 95 => ⟨S50000x64, .f32⟩
  | 96 => ⟨S_, .f32⟩
  | 97 => ⟨S_, .f32⟩
  | 98 => ⟨S_, .f32⟩
  | 99 => ⟨S_, .f32⟩
  | 100 => ⟨S64, .f32⟩
  | 101 => ⟨S64, .f32⟩
  | 102 => ⟨S64, .f32⟩
  | 103 => ⟨S_, .f32⟩
  | 104 => ⟨S_, .i1⟩
  | 105 => ⟨S_, .f32⟩
  | 106 => ⟨S_, .f32⟩
  | 107 => ⟨S64, .f32⟩
  | 108 => ⟨S64, .f32⟩
  | 109 => ⟨S1x64, .f32⟩
  | 110 => ⟨S50000x64, .f32⟩
  | 111 => ⟨S50000x64, .f32⟩
  | 112 => ⟨S_, .f32⟩
  | 113 => ⟨S64, .f32⟩
  | 114 => ⟨S64, .f32⟩
  | 115 => ⟨S64, .f32⟩
  | 116 => ⟨S1x64, .f32⟩
  | 117 => ⟨S50000x64, .f32⟩
  | 118 => ⟨S50000x64, .f32⟩
  | 119 => ⟨S1x64, .f32⟩
  | 120 => ⟨S64, .f32⟩
  | 121 => ⟨S1x64, .f32⟩
  | 122 => ⟨S50000x64, .f32⟩
  | 123 => ⟨S50000x64, .f32⟩
  | 124 => ⟨S1x64, .f32⟩
  | 125 => ⟨S64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x128, .f32⟩
  | 20 => ⟨S1x128x64, .f32⟩
  | 21 => ⟨S128x64, .f32⟩
  | 22 => ⟨S800000x64, .f32⟩
  | 23 => ⟨S1x64, .f32⟩
  | 24 => ⟨S64, .f32⟩
  | 25 => ⟨S1x64, .f32⟩
  | 26 => ⟨S800000x64, .f32⟩
  | 27 => ⟨S800000x64, .f32⟩
  | 28 => ⟨S_, .f32⟩
  | 29 => ⟨S800000x64, .f32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x64, .f32⟩
  | 36 => ⟨S50000x64, .f32⟩
  | 37 => ⟨S50000x128, .f32⟩
  | 38 => ⟨S1x128x64, .f32⟩
  | 39 => ⟨S128x64, .f32⟩
  | 40 => ⟨S50000x64, .f32⟩
  | 41 => ⟨S1x64, .f32⟩
  | 42 => ⟨S64, .f32⟩
  | 43 => ⟨S1x64, .f32⟩
  | 44 => ⟨S50000x64, .f32⟩
  | 45 => ⟨S50000x64, .f32⟩
  | 46 => ⟨S_, .f32⟩
  | 47 => ⟨S50000x64, .f32⟩
  | 48 => ⟨S50000x64, .i1⟩
  | 49 => ⟨S1, .f32⟩
  | 50 => ⟨S_, .f32⟩
  | 51 => ⟨S50000x64, .f32⟩
  | 52 => ⟨S50000x64, .f32⟩
  | 53 => ⟨S50000x64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S50000x64, .f32⟩
  | 67 => ⟨S50000x64, .f32⟩
  | 68 => ⟨S50000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S1x64, .f32⟩
  | 93 => ⟨S64, .f32⟩
  | 94 => ⟨S1x64, .f32⟩
  | 95 => ⟨S50000x64, .f32⟩
  | 96 => ⟨S50000x64, .f32⟩
  | 97 => ⟨S1x64, .f32⟩
  | 98 => ⟨S64, .f32⟩
  | 99 => ⟨S1x64, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x128, .f32⟩
  | 121 => ⟨S1x128x64, .f32⟩
  | 122 => ⟨S128x64, .f32⟩
  | 123 => ⟨S800000x64, .f32⟩
  | 124 => ⟨S1x64, .f32⟩
  | 125 => ⟨S64, .f32⟩
  | 126 => ⟨S1x64, .f32⟩
  | 127 => ⟨S800000x64, .f32⟩
  | _ => ⟨S50000x64, .f32⟩

abbrev hbmTy0_2 (i : Nat) : BufTy := match i % 128 with
  | 0 => ⟨S800000x64, .f32⟩
  | 1 => ⟨S_, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S50000x64, .f32⟩
  | 9 => ⟨S50000x64, .f32⟩
  | 10 => ⟨S50000x128, .f32⟩
  | 11 => ⟨S1x128x64, .f32⟩
  | 12 => ⟨S128x64, .f32⟩
  | 13 => ⟨S50000x64, .f32⟩
  | 14 => ⟨S1x64, .f32⟩
  | 15 => ⟨S64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .i1⟩
  | 22 => ⟨S1, .f32⟩
  | 23 => ⟨S_, .f32⟩
  | 24 => ⟨S50000x64, .f32⟩
  | 25 => ⟨S50000x64, .f32⟩
  | 26 => ⟨S50000x64, .f32⟩
  | 27 => ⟨S_, .f32⟩
  | 28 => ⟨S64, .f32⟩
  | 29 => ⟨S_, .f32⟩
  | 30 => ⟨S64, .f32⟩
  | 31 => ⟨S64, .f32⟩
  | 32 => ⟨S_, .i32⟩
  | 33 => ⟨S_, .f32⟩
  | 34 => ⟨S64, .f32⟩
  | 35 => ⟨S1x64, .f32⟩
  | 36 => ⟨S_, .f32⟩
  | 37 => ⟨S1x64, .f32⟩
  | 38 => ⟨S1x64, .f32⟩
  | 39 => ⟨S50000x64, .f32⟩
  | 40 => ⟨S50000x64, .f32⟩
  | 41 => ⟨S50000x64, .f32⟩
  | 42 => ⟨S_, .f32⟩
  | 43 => ⟨S_, .f32⟩
  | 44 => ⟨S_, .f32⟩
  | 45 => ⟨S_, .f32⟩
  | 46 => ⟨S64, .f32⟩
  | 47 => ⟨S64, .f32⟩
  | 48 => ⟨S64, .f32⟩
  | 49 => ⟨S_, .f32⟩
  | 50 => ⟨S_, .i1⟩
  | 51 => ⟨S_, .f32⟩
  | 52 => ⟨S_, .f32⟩
  | 53 => ⟨S64, .f32⟩
  | 54 => ⟨S64, .f32⟩
  | 55 => ⟨S1x64, .f32⟩
  | 56 => ⟨S50000x64, .f32⟩
  | 57 => ⟨S50000x64, .f32⟩
  | 58 => ⟨S_, .f32⟩
  | 59 => ⟨S64, .f32⟩
  | 60 => ⟨S64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S64, .f32⟩
  | 67 => ⟨S1x64, .f32⟩
  | 68 => ⟨S50000x64, .f32⟩
  | 69 => ⟨S50000x64, .f32⟩
  | 70 => ⟨S1x64, .f32⟩
  | 71 => ⟨S64, .f32⟩
  | 72 => ⟨S1x64, .f32⟩
  | 73 => ⟨S50000x64, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x128, .f32⟩
  | 94 => ⟨S1x128x64, .f32⟩
  | 95 => ⟨S128x64, .f32⟩
  | 96 => ⟨S800000x64, .f32⟩
  | 97 => ⟨S1x64, .f32⟩
  | 98 => ⟨S64, .f32⟩
  | 99 => ⟨S1x64, .f32⟩
  | 100 => ⟨S800000x64, .f32⟩
  | 101 => ⟨S800000x64, .f32⟩
  | 102 => ⟨S_, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000x64, .f32⟩
  | 110 => ⟨S50000x64, .f32⟩
  | 111 => ⟨S50000x128, .f32⟩
  | 112 => ⟨S1x128x64, .f32⟩
  | 113 => ⟨S128x64, .f32⟩
  | 114 => ⟨S50000x64, .f32⟩
  | 115 => ⟨S1x64, .f32⟩
  | 116 => ⟨S64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .i1⟩
  | 123 => ⟨S1, .f32⟩
  | 124 => ⟨S_, .f32⟩
  | 125 => ⟨S50000x64, .f32⟩
  | 126 => ⟨S50000x64, .f32⟩
  | 127 => ⟨S50000x64, .f32⟩
  | _ => ⟨S50000x64, .f32⟩

abbrev hbmTy0_3 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S50000x64, .f32⟩
  | 13 => ⟨S50000x64, .f32⟩
  | 14 => ⟨S50000x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S50000x64, .f32⟩
  | 30 => ⟨S50000x64, .f32⟩
  | 31 => ⟨S_, .f32⟩
  | 32 => ⟨S64, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S1x64, .f32⟩
  | 39 => ⟨S64, .f32⟩
  | 40 => ⟨S1x64, .f32⟩
  | 41 => ⟨S50000x64, .f32⟩
  | 42 => ⟨S50000x64, .f32⟩
  | 43 => ⟨S1x64, .f32⟩
  | 44 => ⟨S64, .f32⟩
  | 45 => ⟨S1x64, .f32⟩
  | 46 => ⟨S50000x64, .f32⟩
  | 47 => ⟨S50000x64, .f32⟩
  | 48 => ⟨S_, .f32⟩
  | 49 => ⟨S50000, .f32⟩
  | 50 => ⟨S_, .f32⟩
  | 51 => ⟨S500, .f32⟩
  | 52 => ⟨S50000x1, .i32⟩
  | 53 => ⟨S500, .f32⟩
  | 54 => ⟨S_, .f32⟩
  | 55 => ⟨S500, .f32⟩
  | 56 => ⟨S500, .f32⟩
  | 57 => ⟨S500x1, .f32⟩
  | 58 => ⟨S_, .f32⟩
  | 59 => ⟨S500x64, .f32⟩
  | 60 => ⟨S50000x1, .i32⟩
  | 61 => ⟨S500x64, .f32⟩
  | 62 => ⟨S500x64, .f32⟩
  | 63 => ⟨S500x64, .f32⟩
  | 64 => ⟨S500x64, .f32⟩
  | 65 => ⟨S1x64, .f32⟩
  | 66 => ⟨S500x64, .f32⟩
  | 67 => ⟨S500x64, .f32⟩
  | 68 => ⟨S_, .f32⟩
  | 69 => ⟨S500x64, .f32⟩
  | 70 => ⟨S500x64, .f32⟩
  | 71 => ⟨S500x10, .f32⟩
  | 72 => ⟨S1x10, .f32⟩
  | 73 => ⟨S500x10, .f32⟩
  | 74 => ⟨S500x10, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_cst : Ref sig .tc := ⟨.hbm, 55, rfl⟩
abbrev main_call0_v0 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_c_9 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_cst_1 : Ref sig .tc := ⟨.hbm, 97, rfl⟩
abbrev main_call2_v8 : Ref sig .tc := ⟨.hbm, 98, rfl⟩
abbrev main_call2_cst_2 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_cst_3 : Ref sig .tc := ⟨.hbm, 103, rfl⟩
abbrev main_call2_v12 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_10 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_11 : Ref sig .tc := ⟨.hbm, 129, rfl⟩
abbrev main_v79 : Ref sig .tc := ⟨.hbm, 130, rfl⟩
abbrev main_v80 : Ref sig .tc := ⟨.hbm, 131, rfl⟩
abbrev main_c_12 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_13 : Ref sig .tc := ⟨.hbm, 138, rfl⟩
abbrev main_v86 : Ref sig .tc := ⟨.hbm, 139, rfl⟩
abbrev main_v87 : Ref sig .tc := ⟨.hbm, 140, rfl⟩
abbrev main_c_14 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_call3_cst : Ref sig .tc := ⟨.hbm, 156, rfl⟩
abbrev main_call3_v0 : Ref sig .tc := ⟨.hbm, 157, rfl⟩
abbrev main_v102 : Ref sig .tc := ⟨.hbm, 158, rfl⟩
abbrev main_cst_15 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_16 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_17 : Ref sig .tc := ⟨.hbm, 182, rfl⟩
abbrev main_v124 : Ref sig .tc := ⟨.hbm, 183, rfl⟩
abbrev main_cst_18 : Ref sig .tc := ⟨.hbm, 184, rfl⟩
abbrev main_v125 : Ref sig .tc := ⟨.hbm, 185, rfl⟩
abbrev main_v126 : Ref sig .tc := ⟨.hbm, 186, rfl⟩
abbrev main_c_19 : Ref sig .tc := ⟨.hbm, 187, rfl⟩
abbrev main_call5_cst : Ref sig .tc := ⟨.hbm, 188, rfl⟩
abbrev main_call5_v0 : Ref sig .tc := ⟨.hbm, 189, rfl⟩
abbrev main_call5_v1 : Ref sig .tc := ⟨.hbm, 190, rfl⟩
abbrev main_call5_cst_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_v5 : Ref sig .tc := ⟨.hbm, 195, rfl⟩
abbrev main_call5_v6 : Ref sig .tc := ⟨.hbm, 196, rfl⟩
abbrev main_call5_v7 : Ref sig .tc := ⟨.hbm, 197, rfl⟩
abbrev main_call5_cst_1 : Ref sig .tc := ⟨.hbm, 198, rfl⟩
abbrev main_call5_v8 : Ref sig .tc := ⟨.hbm, 199, rfl⟩
abbrev main_call5_cst_2 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_cst_3 : Ref sig .tc := ⟨.hbm, 204, rfl⟩
abbrev main_call5_v12 : Ref sig .tc := ⟨.hbm, 205, rfl⟩
abbrev main_call5_cst_4 : Ref sig .tc := ⟨.hbm, 206, rfl⟩
abbrev main_call5_call0_v0 : Ref sig .tc := ⟨.hbm, 207, rfl⟩
abbrev main_call5_call0_v1 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_cst_20 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_c_21 : Ref sig .tc := ⟨.hbm, 230, rfl⟩
abbrev main_v147 : Ref sig .tc := ⟨.hbm, 231, rfl⟩
abbrev main_v148 : Ref sig .tc := ⟨.hbm, 232, rfl⟩
abbrev main_c_22 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_c_23 : Ref sig .tc := ⟨.hbm, 239, rfl⟩
abbrev main_v154 : Ref sig .tc := ⟨.hbm, 240, rfl⟩
abbrev main_v155 : Ref sig .tc := ⟨.hbm, 241, rfl⟩
abbrev main_c_24 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_call6_cst : Ref sig .tc := ⟨.hbm, 257, rfl⟩
abbrev main_call6_v0 : Ref sig .tc := ⟨.hbm, 258, rfl⟩
abbrev main_v170 : Ref sig .tc := ⟨.hbm, 259, rfl⟩
abbrev main_cst_25 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_cst_26 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_cst_27 : Ref sig .tc := ⟨.hbm, 283, rfl⟩
abbrev main_v192 : Ref sig .tc := ⟨.hbm, 284, rfl⟩
abbrev main_cst_28 : Ref sig .tc := ⟨.hbm, 285, rfl⟩
abbrev main_v193 : Ref sig .tc := ⟨.hbm, 286, rfl⟩
abbrev main_v194 : Ref sig .tc := ⟨.hbm, 287, rfl⟩
abbrev main_c_29 : Ref sig .tc := ⟨.hbm, 288, rfl⟩
abbrev main_call8_cst : Ref sig .tc := ⟨.hbm, 289, rfl⟩
abbrev main_call8_v0 : Ref sig .tc := ⟨.hbm, 290, rfl⟩
abbrev main_call8_v1 : Ref sig .tc := ⟨.hbm, 291, rfl⟩
abbrev main_call8_cst_0 : Ref sig .tc := ⟨.hbm, 292, rfl⟩
abbrev main_call8_v2 : Ref sig .tc := ⟨.hbm, 293, rfl⟩
abbrev main_call8_v3 : Ref sig .tc := ⟨.hbm, 294, rfl⟩
abbrev main_call8_v4 : Ref sig .tc := ⟨.hbm, 295, rfl⟩
abbrev main_call8_v5 : Ref sig .tc := ⟨.hbm, 296, rfl⟩
abbrev main_call8_v6 : Ref sig .tc := ⟨.hbm, 297, rfl⟩
abbrev main_call8_v7 : Ref sig .tc := ⟨.hbm, 298, rfl⟩
abbrev main_call8_cst_1 : Ref sig .tc := ⟨.hbm, 299, rfl⟩
abbrev main_call8_v8 : Ref sig .tc := ⟨.hbm, 300, rfl⟩
abbrev main_call8_cst_2 : Ref sig .tc := ⟨.hbm, 301, rfl⟩
abbrev main_call8_v9 : Ref sig .tc := ⟨.hbm, 302, rfl⟩
abbrev main_call8_v10 : Ref sig .tc := ⟨.hbm, 303, rfl⟩
abbrev main_call8_v11 : Ref sig .tc := ⟨.hbm, 304, rfl⟩
abbrev main_call8_cst_3 : Ref sig .tc := ⟨.hbm, 305, rfl⟩
abbrev main_call8_v12 : Ref sig .tc := ⟨.hbm, 306, rfl⟩
abbrev main_call8_cst_4 : Ref sig .tc := ⟨.hbm, 307, rfl⟩
abbrev main_call8_call0_v0 : Ref sig .tc := ⟨.hbm, 308, rfl⟩
abbrev main_call8_call0_v1 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_cst_30 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_c_31 : Ref sig .tc := ⟨.hbm, 331, rfl⟩
abbrev main_v215 : Ref sig .tc := ⟨.hbm, 332, rfl⟩
abbrev main_v216 : Ref sig .tc := ⟨.hbm, 333, rfl⟩
abbrev main_c_32 : Ref sig .tc := ⟨.hbm, 334, rfl⟩
abbrev main_v217 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_c_33 : Ref sig .tc := ⟨.hbm, 340, rfl⟩
abbrev main_v222 : Ref sig .tc := ⟨.hbm, 341, rfl⟩
abbrev main_v223 : Ref sig .tc := ⟨.hbm, 342, rfl⟩
abbrev main_c_34 : Ref sig .tc := ⟨.hbm, 343, rfl⟩
abbrev main_v224 : Ref sig .tc := ⟨.hbm, 344, rfl⟩
abbrev main_v225 : Ref sig .tc := ⟨.hbm, 345, rfl⟩
abbrev main_v226 : Ref sig .tc := ⟨.hbm, 346, rfl⟩
abbrev main_v227 : Ref sig .tc := ⟨.hbm, 347, rfl⟩
abbrev main_v228 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_call9_cst : Ref sig .tc := ⟨.hbm, 358, rfl⟩
abbrev main_call9_v0 : Ref sig .tc := ⟨.hbm, 359, rfl⟩
abbrev main_v238 : Ref sig .tc := ⟨.hbm, 360, rfl⟩
abbrev main_cst_35 : Ref sig .tc := ⟨.hbm, 361, rfl⟩
abbrev main_v239 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_cst_36 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_cst_37 : Ref sig .tc := ⟨.hbm, 384, rfl⟩
abbrev main_v260 : Ref sig .tc := ⟨.hbm, 385, rfl⟩
abbrev main_cst_38 : Ref sig .tc := ⟨.hbm, 386, rfl⟩
abbrev main_v261 : Ref sig .tc := ⟨.hbm, 387, rfl⟩
abbrev main_v262 : Ref sig .tc := ⟨.hbm, 388, rfl⟩
abbrev main_c_39 : Ref sig .tc := ⟨.hbm, 389, rfl⟩
abbrev main_call11_cst : Ref sig .tc := ⟨.hbm, 390, rfl⟩
abbrev main_call11_v0 : Ref sig .tc := ⟨.hbm, 391, rfl⟩
abbrev main_call11_v1 : Ref sig .tc := ⟨.hbm, 392, rfl⟩
abbrev main_call11_cst_0 : Ref sig .tc := ⟨.hbm, 393, rfl⟩
abbrev main_call11_v2 : Ref sig .tc := ⟨.hbm, 394, rfl⟩
abbrev main_call11_v3 : Ref sig .tc := ⟨.hbm, 395, rfl⟩
abbrev main_call11_v4 : Ref sig .tc := ⟨.hbm, 396, rfl⟩
abbrev main_call11_v5 : Ref sig .tc := ⟨.hbm, 397, rfl⟩
abbrev main_call11_v6 : Ref sig .tc := ⟨.hbm, 398, rfl⟩
abbrev main_call11_v7 : Ref sig .tc := ⟨.hbm, 399, rfl⟩
abbrev main_call11_cst_1 : Ref sig .tc := ⟨.hbm, 400, rfl⟩
abbrev main_call11_v8 : Ref sig .tc := ⟨.hbm, 401, rfl⟩
abbrev main_call11_cst_2 : Ref sig .tc := ⟨.hbm, 402, rfl⟩
abbrev main_call11_v9 : Ref sig .tc := ⟨.hbm, 403, rfl⟩
abbrev main_call11_v10 : Ref sig .tc := ⟨.hbm, 404, rfl⟩
abbrev main_call11_v11 : Ref sig .tc := ⟨.hbm, 405, rfl⟩
abbrev main_call11_cst_3 : Ref sig .tc := ⟨.hbm, 406, rfl⟩
abbrev main_call11_v12 : Ref sig .tc := ⟨.hbm, 407, rfl⟩
abbrev main_call11_cst_4 : Ref sig .tc := ⟨.hbm, 408, rfl⟩
abbrev main_call11_call0_v0 : Ref sig .tc := ⟨.hbm, 409, rfl⟩
abbrev main_call11_call0_v1 : Ref sig .tc := ⟨.hbm, 410, rfl⟩
abbrev main_v263 : Ref sig .tc := ⟨.hbm, 411, rfl⟩
abbrev main_v264 : Ref sig .tc := ⟨.hbm, 412, rfl⟩
abbrev main_v265 : Ref sig .tc := ⟨.hbm, 413, rfl⟩
abbrev main_v266 : Ref sig .tc := ⟨.hbm, 414, rfl⟩
abbrev main_cst_40 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_v275 : Ref sig .tc := ⟨.hbm, 424, rfl⟩
abbrev main_v276 : Ref sig .tc := ⟨.hbm, 425, rfl⟩
abbrev main_v277 : Ref sig .tc := ⟨.hbm, 426, rfl⟩
abbrev main_v278 : Ref sig .tc := ⟨.hbm, 427, rfl⟩
abbrev main_v279 : Ref sig .tc := ⟨.hbm, 428, rfl⟩
abbrev main_v280 : Ref sig .tc := ⟨.hbm, 429, rfl⟩
abbrev main_v281 : Ref sig .tc := ⟨.hbm, 430, rfl⟩
abbrev main_v282 : Ref sig .tc := ⟨.hbm, 431, rfl⟩
abbrev main_cst_41 : Ref sig .tc := ⟨.hbm, 432, rfl⟩
abbrev main_v283 : Ref sig .tc := ⟨.hbm, 433, rfl⟩
abbrev main_cst_42 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_cst_43 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_cst_44 : Ref sig .tc := ⟨.hbm, 442, rfl⟩
abbrev main_v290 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_v294 : Ref sig .tc := ⟨.hbm, 447, rfl⟩
abbrev main_v295 : Ref sig .tc := ⟨.hbm, 448, rfl⟩
abbrev main_v296 : Ref sig .tc := ⟨.hbm, 449, rfl⟩
abbrev main_v297 : Ref sig .tc := ⟨.hbm, 450, rfl⟩
abbrev main_v298 : Ref sig .tc := ⟨.hbm, 451, rfl⟩
abbrev main_call12_cst : Ref sig .tc := ⟨.hbm, 452, rfl⟩
abbrev main_call12_v0 : Ref sig .tc := ⟨.hbm, 453, rfl⟩
abbrev main_v299 : Ref sig .tc := ⟨.hbm, 454, rfl⟩
abbrev main_v300 : Ref sig .tc := ⟨.hbm, 455, rfl⟩
abbrev main_v301 : Ref sig .tc := ⟨.hbm, 456, rfl⟩
abbrev main_v302 : Ref sig .tc := ⟨.hbm, 457, rfl⟩
abbrev main_v303 : Ref sig .tc := ⟨.hbm, 458, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S800000x64_S800000x64_S800000x128_d1 : Shape.Concatenates [S800000x64, S800000x64] S800000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  slices_S4_S1_0 : S4.Slices ![0] S1
  shapeCasts_S1_S_ : S1.ShapeCasts S_
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4x128x64_S1x128x64_1_0_0 : S4x128x64.Slices ![1, 0, 0] S1x128x64
  slices_S4x64_S1x64_1_0 : S4x64.Slices ![1, 0] S1x64
  slices_S4_S1_1 : S4.Slices ![1] S1
  slices_S4x128x64_S1x128x64_2_0_0 : S4x128x64.Slices ![2, 0, 0] S1x128x64
  slices_S4x64_S1x64_2_0 : S4x64.Slices ![2, 0] S1x64
  slices_S4_S1_2 : S4.Slices ![2] S1
  slices_S4x128x64_S1x128x64_3_0_0 : S4x128x64.Slices ![3, 0, 0] S1x128x64
  slices_S4x64_S1x64_3_0 : S4x64.Slices ![3, 0] S1x64
  slices_S4_S1_3 : S4.Slices ![3] S1
  bcast_S_S500 : S_.BroadcastsInDim S500 (![] : Fin 0 → Fin S500.rank)
  bcast_S500_S500x1_0 : S500.BroadcastsInDim S500x1 (![0] : Fin 1 → Fin S500x1.rank)
  bcast_S_S500x64 : S_.BroadcastsInDim S500x64 (![] : Fin 0 → Fin S500x64.rank)
  bcast_S500x1_S500x64_0_1 : S500x1.BroadcastsInDim S500x64 (![0, 1] : Fin 2 → Fin S500x64.rank)
  bcast_S1x64_S500x64_0_1 : S1x64.BroadcastsInDim S500x64 (![0, 1] : Fin 2 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  scatter_S500_S50000x1_S50000_n_0_0_1_wf : ScatterDims.WF S500 S50000x1 S50000 [] [0] [0] 1
  scatter_S500x64_S50000x1_S50000x64_1_0_0_1_wf : ScatterDims.WF S500x64 S50000x1 S50000x64 [1] [0] [0] 1
  dot_S500x64_S64x64_S500x64_1_0_0_1_n_n_wf : DotDims.WF S500x64 S64x64 S500x64 [1] [0] [0] [1] [] []
  dot_S500x64_S64x10_S500x10_1_0_0_1_n_n_wf : DotDims.WF S500x64 S64x10 S500x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

def IsReal {ι : Type} (f : ι → EReal) : Prop := ∀ i, ∃ r : ℝ, f i = (r : EReal)

abbrev zeroE : EReal := Ideal.ofBits .f32 0x00000000#32
abbrev nE : EReal := Ideal.ofBits .f32 0x47435000#32
abbrev epsE : EReal := Ideal.ofBits .f32 0x3727C5AC#32

def lin {R : ℕ} (x y : A2 R 64) (w0 w1 : A2 64 64) (b : A2 1 64) (p : Fin R) (q : Fin 64) : EReal :=
  ((∑ k : Fin 64, x (ix2 p k) * w0 (ix2 k q)) + (∑ k : Fin 64, y (ix2 p k) * w1 (ix2 k q))) + b (ix2 0 q)

def msgLoc {R : ℕ} (x y : A2 R 64) (w0 w1 : A2 64 64) (b : A2 1 64) : A2 R 64 :=
  fun i => max (lin x y w0 w1 b (i 0) (i 1)) zeroE

def prelu (a x : EReal) : EReal := Scalar.select (Ideal.cmp .oge x zeroE) x (a * x)

def uLoc {R : ℕ} (h g : A2 R 64) (w0 w1 : A2 64 64) (b a : A2 1 64) : A2 R 64 :=
  fun i => prelu (a (ix2 0 (i 1))) (lin h g w0 w1 b (i 0) (i 1))

def colSum {R : ℕ} (u : A2 R 64) : A2 1 64 := fun i => ∑ n : Fin R, u (ix2 n (i 1))

def sq {R : ℕ} (u : A2 R 64) : A2 R 64 := fun i => u i * u i

def meanOf (s : A2 1 64) : A2 1 64 := fun i => Ideal.div (s i) nE

def varK (s ss : A2 1 64) : A2 1 64 := fun i => max (Ideal.div (ss i) nE - meanOf s i * meanOf s i) zeroE

def varDev {R : ℕ} (u : A2 R 64) : A2 1 64 := fun i =>
  Ideal.div (∑ n : Fin R, (u (ix2 n (i 1)) - meanOf (colSum u) i) * (u (ix2 n (i 1)) - meanOf (colSum u) i)) nE

def invstdOf (v : A2 1 64) : A2 1 64 := fun i => Ideal.rsqrt (v i + epsE)

def normLoc {R : ℕ} (h g : A2 R 64) (w0 w1 : A2 64 64) (b a mean istd gam bet : A2 1 64) : A2 R 64 :=
  fun i => ((uLoc h g w0 w1 b a i - mean (ix2 0 (i 1))) * istd (ix2 0 (i 1))) * gam (ix2 0 (i 1)) + bet (ix2 0 (i 1))

def layer (gs gd : A2 50000 64 → A2 800000 64) (agg : A2 800000 64 → A2 50000 64)
    (wm0 wm1 : A2 64 64) (bm : A2 1 64) (wu0 wu1 : A2 64 64) (bu a gam bet : A2 1 64) (h : A2 50000 64) : A2 50000 64 :=
  normLoc h (agg (msgLoc (gs h) (gd h) wm0 wm1 bm)) wu0 wu1 bu a
    (meanOf (colSum (uLoc h (agg (msgLoc (gs h) (gd h) wm0 wm1 bm)) wu0 wu1 bu a)))
    (invstdOf (varK (colSum (uLoc h (agg (msgLoc (gs h) (gd h) wm0 wm1 bm)) wu0 wu1 bu a))
      (colSum (sq (uLoc h (agg (msgLoc (gs h) (gd h) wm0 wm1 bm)) wu0 wu1 bu a))))) gam bet

def headLoc (g : A2 500 64) (w1 : A2 64 64) (b1 : A2 1 64) (w2 : A2 64 10) (b2 : A2 1 10) : A2 500 10 :=
  fun i => (∑ k : Fin 64, max ((∑ k' : Fin 64, g (ix2 (i 0) k') * w1 (ix2 k' k)) + b1 (ix2 0 k)) zeroE * w2 (ix2 k (i 1)))
    + b2 (ix2 0 (i 1))

def half0 (W : A3 4 128 64) (l : Fin 4) : A2 64 64 :=
  fun i => W (ix3 l (⟨(i 0).val, by have := (i 0).isLt; simp at this; omega⟩ : Fin 128) (i 1))

def half1 (W : A3 4 128 64) (l : Fin 4) : A2 64 64 :=
  fun i => W (ix3 l (⟨64 + (i 0).val, by have := (i 0).isLt; simp at this; omega⟩ : Fin 128) (i 1))

def rowOf (B : A2 4 64) (l : Fin 4) : A2 1 64 := fun i => B (ix2 l (i 1))

def splatOf (a : A1 4) (l : Fin 4) : A2 1 64 := fun _ => a (ix1 l)

def asRow {n : ℕ} (b : A1 n) : A2 1 n := fun i => b (ix1 (i 1))

def layerAt (gs gd : A2 50000 64 → A2 800000 64) (agg : A2 800000 64 → A2 50000 64)
    (Wm : A3 4 128 64) (bm : A2 4 64) (Wu : A3 4 128 64) (bu : A2 4 64) (a : A1 4) (gam bet : A2 4 64) (l : Fin 4)
    (h : A2 50000 64) : A2 50000 64 :=
  layer gs gd agg (half0 Wm l) (half1 Wm l) (rowOf bm l) (half0 Wu l) (half1 Wu l) (rowOf bu l) (splatOf a l)
    (rowOf gam l) (rowOf bet l) h

def net (gs gd : A2 50000 64 → A2 800000 64) (agg : A2 800000 64 → A2 50000 64) (pool : A2 50000 64 → A2 500 64)
    (x : A2 50000 64) (Wm : A3 4 128 64) (bm : A2 4 64) (Wu : A3 4 128 64) (bu : A2 4 64) (a : A1 4) (gam bet : A2 4 64)
    (W1 : A2 64 64) (b1 : A1 64) (W2 : A2 64 10) (b2 : A1 10) : A2 500 10 :=
  headLoc (pool (layerAt gs gd agg Wm bm Wu bu a gam bet 3 (layerAt gs gd agg Wm bm Wu bu a gam bet 2
    (layerAt gs gd agg Wm bm Wu bu a gam bet 1 (layerAt gs gd agg Wm bm Wu bu a gam bet 0 x))))) W1 (asRow b1) W2 (asRow b2)

end Cert.Spec

end
-- ==== Proof.Shared.lean ====
import proofs.«428660_j69922067578969_2_alg».proof.Defs
import proofs.«428660_j69922067578969_2_alg».proof.Proof.Gen.KernelIdeal
import proofs.«428660_j69922067578969_2_alg».proof.Proof.Spec

noncomputable section

namespace Cert.Shared

open Idealize.ShloMosaic Cert.KernelIdeal Cert.KernelIdeal.Gen Cert.Spec

def src (ei : IVec S2x800000 32) : IVec S800000 32 :=
  shapeCast S800000 (extractStridedSlice S1x800000 ![0, 0] ei slices_S2x800000_S1x800000_0_0) shapeCasts_S1x800000_S800000

def dst (ei : IVec S2x800000 32) : IVec S800000 32 :=
  shapeCast S800000 (extractStridedSlice S1x800000 ![1, 0] ei slices_S2x800000_S1x800000_1_0) shapeCasts_S1x800000_S800000

def wrap (ix : IVec S800000 32) : IVec S800000 32 :=
  select (cmpi .slt ix (broadcastInDim S800000 ![] bcast_S_S800000 (constantI S_ 32 0#32)))
    (addi ix (broadcastInDim S800000 ![] bcast_S_S800000 (constantI S_ 32 50000#32))) ix

def gat (ix : IVec S800000 32) (h : A2 50000 64) : A2 800000 64 :=
  Host.gather gather_S50000x64_S800000x1_S800000x64_1_0_n_n_0_1_164 h
    (broadcastInDim S800000x1 ![0] bcast_S800000_S800000x1_0 (wrap ix))

def deg (ei : IVec S2x800000 32) : FVec Ideal S50000x1 .f32 :=
  broadcastInDim S50000x1 ![0] bcast_S50000_S50000x1_0
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 (dst ei))
        (broadcastInDim S800000 ![] bcast_S_S800000 (constant (F := Ideal) S_ .f32 0x3F800000#32)))
      (broadcastInDim S50000 ![] bcast_S_S50000 (constant (F := Ideal) S_ .f32 0x3F800000#32)))

def agg (ei : IVec S2x800000 32) (msg : A2 800000 64) : A2 50000 64 :=
  Host.divf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 (dst ei)) msg)
    (broadcastInDim S50000x64 ![0, 1] bcast_S50000x1_S50000x64_0_1 (deg ei))

def cnt (bt : IVec S50000 32) : FVec Ideal S500x1 .f32 :=
  broadcastInDim S500x1 ![0] bcast_S500_S500x1_0
    (maximumf
      (Host.scatterAdd scatter_S500_S50000x1_S50000_n_0_0_1
        (broadcastInDim S500 ![] bcast_S_S500 (constant (F := Ideal) S_ .f32 0x00000000#32))
        (broadcastInDim S50000x1 ![0] bcast_S50000_S50000x1_0 bt)
        (broadcastInDim S50000 ![] bcast_S_S50000 (constant (F := Ideal) S_ .f32 0x3F800000#32)))
      (broadcastInDim S500 ![] bcast_S_S500 (constant (F := Ideal) S_ .f32 0x3F800000#32)))

def pool (bt : IVec S50000 32) (h : A2 50000 64) : A2 500 64 :=
  Host.divf
    (Host.scatterAdd scatter_S500x64_S50000x1_S50000x64_1_0_0_1
      (broadcastInDim S500x64 ![] bcast_S_S500x64 (constant (F := Ideal) S_ .f32 0x00000000#32))
      (broadcastInDim S50000x1 ![0] bcast_S50000_S50000x1_0 bt) h)
    (broadcastInDim S500x64 ![0, 1] bcast_S500x1_S500x64_0_1 (cnt bt))

def value (x : A2 50000 64) (ei : IVec S2x800000 32) (bt : IVec S50000 32) (Wm : A3 4 128 64) (bm : A2 4 64)
    (Wu : A3 4 128 64) (bu : A2 4 64) (a : A1 4) (gam bet : A2 4 64) (W1 : A2 64 64) (b1 : A1 64) (W2 : A2 64 10)
    (b2 : A1 10) : A2 500 10 :=
  net (gat (src ei)) (gat (dst ei)) (agg ei) (pool bt) x Wm bm Wu bu a gam bet W1 b1 W2 b2

end Cert.Shared

end
-- ==== Proof.KLive.lean ====
import proofs.«428660_j69922067578969_2_alg».proof.Proof.Gen.KernelIdeal.Frame
import proofs.«428660_j69922067578969_2_alg».proof.Proof.Shared

noncomputable section

namespace Cert.KernelIdeal.Val

open Idealize.ShloMosaic Idealize.ShloMosaic.TcCoe Idealize.SL.Sem Cert.KernelIdeal Cert.KernelIdeal.Gen Cert.Spec

abbrev Mem : Type := (ℓ : Loc nD τ sig) → Buf (Elt Ideal) ℓ

def InRange (m : Mem) (c : Dev nD) : Prop :=
  ∀ i, 0 ≤ ((m ((c : Thread nD τ).loc main_arg1) : IVec S2x800000 32) i).toInt
    ∧ ((m ((c : Thread nD τ).loc main_arg1) : IVec S2x800000 32) i).toInt < 50000

structure Live (m : Mem) (c : Dev nD) (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  src : W (Proc.devRef .tc main_v1) = Cert.Shared.src (m ((c : Thread nD τ).loc main_arg1))
  dst : W (Proc.devRef .tc main_v3) = Cert.Shared.dst (m ((c : Thread nD τ).loc main_arg1))
  deg : W (Proc.devRef .tc main_v10) = Cert.Shared.deg (m ((c : Thread nD τ).loc main_arg1))

abbrev layerOf (m : Mem) (c : Dev nD) (l : Fin 4) (H : A2 50000 64) : A2 50000 64 :=
  layerAt (Cert.Shared.gat (Cert.Shared.src (m ((c : Thread nD τ).loc main_arg1))))
    (Cert.Shared.gat (Cert.Shared.dst (m ((c : Thread nD τ).loc main_arg1))))
    (Cert.Shared.agg (m ((c : Thread nD τ).loc main_arg1)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) l H

end Cert.KernelIdeal.Val

end
-- ==== Proof.KEntry.lean ====
import proofs.«428660_j69922067578969_2_alg».proof.Proof.Gen.KernelIdeal.Frame
import proofs.«428660_j69922067578969_2_alg».proof.Proof.Spec

noncomputable section

namespace Cert.KernelIdeal.Val

open Idealize.ShloMosaic Idealize.ShloMosaic.TcCoe Idealize.SL.Sem Cert.KernelIdeal

abbrev Entry : Type := (c : Dev nD) → (b : Ref sig .tc) → Buf (Elt Ideal) ((c : Thread nD τ).loc b)

end Cert.KernelIdeal.Val

end
-- ==== Proof.LibPlainDot.lean ====
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl

theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.KMsg0.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx

theorem msg0_dot (lhs : FVec Ideal S8000x64 .bf16) (rhs : FVec Ideal S64x64 .bf16) (p : Fin 8000) (q : Fin 64) :
    matmul dot_S8000x64_S64x64_S8000x64_1_0_0_1_n_n none lhs rhs (constant S8000x64 .f32 0x00000000#32) (ix2 p q)
      = ∑ k : Fin 64, lhs (ix2 p k) * rhs (ix2 k q) :=
  Cert.LibPlainDot.matmul_zero_apply dot_S8000x64_S64x64_S8000x64_1_0_0_1_n_n rfl rfl rfl rfl rfl rfl none lhs rhs p q

theorem msg0_pay (x0 x1 : Vec Ideal S8000x64 .f32) (x2 x3 : Vec Ideal S64x64 .f32) (x4 : Vec Ideal S1x64 .f32)
    (p : Fin 8000) (q : Fin 64) :
    k0_pay1 x0 x1 x2 x3 x4 (ix2 p q)
      = max (((∑ k : Fin 64, x0 (ix2 p k) * x2 (ix2 k q)) + (∑ k : Fin 64, x1 (ix2 p k) * x3 (ix2 k q))) + x4 (ix2 0 q)) zeroE := by
  unfold k0_pay1
  simp only [shapeCast_self]
  exact congrArg₂ max (congrArg₂ (· + ·) (congrArg₂ (· + ·) (msg0_dot _ _ p q) (msg0_dot _ _ p q))
    (broadcastTo_1b_ab_apply x4 _ p q)) rfl

theorem msg0_block (X Y : A2 800000 64) (W0 W1 : A2 64 64) (B : A2 1 64)
    (x0 x1 : Vec Ideal S8000x64 .f32) (x2 x3 : Vec Ideal S64x64 .f32) (x4 : Vec Ideal S1x64 .f32)
    (r : Fin 800000) (p : Fin 8000) (q : Fin 64)
    (h0 : ∀ k : Fin 64, x0 (ix2 p k) = X (ix2 r k)) (h1 : ∀ k : Fin 64, x1 (ix2 p k) = Y (ix2 r k))
    (h2 : x2 = W0) (h3 : x3 = W1) (h4 : x4 = B) :
    k0_pay1 x0 x1 x2 x3 x4 (ix2 p q) = msgLoc X Y W0 W1 B (ix2 r q) := by
  subst h2 h3 h4
  rw [msg0_pay]
  simp only [h0, h1]
  rfl

theorem msg0_hz : (![0, 0] : Fin 2 → Nat) = fun _ => 0 := funext fun a => by fin_cases a <;> rfl

theorem msg0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem msg0_in0 (V : Entry) (c : Dev nD) (t : Fin cfg0.N) (p : Fin 8000) (k : Fin 64) (r : Fin 800000)
    (hr : r.val = t.val * 8000 + p.val) :
    (iblk0 V c 0 t : Vec Ideal S8000x64 .f32) (ix2 p k) = (V c (Pipeline.arrRef spec0 0) : A2 800000 64) (ix2 r k) := by
  obtain ⟨e0, e1, -⟩ := msg0_idx t
  show (V c (Pipeline.arrRef spec0 0) : A2 800000 64) (((cfg0.win 0).blk t).view.emb (ix2 p k)) = _
  refine congrArg _ (funext fun a => Fin.ext ?_)
  match a with
  | ⟨0, _⟩ => show win0_0.index t (0 : Fin 2) * 8000 + 1 * p.val = r.val; omega
  | ⟨1, _⟩ => show win0_0.index t (1 : Fin 2) * 64 + 1 * k.val = k.val; omega

theorem msg0_in1 (V : Entry) (c : Dev nD) (t : Fin cfg0.N) (p : Fin 8000) (k : Fin 64) (r : Fin 800000)
    (hr : r.val = t.val * 8000 + p.val) :
    (iblk0 V c 1 t : Vec Ideal S8000x64 .f32) (ix2 p k) = (V c (Pipeline.arrRef spec0 1) : A2 800000 64) (ix2 r k) := by
  obtain ⟨-, -, e0, e1, -⟩ := msg0_idx t
  show (V c (Pipeline.arrRef spec0 1) : A2 800000 64) (((cfg0.win 1).blk t).view.emb (ix2 p k)) = _
  refine congrArg _ (funext fun a => Fin.ext ?_)
  match a with
  | ⟨0, _⟩ => show win0_1.index t (0 : Fin 2) * 8000 + 1 * p.val = r.val; omega
  | ⟨1, _⟩ => show win0_1.index t (1 : Fin 2) * 64 + 1 * k.val = k.val; omega

theorem msg0_in2 (V : Entry) (c : Dev nD) (t : Fin cfg0.N) :
    (iblk0 V c 2 t : Vec Ideal S64x64 .f32) = (V c (Pipeline.arrRef spec0 2) : A2 64 64) := by
  obtain ⟨-, -, -, -, e0, e1, -⟩ := msg0_idx t
  funext y
  show (V c (Pipeline.arrRef spec0 2) : A2 64 64) (((cfg0.win 2).blk t).view.emb y) = _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem msg0_in3 (V : Entry) (c : Dev nD) (t : Fin cfg0.N) :
    (iblk0 V c 3 t : Vec Ideal S64x64 .f32) = (V c (Pipeline.arrRef spec0 3) : A2 64 64) := by
  obtain ⟨-, -, -, -, -, -, e0, e1, -⟩ := msg0_idx t
  funext y
  show (V c (Pipeline.arrRef spec0 3) : A2 64 64) (((cfg0.win 3).blk t).view.emb y) = _
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem msg0_in4 (V : Entry) (c : Dev nD) (t : Fin cfg0.N) :
    (iblk0 V c 4 t : Vec Ideal S1x64 .f32) = (V c (Pipeline.arrRef spec0 4) : A2 1 64) := by
  obtain ⟨-, -, -, -, -, -, -, -, e0, e1, -⟩ := msg0_idx t
  funext y
  show (V c (Pipeline.arrRef spec0 4) : A2 1 64) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem msg0_point (V : Entry) (c : Dev nD) (t : Fin cfg0.N) (j : S8000x64.Idx) :
    k0_pay1 (iblk0 V c 0 t) (iblk0 V c 1 t) (iblk0 V c 2 t) (iblk0 V c 3 t) (iblk0 V c 4 t) j
      = msgLoc (V c (Pipeline.arrRef spec0 0)) (V c (Pipeline.arrRef spec0 1)) (V c (Pipeline.arrRef spec0 2))
          (V c (Pipeline.arrRef spec0 3)) (V c (Pipeline.arrRef spec0 4)) (((cfg0.win 5).blk t).view.emb j) := by
  obtain ⟨p, q, rfl⟩ : ∃ (p : Fin 8000) (q : Fin 64), j = ix2 p q := ⟨j 0, j 1, eq_ix2 j⟩
  have hN : cfg0.N = 100 := N_0
  have ht : t.val < cfg0.N := t.isLt
  obtain ⟨-, -, -, -, -, -, -, -, -, -, e0, e1⟩ := msg0_idx t
  obtain ⟨r, hr⟩ : ∃ r : Fin 800000, r.val = t.val * 8000 + p.val := ⟨⟨t.val * 8000 + p.val, by omega⟩, rfl⟩
  have hemb : ((cfg0.win 5).blk t).view.emb (ix2 p q) = ix2 r q := by
    refine funext fun a => Fin.ext ?_
    match a with
    | ⟨0, _⟩ => show win0_5.index t (0 : Fin 2) * 8000 + 1 * p.val = r.val; omega
    | ⟨1, _⟩ => show win0_5.index t (1 : Fin 2) * 64 + 1 * q.val = q.val; omega
  exact (msg0_block (V c (Pipeline.arrRef spec0 0)) (V c (Pipeline.arrRef spec0 1)) (V c (Pipeline.arrRef spec0 2))
      (V c (Pipeline.arrRef spec0 3)) (V c (Pipeline.arrRef spec0 4))
      (iblk0 V c 0 t) (iblk0 V c 1 t) (iblk0 V c 2 t) (iblk0 V c 3 t) (iblk0 V c 4 t) r p q
      (fun k => msg0_in0 V c t p k r hr) (fun k => msg0_in1 V c t p k r hr)
      (msg0_in2 V c t) (msg0_in3 V c t) (msg0_in4 V c t)).trans
    (congrArg (msgLoc (V c (Pipeline.arrRef spec0 0)) (V c (Pipeline.arrRef spec0 1)) (V c (Pipeline.arrRef spec0 2))
      (V c (Pipeline.arrRef spec0 3)) (V c (Pipeline.arrRef spec0 4))) hemb.symm)

theorem msg0_flushed (V : Entry) (c : Dev nD) (t : Fin cfg0.N) :
    (dat0 V c).flushed 5 t = ((cfg0.win 5).blk t).view.read (Elt Ideal)
      (msgLoc (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero msg0_hz]
  simp only [View.ld_unit_zero (S := S8000x64) msg0_hz, View.ld_unit_zero (S := S64x64) msg0_hz,
    View.ld_unit_zero (S := S1x64) msg0_hz]
  funext j
  exact msg0_point V c t j

theorem msg0_mem (t : Fin cfg0.N) (i : S800000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole (Pipeline.arrRef spec0 5)).slice (win0_5.rect t)).set ↔ _
  rw [View.set_slice_whole, Rect.mem_set_unit]
  exact Iff.rfl

theorem msg0_cover (i : S800000x64.Idx) :
    ∃ t : Fin cfg0.N, (cfg0.win 5).flush t = true ∧ i ∈ ((cfg0.win 5).blk t).view.set := by
  have hN : cfg0.N = 100 := N_0
  have hi0 : (i 0).val < 800000 := (i 0).isLt
  have hi1 : (i 1).val < 64 := (i 1).isLt
  obtain ⟨t, ht⟩ : ∃ t : Fin cfg0.N, t.val = (i 0).val / 8000 := ⟨⟨(i 0).val / 8000, by rw [hN]; omega⟩, rfl⟩
  obtain ⟨-, -, -, -, -, -, -, -, -, -, e0, e1⟩ := msg0_idx t
  refine ⟨t, flush0_5 t, ?_⟩
  rw [msg0_mem]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 64 ≤ (i 1).val ∧ (i 1).val < win0_5.index t (1 : Fin 2) * 64 + 64; omega

theorem msg0 (V : Entry) (c : Dev nD) :
    (dat0 V c).arrAt 5 cfg0.N = msgLoc (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5
    (msgLoc (V c (Pipeline.arrRef spec0 0)) (V c (Pipeline.arrRef spec0 1)) (V c (Pipeline.arrRef spec0 2))
      (V c (Pipeline.arrRef spec0 3)) (V c (Pipeline.arrRef spec0 4)))
    (fun t _ => msg0_flushed V c t) msg0_cover

end Cert.KernelIdeal.Val

end
-- ==== Proof.LibBlockSum.lean ====
import Mathlib.Algebra.BigOperators.Fin
import Mathlib.Data.Fintype.BigOperators
import Mathlib.Logic.Equiv.Fin.Basic

namespace Cert.BlockSum

open scoped BigOperators

theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

end Cert.BlockSum
-- ==== Proof.KStats1.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibBlockSum
import proofs.«428660_j69922067578969_2_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.Pipeline Idealize.ShloMosaic.ValueIdx Cert.KernelIdeal Cert.KernelIdeal.Gen Cert.Spec

namespace Stats1

section Pieces

variable {F : FTy → Type} [FloatOps F]
variable (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
variable (x0 x1 : Vec F S10000x64 .f32) (x2 x3 : Vec F S64x64 .f32) (x4 x5 : Vec F S1x64 .f32)

theorem hz : (![0, 0] : Fin 2 → Nat) = fun _ => 0 := funext fun a => by fin_cases a <;> rfl

theorem out_A_6 (hc0 : cond1_0 i) :
    out1_A_6 c i arg1 harg1 arg2 harg2 arg3 harg3 arg4 harg4 arg5 harg5 arg6 harg6 arg7 harg7 arg8 harg8 hc0 x0 x1 x2 x3 x4 x5 = k1_pay5 x0 x1 x2 x3 x4 x5 (k1_pay2 (F := F)) := by
  unfold out1_A_6
  rw [View.read_writes_eq_canon _ _ _ (cover1_A_6 c i arg1 harg1 arg2 harg2 arg3 harg3 arg4 harg4 arg5 harg5 arg6 harg6 arg7 harg7 arg8 harg8 hc0 x0 x1 x2 x3 x4 x5)]
  unfold kernelRun1_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

theorem out_A_7 (hc0 : cond1_0 i) :
    out1_A_7 c i arg1 harg1 arg2 harg2 arg3 harg3 arg4 harg4 arg5 harg5 arg6 harg6 arg7 harg7 arg8 harg8 hc0 x0 x1 x2 x3 x4 x5 = k1_pay1 (k1_pay4 x0 x1 x2 x3 x4 x5) (k1_pay3 (F := F)) := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4 x5)]
  unfold kernelRun1_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

variable (xo6 xo7 : Vec F S1x64 .f32)

theorem out_B_6 (hc0 : ¬cond1_0 i) :
    out1_B_6 c i arg1 harg1 arg2 harg2 arg3 harg3 arg4 harg4 arg5 harg5 arg6 harg6 arg7 harg7 arg8 harg8 hc0 x0 x1 x2 x3 x4 x5 xo6 xo7 = k1_pay5 x0 x1 x2 x3 x4 x5 xo6 := by
  unfold out1_B_6
  rw [View.read_writes_eq_canon _ _ _ (cover1_B_6 c i arg1 harg1 arg2 harg2 arg3 harg3 arg4 harg4 arg5 harg5 arg6 harg6 arg7 harg7 arg8 harg8 hc0 x0 x1 x2 x3 x4 x5 xo6 xo7)]
  unfold kernelRun1_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

theorem out_B_7 (hc0 : ¬cond1_0 i) :
    out1_B_7 c i arg1 harg1 arg2 harg2 arg3 harg3 arg4 harg4 arg5 harg5 arg6 harg6 arg7 harg7 arg8 harg8 hc0 x0 x1 x2 x3 x4 x5 xo6 xo7 = k1_pay1 (k1_pay4 x0 x1 x2 x3 x4 x5) xo7 := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 x5 xo6 xo7)]
  unfold kernelRun1_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

end Pieces

theorem lift_rows (h : S10000x64.Reduces [0] S64) (q : Fin 64) (p : Fin 10000) : h.lift (ix1 q) p = ix2 p q := by
  funext a
  apply Fin.ext
  match a with
  | ⟨0, _⟩ => rfl
  | ⟨1, _⟩ => rfl

theorem rowOfColSums_apply (src : FVec Ideal S10000x64 .f32) (h : S10000x64.Reduces [0] S64) (hφ : FKind.Formats .f32)
    (hacc : (0x00000000#32 : BitVec 32) = FKind.add.neutral .f32 hφ) (h' : S64.ShapeCasts S1x64) (z : Fin 1) (q : Fin 64) :
    shapeCast S1x64 (multiReduction .add [0] S64 src 0x00000000#32 h hφ hacc) h' (ix2 z q) = ∑ p : Fin 10000, src (ix2 p q) := by
  refine (shapeCast_a_1a_apply _ h' z q).trans ?_
  refine (Ideal.multiReduction_add_single src 0x00000000#32 h hφ hacc (ix1 q)).trans ?_
  exact Finset.sum_congr rfl fun p _ => congrArg src (lift_rows h q p)

theorem blockProduct_apply {φ₁ φ₂ : FTy} (lhs : FVec Ideal S10000x64 φ₁) (rhs : FVec Ideal S64x64 φ₂) (p : Fin 10000) (q : Fin 64) :
    matmul dot_S10000x64_S64x64_S10000x64_1_0_0_1_n_n none lhs rhs (constant S10000x64 .f32 0x00000000#32) (ix2 p q)
      = ∑ k : Fin 64, lhs (ix2 p k) * rhs (ix2 k q) := by
  show FloatOps.matmul dot_S10000x64_S64x64_S10000x64_1_0_0_1_n_n none lhs rhs (constant S10000x64 .f32 0x00000000#32) (ix2 p q) = _
  rw [Cert.LibPlainDot.eq_plain dot_S10000x64_S64x64_S10000x64_1_0_0_1_n_n rfl rfl rfl rfl rfl rfl, Ideal.matmul_constant_zero_apply]
  exact Cert.LibPlainDot.plain_sum lhs rhs p q

section Arithmetic

variable (x0 x1 : Vec Ideal S10000x64 .f32) (x2 x3 : Vec Ideal S64x64 .f32) (x4 x5 : Vec Ideal S1x64 .f32)

theorem pay4_apply (p : Fin 10000) (q : Fin 64) : k1_pay4 x0 x1 x2 x3 x4 x5 (ix2 p q) = uLoc x0 x1 x2 x3 x4 x5 (ix2 p q) := by
  unfold k1_pay4
  simp only [select_apply, cmpf_apply, mulf_apply, addf_apply, broadcast_apply, shapeCast_self, broadcastTo_1b_ab_apply, blockProduct_apply]
  rfl

theorem pay5_apply (acc : Vec Ideal S1x64 .f32) (z : Fin 1) (q : Fin 64) :
    k1_pay5 x0 x1 x2 x3 x4 x5 acc (ix2 z q) = acc (ix2 z q) + ∑ p : Fin 10000, k1_pay4 x0 x1 x2 x3 x4 x5 (ix2 p q) := by
  unfold k1_pay5
  exact congrArg₂ (· + ·) (congrFun (shapeCast_self acc _) (ix2 z q)) (rowOfColSums_apply _ _ _ _ _ z q)

theorem pay1_apply (u : FVec Ideal S10000x64 .f32) (acc : Vec Ideal S1x64 .f32) (z : Fin 1) (q : Fin 64) :
    k1_pay1 u acc (ix2 z q) = acc (ix2 z q) + ∑ p : Fin 10000, u (ix2 p q) * u (ix2 p q) := by
  unfold k1_pay1
  exact congrArg₂ (· + ·) (congrFun (shapeCast_self acc _) (ix2 z q)) (rowOfColSums_apply _ _ _ _ _ z q)

variable (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)

theorem stepA6 (hc0 : cond1_0 i) (z : Fin 1) (q : Fin 64) :
    out1_A_6 c i arg1 harg1 arg2 harg2 arg3 harg3 arg4 harg4 arg5 harg5 arg6 harg6 arg7 harg7 arg8 harg8 hc0 x0 x1 x2 x3 x4 x5 (ix2 z q) = zeroE + ∑ p : Fin 10000, uLoc x0 x1 x2 x3 x4 x5 (ix2 p q) := by
  rw [out_A_6]
  refine (pay5_apply x0 x1 x2 x3 x4 x5 (k1_pay2 (F := Ideal)) z q).trans ?_
  exact congrArg₂ (· + ·) rfl (Finset.sum_congr rfl fun p _ => pay4_apply x0 x1 x2 x3 x4 x5 p q)

theorem stepA7 (hc0 : cond1_0 i) (z : Fin 1) (q : Fin 64) :
    out1_A_7 c i arg1 harg1 arg2 harg2 arg3 harg3 arg4 harg4 arg5 harg5 arg6 harg6 arg7 harg7 arg8 harg8 hc0 x0 x1 x2 x3 x4 x5 (ix2 z q)
      = zeroE + ∑ p : Fin 10000, sq (uLoc x0 x1 x2 x3 x4 x5) (ix2 p q) := by
  rw [out_A_7]
  refine (pay1_apply (k1_pay4 x0 x1 x2 x3 x4 x5) (k1_pay3 (F := Ideal)) z q).trans ?_
  exact congrArg₂ (· + ·) rfl (Finset.sum_congr rfl fun p _ =>
    congrArg₂ (· * ·) (pay4_apply x0 x1 x2 x3 x4 x5 p q) (pay4_apply x0 x1 x2 x3 x4 x5 p q))

variable (xo6 xo7 : Vec Ideal S1x64 .f32)

theorem stepB6 (hc0 : ¬cond1_0 i) (z : Fin 1) (q : Fin 64) :
    out1_B_6 c i arg1 harg1 arg2 harg2 arg3 harg3 arg4 harg4 arg5 harg5 arg6 harg6 arg7 harg7 arg8 harg8 hc0 x0 x1 x2 x3 x4 x5 xo6 xo7 (ix2 z q)
      = xo6 (ix2 z q) + ∑ p : Fin 10000, uLoc x0 x1 x2 x3 x4 x5 (ix2 p q) := by
  rw [out_B_6]
  refine (pay5_apply x0 x1 x2 x3 x4 x5 xo6 z q).trans ?_
  exact congrArg₂ (· + ·) rfl (Finset.sum_congr rfl fun p _ => pay4_apply x0 x1 x2 x3 x4 x5 p q)

theorem stepB7 (hc0 : ¬cond1_0 i) (z : Fin 1) (q : Fin 64) :
    out1_B_7 c i arg1 harg1 arg2 harg2 arg3 harg3 arg4 harg4 arg5 harg5 arg6 harg6 arg7 harg7 arg8 harg8 hc0 x0 x1 x2 x3 x4 x5 xo6 xo7 (ix2 z q)
      = xo7 (ix2 z q) + ∑ p : Fin 10000, sq (uLoc x0 x1 x2 x3 x4 x5) (ix2 p q) := by
  rw [out_B_7]
  refine (pay1_apply (k1_pay4 x0 x1 x2 x3 x4 x5) xo7 z q).trans ?_
  exact congrArg₂ (· + ·) rfl (Finset.sum_congr rfl fun p _ =>
    congrArg₂ (· * ·) (pay4_apply x0 x1 x2 x3 x4 x5 p q) (pay4_apply x0 x1 x2 x3 x4 x5 p q))

end Arithmetic

theorem idx_facts : ∀ t : Fin cfg1.N, win1_0.index t 0 = t.val ∧ win1_0.index t 1 = 0 ∧ win1_1.index t 0 = t.val ∧ win1_1.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = 0 ∧ win1_5.index t 1 = 0
    ∧ win1_6.index t 0 = 0 ∧ win1_6.index t 1 = 0 ∧ win1_7.index t 0 = 0 ∧ win1_7.index t 1 = 0 :=
  (by decide +kernel : ∀ t : Fin grid1.N, _)

abbrev rowOf (t : Fin cfg1.N) (p : Fin 10000) : Fin 50000 :=
  ⟨10000 * t.val + p.val, by have := t.isLt; have hN : cfg1.N = 5 := N_1; have := p.isLt; omega⟩

variable (V : Entry) (c : Dev nD)

abbrev arr0 : A2 50000 64 := V c (Pipeline.arrRef spec1 0)
abbrev arr1 : A2 50000 64 := V c (Pipeline.arrRef spec1 1)
abbrev arr2 : A2 64 64 := V c (Pipeline.arrRef spec1 2)
abbrev arr3 : A2 64 64 := V c (Pipeline.arrRef spec1 3)
abbrev arr4 : A2 1 64 := V c (Pipeline.arrRef spec1 4)
abbrev arr5 : A2 1 64 := V c (Pipeline.arrRef spec1 5)

abbrev blk0 (t : Fin cfg1.N) : A2 10000 64 := iblk1 V c 0 t
abbrev blk1 (t : Fin cfg1.N) : A2 10000 64 := iblk1 V c 1 t
abbrev blk2 (t : Fin cfg1.N) : A2 64 64 := iblk1 V c 2 t
abbrev blk3 (t : Fin cfg1.N) : A2 64 64 := iblk1 V c 3 t
abbrev blk4 (t : Fin cfg1.N) : A2 1 64 := iblk1 V c 4 t
abbrev blk5 (t : Fin cfg1.N) : A2 1 64 := iblk1 V c 5 t

theorem blk0_apply (t : Fin cfg1.N) (p : Fin 10000) (k : Fin 64) : blk0 V c t (ix2 p k) = arr0 V c (ix2 (rowOf t p) k) := by
  unfold blk0 iblk1
  rw [View.read_apply]
  show V c (Pipeline.arrRef spec1 0) _ = V c (Pipeline.arrRef spec1 0) _
  refine congrArg _ (funext fun a => Fin.ext ?_)
  obtain ⟨e0, e1, -⟩ := idx_facts t
  match a with
  | ⟨0, _⟩ => show win1_0.index t 0 * 10000 + 1 * p.val = 10000 * t.val + p.val; omega
  | ⟨1, _⟩ => show win1_0.index t 1 * 64 + 1 * k.val = k.val; omega

theorem blk1_apply (t : Fin cfg1.N) (p : Fin 10000) (k : Fin 64) : blk1 V c t (ix2 p k) = arr1 V c (ix2 (rowOf t p) k) := by
  unfold blk1 iblk1
  rw [View.read_apply]
  show V c (Pipeline.arrRef spec1 1) _ = V c (Pipeline.arrRef spec1 1) _
  refine congrArg _ (funext fun a => Fin.ext ?_)
  obtain ⟨-, -, e0, e1, -⟩ := idx_facts t
  match a with
  | ⟨0, _⟩ => show win1_1.index t 0 * 10000 + 1 * p.val = 10000 * t.val + p.val; omega
  | ⟨1, _⟩ => show win1_1.index t 1 * 64 + 1 * k.val = k.val; omega

theorem blk2_eq (t : Fin cfg1.N) : blk2 V c t = arr2 V c := by
  funext j
  unfold blk2 iblk1
  rw [View.read_apply]
  show V c (Pipeline.arrRef spec1 2) _ = V c (Pipeline.arrRef spec1 2) _
  refine congrArg _ (funext fun a => Fin.ext ?_)
  obtain ⟨-, -, -, -, e0, e1, -⟩ := idx_facts t
  match a with
  | ⟨0, _⟩ => show win1_2.index t 0 * 64 + 1 * (j 0).val = (j 0).val; omega
  | ⟨1, _⟩ => show win1_2.index t 1 * 64 + 1 * (j 1).val = (j 1).val; omega

theorem blk3_eq (t : Fin cfg1.N) : blk3 V c t = arr3 V c := by
  funext j
  unfold blk3 iblk1
  rw [View.read_apply]
  show V c (Pipeline.arrRef spec1 3) _ = V c (Pipeline.arrRef spec1 3) _
  refine congrArg _ (funext fun a => Fin.ext ?_)
  obtain ⟨-, -, -, -, -, -, e0, e1, -⟩ := idx_facts t
  match a with
  | ⟨0, _⟩ => show win1_3.index t 0 * 64 + 1 * (j 0).val = (j 0).val; omega
  | ⟨1, _⟩ => show win1_3.index t 1 * 64 + 1 * (j 1).val = (j 1).val; omega

theorem blk4_eq (t : Fin cfg1.N) : blk4 V c t = arr4 V c := by
  funext j
  unfold blk4 iblk1
  rw [View.read_apply]
  show V c (Pipeline.arrRef spec1 4) _ = V c (Pipeline.arrRef spec1 4) _
  refine congrArg _ (funext fun a => Fin.ext ?_)
  obtain ⟨-, -, -, -, -, -, -, -, e0, e1, -⟩ := idx_facts t
  match a with
  | ⟨0, _⟩ => show win1_4.index t 0 * 1 + 1 * (j 0).val = (j 0).val; omega
  | ⟨1, _⟩ => show win1_4.index t 1 * 64 + 1 * (j 1).val = (j 1).val; omega

theorem blk5_eq (t : Fin cfg1.N) : blk5 V c t = arr5 V c := by
  funext j
  unfold blk5 iblk1
  rw [View.read_apply]
  show V c (Pipeline.arrRef spec1 5) _ = V c (Pipeline.arrRef spec1 5) _
  refine congrArg _ (funext fun a => Fin.ext ?_)
  obtain ⟨-, -, -, -, -, -, -, -, -, -, e0, e1, -⟩ := idx_facts t
  match a with
  | ⟨0, _⟩ => show win1_5.index t 0 * 1 + 1 * (j 0).val = (j 0).val; omega
  | ⟨1, _⟩ => show win1_5.index t 1 * 64 + 1 * (j 1).val = (j 1).val; omega

abbrev uArr : A2 50000 64 := uLoc (arr0 V c) (arr1 V c) (arr2 V c) (arr3 V c) (arr4 V c) (arr5 V c)

theorem uBlk_apply (t : Fin cfg1.N) (p : Fin 10000) (q : Fin 64) :
    uLoc (blk0 V c t) (blk1 V c t) (blk2 V c t) (blk3 V c t) (blk4 V c t) (blk5 V c t) (ix2 p q) = uArr V c (ix2 (rowOf t p) q) := by
  rw [blk2_eq, blk3_eq, blk4_eq, blk5_eq]
  show prelu (arr5 V c (ix2 0 q)) (lin (blk0 V c t) (blk1 V c t) (arr2 V c) (arr3 V c) (arr4 V c) p q)
    = prelu (arr5 V c (ix2 0 q)) (lin (arr0 V c) (arr1 V c) (arr2 V c) (arr3 V c) (arr4 V c) (rowOf t p) q)
  unfold lin
  simp only [blk0_apply, blk1_apply]

def addend (f : A2 50000 64) (s : ℕ) (q : Fin 64) : EReal :=
  if hs : s < cfg1.N then ∑ p : Fin 10000, f (ix2 (rowOf ⟨s, hs⟩ p) q) else 0

theorem addend_at (f : A2 50000 64) (n : ℕ) (h : n < cfg1.N) (q : Fin 64) :
    addend f n q = ∑ p : Fin 10000, f (ix2 (rowOf ⟨n, h⟩ p) q) := by
  unfold addend
  rw [dif_pos h]

theorem sum_addends (f : A2 50000 64) (q : Fin 64) :
    ∑ s ∈ Finset.range (4 + 1), addend f s q = ∑ n : Fin 50000, f (ix2 n q) := by
  have hN : cfg1.N = 5 := N_1
  rw [Finset.sum_range]
  refine Eq.trans (Finset.sum_congr rfl fun s _ => ?_) (Cert.BlockSum.sum_blocks 5 10000 fun n : Fin 50000 => f (ix2 n q))
  exact addend_at f s.val (by have := s.isLt; omega) q

theorem inv6 : ∀ (n : ℕ) (h : n < cfg1.N) (z : Fin 1) (q : Fin 64),
    (outsAt1 V c n h).1 (ix2 z q) = zeroE + ∑ s ∈ Finset.range (n + 1), addend (uArr V c) s q
  | 0, h, z, q => by
    rw [outsAt1_A V c ⟨0, h⟩ rfl]
    dsimp only
    refine (stepA6 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (uArr V c) s q
    rw [Finset.sum_range_one, addend_at (uArr V c) 0 h q]
    exact congrArg (zeroE + ·) (Finset.sum_congr rfl fun p _ => uBlk_apply V c ⟨0, h⟩ p q)
  | n + 1, h, z, q => by
    have hN : cfg1.N = 5 := N_1
    have hB : ¬(⟨n + 1, h⟩ : Fin cfg1.N).val % 5 = 0 := by dsimp only; omega
    rw [outsAt1_B V c ⟨n + 1, h⟩ hB]
    dsimp only
    refine (stepB6 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (uArr V c) (n + 1) h q]
    exact congrArg₂ (· + ·) (inv6 n (Nat.lt_of_succ_lt h) z q) (Finset.sum_congr rfl fun p _ => uBlk_apply V c ⟨n + 1, h⟩ p q)

theorem inv7 : ∀ (n : ℕ) (h : n < cfg1.N) (z : Fin 1) (q : Fin 64),
    (outsAt1 V c n h).2 (ix2 z q) = zeroE + ∑ s ∈ Finset.range (n + 1), addend (sq (uArr V c)) s q
  | 0, h, z, q => by
    rw [outsAt1_A V c ⟨0, h⟩ rfl]
    dsimp only
    refine (stepA7 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (sq (uArr V c)) s q
    rw [Finset.sum_range_one, addend_at (sq (uArr V c)) 0 h q]
    exact congrArg (zeroE + ·) (Finset.sum_congr rfl fun p _ =>
      congrArg₂ (· * ·) (uBlk_apply V c ⟨0, h⟩ p q) (uBlk_apply V c ⟨0, h⟩ p q))
  | n + 1, h, z, q => by
    have hN : cfg1.N = 5 := N_1
    have hB : ¬(⟨n + 1, h⟩ : Fin cfg1.N).val % 5 = 0 := by dsimp only; omega
    rw [outsAt1_B V c ⟨n + 1, h⟩ hB]
    dsimp only
    refine (stepB7 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (sq (uArr V c)) (n + 1) h q]
    exact congrArg₂ (· + ·) (inv7 n (Nat.lt_of_succ_lt h) z q) (Finset.sum_congr rfl fun p _ =>
      congrArg₂ (· * ·) (uBlk_apply V c ⟨n + 1, h⟩ p q) (uBlk_apply V c ⟨n + 1, h⟩ p q))

theorem colSum_col {R : ℕ} (u : A2 R 64) (i : (⟨2, ![1, 64]⟩ : Shape).Idx) (q : Fin 64) (h : (i 1).val = q.val) :
    colSum u i = ∑ n : Fin R, u (ix2 n q) := by
  have e : i 1 = q := Fin.ext h
  unfold colSum
  rw [e]

theorem flushed6_eq (t : Fin cfg1.N) (hf : (cfg1.win 6).flush t = true) :
    (dat1 V c).flushed 6 t = ((cfg1.win 6).blk t).view.read (Elt Ideal) (colSum (uArr V c)) := by
  have hN : cfg1.N = 5 := N_1
  have h4 : t.val = 4 := by have := (flush1_6 t).mp hf; have := t.isLt; omega
  show (cfg1.win 6).cut (grid1.coords t) ((dat1 V c).after 6 t) = _
  rw [after1_6]
  refine funext fun (j : S1x64.Idx) => ?_
  obtain ⟨z, q, rfl⟩ : ∃ (z : Fin 1) (q : Fin 64), j = ix2 z q := ⟨j 0, j 1, eq_ix2 j⟩
  rw [View.read_apply]
  show (outsAt1 V c t.val t.isLt).1 (ix2 z q) = _
  rw [inv6 V c t.val t.isLt z q, h4, sum_addends]
  refine Eq.trans ?_ (cast_eq _ _).symm
  refine Eq.trans ?_ (colSum_col (uArr V c) _ q ?_).symm
  · show Ideal.ofBits .f32 0x00000000#32 + _ = _
    rw [Ideal.ofBits_zero_f32, zero_add]
  · obtain ⟨-, -, -, -, -, -, -, -, -, -, -, -, e0, e1, -⟩ := idx_facts t
    show win1_6.index t 1 * 64 + 1 * q.val = q.val
    omega

theorem final6 : (dat1 V c).arrAt 6 cfg1.N = colSum (uArr V c) := by
  have hN : cfg1.N = 5 := N_1
  have h4 : 4 < cfg1.N := by omega
  refine (dat1 V c).arrAt_eq_of_cover 6 (colSum (uArr V c)) (fun t hf => flushed6_eq V c t hf) fun i => ?_
  refine ⟨⟨4, h4⟩, (flush1_6 _).mpr rfl, ?_⟩
  show i ∈ ((View.whole (Pipeline.arrRef spec1 6)).slice (win1_6.rect ⟨4, h4⟩)).set
  rw [View.set_slice_whole, Rect.mem_set_unit]
  intro a
  obtain ⟨-, -, -, -, -, -, -, -, -, -, -, -, e0, e1, -⟩ := idx_facts ⟨4, h4⟩
  have h0 : (i 0 : Nat) < 1 := (i 0).isLt
  have h1 : (i 1 : Nat) < 64 := (i 1).isLt
  match a with
  | ⟨0, _⟩ =>
    show win1_6.index ⟨4, h4⟩ 0 * 1 ≤ (i 0 : Nat) ∧ (i 0 : Nat) < win1_6.index ⟨4, h4⟩ 0 * 1 + 1
    omega
  | ⟨1, _⟩ =>
    show win1_6.index ⟨4, h4⟩ 1 * 64 ≤ (i 1 : Nat) ∧ (i 1 : Nat) < win1_6.index ⟨4, h4⟩ 1 * 64 + 64
    omega

theorem flushed7_eq (t : Fin cfg1.N) (hf : (cfg1.win 7).flush t = true) :
    (dat1 V c).flushed 7 t = ((cfg1.win 7).blk t).view.read (Elt Ideal) (colSum (sq (uArr V c))) := by
  have hN : cfg1.N = 5 := N_1
  have h4 : t.val = 4 := by have := (flush1_7 t).mp hf; have := t.isLt; omega
  show (cfg1.win 7).cut (grid1.coords t) ((dat1 V c).after 7 t) = _
  rw [after1_7]
  refine funext fun (j : S1x64.Idx) => ?_
  obtain ⟨z, q, rfl⟩ : ∃ (z : Fin 1) (q : Fin 64), j = ix2 z q := ⟨j 0, j 1, eq_ix2 j⟩
  rw [View.read_apply]
  show (outsAt1 V c t.val t.isLt).2 (ix2 z q) = _
  rw [inv7 V c t.val t.isLt z q, h4, sum_addends]
  refine Eq.trans ?_ (cast_eq _ _).symm
  refine Eq.trans ?_ (colSum_col (sq (uArr V c)) _ q ?_).symm
  · show Ideal.ofBits .f32 0x00000000#32 + _ = _
    rw [Ideal.ofBits_zero_f32, zero_add]
  · obtain ⟨-, -, -, -, -, -, -, -, -, -, -, -, -, -, e0, e1⟩ := idx_facts t
    show win1_7.index t 1 * 64 + 1 * q.val = q.val
    omega

theorem final7 : (dat1 V c).arrAt 7 cfg1.N = colSum (sq (uArr V c)) := by
  have hN : cfg1.N = 5 := N_1
  have h4 : 4 < cfg1.N := by omega
  refine (dat1 V c).arrAt_eq_of_cover 7 (colSum (sq (uArr V c))) (fun t hf => flushed7_eq V c t hf) fun i => ?_
  refine ⟨⟨4, h4⟩, (flush1_7 _).mpr rfl, ?_⟩
  show i ∈ ((View.whole (Pipeline.arrRef spec1 7)).slice (win1_7.rect ⟨4, h4⟩)).set
  rw [View.set_slice_whole, Rect.mem_set_unit]
  intro a
  obtain ⟨-, -, -, -, -, -, -, -, -, -, -, -, -, -, e0, e1⟩ := idx_facts ⟨4, h4⟩
  have h0 : (i 0 : Nat) < 1 := (i 0).isLt
  have h1 : (i 1 : Nat) < 64 := (i 1).isLt
  match a with
  | ⟨0, _⟩ =>
    show win1_7.index ⟨4, h4⟩ 0 * 1 ≤ (i 0 : Nat) ∧ (i 0 : Nat) < win1_7.index ⟨4, h4⟩ 0 * 1 + 1
    omega
  | ⟨1, _⟩ =>
    show win1_7.index ⟨4, h4⟩ 1 * 64 ≤ (i 1 : Nat) ∧ (i 1 : Nat) < win1_7.index ⟨4, h4⟩ 1 * 64 + 64
    omega

end Stats1

theorem sum1 (V : Entry) (c : Dev nD) :
    (dat1 V c).arrAt 6 cfg1.N = colSum (uLoc (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) :=
  Stats1.final6 V c

theorem sumsq1 (V : Entry) (c : Dev nD) :
    (dat1 V c).arrAt 7 cfg1.N = colSum (sq (uLoc (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)))) :=
  Stats1.final7 V c

end Cert.KernelIdeal.Val

end
-- ==== Proof.KNorm2.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx
open scoped BigOperators

theorem row2_apply (x : FVec Ideal S1x64 .f32) (h : S1x64.Broadcasts S10000x64) (p : Fin 10000) (q : Fin 64) :
    broadcastTo S10000x64 x h (ix2 p q) = x (ix2 0 q) :=
  broadcastTo_1b_ab_apply x h p q

theorem prod2_apply (x : FVec Ideal S10000x64 .f32) (w : FVec Ideal S64x64 .f32) (hb : FTy.bits .bf16 < FTy.bits .f32)
    (p : Fin 10000) (q : Fin 64) :
    matmul dot_S10000x64_S64x64_S10000x64_1_0_0_1_n_n none (truncf .bf16 x hb) (truncf .bf16 w hb)
        (constant (F := Ideal) S10000x64 .f32 0x00000000#32) (ix2 p q)
      = ∑ k : Fin 64, x (ix2 p k) * w (ix2 k q) :=
  Cert.LibPlainDot.matmul_zero_apply dot_S10000x64_S64x64_S10000x64_1_0_0_1_n_n rfl rfl rfl rfl rfl rfl none x w p q

theorem pay2_eq (x0 x1 : FVec Ideal S10000x64 .f32) (x2 x3 : FVec Ideal S64x64 .f32)
    (x4 x5 x6 x7 x8 x9 : FVec Ideal S1x64 .f32) :
    k2_pay1 (F := Ideal) (k2_pay2 (F := Ideal) x0 x1 x2 x3 x4 x5) (k2_pay3 (F := Ideal) x6) (k2_pay4 (F := Ideal) x7)
        (k2_pay5 (F := Ideal) x8) x9
      = normLoc x0 x1 x2 x3 x4 x5 x6 x7 x8 x9 := by
  unfold k2_pay1 k2_pay2 k2_pay3 k2_pay4 k2_pay5
  simp only [shapeCast_self]
  funext j
  obtain ⟨p, q, rfl⟩ : ∃ (p : Fin 10000) (q : Fin 64), j = ix2 p q := ⟨j 0, j 1, eq_ix2 j⟩
  show ((prelu (broadcastTo S10000x64 x5 _ (ix2 p q))
          ((matmul dot_S10000x64_S64x64_S10000x64_1_0_0_1_n_n none (truncf .bf16 x0 _) (truncf .bf16 x2 _)
                (constant (F := Ideal) S10000x64 .f32 0x00000000#32) (ix2 p q)
              + matmul dot_S10000x64_S64x64_S10000x64_1_0_0_1_n_n none (truncf .bf16 x1 _) (truncf .bf16 x3 _)
                (constant (F := Ideal) S10000x64 .f32 0x00000000#32) (ix2 p q))
            + broadcastTo S10000x64 x4 _ (ix2 p q))
        - broadcastTo S10000x64 x6 _ (ix2 p q)) * broadcastTo S10000x64 x7 _ (ix2 p q))
        * broadcastTo S10000x64 x8 _ (ix2 p q) + broadcastTo S10000x64 x9 _ (ix2 p q) = _
  rw [row2_apply x5, row2_apply x4, row2_apply x6, row2_apply x7, row2_apply x8, row2_apply x9,
    prod2_apply x0 x2, prod2_apply x1 x3]
  rfl

theorem normLoc_rows2 {R R' : ℕ} (h g : A2 R 64) (h' g' : A2 R' 64) (w0 w1 : A2 64 64) (b a mean istd gam bet : A2 1 64)
    (w0' w1' : A2 64 64) (b' a' mean' istd' gam' bet' : A2 1 64) (p : Fin R) (n : Fin R') (q : Fin 64)
    (hh : ∀ k : Fin 64, h (ix2 p k) = h' (ix2 n k)) (hg : ∀ k : Fin 64, g (ix2 p k) = g' (ix2 n k))
    (e2 : w0 = w0') (e3 : w1 = w1') (e4 : b = b') (e5 : a = a') (e6 : mean = mean') (e7 : istd = istd')
    (e8 : gam = gam') (e9 : bet = bet') :
    normLoc h g w0 w1 b a mean istd gam bet (ix2 p q) = normLoc h' g' w0' w1' b' a' mean' istd' gam' bet' (ix2 n q) := by
  subst e2 e3 e4 e5 e6 e7 e8 e9
  have s1 : (∑ k : Fin 64, h (ix2 p k) * w0 (ix2 k q)) = ∑ k : Fin 64, h' (ix2 n k) * w0 (ix2 k q) :=
    Finset.sum_congr rfl fun k _ => by rw [hh k]
  have s2 : (∑ k : Fin 64, g (ix2 p k) * w1 (ix2 k q)) = ∑ k : Fin 64, g' (ix2 n k) * w1 (ix2 k q) :=
    Finset.sum_congr rfl fun k _ => by rw [hg k]
  show ((prelu (a (ix2 0 q)) (((∑ k : Fin 64, h (ix2 p k) * w0 (ix2 k q)) + (∑ k : Fin 64, g (ix2 p k) * w1 (ix2 k q)))
            + b (ix2 0 q)) - mean (ix2 0 q)) * istd (ix2 0 q)) * gam (ix2 0 q) + bet (ix2 0 q)
      = ((prelu (a (ix2 0 q)) (((∑ k : Fin 64, h' (ix2 n k) * w0 (ix2 k q)) + (∑ k : Fin 64, g' (ix2 n k) * w1 (ix2 k q)))
            + b (ix2 0 q)) - mean (ix2 0 q)) * istd (ix2 0 q)) * gam (ix2 0 q) + bet (ix2 0 q)
  rw [s1, s2]

abbrev inA2_0 (V : Entry) (c : Dev nD) : A2 50000 64 := V c (Pipeline.arrRef spec2 0)

abbrev inA2_1 (V : Entry) (c : Dev nD) : A2 50000 64 := V c (Pipeline.arrRef spec2 1)

abbrev inA2_2 (V : Entry) (c : Dev nD) : A2 64 64 := V c (Pipeline.arrRef spec2 2)

abbrev inA2_3 (V : Entry) (c : Dev nD) : A2 64 64 := V c (Pipeline.arrRef spec2 3)

abbrev inA2_4 (V : Entry) (c : Dev nD) : A2 1 64 := V c (Pipeline.arrRef spec2 4)

abbrev inA2_5 (V : Entry) (c : Dev nD) : A2 1 64 := V c (Pipeline.arrRef spec2 5)

abbrev inA2_6 (V : Entry) (c : Dev nD) : A2 1 64 := V c (Pipeline.arrRef spec2 6)

abbrev inA2_7 (V : Entry) (c : Dev nD) : A2 1 64 := V c (Pipeline.arrRef spec2 7)

abbrev inA2_8 (V : Entry) (c : Dev nD) : A2 1 64 := V c (Pipeline.arrRef spec2 8)

abbrev inA2_9 (V : Entry) (c : Dev nD) : A2 1 64 := V c (Pipeline.arrRef spec2 9)

abbrev inB2_0 (V : Entry) (c : Dev nD) (t : Fin cfg2.N) : A2 10000 64 := iblk2 V c 0 t

abbrev inB2_1 (V : Entry) (c : Dev nD) (t : Fin cfg2.N) : A2 10000 64 := iblk2 V c 1 t

abbrev inB2_2 (V : Entry) (c : Dev nD) (t : Fin cfg2.N) : A2 64 64 := iblk2 V c 2 t

abbrev inB2_3 (V : Entry) (c : Dev nD) (t : Fin cfg2.N) : A2 64 64 := iblk2 V c 3 t

abbrev inB2_4 (V : Entry) (c : Dev nD) (t : Fin cfg2.N) : A2 1 64 := iblk2 V c 4 t

abbrev inB2_5 (V : Entry) (c : Dev nD) (t : Fin cfg2.N) : A2 1 64 := iblk2 V c 5 t

abbrev inB2_6 (V : Entry) (c : Dev nD) (t : Fin cfg2.N) : A2 1 64 := iblk2 V c 6 t

abbrev inB2_7 (V : Entry) (c : Dev nD) (t : Fin cfg2.N) : A2 1 64 := iblk2 V c 7 t

abbrev inB2_8 (V : Entry) (c : Dev nD) (t : Fin cfg2.N) : A2 1 64 := iblk2 V c 8 t

abbrev inB2_9 (V : Entry) (c : Dev nD) (t : Fin cfg2.N) : A2 1 64 := iblk2 V c 9 t

theorem zero_off2 : (![0, 0] : Fin 2 → Nat) = fun _ => 0 := funext fun a => by fin_cases a <;> rfl

theorem idx2_moving : ∀ t : Fin cfg2.N,
    win2_0.index t (0 : Fin 2) = t.val ∧ win2_0.index t (1 : Fin 2) = 0
    ∧ win2_1.index t (0 : Fin 2) = t.val ∧ win2_1.index t (1 : Fin 2) = 0
    ∧ win2_10.index t (0 : Fin 2) = t.val ∧ win2_10.index t (1 : Fin 2) = 0 :=
  (by decide +kernel : ∀ t : Fin grid2.N, _)

theorem idx2_fixed : ∀ t : Fin cfg2.N,
    (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

theorem inB2_0_apply (V : Entry) (c : Dev nD) (t : Fin cfg2.N) (p : Fin 10000) (k : Fin 64) (n : Fin 50000)
    (hn : n.val = t.val * 10000 + p.val) : inB2_0 V c t (ix2 p k) = inA2_0 V c (ix2 n k) := by
  obtain ⟨f0, f1, -, -, -, -⟩ := idx2_moving t
  show V c (Pipeline.arrRef spec2 0) (((cfg2.win 0).blk t).view.emb (ix2 p k)) = V c (Pipeline.arrRef spec2 0) (ix2 n k)
  refine congrArg (V c (Pipeline.arrRef spec2 0)) (funext fun a => Fin.ext ?_)
  match a with
  | ⟨0, _⟩ => show win2_0.index t (0 : Fin 2) * 10000 + 1 * p.val = n.val; omega
  | ⟨1, _⟩ => show win2_0.index t (1 : Fin 2) * 64 + 1 * k.val = k.val; omega

theorem inB2_1_apply (V : Entry) (c : Dev nD) (t : Fin cfg2.N) (p : Fin 10000) (k : Fin 64) (n : Fin 50000)
    (hn : n.val = t.val * 10000 + p.val) : inB2_1 V c t (ix2 p k) = inA2_1 V c (ix2 n k) := by
  obtain ⟨-, -, f0, f1, -, -⟩ := idx2_moving t
  show V c (Pipeline.arrRef spec2 1) (((cfg2.win 1).blk t).view.emb (ix2 p k)) = V c (Pipeline.arrRef spec2 1) (ix2 n k)
  refine congrArg (V c (Pipeline.arrRef spec2 1)) (funext fun a => Fin.ext ?_)
  match a with
  | ⟨0, _⟩ => show win2_1.index t (0 : Fin 2) * 10000 + 1 * p.val = n.val; omega
  | ⟨1, _⟩ => show win2_1.index t (1 : Fin 2) * 64 + 1 * k.val = k.val; omega

theorem inB2_2_eq (V : Entry) (c : Dev nD) (t : Fin cfg2.N) : inB2_2 V c t = inA2_2 V c := by
  obtain ⟨⟨f0, f1⟩, -⟩ := idx2_fixed t
  funext y
  show V c (Pipeline.arrRef spec2 2) (((cfg2.win 2).blk t).view.emb y) = V c (Pipeline.arrRef spec2 2) y
  refine congrArg (V c (Pipeline.arrRef spec2 2)) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

theorem inB2_3_eq (V : Entry) (c : Dev nD) (t : Fin cfg2.N) : inB2_3 V c t = inA2_3 V c := by
  obtain ⟨-, ⟨f0, f1⟩, -⟩ := idx2_fixed t
  funext y
  show V c (Pipeline.arrRef spec2 3) (((cfg2.win 3).blk t).view.emb y) = V c (Pipeline.arrRef spec2 3) y
  refine congrArg (V c (Pipeline.arrRef spec2 3)) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

theorem inB2_4_eq (V : Entry) (c : Dev nD) (t : Fin cfg2.N) : inB2_4 V c t = inA2_4 V c := by
  obtain ⟨-, -, ⟨f0, f1⟩, -⟩ := idx2_fixed t
  funext y
  show V c (Pipeline.arrRef spec2 4) (((cfg2.win 4).blk t).view.emb y) = V c (Pipeline.arrRef spec2 4) y
  refine congrArg (V c (Pipeline.arrRef spec2 4)) (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

theorem inB2_5_eq (V : Entry) (c : Dev nD) (t : Fin cfg2.N) : inB2_5 V c t = inA2_5 V c := by
  obtain ⟨-, -, -, ⟨f0, f1⟩, -⟩ := idx2_fixed t
  funext y
  show V c (Pipeline.arrRef spec2 5) (((cfg2.win 5).blk t).view.emb y) = V c (Pipeline.arrRef spec2 5) y
  refine congrArg (V c (Pipeline.arrRef spec2 5)) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

theorem inB2_6_eq (V : Entry) (c : Dev nD) (t : Fin cfg2.N) : inB2_6 V c t = inA2_6 V c := by
  obtain ⟨-, -, -, -, ⟨f0, f1⟩, -⟩ := idx2_fixed t
  funext y
  show V c (Pipeline.arrRef spec2 6) (((cfg2.win 6).blk t).view.emb y) = V c (Pipeline.arrRef spec2 6) y
  refine congrArg (V c (Pipeline.arrRef spec2 6)) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

theorem inB2_7_eq (V : Entry) (c : Dev nD) (t : Fin cfg2.N) : inB2_7 V c t = inA2_7 V c := by
  obtain ⟨-, -, -, -, -, ⟨f0, f1⟩, -⟩ := idx2_fixed t
  funext y
  show V c (Pipeline.arrRef spec2 7) (((cfg2.win 7).blk t).view.emb y) = V c (Pipeline.arrRef spec2 7) y
  refine congrArg (V c (Pipeline.arrRef spec2 7)) (funext fun a => Fin.ext ?_)
  match a with
  | ⟨0, _⟩ => show win2_7.index t (0 : Fin 2) * 1 + 1 * (y 0).val = (y 0).val; omega
  | ⟨1, _⟩ => show win2_7.index t (1 : Fin 2) * 64 + 1 * (y 1).val = (y 1).val; omega

theorem inB2_8_eq (V : Entry) (c : Dev nD) (t : Fin cfg2.N) : inB2_8 V c t = inA2_8 V c := by
  obtain ⟨-, -, -, -, -, -, ⟨f0, f1⟩, -⟩ := idx2_fixed t
  funext y
  show V c (Pipeline.arrRef spec2 8) (((cfg2.win 8).blk t).view.emb y) = V c (Pipeline.arrRef spec2 8) y
  refine congrArg (V c (Pipeline.arrRef spec2 8)) (funext fun a => Fin.ext ?_)
  match a with
  | ⟨0, _⟩ => show win2_8.index t (0 : Fin 2) * 1 + 1 * (y 0).val = (y 0).val; omega
  | ⟨1, _⟩ => show win2_8.index t (1 : Fin 2) * 64 + 1 * (y 1).val = (y 1).val; omega

theorem inB2_9_eq (V : Entry) (c : Dev nD) (t : Fin cfg2.N) : inB2_9 V c t = inA2_9 V c := by
  obtain ⟨-, -, -, -, -, -, -, f0, f1⟩ := idx2_fixed t
  funext y
  show V c (Pipeline.arrRef spec2 9) (((cfg2.win 9).blk t).view.emb y) = V c (Pipeline.arrRef spec2 9) y
  refine congrArg (V c (Pipeline.arrRef spec2 9)) (funext fun a => Fin.ext ?_)
  match a with
  | ⟨0, _⟩ => show win2_9.index t (0 : Fin 2) * 1 + 1 * (y 0).val = (y 0).val; omega
  | ⟨1, _⟩ => show win2_9.index t (1 : Fin 2) * 64 + 1 * (y 1).val = (y 1).val; omega

theorem out2_idx (t : Fin cfg2.N) (p : Fin 10000) (q : Fin 64) (n : Fin 50000) (hn : n.val = t.val * 10000 + p.val) :
    (((cfg2.win 10).blk t).view.emb (ix2 p q) : S50000x64.Idx) = ix2 n q := by
  obtain ⟨-, -, -, -, f0, f1⟩ := idx2_moving t
  funext a
  apply Fin.ext
  match a with
  | ⟨0, _⟩ => show win2_10.index t (0 : Fin 2) * 10000 + 1 * p.val = n.val; omega
  | ⟨1, _⟩ => show win2_10.index t (1 : Fin 2) * 64 + 1 * q.val = q.val; omega

theorem flushed2_eq (V : Entry) (c : Dev nD) (t : Fin cfg2.N) :
    (dat2 V c).flushed 10 t = ((cfg2.win 10).blk t).view.read (Elt Ideal) (normLoc (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9))) := by
  show (cfg2.win 10).cut (grid2.coords t) ((dat2 V c).after 10 t) = _
  rw [after2_10 V c t]
  unfold out2_10
  rw [View.canon_unit_zero zero_off2]
  simp only [View.ld_unit_zero (S := S10000x64) zero_off2, View.ld_unit_zero (S := S64x64) zero_off2,
    View.ld_unit_zero (S := S1x64) zero_off2]
  show (fun j : S10000x64.Idx => k2_pay1 (F := Ideal) (k2_pay2 (F := Ideal) (inB2_0 V c t) (inB2_1 V c t) (inB2_2 V c t) (inB2_3 V c t) (inB2_4 V c t) (inB2_5 V c t)) (k2_pay3 (F := Ideal) (inB2_6 V c t)) (k2_pay4 (F := Ideal) (inB2_7 V c t)) (k2_pay5 (F := Ideal) (inB2_8 V c t)) (inB2_9 V c t) j)
      = fun j : S10000x64.Idx => normLoc (inA2_0 V c) (inA2_1 V c) (inA2_2 V c) (inA2_3 V c) (inA2_4 V c) (inA2_5 V c) (inA2_6 V c) (inA2_7 V c) (inA2_8 V c) (inA2_9 V c) (((cfg2.win 10).blk t).view.emb j)
  funext j
  obtain ⟨p, q, rfl⟩ : ∃ (p : Fin 10000) (q : Fin 64), j = ix2 p q := ⟨j 0, j 1, eq_ix2 j⟩
  have ht : t.val < 5 := lt_of_lt_of_eq t.isLt N_2
  have hp : p.val < 10000 := p.isLt
  obtain ⟨n, hn⟩ : ∃ n : Fin 50000, n.val = t.val * 10000 + p.val := ⟨⟨t.val * 10000 + p.val, by omega⟩, rfl⟩
  refine (congrFun (pay2_eq (inB2_0 V c t) (inB2_1 V c t) (inB2_2 V c t) (inB2_3 V c t) (inB2_4 V c t) (inB2_5 V c t) (inB2_6 V c t) (inB2_7 V c t) (inB2_8 V c t) (inB2_9 V c t)) (ix2 p q)).trans ?_
  refine (normLoc_rows2 (inB2_0 V c t) (inB2_1 V c t) (inA2_0 V c) (inA2_1 V c) (inB2_2 V c t) (inB2_3 V c t) (inB2_4 V c t) (inB2_5 V c t) (inB2_6 V c t) (inB2_7 V c t) (inB2_8 V c t) (inB2_9 V c t) (inA2_2 V c) (inA2_3 V c) (inA2_4 V c) (inA2_5 V c) (inA2_6 V c) (inA2_7 V c) (inA2_8 V c) (inA2_9 V c)
    p n q
    (fun k => inB2_0_apply V c t p k n hn) (fun k => inB2_1_apply V c t p k n hn)
    (inB2_2_eq V c t) (inB2_3_eq V c t) (inB2_4_eq V c t) (inB2_5_eq V c t) (inB2_6_eq V c t) (inB2_7_eq V c t) (inB2_8_eq V c t) (inB2_9_eq V c t)).trans ?_
  exact congrArg (normLoc (inA2_0 V c) (inA2_1 V c) (inA2_2 V c) (inA2_3 V c) (inA2_4 V c) (inA2_5 V c) (inA2_6 V c) (inA2_7 V c) (inA2_8 V c) (inA2_9 V c)) (out2_idx t p q n hn).symm

theorem mem_blk2 (t : Fin cfg2.N) (i : S50000x64.Idx) :
    i ∈ ((cfg2.win 10).blk t).view.set ↔ ∀ a : Fin 2, win2_10.index t a * S10000x64.size a ≤ (i a).val ∧ (i a).val < win2_10.index t a * S10000x64.size a + S10000x64.size a := by
  show i ∈ ((View.whole main_v54).slice (win2_10.rect t)).set ↔ _
  rw [View.set_slice_whole, Rect.mem_set_unit]
  exact Iff.rfl

theorem cover2_arr (i : S50000x64.Idx) :
    ∃ t : Fin cfg2.N, (cfg2.win 10).flush t = true ∧ i ∈ ((cfg2.win 10).blk t).view.set := by
  have h0 : (i 0).val < 50000 := (i 0).isLt
  have h1 : (i 1).val < 64 := (i 1).isLt
  obtain ⟨t, ht⟩ : ∃ t : Fin cfg2.N, t.val = (i 0).val / 10000 :=
    ⟨⟨(i 0).val / 10000, by rw [show cfg2.N = 5 from N_2]; omega⟩, rfl⟩
  obtain ⟨-, -, -, -, f0, f1⟩ := idx2_moving t
  refine ⟨t, flush2_10 t, ?_⟩
  rw [mem_blk2]
  intro a
  match a with
  | ⟨0, _⟩ =>
    show win2_10.index t (0 : Fin 2) * 10000 ≤ (i 0).val ∧ (i 0).val < win2_10.index t (0 : Fin 2) * 10000 + 10000
    omega
  | ⟨1, _⟩ =>
    show win2_10.index t (1 : Fin 2) * 64 ≤ (i 1).val ∧ (i 1).val < win2_10.index t (1 : Fin 2) * 64 + 64
    omega

theorem norm2 (V : Entry) (c : Dev nD) :
    (dat2 V c).arrAt 10 cfg2.N = normLoc (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) := by
  exact (dat2 V c).arrAt_eq_of_cover 10 (normLoc (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9))) (fun t _ => flushed2_eq V c t) (fun i => cover2_arr i)

end Cert.KernelIdeal.Val

end
-- ==== Proof.LibSsa.lean ====
import Idealize.ShloMosaic.Lib.StableHlo.Run

namespace Cert.LibSsa

open Idealize.ShloMosaic Idealize.ShloMosaic.StableHlo

variable {τ : Topo} {sig : RefSig} {Val : EltTy → Type}

abbrev WritesAt (ops : List (HloOp τ sig Val)) (Ws : List (Ref sig .tc)) : Prop :=
  List.Forall₂ (fun op w => op.writes = {Proc.devRef (τ := τ) .tc w}) ops Ws

theorem WritesAt.not_written {ops : List (HloOp τ sig Val)} {Ws : List (Ref sig .tc)} (h : WritesAt ops Ws) :
    ∀ {r : Ref sig .tc}, r ∉ Ws → ∀ op ∈ ops, Proc.devRef (τ := τ) .tc r ∉ op.writes := by
  induction h with
  | nil => intro r _ op hop; cases hop
  | cons hw _ ih =>
    intro r hr op hop hb
    rcases List.mem_cons.mp hop with rfl | hop
    · rw [hw, Finset.mem_singleton] at hb
      exact hr (Proc.devRef_injective _ hb ▸ List.mem_cons_self)
    · exact ih (fun h => hr (List.mem_cons_of_mem _ h)) op hop hb

end Cert.LibSsa
-- ==== Proof.Take.lean ====
import proofs.«428660_j69922067578969_2_alg».proof.Proof.Shared
import Idealize.ShloMosaic.Lib.ReduceAll

noncomputable section

namespace Cert.KernelIdeal.Val

open Idealize.ShloMosaic Idealize.ShloMosaic.ValueIdx Cert.KernelIdeal Cert.KernelIdeal.Gen Cert.Spec

def takeK (h : A2 50000 64) (ix : IVec S800000 32) : A2 800000 64 :=
  select
    (broadcastInDim S800000x64 ![0] bcast_S800000_S800000x64_0
      (Host.reduce IntOp.andi
        (andi
          (cmpi .sge (broadcastInDim S800000x1 ![0] bcast_S800000_S800000x1_0 (Cert.Shared.wrap ix))
            (broadcastInDim S800000x1 ![] bcast_S_S800000x1 (constantI S_ 32 0#32)))
          (cmpi .sle (broadcastInDim S800000x1 ![0] bcast_S800000_S800000x1_0 (Cert.Shared.wrap ix))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 h
      (broadcastInDim S800000x1 ![0] bcast_S800000_S800000x1_0 (Cert.Shared.wrap ix)))
    (broadcastInDim S800000x64 ![] bcast_S_S800000x64 (constant (F := Ideal) S_ .f32 0x7FC00000#32))

theorem foldl_andi_all_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_all_one f hf l

theorem reduce_andi_of_all {s t u : Shape} {axes : List (Fin s.rank)} (x : s.Idx → BitVec 1)
    (hr : s.ReducesTo axes t) (hu : 0 < u.numel) (hx : ∀ i, x i = 1#1) (j : t.Idx) :
    Host.reduce IntOp.andi x (constantI u 1 1#1) hr hu j = 1#1 := by
  rw [Host.reduce_eq_foldl]
  exact foldl_andi_all_one x hx _

theorem zero_word : (0#32 : BitVec 32).toInt = 0 := by decide
theorem top_word : (49999#32 : BitVec 32).toInt = 49999 := by decide

theorem in_range_bits (v : BitVec 32) (h0 : 0 ≤ v.toInt) (h1 : v.toInt < 50000) :
    IntOp.andi (IntOp.cmpi .sge v 0#32) (IntOp.cmpi .sle v 49999#32) = 1#1 := by
  rw [IntOp.andi_eq_one, IntOp.cmpi_sge, IntOp.cmpi_sle, zero_word, top_word]
  exact ⟨h0, by omega⟩

theorem wrap_eq (ix : IVec S800000 32) (hr : ∀ i, 0 ≤ (ix i).toInt) : Cert.Shared.wrap ix = ix := by
  funext i
  have hc : ¬ IntOp.cmpi .slt (ix i) 0#32 = 1#1 := by
    rw [IntOp.cmpi_slt, zero_word]; exact not_lt.mpr (hr i)
  show Scalar.select (IntOp.cmpi .slt (ix i) 0#32) _ (ix i) = ix i
  exact if_neg hc

theorem takeK_eq_gat (h : A2 50000 64) (ix : IVec S800000 32)
    (hr : ∀ i, 0 ≤ (ix i).toInt ∧ (ix i).toInt < 50000) : takeK h ix = Cert.Shared.gat ix h := by
  have hw : Cert.Shared.wrap ix = ix := wrap_eq ix (fun i => (hr i).1)
  funext j
  unfold takeK Cert.Shared.gat
  rw [select_apply]
  have hm : ∀ p, Host.reduce IntOp.andi
        (andi
          (cmpi .sge (broadcastInDim S800000x1 ![0] bcast_S800000_S800000x1_0 (Cert.Shared.wrap ix))
            (broadcastInDim S800000x1 ![] bcast_S_S800000x1 (constantI S_ 32 0#32)))
          (cmpi .sle (broadcastInDim S800000x1 ![0] bcast_S800000_S800000x1_0 (Cert.Shared.wrap ix))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_ p = 1#1 := by
    intro p
    refine reduce_andi_of_all _ _ _ (fun q => ?_) p
    rw [hw]
    show IntOp.andi (IntOp.cmpi .sge (ix _) 0#32) (IntOp.cmpi .sle (ix _) 49999#32) = 1#1
    exact in_range_bits _ (hr _).1 (hr _).2
  show Scalar.select (Host.reduce IntOp.andi _ _ _ _ _) _ _ = _
  rw [hm, select_one]

theorem src_range (ei : IVec S2x800000 32) (hr : ∀ i, 0 ≤ (ei i).toInt ∧ (ei i).toInt < 50000) :
    ∀ i, 0 ≤ (Cert.Shared.src ei i).toInt ∧ (Cert.Shared.src ei i).toInt < 50000 :=
  fun _ => hr _

theorem dst_range (ei : IVec S2x800000 32) (hr : ∀ i, 0 ≤ (ei i).toInt ∧ (ei i).toInt < 50000) :
    ∀ i, 0 ≤ (Cert.Shared.dst ei i).toInt ∧ (Cert.Shared.dst ei i).toInt < 50000 :=
  fun _ => hr _

theorem takeK_src (h : A2 50000 64) (ei : IVec S2x800000 32)
    (hr : ∀ i, 0 ≤ (ei i).toInt ∧ (ei i).toInt < 50000) :
    takeK h (Cert.Shared.src ei) = Cert.Shared.gat (Cert.Shared.src ei) h :=
  takeK_eq_gat h _ (src_range ei hr)

theorem takeK_dst (h : A2 50000 64) (ei : IVec S2x800000 32)
    (hr : ∀ i, 0 ≤ (ei i).toInt ∧ (ei i).toInt < 50000) :
    takeK h (Cert.Shared.dst ei) = Cert.Shared.gat (Cert.Shared.dst ei) h :=
  takeK_eq_gat h _ (dst_range ei hr)

end Cert.KernelIdeal.Val

end
-- ==== Proof.KLayer0.lean ====
import proofs.«428660_j69922067578969_2_alg».proof.Proof.Gen.KernelIdeal.Frame
import proofs.«428660_j69922067578969_2_alg».proof.Proof.Shared
import proofs.«428660_j69922067578969_2_alg».proof.Proof.KLive
import proofs.«428660_j69922067578969_2_alg».proof.Proof.KMsg0
import proofs.«428660_j69922067578969_2_alg».proof.Proof.KStats1
import proofs.«428660_j69922067578969_2_alg».proof.Proof.KNorm2
import proofs.«428660_j69922067578969_2_alg».proof.Proof.LibSsa
import proofs.«428660_j69922067578969_2_alg».proof.Proof.Take
import Idealize.ShloMosaic.Lib.ValueLayout

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.Spec

namespace L0

local notation:max "𝕕" b:max => (Proc.devRef (Proc.tc : Proc τ) b : DevRef τ sig)

theorem keepHost {ops : List (HloOp τ sig (Elt Ideal))} {Ws : List (Ref sig .tc)} (hat : Cert.LibSsa.WritesAt ops Ws)
    (V : Valuation τ sig (Elt Ideal)) {r : Ref sig .tc} (hr : r ∉ Ws) :
    StableHlo.after ops V (𝕕 r) = V (𝕕 r) :=
  StableHlo.after_of_forall_not_mem ops V (Cert.LibSsa.WritesAt.not_written hat hr)

def wr0 : List (Ref sig .tc) :=
  [main_v0, main_v1, main_v2, main_v3, main_cst, main_v4, main_cst_0, main_v5, main_v6, main_v7, main_cst_1,
   main_v8, main_v9, main_v10, main_v11, main_v12, main_v13, main_v14, main_v15, main_v16, main_v17,
   main_v18, main_v19, main_v20, main_v21, main_v22, main_v23, main_v24, main_v25, main_v26, main_v27,
   main_v28, main_v29, main_v30, main_v31, main_v32, main_v33]

def wr0_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8,
   main_call0_v9, main_call0_v10, main_call0_v11, main_call0_c_3, main_call0_v12, main_call0_v13,
   main_call0_v14, main_call0_cst, main_call0_v15, main_v34]

def wr0_2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8,
   main_call1_v9, main_call1_v10, main_call1_v11, main_call1_c_3, main_call1_v12, main_call1_v13,
   main_call1_v14, main_call1_cst, main_call1_v15, main_v35]

def wr1 : List (Ref sig .tc) :=
  [main_cst_2, main_v37, main_v38, main_v39, main_v40, main_v41]

def wr2 : List (Ref sig .tc) :=
  [main_cst_3, main_v43, main_v44, main_cst_4, main_v45, main_v46, main_v47, main_v48, main_cst_5, main_v49,
   main_v50, main_cst_6, main_v51, main_v52, main_v53]

theorem writes0 : Cert.LibSsa.WritesAt (hostOps0 (F := Ideal)) wr0 := by
  unfold wr0
  repeat (first | exact List.Forall₂.nil | refine List.Forall₂.cons rfl ?_)

theorem writes0_1 : Cert.LibSsa.WritesAt (hostOps0_1 (F := Ideal)) wr0_1 := by
  unfold wr0_1
  repeat (first | exact List.Forall₂.nil | refine List.Forall₂.cons rfl ?_)

theorem writes0_2 : Cert.LibSsa.WritesAt (hostOps0_2 (F := Ideal)) wr0_2 := by
  unfold wr0_2
  repeat (first | exact List.Forall₂.nil | refine List.Forall₂.cons rfl ?_)

theorem writes1 : Cert.LibSsa.WritesAt (hostOps1 (F := Ideal)) wr1 := by
  unfold wr1
  repeat (first | exact List.Forall₂.nil | refine List.Forall₂.cons rfl ?_)

theorem writes2 : Cert.LibSsa.WritesAt (hostOps2 (F := Ideal)) wr2 := by
  unfold wr2
  repeat (first | exact List.Forall₂.nil | refine List.Forall₂.cons rfl ?_)

section Regions

variable (m : Mem) (ρ : Dev nD → PrngReg) (c : Dev nD)

theorem keepR0 (b : Ref sig .tc) (hb : b ∉ [main_v36]) : W4 m ρ c (𝕕 b) = W3 m ρ c (𝕕 b) := by
  by_cases h : ∃ w : Fin 6, Pipeline.arrRef spec0 w = b
  · obtain ⟨w, rfl⟩ := h
    have hin : ∀ w : Fin 6, Pipeline.arrRef spec0 w ∉ [main_v36] → (cfg0.win w).isOut = false := by decide
    exact (W4_arr m ρ c w).trans (((dat0 (V3 m ρ) c).arrAt_in w (hin w hb) _).trans (A_eq0 (V3 m ρ) c w))
  · exact W4_of_ne m ρ c b fun w e => h ⟨w, e⟩

theorem keepR1 (b : Ref sig .tc) (hb : b ∉ [main_v42_0, main_v42_1]) : W6 m ρ c (𝕕 b) = W5 m ρ c (𝕕 b) := by
  by_cases h : ∃ w : Fin 8, Pipeline.arrRef spec1 w = b
  · obtain ⟨w, rfl⟩ := h
    have hin : ∀ w : Fin 8, Pipeline.arrRef spec1 w ∉ [main_v42_0, main_v42_1] → (cfg1.win w).isOut = false := by decide
    exact (W6_arr m ρ c w).trans (((dat1 (V5 m ρ) c).arrAt_in w (hin w hb) _).trans (A_eq1 (V5 m ρ) c w))
  · exact W6_of_ne m ρ c b fun w e => h ⟨w, e⟩

theorem keepR2 (b : Ref sig .tc) (hb : b ∉ [main_v54]) : W8 m ρ c (𝕕 b) = W7 m ρ c (𝕕 b) := by
  by_cases h : ∃ w : Fin 11, Pipeline.arrRef spec2 w = b
  · obtain ⟨w, rfl⟩ := h
    have hin : ∀ w : Fin 11, Pipeline.arrRef spec2 w ∉ [main_v54] → (cfg2.win w).isOut = false := by decide
    exact (W8_arr m ρ c w).trans (((dat2 (V7 m ρ) c).arrAt_in w (hin w hb) _).trans (A_eq2 (V7 m ρ) c w))
  · exact W8_of_ne m ρ c b fun w e => h ⟨w, e⟩

end Regions

theorem half0_read (W : A3 4 128 64) (hs : S4x128x64.Slices ![0, 0, 0] S1x64x64) (hc : S1x64x64.ShapeCasts S64x64) :
    shapeCast S64x64 (extractStridedSlice S1x64x64 ![0, 0, 0] W hs) hc = half0 W 0 := by
  funext i
  obtain ⟨p, q, rfl⟩ : ∃ (p : Fin 64) (q : Fin 64), i = ix2 p q := ⟨i 0, i 1, eq_ix2 i⟩
  refine (shapeCast_1ab_ab_apply _ hc p q).trans ?_
  exact extractStridedSlice_apply _ W hs (ix3 (0 : Fin 1) p q) (ix3 (0 : Fin 4) ⟨p.val, by omega⟩ q) (fun a => by
    match a with
    | ⟨0, _⟩ => rfl
    | ⟨1, _⟩ => exact (Nat.zero_add _).symm
    | ⟨2, _⟩ => exact (Nat.zero_add _).symm)

theorem half1_read (W : A3 4 128 64) (hs : S4x128x64.Slices ![0, 64, 0] S1x64x64) (hc : S1x64x64.ShapeCasts S64x64) :
    shapeCast S64x64 (extractStridedSlice S1x64x64 ![0, 64, 0] W hs) hc = half1 W 0 := by
  funext i
  obtain ⟨p, q, rfl⟩ : ∃ (p : Fin 64) (q : Fin 64), i = ix2 p q := ⟨i 0, i 1, eq_ix2 i⟩
  refine (shapeCast_1ab_ab_apply _ hc p q).trans ?_
  exact extractStridedSlice_apply _ W hs (ix3 (0 : Fin 1) p q) (ix3 (0 : Fin 4) ⟨64 + p.val, by omega⟩ q) (fun a => by
    match a with
    | ⟨0, _⟩ => rfl
    | ⟨1, _⟩ => rfl
    | ⟨2, _⟩ => exact (Nat.zero_add _).symm)

theorem rowOf_read (B : A2 4 64) (hs : S4x64.Slices ![0, 0] S1x64) (hc1 : S1x64.ShapeCasts S64) (hc2 : S64.ShapeCasts S1x64) :
    shapeCast S1x64 (shapeCast S64 (extractStridedSlice S1x64 ![0, 0] B hs) hc1) hc2 = rowOf B 0 := by
  funext i
  obtain ⟨u, q, rfl⟩ : ∃ (u : Fin 1) (q : Fin 64), i = ix2 u q := ⟨i 0, i 1, eq_ix2 i⟩
  refine (shapeCast_a_1a_apply _ hc2 u q).trans ?_
  refine (shapeCast_1a_a_apply _ hc1 q).trans ?_
  exact extractStridedSlice_apply _ B hs (ix2 (0 : Fin 1) q) (ix2 (0 : Fin 4) q) (fun a => by
    match a with
    | ⟨0, _⟩ => rfl
    | ⟨1, _⟩ => exact (Nat.zero_add _).symm)

theorem idx_S1 (k : S1.Idx) : k = ix1 (0 : Fin 1) := by
  rw [eq_ix1 k]
  have h : (k 0).val < 1 := (k 0).isLt
  exact congrArg ix1 (Fin.ext (show (k 0).val = 0 by omega))

theorem splatOf_read (a : A1 4) (hs : S4.Slices ![0] S1) (hc : S1.ShapeCasts S_)
    (hb : S_.BroadcastsInDim S1x64 (![] : Fin 0 → Fin S1x64.rank)) :
    broadcastInDim S1x64 ![] hb (shapeCast S_ (extractStridedSlice S1 ![0] a hs) hc) = splatOf a 0 := by
  have e : ∀ k : S1.Idx, extractStridedSlice S1 ![0] a hs k = a (ix1 (0 : Fin 4)) := fun k => by
    rw [idx_S1 k]
    exact extractStridedSlice_apply _ a hs (ix1 (0 : Fin 1)) (ix1 (0 : Fin 4)) (fun ax => by
      match ax with
      | ⟨0, _⟩ => rfl)
  funext i
  refine (broadcastInDim_apply _ hb _ i ix0 (fun ax => ax.elim0)).trans ?_
  unfold shapeCast
  exact e _

section Host

variable (V : Valuation τ sig (Elt Ideal))

theorem h0_src : StableHlo.after hostOps0 V (𝕕 main_v1) = Cert.Shared.src (V (𝕕 main_arg1)) := by
  after_results_simp; rfl

theorem h0_dst : StableHlo.after hostOps0 V (𝕕 main_v3) = Cert.Shared.dst (V (𝕕 main_arg1)) := by
  after_results_simp; rfl

theorem h0_deg : StableHlo.after hostOps0 V (𝕕 main_v10) = Cert.Shared.deg (V (𝕕 main_arg1)) := by
  after_results_simp; rfl

theorem h0_wm0 : StableHlo.after hostOps0 V (𝕕 main_v12) = half0 (V (𝕕 main_arg3)) 0 := by
  after_results_simp; exact half0_read _ _ _
theorem h0_wm1 : StableHlo.after hostOps0 V (𝕕 main_v14) = half1 (V (𝕕 main_arg3)) 0 := by
  after_results_simp; exact half1_read _ _ _

theorem h0_wu0 : StableHlo.after hostOps0 V (𝕕 main_v16) = half0 (V (𝕕 main_arg5)) 0 := by
  after_results_simp; exact half0_read _ _ _
theorem h0_wu1 : StableHlo.after hostOps0 V (𝕕 main_v18) = half1 (V (𝕕 main_arg5)) 0 := by
  after_results_simp; exact half1_read _ _ _

theorem h0_bm : StableHlo.after hostOps0 V (𝕕 main_v21) = rowOf (V (𝕕 main_arg4)) 0 := by
  after_results_simp; exact rowOf_read _ _ _ _
theorem h0_bu : StableHlo.after hostOps0 V (𝕕 main_v24) = rowOf (V (𝕕 main_arg6)) 0 := by
  after_results_simp; exact rowOf_read _ _ _ _

theorem h0_sl : StableHlo.after hostOps0 V (𝕕 main_v27) = splatOf (V (𝕕 main_arg7)) 0 := by
  after_results_simp; exact splatOf_read _ _ _ _

theorem h0_gm : StableHlo.after hostOps0 V (𝕕 main_v30) = rowOf (V (𝕕 main_arg8)) 0 := by
  after_results_simp; exact rowOf_read _ _ _ _
theorem h0_bt : StableHlo.after hostOps0 V (𝕕 main_v33) = rowOf (V (𝕕 main_arg9)) 0 := by
  after_results_simp; exact rowOf_read _ _ _ _

theorem cast_cast_id {α β : Type} (h₁ : α = β) (h₂ : β = α) (v : α) : cast h₂ (cast h₁ v) = v := by
  subst h₁; rfl

theorem toBuf_v34 (v : (⟨S800000x64, .f32⟩ : BufTy).Contents (Elt Ideal)) :
    (StableHlo.TRef.of main_v34 : StableHlo.TRef sig ⟨S800000x64, .f32⟩).toBuf v = v := rfl
theorem toBuf_v35 (v : (⟨S800000x64, .f32⟩ : BufTy).Contents (Elt Ideal)) :
    (StableHlo.TRef.of main_v35 : StableHlo.TRef sig ⟨S800000x64, .f32⟩).toBuf v = v := rfl
theorem ofBuf_arg0 (v : (main_arg0 : Ref sig .tc).ty.Contents (Elt Ideal)) :
    (StableHlo.TRef.of main_arg0 : StableHlo.TRef sig ⟨S50000x64, .f32⟩).ofBuf v = v := rfl
theorem ofBuf_v1 (v : (main_v1 : Ref sig .tc).ty.Contents (Elt Ideal)) :
    (StableHlo.TRef.of main_v1 : StableHlo.TRef sig ⟨S800000, .i32⟩).ofBuf v = v := rfl
theorem ofBuf_v3 (v : (main_v3 : Ref sig .tc).ty.Contents (Elt Ideal)) :
    (StableHlo.TRef.of main_v3 : StableHlo.TRef sig ⟨S800000, .i32⟩).ofBuf v = v := rfl

theorem h01_take' : StableHlo.after hostOps0_1 V (𝕕 main_v34)
    = (StableHlo.TRef.of main_v34 : StableHlo.TRef sig ⟨S800000x64, .f32⟩).toBuf
        (takeK ((StableHlo.TRef.of main_arg0 : StableHlo.TRef sig ⟨S50000x64, .f32⟩).ofBuf (V (𝕕 main_arg0)))
          ((StableHlo.TRef.of main_v1 : StableHlo.TRef sig ⟨S800000, .i32⟩).ofBuf (V (𝕕 main_v1)))) := by
  after_results_simp
  simp only [StableHlo.TRef.ofBuf, StableHlo.TRef.toBuf, cast_cast_id]
  unfold takeK Cert.Shared.wrap
  with_reducible rfl
theorem h01_take : StableHlo.after hostOps0_1 V (𝕕 main_v34) = takeK (V (𝕕 main_arg0)) (V (𝕕 main_v1)) :=
  (h01_take' V).trans ((toBuf_v34 _).trans (congrArg₂ takeK (ofBuf_arg0 _) (ofBuf_v1 _)))

theorem h02_take' : StableHlo.after hostOps0_2 V (𝕕 main_v35)
    = (StableHlo.TRef.of main_v35 : StableHlo.TRef sig ⟨S800000x64, .f32⟩).toBuf
        (takeK ((StableHlo.TRef.of main_arg0 : StableHlo.TRef sig ⟨S50000x64, .f32⟩).ofBuf (V (𝕕 main_arg0)))
          ((StableHlo.TRef.of main_v3 : StableHlo.TRef sig ⟨S800000, .i32⟩).ofBuf (V (𝕕 main_v3)))) := by
  after_results_simp
  simp only [StableHlo.TRef.ofBuf, StableHlo.TRef.toBuf, cast_cast_id]
  unfold takeK Cert.Shared.wrap
  with_reducible rfl
theorem h02_take : StableHlo.after hostOps0_2 V (𝕕 main_v35) = takeK (V (𝕕 main_arg0)) (V (𝕕 main_v3)) :=
  (h02_take' V).trans ((toBuf_v35 _).trans (congrArg₂ takeK (ofBuf_arg0 _) (ofBuf_v3 _)))

theorem h1_agg (e : IVec S2x800000 32) (h3 : V (𝕕 main_v3) = Cert.Shared.dst e) (h10 : V (𝕕 main_v10) = Cert.Shared.deg e) :
    StableHlo.after hostOps1 V (𝕕 main_v41) = Cert.Shared.agg e (V (𝕕 main_v36)) := by
  after_results
  rw [h3, h10]
  unfold Cert.Shared.agg
  with_reducible rfl

theorem h2_mean : StableHlo.after hostOps2 V (𝕕 main_v44) = meanOf (V (𝕕 main_v42_0)) := by
  after_results; rfl

theorem h2_istd : StableHlo.after hostOps2 V (𝕕 main_v53) = invstdOf (varK (V (𝕕 main_v42_0)) (V (𝕕 main_v42_1))) := by
  after_results; rfl

end Host

section Run

variable (m : Mem) (ρ : Dev nD → PrngReg) (c : Dev nD)

abbrev x0 : A2 50000 64 := m ((c : Thread nD τ).loc main_arg0)
abbrev et : IVec S2x800000 32 := m ((c : Thread nD τ).loc main_arg1)
abbrev pWm : A3 4 128 64 := m ((c : Thread nD τ).loc main_arg3)
abbrev pBm : A2 4 64 := m ((c : Thread nD τ).loc main_arg4)
abbrev pWu : A3 4 128 64 := m ((c : Thread nD τ).loc main_arg5)
abbrev pBu : A2 4 64 := m ((c : Thread nD τ).loc main_arg6)
abbrev pSl : A1 4 := m ((c : Thread nD τ).loc main_arg7)
abbrev pGm : A2 4 64 := m ((c : Thread nD τ).loc main_arg8)
abbrev pBt : A2 4 64 := m ((c : Thread nD τ).loc main_arg9)

abbrev msgs : A2 800000 64 :=
  msgLoc (Cert.Shared.gat (Cert.Shared.src (et m c)) (x0 m c)) (Cert.Shared.gat (Cert.Shared.dst (et m c)) (x0 m c))
    (half0 (pWm m c) 0) (half1 (pWm m c) 0) (rowOf (pBm m c) 0)
abbrev aggr : A2 50000 64 := Cert.Shared.agg (et m c) (msgs m c)
abbrev upd : A2 50000 64 :=
  uLoc (x0 m c) (aggr m c) (half0 (pWu m c) 0) (half1 (pWu m c) 0) (rowOf (pBu m c) 0) (splatOf (pSl m c) 0)

def d13 : List (Ref sig .tc) := wr0_1 ++ wr0_2
def d14 : List (Ref sig .tc) := d13 ++ [main_v36]
def d15 : List (Ref sig .tc) := d14 ++ wr1
def d16 : List (Ref sig .tc) := d15 ++ [main_v42_0, main_v42_1]
def d17 : List (Ref sig .tc) := d16 ++ wr2
def d18 : List (Ref sig .tc) := d17 ++ [main_v54]

theorem k01 (b : Ref sig .tc) (h : b ∉ wr0) : W1 m ρ c (𝕕 b) = m ((c : Thread nD τ).loc b) :=
  keepHost writes0 (W0 m ρ c) h
theorem k12 (b : Ref sig .tc) (h : b ∉ wr0_1) : W2 m ρ c (𝕕 b) = W1 m ρ c (𝕕 b) :=
  keepHost writes0_1 (W1 m ρ c) h
theorem k23 (b : Ref sig .tc) (h : b ∉ wr0_2) : W3 m ρ c (𝕕 b) = W2 m ρ c (𝕕 b) :=
  keepHost writes0_2 (W2 m ρ c) h
theorem k45 (b : Ref sig .tc) (h : b ∉ wr1) : W5 m ρ c (𝕕 b) = W4 m ρ c (𝕕 b) :=
  keepHost writes1 (W4 m ρ c) h
theorem k67 (b : Ref sig .tc) (h : b ∉ wr2) : W7 m ρ c (𝕕 b) = W6 m ρ c (𝕕 b) :=
  keepHost writes2 (W6 m ρ c) h

theorem k13 (b : Ref sig .tc) (h : b ∉ d13) : W3 m ρ c (𝕕 b) = W1 m ρ c (𝕕 b) :=
  (k23 m ρ c b fun h' => h (List.mem_append_right _ h')).trans (k12 m ρ c b fun h' => h (List.mem_append_left _ h'))
theorem k14 (b : Ref sig .tc) (h : b ∉ d14) : W4 m ρ c (𝕕 b) = W1 m ρ c (𝕕 b) :=
  (keepR0 m ρ c b fun h' => h (List.mem_append_right _ h')).trans (k13 m ρ c b fun h' => h (List.mem_append_left _ h'))
theorem k15 (b : Ref sig .tc) (h : b ∉ d15) : W5 m ρ c (𝕕 b) = W1 m ρ c (𝕕 b) :=
  (k45 m ρ c b fun h' => h (List.mem_append_right _ h')).trans (k14 m ρ c b fun h' => h (List.mem_append_left _ h'))
theorem k16 (b : Ref sig .tc) (h : b ∉ d16) : W6 m ρ c (𝕕 b) = W1 m ρ c (𝕕 b) :=
  (keepR1 m ρ c b fun h' => h (List.mem_append_right _ h')).trans (k15 m ρ c b fun h' => h (List.mem_append_left _ h'))
theorem k17 (b : Ref sig .tc) (h : b ∉ d17) : W7 m ρ c (𝕕 b) = W1 m ρ c (𝕕 b) :=
  (k67 m ρ c b fun h' => h (List.mem_append_right _ h')).trans (k16 m ρ c b fun h' => h (List.mem_append_left _ h'))
theorem k18 (b : Ref sig .tc) (h : b ∉ d18) : W8 m ρ c (𝕕 b) = W1 m ρ c (𝕕 b) :=
  (keepR2 m ρ c b fun h' => h (List.mem_append_right _ h')).trans (k17 m ρ c b fun h' => h (List.mem_append_left _ h'))
theorem k57 (b : Ref sig .tc) (h : b ∉ [main_v42_0, main_v42_1] ++ wr2) : W7 m ρ c (𝕕 b) = W5 m ρ c (𝕕 b) :=
  (k67 m ρ c b fun h' => h (List.mem_append_right _ h')).trans (keepR1 m ρ c b fun h' => h (List.mem_append_left _ h'))

theorem w1_src : W1 m ρ c (𝕕 main_v1) = Cert.Shared.src (et m c) := h0_src (W0 m ρ c)
theorem w1_dst : W1 m ρ c (𝕕 main_v3) = Cert.Shared.dst (et m c) := h0_dst (W0 m ρ c)
theorem w1_deg : W1 m ρ c (𝕕 main_v10) = Cert.Shared.deg (et m c) := h0_deg (W0 m ρ c)
theorem w1_wm0 : W1 m ρ c (𝕕 main_v12) = half0 (pWm m c) 0 := h0_wm0 (W0 m ρ c)
theorem w1_wm1 : W1 m ρ c (𝕕 main_v14) = half1 (pWm m c) 0 := h0_wm1 (W0 m ρ c)
theorem w1_wu0 : W1 m ρ c (𝕕 main_v16) = half0 (pWu m c) 0 := h0_wu0 (W0 m ρ c)
theorem w1_wu1 : W1 m ρ c (𝕕 main_v18) = half1 (pWu m c) 0 := h0_wu1 (W0 m ρ c)
theorem w1_bm : W1 m ρ c (𝕕 main_v21) = rowOf (pBm m c) 0 := h0_bm (W0 m ρ c)
theorem w1_bu : W1 m ρ c (𝕕 main_v24) = rowOf (pBu m c) 0 := h0_bu (W0 m ρ c)
theorem w1_sl : W1 m ρ c (𝕕 main_v27) = splatOf (pSl m c) 0 := h0_sl (W0 m ρ c)
theorem w1_gm : W1 m ρ c (𝕕 main_v30) = rowOf (pGm m c) 0 := h0_gm (W0 m ρ c)
theorem w1_bt : W1 m ρ c (𝕕 main_v33) = rowOf (pBt m c) 0 := h0_bt (W0 m ρ c)

theorem w2_xs (hr : InRange m c) :
    W2 m ρ c (𝕕 main_v34) = Cert.Shared.gat (Cert.Shared.src (et m c)) (x0 m c) :=
  (h01_take (W1 m ρ c)).trans ((congrArg₂ takeK (k01 m ρ c main_arg0 (by decide)) (w1_src m ρ c)).trans
    (takeK_src (x0 m c) (et m c) hr))

theorem w3_xd (hr : InRange m c) :
    W3 m ρ c (𝕕 main_v35) = Cert.Shared.gat (Cert.Shared.dst (et m c)) (x0 m c) :=
  (h02_take (W2 m ρ c)).trans ((congrArg₂ takeK ((k12 m ρ c main_arg0 (by decide)).trans (k01 m ρ c main_arg0 (by decide)))
    ((k12 m ρ c main_v3 (by decide)).trans (w1_dst m ρ c))).trans (takeK_dst (x0 m c) (et m c) hr))

theorem w4_msg (hr : InRange m c) : W4 m ρ c (𝕕 main_v36) = msgs m c := by
  refine ((W4_arr m ρ c 5).trans (msg0 (V3 m ρ) c)).trans ?_
  show msgLoc (R := 800000) (W3 m ρ c (𝕕 main_v34)) (W3 m ρ c (𝕕 main_v35)) (W3 m ρ c (𝕕 main_v12)) (W3 m ρ c (𝕕 main_v14))
    (W3 m ρ c (𝕕 main_v21)) = _
  rw [(k23 m ρ c main_v34 (by decide)).trans (w2_xs m ρ c hr), w3_xd m ρ c hr,
    (k13 m ρ c main_v12 (by decide)).trans (w1_wm0 m ρ c), (k13 m ρ c main_v14 (by decide)).trans (w1_wm1 m ρ c),
    (k13 m ρ c main_v21 (by decide)).trans (w1_bm m ρ c)]
  all_goals rfl

theorem w5_agg (hr : InRange m c) : W5 m ρ c (𝕕 main_v41) = aggr m c :=
  (h1_agg (W4 m ρ c) (et m c) ((k14 m ρ c main_v3 (by decide)).trans (w1_dst m ρ c))
    ((k14 m ρ c main_v10 (by decide)).trans (w1_deg m ρ c))).trans (congrArg (Cert.Shared.agg (et m c)) (w4_msg m ρ c hr))

theorem w6_sum (hr : InRange m c) : W6 m ρ c (𝕕 main_v42_0) = colSum (upd m c) := by
  refine ((W6_arr m ρ c 6).trans (sum1 (V5 m ρ) c)).trans ?_
  show colSum (uLoc (R := 50000) (W5 m ρ c (𝕕 main_arg0)) (W5 m ρ c (𝕕 main_v41)) (W5 m ρ c (𝕕 main_v16)) (W5 m ρ c (𝕕 main_v18))
    (W5 m ρ c (𝕕 main_v24)) (W5 m ρ c (𝕕 main_v27))) = _
  rw [(k15 m ρ c main_arg0 (by decide)).trans (k01 m ρ c main_arg0 (by decide)), w5_agg m ρ c hr,
    (k15 m ρ c main_v16 (by decide)).trans (w1_wu0 m ρ c), (k15 m ρ c main_v18 (by decide)).trans (w1_wu1 m ρ c),
    (k15 m ρ c main_v24 (by decide)).trans (w1_bu m ρ c), (k15 m ρ c main_v27 (by decide)).trans (w1_sl m ρ c)]
  all_goals rfl

theorem w6_sumsq (hr : InRange m c) : W6 m ρ c (𝕕 main_v42_1) = colSum (sq (upd m c)) := by
  refine ((W6_arr m ρ c 7).trans (sumsq1 (V5 m ρ) c)).trans ?_
  show colSum (sq (uLoc (R := 50000) (W5 m ρ c (𝕕 main_arg0)) (W5 m ρ c (𝕕 main_v41)) (W5 m ρ c (𝕕 main_v16)) (W5 m ρ c (𝕕 main_v18))
    (W5 m ρ c (𝕕 main_v24)) (W5 m ρ c (𝕕 main_v27)))) = _
  rw [(k15 m ρ c main_arg0 (by decide)).trans (k01 m ρ c main_arg0 (by decide)), w5_agg m ρ c hr,
    (k15 m ρ c main_v16 (by decide)).trans (w1_wu0 m ρ c), (k15 m ρ c main_v18 (by decide)).trans (w1_wu1 m ρ c),
    (k15 m ρ c main_v24 (by decide)).trans (w1_bu m ρ c), (k15 m ρ c main_v27 (by decide)).trans (w1_sl m ρ c)]
  all_goals rfl

theorem w7_mean (hr : InRange m c) : W7 m ρ c (𝕕 main_v44) = meanOf (colSum (upd m c)) :=
  (h2_mean (W6 m ρ c)).trans (congrArg meanOf (w6_sum m ρ c hr))

theorem w7_istd (hr : InRange m c) :
    W7 m ρ c (𝕕 main_v53) = invstdOf (varK (colSum (upd m c)) (colSum (sq (upd m c)))) :=
  (h2_istd (W6 m ρ c)).trans (congrArg₂ (fun s ss => invstdOf (varK s ss)) (w6_sum m ρ c hr) (w6_sumsq m ρ c hr))

theorem w8_out (hr : InRange m c) :
    W8 m ρ c (𝕕 main_v54) = layerOf m c 0 (m ((c : Thread nD τ).loc main_arg0)) := by
  refine ((W8_arr m ρ c 10).trans (norm2 (V7 m ρ) c)).trans ?_
  show normLoc (R := 50000) (W7 m ρ c (𝕕 main_arg0)) (W7 m ρ c (𝕕 main_v41)) (W7 m ρ c (𝕕 main_v16)) (W7 m ρ c (𝕕 main_v18))
    (W7 m ρ c (𝕕 main_v24)) (W7 m ρ c (𝕕 main_v27)) (W7 m ρ c (𝕕 main_v44)) (W7 m ρ c (𝕕 main_v53))
    (W7 m ρ c (𝕕 main_v30)) (W7 m ρ c (𝕕 main_v33)) = _
  rw [(k17 m ρ c main_arg0 (by decide)).trans (k01 m ρ c main_arg0 (by decide)),
    (k57 m ρ c main_v41 (by decide)).trans (w5_agg m ρ c hr),
    (k17 m ρ c main_v16 (by decide)).trans (w1_wu0 m ρ c), (k17 m ρ c main_v18 (by decide)).trans (w1_wu1 m ρ c),
    (k17 m ρ c main_v24 (by decide)).trans (w1_bu m ρ c), (k17 m ρ c main_v27 (by decide)).trans (w1_sl m ρ c),
    w7_mean m ρ c hr, w7_istd m ρ c hr,
    (k17 m ρ c main_v30 (by decide)).trans (w1_gm m ρ c), (k17 m ρ c main_v33 (by decide)).trans (w1_bt m ρ c)]
  all_goals rfl

theorem live8 : Live m c (W8 m ρ c) where
  a0 := (k18 m ρ c main_arg0 (by decide)).trans (k01 m ρ c main_arg0 (by decide))
  a1 := (k18 m ρ c main_arg1 (by decide)).trans (k01 m ρ c main_arg1 (by decide))
  a2 := (k18 m ρ c main_arg2 (by decide)).trans (k01 m ρ c main_arg2 (by decide))
  a3 := (k18 m ρ c main_arg3 (by decide)).trans (k01 m ρ c main_arg3 (by decide))
  a4 := (k18 m ρ c main_arg4 (by decide)).trans (k01 m ρ c main_arg4 (by decide))
  a5 := (k18 m ρ c main_arg5 (by decide)).trans (k01 m ρ c main_arg5 (by decide))
  a6 := (k18 m ρ c main_arg6 (by decide)).trans (k01 m ρ c main_arg6 (by decide))
  a7 := (k18 m ρ c main_arg7 (by decide)).trans (k01 m ρ c main_arg7 (by decide))
  a8 := (k18 m ρ c main_arg8 (by decide)).trans (k01 m ρ c main_arg8 (by decide))
  a9 := (k18 m ρ c main_arg9 (by decide)).trans (k01 m ρ c main_arg9 (by decide))
  a10 := (k18 m ρ c main_arg10 (by decide)).trans (k01 m ρ c main_arg10 (by decide))
  a11 := (k18 m ρ c main_arg11 (by decide)).trans (k01 m ρ c main_arg11 (by decide))
  a12 := (k18 m ρ c main_arg12 (by decide)).trans (k01 m ρ c main_arg12 (by decide))
  a13 := (k18 m ρ c main_arg13 (by decide)).trans (k01 m ρ c main_arg13 (by decide))
  src := (k18 m ρ c main_v1 (by decide)).trans (w1_src m ρ c)
  dst := (k18 m ρ c main_v3 (by decide)).trans (w1_dst m ρ c)
  deg := (k18 m ρ c main_v10 (by decide)).trans (w1_deg m ρ c)

end Run

end L0

theorem layer0 (m : Mem) (ρ : Dev nD → PrngReg) (c : Dev nD) (hr : InRange m c) :
    Live m c (W8 m ρ c) ∧ W8 m ρ c (Proc.devRef .tc main_v54) = layerOf m c 0 (m ((c : Thread nD τ).loc main_arg0)) :=
  ⟨L0.live8 m ρ c, L0.w8_out m ρ c hr⟩

end Cert.KernelIdeal.Val

end
-- ==== Proof.KMsg3.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx

theorem msg3_dot (lhs : FVec Ideal S8000x64 .bf16) (rhs : FVec Ideal S64x64 .bf16) (p : Fin 8000) (q : Fin 64) :
    matmul dot_S8000x64_S64x64_S8000x64_1_0_0_1_n_n none lhs rhs (constant S8000x64 .f32 0x00000000#32) (ix2 p q)
      = ∑ k : Fin 64, lhs (ix2 p k) * rhs (ix2 k q) :=
  Cert.LibPlainDot.matmul_zero_apply dot_S8000x64_S64x64_S8000x64_1_0_0_1_n_n rfl rfl rfl rfl rfl rfl none lhs rhs p q

theorem msg3_pay (x0 x1 : Vec Ideal S8000x64 .f32) (x2 x3 : Vec Ideal S64x64 .f32) (x4 : Vec Ideal S1x64 .f32)
    (p : Fin 8000) (q : Fin 64) :
    k3_pay1 x0 x1 x2 x3 x4 (ix2 p q)
      = max (((∑ k : Fin 64, x0 (ix2 p k) * x2 (ix2 k q)) + (∑ k : Fin 64, x1 (ix2 p k) * x3 (ix2 k q))) + x4 (ix2 0 q)) zeroE := by
  unfold k3_pay1
  simp only [shapeCast_self]
  exact congrArg₂ max (congrArg₂ (· + ·) (congrArg₂ (· + ·) (msg3_dot _ _ p q) (msg3_dot _ _ p q))
    (broadcastTo_1b_ab_apply x4 _ p q)) rfl

theorem msg3_block (X Y : A2 800000 64) (W0 W1 : A2 64 64) (B : A2 1 64)
    (x0 x1 : Vec Ideal S8000x64 .f32) (x2 x3 : Vec Ideal S64x64 .f32) (x4 : Vec Ideal S1x64 .f32)
    (r : Fin 800000) (p : Fin 8000) (q : Fin 64)
    (h0 : ∀ k : Fin 64, x0 (ix2 p k) = X (ix2 r k)) (h1 : ∀ k : Fin 64, x1 (ix2 p k) = Y (ix2 r k))
    (h2 : x2 = W0) (h3 : x3 = W1) (h4 : x4 = B) :
    k3_pay1 x0 x1 x2 x3 x4 (ix2 p q) = msgLoc X Y W0 W1 B (ix2 r q) := by
  subst h2 h3 h4
  rw [msg3_pay]
  simp only [h0, h1]
  rfl

theorem msg3_hz : (![0, 0] : Fin 2 → Nat) = fun _ => 0 := funext fun a => by fin_cases a <;> rfl

theorem msg3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem msg3_in0 (V : Entry) (c : Dev nD) (t : Fin cfg3.N) (p : Fin 8000) (k : Fin 64) (r : Fin 800000)
    (hr : r.val = t.val * 8000 + p.val) :
    (iblk3 V c 0 t : Vec Ideal S8000x64 .f32) (ix2 p k) = (V c (Pipeline.arrRef spec3 0) : A2 800000 64) (ix2 r k) := by
  obtain ⟨e0, e1, -⟩ := msg3_idx t
  show (V c (Pipeline.arrRef spec3 0) : A2 800000 64) (((cfg3.win 0).blk t).view.emb (ix2 p k)) = _
  refine congrArg _ (funext fun a => Fin.ext ?_)
  match a with
  | ⟨0, _⟩ => show win3_0.index t (0 : Fin 2) * 8000 + 1 * p.val = r.val; omega
  | ⟨1, _⟩ => show win3_0.index t (1 : Fin 2) * 64 + 1 * k.val = k.val; omega

theorem msg3_in1 (V : Entry) (c : Dev nD) (t : Fin cfg3.N) (p : Fin 8000) (k : Fin 64) (r : Fin 800000)
    (hr : r.val = t.val * 8000 + p.val) :
    (iblk3 V c 1 t : Vec Ideal S8000x64 .f32) (ix2 p k) = (V c (Pipeline.arrRef spec3 1) : A2 800000 64) (ix2 r k) := by
  obtain ⟨-, -, e0, e1, -⟩ := msg3_idx t
  show (V c (Pipeline.arrRef spec3 1) : A2 800000 64) (((cfg3.win 1).blk t).view.emb (ix2 p k)) = _
  refine congrArg _ (funext fun a => Fin.ext ?_)
  match a with
  | ⟨0, _⟩ => show win3_1.index t (0 : Fin 2) * 8000 + 1 * p.val = r.val; omega
  | ⟨1, _⟩ => show win3_1.index t (1 : Fin 2) * 64 + 1 * k.val = k.val; omega

theorem msg3_in2 (V : Entry) (c : Dev nD) (t : Fin cfg3.N) :
    (iblk3 V c 2 t : Vec Ideal S64x64 .f32) = (V c (Pipeline.arrRef spec3 2) : A2 64 64) := by
  obtain ⟨-, -, -, -, e0, e1, -⟩ := msg3_idx t
  funext y
  show (V c (Pipeline.arrRef spec3 2) : A2 64 64) (((cfg3.win 2).blk t).view.emb y) = _
  refine congrArg _ (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

theorem msg3_in3 (V : Entry) (c : Dev nD) (t : Fin cfg3.N) :
    (iblk3 V c 3 t : Vec Ideal S64x64 .f32) = (V c (Pipeline.arrRef spec3 3) : A2 64 64) := by
  obtain ⟨-, -, -, -, -, -, e0, e1, -⟩ := msg3_idx t
  funext y
  show (V c (Pipeline.arrRef spec3 3) : A2 64 64) (((cfg3.win 3).blk t).view.emb y) = _
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

theorem msg3_in4 (V : Entry) (c : Dev nD) (t : Fin cfg3.N) :
    (iblk3 V c 4 t : Vec Ideal S1x64 .f32) = (V c (Pipeline.arrRef spec3 4) : A2 1 64) := by
  obtain ⟨-, -, -, -, -, -, -, -, e0, e1, -⟩ := msg3_idx t
  funext y
  show (V c (Pipeline.arrRef spec3 4) : A2 1 64) (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

theorem msg3_point (V : Entry) (c : Dev nD) (t : Fin cfg3.N) (j : S8000x64.Idx) :
    k3_pay1 (iblk3 V c 0 t) (iblk3 V c 1 t) (iblk3 V c 2 t) (iblk3 V c 3 t) (iblk3 V c 4 t) j
      = msgLoc (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb j) := by
  obtain ⟨p, q, rfl⟩ : ∃ (p : Fin 8000) (q : Fin 64), j = ix2 p q := ⟨j 0, j 1, eq_ix2 j⟩
  have hN : cfg3.N = 100 := N_3
  have ht : t.val < cfg3.N := t.isLt
  obtain ⟨-, -, -, -, -, -, -, -, -, -, e0, e1⟩ := msg3_idx t
  obtain ⟨r, hr⟩ : ∃ r : Fin 800000, r.val = t.val * 8000 + p.val := ⟨⟨t.val * 8000 + p.val, by omega⟩, rfl⟩
  have hemb : ((cfg3.win 5).blk t).view.emb (ix2 p q) = ix2 r q := by
    refine funext fun a => Fin.ext ?_
    match a with
    | ⟨0, _⟩ => show win3_5.index t (0 : Fin 2) * 8000 + 1 * p.val = r.val; omega
    | ⟨1, _⟩ => show win3_5.index t (1 : Fin 2) * 64 + 1 * q.val = q.val; omega
  exact (msg3_block (V c (Pipeline.arrRef spec3 0)) (V c (Pipeline.arrRef spec3 1)) (V c (Pipeline.arrRef spec3 2))
      (V c (Pipeline.arrRef spec3 3)) (V c (Pipeline.arrRef spec3 4))
      (iblk3 V c 0 t) (iblk3 V c 1 t) (iblk3 V c 2 t) (iblk3 V c 3 t) (iblk3 V c 4 t) r p q
      (fun k => msg3_in0 V c t p k r hr) (fun k => msg3_in1 V c t p k r hr)
      (msg3_in2 V c t) (msg3_in3 V c t) (msg3_in4 V c t)).trans
    (congrArg (msgLoc (V c (Pipeline.arrRef spec3 0)) (V c (Pipeline.arrRef spec3 1)) (V c (Pipeline.arrRef spec3 2))
      (V c (Pipeline.arrRef spec3 3)) (V c (Pipeline.arrRef spec3 4))) hemb.symm)

theorem msg3_flushed (V : Entry) (c : Dev nD) (t : Fin cfg3.N) :
    (dat3 V c).flushed 5 t = ((cfg3.win 5).blk t).view.read (Elt Ideal)
      (msgLoc (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero msg3_hz]
  simp only [View.ld_unit_zero (S := S8000x64) msg3_hz, View.ld_unit_zero (S := S64x64) msg3_hz,
    View.ld_unit_zero (S := S1x64) msg3_hz]
  funext j
  exact msg3_point V c t j

theorem msg3_mem (t : Fin cfg3.N) (i : S800000x64.Idx) :
    i ∈ ((cfg3.win 5).blk t).view.set ↔ ∀ a : Fin 2, win3_5.index t a * S8000x64.size a ≤ (i a).val
      ∧ (i a).val < win3_5.index t a * S8000x64.size a + S8000x64.size a := by
  show i ∈ ((View.whole (Pipeline.arrRef spec3 5)).slice (win3_5.rect t)).set ↔ _
  rw [View.set_slice_whole, Rect.mem_set_unit]
  exact Iff.rfl

theorem msg3_cover (i : S800000x64.Idx) :
    ∃ t : Fin cfg3.N, (cfg3.win 5).flush t = true ∧ i ∈ ((cfg3.win 5).blk t).view.set := by
  have hN : cfg3.N = 100 := N_3
  have hi0 : (i 0).val < 800000 := (i 0).isLt
  have hi1 : (i 1).val < 64 := (i 1).isLt
  obtain ⟨t, ht⟩ : ∃ t : Fin cfg3.N, t.val = (i 0).val / 8000 := ⟨⟨(i 0).val / 8000, by rw [hN]; omega⟩, rfl⟩
  obtain ⟨-, -, -, -, -, -, -, -, -, -, e0, e1⟩ := msg3_idx t
  refine ⟨t, flush3_5 t, ?_⟩
  rw [msg3_mem]
  intro a
  match a with
  | ⟨0, _⟩ => show win3_5.index t (0 : Fin 2) * 8000 ≤ (i 0).val ∧ (i 0).val < win3_5.index t (0 : Fin 2) * 8000 + 8000; omega
  | ⟨1, _⟩ => show win3_5.index t (1 : Fin 2) * 64 ≤ (i 1).val ∧ (i 1).val < win3_5.index t (1 : Fin 2) * 64 + 64; omega

theorem msg3 (V : Entry) (c : Dev nD) :
    (dat3 V c).arrAt 5 cfg3.N = msgLoc (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5
    (msgLoc (V c (Pipeline.arrRef spec3 0)) (V c (Pipeline.arrRef spec3 1)) (V c (Pipeline.arrRef spec3 2))
      (V c (Pipeline.arrRef spec3 3)) (V c (Pipeline.arrRef spec3 4)))
    (fun t _ => msg3_flushed V c t) msg3_cover

end Cert.KernelIdeal.Val

end
-- ==== Proof.KStats4.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibBlockSum
import proofs.«428660_j69922067578969_2_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.Pipeline Idealize.ShloMosaic.ValueIdx Cert.KernelIdeal Cert.KernelIdeal.Gen Cert.Spec

namespace Stats4

section Pieces

variable {F : FTy → Type} [FloatOps F]
variable (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
variable (x0 x1 : Vec F S10000x64 .f32) (x2 x3 : Vec F S64x64 .f32) (x4 x5 : Vec F S1x64 .f32)

theorem hz : (![0, 0] : Fin 2 → Nat) = fun _ => 0 := funext fun a => by fin_cases a <;> rfl

theorem out_A_6 (hc0 : cond4_0 i) :
    out4_A_6 c i arg1 harg1 arg2 harg2 arg3 harg3 arg4 harg4 arg5 harg5 arg6 harg6 arg7 harg7 arg8 harg8 hc0 x0 x1 x2 x3 x4 x5 = k4_pay5 x0 x1 x2 x3 x4 x5 (k4_pay2 (F := F)) := by
  unfold out4_A_6
  rw [View.read_writes_eq_canon _ _ _ (cover4_A_6 c i arg1 harg1 arg2 harg2 arg3 harg3 arg4 harg4 arg5 harg5 arg6 harg6 arg7 harg7 arg8 harg8 hc0 x0 x1 x2 x3 x4 x5)]
  unfold kernelRun4_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

theorem out_A_7 (hc0 : cond4_0 i) :
    out4_A_7 c i arg1 harg1 arg2 harg2 arg3 harg3 arg4 harg4 arg5 harg5 arg6 harg6 arg7 harg7 arg8 harg8 hc0 x0 x1 x2 x3 x4 x5 = k4_pay1 (k4_pay4 x0 x1 x2 x3 x4 x5) (k4_pay3 (F := F)) := by
  unfold out4_A_7
  rw [View.read_writes_eq_canon _ _ _ (cover4_A_7 c i arg1 harg1 arg2 harg2 arg3 harg3 arg4 harg4 arg5 harg5 arg6 harg6 arg7 harg7 arg8 harg8 hc0 x0 x1 x2 x3 x4 x5)]
  unfold kernelRun4_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

variable (xo6 xo7 : Vec F S1x64 .f32)

theorem out_B_6 (hc0 : ¬cond4_0 i) :
    out4_B_6 c i arg1 harg1 arg2 harg2 arg3 harg3 arg4 harg4 arg5 harg5 arg6 harg6 arg7 harg7 arg8 harg8 hc0 x0 x1 x2 x3 x4 x5 xo6 xo7 = k4_pay5 x0 x1 x2 x3 x4 x5 xo6 := by
  unfold out4_B_6
  rw [View.read_writes_eq_canon _ _ _ (cover4_B_6 c i arg1 harg1 arg2 harg2 arg3 harg3 arg4 harg4 arg5 harg5 arg6 harg6 arg7 harg7 arg8 harg8 hc0 x0 x1 x2 x3 x4 x5 xo6 xo7)]
  unfold kernelRun4_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

theorem out_B_7 (hc0 : ¬cond4_0 i) :
    out4_B_7 c i arg1 harg1 arg2 harg2 arg3 harg3 arg4 harg4 arg5 harg5 arg6 harg6 arg7 harg7 arg8 harg8 hc0 x0 x1 x2 x3 x4 x5 xo6 xo7 = k4_pay1 (k4_pay4 x0 x1 x2 x3 x4 x5) xo7 := by
  unfold out4_B_7
  rw [View.read_writes_eq_canon _ _ _ (cover4_B_7 c i arg1 harg1 arg2 harg2 arg3 harg3 arg4 harg4 arg5 harg5 arg6 harg6 arg7 harg7 arg8 harg8 hc0 x0 x1 x2 x3 x4 x5 xo6 xo7)]
  unfold kernelRun4_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

end Pieces

theorem lift_rows (h : S10000x64.Reduces [0] S64) (q : Fin 64) (p : Fin 10000) : h.lift (ix1 q) p = ix2 p q := by
  funext a
  apply Fin.ext
  match a with
  | ⟨0, _⟩ => rfl
  | ⟨1, _⟩ => rfl

theorem rowOfColSums_apply (src : FVec Ideal S10000x64 .f32) (h : S10000x64.Reduces [0] S64) (hφ : FKind.Formats .f32)
    (hacc : (0x00000000#32 : BitVec 32) = FKind.add.neutral .f32 hφ) (h' : S64.ShapeCasts S1x64) (z : Fin 1) (q : Fin 64) :
    shapeCast S1x64 (multiReduction .add [0] S64 src 0x00000000#32 h hφ hacc) h' (ix2 z q) = ∑ p : Fin 10000, src (ix2 p q) := by
  refine (shapeCast_a_1a_apply _ h' z q).trans ?_
  refine (Ideal.multiReduction_add_single src 0x00000000#32 h hφ hacc (ix1 q)).trans ?_
  exact Finset.sum_congr rfl fun p _ => congrArg src (lift_rows h q p)

theorem blockProduct_apply {φ₁ φ₂ : FTy} (lhs : FVec Ideal S10000x64 φ₁) (rhs : FVec Ideal S64x64 φ₂) (p : Fin 10000) (q : Fin 64) :
    matmul dot_S10000x64_S64x64_S10000x64_1_0_0_1_n_n none lhs rhs (constant S10000x64 .f32 0x00000000#32) (ix2 p q)
      = ∑ k : Fin 64, lhs (ix2 p k) * rhs (ix2 k q) := by
  show FloatOps.matmul dot_S10000x64_S64x64_S10000x64_1_0_0_1_n_n none lhs rhs (constant S10000x64 .f32 0x00000000#32) (ix2 p q) = _
  rw [Cert.LibPlainDot.eq_plain dot_S10000x64_S64x64_S10000x64_1_0_0_1_n_n rfl rfl rfl rfl rfl rfl, Ideal.matmul_constant_zero_apply]
  exact Cert.LibPlainDot.plain_sum lhs rhs p q

section Arithmetic

variable (x0 x1 : Vec Ideal S10000x64 .f32) (x2 x3 : Vec Ideal S64x64 .f32) (x4 x5 : Vec Ideal S1x64 .f32)

theorem pay4_apply (p : Fin 10000) (q : Fin 64) : k4_pay4 x0 x1 x2 x3 x4 x5 (ix2 p q) = uLoc x0 x1 x2 x3 x4 x5 (ix2 p q) := by
  unfold k4_pay4
  simp only [select_apply, cmpf_apply, mulf_apply, addf_apply, broadcast_apply, shapeCast_self, broadcastTo_1b_ab_apply, blockProduct_apply]
  rfl

theorem pay5_apply (acc : Vec Ideal S1x64 .f32) (z : Fin 1) (q : Fin 64) :
    k4_pay5 x0 x1 x2 x3 x4 x5 acc (ix2 z q) = acc (ix2 z q) + ∑ p : Fin 10000, k4_pay4 x0 x1 x2 x3 x4 x5 (ix2 p q) := by
  unfold k4_pay5
  exact congrArg₂ (· + ·) (congrFun (shapeCast_self acc _) (ix2 z q)) (rowOfColSums_apply _ _ _ _ _ z q)

theorem pay1_apply (u : FVec Ideal S10000x64 .f32) (acc : Vec Ideal S1x64 .f32) (z : Fin 1) (q : Fin 64) :
    k4_pay1 u acc (ix2 z q) = acc (ix2 z q) + ∑ p : Fin 10000, u (ix2 p q) * u (ix2 p q) := by
  unfold k4_pay1
  exact congrArg₂ (· + ·) (congrFun (shapeCast_self acc _) (ix2 z q)) (rowOfColSums_apply _ _ _ _ _ z q)

variable (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)

theorem stepA6 (hc0 : cond4_0 i) (z : Fin 1) (q : Fin 64) :
    out4_A_6 c i arg1 harg1 arg2 harg2 arg3 harg3 arg4 harg4 arg5 harg5 arg6 harg6 arg7 harg7 arg8 harg8 hc0 x0 x1 x2 x3 x4 x5 (ix2 z q) = zeroE + ∑ p : Fin 10000, uLoc x0 x1 x2 x3 x4 x5 (ix2 p q) := by
  rw [out_A_6]
  refine (pay5_apply x0 x1 x2 x3 x4 x5 (k4_pay2 (F := Ideal)) z q).trans ?_
  exact congrArg₂ (· + ·) rfl (Finset.sum_congr rfl fun p _ => pay4_apply x0 x1 x2 x3 x4 x5 p q)

theorem stepA7 (hc0 : cond4_0 i) (z : Fin 1) (q : Fin 64) :
    out4_A_7 c i arg1 harg1 arg2 harg2 arg3 harg3 arg4 harg4 arg5 harg5 arg6 harg6 arg7 harg7 arg8 harg8 hc0 x0 x1 x2 x3 x4 x5 (ix2 z q)
      = zeroE + ∑ p : Fin 10000, sq (uLoc x0 x1 x2 x3 x4 x5) (ix2 p q) := by
  rw [out_A_7]
  refine (pay1_apply (k4_pay4 x0 x1 x2 x3 x4 x5) (k4_pay3 (F := Ideal)) z q).trans ?_
  exact congrArg₂ (· + ·) rfl (Finset.sum_congr rfl fun p _ =>
    congrArg₂ (· * ·) (pay4_apply x0 x1 x2 x3 x4 x5 p q) (pay4_apply x0 x1 x2 x3 x4 x5 p q))

variable (xo6 xo7 : Vec Ideal S1x64 .f32)

theorem stepB6 (hc0 : ¬cond4_0 i) (z : Fin 1) (q : Fin 64) :
    out4_B_6 c i arg1 harg1 arg2 harg2 arg3 harg3 arg4 harg4 arg5 harg5 arg6 harg6 arg7 harg7 arg8 harg8 hc0 x0 x1 x2 x3 x4 x5 xo6 xo7 (ix2 z q)
      = xo6 (ix2 z q) + ∑ p : Fin 10000, uLoc x0 x1 x2 x3 x4 x5 (ix2 p q) := by
  rw [out_B_6]
  refine (pay5_apply x0 x1 x2 x3 x4 x5 xo6 z q).trans ?_
  exact congrArg₂ (· + ·) rfl (Finset.sum_congr rfl fun p _ => pay4_apply x0 x1 x2 x3 x4 x5 p q)

theorem stepB7 (hc0 : ¬cond4_0 i) (z : Fin 1) (q : Fin 64) :
    out4_B_7 c i arg1 harg1 arg2 harg2 arg3 harg3 arg4 harg4 arg5 harg5 arg6 harg6 arg7 harg7 arg8 harg8 hc0 x0 x1 x2 x3 x4 x5 xo6 xo7 (ix2 z q)
      = xo7 (ix2 z q) + ∑ p : Fin 10000, sq (uLoc x0 x1 x2 x3 x4 x5) (ix2 p q) := by
  rw [out_B_7]
  refine (pay1_apply (k4_pay4 x0 x1 x2 x3 x4 x5) xo7 z q).trans ?_
  exact congrArg₂ (· + ·) rfl (Finset.sum_congr rfl fun p _ =>
    congrArg₂ (· * ·) (pay4_apply x0 x1 x2 x3 x4 x5 p q) (pay4_apply x0 x1 x2 x3 x4 x5 p q))

end Arithmetic

theorem idx_facts : ∀ t : Fin cfg4.N, win4_0.index t 0 = t.val ∧ win4_0.index t 1 = 0 ∧ win4_1.index t 0 = t.val ∧ win4_1.index t 1 = 0
    ∧ win4_2.index t 0 = 0 ∧ win4_2.index t 1 = 0 ∧ win4_3.index t 0 = 0 ∧ win4_3.index t 1 = 0
    ∧ win4_4.index t 0 = 0 ∧ win4_4.index t 1 = 0 ∧ win4_5.index t 0 = 0 ∧ win4_5.index t 1 = 0
    ∧ win4_6.index t 0 = 0 ∧ win4_6.index t 1 = 0 ∧ win4_7.index t 0 = 0 ∧ win4_7.index t 1 = 0 :=
  (by decide +kernel : ∀ t : Fin grid4.N, _)

abbrev rowOf (t : Fin cfg4.N) (p : Fin 10000) : Fin 50000 :=
  ⟨10000 * t.val + p.val, by have := t.isLt; have hN : cfg4.N = 5 := N_4; have := p.isLt; omega⟩

variable (V : Entry) (c : Dev nD)

abbrev arr0 : A2 50000 64 := V c (Pipeline.arrRef spec4 0)
abbrev arr1 : A2 50000 64 := V c (Pipeline.arrRef spec4 1)
abbrev arr2 : A2 64 64 := V c (Pipeline.arrRef spec4 2)
abbrev arr3 : A2 64 64 := V c (Pipeline.arrRef spec4 3)
abbrev arr4 : A2 1 64 := V c (Pipeline.arrRef spec4 4)
abbrev arr5 : A2 1 64 := V c (Pipeline.arrRef spec4 5)

abbrev blk0 (t : Fin cfg4.N) : A2 10000 64 := iblk4 V c 0 t
abbrev blk1 (t : Fin cfg4.N) : A2 10000 64 := iblk4 V c 1 t
abbrev blk2 (t : Fin cfg4.N) : A2 64 64 := iblk4 V c 2 t
abbrev blk3 (t : Fin cfg4.N) : A2 64 64 := iblk4 V c 3 t
abbrev blk4 (t : Fin cfg4.N) : A2 1 64 := iblk4 V c 4 t
abbrev blk5 (t : Fin cfg4.N) : A2 1 64 := iblk4 V c 5 t

theorem blk0_apply (t : Fin cfg4.N) (p : Fin 10000) (k : Fin 64) : blk0 V c t (ix2 p k) = arr0 V c (ix2 (rowOf t p) k) := by
  unfold blk0 iblk4
  rw [View.read_apply]
  show V c (Pipeline.arrRef spec4 0) _ = V c (Pipeline.arrRef spec4 0) _
  refine congrArg _ (funext fun a => Fin.ext ?_)
  obtain ⟨e0, e1, -⟩ := idx_facts t
  match a with
  | ⟨0, _⟩ => show win4_0.index t 0 * 10000 + 1 * p.val = 10000 * t.val + p.val; omega
  | ⟨1, _⟩ => show win4_0.index t 1 * 64 + 1 * k.val = k.val; omega

theorem blk1_apply (t : Fin cfg4.N) (p : Fin 10000) (k : Fin 64) : blk1 V c t (ix2 p k) = arr1 V c (ix2 (rowOf t p) k) := by
  unfold blk1 iblk4
  rw [View.read_apply]
  show V c (Pipeline.arrRef spec4 1) _ = V c (Pipeline.arrRef spec4 1) _
  refine congrArg _ (funext fun a => Fin.ext ?_)
  obtain ⟨-, -, e0, e1, -⟩ := idx_facts t
  match a with
  | ⟨0, _⟩ => show win4_1.index t 0 * 10000 + 1 * p.val = 10000 * t.val + p.val; omega
  | ⟨1, _⟩ => show win4_1.index t 1 * 64 + 1 * k.val = k.val; omega

theorem blk2_eq (t : Fin cfg4.N) : blk2 V c t = arr2 V c := by
  funext j
  unfold blk2 iblk4
  rw [View.read_apply]
  show V c (Pipeline.arrRef spec4 2) _ = V c (Pipeline.arrRef spec4 2) _
  refine congrArg _ (funext fun a => Fin.ext ?_)
  obtain ⟨-, -, -, -, e0, e1, -⟩ := idx_facts t
  match a with
  | ⟨0, _⟩ => show win4_2.index t 0 * 64 + 1 * (j 0).val = (j 0).val; omega
  | ⟨1, _⟩ => show win4_2.index t 1 * 64 + 1 * (j 1).val = (j 1).val; omega

theorem blk3_eq (t : Fin cfg4.N) : blk3 V c t = arr3 V c := by
  funext j
  unfold blk3 iblk4
  rw [View.read_apply]
  show V c (Pipeline.arrRef spec4 3) _ = V c (Pipeline.arrRef spec4 3) _
  refine congrArg _ (funext fun a => Fin.ext ?_)
  obtain ⟨-, -, -, -, -, -, e0, e1, -⟩ := idx_facts t
  match a with
  | ⟨0, _⟩ => show win4_3.index t 0 * 64 + 1 * (j 0).val = (j 0).val; omega
  | ⟨1, _⟩ => show win4_3.index t 1 * 64 + 1 * (j 1).val = (j 1).val; omega

theorem blk4_eq (t : Fin cfg4.N) : blk4 V c t = arr4 V c := by
  funext j
  unfold blk4 iblk4
  rw [View.read_apply]
  show V c (Pipeline.arrRef spec4 4) _ = V c (Pipeline.arrRef spec4 4) _
  refine congrArg _ (funext fun a => Fin.ext ?_)
  obtain ⟨-, -, -, -, -, -, -, -, e0, e1, -⟩ := idx_facts t
  match a with
  | ⟨0, _⟩ => show win4_4.index t 0 * 1 + 1 * (j 0).val = (j 0).val; omega
  | ⟨1, _⟩ => show win4_4.index t 1 * 64 + 1 * (j 1).val = (j 1).val; omega

theorem blk5_eq (t : Fin cfg4.N) : blk5 V c t = arr5 V c := by
  funext j
  unfold blk5 iblk4
  rw [View.read_apply]
  show V c (Pipeline.arrRef spec4 5) _ = V c (Pipeline.arrRef spec4 5) _
  refine congrArg _ (funext fun a => Fin.ext ?_)
  obtain ⟨-, -, -, -, -, -, -, -, -, -, e0, e1, -⟩ := idx_facts t
  match a with
  | ⟨0, _⟩ => show win4_5.index t 0 * 1 + 1 * (j 0).val = (j 0).val; omega
  | ⟨1, _⟩ => show win4_5.index t 1 * 64 + 1 * (j 1).val = (j 1).val; omega

abbrev uArr : A2 50000 64 := uLoc (arr0 V c) (arr1 V c) (arr2 V c) (arr3 V c) (arr4 V c) (arr5 V c)

theorem uBlk_apply (t : Fin cfg4.N) (p : Fin 10000) (q : Fin 64) :
    uLoc (blk0 V c t) (blk1 V c t) (blk2 V c t) (blk3 V c t) (blk4 V c t) (blk5 V c t) (ix2 p q) = uArr V c (ix2 (rowOf t p) q) := by
  rw [blk2_eq, blk3_eq, blk4_eq, blk5_eq]
  show prelu (arr5 V c (ix2 0 q)) (lin (blk0 V c t) (blk1 V c t) (arr2 V c) (arr3 V c) (arr4 V c) p q)
    = prelu (arr5 V c (ix2 0 q)) (lin (arr0 V c) (arr1 V c) (arr2 V c) (arr3 V c) (arr4 V c) (rowOf t p) q)
  unfold lin
  simp only [blk0_apply, blk1_apply]

def addend (f : A2 50000 64) (s : ℕ) (q : Fin 64) : EReal :=
  if hs : s < cfg4.N then ∑ p : Fin 10000, f (ix2 (rowOf ⟨s, hs⟩ p) q) else 0

theorem addend_at (f : A2 50000 64) (n : ℕ) (h : n < cfg4.N) (q : Fin 64) :
    addend f n q = ∑ p : Fin 10000, f (ix2 (rowOf ⟨n, h⟩ p) q) := by
  unfold addend
  rw [dif_pos h]

theorem sum_addends (f : A2 50000 64) (q : Fin 64) :
    ∑ s ∈ Finset.range (4 + 1), addend f s q = ∑ n : Fin 50000, f (ix2 n q) := by
  have hN : cfg4.N = 5 := N_4
  rw [Finset.sum_range]
  refine Eq.trans (Finset.sum_congr rfl fun s _ => ?_) (Cert.BlockSum.sum_blocks 5 10000 fun n : Fin 50000 => f (ix2 n q))
  exact addend_at f s.val (by have := s.isLt; omega) q

theorem inv6 : ∀ (n : ℕ) (h : n < cfg4.N) (z : Fin 1) (q : Fin 64),
    (outsAt4 V c n h).1 (ix2 z q) = zeroE + ∑ s ∈ Finset.range (n + 1), addend (uArr V c) s q
  | 0, h, z, q => by
    rw [outsAt4_A V c ⟨0, h⟩ rfl]
    dsimp only
    refine (stepA6 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (uArr V c) s q
    rw [Finset.sum_range_one, addend_at (uArr V c) 0 h q]
    exact congrArg (zeroE + ·) (Finset.sum_congr rfl fun p _ => uBlk_apply V c ⟨0, h⟩ p q)
  | n + 1, h, z, q => by
    have hN : cfg4.N = 5 := N_4
    have hB : ¬(⟨n + 1, h⟩ : Fin cfg4.N).val % 5 = 0 := by dsimp only; omega
    rw [outsAt4_B V c ⟨n + 1, h⟩ hB]
    dsimp only
    refine (stepB6 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (uArr V c) (n + 1) h q]
    exact congrArg₂ (· + ·) (inv6 n (Nat.lt_of_succ_lt h) z q) (Finset.sum_congr rfl fun p _ => uBlk_apply V c ⟨n + 1, h⟩ p q)

theorem inv7 : ∀ (n : ℕ) (h : n < cfg4.N) (z : Fin 1) (q : Fin 64),
    (outsAt4 V c n h).2 (ix2 z q) = zeroE + ∑ s ∈ Finset.range (n + 1), addend (sq (uArr V c)) s q
  | 0, h, z, q => by
    rw [outsAt4_A V c ⟨0, h⟩ rfl]
    dsimp only
    refine (stepA7 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (sq (uArr V c)) s q
    rw [Finset.sum_range_one, addend_at (sq (uArr V c)) 0 h q]
    exact congrArg (zeroE + ·) (Finset.sum_congr rfl fun p _ =>
      congrArg₂ (· * ·) (uBlk_apply V c ⟨0, h⟩ p q) (uBlk_apply V c ⟨0, h⟩ p q))
  | n + 1, h, z, q => by
    have hN : cfg4.N = 5 := N_4
    have hB : ¬(⟨n + 1, h⟩ : Fin cfg4.N).val % 5 = 0 := by dsimp only; omega
    rw [outsAt4_B V c ⟨n + 1, h⟩ hB]
    dsimp only
    refine (stepB7 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (sq (uArr V c)) (n + 1) h q]
    exact congrArg₂ (· + ·) (inv7 n (Nat.lt_of_succ_lt h) z q) (Finset.sum_congr rfl fun p _ =>
      congrArg₂ (· * ·) (uBlk_apply V c ⟨n + 1, h⟩ p q) (uBlk_apply V c ⟨n + 1, h⟩ p q))

theorem colSum_col {R : ℕ} (u : A2 R 64) (i : (⟨2, ![1, 64]⟩ : Shape).Idx) (q : Fin 64) (h : (i 1).val = q.val) :
    colSum u i = ∑ n : Fin R, u (ix2 n q) := by
  have e : i 1 = q := Fin.ext h
  unfold colSum
  rw [e]

theorem flushed6_eq (t : Fin cfg4.N) (hf : (cfg4.win 6).flush t = true) :
    (dat4 V c).flushed 6 t = ((cfg4.win 6).blk t).view.read (Elt Ideal) (colSum (uArr V c)) := by
  have hN : cfg4.N = 5 := N_4
  have h4 : t.val = 4 := by have := (flush4_6 t).mp hf; have := t.isLt; omega
  show (cfg4.win 6).cut (grid4.coords t) ((dat4 V c).after 6 t) = _
  rw [after4_6]
  refine funext fun (j : S1x64.Idx) => ?_
  obtain ⟨z, q, rfl⟩ : ∃ (z : Fin 1) (q : Fin 64), j = ix2 z q := ⟨j 0, j 1, eq_ix2 j⟩
  rw [View.read_apply]
  show (outsAt4 V c t.val t.isLt).1 (ix2 z q) = _
  rw [inv6 V c t.val t.isLt z q, h4, sum_addends]
  refine Eq.trans ?_ (cast_eq _ _).symm
  refine Eq.trans ?_ (colSum_col (uArr V c) _ q ?_).symm
  · show Ideal.ofBits .f32 0x00000000#32 + _ = _
    rw [Ideal.ofBits_zero_f32, zero_add]
  · obtain ⟨-, -, -, -, -, -, -, -, -, -, -, -, e0, e1, -⟩ := idx_facts t
    show win4_6.index t 1 * 64 + 1 * q.val = q.val
    omega

theorem final6 : (dat4 V c).arrAt 6 cfg4.N = colSum (uArr V c) := by
  have hN : cfg4.N = 5 := N_4
  have h4 : 4 < cfg4.N := by omega
  refine (dat4 V c).arrAt_eq_of_cover 6 (colSum (uArr V c)) (fun t hf => flushed6_eq V c t hf) fun i => ?_
  refine ⟨⟨4, h4⟩, (flush4_6 _).mpr rfl, ?_⟩
  show i ∈ ((View.whole (Pipeline.arrRef spec4 6)).slice (win4_6.rect ⟨4, h4⟩)).set
  rw [View.set_slice_whole, Rect.mem_set_unit]
  intro a
  obtain ⟨-, -, -, -, -, -, -, -, -, -, -, -, e0, e1, -⟩ := idx_facts ⟨4, h4⟩
  have h0 : (i 0 : Nat) < 1 := (i 0).isLt
  have h1 : (i 1 : Nat) < 64 := (i 1).isLt
  match a with
  | ⟨0, _⟩ =>
    show win4_6.index ⟨4, h4⟩ 0 * 1 ≤ (i 0 : Nat) ∧ (i 0 : Nat) < win4_6.index ⟨4, h4⟩ 0 * 1 + 1
    omega
  | ⟨1, _⟩ =>
    show win4_6.index ⟨4, h4⟩ 1 * 64 ≤ (i 1 : Nat) ∧ (i 1 : Nat) < win4_6.index ⟨4, h4⟩ 1 * 64 + 64
    omega

theorem flushed7_eq (t : Fin cfg4.N) (hf : (cfg4.win 7).flush t = true) :
    (dat4 V c).flushed 7 t = ((cfg4.win 7).blk t).view.read (Elt Ideal) (colSum (sq (uArr V c))) := by
  have hN : cfg4.N = 5 := N_4
  have h4 : t.val = 4 := by have := (flush4_7 t).mp hf; have := t.isLt; omega
  show (cfg4.win 7).cut (grid4.coords t) ((dat4 V c).after 7 t) = _
  rw [after4_7]
  refine funext fun (j : S1x64.Idx) => ?_
  obtain ⟨z, q, rfl⟩ : ∃ (z : Fin 1) (q : Fin 64), j = ix2 z q := ⟨j 0, j 1, eq_ix2 j⟩
  rw [View.read_apply]
  show (outsAt4 V c t.val t.isLt).2 (ix2 z q) = _
  rw [inv7 V c t.val t.isLt z q, h4, sum_addends]
  refine Eq.trans ?_ (cast_eq _ _).symm
  refine Eq.trans ?_ (colSum_col (sq (uArr V c)) _ q ?_).symm
  · show Ideal.ofBits .f32 0x00000000#32 + _ = _
    rw [Ideal.ofBits_zero_f32, zero_add]
  · obtain ⟨-, -, -, -, -, -, -, -, -, -, -, -, -, -, e0, e1⟩ := idx_facts t
    show win4_7.index t 1 * 64 + 1 * q.val = q.val
    omega

theorem final7 : (dat4 V c).arrAt 7 cfg4.N = colSum (sq (uArr V c)) := by
  have hN : cfg4.N = 5 := N_4
  have h4 : 4 < cfg4.N := by omega
  refine (dat4 V c).arrAt_eq_of_cover 7 (colSum (sq (uArr V c))) (fun t hf => flushed7_eq V c t hf) fun i => ?_
  refine ⟨⟨4, h4⟩, (flush4_7 _).mpr rfl, ?_⟩
  show i ∈ ((View.whole (Pipeline.arrRef spec4 7)).slice (win4_7.rect ⟨4, h4⟩)).set
  rw [View.set_slice_whole, Rect.mem_set_unit]
  intro a
  obtain ⟨-, -, -, -, -, -, -, -, -, -, -, -, -, -, e0, e1⟩ := idx_facts ⟨4, h4⟩
  have h0 : (i 0 : Nat) < 1 := (i 0).isLt
  have h1 : (i 1 : Nat) < 64 := (i 1).isLt
  match a with
  | ⟨0, _⟩ =>
    show win4_7.index ⟨4, h4⟩ 0 * 1 ≤ (i 0 : Nat) ∧ (i 0 : Nat) < win4_7.index ⟨4, h4⟩ 0 * 1 + 1
    omega
  | ⟨1, _⟩ =>
    show win4_7.index ⟨4, h4⟩ 1 * 64 ≤ (i 1 : Nat) ∧ (i 1 : Nat) < win4_7.index ⟨4, h4⟩ 1 * 64 + 64
    omega

end Stats4

theorem sum4 (V : Entry) (c : Dev nD) :
    (dat4 V c).arrAt 6 cfg4.N = colSum (uLoc (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  Stats4.final6 V c

theorem sumsq4 (V : Entry) (c : Dev nD) :
    (dat4 V c).arrAt 7 cfg4.N = colSum (sq (uLoc (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))) :=
  Stats4.final7 V c

end Cert.KernelIdeal.Val

end
-- ==== Proof.KNorm5.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx
open scoped BigOperators

theorem row5_apply (x : FVec Ideal S1x64 .f32) (h : S1x64.Broadcasts S10000x64) (p : Fin 10000) (q : Fin 64) :
    broadcastTo S10000x64 x h (ix2 p q) = x (ix2 0 q) :=
  broadcastTo_1b_ab_apply x h p q

theorem prod5_apply (x : FVec Ideal S10000x64 .f32) (w : FVec Ideal S64x64 .f32) (hb : FTy.bits .bf16 < FTy.bits .f32)
    (p : Fin 10000) (q : Fin 64) :
    matmul dot_S10000x64_S64x64_S10000x64_1_0_0_1_n_n none (truncf .bf16 x hb) (truncf .bf16 w hb)
        (constant (F := Ideal) S10000x64 .f32 0x00000000#32) (ix2 p q)
      = ∑ k : Fin 64, x (ix2 p k) * w (ix2 k q) :=
  Cert.LibPlainDot.matmul_zero_apply dot_S10000x64_S64x64_S10000x64_1_0_0_1_n_n rfl rfl rfl rfl rfl rfl none x w p q

theorem pay5_eq (x0 x1 : FVec Ideal S10000x64 .f32) (x2 x3 : FVec Ideal S64x64 .f32)
    (x4 x5 x6 x7 x8 x9 : FVec Ideal S1x64 .f32) :
    k5_pay1 (F := Ideal) (k5_pay2 (F := Ideal) x0 x1 x2 x3 x4 x5) (k5_pay3 (F := Ideal) x6) (k5_pay4 (F := Ideal) x7)
        (k5_pay5 (F := Ideal) x8) x9
      = normLoc x0 x1 x2 x3 x4 x5 x6 x7 x8 x9 := by
  unfold k5_pay1 k5_pay2 k5_pay3 k5_pay4 k5_pay5
  simp only [shapeCast_self]
  funext j
  obtain ⟨p, q, rfl⟩ : ∃ (p : Fin 10000) (q : Fin 64), j = ix2 p q := ⟨j 0, j 1, eq_ix2 j⟩
  show ((prelu (broadcastTo S10000x64 x5 _ (ix2 p q))
          ((matmul dot_S10000x64_S64x64_S10000x64_1_0_0_1_n_n none (truncf .bf16 x0 _) (truncf .bf16 x2 _)
                (constant (F := Ideal) S10000x64 .f32 0x00000000#32) (ix2 p q)
              + matmul dot_S10000x64_S64x64_S10000x64_1_0_0_1_n_n none (truncf .bf16 x1 _) (truncf .bf16 x3 _)
                (constant (F := Ideal) S10000x64 .f32 0x00000000#32) (ix2 p q))
            + broadcastTo S10000x64 x4 _ (ix2 p q))
        - broadcastTo S10000x64 x6 _ (ix2 p q)) * broadcastTo S10000x64 x7 _ (ix2 p q))
        * broadcastTo S10000x64 x8 _ (ix2 p q) + broadcastTo S10000x64 x9 _ (ix2 p q) = _
  rw [row5_apply x5, row5_apply x4, row5_apply x6, row5_apply x7, row5_apply x8, row5_apply x9,
    prod5_apply x0 x2, prod5_apply x1 x3]
  rfl

theorem normLoc_rows5 {R R' : ℕ} (h g : A2 R 64) (h' g' : A2 R' 64) (w0 w1 : A2 64 64) (b a mean istd gam bet : A2 1 64)
    (w0' w1' : A2 64 64) (b' a' mean' istd' gam' bet' : A2 1 64) (p : Fin R) (n : Fin R') (q : Fin 64)
    (hh : ∀ k : Fin 64, h (ix2 p k) = h' (ix2 n k)) (hg : ∀ k : Fin 64, g (ix2 p k) = g' (ix2 n k))
    (e2 : w0 = w0') (e3 : w1 = w1') (e4 : b = b') (e5 : a = a') (e6 : mean = mean') (e7 : istd = istd')
    (e8 : gam = gam') (e9 : bet = bet') :
    normLoc h g w0 w1 b a mean istd gam bet (ix2 p q) = normLoc h' g' w0' w1' b' a' mean' istd' gam' bet' (ix2 n q) := by
  subst e2 e3 e4 e5 e6 e7 e8 e9
  have s1 : (∑ k : Fin 64, h (ix2 p k) * w0 (ix2 k q)) = ∑ k : Fin 64, h' (ix2 n k) * w0 (ix2 k q) :=
    Finset.sum_congr rfl fun k _ => by rw [hh k]
  have s2 : (∑ k : Fin 64, g (ix2 p k) * w1 (ix2 k q)) = ∑ k : Fin 64, g' (ix2 n k) * w1 (ix2 k q) :=
    Finset.sum_congr rfl fun k _ => by rw [hg k]
  show ((prelu (a (ix2 0 q)) (((∑ k : Fin 64, h (ix2 p k) * w0 (ix2 k q)) + (∑ k : Fin 64, g (ix2 p k) * w1 (ix2 k q)))
            + b (ix2 0 q)) - mean (ix2 0 q)) * istd (ix2 0 q)) * gam (ix2 0 q) + bet (ix2 0 q)
      = ((prelu (a (ix2 0 q)) (((∑ k : Fin 64, h' (ix2 n k) * w0 (ix2 k q)) + (∑ k : Fin 64, g' (ix2 n k) * w1 (ix2 k q)))
            + b (ix2 0 q)) - mean (ix2 0 q)) * istd (ix2 0 q)) * gam (ix2 0 q) + bet (ix2 0 q)
  rw [s1, s2]

abbrev inA5_0 (V : Entry) (c : Dev nD) : A2 50000 64 := V c (Pipeline.arrRef spec5 0)

abbrev inA5_1 (V : Entry) (c : Dev nD) : A2 50000 64 := V c (Pipeline.arrRef spec5 1)

abbrev inA5_2 (V : Entry) (c : Dev nD) : A2 64 64 := V c (Pipeline.arrRef spec5 2)

abbrev inA5_3 (V : Entry) (c : Dev nD) : A2 64 64 := V c (Pipeline.arrRef spec5 3)

abbrev inA5_4 (V : Entry) (c : Dev nD) : A2 1 64 := V c (Pipeline.arrRef spec5 4)

abbrev inA5_5 (V : Entry) (c : Dev nD) : A2 1 64 := V c (Pipeline.arrRef spec5 5)

abbrev inA5_6 (V : Entry) (c : Dev nD) : A2 1 64 := V c (Pipeline.arrRef spec5 6)

abbrev inA5_7 (V : Entry) (c : Dev nD) : A2 1 64 := V c (Pipeline.arrRef spec5 7)

abbrev inA5_8 (V : Entry) (c : Dev nD) : A2 1 64 := V c (Pipeline.arrRef spec5 8)

abbrev inA5_9 (V : Entry) (c : Dev nD) : A2 1 64 := V c (Pipeline.arrRef spec5 9)

abbrev inB5_0 (V : Entry) (c : Dev nD) (t : Fin cfg5.N) : A2 10000 64 := iblk5 V c 0 t

abbrev inB5_1 (V : Entry) (c : Dev nD) (t : Fin cfg5.N) : A2 10000 64 := iblk5 V c 1 t

abbrev inB5_2 (V : Entry) (c : Dev nD) (t : Fin cfg5.N) : A2 64 64 := iblk5 V c 2 t

abbrev inB5_3 (V : Entry) (c : Dev nD) (t : Fin cfg5.N) : A2 64 64 := iblk5 V c 3 t

abbrev inB5_4 (V : Entry) (c : Dev nD) (t : Fin cfg5.N) : A2 1 64 := iblk5 V c 4 t

abbrev inB5_5 (V : Entry) (c : Dev nD) (t : Fin cfg5.N) : A2 1 64 := iblk5 V c 5 t

abbrev inB5_6 (V : Entry) (c : Dev nD) (t : Fin cfg5.N) : A2 1 64 := iblk5 V c 6 t

abbrev inB5_7 (V : Entry) (c : Dev nD) (t : Fin cfg5.N) : A2 1 64 := iblk5 V c 7 t

abbrev inB5_8 (V : Entry) (c : Dev nD) (t : Fin cfg5.N) : A2 1 64 := iblk5 V c 8 t

abbrev inB5_9 (V : Entry) (c : Dev nD) (t : Fin cfg5.N) : A2 1 64 := iblk5 V c 9 t

theorem zero_off5 : (![0, 0] : Fin 2 → Nat) = fun _ => 0 := funext fun a => by fin_cases a <;> rfl

theorem idx5_moving : ∀ t : Fin cfg5.N,
    win5_0.index t (0 : Fin 2) = t.val ∧ win5_0.index t (1 : Fin 2) = 0
    ∧ win5_1.index t (0 : Fin 2) = t.val ∧ win5_1.index t (1 : Fin 2) = 0
    ∧ win5_10.index t (0 : Fin 2) = t.val ∧ win5_10.index t (1 : Fin 2) = 0 :=
  (by decide +kernel : ∀ t : Fin grid5.N, _)

theorem idx5_fixed : ∀ t : Fin cfg5.N,
    (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = 0 ∧ win5_9.index t (1 : Fin 2) = 0) :=
  (by decide +kernel : ∀ t : Fin grid5.N, _)

theorem inB5_0_apply (V : Entry) (c : Dev nD) (t : Fin cfg5.N) (p : Fin 10000) (k : Fin 64) (n : Fin 50000)
    (hn : n.val = t.val * 10000 + p.val) : inB5_0 V c t (ix2 p k) = inA5_0 V c (ix2 n k) := by
  obtain ⟨f0, f1, -, -, -, -⟩ := idx5_moving t
  show V c (Pipeline.arrRef spec5 0) (((cfg5.win 0).blk t).view.emb (ix2 p k)) = V c (Pipeline.arrRef spec5 0) (ix2 n k)
  refine congrArg (V c (Pipeline.arrRef spec5 0)) (funext fun a => Fin.ext ?_)
  match a with
  | ⟨0, _⟩ => show win5_0.index t (0 : Fin 2) * 10000 + 1 * p.val = n.val; omega
  | ⟨1, _⟩ => show win5_0.index t (1 : Fin 2) * 64 + 1 * k.val = k.val; omega

theorem inB5_1_apply (V : Entry) (c : Dev nD) (t : Fin cfg5.N) (p : Fin 10000) (k : Fin 64) (n : Fin 50000)
    (hn : n.val = t.val * 10000 + p.val) : inB5_1 V c t (ix2 p k) = inA5_1 V c (ix2 n k) := by
  obtain ⟨-, -, f0, f1, -, -⟩ := idx5_moving t
  show V c (Pipeline.arrRef spec5 1) (((cfg5.win 1).blk t).view.emb (ix2 p k)) = V c (Pipeline.arrRef spec5 1) (ix2 n k)
  refine congrArg (V c (Pipeline.arrRef spec5 1)) (funext fun a => Fin.ext ?_)
  match a with
  | ⟨0, _⟩ => show win5_1.index t (0 : Fin 2) * 10000 + 1 * p.val = n.val; omega
  | ⟨1, _⟩ => show win5_1.index t (1 : Fin 2) * 64 + 1 * k.val = k.val; omega

theorem inB5_2_eq (V : Entry) (c : Dev nD) (t : Fin cfg5.N) : inB5_2 V c t = inA5_2 V c := by
  obtain ⟨⟨f0, f1⟩, -⟩ := idx5_fixed t
  funext y
  show V c (Pipeline.arrRef spec5 2) (((cfg5.win 2).blk t).view.emb y) = V c (Pipeline.arrRef spec5 2) y
  refine congrArg (V c (Pipeline.arrRef spec5 2)) (funext fun a => Fin.ext ?_)
  match a with
  | ⟨0, _⟩ => show win5_2.index t (0 : Fin 2) * 64 + 1 * (y 0).val = (y 0).val; omega
  | ⟨1, _⟩ => show win5_2.index t (1 : Fin 2) * 64 + 1 * (y 1).val = (y 1).val; omega

theorem inB5_3_eq (V : Entry) (c : Dev nD) (t : Fin cfg5.N) : inB5_3 V c t = inA5_3 V c := by
  obtain ⟨-, ⟨f0, f1⟩, -⟩ := idx5_fixed t
  funext y
  show V c (Pipeline.arrRef spec5 3) (((cfg5.win 3).blk t).view.emb y) = V c (Pipeline.arrRef spec5 3) y
  refine congrArg (V c (Pipeline.arrRef spec5 3)) (funext fun a => Fin.ext ?_)
  match a with
  | ⟨0, _⟩ => show win5_3.index t (0 : Fin 2) * 64 + 1 * (y 0).val = (y 0).val; omega
  | ⟨1, _⟩ => show win5_3.index t (1 : Fin 2) * 64 + 1 * (y 1).val = (y 1).val; omega

theorem inB5_4_eq (V : Entry) (c : Dev nD) (t : Fin cfg5.N) : inB5_4 V c t = inA5_4 V c := by
  obtain ⟨-, -, ⟨f0, f1⟩, -⟩ := idx5_fixed t
  funext y
  show V c (Pipeline.arrRef spec5 4) (((cfg5.win 4).blk t).view.emb y) = V c (Pipeline.arrRef spec5 4) y
  refine congrArg (V c (Pipeline.arrRef spec5 4)) (funext fun a => Fin.ext ?_)
  match a with
  | ⟨0, _⟩ => show win5_4.index t (0 : Fin 2) * 1 + 1 * (y 0).val = (y 0).val; omega
  | ⟨1, _⟩ => show win5_4.index t (1 : Fin 2) * 64 + 1 * (y 1).val = (y 1).val; omega

theorem inB5_5_eq (V : Entry) (c : Dev nD) (t : Fin cfg5.N) : inB5_5 V c t = inA5_5 V c := by
  obtain ⟨-, -, -, ⟨f0, f1⟩, -⟩ := idx5_fixed t
  funext y
  show V c (Pipeline.arrRef spec5 5) (((cfg5.win 5).blk t).view.emb y) = V c (Pipeline.arrRef spec5 5) y
  refine congrArg (V c (Pipeline.arrRef spec5 5)) (funext fun a => Fin.ext ?_)
  match a with
  | ⟨0, _⟩ => show win5_5.index t (0 : Fin 2) * 1 + 1 * (y 0).val = (y 0).val; omega
  | ⟨1, _⟩ => show win5_5.index t (1 : Fin 2) * 64 + 1 * (y 1).val = (y 1).val; omega

theorem inB5_6_eq (V : Entry) (c : Dev nD) (t : Fin cfg5.N) : inB5_6 V c t = inA5_6 V c := by
  obtain ⟨-, -, -, -, ⟨f0, f1⟩, -⟩ := idx5_fixed t
  funext y
  show V c (Pipeline.arrRef spec5 6) (((cfg5.win 6).blk t).view.emb y) = V c (Pipeline.arrRef spec5 6) y
  refine congrArg (V c (Pipeline.arrRef spec5 6)) (funext fun a => Fin.ext ?_)
  match a with
  | ⟨0, _⟩ => show win5_6.index t (0 : Fin 2) * 1 + 1 * (y 0).val = (y 0).val; omega
  | ⟨1, _⟩ => show win5_6.index t (1 : Fin 2) * 64 + 1 * (y 1).val = (y 1).val; omega

theorem inB5_7_eq (V : Entry) (c : Dev nD) (t : Fin cfg5.N) : inB5_7 V c t = inA5_7 V c := by
  obtain ⟨-, -, -, -, -, ⟨f0, f1⟩, -⟩ := idx5_fixed t
  funext y
  show V c (Pipeline.arrRef spec5 7) (((cfg5.win 7).blk t).view.emb y) = V c (Pipeline.arrRef spec5 7) y
  refine congrArg (V c (Pipeline.arrRef spec5 7)) (funext fun a => Fin.ext ?_)
  match a with
  | ⟨0, _⟩ => show win5_7.index t (0 : Fin 2) * 1 + 1 * (y 0).val = (y 0).val; omega
  | ⟨1, _⟩ => show win5_7.index t (1 : Fin 2) * 64 + 1 * (y 1).val = (y 1).val; omega

theorem inB5_8_eq (V : Entry) (c : Dev nD) (t : Fin cfg5.N) : inB5_8 V c t = inA5_8 V c := by
  obtain ⟨-, -, -, -, -, -, ⟨f0, f1⟩, -⟩ := idx5_fixed t
  funext y
  show V c (Pipeline.arrRef spec5 8) (((cfg5.win 8).blk t).view.emb y) = V c (Pipeline.arrRef spec5 8) y
  refine congrArg (V c (Pipeline.arrRef spec5 8)) (funext fun a => Fin.ext ?_)
  match a with
  | ⟨0, _⟩ => show win5_8.index t (0 : Fin 2) * 1 + 1 * (y 0).val = (y 0).val; omega
  | ⟨1, _⟩ => show win5_8.index t (1 : Fin 2) * 64 + 1 * (y 1).val = (y 1).val; omega

theorem inB5_9_eq (V : Entry) (c : Dev nD) (t : Fin cfg5.N) : inB5_9 V c t = inA5_9 V c := by
  obtain ⟨-, -, -, -, -, -, -, f0, f1⟩ := idx5_fixed t
  funext y
  show V c (Pipeline.arrRef spec5 9) (((cfg5.win 9).blk t).view.emb y) = V c (Pipeline.arrRef spec5 9) y
  refine congrArg (V c (Pipeline.arrRef spec5 9)) (funext fun a => Fin.ext ?_)
  match a with
  | ⟨0, _⟩ => show win5_9.index t (0 : Fin 2) * 1 + 1 * (y 0).val = (y 0).val; omega
  | ⟨1, _⟩ => show win5_9.index t (1 : Fin 2) * 64 + 1 * (y 1).val = (y 1).val; omega

theorem out5_idx (t : Fin cfg5.N) (p : Fin 10000) (q : Fin 64) (n : Fin 50000) (hn : n.val = t.val * 10000 + p.val) :
    (((cfg5.win 10).blk t).view.emb (ix2 p q) : S50000x64.Idx) = ix2 n q := by
  obtain ⟨-, -, -, -, f0, f1⟩ := idx5_moving t
  funext a
  apply Fin.ext
  match a with
  | ⟨0, _⟩ => show win5_10.index t (0 : Fin 2) * 10000 + 1 * p.val = n.val; omega
  | ⟨1, _⟩ => show win5_10.index t (1 : Fin 2) * 64 + 1 * q.val = q.val; omega

theorem flushed5_eq (V : Entry) (c : Dev nD) (t : Fin cfg5.N) :
    (dat5 V c).flushed 10 t = ((cfg5.win 10).blk t).view.read (Elt Ideal) (normLoc (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9))) := by
  show (cfg5.win 10).cut (grid5.coords t) ((dat5 V c).after 10 t) = _
  rw [after5_10 V c t]
  unfold out5_10
  rw [View.canon_unit_zero zero_off5]
  simp only [View.ld_unit_zero (S := S10000x64) zero_off5, View.ld_unit_zero (S := S64x64) zero_off5,
    View.ld_unit_zero (S := S1x64) zero_off5]
  show (fun j : S10000x64.Idx => k5_pay1 (F := Ideal) (k5_pay2 (F := Ideal) (inB5_0 V c t) (inB5_1 V c t) (inB5_2 V c t) (inB5_3 V c t) (inB5_4 V c t) (inB5_5 V c t)) (k5_pay3 (F := Ideal) (inB5_6 V c t)) (k5_pay4 (F := Ideal) (inB5_7 V c t)) (k5_pay5 (F := Ideal) (inB5_8 V c t)) (inB5_9 V c t) j)
      = fun j : S10000x64.Idx => normLoc (inA5_0 V c) (inA5_1 V c) (inA5_2 V c) (inA5_3 V c) (inA5_4 V c) (inA5_5 V c) (inA5_6 V c) (inA5_7 V c) (inA5_8 V c) (inA5_9 V c) (((cfg5.win 10).blk t).view.emb j)
  funext j
  obtain ⟨p, q, rfl⟩ : ∃ (p : Fin 10000) (q : Fin 64), j = ix2 p q := ⟨j 0, j 1, eq_ix2 j⟩
  have ht : t.val < 5 := lt_of_lt_of_eq t.isLt N_5
  have hp : p.val < 10000 := p.isLt
  obtain ⟨n, hn⟩ : ∃ n : Fin 50000, n.val = t.val * 10000 + p.val := ⟨⟨t.val * 10000 + p.val, by omega⟩, rfl⟩
  refine (congrFun (pay5_eq (inB5_0 V c t) (inB5_1 V c t) (inB5_2 V c t) (inB5_3 V c t) (inB5_4 V c t) (inB5_5 V c t) (inB5_6 V c t) (inB5_7 V c t) (inB5_8 V c t) (inB5_9 V c t)) (ix2 p q)).trans ?_
  refine (normLoc_rows5 (inB5_0 V c t) (inB5_1 V c t) (inA5_0 V c) (inA5_1 V c) (inB5_2 V c t) (inB5_3 V c t) (inB5_4 V c t) (inB5_5 V c t) (inB5_6 V c t) (inB5_7 V c t) (inB5_8 V c t) (inB5_9 V c t) (inA5_2 V c) (inA5_3 V c) (inA5_4 V c) (inA5_5 V c) (inA5_6 V c) (inA5_7 V c) (inA5_8 V c) (inA5_9 V c)
    p n q
    (fun k => inB5_0_apply V c t p k n hn) (fun k => inB5_1_apply V c t p k n hn)
    (inB5_2_eq V c t) (inB5_3_eq V c t) (inB5_4_eq V c t) (inB5_5_eq V c t) (inB5_6_eq V c t) (inB5_7_eq V c t) (inB5_8_eq V c t) (inB5_9_eq V c t)).trans ?_
  exact congrArg (normLoc (inA5_0 V c) (inA5_1 V c) (inA5_2 V c) (inA5_3 V c) (inA5_4 V c) (inA5_5 V c) (inA5_6 V c) (inA5_7 V c) (inA5_8 V c) (inA5_9 V c)) (out5_idx t p q n hn).symm

theorem mem_blk5 (t : Fin cfg5.N) (i : S50000x64.Idx) :
    i ∈ ((cfg5.win 10).blk t).view.set ↔ ∀ a : Fin 2, win5_10.index t a * S10000x64.size a ≤ (i a).val ∧ (i a).val < win5_10.index t a * S10000x64.size a + S10000x64.size a := by
  show i ∈ ((View.whole main_v98).slice (win5_10.rect t)).set ↔ _
  rw [View.set_slice_whole, Rect.mem_set_unit]
  exact Iff.rfl

theorem cover5_arr (i : S50000x64.Idx) :
    ∃ t : Fin cfg5.N, (cfg5.win 10).flush t = true ∧ i ∈ ((cfg5.win 10).blk t).view.set := by
  have h0 : (i 0).val < 50000 := (i 0).isLt
  have h1 : (i 1).val < 64 := (i 1).isLt
  obtain ⟨t, ht⟩ : ∃ t : Fin cfg5.N, t.val = (i 0).val / 10000 :=
    ⟨⟨(i 0).val / 10000, by rw [show cfg5.N = 5 from N_5]; omega⟩, rfl⟩
  obtain ⟨-, -, -, -, f0, f1⟩ := idx5_moving t
  refine ⟨t, flush5_10 t, ?_⟩
  rw [mem_blk5]
  intro a
  match a with
  | ⟨0, _⟩ =>
    show win5_10.index t (0 : Fin 2) * 10000 ≤ (i 0).val ∧ (i 0).val < win5_10.index t (0 : Fin 2) * 10000 + 10000
    omega
  | ⟨1, _⟩ =>
    show win5_10.index t (1 : Fin 2) * 64 ≤ (i 1).val ∧ (i 1).val < win5_10.index t (1 : Fin 2) * 64 + 64
    omega

theorem norm5 (V : Entry) (c : Dev nD) :
    (dat5 V c).arrAt 10 cfg5.N = normLoc (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) := by
  exact (dat5 V c).arrAt_eq_of_cover 10 (normLoc (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9))) (fun t _ => flushed5_eq V c t) (fun i => cover5_arr i)

end Cert.KernelIdeal.Val

end
-- ==== Proof.KParams.lean ====
import proofs.«428660_j69922067578969_2_alg».proof.Proof.Spec
import Idealize.ShloMosaic.Lib.Pipeline.Value
import Idealize.ShloMosaic.Lib.ValueLayout

noncomputable section

namespace Cert.KernelIdeal.Val

open Idealize.ShloMosaic Idealize.ShloMosaic.ValueIdx Cert.Spec

theorem half0_read (W : A3 4 128 64) (l : Fin 4) (off : Fin 3 → ℕ) (h0 : off 0 = l.val) (h1 : off 1 = 0) (h2 : off 2 = 0)
    (hs : (⟨3, ![4, 128, 64]⟩ : Shape).Slices off ⟨3, ![1, 64, 64]⟩)
    (hc : (⟨3, ![1, 64, 64]⟩ : Shape).ShapeCasts ⟨2, ![64, 64]⟩) :
    shapeCast ⟨2, ![64, 64]⟩ (extractStridedSlice ⟨3, ![1, 64, 64]⟩ off W hs) hc = half0 W l := by
  funext i
  obtain ⟨p, q, rfl⟩ : ∃ (p : Fin 64) (q : Fin 64), i = ix2 p q := ⟨i 0, i 1, eq_ix2 i⟩
  refine (shapeCast_1ab_ab_apply _ hc p q).trans ?_
  refine (extractStridedSlice_apply off W hs (ix3 (0 : Fin 1) p q) (ix3 l ⟨p.val, by omega⟩ q) ?_).trans rfl
  intro a
  match a with
  | ⟨0, _⟩ => show l.val = off 0 + 0; omega
  | ⟨1, _⟩ => show p.val = off 1 + p.val; omega
  | ⟨2, _⟩ => show q.val = off 2 + q.val; omega

theorem half1_read (W : A3 4 128 64) (l : Fin 4) (off : Fin 3 → ℕ) (h0 : off 0 = l.val) (h1 : off 1 = 64) (h2 : off 2 = 0)
    (hs : (⟨3, ![4, 128, 64]⟩ : Shape).Slices off ⟨3, ![1, 64, 64]⟩)
    (hc : (⟨3, ![1, 64, 64]⟩ : Shape).ShapeCasts ⟨2, ![64, 64]⟩) :
    shapeCast ⟨2, ![64, 64]⟩ (extractStridedSlice ⟨3, ![1, 64, 64]⟩ off W hs) hc = half1 W l := by
  funext i
  obtain ⟨p, q, rfl⟩ : ∃ (p : Fin 64) (q : Fin 64), i = ix2 p q := ⟨i 0, i 1, eq_ix2 i⟩
  refine (shapeCast_1ab_ab_apply _ hc p q).trans ?_
  refine (extractStridedSlice_apply off W hs (ix3 (0 : Fin 1) p q) (ix3 l ⟨64 + p.val, by omega⟩ q) ?_).trans rfl
  intro a
  match a with
  | ⟨0, _⟩ => show l.val = off 0 + 0; omega
  | ⟨1, _⟩ => show 64 + p.val = off 1 + p.val; omega
  | ⟨2, _⟩ => show q.val = off 2 + q.val; omega

theorem rowOf_read (B : A2 4 64) (l : Fin 4) (off : Fin 2 → ℕ) (h0 : off 0 = l.val) (h1 : off 1 = 0)
    (hs : (⟨2, ![4, 64]⟩ : Shape).Slices off ⟨2, ![1, 64]⟩)
    (hc1 : (⟨2, ![1, 64]⟩ : Shape).ShapeCasts ⟨1, ![64]⟩) (hc2 : (⟨1, ![64]⟩ : Shape).ShapeCasts ⟨2, ![1, 64]⟩) :
    shapeCast ⟨2, ![1, 64]⟩ (shapeCast ⟨1, ![64]⟩ (extractStridedSlice ⟨2, ![1, 64]⟩ off B hs) hc1) hc2 = rowOf B l := by
  funext i
  obtain ⟨u, q, rfl⟩ : ∃ (u : Fin 1) (q : Fin 64), i = ix2 u q := ⟨i 0, i 1, eq_ix2 i⟩
  refine (shapeCast_a_1a_apply _ hc2 u q).trans ?_
  refine (shapeCast_1a_a_apply _ hc1 q).trans ?_
  refine (extractStridedSlice_apply off B hs (ix2 (0 : Fin 1) q) (ix2 l q) ?_).trans rfl
  intro a
  match a with
  | ⟨0, _⟩ => show l.val = off 0 + 0; omega
  | ⟨1, _⟩ => show q.val = off 1 + q.val; omega

theorem splatOf_read (a : A1 4) (l : Fin 4) (off : Fin 1 → ℕ) (h0 : off 0 = l.val)
    (hs : (⟨1, ![4]⟩ : Shape).Slices off ⟨1, ![1]⟩)
    (hc : (⟨1, ![1]⟩ : Shape).ShapeCasts ⟨0, ![]⟩) (dims : Fin 0 → Fin 2)
    (hb : (⟨0, ![]⟩ : Shape).BroadcastsInDim ⟨2, ![1, 64]⟩ dims) :
    broadcastInDim ⟨2, ![1, 64]⟩ dims hb (shapeCast ⟨0, ![]⟩ (extractStridedSlice ⟨1, ![1]⟩ off a hs) hc) = splatOf a l := by
  funext i
  refine (broadcastInDim_apply dims hb _ i ix0 (fun a => a.elim0)).trans ?_
  refine (shapeCast_apply _ hc ix0 (ix1 (0 : Fin 1)) ?_).trans ?_
  · rw [Shape.rowMajor_val_one]
    have := ((⟨0, ![]⟩ : Shape).rowMajor ix0).isLt
    simp [Shape.numel] at this
    show 0 = _
    omega
  · refine (extractStridedSlice_apply off a hs (ix1 (0 : Fin 1)) (ix1 l) ?_).trans rfl
    intro b
    match b with
    | ⟨0, _⟩ => show l.val = off 0 + 0; omega

end Cert.KernelIdeal.Val

end
-- ==== Proof.KLayer1a.lean ====
import proofs.«428660_j69922067578969_2_alg».proof.Proof.Gen.KernelIdeal.Launch
import proofs.«428660_j69922067578969_2_alg».proof.Proof.KParams
import Idealize.ShloMosaic.Lib.StableHlo.Run

set_option maxRecDepth 16384

noncomputable section

namespace Cert.KernelIdeal.Val.L1

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrP : List (Ref sig .tc) :=
  [main_v55, main_v56, main_v57, main_v58, main_v59, main_v60, main_v61, main_v62, main_v63, main_v64,
   main_v65, main_v66, main_v67, main_v68, main_v69, main_v70, main_v71, main_v72, main_v73, main_v74,
   main_v75, main_v76, main_v77]

theorem wrP_sub :
    (hostOps3 (F := Ideal)).Forall fun op => op.writes ⊆ (wrP.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepP (r : Ref sig .tc) (h : r ∉ wrP) :
    StableHlo.after (hostOps3 (F := Ideal)) V (Proc.devRef .tc r) = V (Proc.devRef .tc r) :=
  StableHlo.after_of_writes_sub _ V wrP_sub h

theorem p_wm0 : StableHlo.after (hostOps3 (F := Ideal)) V (Proc.devRef .tc main_v56)
    = half0 (V (Proc.devRef .tc main_arg3)) (1 : Fin 4) := by
  after_results_simp; exact half0_read _ (1 : Fin 4) _ rfl rfl rfl _ _

theorem p_wm1 : StableHlo.after (hostOps3 (F := Ideal)) V (Proc.devRef .tc main_v58)
    = half1 (V (Proc.devRef .tc main_arg3)) (1 : Fin 4) := by
  after_results_simp; exact half1_read _ (1 : Fin 4) _ rfl rfl rfl _ _

theorem p_wu0 : StableHlo.after (hostOps3 (F := Ideal)) V (Proc.devRef .tc main_v60)
    = half0 (V (Proc.devRef .tc main_arg5)) (1 : Fin 4) := by
  after_results_simp; exact half0_read _ (1 : Fin 4) _ rfl rfl rfl _ _

theorem p_wu1 : StableHlo.after (hostOps3 (F := Ideal)) V (Proc.devRef .tc main_v62)
    = half1 (V (Proc.devRef .tc main_arg5)) (1 : Fin 4) := by
  after_results_simp; exact half1_read _ (1 : Fin 4) _ rfl rfl rfl _ _

theorem p_bm : StableHlo.after (hostOps3 (F := Ideal)) V (Proc.devRef .tc main_v65)
    = rowOf (V (Proc.devRef .tc main_arg4)) (1 : Fin 4) := by
  after_results_simp; exact rowOf_read _ (1 : Fin 4) _ rfl rfl _ _ _

theorem p_bu : StableHlo.after (hostOps3 (F := Ideal)) V (Proc.devRef .tc main_v68)
    = rowOf (V (Proc.devRef .tc main_arg6)) (1 : Fin 4) := by
  after_results_simp; exact rowOf_read _ (1 : Fin 4) _ rfl rfl _ _ _

theorem p_a : StableHlo.after (hostOps3 (F := Ideal)) V (Proc.devRef .tc main_v71)
    = splatOf (V (Proc.devRef .tc main_arg7)) (1 : Fin 4) := by
  after_results_simp; exact splatOf_read _ (1 : Fin 4) _ rfl _ _ _ _

theorem p_gam : StableHlo.after (hostOps3 (F := Ideal)) V (Proc.devRef .tc main_v74)
    = rowOf (V (Proc.devRef .tc main_arg8)) (1 : Fin 4) := by
  after_results_simp; exact rowOf_read _ (1 : Fin 4) _ rfl rfl _ _ _

theorem p_bet : StableHlo.after (hostOps3 (F := Ideal)) V (Proc.devRef .tc main_v77)
    = rowOf (V (Proc.devRef .tc main_arg9)) (1 : Fin 4) := by
  after_results_simp; exact rowOf_read _ (1 : Fin 4) _ rfl rfl _ _ _

end Cert.KernelIdeal.Val.L1

end
-- ==== Proof.KLayer1b.lean ====
import proofs.«428660_j69922067578969_2_alg».proof.Proof.Gen.KernelIdeal.Launch
import proofs.«428660_j69922067578969_2_alg».proof.Proof.Take
import Idealize.ShloMosaic.Lib.StableHlo.Run

set_option maxRecDepth 16384

noncomputable section

namespace Cert.KernelIdeal.Val.L1

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrT1 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8,
   main_call2_v9, main_call2_v10, main_call2_v11, main_call2_c_3, main_call2_v12, main_call2_v13,
   main_call2_v14, main_call2_cst, main_call2_v15, main_v78]

theorem wrT1_sub :
    (hostOps3_1 (F := Ideal)).Forall fun op => op.writes ⊆ (wrT1.map (Proc.devRef (τ := τ) .tc)).toFinset := by
  simp only [hostOps3_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepT1 (r : Ref sig .tc) (h : r ∉ wrT1) :
    StableHlo.after (hostOps3_1 (F := Ideal)) V (Proc.devRef .tc r) = V (Proc.devRef .tc r) :=
  StableHlo.after_of_writes_sub _ V wrT1_sub h

abbrev wrT2 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8,
   main_call3_v9, main_call3_v10, main_call3_v11, main_call3_c_3, main_call3_v12, main_call3_v13,
   main_call3_v14, main_call3_cst, main_call3_v15, main_v79]

theorem wrT2_sub :
    (hostOps3_2 (F := Ideal)).Forall fun op => op.writes ⊆ (wrT2.map (Proc.devRef (τ := τ) .tc)).toFinset := by
  simp only [hostOps3_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepT2 (r : Ref sig .tc) (h : r ∉ wrT2) :
    StableHlo.after (hostOps3_2 (F := Ideal)) V (Proc.devRef .tc r) = V (Proc.devRef .tc r) :=
  StableHlo.after_of_writes_sub _ V wrT2_sub h

theorem cast_cast_id {α β : Type} (h₁ : α = β) (h₂ : β = α) (v : α) : cast h₂ (cast h₁ v) = v := by
  subst h₁; rfl

theorem toBuf_o1 (v : (⟨S800000x64, .f32⟩ : BufTy).Contents (Elt Ideal)) :
    (StableHlo.TRef.of main_v78 : StableHlo.TRef sig ⟨S800000x64, .f32⟩).toBuf v = v := rfl
theorem toBuf_o2 (v : (⟨S800000x64, .f32⟩ : BufTy).Contents (Elt Ideal)) :
    (StableHlo.TRef.of main_v79 : StableHlo.TRef sig ⟨S800000x64, .f32⟩).toBuf v = v := rfl
theorem ofBuf_h (v : (main_v54 : Ref sig .tc).ty.Contents (Elt Ideal)) :
    (StableHlo.TRef.of main_v54 : StableHlo.TRef sig ⟨S50000x64, .f32⟩).ofBuf v = v := rfl
theorem ofBuf_s (v : (main_v1 : Ref sig .tc).ty.Contents (Elt Ideal)) :
    (StableHlo.TRef.of main_v1 : StableHlo.TRef sig ⟨S800000, .i32⟩).ofBuf v = v := rfl
theorem ofBuf_d (v : (main_v3 : Ref sig .tc).ty.Contents (Elt Ideal)) :
    (StableHlo.TRef.of main_v3 : StableHlo.TRef sig ⟨S800000, .i32⟩).ofBuf v = v := rfl

theorem take1' : StableHlo.after (hostOps3_1 (F := Ideal)) V (Proc.devRef .tc main_v78)
    = (StableHlo.TRef.of main_v78 : StableHlo.TRef sig ⟨S800000x64, .f32⟩).toBuf
        (takeK ((StableHlo.TRef.of main_v54 : StableHlo.TRef sig ⟨S50000x64, .f32⟩).ofBuf (V (Proc.devRef .tc main_v54)))
          ((StableHlo.TRef.of main_v1 : StableHlo.TRef sig ⟨S800000, .i32⟩).ofBuf (V (Proc.devRef .tc main_v1)))) := by
  after_results_simp
  simp only [StableHlo.TRef.ofBuf, StableHlo.TRef.toBuf, cast_cast_id]
  unfold takeK Cert.Shared.wrap
  with_reducible rfl

theorem take1 : StableHlo.after (hostOps3_1 (F := Ideal)) V (Proc.devRef .tc main_v78)
    = takeK (V (Proc.devRef .tc main_v54)) (V (Proc.devRef .tc main_v1)) :=
  (take1' V).trans ((toBuf_o1 _).trans (congrArg₂ takeK (ofBuf_h _) (ofBuf_s _)))

theorem take2' : StableHlo.after (hostOps3_2 (F := Ideal)) V (Proc.devRef .tc main_v79)
    = (StableHlo.TRef.of main_v79 : StableHlo.TRef sig ⟨S800000x64, .f32⟩).toBuf
        (takeK ((StableHlo.TRef.of main_v54 : StableHlo.TRef sig ⟨S50000x64, .f32⟩).ofBuf (V (Proc.devRef .tc main_v54)))
          ((StableHlo.TRef.of main_v3 : StableHlo.TRef sig ⟨S800000, .i32⟩).ofBuf (V (Proc.devRef .tc main_v3)))) := by
  after_results_simp
  simp only [StableHlo.TRef.ofBuf, StableHlo.TRef.toBuf, cast_cast_id]
  unfold takeK Cert.Shared.wrap
  with_reducible rfl

theorem take2 : StableHlo.after (hostOps3_2 (F := Ideal)) V (Proc.devRef .tc main_v79)
    = takeK (V (Proc.devRef .tc main_v54)) (V (Proc.devRef .tc main_v3)) :=
  (take2' V).trans ((toBuf_o2 _).trans (congrArg₂ takeK (ofBuf_h _) (ofBuf_d _)))

end Cert.KernelIdeal.Val.L1

end
-- ==== Proof.KLayer1c.lean ====
import proofs.«428660_j69922067578969_2_alg».proof.Proof.Gen.KernelIdeal.Launch
import proofs.«428660_j69922067578969_2_alg».proof.Proof.Shared
import Idealize.ShloMosaic.Lib.StableHlo.Run

set_option maxRecDepth 16384

noncomputable section

namespace Cert.KernelIdeal.Val.L1

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrA : List (Ref sig .tc) :=
  [main_cst_7, main_v81, main_v82, main_v83, main_v84, main_v85]

theorem wrA_sub :
    (hostOps4 (F := Ideal)).Forall fun op => op.writes ⊆ (wrA.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepA (r : Ref sig .tc) (h : r ∉ wrA) :
    StableHlo.after (hostOps4 (F := Ideal)) V (Proc.devRef .tc r) = V (Proc.devRef .tc r) :=
  StableHlo.after_of_writes_sub _ V wrA_sub h

abbrev wrS : List (Ref sig .tc) :=
  [main_cst_8, main_v87, main_v88, main_cst_9, main_v89, main_v90, main_v91, main_v92, main_cst_10,
   main_v93, main_v94, main_cst_11, main_v95, main_v96, main_v97]

theorem wrS_sub :
    (hostOps5 (F := Ideal)).Forall fun op => op.writes ⊆ (wrS.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepS (r : Ref sig .tc) (h : r ∉ wrS) :
    StableHlo.after (hostOps5 (F := Ideal)) V (Proc.devRef .tc r) = V (Proc.devRef .tc r) :=
  StableHlo.after_of_writes_sub _ V wrS_sub h

theorem aggr (ei : IVec S2x800000 32) (hd : V (Proc.devRef .tc main_v3) = Cert.Shared.dst ei)
    (hg : V (Proc.devRef .tc main_v10) = Cert.Shared.deg ei) :
    StableHlo.after (hostOps4 (F := Ideal)) V (Proc.devRef .tc main_v85)
      = Cert.Shared.agg ei (V (Proc.devRef .tc main_v80)) := by
  after_results
  rw [hd, hg]
  rfl

theorem mean : StableHlo.after (hostOps5 (F := Ideal)) V (Proc.devRef .tc main_v88)
    = meanOf (V (Proc.devRef .tc main_v86_0)) := by
  after_results
  rfl

theorem istd : StableHlo.after (hostOps5 (F := Ideal)) V (Proc.devRef .tc main_v97)
    = invstdOf (varK (V (Proc.devRef .tc main_v86_0)) (V (Proc.devRef .tc main_v86_1))) := by
  after_results
  rfl

end Cert.KernelIdeal.Val.L1

end
-- ==== Proof.KLayer1.lean ====
import proofs.«428660_j69922067578969_2_alg».proof.Proof.Gen.KernelIdeal.Frame
import proofs.«428660_j69922067578969_2_alg».proof.Proof.KLive
import proofs.«428660_j69922067578969_2_alg».proof.Proof.KMsg3
import proofs.«428660_j69922067578969_2_alg».proof.Proof.KStats4
import proofs.«428660_j69922067578969_2_alg».proof.Proof.KNorm5
import proofs.«428660_j69922067578969_2_alg».proof.Proof.KLayer1a
import proofs.«428660_j69922067578969_2_alg».proof.Proof.KLayer1b
import proofs.«428660_j69922067578969_2_alg».proof.Proof.KLayer1c

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.Spec

namespace L1

abbrev pWm0 (m : Mem) (c : Dev nD) : A2 64 64 := half0 (m ((c : Thread nD τ).loc main_arg3)) (1 : Fin 4)
abbrev pWm1 (m : Mem) (c : Dev nD) : A2 64 64 := half1 (m ((c : Thread nD τ).loc main_arg3)) (1 : Fin 4)
abbrev pBm (m : Mem) (c : Dev nD) : A2 1 64 := rowOf (m ((c : Thread nD τ).loc main_arg4)) (1 : Fin 4)
abbrev pWu0 (m : Mem) (c : Dev nD) : A2 64 64 := half0 (m ((c : Thread nD τ).loc main_arg5)) (1 : Fin 4)
abbrev pWu1 (m : Mem) (c : Dev nD) : A2 64 64 := half1 (m ((c : Thread nD τ).loc main_arg5)) (1 : Fin 4)
abbrev pBu (m : Mem) (c : Dev nD) : A2 1 64 := rowOf (m ((c : Thread nD τ).loc main_arg6)) (1 : Fin 4)
abbrev pA (m : Mem) (c : Dev nD) : A2 1 64 := splatOf (m ((c : Thread nD τ).loc main_arg7)) (1 : Fin 4)
abbrev pGam (m : Mem) (c : Dev nD) : A2 1 64 := rowOf (m ((c : Thread nD τ).loc main_arg8)) (1 : Fin 4)
abbrev pBet (m : Mem) (c : Dev nD) : A2 1 64 := rowOf (m ((c : Thread nD τ).loc main_arg9)) (1 : Fin 4)

abbrev xGs (m : Mem) (c : Dev nD) (H : A2 50000 64) : A2 800000 64 := Cert.Shared.gat (Cert.Shared.src (m ((c : Thread nD τ).loc main_arg1))) H
abbrev xGd (m : Mem) (c : Dev nD) (H : A2 50000 64) : A2 800000 64 := Cert.Shared.gat (Cert.Shared.dst (m ((c : Thread nD τ).loc main_arg1))) H

abbrev xMsg (m : Mem) (c : Dev nD) (H : A2 50000 64) : A2 800000 64 := msgLoc (xGs m c H) (xGd m c H) (pWm0 m c) (pWm1 m c) (pBm m c)
abbrev xAgg (m : Mem) (c : Dev nD) (H : A2 50000 64) : A2 50000 64 := Cert.Shared.agg (m ((c : Thread nD τ).loc main_arg1)) (xMsg m c H)
abbrev xUpd (m : Mem) (c : Dev nD) (H : A2 50000 64) : A2 50000 64 := uLoc H (xAgg m c H) (pWu0 m c) (pWu1 m c) (pBu m c) (pA m c)
abbrev xSum (m : Mem) (c : Dev nD) (H : A2 50000 64) : A2 1 64 := colSum (xUpd m c H)
abbrev xSq (m : Mem) (c : Dev nD) (H : A2 50000 64) : A2 1 64 := colSum (sq (xUpd m c H))
abbrev xMean (m : Mem) (c : Dev nD) (H : A2 50000 64) : A2 1 64 := meanOf (xSum m c H)
abbrev xIstd (m : Mem) (c : Dev nD) (H : A2 50000 64) : A2 1 64 := invstdOf (varK (xSum m c H) (xSq m c H))

abbrev xOut (m : Mem) (c : Dev nD) (H : A2 50000 64) : A2 50000 64 :=
  normLoc H (xAgg m c H) (pWu0 m c) (pWu1 m c) (pBu m c) (pA m c) (xMean m c H) (xIstd m c H) (pGam m c) (pBet m c)

theorem xOut_eq (m : Mem) (c : Dev nD) (H : A2 50000 64) : xOut m c H = layerOf m c (1 : Fin 4) H := rfl

section Keeps

variable (m : Mem) (ρ : Dev nD → PrngReg) (c : Dev nD)

theorem kP (r : Ref sig .tc) (h : r ∉ wrP) : W9 m ρ c (Proc.devRef .tc r) = W8 m ρ c (Proc.devRef .tc r) := keepP _ r h
theorem kT1 (r : Ref sig .tc) (h : r ∉ wrT1) : W10 m ρ c (Proc.devRef .tc r) = W9 m ρ c (Proc.devRef .tc r) := keepT1 _ r h
theorem kT2 (r : Ref sig .tc) (h : r ∉ wrT2) : W11 m ρ c (Proc.devRef .tc r) = W10 m ρ c (Proc.devRef .tc r) := keepT2 _ r h
theorem kA (r : Ref sig .tc) (h : r ∉ wrA) : W13 m ρ c (Proc.devRef .tc r) = W12 m ρ c (Proc.devRef .tc r) := keepA _ r h
theorem kQ (r : Ref sig .tc) (h : r ∉ wrS) : W15 m ρ c (Proc.devRef .tc r) = W14 m ρ c (Proc.devRef .tc r) := keepS _ r h

theorem inM : ∀ w : Fin 6, Pipeline.arrRef spec3 w ≠ main_v80 →
    W12 m ρ c (Proc.devRef .tc (Pipeline.arrRef spec3 w)) = W11 m ρ c (Proc.devRef .tc (Pipeline.arrRef spec3 w))
  | 0, _ => (W12_arr m ρ c 0).trans (((dat3 (V11 m ρ) c).arrAt_in 0 rfl _).trans (A_eq3 (V11 m ρ) c 0))
  | 1, _ => (W12_arr m ρ c 1).trans (((dat3 (V11 m ρ) c).arrAt_in 1 rfl _).trans (A_eq3 (V11 m ρ) c 1))
  | 2, _ => (W12_arr m ρ c 2).trans (((dat3 (V11 m ρ) c).arrAt_in 2 rfl _).trans (A_eq3 (V11 m ρ) c 2))
  | 3, _ => (W12_arr m ρ c 3).trans (((dat3 (V11 m ρ) c).arrAt_in 3 rfl _).trans (A_eq3 (V11 m ρ) c 3))
  | 4, _ => (W12_arr m ρ c 4).trans (((dat3 (V11 m ρ) c).arrAt_in 4 rfl _).trans (A_eq3 (V11 m ρ) c 4))
  | 5, h => absurd rfl h
  | ⟨_ + 6, hlt⟩, _ => absurd hlt (by omega)

theorem kM (r : Ref sig .tc) (h0 : r ≠ main_v80) :
    W12 m ρ c (Proc.devRef .tc r) = W11 m ρ c (Proc.devRef .tc r) := by
  by_cases hw : ∃ w, Pipeline.arrRef spec3 w = r
  · obtain ⟨w, rfl⟩ := hw
    exact inM m ρ c w h0
  · exact W12_of_ne m ρ c r fun w e => hw ⟨w, e⟩

theorem inS : ∀ w : Fin 8, Pipeline.arrRef spec4 w ≠ main_v86_0 → Pipeline.arrRef spec4 w ≠ main_v86_1 →
    W14 m ρ c (Proc.devRef .tc (Pipeline.arrRef spec4 w)) = W13 m ρ c (Proc.devRef .tc (Pipeline.arrRef spec4 w))
  | 0, _, _ => (W14_arr m ρ c 0).trans (((dat4 (V13 m ρ) c).arrAt_in 0 rfl _).trans (A_eq4 (V13 m ρ) c 0))
  | 1, _, _ => (W14_arr m ρ c 1).trans (((dat4 (V13 m ρ) c).arrAt_in 1 rfl _).trans (A_eq4 (V13 m ρ) c 1))
  | 2, _, _ => (W14_arr m ρ c 2).trans (((dat4 (V13 m ρ) c).arrAt_in 2 rfl _).trans (A_eq4 (V13 m ρ) c 2))
  | 3, _, _ => (W14_arr m ρ c 3).trans (((dat4 (V13 m ρ) c).arrAt_in 3 rfl _).trans (A_eq4 (V13 m ρ) c 3))
  | 4, _, _ => (W14_arr m ρ c 4).trans (((dat4 (V13 m ρ) c).arrAt_in 4 rfl _).trans (A_eq4 (V13 m ρ) c 4))
  | 5, _, _ => (W14_arr m ρ c 5).trans (((dat4 (V13 m ρ) c).arrAt_in 5 rfl _).trans (A_eq4 (V13 m ρ) c 5))
  | 6, h, _ => absurd rfl h
  | 7, _, h => absurd rfl h
  | ⟨_ + 8, hlt⟩, _, _ => absurd hlt (by omega)

theorem kS (r : Ref sig .tc) (h0 : r ≠ main_v86_0) (h1 : r ≠ main_v86_1) :
    W14 m ρ c (Proc.devRef .tc r) = W13 m ρ c (Proc.devRef .tc r) := by
  by_cases hw : ∃ w, Pipeline.arrRef spec4 w = r
  · obtain ⟨w, rfl⟩ := hw
    exact inS m ρ c w h0 h1
  · exact W14_of_ne m ρ c r fun w e => hw ⟨w, e⟩

theorem inN : ∀ w : Fin 11, Pipeline.arrRef spec5 w ≠ main_v98 →
    W16 m ρ c (Proc.devRef .tc (Pipeline.arrRef spec5 w)) = W15 m ρ c (Proc.devRef .tc (Pipeline.arrRef spec5 w))
  | 0, _ => (W16_arr m ρ c 0).trans (((dat5 (V15 m ρ) c).arrAt_in 0 rfl _).trans (A_eq5 (V15 m ρ) c 0))
  | 1, _ => (W16_arr m ρ c 1).trans (((dat5 (V15 m ρ) c).arrAt_in 1 rfl _).trans (A_eq5 (V15 m ρ) c 1))
  | 2, _ => (W16_arr m ρ c 2).trans (((dat5 (V15 m ρ) c).arrAt_in 2 rfl _).trans (A_eq5 (V15 m ρ) c 2))
  | 3, _ => (W16_arr m ρ c 3).trans (((dat5 (V15 m ρ) c).arrAt_in 3 rfl _).trans (A_eq5 (V15 m ρ) c 3))
  | 4, _ => (W16_arr m ρ c 4).trans (((dat5 (V15 m ρ) c).arrAt_in 4 rfl _).trans (A_eq5 (V15 m ρ) c 4))
  | 5, _ => (W16_arr m ρ c 5).trans (((dat5 (V15 m ρ) c).arrAt_in 5 rfl _).trans (A_eq5 (V15 m ρ) c 5))
  | 6, _ => (W16_arr m ρ c 6).trans (((dat5 (V15 m ρ) c).arrAt_in 6 rfl _).trans (A_eq5 (V15 m ρ) c 6))
  | 7, _ => (W16_arr m ρ c 7).trans (((dat5 (V15 m ρ) c).arrAt_in 7 rfl _).trans (A_eq5 (V15 m ρ) c 7))
  | 8, _ => (W16_arr m ρ c 8).trans (((dat5 (V15 m ρ) c).arrAt_in 8 rfl _).trans (A_eq5 (V15 m ρ) c 8))
  | 9, _ => (W16_arr m ρ c 9).trans (((dat5 (V15 m ρ) c).arrAt_in 9 rfl _).trans (A_eq5 (V15 m ρ) c 9))
  | 10, h => absurd rfl h
  | ⟨_ + 11, hlt⟩, _ => absurd hlt (by omega)

theorem kN (r : Ref sig .tc) (h0 : r ≠ main_v98) :
    W16 m ρ c (Proc.devRef .tc r) = W15 m ρ c (Proc.devRef .tc r) := by
  by_cases hw : ∃ w, Pipeline.arrRef spec5 w = r
  · obtain ⟨w, rfl⟩ := hw
    exact inN m ρ c w h0
  · exact W16_of_ne m ρ c r fun w e => hw ⟨w, e⟩

theorem kAll (r : Ref sig .tc) (hP : r ∉ wrP) (hT1 : r ∉ wrT1) (hT2 : r ∉ wrT2) (hM : r ≠ main_v80) (hA : r ∉ wrA)
    (hS0 : r ≠ main_v86_0) (hS1 : r ≠ main_v86_1) (hS : r ∉ wrS) (hN : r ≠ main_v98) :
    W16 m ρ c (Proc.devRef .tc r) = W8 m ρ c (Proc.devRef .tc r) :=
  (kN m ρ c r hN).trans <| (kQ m ρ c r hS).trans <| (kS m ρ c r hS0 hS1).trans <| (kA m ρ c r hA).trans <|
    (kM m ρ c r hM).trans <| (kT2 m ρ c r hT2).trans <| (kT1 m ρ c r hT1).trans (kP m ρ c r hP)

theorem liveN (L : Live m c (W8 m ρ c)) : Live m c (W16 m ρ c) where
  a0 := (kAll m ρ c main_arg0 (by decide) (by decide) (by decide) (by decide) (by decide) (by decide) (by decide) (by decide) (by decide)).trans L.a0
  a1 := (kAll m ρ c main_arg1 (by decide) (by decide) (by decide) (by decide) (by decide) (by decide) (by decide) (by decide) (by decide)).trans L.a1
  a2 := (kAll m ρ c main_arg2 (by decide) (by decide) (by decide) (by decide) (by decide) (by decide) (by decide) (by decide) (by decide)).trans L.a2
  a3 := (kAll m ρ c main_arg3 (by decide) (by decide) (by decide) (by decide) (by decide) (by decide) (by decide) (by decide) (by decide)).trans L.a3
  a4 := (kAll m ρ c main_arg4 (by decide) (by decide) (by decide) (by decide) (by decide) (by decide) (by decide) (by decide) (by decide)).trans L.a4
  a5 := (kAll m ρ c main_arg5 (by decide) (by decide) (by decide) (by decide) (by decide) (by decide) (by decide) (by decide) (by decide)).trans L.a5
  a6 := (kAll m ρ c main_arg6 (by decide) (by decide) (by decide) (by decide) (by decide) (by decide) (by decide) (by decide) (by decide)).trans L.a6
  a7 := (kAll m ρ c main_arg7 (by decide) (by decide) (by decide) (by decide) (by decide) (by decide) (by decide) (by decide) (by decide)).trans L.a7
  a8 := (kAll m ρ c main_arg8 (by decide) (by decide) (by decide) (by decide) (by decide) (by decide) (by decide) (by decide) (by decide)).trans L.a8
  a9 := (kAll m ρ c main_arg9 (by decide) (by decide) (by decide) (by decide) (by decide) (by decide) (by decide) (by decide) (by decide)).trans L.a9
  a10 := (kAll m ρ c main_arg10 (by decide) (by decide) (by decide) (by decide) (by decide) (by decide) (by decide) (by decide) (by decide)).trans L.a10
  a11 := (kAll m ρ c main_arg11 (by decide) (by decide) (by decide) (by decide) (by decide) (by decide) (by decide) (by decide) (by decide)).trans L.a11
  a12 := (kAll m ρ c main_arg12 (by decide) (by decide) (by decide) (by decide) (by decide) (by decide) (by decide) (by decide) (by decide)).trans L.a12
  a13 := (kAll m ρ c main_arg13 (by decide) (by decide) (by decide) (by decide) (by decide) (by decide) (by decide) (by decide) (by decide)).trans L.a13
  src := (kAll m ρ c main_v1 (by decide) (by decide) (by decide) (by decide) (by decide) (by decide) (by decide) (by decide) (by decide)).trans L.src
  dst := (kAll m ρ c main_v3 (by decide) (by decide) (by decide) (by decide) (by decide) (by decide) (by decide) (by decide) (by decide)).trans L.dst
  deg := (kAll m ρ c main_v10 (by decide) (by decide) (by decide) (by decide) (by decide) (by decide) (by decide) (by decide) (by decide)).trans L.deg

end Keeps

section Values

variable {m : Mem} {ρ : Dev nD → PrngReg} {c : Dev nD} {H : A2 50000 64}

theorem atP_h (hH : W8 m ρ c (Proc.devRef .tc main_v54) = H) : W9 m ρ c (Proc.devRef .tc main_v54) = H :=
  (kP m ρ c main_v54 (by decide)).trans hH
theorem atP_src (L : Live m c (W8 m ρ c)) : W9 m ρ c (Proc.devRef .tc main_v1) = Cert.Shared.src (m ((c : Thread nD τ).loc main_arg1)) :=
  (kP m ρ c main_v1 (by decide)).trans L.src
theorem atP_dst (L : Live m c (W8 m ρ c)) : W9 m ρ c (Proc.devRef .tc main_v3) = Cert.Shared.dst (m ((c : Thread nD τ).loc main_arg1)) :=
  (kP m ρ c main_v3 (by decide)).trans L.dst
theorem atP_deg (L : Live m c (W8 m ρ c)) : W9 m ρ c (Proc.devRef .tc main_v10) = Cert.Shared.deg (m ((c : Thread nD τ).loc main_arg1)) :=
  (kP m ρ c main_v10 (by decide)).trans L.deg
theorem atP_wm0 (L : Live m c (W8 m ρ c)) : W9 m ρ c (Proc.devRef .tc main_v56) = pWm0 m c :=
  (p_wm0 (W8 m ρ c)).trans (by rw [L.a3])
theorem atP_wm1 (L : Live m c (W8 m ρ c)) : W9 m ρ c (Proc.devRef .tc main_v58) = pWm1 m c :=
  (p_wm1 (W8 m ρ c)).trans (by rw [L.a3])
theorem atP_wu0 (L : Live m c (W8 m ρ c)) : W9 m ρ c (Proc.devRef .tc main_v60) = pWu0 m c :=
  (p_wu0 (W8 m ρ c)).trans (by rw [L.a5])
theorem atP_wu1 (L : Live m c (W8 m ρ c)) : W9 m ρ c (Proc.devRef .tc main_v62) = pWu1 m c :=
  (p_wu1 (W8 m ρ c)).trans (by rw [L.a5])
theorem atP_bm (L : Live m c (W8 m ρ c)) : W9 m ρ c (Proc.devRef .tc main_v65) = pBm m c :=
  (p_bm (W8 m ρ c)).trans (by rw [L.a4])
theorem atP_bu (L : Live m c (W8 m ρ c)) : W9 m ρ c (Proc.devRef .tc main_v68) = pBu m c :=
  (p_bu (W8 m ρ c)).trans (by rw [L.a6])
theorem atP_a (L : Live m c (W8 m ρ c)) : W9 m ρ c (Proc.devRef .tc main_v71) = pA m c :=
  (p_a (W8 m ρ c)).trans (by rw [L.a7])
theorem atP_gam (L : Live m c (W8 m ρ c)) : W9 m ρ c (Proc.devRef .tc main_v74) = pGam m c :=
  (p_gam (W8 m ρ c)).trans (by rw [L.a8])
theorem atP_bet (L : Live m c (W8 m ρ c)) : W9 m ρ c (Proc.devRef .tc main_v77) = pBet m c :=
  (p_bet (W8 m ρ c)).trans (by rw [L.a9])

theorem atT1_gs (hr : InRange m c) (L : Live m c (W8 m ρ c)) (hH : W8 m ρ c (Proc.devRef .tc main_v54) = H) :
    W10 m ρ c (Proc.devRef .tc main_v78) = xGs m c H :=
  (take1 (W9 m ρ c)).trans (by rw [atP_h hH, atP_src L]; exact takeK_src H _ hr)
theorem atT1_h (hH : W8 m ρ c (Proc.devRef .tc main_v54) = H) : W10 m ρ c (Proc.devRef .tc main_v54) = H :=
  (kT1 m ρ c main_v54 (by decide)).trans (atP_h hH)
theorem atT1_dst (L : Live m c (W8 m ρ c)) : W10 m ρ c (Proc.devRef .tc main_v3) = Cert.Shared.dst (m ((c : Thread nD τ).loc main_arg1)) :=
  (kT1 m ρ c main_v3 (by decide)).trans (atP_dst L)
theorem atT2_gd (hr : InRange m c) (L : Live m c (W8 m ρ c)) (hH : W8 m ρ c (Proc.devRef .tc main_v54) = H) :
    W11 m ρ c (Proc.devRef .tc main_v79) = xGd m c H :=
  (take2 (W10 m ρ c)).trans (by rw [atT1_h hH, atT1_dst L]; exact takeK_dst H _ hr)
theorem atT2_gs (hr : InRange m c) (L : Live m c (W8 m ρ c)) (hH : W8 m ρ c (Proc.devRef .tc main_v54) = H) :
    W11 m ρ c (Proc.devRef .tc main_v78) = xGs m c H :=
  (kT2 m ρ c main_v78 (by decide)).trans (atT1_gs hr L hH)
theorem atT2_wm0 (L : Live m c (W8 m ρ c)) : W11 m ρ c (Proc.devRef .tc main_v56) = pWm0 m c :=
  (kT2 m ρ c main_v56 (by decide)).trans <| (kT1 m ρ c main_v56 (by decide)).trans <| atP_wm0 L
theorem atT2_wm1 (L : Live m c (W8 m ρ c)) : W11 m ρ c (Proc.devRef .tc main_v58) = pWm1 m c :=
  (kT2 m ρ c main_v58 (by decide)).trans <| (kT1 m ρ c main_v58 (by decide)).trans <| atP_wm1 L
theorem atT2_bm (L : Live m c (W8 m ρ c)) : W11 m ρ c (Proc.devRef .tc main_v65) = pBm m c :=
  (kT2 m ρ c main_v65 (by decide)).trans <| (kT1 m ρ c main_v65 (by decide)).trans <| atP_bm L

theorem atM_msg (hr : InRange m c) (L : Live m c (W8 m ρ c)) (hH : W8 m ρ c (Proc.devRef .tc main_v54) = H) :
    W12 m ρ c (Proc.devRef .tc main_v80) = xMsg m c H := by
  refine ((W12_arr m ρ c 5).trans (msg3 (V11 m ρ) c)).trans ?_
  show msgLoc (W11 m ρ c (Proc.devRef .tc main_v78)) (W11 m ρ c (Proc.devRef .tc main_v79)) (W11 m ρ c (Proc.devRef .tc main_v56))
    (W11 m ρ c (Proc.devRef .tc main_v58)) (W11 m ρ c (Proc.devRef .tc main_v65)) = _
  rw [atT2_gs hr L hH, atT2_gd hr L hH, atT2_wm0 L, atT2_wm1 L, atT2_bm L]
theorem atM_dst (L : Live m c (W8 m ρ c)) : W12 m ρ c (Proc.devRef .tc main_v3) = Cert.Shared.dst (m ((c : Thread nD τ).loc main_arg1)) :=
  (kM m ρ c main_v3 (by decide)).trans <| (kT2 m ρ c main_v3 (by decide)).trans <| atT1_dst L
theorem atM_deg (L : Live m c (W8 m ρ c)) : W12 m ρ c (Proc.devRef .tc main_v10) = Cert.Shared.deg (m ((c : Thread nD τ).loc main_arg1)) :=
  (kM m ρ c main_v10 (by decide)).trans <| (kT2 m ρ c main_v10 (by decide)).trans <| (kT1 m ρ c main_v10 (by decide)).trans <| atP_deg L

theorem atA_agg (hr : InRange m c) (L : Live m c (W8 m ρ c)) (hH : W8 m ρ c (Proc.devRef .tc main_v54) = H) :
    W13 m ρ c (Proc.devRef .tc main_v85) = xAgg m c H :=
  (aggr (W12 m ρ c) (m ((c : Thread nD τ).loc main_arg1)) (atM_dst L) (atM_deg L)).trans (by rw [atM_msg hr L hH])
theorem atA_h (hH : W8 m ρ c (Proc.devRef .tc main_v54) = H) : W13 m ρ c (Proc.devRef .tc main_v54) = H :=
  (kA m ρ c main_v54 (by decide)).trans <| (kM m ρ c main_v54 (by decide)).trans <| (kT2 m ρ c main_v54 (by decide)).trans <| atT1_h hH
theorem atA_wu0 (L : Live m c (W8 m ρ c)) : W13 m ρ c (Proc.devRef .tc main_v60) = pWu0 m c :=
  (kA m ρ c main_v60 (by decide)).trans <| (kM m ρ c main_v60 (by decide)).trans <| (kT2 m ρ c main_v60 (by decide)).trans <| (kT1 m ρ c main_v60 (by decide)).trans <| atP_wu0 L
theorem atA_wu1 (L : Live m c (W8 m ρ c)) : W13 m ρ c (Proc.devRef .tc main_v62) = pWu1 m c :=
  (kA m ρ c main_v62 (by decide)).trans <| (kM m ρ c main_v62 (by decide)).trans <| (kT2 m ρ c main_v62 (by decide)).trans <| (kT1 m ρ c main_v62 (by decide)).trans <| atP_wu1 L
theorem atA_bu (L : Live m c (W8 m ρ c)) : W13 m ρ c (Proc.devRef .tc main_v68) = pBu m c :=
  (kA m ρ c main_v68 (by decide)).trans <| (kM m ρ c main_v68 (by decide)).trans <| (kT2 m ρ c main_v68 (by decide)).trans <| (kT1 m ρ c main_v68 (by decide)).trans <| atP_bu L
theorem atA_a (L : Live m c (W8 m ρ c)) : W13 m ρ c (Proc.devRef .tc main_v71) = pA m c :=
  (kA m ρ c main_v71 (by decide)).trans <| (kM m ρ c main_v71 (by decide)).trans <| (kT2 m ρ c main_v71 (by decide)).trans <| (kT1 m ρ c main_v71 (by decide)).trans <| atP_a L

theorem atS_sum (hr : InRange m c) (L : Live m c (W8 m ρ c)) (hH : W8 m ρ c (Proc.devRef .tc main_v54) = H) :
    W14 m ρ c (Proc.devRef .tc main_v86_0) = xSum m c H := by
  refine ((W14_arr m ρ c 6).trans (sum4 (V13 m ρ) c)).trans ?_
  show colSum (uLoc (W13 m ρ c (Proc.devRef .tc main_v54)) (W13 m ρ c (Proc.devRef .tc main_v85)) (W13 m ρ c (Proc.devRef .tc main_v60))
    (W13 m ρ c (Proc.devRef .tc main_v62)) (W13 m ρ c (Proc.devRef .tc main_v68)) (W13 m ρ c (Proc.devRef .tc main_v71))) = _
  rw [atA_h hH, atA_agg hr L hH, atA_wu0 L, atA_wu1 L, atA_bu L, atA_a L]
theorem atS_sq (hr : InRange m c) (L : Live m c (W8 m ρ c)) (hH : W8 m ρ c (Proc.devRef .tc main_v54) = H) :
    W14 m ρ c (Proc.devRef .tc main_v86_1) = xSq m c H := by
  refine ((W14_arr m ρ c 7).trans (sumsq4 (V13 m ρ) c)).trans ?_
  show colSum (sq (uLoc (W13 m ρ c (Proc.devRef .tc main_v54)) (W13 m ρ c (Proc.devRef .tc main_v85)) (W13 m ρ c (Proc.devRef .tc main_v60))
    (W13 m ρ c (Proc.devRef .tc main_v62)) (W13 m ρ c (Proc.devRef .tc main_v68)) (W13 m ρ c (Proc.devRef .tc main_v71)))) = _
  rw [atA_h hH, atA_agg hr L hH, atA_wu0 L, atA_wu1 L, atA_bu L, atA_a L]

theorem atQ_mean (hr : InRange m c) (L : Live m c (W8 m ρ c)) (hH : W8 m ρ c (Proc.devRef .tc main_v54) = H) :
    W15 m ρ c (Proc.devRef .tc main_v88) = xMean m c H :=
  (mean (W14 m ρ c)).trans (by rw [atS_sum hr L hH])
theorem atQ_istd (hr : InRange m c) (L : Live m c (W8 m ρ c)) (hH : W8 m ρ c (Proc.devRef .tc main_v54) = H) :
    W15 m ρ c (Proc.devRef .tc main_v97) = xIstd m c H :=
  (istd (W14 m ρ c)).trans (by rw [atS_sum hr L hH, atS_sq hr L hH])
theorem atQ_h (hH : W8 m ρ c (Proc.devRef .tc main_v54) = H) : W15 m ρ c (Proc.devRef .tc main_v54) = H :=
  (kQ m ρ c main_v54 (by decide)).trans <| (kS m ρ c main_v54 (by decide) (by decide)).trans <| atA_h hH
theorem atQ_agg (hr : InRange m c) (L : Live m c (W8 m ρ c)) (hH : W8 m ρ c (Proc.devRef .tc main_v54) = H) :
    W15 m ρ c (Proc.devRef .tc main_v85) = xAgg m c H :=
  (kQ m ρ c main_v85 (by decide)).trans <| (kS m ρ c main_v85 (by decide) (by decide)).trans <| atA_agg hr L hH
theorem atQ_wu0 (L : Live m c (W8 m ρ c)) : W15 m ρ c (Proc.devRef .tc main_v60) = pWu0 m c :=
  (kQ m ρ c main_v60 (by decide)).trans <| (kS m ρ c main_v60 (by decide) (by decide)).trans <| atA_wu0 L
theorem atQ_wu1 (L : Live m c (W8 m ρ c)) : W15 m ρ c (Proc.devRef .tc main_v62) = pWu1 m c :=
  (kQ m ρ c main_v62 (by decide)).trans <| (kS m ρ c main_v62 (by decide) (by decide)).trans <| atA_wu1 L
theorem atQ_bu (L : Live m c (W8 m ρ c)) : W15 m ρ c (Proc.devRef .tc main_v68) = pBu m c :=
  (kQ m ρ c main_v68 (by decide)).trans <| (kS m ρ c main_v68 (by decide) (by decide)).trans <| atA_bu L
theorem atQ_a (L : Live m c (W8 m ρ c)) : W15 m ρ c (Proc.devRef .tc main_v71) = pA m c :=
  (kQ m ρ c main_v71 (by decide)).trans <| (kS m ρ c main_v71 (by decide) (by decide)).trans <| atA_a L
theorem atQ_gam (L : Live m c (W8 m ρ c)) : W15 m ρ c (Proc.devRef .tc main_v74) = pGam m c :=
  (kQ m ρ c main_v74 (by decide)).trans <| (kS m ρ c main_v74 (by decide) (by decide)).trans <| (kA m ρ c main_v74 (by decide)).trans <| (kM m ρ c main_v74 (by decide)).trans <| (kT2 m ρ c main_v74 (by decide)).trans <| (kT1 m ρ c main_v74 (by decide)).trans <| atP_gam L
theorem atQ_bet (L : Live m c (W8 m ρ c)) : W15 m ρ c (Proc.devRef .tc main_v77) = pBet m c :=
  (kQ m ρ c main_v77 (by decide)).trans <| (kS m ρ c main_v77 (by decide) (by decide)).trans <| (kA m ρ c main_v77 (by decide)).trans <| (kM m ρ c main_v77 (by decide)).trans <| (kT2 m ρ c main_v77 (by decide)).trans <| (kT1 m ρ c main_v77 (by decide)).trans <| atP_bet L

theorem atN_out (hr : InRange m c) (L : Live m c (W8 m ρ c)) (hH : W8 m ρ c (Proc.devRef .tc main_v54) = H) :
    W16 m ρ c (Proc.devRef .tc main_v98) = xOut m c H := by
  refine ((W16_arr m ρ c 10).trans (norm5 (V15 m ρ) c)).trans ?_
  show normLoc (W15 m ρ c (Proc.devRef .tc main_v54)) (W15 m ρ c (Proc.devRef .tc main_v85)) (W15 m ρ c (Proc.devRef .tc main_v60))
    (W15 m ρ c (Proc.devRef .tc main_v62)) (W15 m ρ c (Proc.devRef .tc main_v68)) (W15 m ρ c (Proc.devRef .tc main_v71))
    (W15 m ρ c (Proc.devRef .tc main_v88)) (W15 m ρ c (Proc.devRef .tc main_v97)) (W15 m ρ c (Proc.devRef .tc main_v74))
    (W15 m ρ c (Proc.devRef .tc main_v77)) = _
  rw [atQ_h hH, atQ_agg hr L hH, atQ_wu0 L, atQ_wu1 L, atQ_bu L, atQ_a L, atQ_mean hr L hH, atQ_istd hr L hH,
    atQ_gam L, atQ_bet L]

end Values

end L1

theorem layer1 (m : Mem) (ρ : Dev nD → PrngReg) (c : Dev nD) (hr : InRange m c) (H : A2 50000 64)
    (L : Live m c (W8 m ρ c)) (hH : W8 m ρ c (Proc.devRef .tc main_v54) = H) :
    Live m c (W16 m ρ c) ∧ W16 m ρ c (Proc.devRef .tc main_v98) = layerOf m c (1 : Fin 4) H :=
  ⟨L1.liveN m ρ c L, (L1.atN_out hr L hH).trans (L1.xOut_eq m c H)⟩

end Cert.KernelIdeal.Val

end
-- ==== Proof.KMsg6.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx

theorem msg6_dot (lhs : FVec Ideal S8000x64 .bf16) (rhs : FVec Ideal S64x64 .bf16) (p : Fin 8000) (q : Fin 64) :
    matmul dot_S8000x64_S64x64_S8000x64_1_0_0_1_n_n none lhs rhs (constant S8000x64 .f32 0x00000000#32) (ix2 p q)
      = ∑ k : Fin 64, lhs (ix2 p k) * rhs (ix2 k q) :=
  Cert.LibPlainDot.matmul_zero_apply dot_S8000x64_S64x64_S8000x64_1_0_0_1_n_n rfl rfl rfl rfl rfl rfl none lhs rhs p q

theorem msg6_pay (x0 x1 : Vec Ideal S8000x64 .f32) (x2 x3 : Vec Ideal S64x64 .f32) (x4 : Vec Ideal S1x64 .f32)
    (p : Fin 8000) (q : Fin 64) :
    k6_pay1 x0 x1 x2 x3 x4 (ix2 p q)
      = max (((∑ k : Fin 64, x0 (ix2 p k) * x2 (ix2 k q)) + (∑ k : Fin 64, x1 (ix2 p k) * x3 (ix2 k q))) + x4 (ix2 0 q)) zeroE := by
  unfold k6_pay1
  simp only [shapeCast_self]
  exact congrArg₂ max (congrArg₂ (· + ·) (congrArg₂ (· + ·) (msg6_dot _ _ p q) (msg6_dot _ _ p q))
    (broadcastTo_1b_ab_apply x4 _ p q)) rfl

theorem msg6_block (X Y : A2 800000 64) (W0 W1 : A2 64 64) (B : A2 1 64)
    (x0 x1 : Vec Ideal S8000x64 .f32) (x2 x3 : Vec Ideal S64x64 .f32) (x4 : Vec Ideal S1x64 .f32)
    (r : Fin 800000) (p : Fin 8000) (q : Fin 64)
    (h0 : ∀ k : Fin 64, x0 (ix2 p k) = X (ix2 r k)) (h1 : ∀ k : Fin 64, x1 (ix2 p k) = Y (ix2 r k))
    (h2 : x2 = W0) (h3 : x3 = W1) (h4 : x4 = B) :
    k6_pay1 x0 x1 x2 x3 x4 (ix2 p q) = msgLoc X Y W0 W1 B (ix2 r q) := by
  subst h2 h3 h4
  rw [msg6_pay]
  simp only [h0, h1]
  rfl

theorem msg6_hz : (![0, 0] : Fin 2 → Nat) = fun _ => 0 := funext fun a => by fin_cases a <;> rfl

theorem msg6_idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem msg6_in0 (V : Entry) (c : Dev nD) (t : Fin cfg6.N) (p : Fin 8000) (k : Fin 64) (r : Fin 800000)
    (hr : r.val = t.val * 8000 + p.val) :
    (iblk6 V c 0 t : Vec Ideal S8000x64 .f32) (ix2 p k) = (V c (Pipeline.arrRef spec6 0) : A2 800000 64) (ix2 r k) := by
  obtain ⟨e0, e1, -⟩ := msg6_idx t
  show (V c (Pipeline.arrRef spec6 0) : A2 800000 64) (((cfg6.win 0).blk t).view.emb (ix2 p k)) = _
  refine congrArg _ (funext fun a => Fin.ext ?_)
  match a with
  | ⟨0, _⟩ => show win6_0.index t (0 : Fin 2) * 8000 + 1 * p.val = r.val; omega
  | ⟨1, _⟩ => show win6_0.index t (1 : Fin 2) * 64 + 1 * k.val = k.val; omega

theorem msg6_in1 (V : Entry) (c : Dev nD) (t : Fin cfg6.N) (p : Fin 8000) (k : Fin 64) (r : Fin 800000)
    (hr : r.val = t.val * 8000 + p.val) :
    (iblk6 V c 1 t : Vec Ideal S8000x64 .f32) (ix2 p k) = (V c (Pipeline.arrRef spec6 1) : A2 800000 64) (ix2 r k) := by
  obtain ⟨-, -, e0, e1, -⟩ := msg6_idx t
  show (V c (Pipeline.arrRef spec6 1) : A2 800000 64) (((cfg6.win 1).blk t).view.emb (ix2 p k)) = _
  refine congrArg _ (funext fun a => Fin.ext ?_)
  match a with
  | ⟨0, _⟩ => show win6_1.index t (0 : Fin 2) * 8000 + 1 * p.val = r.val; omega
  | ⟨1, _⟩ => show win6_1.index t (1 : Fin 2) * 64 + 1 * k.val = k.val; omega

theorem msg6_in2 (V : Entry) (c : Dev nD) (t : Fin cfg6.N) :
    (iblk6 V c 2 t : Vec Ideal S64x64 .f32) = (V c (Pipeline.arrRef spec6 2) : A2 64 64) := by
  obtain ⟨-, -, -, -, e0, e1, -⟩ := msg6_idx t
  funext y
  show (V c (Pipeline.arrRef spec6 2) : A2 64 64) (((cfg6.win 2).blk t).view.emb y) = _
  refine congrArg _ (funext fun a => Fin.ext ?_)
  match a with
  | ⟨0, _⟩ => show win6_2.index t (0 : Fin 2) * 64 + 1 * (y 0).val = (y 0).val; omega
  | ⟨1, _⟩ => show win6_2.index t (1 : Fin 2) * 64 + 1 * (y 1).val = (y 1).val; omega

theorem msg6_in3 (V : Entry) (c : Dev nD) (t : Fin cfg6.N) :
    (iblk6 V c 3 t : Vec Ideal S64x64 .f32) = (V c (Pipeline.arrRef spec6 3) : A2 64 64) := by
  obtain ⟨-, -, -, -, -, -, e0, e1, -⟩ := msg6_idx t
  funext y
  show (V c (Pipeline.arrRef spec6 3) : A2 64 64) (((cfg6.win 3).blk t).view.emb y) = _
  refine congrArg _ (funext fun a => Fin.ext ?_)
  match a with
  | ⟨0, _⟩ => show win6_3.index t (0 : Fin 2) * 64 + 1 * (y 0).val = (y 0).val; omega
  | ⟨1, _⟩ => show win6_3.index t (1 : Fin 2) * 64 + 1 * (y 1).val = (y 1).val; omega

theorem msg6_in4 (V : Entry) (c : Dev nD) (t : Fin cfg6.N) :
    (iblk6 V c 4 t : Vec Ideal S1x64 .f32) = (V c (Pipeline.arrRef spec6 4) : A2 1 64) := by
  obtain ⟨-, -, -, -, -, -, -, -, e0, e1, -⟩ := msg6_idx t
  funext y
  show (V c (Pipeline.arrRef spec6 4) : A2 1 64) (((cfg6.win 4).blk t).view.emb y) = _
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 64 + 1 * (y 1).val = (y 1).val; omega

theorem msg6_point (V : Entry) (c : Dev nD) (t : Fin cfg6.N) (j : S8000x64.Idx) :
    k6_pay1 (iblk6 V c 0 t) (iblk6 V c 1 t) (iblk6 V c 2 t) (iblk6 V c 3 t) (iblk6 V c 4 t) j
      = msgLoc (V c (Pipeline.arrRef spec6 0)) (V c (Pipeline.arrRef spec6 1)) (V c (Pipeline.arrRef spec6 2))
          (V c (Pipeline.arrRef spec6 3)) (V c (Pipeline.arrRef spec6 4)) (((cfg6.win 5).blk t).view.emb j) := by
  obtain ⟨p, q, rfl⟩ : ∃ (p : Fin 8000) (q : Fin 64), j = ix2 p q := ⟨j 0, j 1, eq_ix2 j⟩
  have hN : cfg6.N = 100 := N_6
  have ht : t.val < cfg6.N := t.isLt
  obtain ⟨-, -, -, -, -, -, -, -, -, -, e0, e1⟩ := msg6_idx t
  obtain ⟨r, hr⟩ : ∃ r : Fin 800000, r.val = t.val * 8000 + p.val := ⟨⟨t.val * 8000 + p.val, by omega⟩, rfl⟩
  have hemb : ((cfg6.win 5).blk t).view.emb (ix2 p q) = ix2 r q := by
    refine funext fun a => Fin.ext ?_
    match a with
    | ⟨0, _⟩ => show win6_5.index t (0 : Fin 2) * 8000 + 1 * p.val = r.val; omega
    | ⟨1, _⟩ => show win6_5.index t (1 : Fin 2) * 64 + 1 * q.val = q.val; omega
  exact (msg6_block (V c (Pipeline.arrRef spec6 0)) (V c (Pipeline.arrRef spec6 1)) (V c (Pipeline.arrRef spec6 2))
      (V c (Pipeline.arrRef spec6 3)) (V c (Pipeline.arrRef spec6 4))
      (iblk6 V c 0 t) (iblk6 V c 1 t) (iblk6 V c 2 t) (iblk6 V c 3 t) (iblk6 V c 4 t) r p q
      (fun k => msg6_in0 V c t p k r hr) (fun k => msg6_in1 V c t p k r hr)
      (msg6_in2 V c t) (msg6_in3 V c t) (msg6_in4 V c t)).trans
    (congrArg (msgLoc (V c (Pipeline.arrRef spec6 0)) (V c (Pipeline.arrRef spec6 1)) (V c (Pipeline.arrRef spec6 2))
      (V c (Pipeline.arrRef spec6 3)) (V c (Pipeline.arrRef spec6 4))) hemb.symm)

theorem msg6_flushed (V : Entry) (c : Dev nD) (t : Fin cfg6.N) :
    (dat6 V c).flushed 5 t = ((cfg6.win 5).blk t).view.read (Elt Ideal)
      (msgLoc (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero msg6_hz]
  simp only [View.ld_unit_zero (S := S8000x64) msg6_hz, View.ld_unit_zero (S := S64x64) msg6_hz,
    View.ld_unit_zero (S := S1x64) msg6_hz]
  funext j
  exact msg6_point V c t j

theorem msg6_mem (t : Fin cfg6.N) (i : S800000x64.Idx) :
    i ∈ ((cfg6.win 5).blk t).view.set ↔ ∀ a : Fin 2, win6_5.index t a * S8000x64.size a ≤ (i a).val
      ∧ (i a).val < win6_5.index t a * S8000x64.size a + S8000x64.size a := by
  show i ∈ ((View.whole (Pipeline.arrRef spec6 5)).slice (win6_5.rect t)).set ↔ _
  rw [View.set_slice_whole, Rect.mem_set_unit]
  exact Iff.rfl

theorem msg6_cover (i : S800000x64.Idx) :
    ∃ t : Fin cfg6.N, (cfg6.win 5).flush t = true ∧ i ∈ ((cfg6.win 5).blk t).view.set := by
  have hN : cfg6.N = 100 := N_6
  have hi0 : (i 0).val < 800000 := (i 0).isLt
  have hi1 : (i 1).val < 64 := (i 1).isLt
  obtain ⟨t, ht⟩ : ∃ t : Fin cfg6.N, t.val = (i 0).val / 8000 := ⟨⟨(i 0).val / 8000, by rw [hN]; omega⟩, rfl⟩
  obtain ⟨-, -, -, -, -, -, -, -, -, -, e0, e1⟩ := msg6_idx t
  refine ⟨t, flush6_5 t, ?_⟩
  rw [msg6_mem]
  intro a
  match a with
  | ⟨0, _⟩ => show win6_5.index t (0 : Fin 2) * 8000 ≤ (i 0).val ∧ (i 0).val < win6_5.index t (0 : Fin 2) * 8000 + 8000; omega
  | ⟨1, _⟩ => show win6_5.index t (1 : Fin 2) * 64 ≤ (i 1).val ∧ (i 1).val < win6_5.index t (1 : Fin 2) * 64 + 64; omega

theorem msg6 (V : Entry) (c : Dev nD) :
    (dat6 V c).arrAt 5 cfg6.N = msgLoc (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5
    (msgLoc (V c (Pipeline.arrRef spec6 0)) (V c (Pipeline.arrRef spec6 1)) (V c (Pipeline.arrRef spec6 2))
      (V c (Pipeline.arrRef spec6 3)) (V c (Pipeline.arrRef spec6 4)))
    (fun t _ => msg6_flushed V c t) msg6_cover

end Cert.KernelIdeal.Val

end
-- ==== Proof.KStats7.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibBlockSum
import proofs.«428660_j69922067578969_2_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.Pipeline Idealize.ShloMosaic.ValueIdx Cert.KernelIdeal Cert.KernelIdeal.Gen Cert.Spec

namespace Stats7

section Pieces

variable {F : FTy → Type} [FloatOps F]
variable (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
variable (x0 x1 : Vec F S10000x64 .f32) (x2 x3 : Vec F S64x64 .f32) (x4 x5 : Vec F S1x64 .f32)

theorem hz : (![0, 0] : Fin 2 → Nat) = fun _ => 0 := funext fun a => by fin_cases a <;> rfl

theorem out_A_6 (hc0 : cond7_0 i) :
    out7_A_6 c i arg1 harg1 arg2 harg2 arg3 harg3 arg4 harg4 arg5 harg5 arg6 harg6 arg7 harg7 arg8 harg8 hc0 x0 x1 x2 x3 x4 x5 = k7_pay5 x0 x1 x2 x3 x4 x5 (k7_pay2 (F := F)) := by
  unfold out7_A_6
  rw [View.read_writes_eq_canon _ _ _ (cover7_A_6 c i arg1 harg1 arg2 harg2 arg3 harg3 arg4 harg4 arg5 harg5 arg6 harg6 arg7 harg7 arg8 harg8 hc0 x0 x1 x2 x3 x4 x5)]
  unfold kernelRun7_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

theorem out_A_7 (hc0 : cond7_0 i) :
    out7_A_7 c i arg1 harg1 arg2 harg2 arg3 harg3 arg4 harg4 arg5 harg5 arg6 harg6 arg7 harg7 arg8 harg8 hc0 x0 x1 x2 x3 x4 x5 = k7_pay1 (k7_pay4 x0 x1 x2 x3 x4 x5) (k7_pay3 (F := F)) := by
  unfold out7_A_7
  rw [View.read_writes_eq_canon _ _ _ (cover7_A_7 c i arg1 harg1 arg2 harg2 arg3 harg3 arg4 harg4 arg5 harg5 arg6 harg6 arg7 harg7 arg8 harg8 hc0 x0 x1 x2 x3 x4 x5)]
  unfold kernelRun7_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

variable (xo6 xo7 : Vec F S1x64 .f32)

theorem out_B_6 (hc0 : ¬cond7_0 i) :
    out7_B_6 c i arg1 harg1 arg2 harg2 arg3 harg3 arg4 harg4 arg5 harg5 arg6 harg6 arg7 harg7 arg8 harg8 hc0 x0 x1 x2 x3 x4 x5 xo6 xo7 = k7_pay5 x0 x1 x2 x3 x4 x5 xo6 := by
  unfold out7_B_6
  rw [View.read_writes_eq_canon _ _ _ (cover7_B_6 c i arg1 harg1 arg2 harg2 arg3 harg3 arg4 harg4 arg5 harg5 arg6 harg6 arg7 harg7 arg8 harg8 hc0 x0 x1 x2 x3 x4 x5 xo6 xo7)]
  unfold kernelRun7_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

theorem out_B_7 (hc0 : ¬cond7_0 i) :
    out7_B_7 c i arg1 harg1 arg2 harg2 arg3 harg3 arg4 harg4 arg5 harg5 arg6 harg6 arg7 harg7 arg8 harg8 hc0 x0 x1 x2 x3 x4 x5 xo6 xo7 = k7_pay1 (k7_pay4 x0 x1 x2 x3 x4 x5) xo7 := by
  unfold out7_B_7
  rw [View.read_writes_eq_canon _ _ _ (cover7_B_7 c i arg1 harg1 arg2 harg2 arg3 harg3 arg4 harg4 arg5 harg5 arg6 harg6 arg7 harg7 arg8 harg8 hc0 x0 x1 x2 x3 x4 x5 xo6 xo7)]
  unfold kernelRun7_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

end Pieces

theorem lift_rows (h : S10000x64.Reduces [0] S64) (q : Fin 64) (p : Fin 10000) : h.lift (ix1 q) p = ix2 p q := by
  funext a
  apply Fin.ext
  match a with
  | ⟨0, _⟩ => rfl
  | ⟨1, _⟩ => rfl

theorem rowOfColSums_apply (src : FVec Ideal S10000x64 .f32) (h : S10000x64.Reduces [0] S64) (hφ : FKind.Formats .f32)
    (hacc : (0x00000000#32 : BitVec 32) = FKind.add.neutral .f32 hφ) (h' : S64.ShapeCasts S1x64) (z : Fin 1) (q : Fin 64) :
    shapeCast S1x64 (multiReduction .add [0] S64 src 0x00000000#32 h hφ hacc) h' (ix2 z q) = ∑ p : Fin 10000, src (ix2 p q) := by
  refine (shapeCast_a_1a_apply _ h' z q).trans ?_
  refine (Ideal.multiReduction_add_single src 0x00000000#32 h hφ hacc (ix1 q)).trans ?_
  exact Finset.sum_congr rfl fun p _ => congrArg src (lift_rows h q p)

theorem blockProduct_apply {φ₁ φ₂ : FTy} (lhs : FVec Ideal S10000x64 φ₁) (rhs : FVec Ideal S64x64 φ₂) (p : Fin 10000) (q : Fin 64) :
    matmul dot_S10000x64_S64x64_S10000x64_1_0_0_1_n_n none lhs rhs (constant S10000x64 .f32 0x00000000#32) (ix2 p q)
      = ∑ k : Fin 64, lhs (ix2 p k) * rhs (ix2 k q) := by
  show FloatOps.matmul dot_S10000x64_S64x64_S10000x64_1_0_0_1_n_n none lhs rhs (constant S10000x64 .f32 0x00000000#32) (ix2 p q) = _
  rw [Cert.LibPlainDot.eq_plain dot_S10000x64_S64x64_S10000x64_1_0_0_1_n_n rfl rfl rfl rfl rfl rfl, Ideal.matmul_constant_zero_apply]
  exact Cert.LibPlainDot.plain_sum lhs rhs p q

section Arithmetic

variable (x0 x1 : Vec Ideal S10000x64 .f32) (x2 x3 : Vec Ideal S64x64 .f32) (x4 x5 : Vec Ideal S1x64 .f32)

theorem pay4_apply (p : Fin 10000) (q : Fin 64) : k7_pay4 x0 x1 x2 x3 x4 x5 (ix2 p q) = uLoc x0 x1 x2 x3 x4 x5 (ix2 p q) := by
  unfold k7_pay4
  simp only [select_apply, cmpf_apply, mulf_apply, addf_apply, broadcast_apply, shapeCast_self, broadcastTo_1b_ab_apply, blockProduct_apply]
  rfl

theorem pay5_apply (acc : Vec Ideal S1x64 .f32) (z : Fin 1) (q : Fin 64) :
    k7_pay5 x0 x1 x2 x3 x4 x5 acc (ix2 z q) = acc (ix2 z q) + ∑ p : Fin 10000, k7_pay4 x0 x1 x2 x3 x4 x5 (ix2 p q) := by
  unfold k7_pay5
  exact congrArg₂ (· + ·) (congrFun (shapeCast_self acc _) (ix2 z q)) (rowOfColSums_apply _ _ _ _ _ z q)

theorem pay1_apply (u : FVec Ideal S10000x64 .f32) (acc : Vec Ideal S1x64 .f32) (z : Fin 1) (q : Fin 64) :
    k7_pay1 u acc (ix2 z q) = acc (ix2 z q) + ∑ p : Fin 10000, u (ix2 p q) * u (ix2 p q) := by
  unfold k7_pay1
  exact congrArg₂ (· + ·) (congrFun (shapeCast_self acc _) (ix2 z q)) (rowOfColSums_apply _ _ _ _ _ z q)

variable (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)

theorem stepA6 (hc0 : cond7_0 i) (z : Fin 1) (q : Fin 64) :
    out7_A_6 c i arg1 harg1 arg2 harg2 arg3 harg3 arg4 harg4 arg5 harg5 arg6 harg6 arg7 harg7 arg8 harg8 hc0 x0 x1 x2 x3 x4 x5 (ix2 z q) = zeroE + ∑ p : Fin 10000, uLoc x0 x1 x2 x3 x4 x5 (ix2 p q) := by
  rw [out_A_6]
  refine (pay5_apply x0 x1 x2 x3 x4 x5 (k7_pay2 (F := Ideal)) z q).trans ?_
  exact congrArg₂ (· + ·) rfl (Finset.sum_congr rfl fun p _ => pay4_apply x0 x1 x2 x3 x4 x5 p q)

theorem stepA7 (hc0 : cond7_0 i) (z : Fin 1) (q : Fin 64) :
    out7_A_7 c i arg1 harg1 arg2 harg2 arg3 harg3 arg4 harg4 arg5 harg5 arg6 harg6 arg7 harg7 arg8 harg8 hc0 x0 x1 x2 x3 x4 x5 (ix2 z q)
      = zeroE + ∑ p : Fin 10000, sq (uLoc x0 x1 x2 x3 x4 x5) (ix2 p q) := by
  rw [out_A_7]
  refine (pay1_apply (k7_pay4 x0 x1 x2 x3 x4 x5) (k7_pay3 (F := Ideal)) z q).trans ?_
  exact congrArg₂ (· + ·) rfl (Finset.sum_congr rfl fun p _ =>
    congrArg₂ (· * ·) (pay4_apply x0 x1 x2 x3 x4 x5 p q) (pay4_apply x0 x1 x2 x3 x4 x5 p q))

variable (xo6 xo7 : Vec Ideal S1x64 .f32)

theorem stepB6 (hc0 : ¬cond7_0 i) (z : Fin 1) (q : Fin 64) :
    out7_B_6 c i arg1 harg1 arg2 harg2 arg3 harg3 arg4 harg4 arg5 harg5 arg6 harg6 arg7 harg7 arg8 harg8 hc0 x0 x1 x2 x3 x4 x5 xo6 xo7 (ix2 z q)
      = xo6 (ix2 z q) + ∑ p : Fin 10000, uLoc x0 x1 x2 x3 x4 x5 (ix2 p q) := by
  rw [out_B_6]
  refine (pay5_apply x0 x1 x2 x3 x4 x5 xo6 z q).trans ?_
  exact congrArg₂ (· + ·) rfl (Finset.sum_congr rfl fun p _ => pay4_apply x0 x1 x2 x3 x4 x5 p q)

theorem stepB7 (hc0 : ¬cond7_0 i) (z : Fin 1) (q : Fin 64) :
    out7_B_7 c i arg1 harg1 arg2 harg2 arg3 harg3 arg4 harg4 arg5 harg5 arg6 harg6 arg7 harg7 arg8 harg8 hc0 x0 x1 x2 x3 x4 x5 xo6 xo7 (ix2 z q)
      = xo7 (ix2 z q) + ∑ p : Fin 10000, sq (uLoc x0 x1 x2 x3 x4 x5) (ix2 p q) := by
  rw [out_B_7]
  refine (pay1_apply (k7_pay4 x0 x1 x2 x3 x4 x5) xo7 z q).trans ?_
  exact congrArg₂ (· + ·) rfl (Finset.sum_congr rfl fun p _ =>
    congrArg₂ (· * ·) (pay4_apply x0 x1 x2 x3 x4 x5 p q) (pay4_apply x0 x1 x2 x3 x4 x5 p q))

end Arithmetic

theorem idx_facts : ∀ t : Fin cfg7.N, win7_0.index t 0 = t.val ∧ win7_0.index t 1 = 0 ∧ win7_1.index t 0 = t.val ∧ win7_1.index t 1 = 0
    ∧ win7_2.index t 0 = 0 ∧ win7_2.index t 1 = 0 ∧ win7_3.index t 0 = 0 ∧ win7_3.index t 1 = 0
    ∧ win7_4.index t 0 = 0 ∧ win7_4.index t 1 = 0 ∧ win7_5.index t 0 = 0 ∧ win7_5.index t 1 = 0
    ∧ win7_6.index t 0 = 0 ∧ win7_6.index t 1 = 0 ∧ win7_7.index t 0 = 0 ∧ win7_7.index t 1 = 0 :=
  (by decide +kernel : ∀ t : Fin grid7.N, _)

abbrev rowOf (t : Fin cfg7.N) (p : Fin 10000) : Fin 50000 :=
  ⟨10000 * t.val + p.val, by have := t.isLt; have hN : cfg7.N = 5 := N_7; have := p.isLt; omega⟩

variable (V : Entry) (c : Dev nD)

abbrev arr0 : A2 50000 64 := V c (Pipeline.arrRef spec7 0)
abbrev arr1 : A2 50000 64 := V c (Pipeline.arrRef spec7 1)
abbrev arr2 : A2 64 64 := V c (Pipeline.arrRef spec7 2)
abbrev arr3 : A2 64 64 := V c (Pipeline.arrRef spec7 3)
abbrev arr4 : A2 1 64 := V c (Pipeline.arrRef spec7 4)
abbrev arr5 : A2 1 64 := V c (Pipeline.arrRef spec7 5)

abbrev blk0 (t : Fin cfg7.N) : A2 10000 64 := iblk7 V c 0 t
abbrev blk1 (t : Fin cfg7.N) : A2 10000 64 := iblk7 V c 1 t
abbrev blk2 (t : Fin cfg7.N) : A2 64 64 := iblk7 V c 2 t
abbrev blk3 (t : Fin cfg7.N) : A2 64 64 := iblk7 V c 3 t
abbrev blk4 (t : Fin cfg7.N) : A2 1 64 := iblk7 V c 4 t
abbrev blk5 (t : Fin cfg7.N) : A2 1 64 := iblk7 V c 5 t

theorem blk0_apply (t : Fin cfg7.N) (p : Fin 10000) (k : Fin 64) : blk0 V c t (ix2 p k) = arr0 V c (ix2 (rowOf t p) k) := by
  unfold blk0 iblk7
  rw [View.read_apply]
  show V c (Pipeline.arrRef spec7 0) _ = V c (Pipeline.arrRef spec7 0) _
  refine congrArg _ (funext fun a => Fin.ext ?_)
  obtain ⟨e0, e1, -⟩ := idx_facts t
  match a with
  | ⟨0, _⟩ => show win7_0.index t 0 * 10000 + 1 * p.val = 10000 * t.val + p.val; omega
  | ⟨1, _⟩ => show win7_0.index t 1 * 64 + 1 * k.val = k.val; omega

theorem blk1_apply (t : Fin cfg7.N) (p : Fin 10000) (k : Fin 64) : blk1 V c t (ix2 p k) = arr1 V c (ix2 (rowOf t p) k) := by
  unfold blk1 iblk7
  rw [View.read_apply]
  show V c (Pipeline.arrRef spec7 1) _ = V c (Pipeline.arrRef spec7 1) _
  refine congrArg _ (funext fun a => Fin.ext ?_)
  obtain ⟨-, -, e0, e1, -⟩ := idx_facts t
  match a with
  | ⟨0, _⟩ => show win7_1.index t 0 * 10000 + 1 * p.val = 10000 * t.val + p.val; omega
  | ⟨1, _⟩ => show win7_1.index t 1 * 64 + 1 * k.val = k.val; omega

theorem blk2_eq (t : Fin cfg7.N) : blk2 V c t = arr2 V c := by
  funext j
  unfold blk2 iblk7
  rw [View.read_apply]
  show V c (Pipeline.arrRef spec7 2) _ = V c (Pipeline.arrRef spec7 2) _
  refine congrArg _ (funext fun a => Fin.ext ?_)
  obtain ⟨-, -, -, -, e0, e1, -⟩ := idx_facts t
  match a with
  | ⟨0, _⟩ => show win7_2.index t 0 * 64 + 1 * (j 0).val = (j 0).val; omega
  | ⟨1, _⟩ => show win7_2.index t 1 * 64 + 1 * (j 1).val = (j 1).val; omega

theorem blk3_eq (t : Fin cfg7.N) : blk3 V c t = arr3 V c := by
  funext j
  unfold blk3 iblk7
  rw [View.read_apply]
  show V c (Pipeline.arrRef spec7 3) _ = V c (Pipeline.arrRef spec7 3) _
  refine congrArg _ (funext fun a => Fin.ext ?_)
  obtain ⟨-, -, -, -, -, -, e0, e1, -⟩ := idx_facts t
  match a with
  | ⟨0, _⟩ => show win7_3.index t 0 * 64 + 1 * (j 0).val = (j 0).val; omega
  | ⟨1, _⟩ => show win7_3.index t 1 * 64 + 1 * (j 1).val = (j 1).val; omega

theorem blk4_eq (t : Fin cfg7.N) : blk4 V c t = arr4 V c := by
  funext j
  unfold blk4 iblk7
  rw [View.read_apply]
  show V c (Pipeline.arrRef spec7 4) _ = V c (Pipeline.arrRef spec7 4) _
  refine congrArg _ (funext fun a => Fin.ext ?_)
  obtain ⟨-, -, -, -, -, -, -, -, e0, e1, -⟩ := idx_facts t
  match a with
  | ⟨0, _⟩ => show win7_4.index t 0 * 1 + 1 * (j 0).val = (j 0).val; omega
  | ⟨1, _⟩ => show win7_4.index t 1 * 64 + 1 * (j 1).val = (j 1).val; omega

theorem blk5_eq (t : Fin cfg7.N) : blk5 V c t = arr5 V c := by
  funext j
  unfold blk5 iblk7
  rw [View.read_apply]
  show V c (Pipeline.arrRef spec7 5) _ = V c (Pipeline.arrRef spec7 5) _
  refine congrArg _ (funext fun a => Fin.ext ?_)
  obtain ⟨-, -, -, -, -, -, -, -, -, -, e0, e1, -⟩ := idx_facts t
  match a with
  | ⟨0, _⟩ => show win7_5.index t 0 * 1 + 1 * (j 0).val = (j 0).val; omega
  | ⟨1, _⟩ => show win7_5.index t 1 * 64 + 1 * (j 1).val = (j 1).val; omega

abbrev uArr : A2 50000 64 := uLoc (arr0 V c) (arr1 V c) (arr2 V c) (arr3 V c) (arr4 V c) (arr5 V c)

theorem uBlk_apply (t : Fin cfg7.N) (p : Fin 10000) (q : Fin 64) :
    uLoc (blk0 V c t) (blk1 V c t) (blk2 V c t) (blk3 V c t) (blk4 V c t) (blk5 V c t) (ix2 p q) = uArr V c (ix2 (rowOf t p) q) := by
  rw [blk2_eq, blk3_eq, blk4_eq, blk5_eq]
  show prelu (arr5 V c (ix2 0 q)) (lin (blk0 V c t) (blk1 V c t) (arr2 V c) (arr3 V c) (arr4 V c) p q)
    = prelu (arr5 V c (ix2 0 q)) (lin (arr0 V c) (arr1 V c) (arr2 V c) (arr3 V c) (arr4 V c) (rowOf t p) q)
  unfold lin
  simp only [blk0_apply, blk1_apply]

def addend (f : A2 50000 64) (s : ℕ) (q : Fin 64) : EReal :=
  if hs : s < cfg7.N then ∑ p : Fin 10000, f (ix2 (rowOf ⟨s, hs⟩ p) q) else 0

theorem addend_at (f : A2 50000 64) (n : ℕ) (h : n < cfg7.N) (q : Fin 64) :
    addend f n q = ∑ p : Fin 10000, f (ix2 (rowOf ⟨n, h⟩ p) q) := by
  unfold addend
  rw [dif_pos h]

theorem sum_addends (f : A2 50000 64) (q : Fin 64) :
    ∑ s ∈ Finset.range (4 + 1), addend f s q = ∑ n : Fin 50000, f (ix2 n q) := by
  have hN : cfg7.N = 5 := N_7
  rw [Finset.sum_range]
  refine Eq.trans (Finset.sum_congr rfl fun s _ => ?_) (Cert.BlockSum.sum_blocks 5 10000 fun n : Fin 50000 => f (ix2 n q))
  exact addend_at f s.val (by have := s.isLt; omega) q

theorem inv6 : ∀ (n : ℕ) (h : n < cfg7.N) (z : Fin 1) (q : Fin 64),
    (outsAt7 V c n h).1 (ix2 z q) = zeroE + ∑ s ∈ Finset.range (n + 1), addend (uArr V c) s q
  | 0, h, z, q => by
    rw [outsAt7_A V c ⟨0, h⟩ rfl]
    dsimp only
    refine (stepA6 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (uArr V c) s q
    rw [Finset.sum_range_one, addend_at (uArr V c) 0 h q]
    exact congrArg (zeroE + ·) (Finset.sum_congr rfl fun p _ => uBlk_apply V c ⟨0, h⟩ p q)
  | n + 1, h, z, q => by
    have hN : cfg7.N = 5 := N_7
    have hB : ¬(⟨n + 1, h⟩ : Fin cfg7.N).val % 5 = 0 := by dsimp only; omega
    rw [outsAt7_B V c ⟨n + 1, h⟩ hB]
    dsimp only
    refine (stepB6 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (uArr V c) (n + 1) h q]
    exact congrArg₂ (· + ·) (inv6 n (Nat.lt_of_succ_lt h) z q) (Finset.sum_congr rfl fun p _ => uBlk_apply V c ⟨n + 1, h⟩ p q)

theorem inv7 : ∀ (n : ℕ) (h : n < cfg7.N) (z : Fin 1) (q : Fin 64),
    (outsAt7 V c n h).2 (ix2 z q) = zeroE + ∑ s ∈ Finset.range (n + 1), addend (sq (uArr V c)) s q
  | 0, h, z, q => by
    rw [outsAt7_A V c ⟨0, h⟩ rfl]
    dsimp only
    refine (stepA7 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (sq (uArr V c)) s q
    rw [Finset.sum_range_one, addend_at (sq (uArr V c)) 0 h q]
    exact congrArg (zeroE + ·) (Finset.sum_congr rfl fun p _ =>
      congrArg₂ (· * ·) (uBlk_apply V c ⟨0, h⟩ p q) (uBlk_apply V c ⟨0, h⟩ p q))
  | n + 1, h, z, q => by
    have hN : cfg7.N = 5 := N_7
    have hB : ¬(⟨n + 1, h⟩ : Fin cfg7.N).val % 5 = 0 := by dsimp only; omega
    rw [outsAt7_B V c ⟨n + 1, h⟩ hB]
    dsimp only
    refine (stepB7 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (sq (uArr V c)) (n + 1) h q]
    exact congrArg₂ (· + ·) (inv7 n (Nat.lt_of_succ_lt h) z q) (Finset.sum_congr rfl fun p _ =>
      congrArg₂ (· * ·) (uBlk_apply V c ⟨n + 1, h⟩ p q) (uBlk_apply V c ⟨n + 1, h⟩ p q))

theorem colSum_col {R : ℕ} (u : A2 R 64) (i : (⟨2, ![1, 64]⟩ : Shape).Idx) (q : Fin 64) (h : (i 1).val = q.val) :
    colSum u i = ∑ n : Fin R, u (ix2 n q) := by
  have e : i 1 = q := Fin.ext h
  unfold colSum
  rw [e]

theorem flushed6_eq (t : Fin cfg7.N) (hf : (cfg7.win 6).flush t = true) :
    (dat7 V c).flushed 6 t = ((cfg7.win 6).blk t).view.read (Elt Ideal) (colSum (uArr V c)) := by
  have hN : cfg7.N = 5 := N_7
  have h4 : t.val = 4 := by have := (flush7_6 t).mp hf; have := t.isLt; omega
  show (cfg7.win 6).cut (grid7.coords t) ((dat7 V c).after 6 t) = _
  rw [after7_6]
  refine funext fun (j : S1x64.Idx) => ?_
  obtain ⟨z, q, rfl⟩ : ∃ (z : Fin 1) (q : Fin 64), j = ix2 z q := ⟨j 0, j 1, eq_ix2 j⟩
  rw [View.read_apply]
  show (outsAt7 V c t.val t.isLt).1 (ix2 z q) = _
  rw [inv6 V c t.val t.isLt z q, h4, sum_addends]
  refine Eq.trans ?_ (cast_eq _ _).symm
  refine Eq.trans ?_ (colSum_col (uArr V c) _ q ?_).symm
  · show Ideal.ofBits .f32 0x00000000#32 + _ = _
    rw [Ideal.ofBits_zero_f32, zero_add]
  · obtain ⟨-, -, -, -, -, -, -, -, -, -, -, -, e0, e1, -⟩ := idx_facts t
    show win7_6.index t 1 * 64 + 1 * q.val = q.val
    omega

theorem final6 : (dat7 V c).arrAt 6 cfg7.N = colSum (uArr V c) := by
  have hN : cfg7.N = 5 := N_7
  have h4 : 4 < cfg7.N := by omega
  refine (dat7 V c).arrAt_eq_of_cover 6 (colSum (uArr V c)) (fun t hf => flushed6_eq V c t hf) fun i => ?_
  refine ⟨⟨4, h4⟩, (flush7_6 _).mpr rfl, ?_⟩
  show i ∈ ((View.whole (Pipeline.arrRef spec7 6)).slice (win7_6.rect ⟨4, h4⟩)).set
  rw [View.set_slice_whole, Rect.mem_set_unit]
  intro a
  obtain ⟨-, -, -, -, -, -, -, -, -, -, -, -, e0, e1, -⟩ := idx_facts ⟨4, h4⟩
  have h0 : (i 0 : Nat) < 1 := (i 0).isLt
  have h1 : (i 1 : Nat) < 64 := (i 1).isLt
  match a with
  | ⟨0, _⟩ =>
    show win7_6.index ⟨4, h4⟩ 0 * 1 ≤ (i 0 : Nat) ∧ (i 0 : Nat) < win7_6.index ⟨4, h4⟩ 0 * 1 + 1
    omega
  | ⟨1, _⟩ =>
    show win7_6.index ⟨4, h4⟩ 1 * 64 ≤ (i 1 : Nat) ∧ (i 1 : Nat) < win7_6.index ⟨4, h4⟩ 1 * 64 + 64
    omega

theorem flushed7_eq (t : Fin cfg7.N) (hf : (cfg7.win 7).flush t = true) :
    (dat7 V c).flushed 7 t = ((cfg7.win 7).blk t).view.read (Elt Ideal) (colSum (sq (uArr V c))) := by
  have hN : cfg7.N = 5 := N_7
  have h4 : t.val = 4 := by have := (flush7_7 t).mp hf; have := t.isLt; omega
  show (cfg7.win 7).cut (grid7.coords t) ((dat7 V c).after 7 t) = _
  rw [after7_7]
  refine funext fun (j : S1x64.Idx) => ?_
  obtain ⟨z, q, rfl⟩ : ∃ (z : Fin 1) (q : Fin 64), j = ix2 z q := ⟨j 0, j 1, eq_ix2 j⟩
  rw [View.read_apply]
  show (outsAt7 V c t.val t.isLt).2 (ix2 z q) = _
  rw [inv7 V c t.val t.isLt z q, h4, sum_addends]
  refine Eq.trans ?_ (cast_eq _ _).symm
  refine Eq.trans ?_ (colSum_col (sq (uArr V c)) _ q ?_).symm
  · show Ideal.ofBits .f32 0x00000000#32 + _ = _
    rw [Ideal.ofBits_zero_f32, zero_add]
  · obtain ⟨-, -, -, -, -, -, -, -, -, -, -, -, -, -, e0, e1⟩ := idx_facts t
    show win7_7.index t 1 * 64 + 1 * q.val = q.val
    omega

theorem final7 : (dat7 V c).arrAt 7 cfg7.N = colSum (sq (uArr V c)) := by
  have hN : cfg7.N = 5 := N_7
  have h4 : 4 < cfg7.N := by omega
  refine (dat7 V c).arrAt_eq_of_cover 7 (colSum (sq (uArr V c))) (fun t hf => flushed7_eq V c t hf) fun i => ?_
  refine ⟨⟨4, h4⟩, (flush7_7 _).mpr rfl, ?_⟩
  show i ∈ ((View.whole (Pipeline.arrRef spec7 7)).slice (win7_7.rect ⟨4, h4⟩)).set
  rw [View.set_slice_whole, Rect.mem_set_unit]
  intro a
  obtain ⟨-, -, -, -, -, -, -, -, -, -, -, -, -, -, e0, e1⟩ := idx_facts ⟨4, h4⟩
  have h0 : (i 0 : Nat) < 1 := (i 0).isLt
  have h1 : (i 1 : Nat) < 64 := (i 1).isLt
  match a with
  | ⟨0, _⟩ =>
    show win7_7.index ⟨4, h4⟩ 0 * 1 ≤ (i 0 : Nat) ∧ (i 0 : Nat) < win7_7.index ⟨4, h4⟩ 0 * 1 + 1
    omega
  | ⟨1, _⟩ =>
    show win7_7.index ⟨4, h4⟩ 1 * 64 ≤ (i 1 : Nat) ∧ (i 1 : Nat) < win7_7.index ⟨4, h4⟩ 1 * 64 + 64
    omega

end Stats7

theorem sum7 (V : Entry) (c : Dev nD) :
    (dat7 V c).arrAt 6 cfg7.N = colSum (uLoc (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) :=
  Stats7.final6 V c

theorem sumsq7 (V : Entry) (c : Dev nD) :
    (dat7 V c).arrAt 7 cfg7.N = colSum (sq (uLoc (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)))) :=
  Stats7.final7 V c

end Cert.KernelIdeal.Val

end
-- ==== Proof.KNorm8.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx
open scoped BigOperators

theorem row8_apply (x : FVec Ideal S1x64 .f32) (h : S1x64.Broadcasts S10000x64) (p : Fin 10000) (q : Fin 64) :
    broadcastTo S10000x64 x h (ix2 p q) = x (ix2 0 q) :=
  broadcastTo_1b_ab_apply x h p q

theorem prod8_apply (x : FVec Ideal S10000x64 .f32) (w : FVec Ideal S64x64 .f32) (hb : FTy.bits .bf16 < FTy.bits .f32)
    (p : Fin 10000) (q : Fin 64) :
    matmul dot_S10000x64_S64x64_S10000x64_1_0_0_1_n_n none (truncf .bf16 x hb) (truncf .bf16 w hb)
        (constant (F := Ideal) S10000x64 .f32 0x00000000#32) (ix2 p q)
      = ∑ k : Fin 64, x (ix2 p k) * w (ix2 k q) :=
  Cert.LibPlainDot.matmul_zero_apply dot_S10000x64_S64x64_S10000x64_1_0_0_1_n_n rfl rfl rfl rfl rfl rfl none x w p q

theorem pay8_eq (x0 x1 : FVec Ideal S10000x64 .f32) (x2 x3 : FVec Ideal S64x64 .f32)
    (x4 x5 x6 x7 x8 x9 : FVec Ideal S1x64 .f32) :
    k8_pay1 (F := Ideal) (k8_pay2 (F := Ideal) x0 x1 x2 x3 x4 x5) (k8_pay3 (F := Ideal) x6) (k8_pay4 (F := Ideal) x7)
        (k8_pay5 (F := Ideal) x8) x9
      = normLoc x0 x1 x2 x3 x4 x5 x6 x7 x8 x9 := by
  unfold k8_pay1 k8_pay2 k8_pay3 k8_pay4 k8_pay5
  simp only [shapeCast_self]
  funext j
  obtain ⟨p, q, rfl⟩ : ∃ (p : Fin 10000) (q : Fin 64), j = ix2 p q := ⟨j 0, j 1, eq_ix2 j⟩
  show ((prelu (broadcastTo S10000x64 x5 _ (ix2 p q))
          ((matmul dot_S10000x64_S64x64_S10000x64_1_0_0_1_n_n none (truncf .bf16 x0 _) (truncf .bf16 x2 _)
                (constant (F := Ideal) S10000x64 .f32 0x00000000#32) (ix2 p q)
              + matmul dot_S10000x64_S64x64_S10000x64_1_0_0_1_n_n none (truncf .bf16 x1 _) (truncf .bf16 x3 _)
                (constant (F := Ideal) S10000x64 .f32 0x00000000#32) (ix2 p q))
            + broadcastTo S10000x64 x4 _ (ix2 p q))
        - broadcastTo S10000x64 x6 _ (ix2 p q)) * broadcastTo S10000x64 x7 _ (ix2 p q))
        * broadcastTo S10000x64 x8 _ (ix2 p q) + broadcastTo S10000x64 x9 _ (ix2 p q) = _
  rw [row8_apply x5, row8_apply x4, row8_apply x6, row8_apply x7, row8_apply x8, row8_apply x9,
    prod8_apply x0 x2, prod8_apply x1 x3]
  rfl

theorem normLoc_rows8 {R R' : ℕ} (h g : A2 R 64) (h' g' : A2 R' 64) (w0 w1 : A2 64 64) (b a mean istd gam bet : A2 1 64)
    (w0' w1' : A2 64 64) (b' a' mean' istd' gam' bet' : A2 1 64) (p : Fin R) (n : Fin R') (q : Fin 64)
    (hh : ∀ k : Fin 64, h (ix2 p k) = h' (ix2 n k)) (hg : ∀ k : Fin 64, g (ix2 p k) = g' (ix2 n k))
    (e2 : w0 = w0') (e3 : w1 = w1') (e4 : b = b') (e5 : a = a') (e6 : mean = mean') (e7 : istd = istd')
    (e8 : gam = gam') (e9 : bet = bet') :
    normLoc h g w0 w1 b a mean istd gam bet (ix2 p q) = normLoc h' g' w0' w1' b' a' mean' istd' gam' bet' (ix2 n q) := by
  subst e2 e3 e4 e5 e6 e7 e8 e9
  have s1 : (∑ k : Fin 64, h (ix2 p k) * w0 (ix2 k q)) = ∑ k : Fin 64, h' (ix2 n k) * w0 (ix2 k q) :=
    Finset.sum_congr rfl fun k _ => by rw [hh k]
  have s2 : (∑ k : Fin 64, g (ix2 p k) * w1 (ix2 k q)) = ∑ k : Fin 64, g' (ix2 n k) * w1 (ix2 k q) :=
    Finset.sum_congr rfl fun k _ => by rw [hg k]
  show ((prelu (a (ix2 0 q)) (((∑ k : Fin 64, h (ix2 p k) * w0 (ix2 k q)) + (∑ k : Fin 64, g (ix2 p k) * w1 (ix2 k q)))
            + b (ix2 0 q)) - mean (ix2 0 q)) * istd (ix2 0 q)) * gam (ix2 0 q) + bet (ix2 0 q)
      = ((prelu (a (ix2 0 q)) (((∑ k : Fin 64, h' (ix2 n k) * w0 (ix2 k q)) + (∑ k : Fin 64, g' (ix2 n k) * w1 (ix2 k q)))
            + b (ix2 0 q)) - mean (ix2 0 q)) * istd (ix2 0 q)) * gam (ix2 0 q) + bet (ix2 0 q)
  rw [s1, s2]

abbrev inA8_0 (V : Entry) (c : Dev nD) : A2 50000 64 := V c (Pipeline.arrRef spec8 0)

abbrev inA8_1 (V : Entry) (c : Dev nD) : A2 50000 64 := V c (Pipeline.arrRef spec8 1)

abbrev inA8_2 (V : Entry) (c : Dev nD) : A2 64 64 := V c (Pipeline.arrRef spec8 2)

abbrev inA8_3 (V : Entry) (c : Dev nD) : A2 64 64 := V c (Pipeline.arrRef spec8 3)

abbrev inA8_4 (V : Entry) (c : Dev nD) : A2 1 64 := V c (Pipeline.arrRef spec8 4)

abbrev inA8_5 (V : Entry) (c : Dev nD) : A2 1 64 := V c (Pipeline.arrRef spec8 5)

abbrev inA8_6 (V : Entry) (c : Dev nD) : A2 1 64 := V c (Pipeline.arrRef spec8 6)

abbrev inA8_7 (V : Entry) (c : Dev nD) : A2 1 64 := V c (Pipeline.arrRef spec8 7)

abbrev inA8_8 (V : Entry) (c : Dev nD) : A2 1 64 := V c (Pipeline.arrRef spec8 8)

abbrev inA8_9 (V : Entry) (c : Dev nD) : A2 1 64 := V c (Pipeline.arrRef spec8 9)

abbrev inB8_0 (V : Entry) (c : Dev nD) (t : Fin cfg8.N) : A2 10000 64 := iblk8 V c 0 t

abbrev inB8_1 (V : Entry) (c : Dev nD) (t : Fin cfg8.N) : A2 10000 64 := iblk8 V c 1 t

abbrev inB8_2 (V : Entry) (c : Dev nD) (t : Fin cfg8.N) : A2 64 64 := iblk8 V c 2 t

abbrev inB8_3 (V : Entry) (c : Dev nD) (t : Fin cfg8.N) : A2 64 64 := iblk8 V c 3 t

abbrev inB8_4 (V : Entry) (c : Dev nD) (t : Fin cfg8.N) : A2 1 64 := iblk8 V c 4 t

abbrev inB8_5 (V : Entry) (c : Dev nD) (t : Fin cfg8.N) : A2 1 64 := iblk8 V c 5 t

abbrev inB8_6 (V : Entry) (c : Dev nD) (t : Fin cfg8.N) : A2 1 64 := iblk8 V c 6 t

abbrev inB8_7 (V : Entry) (c : Dev nD) (t : Fin cfg8.N) : A2 1 64 := iblk8 V c 7 t

abbrev inB8_8 (V : Entry) (c : Dev nD) (t : Fin cfg8.N) : A2 1 64 := iblk8 V c 8 t

abbrev inB8_9 (V : Entry) (c : Dev nD) (t : Fin cfg8.N) : A2 1 64 := iblk8 V c 9 t

theorem zero_off8 : (![0, 0] : Fin 2 → Nat) = fun _ => 0 := funext fun a => by fin_cases a <;> rfl

theorem idx8_moving : ∀ t : Fin cfg8.N,
    win8_0.index t (0 : Fin 2) = t.val ∧ win8_0.index t (1 : Fin 2) = 0
    ∧ win8_1.index t (0 : Fin 2) = t.val ∧ win8_1.index t (1 : Fin 2) = 0
    ∧ win8_10.index t (0 : Fin 2) = t.val ∧ win8_10.index t (1 : Fin 2) = 0 :=
  (by decide +kernel : ∀ t : Fin grid8.N, _)

theorem idx8_fixed : ∀ t : Fin cfg8.N,
    (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0)
    ∧ (win8_8.index t (0 : Fin 2) = 0 ∧ win8_8.index t (1 : Fin 2) = 0)
    ∧ (win8_9.index t (0 : Fin 2) = 0 ∧ win8_9.index t (1 : Fin 2) = 0) :=
  (by decide +kernel : ∀ t : Fin grid8.N, _)

theorem inB8_0_apply (V : Entry) (c : Dev nD) (t : Fin cfg8.N) (p : Fin 10000) (k : Fin 64) (n : Fin 50000)
    (hn : n.val = t.val * 10000 + p.val) : inB8_0 V c t (ix2 p k) = inA8_0 V c (ix2 n k) := by
  obtain ⟨f0, f1, -, -, -, -⟩ := idx8_moving t
  show V c (Pipeline.arrRef spec8 0) (((cfg8.win 0).blk t).view.emb (ix2 p k)) = V c (Pipeline.arrRef spec8 0) (ix2 n k)
  refine congrArg (V c (Pipeline.arrRef spec8 0)) (funext fun a => Fin.ext ?_)
  match a with
  | ⟨0, _⟩ => show win8_0.index t (0 : Fin 2) * 10000 + 1 * p.val = n.val; omega
  | ⟨1, _⟩ => show win8_0.index t (1 : Fin 2) * 64 + 1 * k.val = k.val; omega

theorem inB8_1_apply (V : Entry) (c : Dev nD) (t : Fin cfg8.N) (p : Fin 10000) (k : Fin 64) (n : Fin 50000)
    (hn : n.val = t.val * 10000 + p.val) : inB8_1 V c t (ix2 p k) = inA8_1 V c (ix2 n k) := by
  obtain ⟨-, -, f0, f1, -, -⟩ := idx8_moving t
  show V c (Pipeline.arrRef spec8 1) (((cfg8.win 1).blk t).view.emb (ix2 p k)) = V c (Pipeline.arrRef spec8 1) (ix2 n k)
  refine congrArg (V c (Pipeline.arrRef spec8 1)) (funext fun a => Fin.ext ?_)
  match a with
  | ⟨0, _⟩ => show win8_1.index t (0 : Fin 2) * 10000 + 1 * p.val = n.val; omega
  | ⟨1, _⟩ => show win8_1.index t (1 : Fin 2) * 64 + 1 * k.val = k.val; omega

theorem inB8_2_eq (V : Entry) (c : Dev nD) (t : Fin cfg8.N) : inB8_2 V c t = inA8_2 V c := by
  obtain ⟨⟨f0, f1⟩, -⟩ := idx8_fixed t
  funext y
  show V c (Pipeline.arrRef spec8 2) (((cfg8.win 2).blk t).view.emb y) = V c (Pipeline.arrRef spec8 2) y
  refine congrArg (V c (Pipeline.arrRef spec8 2)) (funext fun a => Fin.ext ?_)
  match a with
  | ⟨0, _⟩ => show win8_2.index t (0 : Fin 2) * 64 + 1 * (y 0).val = (y 0).val; omega
  | ⟨1, _⟩ => show win8_2.index t (1 : Fin 2) * 64 + 1 * (y 1).val = (y 1).val; omega

theorem inB8_3_eq (V : Entry) (c : Dev nD) (t : Fin cfg8.N) : inB8_3 V c t = inA8_3 V c := by
  obtain ⟨-, ⟨f0, f1⟩, -⟩ := idx8_fixed t
  funext y
  show V c (Pipeline.arrRef spec8 3) (((cfg8.win 3).blk t).view.emb y) = V c (Pipeline.arrRef spec8 3) y
  refine congrArg (V c (Pipeline.arrRef spec8 3)) (funext fun a => Fin.ext ?_)
  match a with
  | ⟨0, _⟩ => show win8_3.index t (0 : Fin 2) * 64 + 1 * (y 0).val = (y 0).val; omega
  | ⟨1, _⟩ => show win8_3.index t (1 : Fin 2) * 64 + 1 * (y 1).val = (y 1).val; omega

theorem inB8_4_eq (V : Entry) (c : Dev nD) (t : Fin cfg8.N) : inB8_4 V c t = inA8_4 V c := by
  obtain ⟨-, -, ⟨f0, f1⟩, -⟩ := idx8_fixed t
  funext y
  show V c (Pipeline.arrRef spec8 4) (((cfg8.win 4).blk t).view.emb y) = V c (Pipeline.arrRef spec8 4) y
  refine congrArg (V c (Pipeline.arrRef spec8 4)) (funext fun a => Fin.ext ?_)
  match a with
  | ⟨0, _⟩ => show win8_4.index t (0 : Fin 2) * 1 + 1 * (y 0).val = (y 0).val; omega
  | ⟨1, _⟩ => show win8_4.index t (1 : Fin 2) * 64 + 1 * (y 1).val = (y 1).val; omega

theorem inB8_5_eq (V : Entry) (c : Dev nD) (t : Fin cfg8.N) : inB8_5 V c t = inA8_5 V c := by
  obtain ⟨-, -, -, ⟨f0, f1⟩, -⟩ := idx8_fixed t
  funext y
  show V c (Pipeline.arrRef spec8 5) (((cfg8.win 5).blk t).view.emb y) = V c (Pipeline.arrRef spec8 5) y
  refine congrArg (V c (Pipeline.arrRef spec8 5)) (funext fun a => Fin.ext ?_)
  match a with
  | ⟨0, _⟩ => show win8_5.index t (0 : Fin 2) * 1 + 1 * (y 0).val = (y 0).val; omega
  | ⟨1, _⟩ => show win8_5.index t (1 : Fin 2) * 64 + 1 * (y 1).val = (y 1).val; omega

theorem inB8_6_eq (V : Entry) (c : Dev nD) (t : Fin cfg8.N) : inB8_6 V c t = inA8_6 V c := by
  obtain ⟨-, -, -, -, ⟨f0, f1⟩, -⟩ := idx8_fixed t
  funext y
  show V c (Pipeline.arrRef spec8 6) (((cfg8.win 6).blk t).view.emb y) = V c (Pipeline.arrRef spec8 6) y
  refine congrArg (V c (Pipeline.arrRef spec8 6)) (funext fun a => Fin.ext ?_)
  match a with
  | ⟨0, _⟩ => show win8_6.index t (0 : Fin 2) * 1 + 1 * (y 0).val = (y 0).val; omega
  | ⟨1, _⟩ => show win8_6.index t (1 : Fin 2) * 64 + 1 * (y 1).val = (y 1).val; omega

theorem inB8_7_eq (V : Entry) (c : Dev nD) (t : Fin cfg8.N) : inB8_7 V c t = inA8_7 V c := by
  obtain ⟨-, -, -, -, -, ⟨f0, f1⟩, -⟩ := idx8_fixed t
  funext y
  show V c (Pipeline.arrRef spec8 7) (((cfg8.win 7).blk t).view.emb y) = V c (Pipeline.arrRef spec8 7) y
  refine congrArg (V c (Pipeline.arrRef spec8 7)) (funext fun a => Fin.ext ?_)
  match a with
  | ⟨0, _⟩ => show win8_7.index t (0 : Fin 2) * 1 + 1 * (y 0).val = (y 0).val; omega
  | ⟨1, _⟩ => show win8_7.index t (1 : Fin 2) * 64 + 1 * (y 1).val = (y 1).val; omega

theorem inB8_8_eq (V : Entry) (c : Dev nD) (t : Fin cfg8.N) : inB8_8 V c t = inA8_8 V c := by
  obtain ⟨-, -, -, -, -, -, ⟨f0, f1⟩, -⟩ := idx8_fixed t
  funext y
  show V c (Pipeline.arrRef spec8 8) (((cfg8.win 8).blk t).view.emb y) = V c (Pipeline.arrRef spec8 8) y
  refine congrArg (V c (Pipeline.arrRef spec8 8)) (funext fun a => Fin.ext ?_)
  match a with
  | ⟨0, _⟩ => show win8_8.index t (0 : Fin 2) * 1 + 1 * (y 0).val = (y 0).val; omega
  | ⟨1, _⟩ => show win8_8.index t (1 : Fin 2) * 64 + 1 * (y 1).val = (y 1).val; omega

theorem inB8_9_eq (V : Entry) (c : Dev nD) (t : Fin cfg8.N) : inB8_9 V c t = inA8_9 V c := by
  obtain ⟨-, -, -, -, -, -, -, f0, f1⟩ := idx8_fixed t
  funext y
  show V c (Pipeline.arrRef spec8 9) (((cfg8.win 9).blk t).view.emb y) = V c (Pipeline.arrRef spec8 9) y
  refine congrArg (V c (Pipeline.arrRef spec8 9)) (funext fun a => Fin.ext ?_)
  match a with
  | ⟨0, _⟩ => show win8_9.index t (0 : Fin 2) * 1 + 1 * (y 0).val = (y 0).val; omega
  | ⟨1, _⟩ => show win8_9.index t (1 : Fin 2) * 64 + 1 * (y 1).val = (y 1).val; omega

theorem out8_idx (t : Fin cfg8.N) (p : Fin 10000) (q : Fin 64) (n : Fin 50000) (hn : n.val = t.val * 10000 + p.val) :
    (((cfg8.win 10).blk t).view.emb (ix2 p q) : S50000x64.Idx) = ix2 n q := by
  obtain ⟨-, -, -, -, f0, f1⟩ := idx8_moving t
  funext a
  apply Fin.ext
  match a with
  | ⟨0, _⟩ => show win8_10.index t (0 : Fin 2) * 10000 + 1 * p.val = n.val; omega
  | ⟨1, _⟩ => show win8_10.index t (1 : Fin 2) * 64 + 1 * q.val = q.val; omega

theorem flushed8_eq (V : Entry) (c : Dev nD) (t : Fin cfg8.N) :
    (dat8 V c).flushed 10 t = ((cfg8.win 10).blk t).view.read (Elt Ideal) (normLoc (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9))) := by
  show (cfg8.win 10).cut (grid8.coords t) ((dat8 V c).after 10 t) = _
  rw [after8_10 V c t]
  unfold out8_10
  rw [View.canon_unit_zero zero_off8]
  simp only [View.ld_unit_zero (S := S10000x64) zero_off8, View.ld_unit_zero (S := S64x64) zero_off8,
    View.ld_unit_zero (S := S1x64) zero_off8]
  show (fun j : S10000x64.Idx => k8_pay1 (F := Ideal) (k8_pay2 (F := Ideal) (inB8_0 V c t) (inB8_1 V c t) (inB8_2 V c t) (inB8_3 V c t) (inB8_4 V c t) (inB8_5 V c t)) (k8_pay3 (F := Ideal) (inB8_6 V c t)) (k8_pay4 (F := Ideal) (inB8_7 V c t)) (k8_pay5 (F := Ideal) (inB8_8 V c t)) (inB8_9 V c t) j)
      = fun j : S10000x64.Idx => normLoc (inA8_0 V c) (inA8_1 V c) (inA8_2 V c) (inA8_3 V c) (inA8_4 V c) (inA8_5 V c) (inA8_6 V c) (inA8_7 V c) (inA8_8 V c) (inA8_9 V c) (((cfg8.win 10).blk t).view.emb j)
  funext j
  obtain ⟨p, q, rfl⟩ : ∃ (p : Fin 10000) (q : Fin 64), j = ix2 p q := ⟨j 0, j 1, eq_ix2 j⟩
  have ht : t.val < 5 := lt_of_lt_of_eq t.isLt N_8
  have hp : p.val < 10000 := p.isLt
  obtain ⟨n, hn⟩ : ∃ n : Fin 50000, n.val = t.val * 10000 + p.val := ⟨⟨t.val * 10000 + p.val, by omega⟩, rfl⟩
  refine (congrFun (pay8_eq (inB8_0 V c t) (inB8_1 V c t) (inB8_2 V c t) (inB8_3 V c t) (inB8_4 V c t) (inB8_5 V c t) (inB8_6 V c t) (inB8_7 V c t) (inB8_8 V c t) (inB8_9 V c t)) (ix2 p q)).trans ?_
  refine (normLoc_rows8 (inB8_0 V c t) (inB8_1 V c t) (inA8_0 V c) (inA8_1 V c) (inB8_2 V c t) (inB8_3 V c t) (inB8_4 V c t) (inB8_5 V c t) (inB8_6 V c t) (inB8_7 V c t) (inB8_8 V c t) (inB8_9 V c t) (inA8_2 V c) (inA8_3 V c) (inA8_4 V c) (inA8_5 V c) (inA8_6 V c) (inA8_7 V c) (inA8_8 V c) (inA8_9 V c)
    p n q
    (fun k => inB8_0_apply V c t p k n hn) (fun k => inB8_1_apply V c t p k n hn)
    (inB8_2_eq V c t) (inB8_3_eq V c t) (inB8_4_eq V c t) (inB8_5_eq V c t) (inB8_6_eq V c t) (inB8_7_eq V c t) (inB8_8_eq V c t) (inB8_9_eq V c t)).trans ?_
  exact congrArg (normLoc (inA8_0 V c) (inA8_1 V c) (inA8_2 V c) (inA8_3 V c) (inA8_4 V c) (inA8_5 V c) (inA8_6 V c) (inA8_7 V c) (inA8_8 V c) (inA8_9 V c)) (out8_idx t p q n hn).symm

theorem mem_blk8 (t : Fin cfg8.N) (i : S50000x64.Idx) :
    i ∈ ((cfg8.win 10).blk t).view.set ↔ ∀ a : Fin 2, win8_10.index t a * S10000x64.size a ≤ (i a).val ∧ (i a).val < win8_10.index t a * S10000x64.size a + S10000x64.size a := by
  show i ∈ ((View.whole main_v142).slice (win8_10.rect t)).set ↔ _
  rw [View.set_slice_whole, Rect.mem_set_unit]
  exact Iff.rfl

theorem cover8_arr (i : S50000x64.Idx) :
    ∃ t : Fin cfg8.N, (cfg8.win 10).flush t = true ∧ i ∈ ((cfg8.win 10).blk t).view.set := by
  have h0 : (i 0).val < 50000 := (i 0).isLt
  have h1 : (i 1).val < 64 := (i 1).isLt
  obtain ⟨t, ht⟩ : ∃ t : Fin cfg8.N, t.val = (i 0).val / 10000 :=
    ⟨⟨(i 0).val / 10000, by rw [show cfg8.N = 5 from N_8]; omega⟩, rfl⟩
  obtain ⟨-, -, -, -, f0, f1⟩ := idx8_moving t
  refine ⟨t, flush8_10 t, ?_⟩
  rw [mem_blk8]
  intro a
  match a with
  | ⟨0, _⟩ =>
    show win8_10.index t (0 : Fin 2) * 10000 ≤ (i 0).val ∧ (i 0).val < win8_10.index t (0 : Fin 2) * 10000 + 10000
    omega
  | ⟨1, _⟩ =>
    show win8_10.index t (1 : Fin 2) * 64 ≤ (i 1).val ∧ (i 1).val < win8_10.index t (1 : Fin 2) * 64 + 64
    omega

theorem norm8 (V : Entry) (c : Dev nD) :
    (dat8 V c).arrAt 10 cfg8.N = normLoc (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) := by
  exact (dat8 V c).arrAt_eq_of_cover 10 (normLoc (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9))) (fun t _ => flushed8_eq V c t) (fun i => cover8_arr i)

end Cert.KernelIdeal.Val

end
-- ==== Proof.KLayer2a.lean ====
import proofs.«428660_j69922067578969_2_alg».proof.Proof.Gen.KernelIdeal.Launch
import proofs.«428660_j69922067578969_2_alg».proof.Proof.KParams
import Idealize.ShloMosaic.Lib.StableHlo.Run

set_option maxRecDepth 16384

noncomputable section

namespace Cert.KernelIdeal.Val.L2

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrP : List (Ref sig .tc) :=
  [main_v99, main_v100, main_v101, main_v102, main_v103, main_v104, main_v105, main_v106, main_v107, main_v108,
   main_v109, main_v110, main_v111, main_v112, main_v113, main_v114, main_v115, main_v116, main_v117, main_v118,
   main_v119, main_v120, main_v121]

theorem wrP_sub :
    (hostOps6 (F := Ideal)).Forall fun op => op.writes ⊆ (wrP.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepP (r : Ref sig .tc) (h : r ∉ wrP) :
    StableHlo.after (hostOps6 (F := Ideal)) V (Proc.devRef .tc r) = V (Proc.devRef .tc r) :=
  StableHlo.after_of_writes_sub _ V wrP_sub h

theorem p_wm0 : StableHlo.after (hostOps6 (F := Ideal)) V (Proc.devRef .tc main_v100)
    = half0 (V (Proc.devRef .tc main_arg3)) (2 : Fin 4) := by
  after_results_simp; exact half0_read _ (2 : Fin 4) _ rfl rfl rfl _ _

theorem p_wm1 : StableHlo.after (hostOps6 (F := Ideal)) V (Proc.devRef .tc main_v102)
    = half1 (V (Proc.devRef .tc main_arg3)) (2 : Fin 4) := by
  after_results_simp; exact half1_read _ (2 : Fin 4) _ rfl rfl rfl _ _

theorem p_wu0 : StableHlo.after (hostOps6 (F := Ideal)) V (Proc.devRef .tc main_v104)
    = half0 (V (Proc.devRef .tc main_arg5)) (2 : Fin 4) := by
  after_results_simp; exact half0_read _ (2 : Fin 4) _ rfl rfl rfl _ _

theorem p_wu1 : StableHlo.after (hostOps6 (F := Ideal)) V (Proc.devRef .tc main_v106)
    = half1 (V (Proc.devRef .tc main_arg5)) (2 : Fin 4) := by
  after_results_simp; exact half1_read _ (2 : Fin 4) _ rfl rfl rfl _ _

theorem p_bm : StableHlo.after (hostOps6 (F := Ideal)) V (Proc.devRef .tc main_v109)
    = rowOf (V (Proc.devRef .tc main_arg4)) (2 : Fin 4) := by
  after_results_simp; exact rowOf_read _ (2 : Fin 4) _ rfl rfl _ _ _

theorem p_bu : StableHlo.after (hostOps6 (F := Ideal)) V (Proc.devRef .tc main_v112)
    = rowOf (V (Proc.devRef .tc main_arg6)) (2 : Fin 4) := by
  after_results_simp; exact rowOf_read _ (2 : Fin 4) _ rfl rfl _ _ _

theorem p_a : StableHlo.after (hostOps6 (F := Ideal)) V (Proc.devRef .tc main_v115)
    = splatOf (V (Proc.devRef .tc main_arg7)) (2 : Fin 4) := by
  after_results_simp; exact splatOf_read _ (2 : Fin 4) _ rfl _ _ _ _

theorem p_gam : StableHlo.after (hostOps6 (F := Ideal)) V (Proc.devRef .tc main_v118)
    = rowOf (V (Proc.devRef .tc main_arg8)) (2 : Fin 4) := by
  after_results_simp; exact rowOf_read _ (2 : Fin 4) _ rfl rfl _ _ _

theorem p_bet : StableHlo.after (hostOps6 (F := Ideal)) V (Proc.devRef .tc main_v121)
    = rowOf (V (Proc.devRef .tc main_arg9)) (2 : Fin 4) := by
  after_results_simp; exact rowOf_read _ (2 : Fin 4) _ rfl rfl _ _ _

end Cert.KernelIdeal.Val.L2

end
-- ==== Proof.KLayer2b.lean ====
import proofs.«428660_j69922067578969_2_alg».proof.Proof.Gen.KernelIdeal.Launch
import proofs.«428660_j69922067578969_2_alg».proof.Proof.Take
import Idealize.ShloMosaic.Lib.StableHlo.Run

set_option maxRecDepth 16384

noncomputable section

namespace Cert.KernelIdeal.Val.L2

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrT1 : List (Ref sig .tc) :=
  [main_call4_c, main_call4_v0, main_call4_v1, main_call4_c_0, main_call4_v2, main_call4_v3, main_call4_v4,
   main_call4_v5, main_call4_c_1, main_call4_c_2, main_call4_v6, main_call4_v7, main_call4_v8,
   main_call4_v9, main_call4_v10, main_call4_v11, main_call4_c_3, main_call4_v12, main_call4_v13,
   main_call4_v14, main_call4_cst, main_call4_v15, main_v122]

theorem wrT1_sub :
    (hostOps6_1 (F := Ideal)).Forall fun op => op.writes ⊆ (wrT1.map (Proc.devRef (τ := τ) .tc)).toFinset := by
  simp only [hostOps6_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepT1 (r : Ref sig .tc) (h : r ∉ wrT1) :
    StableHlo.after (hostOps6_1 (F := Ideal)) V (Proc.devRef .tc r) = V (Proc.devRef .tc r) :=
  StableHlo.after_of_writes_sub _ V wrT1_sub h

abbrev wrT2 : List (Ref sig .tc) :=
  [main_call5_c, main_call5_v0, main_call5_v1, main_call5_c_0, main_call5_v2, main_call5_v3, main_call5_v4,
   main_call5_v5, main_call5_c_1, main_call5_c_2, main_call5_v6, main_call5_v7, main_call5_v8,
   main_call5_v9, main_call5_v10, main_call5_v11, main_call5_c_3, main_call5_v12, main_call5_v13,
   main_call5_v14, main_call5_cst, main_call5_v15, main_v123]

theorem wrT2_sub :
    (hostOps6_2 (F := Ideal)).Forall fun op => op.writes ⊆ (wrT2.map (Proc.devRef (τ := τ) .tc)).toFinset := by
  simp only [hostOps6_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepT2 (r : Ref sig .tc) (h : r ∉ wrT2) :
    StableHlo.after (hostOps6_2 (F := Ideal)) V (Proc.devRef .tc r) = V (Proc.devRef .tc r) :=
  StableHlo.after_of_writes_sub _ V wrT2_sub h

theorem cast_cast_id {α β : Type} (h₁ : α = β) (h₂ : β = α) (v : α) : cast h₂ (cast h₁ v) = v := by
  subst h₁; rfl

theorem toBuf_o1 (v : (⟨S800000x64, .f32⟩ : BufTy).Contents (Elt Ideal)) :
    (StableHlo.TRef.of main_v122 : StableHlo.TRef sig ⟨S800000x64, .f32⟩).toBuf v = v := rfl
theorem toBuf_o2 (v : (⟨S800000x64, .f32⟩ : BufTy).Contents (Elt Ideal)) :
    (StableHlo.TRef.of main_v123 : StableHlo.TRef sig ⟨S800000x64, .f32⟩).toBuf v = v := rfl
theorem ofBuf_h (v : (main_v98 : Ref sig .tc).ty.Contents (Elt Ideal)) :
    (StableHlo.TRef.of main_v98 : StableHlo.TRef sig ⟨S50000x64, .f32⟩).ofBuf v = v := rfl
theorem ofBuf_s (v : (main_v1 : Ref sig .tc).ty.Contents (Elt Ideal)) :
    (StableHlo.TRef.of main_v1 : StableHlo.TRef sig ⟨S800000, .i32⟩).ofBuf v = v := rfl
theorem ofBuf_d (v : (main_v3 : Ref sig .tc).ty.Contents (Elt Ideal)) :
    (StableHlo.TRef.of main_v3 : StableHlo.TRef sig ⟨S800000, .i32⟩).ofBuf v = v := rfl

theorem take1' : StableHlo.after (hostOps6_1 (F := Ideal)) V (Proc.devRef .tc main_v122)
    = (StableHlo.TRef.of main_v122 : StableHlo.TRef sig ⟨S800000x64, .f32⟩).toBuf
        (takeK ((StableHlo.TRef.of main_v98 : StableHlo.TRef sig ⟨S50000x64, .f32⟩).ofBuf (V (Proc.devRef .tc main_v98)))
          ((StableHlo.TRef.of main_v1 : StableHlo.TRef sig ⟨S800000, .i32⟩).ofBuf (V (Proc.devRef .tc main_v1)))) := by
  after_results_simp
  simp only [StableHlo.TRef.ofBuf, StableHlo.TRef.toBuf, cast_cast_id]
  unfold takeK Cert.Shared.wrap
  with_reducible rfl

theorem take1 : StableHlo.after (hostOps6_1 (F := Ideal)) V (Proc.devRef .tc main_v122)
    = takeK (V (Proc.devRef .tc main_v98)) (V (Proc.devRef .tc main_v1)) :=
  (take1' V).trans ((toBuf_o1 _).trans (congrArg₂ takeK (ofBuf_h _) (ofBuf_s _)))

theorem take2' : StableHlo.after (hostOps6_2 (F := Ideal)) V (Proc.devRef .tc main_v123)
    = (StableHlo.TRef.of main_v123 : StableHlo.TRef sig ⟨S800000x64, .f32⟩).toBuf
        (takeK ((StableHlo.TRef.of main_v98 : StableHlo.TRef sig ⟨S50000x64, .f32⟩).ofBuf (V (Proc.devRef .tc main_v98)))
          ((StableHlo.TRef.of main_v3 : StableHlo.TRef sig ⟨S800000, .i32⟩).ofBuf (V (Proc.devRef .tc main_v3)))) := by
  after_results_simp
  simp only [StableHlo.TRef.ofBuf, StableHlo.TRef.toBuf, cast_cast_id]
  unfold takeK Cert.Shared.wrap
  with_reducible rfl

theorem take2 : StableHlo.after (hostOps6_2 (F := Ideal)) V (Proc.devRef .tc main_v123)
    = takeK (V (Proc.devRef .tc main_v98)) (V (Proc.devRef .tc main_v3)) :=
  (take2' V).trans ((toBuf_o2 _).trans (congrArg₂ takeK (ofBuf_h _) (ofBuf_d _)))

end Cert.KernelIdeal.Val.L2

end
-- ==== Proof.KLayer2c.lean ====
import proofs.«428660_j69922067578969_2_alg».proof.Proof.Gen.KernelIdeal.Launch
import proofs.«428660_j69922067578969_2_alg».proof.Proof.Shared
import Idealize.ShloMosaic.Lib.StableHlo.Run

set_option maxRecDepth 16384

noncomputable section

namespace Cert.KernelIdeal.Val.L2

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrA : List (Ref sig .tc) :=
  [main_cst_12, main_v125, main_v126, main_v127, main_v128, main_v129]

theorem wrA_sub :
    (hostOps7 (F := Ideal)).Forall fun op => op.writes ⊆ (wrA.map (Proc.devRef (τ := τ) .tc)).toFinset := by
  simp only [hostOps7, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepA (r : Ref sig .tc) (h : r ∉ wrA) :
    StableHlo.after (hostOps7 (F := Ideal)) V (Proc.devRef .tc r) = V (Proc.devRef .tc r) :=
  StableHlo.after_of_writes_sub _ V wrA_sub h

abbrev wrS : List (Ref sig .tc) :=
  [main_cst_13, main_v131, main_v132, main_cst_14, main_v133, main_v134, main_v135, main_v136, main_cst_15,
   main_v137, main_v138, main_cst_16, main_v139, main_v140, main_v141]

theorem wrS_sub :
    (hostOps8 (F := Ideal)).Forall fun op => op.writes ⊆ (wrS.map (Proc.devRef (τ := τ) .tc)).toFinset := by
  simp only [hostOps8, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepS (r : Ref sig .tc) (h : r ∉ wrS) :
    StableHlo.after (hostOps8 (F := Ideal)) V (Proc.devRef .tc r) = V (Proc.devRef .tc r) :=
  StableHlo.after_of_writes_sub _ V wrS_sub h

theorem aggr (ei : IVec S2x800000 32) (hd : V (Proc.devRef .tc main_v3) = Cert.Shared.dst ei)
    (hg : V (Proc.devRef .tc main_v10) = Cert.Shared.deg ei) :
    StableHlo.after (hostOps7 (F := Ideal)) V (Proc.devRef .tc main_v129)
      = Cert.Shared.agg ei (V (Proc.devRef .tc main_v124)) := by
  after_results
  rw [hd, hg]
  rfl

theorem mean : StableHlo.after (hostOps8 (F := Ideal)) V (Proc.devRef .tc main_v132)
    = meanOf (V (Proc.devRef .tc main_v130_0)) := by
  after_results
  rfl

theorem istd : StableHlo.after (hostOps8 (F := Ideal)) V (Proc.devRef .tc main_v141)
    = invstdOf (varK (V (Proc.devRef .tc main_v130_0)) (V (Proc.devRef .tc main_v130_1))) := by
  after_results
  rfl

end Cert.KernelIdeal.Val.L2

end
-- ==== Proof.KLayer2.lean ====
import proofs.«428660_j69922067578969_2_alg».proof.Proof.Gen.KernelIdeal.Frame
import proofs.«428660_j69922067578969_2_alg».proof.Proof.KLive
import proofs.«428660_j69922067578969_2_alg».proof.Proof.KMsg6
import proofs.«428660_j69922067578969_2_alg».proof.Proof.KStats7
import proofs.«428660_j69922067578969_2_alg».proof.Proof.KNorm8
import proofs.«428660_j69922067578969_2_alg».proof.Proof.KLayer2a
import proofs.«428660_j69922067578969_2_alg».proof.Proof.KLayer2b
import proofs.«428660_j69922067578969_2_alg».proof.Proof.KLayer2c

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.Spec

namespace L2

abbrev pWm0 (m : Mem) (c : Dev nD) : A2 64 64 := half0 (m ((c : Thread nD τ).loc main_arg3)) (2 : Fin 4)
abbrev pWm1 (m : Mem) (c : Dev nD) : A2 64 64 := half1 (m ((c : Thread nD τ).loc main_arg3)) (2 : Fin 4)
abbrev pBm (m : Mem) (c : Dev nD) : A2 1 64 := rowOf (m ((c : Thread nD τ).loc main_arg4)) (2 : Fin 4)
abbrev pWu0 (m : Mem) (c : Dev nD) : A2 64 64 := half0 (m ((c : Thread nD τ).loc main_arg5)) (2 : Fin 4)
abbrev pWu1 (m : Mem) (c : Dev nD) : A2 64 64 := half1 (m ((c : Thread nD τ).loc main_arg5)) (2 : Fin 4)
abbrev pBu (m : Mem) (c : Dev nD) : A2 1 64 := rowOf (m ((c : Thread nD τ).loc main_arg6)) (2 : Fin 4)
abbrev pA (m : Mem) (c : Dev nD) : A2 1 64 := splatOf (m ((c : Thread nD τ).loc main_arg7)) (2 : Fin 4)
abbrev pGam (m : Mem) (c : Dev nD) : A2 1 64 := rowOf (m ((c : Thread nD τ).loc main_arg8)) (2 : Fin 4)
abbrev pBet (m : Mem) (c : Dev nD) : A2 1 64 := rowOf (m ((c : Thread nD τ).loc main_arg9)) (2 : Fin 4)

abbrev xGs (m : Mem) (c : Dev nD) (H : A2 50000 64) : A2 800000 64 := Cert.Shared.gat (Cert.Shared.src (m ((c : Thread nD τ).loc main_arg1))) H
abbrev xGd (m : Mem) (c : Dev nD) (H : A2 50000 64) : A2 800000 64 := Cert.Shared.gat (Cert.Shared.dst (m ((c : Thread nD τ).loc main_arg1))) H

abbrev xMsg (m : Mem) (c : Dev nD) (H : A2 50000 64) : A2 800000 64 := msgLoc (xGs m c H) (xGd m c H) (pWm0 m c) (pWm1 m c) (pBm m c)
abbrev xAgg (m : Mem) (c : Dev nD) (H : A2 50000 64) : A2 50000 64 := Cert.Shared.agg (m ((c : Thread nD τ).loc main_arg1)) (xMsg m c H)
abbrev xUpd (m : Mem) (c : Dev nD) (H : A2 50000 64) : A2 50000 64 := uLoc H (xAgg m c H) (pWu0 m c) (pWu1 m c) (pBu m c) (pA m c)
abbrev xSum (m : Mem) (c : Dev nD) (H : A2 50000 64) : A2 1 64 := colSum (xUpd m c H)
abbrev xSq (m : Mem) (c : Dev nD) (H : A2 50000 64) : A2 1 64 := colSum (sq (xUpd m c H))
abbrev xMean (m : Mem) (c : Dev nD) (H : A2 50000 64) : A2 1 64 := meanOf (xSum m c H)
abbrev xIstd (m : Mem) (c : Dev nD) (H : A2 50000 64) : A2 1 64 := invstdOf (varK (xSum m c H) (xSq m c H))

abbrev xOut (m : Mem) (c : Dev nD) (H : A2 50000 64) : A2 50000 64 :=
  normLoc H (xAgg m c H) (pWu0 m c) (pWu1 m c) (pBu m c) (pA m c) (xMean m c H) (xIstd m c H) (pGam m c) (pBet m c)

theorem xOut_eq (m : Mem) (c : Dev nD) (H : A2 50000 64) : xOut m c H = layerOf m c (2 : Fin 4) H := rfl

section Keeps

variable (m : Mem) (ρ : Dev nD → PrngReg) (c : Dev nD)

theorem kP (r : Ref sig .tc) (h : r ∉ wrP) : W17 m ρ c (Proc.devRef .tc r) = W16 m ρ c (Proc.devRef .tc r) := keepP _ r h
theorem kT1 (r : Ref sig .tc) (h : r ∉ wrT1) : W18 m ρ c (Proc.devRef .tc r) = W17 m ρ c (Proc.devRef .tc r) := keepT1 _ r h
theorem kT2 (r : Ref sig .tc) (h : r ∉ wrT2) : W19 m ρ c (Proc.devRef .tc r) = W18 m ρ c (Proc.devRef .tc r) := keepT2 _ r h
theorem kA (r : Ref sig .tc) (h : r ∉ wrA) : W21 m ρ c (Proc.devRef .tc r) = W20 m ρ c (Proc.devRef .tc r) := keepA _ r h
theorem kQ (r : Ref sig .tc) (h : r ∉ wrS) : W23 m ρ c (Proc.devRef .tc r) = W22 m ρ c (Proc.devRef .tc r) := keepS _ r h

theorem inM : ∀ w : Fin 6, Pipeline.arrRef spec6 w ≠ main_v124 →
    W20 m ρ c (Proc.devRef .tc (Pipeline.arrRef spec6 w)) = W19 m ρ c (Proc.devRef .tc (Pipeline.arrRef spec6 w))
  | 0, _ => (W20_arr m ρ c 0).trans (((dat6 (V19 m ρ) c).arrAt_in 0 rfl _).trans (A_eq6 (V19 m ρ) c 0))
  | 1, _ => (W20_arr m ρ c 1).trans (((dat6 (V19 m ρ) c).arrAt_in 1 rfl _).trans (A_eq6 (V19 m ρ) c 1))
  | 2, _ => (W20_arr m ρ c 2).trans (((dat6 (V19 m ρ) c).arrAt_in 2 rfl _).trans (A_eq6 (V19 m ρ) c 2))
  | 3, _ => (W20_arr m ρ c 3).trans (((dat6 (V19 m ρ) c).arrAt_in 3 rfl _).trans (A_eq6 (V19 m ρ) c 3))
  | 4, _ => (W20_arr m ρ c 4).trans (((dat6 (V19 m ρ) c).arrAt_in 4 rfl _).trans (A_eq6 (V19 m ρ) c 4))
  | 5, h => absurd rfl h
  | ⟨_ + 6, hlt⟩, _ => absurd hlt (by omega)

theorem kM (r : Ref sig .tc) (h0 : r ≠ main_v124) :
    W20 m ρ c (Proc.devRef .tc r) = W19 m ρ c (Proc.devRef .tc r) := by
  by_cases hw : ∃ w, Pipeline.arrRef spec6 w = r
  · obtain ⟨w, rfl⟩ := hw
    exact inM m ρ c w h0
  · exact W20_of_ne m ρ c r fun w e => hw ⟨w, e⟩

theorem inS : ∀ w : Fin 8, Pipeline.arrRef spec7 w ≠ main_v130_0 → Pipeline.arrRef spec7 w ≠ main_v130_1 →
    W22 m ρ c (Proc.devRef .tc (Pipeline.arrRef spec7 w)) = W21 m ρ c (Proc.devRef .tc (Pipeline.arrRef spec7 w))
  | 0, _, _ => (W22_arr m ρ c 0).trans (((dat7 (V21 m ρ) c).arrAt_in 0 rfl _).trans (A_eq7 (V21 m ρ) c 0))
  | 1, _, _ => (W22_arr m ρ c 1).trans (((dat7 (V21 m ρ) c).arrAt_in 1 rfl _).trans (A_eq7 (V21 m ρ) c 1))
  | 2, _, _ => (W22_arr m ρ c 2).trans (((dat7 (V21 m ρ) c).arrAt_in 2 rfl _).trans (A_eq7 (V21 m ρ) c 2))
  | 3, _, _ => (W22_arr m ρ c 3).trans (((dat7 (V21 m ρ) c).arrAt_in 3 rfl _).trans (A_eq7 (V21 m ρ) c 3))
  | 4, _, _ => (W22_arr m ρ c 4).trans (((dat7 (V21 m ρ) c).arrAt_in 4 rfl _).trans (A_eq7 (V21 m ρ) c 4))
  | 5, _, _ => (W22_arr m ρ c 5).trans (((dat7 (V21 m ρ) c).arrAt_in 5 rfl _).trans (A_eq7 (V21 m ρ) c 5))
  | 6, h, _ => absurd rfl h
  | 7, _, h => absurd rfl h
  | ⟨_ + 8, hlt⟩, _, _ => absurd hlt (by omega)

theorem kS (r : Ref sig .tc) (h0 : r ≠ main_v130_0) (h1 : r ≠ main_v130_1) :
    W22 m ρ c (Proc.devRef .tc r) = W21 m ρ c (Proc.devRef .tc r) := by
  by_cases hw : ∃ w, Pipeline.arrRef spec7 w = r
  · obtain ⟨w, rfl⟩ := hw
    exact inS m ρ c w h0 h1
  · exact W22_of_ne m ρ c r fun w e => hw ⟨w, e⟩

theorem inN : ∀ w : Fin 11, Pipeline.arrRef spec8 w ≠ main_v142 →
    W24 m ρ c (Proc.devRef .tc (Pipeline.arrRef spec8 w)) = W23 m ρ c (Proc.devRef .tc (Pipeline.arrRef spec8 w))
  | 0, _ => (W24_arr m ρ c 0).trans (((dat8 (V23 m ρ) c).arrAt_in 0 rfl _).trans (A_eq8 (V23 m ρ) c 0))
  | 1, _ => (W24_arr m ρ c 1).trans (((dat8 (V23 m ρ) c).arrAt_in 1 rfl _).trans (A_eq8 (V23 m ρ) c 1))
  | 2, _ => (W24_arr m ρ c 2).trans (((dat8 (V23 m ρ) c).arrAt_in 2 rfl _).trans (A_eq8 (V23 m ρ) c 2))
  | 3, _ => (W24_arr m ρ c 3).trans (((dat8 (V23 m ρ) c).arrAt_in 3 rfl _).trans (A_eq8 (V23 m ρ) c 3))
  | 4, _ => (W24_arr m ρ c 4).trans (((dat8 (V23 m ρ) c).arrAt_in 4 rfl _).trans (A_eq8 (V23 m ρ) c 4))
  | 5, _ => (W24_arr m ρ c 5).trans (((dat8 (V23 m ρ) c).arrAt_in 5 rfl _).trans (A_eq8 (V23 m ρ) c 5))
  | 6, _ => (W24_arr m ρ c 6).trans (((dat8 (V23 m ρ) c).arrAt_in 6 rfl _).trans (A_eq8 (V23 m ρ) c 6))
  | 7, _ => (W24_arr m ρ c 7).trans (((dat8 (V23 m ρ) c).arrAt_in 7 rfl _).trans (A_eq8 (V23 m ρ) c 7))
  | 8, _ => (W24_arr m ρ c 8).trans (((dat8 (V23 m ρ) c).arrAt_in 8 rfl _).trans (A_eq8 (V23 m ρ) c 8))
  | 9, _ => (W24_arr m ρ c 9).trans (((dat8 (V23 m ρ) c).arrAt_in 9 rfl _).trans (A_eq8 (V23 m ρ) c 9))
  | 10, h => absurd rfl h
  | ⟨_ + 11, hlt⟩, _ => absurd hlt (by omega)

theorem kN (r : Ref sig .tc) (h0 : r ≠ main_v142) :
    W24 m ρ c (Proc.devRef .tc r) = W23 m ρ c (Proc.devRef .tc r) := by
  by_cases hw : ∃ w, Pipeline.arrRef spec8 w = r
  · obtain ⟨w, rfl⟩ := hw
    exact inN m ρ c w h0
  · exact W24_of_ne m ρ c r fun w e => hw ⟨w, e⟩

theorem kAll (r : Ref sig .tc) (hP : r ∉ wrP) (hT1 : r ∉ wrT1) (hT2 : r ∉ wrT2) (hM : r ≠ main_v124) (hA : r ∉ wrA)
    (hS0 : r ≠ main_v130_0) (hS1 : r ≠ main_v130_1) (hS : r ∉ wrS) (hN : r ≠ main_v142) :
    W24 m ρ c (Proc.devRef .tc r) = W16 m ρ c (Proc.devRef .tc r) :=
  (kN m ρ c r hN).trans <| (kQ m ρ c r hS).trans <| (kS m ρ c r hS0 hS1).trans <| (kA m ρ c r hA).trans <|
    (kM m ρ c r hM).trans <| (kT2 m ρ c r hT2).trans <| (kT1 m ρ c r hT1).trans (kP m ρ c r hP)

theorem liveN (L : Live m c (W16 m ρ c)) : Live m c (W24 m ρ c) where
  a0 := (kAll m ρ c main_arg0 (by decide) (by decide) (by decide) (by decide) (by decide) (by decide) (by decide) (by decide) (by decide)).trans L.a0
  a1 := (kAll m ρ c main_arg1 (by decide) (by decide) (by decide) (by decide) (by decide) (by decide) (by decide) (by decide) (by decide)).trans L.a1
  a2 := (kAll m ρ c main_arg2 (by decide) (by decide) (by decide) (by decide) (by decide) (by decide) (by decide) (by decide) (by decide)).trans L.a2
  a3 := (kAll m ρ c main_arg3 (by decide) (by decide) (by decide) (by decide) (by decide) (by decide) (by decide) (by decide) (by decide)).trans L.a3
  a4 := (kAll m ρ c main_arg4 (by decide) (by decide) (by decide) (by decide) (by decide) (by decide) (by decide) (by decide) (by decide)).trans L.a4
  a5 := (kAll m ρ c main_arg5 (by decide) (by decide) (by decide) (by decide) (by decide) (by decide) (by decide) (by decide) (by decide)).trans L.a5
  a6 := (kAll m ρ c main_arg6 (by decide) (by decide) (by decide) (by decide) (by decide) (by decide) (by decide) (by decide) (by decide)).trans L.a6
  a7 := (kAll m ρ c main_arg7 (by decide) (by decide) (by decide) (by decide) (by decide) (by decide) (by decide) (by decide) (by decide)).trans L.a7
  a8 := (kAll m ρ c main_arg8 (by decide) (by decide) (by decide) (by decide) (by decide) (by decide) (by decide) (by decide) (by decide)).trans L.a8
  a9 := (kAll m ρ c main_arg9 (by decide) (by decide) (by decide) (by decide) (by decide) (by decide) (by decide) (by decide) (by decide)).trans L.a9
  a10 := (kAll m ρ c main_arg10 (by decide) (by decide) (by decide) (by decide) (by decide) (by decide) (by decide) (by decide) (by decide)).trans L.a10
  a11 := (kAll m ρ c main_arg11 (by decide) (by decide) (by decide) (by decide) (by decide) (by decide) (by decide) (by decide) (by decide)).trans L.a11
  a12 := (kAll m ρ c main_arg12 (by decide) (by decide) (by decide) (by decide) (by decide) (by decide) (by decide) (by decide) (by decide)).trans L.a12
  a13 := (kAll m ρ c main_arg13 (by decide) (by decide) (by decide) (by decide) (by decide) (by decide) (by decide) (by decide) (by decide)).trans L.a13
  src := (kAll m ρ c main_v1 (by decide) (by decide) (by decide) (by decide) (by decide) (by decide) (by decide) (by decide) (by decide)).trans L.src
  dst := (kAll m ρ c main_v3 (by decide) (by decide) (by decide) (by decide) (by decide) (by decide) (by decide) (by decide) (by decide)).trans L.dst
  deg := (kAll m ρ c main_v10 (by decide) (by decide) (by decide) (by decide) (by decide) (by decide) (by decide) (by decide) (by decide)).trans L.deg

end Keeps

section Values

variable {m : Mem} {ρ : Dev nD → PrngReg} {c : Dev nD} {H : A2 50000 64}

theorem atP_h (hH : W16 m ρ c (Proc.devRef .tc main_v98) = H) : W17 m ρ c (Proc.devRef .tc main_v98) = H :=
  (kP m ρ c main_v98 (by decide)).trans hH
theorem atP_src (L : Live m c (W16 m ρ c)) : W17 m ρ c (Proc.devRef .tc main_v1) = Cert.Shared.src (m ((c : Thread nD τ).loc main_arg1)) :=
  (kP m ρ c main_v1 (by decide)).trans L.src
theorem atP_dst (L : Live m c (W16 m ρ c)) : W17 m ρ c (Proc.devRef .tc main_v3) = Cert.Shared.dst (m ((c : Thread nD τ).loc main_arg1)) :=
  (kP m ρ c main_v3 (by decide)).trans L.dst
theorem atP_deg (L : Live m c (W16 m ρ c)) : W17 m ρ c (Proc.devRef .tc main_v10) = Cert.Shared.deg (m ((c : Thread nD τ).loc main_arg1)) :=
  (kP m ρ c main_v10 (by decide)).trans L.deg
theorem atP_wm0 (L : Live m c (W16 m ρ c)) : W17 m ρ c (Proc.devRef .tc main_v100) = pWm0 m c :=
  (p_wm0 (W16 m ρ c)).trans (by rw [L.a3])
theorem atP_wm1 (L : Live m c (W16 m ρ c)) : W17 m ρ c (Proc.devRef .tc main_v102) = pWm1 m c :=
  (p_wm1 (W16 m ρ c)).trans (by rw [L.a3])
theorem atP_wu0 (L : Live m c (W16 m ρ c)) : W17 m ρ c (Proc.devRef .tc main_v104) = pWu0 m c :=
  (p_wu0 (W16 m ρ c)).trans (by rw [L.a5])
theorem atP_wu1 (L : Live m c (W16 m ρ c)) : W17 m ρ c (Proc.devRef .tc main_v106) = pWu1 m c :=
  (p_wu1 (W16 m ρ c)).trans (by rw [L.a5])
theorem atP_bm (L : Live m c (W16 m ρ c)) : W17 m ρ c (Proc.devRef .tc main_v109) = pBm m c :=
  (p_bm (W16 m ρ c)).trans (by rw [L.a4])
theorem atP_bu (L : Live m c (W16 m ρ c)) : W17 m ρ c (Proc.devRef .tc main_v112) = pBu m c :=
  (p_bu (W16 m ρ c)).trans (by rw [L.a6])
theorem atP_a (L : Live m c (W16 m ρ c)) : W17 m ρ c (Proc.devRef .tc main_v115) = pA m c :=
  (p_a (W16 m ρ c)).trans (by rw [L.a7])
theorem atP_gam (L : Live m c (W16 m ρ c)) : W17 m ρ c (Proc.devRef .tc main_v118) = pGam m c :=
  (p_gam (W16 m ρ c)).trans (by rw [L.a8])
theorem atP_bet (L : Live m c (W16 m ρ c)) : W17 m ρ c (Proc.devRef .tc main_v121) = pBet m c :=
  (p_bet (W16 m ρ c)).trans (by rw [L.a9])

theorem atT1_gs (hr : InRange m c) (L : Live m c (W16 m ρ c)) (hH : W16 m ρ c (Proc.devRef .tc main_v98) = H) :
    W18 m ρ c (Proc.devRef .tc main_v122) = xGs m c H :=
  (take1 (W17 m ρ c)).trans (by rw [atP_h hH, atP_src L]; exact takeK_src H _ hr)
theorem atT1_h (hH : W16 m ρ c (Proc.devRef .tc main_v98) = H) : W18 m ρ c (Proc.devRef .tc main_v98) = H :=
  (kT1 m ρ c main_v98 (by decide)).trans (atP_h hH)
theorem atT1_dst (L : Live m c (W16 m ρ c)) : W18 m ρ c (Proc.devRef .tc main_v3) = Cert.Shared.dst (m ((c : Thread nD τ).loc main_arg1)) :=
  (kT1 m ρ c main_v3 (by decide)).trans (atP_dst L)
theorem atT2_gd (hr : InRange m c) (L : Live m c (W16 m ρ c)) (hH : W16 m ρ c (Proc.devRef .tc main_v98) = H) :
    W19 m ρ c (Proc.devRef .tc main_v123) = xGd m c H :=
  (take2 (W18 m ρ c)).trans (by rw [atT1_h hH, atT1_dst L]; exact takeK_dst H _ hr)
theorem atT2_gs (hr : InRange m c) (L : Live m c (W16 m ρ c)) (hH : W16 m ρ c (Proc.devRef .tc main_v98) = H) :
    W19 m ρ c (Proc.devRef .tc main_v122) = xGs m c H :=
  (kT2 m ρ c main_v122 (by decide)).trans (atT1_gs hr L hH)
theorem atT2_wm0 (L : Live m c (W16 m ρ c)) : W19 m ρ c (Proc.devRef .tc main_v100) = pWm0 m c :=
  (kT2 m ρ c main_v100 (by decide)).trans <| (kT1 m ρ c main_v100 (by decide)).trans <| atP_wm0 L
theorem atT2_wm1 (L : Live m c (W16 m ρ c)) : W19 m ρ c (Proc.devRef .tc main_v102) = pWm1 m c :=
  (kT2 m ρ c main_v102 (by decide)).trans <| (kT1 m ρ c main_v102 (by decide)).trans <| atP_wm1 L
theorem atT2_bm (L : Live m c (W16 m ρ c)) : W19 m ρ c (Proc.devRef .tc main_v109) = pBm m c :=
  (kT2 m ρ c main_v109 (by decide)).trans <| (kT1 m ρ c main_v109 (by decide)).trans <| atP_bm L

theorem atM_msg (hr : InRange m c) (L : Live m c (W16 m ρ c)) (hH : W16 m ρ c (Proc.devRef .tc main_v98) = H) :
    W20 m ρ c (Proc.devRef .tc main_v124) = xMsg m c H := by
  refine ((W20_arr m ρ c 5).trans (msg6 (V19 m ρ) c)).trans ?_
  show msgLoc (W19 m ρ c (Proc.devRef .tc main_v122)) (W19 m ρ c (Proc.devRef .tc main_v123)) (W19 m ρ c (Proc.devRef .tc main_v100))
    (W19 m ρ c (Proc.devRef .tc main_v102)) (W19 m ρ c (Proc.devRef .tc main_v109)) = _
  rw [atT2_gs hr L hH, atT2_gd hr L hH, atT2_wm0 L, atT2_wm1 L, atT2_bm L]
theorem atM_dst (L : Live m c (W16 m ρ c)) : W20 m ρ c (Proc.devRef .tc main_v3) = Cert.Shared.dst (m ((c : Thread nD τ).loc main_arg1)) :=
  (kM m ρ c main_v3 (by decide)).trans <| (kT2 m ρ c main_v3 (by decide)).trans <| atT1_dst L
theorem atM_deg (L : Live m c (W16 m ρ c)) : W20 m ρ c (Proc.devRef .tc main_v10) = Cert.Shared.deg (m ((c : Thread nD τ).loc main_arg1)) :=
  (kM m ρ c main_v10 (by decide)).trans <| (kT2 m ρ c main_v10 (by decide)).trans <| (kT1 m ρ c main_v10 (by decide)).trans <| atP_deg L

theorem atA_agg (hr : InRange m c) (L : Live m c (W16 m ρ c)) (hH : W16 m ρ c (Proc.devRef .tc main_v98) = H) :
    W21 m ρ c (Proc.devRef .tc main_v129) = xAgg m c H :=
  (aggr (W20 m ρ c) (m ((c : Thread nD τ).loc main_arg1)) (atM_dst L) (atM_deg L)).trans (by rw [atM_msg hr L hH])
theorem atA_h (hH : W16 m ρ c (Proc.devRef .tc main_v98) = H) : W21 m ρ c (Proc.devRef .tc main_v98) = H :=
  (kA m ρ c main_v98 (by decide)).trans <| (kM m ρ c main_v98 (by decide)).trans <| (kT2 m ρ c main_v98 (by decide)).trans <| atT1_h hH
theorem atA_wu0 (L : Live m c (W16 m ρ c)) : W21 m ρ c (Proc.devRef .tc main_v104) = pWu0 m c :=
  (kA m ρ c main_v104 (by decide)).trans <| (kM m ρ c main_v104 (by decide)).trans <| (kT2 m ρ c main_v104 (by decide)).trans <| (kT1 m ρ c main_v104 (by decide)).trans <| atP_wu0 L
theorem atA_wu1 (L : Live m c (W16 m ρ c)) : W21 m ρ c (Proc.devRef .tc main_v106) = pWu1 m c :=
  (kA m ρ c main_v106 (by decide)).trans <| (kM m ρ c main_v106 (by decide)).trans <| (kT2 m ρ c main_v106 (by decide)).trans <| (kT1 m ρ c main_v106 (by decide)).trans <| atP_wu1 L
theorem atA_bu (L : Live m c (W16 m ρ c)) : W21 m ρ c (Proc.devRef .tc main_v112) = pBu m c :=
  (kA m ρ c main_v112 (by decide)).trans <| (kM m ρ c main_v112 (by decide)).trans <| (kT2 m ρ c main_v112 (by decide)).trans <| (kT1 m ρ c main_v112 (by decide)).trans <| atP_bu L
theorem atA_a (L : Live m c (W16 m ρ c)) : W21 m ρ c (Proc.devRef .tc main_v115) = pA m c :=
  (kA m ρ c main_v115 (by decide)).trans <| (kM m ρ c main_v115 (by decide)).trans <| (kT2 m ρ c main_v115 (by decide)).trans <| (kT1 m ρ c main_v115 (by decide)).trans <| atP_a L

theorem atS_sum (hr : InRange m c) (L : Live m c (W16 m ρ c)) (hH : W16 m ρ c (Proc.devRef .tc main_v98) = H) :
    W22 m ρ c (Proc.devRef .tc main_v130_0) = xSum m c H := by
  refine ((W22_arr m ρ c 6).trans (sum7 (V21 m ρ) c)).trans ?_
  show colSum (uLoc (W21 m ρ c (Proc.devRef .tc main_v98)) (W21 m ρ c (Proc.devRef .tc main_v129)) (W21 m ρ c (Proc.devRef .tc main_v104))
    (W21 m ρ c (Proc.devRef .tc main_v106)) (W21 m ρ c (Proc.devRef .tc main_v112)) (W21 m ρ c (Proc.devRef .tc main_v115))) = _
  rw [atA_h hH, atA_agg hr L hH, atA_wu0 L, atA_wu1 L, atA_bu L, atA_a L]
theorem atS_sq (hr : InRange m c) (L : Live m c (W16 m ρ c)) (hH : W16 m ρ c (Proc.devRef .tc main_v98) = H) :
    W22 m ρ c (Proc.devRef .tc main_v130_1) = xSq m c H := by
  refine ((W22_arr m ρ c 7).trans (sumsq7 (V21 m ρ) c)).trans ?_
  show colSum (sq (uLoc (W21 m ρ c (Proc.devRef .tc main_v98)) (W21 m ρ c (Proc.devRef .tc main_v129)) (W21 m ρ c (Proc.devRef .tc main_v104))
    (W21 m ρ c (Proc.devRef .tc main_v106)) (W21 m ρ c (Proc.devRef .tc main_v112)) (W21 m ρ c (Proc.devRef .tc main_v115)))) = _
  rw [atA_h hH, atA_agg hr L hH, atA_wu0 L, atA_wu1 L, atA_bu L, atA_a L]

theorem atQ_mean (hr : InRange m c) (L : Live m c (W16 m ρ c)) (hH : W16 m ρ c (Proc.devRef .tc main_v98) = H) :
    W23 m ρ c (Proc.devRef .tc main_v132) = xMean m c H :=
  (mean (W22 m ρ c)).trans (by rw [atS_sum hr L hH])
theorem atQ_istd (hr : InRange m c) (L : Live m c (W16 m ρ c)) (hH : W16 m ρ c (Proc.devRef .tc main_v98) = H) :
    W23 m ρ c (Proc.devRef .tc main_v141) = xIstd m c H :=
  (istd (W22 m ρ c)).trans (by rw [atS_sum hr L hH, atS_sq hr L hH])
theorem atQ_h (hH : W16 m ρ c (Proc.devRef .tc main_v98) = H) : W23 m ρ c (Proc.devRef .tc main_v98) = H :=
  (kQ m ρ c main_v98 (by decide)).trans <| (kS m ρ c main_v98 (by decide) (by decide)).trans <| atA_h hH
theorem atQ_agg (hr : InRange m c) (L : Live m c (W16 m ρ c)) (hH : W16 m ρ c (Proc.devRef .tc main_v98) = H) :
    W23 m ρ c (Proc.devRef .tc main_v129) = xAgg m c H :=
  (kQ m ρ c main_v129 (by decide)).trans <| (kS m ρ c main_v129 (by decide) (by decide)).trans <| atA_agg hr L hH
theorem atQ_wu0 (L : Live m c (W16 m ρ c)) : W23 m ρ c (Proc.devRef .tc main_v104) = pWu0 m c :=
  (kQ m ρ c main_v104 (by decide)).trans <| (kS m ρ c main_v104 (by decide) (by decide)).trans <| atA_wu0 L
theorem atQ_wu1 (L : Live m c (W16 m ρ c)) : W23 m ρ c (Proc.devRef .tc main_v106) = pWu1 m c :=
  (kQ m ρ c main_v106 (by decide)).trans <| (kS m ρ c main_v106 (by decide) (by decide)).trans <| atA_wu1 L
theorem atQ_bu (L : Live m c (W16 m ρ c)) : W23 m ρ c (Proc.devRef .tc main_v112) = pBu m c :=
  (kQ m ρ c main_v112 (by decide)).trans <| (kS m ρ c main_v112 (by decide) (by decide)).trans <| atA_bu L
theorem atQ_a (L : Live m c (W16 m ρ c)) : W23 m ρ c (Proc.devRef .tc main_v115) = pA m c :=
  (kQ m ρ c main_v115 (by decide)).trans <| (kS m ρ c main_v115 (by decide) (by decide)).trans <| atA_a L
theorem atQ_gam (L : Live m c (W16 m ρ c)) : W23 m ρ c (Proc.devRef .tc main_v118) = pGam m c :=
  (kQ m ρ c main_v118 (by decide)).trans <| (kS m ρ c main_v118 (by decide) (by decide)).trans <| (kA m ρ c main_v118 (by decide)).trans <| (kM m ρ c main_v118 (by decide)).trans <| (kT2 m ρ c main_v118 (by decide)).trans <| (kT1 m ρ c main_v118 (by decide)).trans <| atP_gam L
theorem atQ_bet (L : Live m c (W16 m ρ c)) : W23 m ρ c (Proc.devRef .tc main_v121) = pBet m c :=
  (kQ m ρ c main_v121 (by decide)).trans <| (kS m ρ c main_v121 (by decide) (by decide)).trans <| (kA m ρ c main_v121 (by decide)).trans <| (kM m ρ c main_v121 (by decide)).trans <| (kT2 m ρ c main_v121 (by decide)).trans <| (kT1 m ρ c main_v121 (by decide)).trans <| atP_bet L

theorem atN_out (hr : InRange m c) (L : Live m c (W16 m ρ c)) (hH : W16 m ρ c (Proc.devRef .tc main_v98) = H) :
    W24 m ρ c (Proc.devRef .tc main_v142) = xOut m c H := by
  refine ((W24_arr m ρ c 10).trans (norm8 (V23 m ρ) c)).trans ?_
  show normLoc (W23 m ρ c (Proc.devRef .tc main_v98)) (W23 m ρ c (Proc.devRef .tc main_v129)) (W23 m ρ c (Proc.devRef .tc main_v104))
    (W23 m ρ c (Proc.devRef .tc main_v106)) (W23 m ρ c (Proc.devRef .tc main_v112)) (W23 m ρ c (Proc.devRef .tc main_v115))
    (W23 m ρ c (Proc.devRef .tc main_v132)) (W23 m ρ c (Proc.devRef .tc main_v141)) (W23 m ρ c (Proc.devRef .tc main_v118))
    (W23 m ρ c (Proc.devRef .tc main_v121)) = _
  rw [atQ_h hH, atQ_agg hr L hH, atQ_wu0 L, atQ_wu1 L, atQ_bu L, atQ_a L, atQ_mean hr L hH, atQ_istd hr L hH,
    atQ_gam L, atQ_bet L]

end Values

end L2

theorem layer2 (m : Mem) (ρ : Dev nD → PrngReg) (c : Dev nD) (hr : InRange m c) (H : A2 50000 64)
    (L : Live m c (W16 m ρ c)) (hH : W16 m ρ c (Proc.devRef .tc main_v98) = H) :
    Live m c (W24 m ρ c) ∧ W24 m ρ c (Proc.devRef .tc main_v142) = layerOf m c (2 : Fin 4) H :=
  ⟨L2.liveN m ρ c L, (L2.atN_out hr L hH).trans (L2.xOut_eq m c H)⟩

end Cert.KernelIdeal.Val

end
-- ==== Proof.KMsg9.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx

theorem msg9_dot (lhs : FVec Ideal S8000x64 .bf16) (rhs : FVec Ideal S64x64 .bf16) (p : Fin 8000) (q : Fin 64) :
    matmul dot_S8000x64_S64x64_S8000x64_1_0_0_1_n_n none lhs rhs (constant S8000x64 .f32 0x00000000#32) (ix2 p q)
      = ∑ k : Fin 64, lhs (ix2 p k) * rhs (ix2 k q) :=
  Cert.LibPlainDot.matmul_zero_apply dot_S8000x64_S64x64_S8000x64_1_0_0_1_n_n rfl rfl rfl rfl rfl rfl none lhs rhs p q

theorem msg9_pay (x0 x1 : Vec Ideal S8000x64 .f32) (x2 x3 : Vec Ideal S64x64 .f32) (x4 : Vec Ideal S1x64 .f32)
    (p : Fin 8000) (q : Fin 64) :
    k9_pay1 x0 x1 x2 x3 x4 (ix2 p q)
      = max (((∑ k : Fin 64, x0 (ix2 p k) * x2 (ix2 k q)) + (∑ k : Fin 64, x1 (ix2 p k) * x3 (ix2 k q))) + x4 (ix2 0 q)) zeroE := by
  unfold k9_pay1
  simp only [shapeCast_self]
  exact congrArg₂ max (congrArg₂ (· + ·) (congrArg₂ (· + ·) (msg9_dot _ _ p q) (msg9_dot _ _ p q))
    (broadcastTo_1b_ab_apply x4 _ p q)) rfl

theorem msg9_block (X Y : A2 800000 64) (W0 W1 : A2 64 64) (B : A2 1 64)
    (x0 x1 : Vec Ideal S8000x64 .f32) (x2 x3 : Vec Ideal S64x64 .f32) (x4 : Vec Ideal S1x64 .f32)
    (r : Fin 800000) (p : Fin 8000) (q : Fin 64)
    (h0 : ∀ k : Fin 64, x0 (ix2 p k) = X (ix2 r k)) (h1 : ∀ k : Fin 64, x1 (ix2 p k) = Y (ix2 r k))
    (h2 : x2 = W0) (h3 : x3 = W1) (h4 : x4 = B) :
    k9_pay1 x0 x1 x2 x3 x4 (ix2 p q) = msgLoc X Y W0 W1 B (ix2 r q) := by
  subst h2 h3 h4
  rw [msg9_pay]
  simp only [h0, h1]
  rfl

theorem msg9_hz : (![0, 0] : Fin 2 → Nat) = fun _ => 0 := funext fun a => by fin_cases a <;> rfl

theorem msg9_idx : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

theorem msg9_in0 (V : Entry) (c : Dev nD) (t : Fin cfg9.N) (p : Fin 8000) (k : Fin 64) (r : Fin 800000)
    (hr : r.val = t.val * 8000 + p.val) :
    (iblk9 V c 0 t : Vec Ideal S8000x64 .f32) (ix2 p k) = (V c (Pipeline.arrRef spec9 0) : A2 800000 64) (ix2 r k) := by
  obtain ⟨e0, e1, -⟩ := msg9_idx t
  show (V c (Pipeline.arrRef spec9 0) : A2 800000 64) (((cfg9.win 0).blk t).view.emb (ix2 p k)) = _
  refine congrArg _ (funext fun a => Fin.ext ?_)
  match a with
  | ⟨0, _⟩ => show win9_0.index t (0 : Fin 2) * 8000 + 1 * p.val = r.val; omega
  | ⟨1, _⟩ => show win9_0.index t (1 : Fin 2) * 64 + 1 * k.val = k.val; omega

theorem msg9_in1 (V : Entry) (c : Dev nD) (t : Fin cfg9.N) (p : Fin 8000) (k : Fin 64) (r : Fin 800000)
    (hr : r.val = t.val * 8000 + p.val) :
    (iblk9 V c 1 t : Vec Ideal S8000x64 .f32) (ix2 p k) = (V c (Pipeline.arrRef spec9 1) : A2 800000 64) (ix2 r k) := by
  obtain ⟨-, -, e0, e1, -⟩ := msg9_idx t
  show (V c (Pipeline.arrRef spec9 1) : A2 800000 64) (((cfg9.win 1).blk t).view.emb (ix2 p k)) = _
  refine congrArg _ (funext fun a => Fin.ext ?_)
  match a with
  | ⟨0, _⟩ => show win9_1.index t (0 : Fin 2) * 8000 + 1 * p.val = r.val; omega
  | ⟨1, _⟩ => show win9_1.index t (1 : Fin 2) * 64 + 1 * k.val = k.val; omega

theorem msg9_in2 (V : Entry) (c : Dev nD) (t : Fin cfg9.N) :
    (iblk9 V c 2 t : Vec Ideal S64x64 .f32) = (V c (Pipeline.arrRef spec9 2) : A2 64 64) := by
  obtain ⟨-, -, -, -, e0, e1, -⟩ := msg9_idx t
  funext y
  show (V c (Pipeline.arrRef spec9 2) : A2 64 64) (((cfg9.win 2).blk t).view.emb y) = _
  refine congrArg _ (funext fun a => Fin.ext ?_)
  match a with
  | ⟨0, _⟩ => show win9_2.index t (0 : Fin 2) * 64 + 1 * (y 0).val = (y 0).val; omega
  | ⟨1, _⟩ => show win9_2.index t (1 : Fin 2) * 64 + 1 * (y 1).val = (y 1).val; omega

theorem msg9_in3 (V : Entry) (c : Dev nD) (t : Fin cfg9.N) :
    (iblk9 V c 3 t : Vec Ideal S64x64 .f32) = (V c (Pipeline.arrRef spec9 3) : A2 64 64) := by
  obtain ⟨-, -, -, -, -, -, e0, e1, -⟩ := msg9_idx t
  funext y
  show (V c (Pipeline.arrRef spec9 3) : A2 64 64) (((cfg9.win 3).blk t).view.emb y) = _
  refine congrArg _ (funext fun a => Fin.ext ?_)
  match a with
  | ⟨0, _⟩ => show win9_3.index t (0 : Fin 2) * 64 + 1 * (y 0).val = (y 0).val; omega
  | ⟨1, _⟩ => show win9_3.index t (1 : Fin 2) * 64 + 1 * (y 1).val = (y 1).val; omega

theorem msg9_in4 (V : Entry) (c : Dev nD) (t : Fin cfg9.N) :
    (iblk9 V c 4 t : Vec Ideal S1x64 .f32) = (V c (Pipeline.arrRef spec9 4) : A2 1 64) := by
  obtain ⟨-, -, -, -, -, -, -, -, e0, e1, -⟩ := msg9_idx t
  funext y
  show (V c (Pipeline.arrRef spec9 4) : A2 1 64) (((cfg9.win 4).blk t).view.emb y) = _
  refine congrArg _ (funext fun a => Fin.ext ?_)
  match a with
  | ⟨0, _⟩ => show win9_4.index t (0 : Fin 2) * 1 + 1 * (y 0).val = (y 0).val; omega
  | ⟨1, _⟩ => show win9_4.index t (1 : Fin 2) * 64 + 1 * (y 1).val = (y 1).val; omega

theorem msg9_point (V : Entry) (c : Dev nD) (t : Fin cfg9.N) (j : S8000x64.Idx) :
    k9_pay1 (iblk9 V c 0 t) (iblk9 V c 1 t) (iblk9 V c 2 t) (iblk9 V c 3 t) (iblk9 V c 4 t) j
      = msgLoc (V c (Pipeline.arrRef spec9 0)) (V c (Pipeline.arrRef spec9 1)) (V c (Pipeline.arrRef spec9 2))
          (V c (Pipeline.arrRef spec9 3)) (V c (Pipeline.arrRef spec9 4)) (((cfg9.win 5).blk t).view.emb j) := by
  obtain ⟨p, q, rfl⟩ : ∃ (p : Fin 8000) (q : Fin 64), j = ix2 p q := ⟨j 0, j 1, eq_ix2 j⟩
  have hN : cfg9.N = 100 := N_9
  have ht : t.val < cfg9.N := t.isLt
  obtain ⟨-, -, -, -, -, -, -, -, -, -, e0, e1⟩ := msg9_idx t
  obtain ⟨r, hr⟩ : ∃ r : Fin 800000, r.val = t.val * 8000 + p.val := ⟨⟨t.val * 8000 + p.val, by omega⟩, rfl⟩
  have hemb : ((cfg9.win 5).blk t).view.emb (ix2 p q) = ix2 r q := by
    refine funext fun a => Fin.ext ?_
    match a with
    | ⟨0, _⟩ => show win9_5.index t (0 : Fin 2) * 8000 + 1 * p.val = r.val; omega
    | ⟨1, _⟩ => show win9_5.index t (1 : Fin 2) * 64 + 1 * q.val = q.val; omega
  exact (msg9_block (V c (Pipeline.arrRef spec9 0)) (V c (Pipeline.arrRef spec9 1)) (V c (Pipeline.arrRef spec9 2))
      (V c (Pipeline.arrRef spec9 3)) (V c (Pipeline.arrRef spec9 4))
      (iblk9 V c 0 t) (iblk9 V c 1 t) (iblk9 V c 2 t) (iblk9 V c 3 t) (iblk9 V c 4 t) r p q
      (fun k => msg9_in0 V c t p k r hr) (fun k => msg9_in1 V c t p k r hr)
      (msg9_in2 V c t) (msg9_in3 V c t) (msg9_in4 V c t)).trans
    (congrArg (msgLoc (V c (Pipeline.arrRef spec9 0)) (V c (Pipeline.arrRef spec9 1)) (V c (Pipeline.arrRef spec9 2))
      (V c (Pipeline.arrRef spec9 3)) (V c (Pipeline.arrRef spec9 4))) hemb.symm)

theorem msg9_flushed (V : Entry) (c : Dev nD) (t : Fin cfg9.N) :
    (dat9 V c).flushed 5 t = ((cfg9.win 5).blk t).view.read (Elt Ideal)
      (msgLoc (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  unfold out9_5
  rw [View.canon_unit_zero msg9_hz]
  simp only [View.ld_unit_zero (S := S8000x64) msg9_hz, View.ld_unit_zero (S := S64x64) msg9_hz,
    View.ld_unit_zero (S := S1x64) msg9_hz]
  funext j
  exact msg9_point V c t j

theorem msg9_mem (t : Fin cfg9.N) (i : S800000x64.Idx) :
    i ∈ ((cfg9.win 5).blk t).view.set ↔ ∀ a : Fin 2, win9_5.index t a * S8000x64.size a ≤ (i a).val
      ∧ (i a).val < win9_5.index t a * S8000x64.size a + S8000x64.size a := by
  show i ∈ ((View.whole (Pipeline.arrRef spec9 5)).slice (win9_5.rect t)).set ↔ _
  rw [View.set_slice_whole, Rect.mem_set_unit]
  exact Iff.rfl

theorem msg9_cover (i : S800000x64.Idx) :
    ∃ t : Fin cfg9.N, (cfg9.win 5).flush t = true ∧ i ∈ ((cfg9.win 5).blk t).view.set := by
  have hN : cfg9.N = 100 := N_9
  have hi0 : (i 0).val < 800000 := (i 0).isLt
  have hi1 : (i 1).val < 64 := (i 1).isLt
  obtain ⟨t, ht⟩ : ∃ t : Fin cfg9.N, t.val = (i 0).val / 8000 := ⟨⟨(i 0).val / 8000, by rw [hN]; omega⟩, rfl⟩
  obtain ⟨-, -, -, -, -, -, -, -, -, -, e0, e1⟩ := msg9_idx t
  refine ⟨t, flush9_5 t, ?_⟩
  rw [msg9_mem]
  intro a
  match a with
  | ⟨0, _⟩ => show win9_5.index t (0 : Fin 2) * 8000 ≤ (i 0).val ∧ (i 0).val < win9_5.index t (0 : Fin 2) * 8000 + 8000; omega
  | ⟨1, _⟩ => show win9_5.index t (1 : Fin 2) * 64 ≤ (i 1).val ∧ (i 1).val < win9_5.index t (1 : Fin 2) * 64 + 64; omega

theorem msg9 (V : Entry) (c : Dev nD) :
    (dat9 V c).arrAt 5 cfg9.N = msgLoc (V c (Pipeline.arrRef spec9 0)) (V c (Pipeline.arrRef spec9 1)) (V c (Pipeline.arrRef spec9 2)) (V c (Pipeline.arrRef spec9 3)) (V c (Pipeline.arrRef spec9 4)) :=
  (dat9 V c).arrAt_eq_of_cover 5
    (msgLoc (V c (Pipeline.arrRef spec9 0)) (V c (Pipeline.arrRef spec9 1)) (V c (Pipeline.arrRef spec9 2))
      (V c (Pipeline.arrRef spec9 3)) (V c (Pipeline.arrRef spec9 4)))
    (fun t _ => msg9_flushed V c t) msg9_cover

end Cert.KernelIdeal.Val

end
-- ==== Proof.KStats10.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibBlockSum
import proofs.«428660_j69922067578969_2_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.Pipeline Idealize.ShloMosaic.ValueIdx Cert.KernelIdeal Cert.KernelIdeal.Gen Cert.Spec

namespace Stats10

section Pieces

variable {F : FTy → Type} [FloatOps F]
variable (c : Dev nD) (i : grid10.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
variable (x0 x1 : Vec F S10000x64 .f32) (x2 x3 : Vec F S64x64 .f32) (x4 x5 : Vec F S1x64 .f32)

theorem hz : (![0, 0] : Fin 2 → Nat) = fun _ => 0 := funext fun a => by fin_cases a <;> rfl

theorem out_A_6 (hc0 : cond10_0 i) :
    out10_A_6 c i arg1 harg1 arg2 harg2 arg3 harg3 arg4 harg4 arg5 harg5 arg6 harg6 arg7 harg7 arg8 harg8 hc0 x0 x1 x2 x3 x4 x5 = k10_pay5 x0 x1 x2 x3 x4 x5 (k10_pay2 (F := F)) := by
  unfold out10_A_6
  rw [View.read_writes_eq_canon _ _ _ (cover10_A_6 c i arg1 harg1 arg2 harg2 arg3 harg3 arg4 harg4 arg5 harg5 arg6 harg6 arg7 harg7 arg8 harg8 hc0 x0 x1 x2 x3 x4 x5)]
  unfold kernelRun10_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

theorem out_A_7 (hc0 : cond10_0 i) :
    out10_A_7 c i arg1 harg1 arg2 harg2 arg3 harg3 arg4 harg4 arg5 harg5 arg6 harg6 arg7 harg7 arg8 harg8 hc0 x0 x1 x2 x3 x4 x5 = k10_pay1 (k10_pay4 x0 x1 x2 x3 x4 x5) (k10_pay3 (F := F)) := by
  unfold out10_A_7
  rw [View.read_writes_eq_canon _ _ _ (cover10_A_7 c i arg1 harg1 arg2 harg2 arg3 harg3 arg4 harg4 arg5 harg5 arg6 harg6 arg7 harg7 arg8 harg8 hc0 x0 x1 x2 x3 x4 x5)]
  unfold kernelRun10_A
  dsimp only
  sl_unfold_words
  rw [View.canon_cons_unit_zero (S := S1x64) hz]
  simp only [View.readAt_eq_ld, harg1.read_unread, harg2.read_unread, harg3.read_unread, harg4.read_unread, harg5.read_unread,
    harg6.read_unread, View.ld_unit_zero (S := S10000x64) hz, View.ld_unit_zero (S := S64x64) hz, View.ld_unit_zero (S := S1x64) hz,
    View.readCov_unit_zero (S := S1x64) _ hz]

variable (xo6 xo7 : Vec F S1x64 .f32)

theorem out_B_6 (hc0 : ¬cond10_0 i) :
    out10_B_6 c i arg1 harg1 arg2 harg2 arg3 harg3 arg4 harg4 arg5 harg5 arg6 harg6 arg7 harg7 arg8 harg8 hc0 x0 x1 x2 x3 x4 x5 xo6 xo7 = k10_pay5 x0 x1 x2 x3 x4 x5 xo6 := by
  unfold out10_B_6
  rw [View.read_writes_eq_canon _ _ _ (cover10_B_6 c i arg1 harg1 arg2 harg2 arg3 harg3 arg4 harg4 arg5 harg5 arg6 harg6 arg7 harg7 arg8 harg8 hc0 x0 x1 x2 x3 x4 x5 xo6 xo7)]
  unfold kernelRun10_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

theorem out_B_7 (hc0 : ¬cond10_0 i) :
    out10_B_7 c i arg1 harg1 arg2 harg2 arg3 harg3 arg4 harg4 arg5 harg5 arg6 harg6 arg7 harg7 arg8 harg8 hc0 x0 x1 x2 x3 x4 x5 xo6 xo7 = k10_pay1 (k10_pay4 x0 x1 x2 x3 x4 x5) xo7 := by
  unfold out10_B_7
  rw [View.read_writes_eq_canon _ _ _ (cover10_B_7 c i arg1 harg1 arg2 harg2 arg3 harg3 arg4 harg4 arg5 harg5 arg6 harg6 arg7 harg7 arg8 harg8 hc0 x0 x1 x2 x3 x4 x5 xo6 xo7)]
  unfold kernelRun10_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S10000x64) hz, View.ld_unit_zero (S := S64x64) hz,
    View.ld_unit_zero (S := S1x64) hz]

end Pieces

theorem lift_rows (h : S10000x64.Reduces [0] S64) (q : Fin 64) (p : Fin 10000) : h.lift (ix1 q) p = ix2 p q := by
  funext a
  apply Fin.ext
  match a with
  | ⟨0, _⟩ => rfl
  | ⟨1, _⟩ => rfl

theorem rowOfColSums_apply (src : FVec Ideal S10000x64 .f32) (h : S10000x64.Reduces [0] S64) (hφ : FKind.Formats .f32)
    (hacc : (0x00000000#32 : BitVec 32) = FKind.add.neutral .f32 hφ) (h' : S64.ShapeCasts S1x64) (z : Fin 1) (q : Fin 64) :
    shapeCast S1x64 (multiReduction .add [0] S64 src 0x00000000#32 h hφ hacc) h' (ix2 z q) = ∑ p : Fin 10000, src (ix2 p q) := by
  refine (shapeCast_a_1a_apply _ h' z q).trans ?_
  refine (Ideal.multiReduction_add_single src 0x00000000#32 h hφ hacc (ix1 q)).trans ?_
  exact Finset.sum_congr rfl fun p _ => congrArg src (lift_rows h q p)

theorem blockProduct_apply {φ₁ φ₂ : FTy} (lhs : FVec Ideal S10000x64 φ₁) (rhs : FVec Ideal S64x64 φ₂) (p : Fin 10000) (q : Fin 64) :
    matmul dot_S10000x64_S64x64_S10000x64_1_0_0_1_n_n none lhs rhs (constant S10000x64 .f32 0x00000000#32) (ix2 p q)
      = ∑ k : Fin 64, lhs (ix2 p k) * rhs (ix2 k q) := by
  show FloatOps.matmul dot_S10000x64_S64x64_S10000x64_1_0_0_1_n_n none lhs rhs (constant S10000x64 .f32 0x00000000#32) (ix2 p q) = _
  rw [Cert.LibPlainDot.eq_plain dot_S10000x64_S64x64_S10000x64_1_0_0_1_n_n rfl rfl rfl rfl rfl rfl, Ideal.matmul_constant_zero_apply]
  exact Cert.LibPlainDot.plain_sum lhs rhs p q

section Arithmetic

variable (x0 x1 : Vec Ideal S10000x64 .f32) (x2 x3 : Vec Ideal S64x64 .f32) (x4 x5 : Vec Ideal S1x64 .f32)

theorem pay4_apply (p : Fin 10000) (q : Fin 64) : k10_pay4 x0 x1 x2 x3 x4 x5 (ix2 p q) = uLoc x0 x1 x2 x3 x4 x5 (ix2 p q) := by
  unfold k10_pay4
  simp only [select_apply, cmpf_apply, mulf_apply, addf_apply, broadcast_apply, shapeCast_self, broadcastTo_1b_ab_apply, blockProduct_apply]
  rfl

theorem pay5_apply (acc : Vec Ideal S1x64 .f32) (z : Fin 1) (q : Fin 64) :
    k10_pay5 x0 x1 x2 x3 x4 x5 acc (ix2 z q) = acc (ix2 z q) + ∑ p : Fin 10000, k10_pay4 x0 x1 x2 x3 x4 x5 (ix2 p q) := by
  unfold k10_pay5
  exact congrArg₂ (· + ·) (congrFun (shapeCast_self acc _) (ix2 z q)) (rowOfColSums_apply _ _ _ _ _ z q)

theorem pay1_apply (u : FVec Ideal S10000x64 .f32) (acc : Vec Ideal S1x64 .f32) (z : Fin 1) (q : Fin 64) :
    k10_pay1 u acc (ix2 z q) = acc (ix2 z q) + ∑ p : Fin 10000, u (ix2 p q) * u (ix2 p q) := by
  unfold k10_pay1
  exact congrArg₂ (· + ·) (congrFun (shapeCast_self acc _) (ix2 z q)) (rowOfColSums_apply _ _ _ _ _ z q)

variable (c : Dev nD) (i : grid10.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)

theorem stepA6 (hc0 : cond10_0 i) (z : Fin 1) (q : Fin 64) :
    out10_A_6 c i arg1 harg1 arg2 harg2 arg3 harg3 arg4 harg4 arg5 harg5 arg6 harg6 arg7 harg7 arg8 harg8 hc0 x0 x1 x2 x3 x4 x5 (ix2 z q) = zeroE + ∑ p : Fin 10000, uLoc x0 x1 x2 x3 x4 x5 (ix2 p q) := by
  rw [out_A_6]
  refine (pay5_apply x0 x1 x2 x3 x4 x5 (k10_pay2 (F := Ideal)) z q).trans ?_
  exact congrArg₂ (· + ·) rfl (Finset.sum_congr rfl fun p _ => pay4_apply x0 x1 x2 x3 x4 x5 p q)

theorem stepA7 (hc0 : cond10_0 i) (z : Fin 1) (q : Fin 64) :
    out10_A_7 c i arg1 harg1 arg2 harg2 arg3 harg3 arg4 harg4 arg5 harg5 arg6 harg6 arg7 harg7 arg8 harg8 hc0 x0 x1 x2 x3 x4 x5 (ix2 z q)
      = zeroE + ∑ p : Fin 10000, sq (uLoc x0 x1 x2 x3 x4 x5) (ix2 p q) := by
  rw [out_A_7]
  refine (pay1_apply (k10_pay4 x0 x1 x2 x3 x4 x5) (k10_pay3 (F := Ideal)) z q).trans ?_
  exact congrArg₂ (· + ·) rfl (Finset.sum_congr rfl fun p _ =>
    congrArg₂ (· * ·) (pay4_apply x0 x1 x2 x3 x4 x5 p q) (pay4_apply x0 x1 x2 x3 x4 x5 p q))

variable (xo6 xo7 : Vec Ideal S1x64 .f32)

theorem stepB6 (hc0 : ¬cond10_0 i) (z : Fin 1) (q : Fin 64) :
    out10_B_6 c i arg1 harg1 arg2 harg2 arg3 harg3 arg4 harg4 arg5 harg5 arg6 harg6 arg7 harg7 arg8 harg8 hc0 x0 x1 x2 x3 x4 x5 xo6 xo7 (ix2 z q)
      = xo6 (ix2 z q) + ∑ p : Fin 10000, uLoc x0 x1 x2 x3 x4 x5 (ix2 p q) := by
  rw [out_B_6]
  refine (pay5_apply x0 x1 x2 x3 x4 x5 xo6 z q).trans ?_
  exact congrArg₂ (· + ·) rfl (Finset.sum_congr rfl fun p _ => pay4_apply x0 x1 x2 x3 x4 x5 p q)

theorem stepB7 (hc0 : ¬cond10_0 i) (z : Fin 1) (q : Fin 64) :
    out10_B_7 c i arg1 harg1 arg2 harg2 arg3 harg3 arg4 harg4 arg5 harg5 arg6 harg6 arg7 harg7 arg8 harg8 hc0 x0 x1 x2 x3 x4 x5 xo6 xo7 (ix2 z q)
      = xo7 (ix2 z q) + ∑ p : Fin 10000, sq (uLoc x0 x1 x2 x3 x4 x5) (ix2 p q) := by
  rw [out_B_7]
  refine (pay1_apply (k10_pay4 x0 x1 x2 x3 x4 x5) xo7 z q).trans ?_
  exact congrArg₂ (· + ·) rfl (Finset.sum_congr rfl fun p _ =>
    congrArg₂ (· * ·) (pay4_apply x0 x1 x2 x3 x4 x5 p q) (pay4_apply x0 x1 x2 x3 x4 x5 p q))

end Arithmetic

theorem idx_facts : ∀ t : Fin cfg10.N, win10_0.index t 0 = t.val ∧ win10_0.index t 1 = 0 ∧ win10_1.index t 0 = t.val ∧ win10_1.index t 1 = 0
    ∧ win10_2.index t 0 = 0 ∧ win10_2.index t 1 = 0 ∧ win10_3.index t 0 = 0 ∧ win10_3.index t 1 = 0
    ∧ win10_4.index t 0 = 0 ∧ win10_4.index t 1 = 0 ∧ win10_5.index t 0 = 0 ∧ win10_5.index t 1 = 0
    ∧ win10_6.index t 0 = 0 ∧ win10_6.index t 1 = 0 ∧ win10_7.index t 0 = 0 ∧ win10_7.index t 1 = 0 :=
  (by decide +kernel : ∀ t : Fin grid10.N, _)

abbrev rowOf (t : Fin cfg10.N) (p : Fin 10000) : Fin 50000 :=
  ⟨10000 * t.val + p.val, by have := t.isLt; have hN : cfg10.N = 5 := N_10; have := p.isLt; omega⟩

variable (V : Entry) (c : Dev nD)

abbrev arr0 : A2 50000 64 := V c (Pipeline.arrRef spec10 0)
abbrev arr1 : A2 50000 64 := V c (Pipeline.arrRef spec10 1)
abbrev arr2 : A2 64 64 := V c (Pipeline.arrRef spec10 2)
abbrev arr3 : A2 64 64 := V c (Pipeline.arrRef spec10 3)
abbrev arr4 : A2 1 64 := V c (Pipeline.arrRef spec10 4)
abbrev arr5 : A2 1 64 := V c (Pipeline.arrRef spec10 5)

abbrev blk0 (t : Fin cfg10.N) : A2 10000 64 := iblk10 V c 0 t
abbrev blk1 (t : Fin cfg10.N) : A2 10000 64 := iblk10 V c 1 t
abbrev blk2 (t : Fin cfg10.N) : A2 64 64 := iblk10 V c 2 t
abbrev blk3 (t : Fin cfg10.N) : A2 64 64 := iblk10 V c 3 t
abbrev blk4 (t : Fin cfg10.N) : A2 1 64 := iblk10 V c 4 t
abbrev blk5 (t : Fin cfg10.N) : A2 1 64 := iblk10 V c 5 t

theorem blk0_apply (t : Fin cfg10.N) (p : Fin 10000) (k : Fin 64) : blk0 V c t (ix2 p k) = arr0 V c (ix2 (rowOf t p) k) := by
  unfold blk0 iblk10
  rw [View.read_apply]
  show V c (Pipeline.arrRef spec10 0) _ = V c (Pipeline.arrRef spec10 0) _
  refine congrArg _ (funext fun a => Fin.ext ?_)
  obtain ⟨e0, e1, -⟩ := idx_facts t
  match a with
  | ⟨0, _⟩ => show win10_0.index t 0 * 10000 + 1 * p.val = 10000 * t.val + p.val; omega
  | ⟨1, _⟩ => show win10_0.index t 1 * 64 + 1 * k.val = k.val; omega

theorem blk1_apply (t : Fin cfg10.N) (p : Fin 10000) (k : Fin 64) : blk1 V c t (ix2 p k) = arr1 V c (ix2 (rowOf t p) k) := by
  unfold blk1 iblk10
  rw [View.read_apply]
  show V c (Pipeline.arrRef spec10 1) _ = V c (Pipeline.arrRef spec10 1) _
  refine congrArg _ (funext fun a => Fin.ext ?_)
  obtain ⟨-, -, e0, e1, -⟩ := idx_facts t
  match a with
  | ⟨0, _⟩ => show win10_1.index t 0 * 10000 + 1 * p.val = 10000 * t.val + p.val; omega
  | ⟨1, _⟩ => show win10_1.index t 1 * 64 + 1 * k.val = k.val; omega

theorem blk2_eq (t : Fin cfg10.N) : blk2 V c t = arr2 V c := by
  funext j
  unfold blk2 iblk10
  rw [View.read_apply]
  show V c (Pipeline.arrRef spec10 2) _ = V c (Pipeline.arrRef spec10 2) _
  refine congrArg _ (funext fun a => Fin.ext ?_)
  obtain ⟨-, -, -, -, e0, e1, -⟩ := idx_facts t
  match a with
  | ⟨0, _⟩ => show win10_2.index t 0 * 64 + 1 * (j 0).val = (j 0).val; omega
  | ⟨1, _⟩ => show win10_2.index t 1 * 64 + 1 * (j 1).val = (j 1).val; omega

theorem blk3_eq (t : Fin cfg10.N) : blk3 V c t = arr3 V c := by
  funext j
  unfold blk3 iblk10
  rw [View.read_apply]
  show V c (Pipeline.arrRef spec10 3) _ = V c (Pipeline.arrRef spec10 3) _
  refine congrArg _ (funext fun a => Fin.ext ?_)
  obtain ⟨-, -, -, -, -, -, e0, e1, -⟩ := idx_facts t
  match a with
  | ⟨0, _⟩ => show win10_3.index t 0 * 64 + 1 * (j 0).val = (j 0).val; omega
  | ⟨1, _⟩ => show win10_3.index t 1 * 64 + 1 * (j 1).val = (j 1).val; omega

theorem blk4_eq (t : Fin cfg10.N) : blk4 V c t = arr4 V c := by
  funext j
  unfold blk4 iblk10
  rw [View.read_apply]
  show V c (Pipeline.arrRef spec10 4) _ = V c (Pipeline.arrRef spec10 4) _
  refine congrArg _ (funext fun a => Fin.ext ?_)
  obtain ⟨-, -, -, -, -, -, -, -, e0, e1, -⟩ := idx_facts t
  match a with
  | ⟨0, _⟩ => show win10_4.index t 0 * 1 + 1 * (j 0).val = (j 0).val; omega
  | ⟨1, _⟩ => show win10_4.index t 1 * 64 + 1 * (j 1).val = (j 1).val; omega

theorem blk5_eq (t : Fin cfg10.N) : blk5 V c t = arr5 V c := by
  funext j
  unfold blk5 iblk10
  rw [View.read_apply]
  show V c (Pipeline.arrRef spec10 5) _ = V c (Pipeline.arrRef spec10 5) _
  refine congrArg _ (funext fun a => Fin.ext ?_)
  obtain ⟨-, -, -, -, -, -, -, -, -, -, e0, e1, -⟩ := idx_facts t
  match a with
  | ⟨0, _⟩ => show win10_5.index t 0 * 1 + 1 * (j 0).val = (j 0).val; omega
  | ⟨1, _⟩ => show win10_5.index t 1 * 64 + 1 * (j 1).val = (j 1).val; omega

abbrev uArr : A2 50000 64 := uLoc (arr0 V c) (arr1 V c) (arr2 V c) (arr3 V c) (arr4 V c) (arr5 V c)

theorem uBlk_apply (t : Fin cfg10.N) (p : Fin 10000) (q : Fin 64) :
    uLoc (blk0 V c t) (blk1 V c t) (blk2 V c t) (blk3 V c t) (blk4 V c t) (blk5 V c t) (ix2 p q) = uArr V c (ix2 (rowOf t p) q) := by
  rw [blk2_eq, blk3_eq, blk4_eq, blk5_eq]
  show prelu (arr5 V c (ix2 0 q)) (lin (blk0 V c t) (blk1 V c t) (arr2 V c) (arr3 V c) (arr4 V c) p q)
    = prelu (arr5 V c (ix2 0 q)) (lin (arr0 V c) (arr1 V c) (arr2 V c) (arr3 V c) (arr4 V c) (rowOf t p) q)
  unfold lin
  simp only [blk0_apply, blk1_apply]

def addend (f : A2 50000 64) (s : ℕ) (q : Fin 64) : EReal :=
  if hs : s < cfg10.N then ∑ p : Fin 10000, f (ix2 (rowOf ⟨s, hs⟩ p) q) else 0

theorem addend_at (f : A2 50000 64) (n : ℕ) (h : n < cfg10.N) (q : Fin 64) :
    addend f n q = ∑ p : Fin 10000, f (ix2 (rowOf ⟨n, h⟩ p) q) := by
  unfold addend
  rw [dif_pos h]

theorem sum_addends (f : A2 50000 64) (q : Fin 64) :
    ∑ s ∈ Finset.range (4 + 1), addend f s q = ∑ n : Fin 50000, f (ix2 n q) := by
  have hN : cfg10.N = 5 := N_10
  rw [Finset.sum_range]
  refine Eq.trans (Finset.sum_congr rfl fun s _ => ?_) (Cert.BlockSum.sum_blocks 5 10000 fun n : Fin 50000 => f (ix2 n q))
  exact addend_at f s.val (by have := s.isLt; omega) q

theorem inv6 : ∀ (n : ℕ) (h : n < cfg10.N) (z : Fin 1) (q : Fin 64),
    (outsAt10 V c n h).1 (ix2 z q) = zeroE + ∑ s ∈ Finset.range (n + 1), addend (uArr V c) s q
  | 0, h, z, q => by
    rw [outsAt10_A V c ⟨0, h⟩ rfl]
    dsimp only
    refine (stepA6 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (uArr V c) s q
    rw [Finset.sum_range_one, addend_at (uArr V c) 0 h q]
    exact congrArg (zeroE + ·) (Finset.sum_congr rfl fun p _ => uBlk_apply V c ⟨0, h⟩ p q)
  | n + 1, h, z, q => by
    have hN : cfg10.N = 5 := N_10
    have hB : ¬(⟨n + 1, h⟩ : Fin cfg10.N).val % 5 = 0 := by dsimp only; omega
    rw [outsAt10_B V c ⟨n + 1, h⟩ hB]
    dsimp only
    refine (stepB6 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (uArr V c) (n + 1) h q]
    exact congrArg₂ (· + ·) (inv6 n (Nat.lt_of_succ_lt h) z q) (Finset.sum_congr rfl fun p _ => uBlk_apply V c ⟨n + 1, h⟩ p q)

theorem inv7 : ∀ (n : ℕ) (h : n < cfg10.N) (z : Fin 1) (q : Fin 64),
    (outsAt10 V c n h).2 (ix2 z q) = zeroE + ∑ s ∈ Finset.range (n + 1), addend (sq (uArr V c)) s q
  | 0, h, z, q => by
    rw [outsAt10_A V c ⟨0, h⟩ rfl]
    dsimp only
    refine (stepA7 (blk0 V c ⟨0, h⟩) (blk1 V c ⟨0, h⟩) (blk2 V c ⟨0, h⟩) (blk3 V c ⟨0, h⟩) (blk4 V c ⟨0, h⟩) (blk5 V c ⟨0, h⟩) c _ _ _ _ _ _ _ _ _ _ _ _ _ _ _ _ _ _ z q).trans ?_
    show _ = zeroE + ∑ s ∈ Finset.range 1, addend (sq (uArr V c)) s q
    rw [Finset.sum_range_one, addend_at (sq (uArr V c)) 0 h q]
    exact congrArg (zeroE + ·) (Finset.sum_congr rfl fun p _ =>
      congrArg₂ (· * ·) (uBlk_apply V c ⟨0, h⟩ p q) (uBlk_apply V c ⟨0, h⟩ p q))
  | n + 1, h, z, q => by
    have hN : cfg10.N = 5 := N_10
    have hB : ¬(⟨n + 1, h⟩ : Fin cfg10.N).val % 5 = 0 := by dsimp only; omega
    rw [outsAt10_B V c ⟨n + 1, h⟩ hB]
    dsimp only
    refine (stepB7 (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) c _ _ _ _ _ _ _ _ _ _ _ _ _ _ _ _ _ _ _ _ z q).trans ?_
    rw [Finset.sum_range_succ _ (n + 1), ← add_assoc, addend_at (sq (uArr V c)) (n + 1) h q]
    exact congrArg₂ (· + ·) (inv7 n (Nat.lt_of_succ_lt h) z q) (Finset.sum_congr rfl fun p _ =>
      congrArg₂ (· * ·) (uBlk_apply V c ⟨n + 1, h⟩ p q) (uBlk_apply V c ⟨n + 1, h⟩ p q))

theorem colSum_col {R : ℕ} (u : A2 R 64) (i : (⟨2, ![1, 64]⟩ : Shape).Idx) (q : Fin 64) (h : (i 1).val = q.val) :
    colSum u i = ∑ n : Fin R, u (ix2 n q) := by
  have e : i 1 = q := Fin.ext h
  unfold colSum
  rw [e]

theorem flushed6_eq (t : Fin cfg10.N) (hf : (cfg10.win 6).flush t = true) :
    (dat10 V c).flushed 6 t = ((cfg10.win 6).blk t).view.read (Elt Ideal) (colSum (uArr V c)) := by
  have hN : cfg10.N = 5 := N_10
  have h4 : t.val = 4 := by have := (flush10_6 t).mp hf; have := t.isLt; omega
  show (cfg10.win 6).cut (grid10.coords t) ((dat10 V c).after 6 t) = _
  rw [after10_6]
  refine funext fun (j : S1x64.Idx) => ?_
  obtain ⟨z, q, rfl⟩ : ∃ (z : Fin 1) (q : Fin 64), j = ix2 z q := ⟨j 0, j 1, eq_ix2 j⟩
  rw [View.read_apply]
  show (outsAt10 V c t.val t.isLt).1 (ix2 z q) = _
  rw [inv6 V c t.val t.isLt z q, h4, sum_addends]
  refine Eq.trans ?_ (cast_eq _ _).symm
  refine Eq.trans ?_ (colSum_col (uArr V c) _ q ?_).symm
  · show Ideal.ofBits .f32 0x00000000#32 + _ = _
    rw [Ideal.ofBits_zero_f32, zero_add]
  · obtain ⟨-, -, -, -, -, -, -, -, -, -, -, -, e0, e1, -⟩ := idx_facts t
    show win10_6.index t 1 * 64 + 1 * q.val = q.val
    omega

theorem final6 : (dat10 V c).arrAt 6 cfg10.N = colSum (uArr V c) := by
  have hN : cfg10.N = 5 := N_10
  have h4 : 4 < cfg10.N := by omega
  refine (dat10 V c).arrAt_eq_of_cover 6 (colSum (uArr V c)) (fun t hf => flushed6_eq V c t hf) fun i => ?_
  refine ⟨⟨4, h4⟩, (flush10_6 _).mpr rfl, ?_⟩
  show i ∈ ((View.whole (Pipeline.arrRef spec10 6)).slice (win10_6.rect ⟨4, h4⟩)).set
  rw [View.set_slice_whole, Rect.mem_set_unit]
  intro a
  obtain ⟨-, -, -, -, -, -, -, -, -, -, -, -, e0, e1, -⟩ := idx_facts ⟨4, h4⟩
  have h0 : (i 0 : Nat) < 1 := (i 0).isLt
  have h1 : (i 1 : Nat) < 64 := (i 1).isLt
  match a with
  | ⟨0, _⟩ =>
    show win10_6.index ⟨4, h4⟩ 0 * 1 ≤ (i 0 : Nat) ∧ (i 0 : Nat) < win10_6.index ⟨4, h4⟩ 0 * 1 + 1
    omega
  | ⟨1, _⟩ =>
    show win10_6.index ⟨4, h4⟩ 1 * 64 ≤ (i 1 : Nat) ∧ (i 1 : Nat) < win10_6.index ⟨4, h4⟩ 1 * 64 + 64
    omega

theorem flushed7_eq (t : Fin cfg10.N) (hf : (cfg10.win 7).flush t = true) :
    (dat10 V c).flushed 7 t = ((cfg10.win 7).blk t).view.read (Elt Ideal) (colSum (sq (uArr V c))) := by
  have hN : cfg10.N = 5 := N_10
  have h4 : t.val = 4 := by have := (flush10_7 t).mp hf; have := t.isLt; omega
  show (cfg10.win 7).cut (grid10.coords t) ((dat10 V c).after 7 t) = _
  rw [after10_7]
  refine funext fun (j : S1x64.Idx) => ?_
  obtain ⟨z, q, rfl⟩ : ∃ (z : Fin 1) (q : Fin 64), j = ix2 z q := ⟨j 0, j 1, eq_ix2 j⟩
  rw [View.read_apply]
  show (outsAt10 V c t.val t.isLt).2 (ix2 z q) = _
  rw [inv7 V c t.val t.isLt z q, h4, sum_addends]
  refine Eq.trans ?_ (cast_eq _ _).symm
  refine Eq.trans ?_ (colSum_col (sq (uArr V c)) _ q ?_).symm
  · show Ideal.ofBits .f32 0x00000000#32 + _ = _
    rw [Ideal.ofBits_zero_f32, zero_add]
  · obtain ⟨-, -, -, -, -, -, -, -, -, -, -, -, -, -, e0, e1⟩ := idx_facts t
    show win10_7.index t 1 * 64 + 1 * q.val = q.val
    omega

theorem final7 : (dat10 V c).arrAt 7 cfg10.N = colSum (sq (uArr V c)) := by
  have hN : cfg10.N = 5 := N_10
  have h4 : 4 < cfg10.N := by omega
  refine (dat10 V c).arrAt_eq_of_cover 7 (colSum (sq (uArr V c))) (fun t hf => flushed7_eq V c t hf) fun i => ?_
  refine ⟨⟨4, h4⟩, (flush10_7 _).mpr rfl, ?_⟩
  show i ∈ ((View.whole (Pipeline.arrRef spec10 7)).slice (win10_7.rect ⟨4, h4⟩)).set
  rw [View.set_slice_whole, Rect.mem_set_unit]
  intro a
  obtain ⟨-, -, -, -, -, -, -, -, -, -, -, -, -, -, e0, e1⟩ := idx_facts ⟨4, h4⟩
  have h0 : (i 0 : Nat) < 1 := (i 0).isLt
  have h1 : (i 1 : Nat) < 64 := (i 1).isLt
  match a with
  | ⟨0, _⟩ =>
    show win10_7.index ⟨4, h4⟩ 0 * 1 ≤ (i 0 : Nat) ∧ (i 0 : Nat) < win10_7.index ⟨4, h4⟩ 0 * 1 + 1
    omega
  | ⟨1, _⟩ =>
    show win10_7.index ⟨4, h4⟩ 1 * 64 ≤ (i 1 : Nat) ∧ (i 1 : Nat) < win10_7.index ⟨4, h4⟩ 1 * 64 + 64
    omega

end Stats10

theorem sum10 (V : Entry) (c : Dev nD) :
    (dat10 V c).arrAt 6 cfg10.N = colSum (uLoc (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))) :=
  Stats10.final6 V c

theorem sumsq10 (V : Entry) (c : Dev nD) :
    (dat10 V c).arrAt 7 cfg10.N = colSum (sq (uLoc (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)))) :=
  Stats10.final7 V c

end Cert.KernelIdeal.Val

end
-- ==== Proof.KNorm11.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx
open scoped BigOperators

theorem row11_apply (x : FVec Ideal S1x64 .f32) (h : S1x64.Broadcasts S10000x64) (p : Fin 10000) (q : Fin 64) :
    broadcastTo S10000x64 x h (ix2 p q) = x (ix2 0 q) :=
  broadcastTo_1b_ab_apply x h p q

theorem prod11_apply (x : FVec Ideal S10000x64 .f32) (w : FVec Ideal S64x64 .f32) (hb : FTy.bits .bf16 < FTy.bits .f32)
    (p : Fin 10000) (q : Fin 64) :
    matmul dot_S10000x64_S64x64_S10000x64_1_0_0_1_n_n none (truncf .bf16 x hb) (truncf .bf16 w hb)
        (constant (F := Ideal) S10000x64 .f32 0x00000000#32) (ix2 p q)
      = ∑ k : Fin 64, x (ix2 p k) * w (ix2 k q) :=
  Cert.LibPlainDot.matmul_zero_apply dot_S10000x64_S64x64_S10000x64_1_0_0_1_n_n rfl rfl rfl rfl rfl rfl none x w p q

theorem pay11_eq (x0 x1 : FVec Ideal S10000x64 .f32) (x2 x3 : FVec Ideal S64x64 .f32)
    (x4 x5 x6 x7 x8 x9 : FVec Ideal S1x64 .f32) :
    k11_pay1 (F := Ideal) (k11_pay2 (F := Ideal) x0 x1 x2 x3 x4 x5) (k11_pay3 (F := Ideal) x6) (k11_pay4 (F := Ideal) x7)
        (k11_pay5 (F := Ideal) x8) x9
      = normLoc x0 x1 x2 x3 x4 x5 x6 x7 x8 x9 := by
  unfold k11_pay1 k11_pay2 k11_pay3 k11_pay4 k11_pay5
  simp only [shapeCast_self]
  funext j
  obtain ⟨p, q, rfl⟩ : ∃ (p : Fin 10000) (q : Fin 64), j = ix2 p q := ⟨j 0, j 1, eq_ix2 j⟩
  show ((prelu (broadcastTo S10000x64 x5 _ (ix2 p q))
          ((matmul dot_S10000x64_S64x64_S10000x64_1_0_0_1_n_n none (truncf .bf16 x0 _) (truncf .bf16 x2 _)
                (constant (F := Ideal) S10000x64 .f32 0x00000000#32) (ix2 p q)
              + matmul dot_S10000x64_S64x64_S10000x64_1_0_0_1_n_n none (truncf .bf16 x1 _) (truncf .bf16 x3 _)
                (constant (F := Ideal) S10000x64 .f32 0x00000000#32) (ix2 p q))
            + broadcastTo S10000x64 x4 _ (ix2 p q))
        - broadcastTo S10000x64 x6 _ (ix2 p q)) * broadcastTo S10000x64 x7 _ (ix2 p q))
        * broadcastTo S10000x64 x8 _ (ix2 p q) + broadcastTo S10000x64 x9 _ (ix2 p q) = _
  rw [row11_apply x5, row11_apply x4, row11_apply x6, row11_apply x7, row11_apply x8, row11_apply x9,
    prod11_apply x0 x2, prod11_apply x1 x3]
  rfl

theorem normLoc_rows11 {R R' : ℕ} (h g : A2 R 64) (h' g' : A2 R' 64) (w0 w1 : A2 64 64) (b a mean istd gam bet : A2 1 64)
    (w0' w1' : A2 64 64) (b' a' mean' istd' gam' bet' : A2 1 64) (p : Fin R) (n : Fin R') (q : Fin 64)
    (hh : ∀ k : Fin 64, h (ix2 p k) = h' (ix2 n k)) (hg : ∀ k : Fin 64, g (ix2 p k) = g' (ix2 n k))
    (e2 : w0 = w0') (e3 : w1 = w1') (e4 : b = b') (e5 : a = a') (e6 : mean = mean') (e7 : istd = istd')
    (e8 : gam = gam') (e9 : bet = bet') :
    normLoc h g w0 w1 b a mean istd gam bet (ix2 p q) = normLoc h' g' w0' w1' b' a' mean' istd' gam' bet' (ix2 n q) := by
  subst e2 e3 e4 e5 e6 e7 e8 e9
  have s1 : (∑ k : Fin 64, h (ix2 p k) * w0 (ix2 k q)) = ∑ k : Fin 64, h' (ix2 n k) * w0 (ix2 k q) :=
    Finset.sum_congr rfl fun k _ => by rw [hh k]
  have s2 : (∑ k : Fin 64, g (ix2 p k) * w1 (ix2 k q)) = ∑ k : Fin 64, g' (ix2 n k) * w1 (ix2 k q) :=
    Finset.sum_congr rfl fun k _ => by rw [hg k]
  show ((prelu (a (ix2 0 q)) (((∑ k : Fin 64, h (ix2 p k) * w0 (ix2 k q)) + (∑ k : Fin 64, g (ix2 p k) * w1 (ix2 k q)))
            + b (ix2 0 q)) - mean (ix2 0 q)) * istd (ix2 0 q)) * gam (ix2 0 q) + bet (ix2 0 q)
      = ((prelu (a (ix2 0 q)) (((∑ k : Fin 64, h' (ix2 n k) * w0 (ix2 k q)) + (∑ k : Fin 64, g' (ix2 n k) * w1 (ix2 k q)))
            + b (ix2 0 q)) - mean (ix2 0 q)) * istd (ix2 0 q)) * gam (ix2 0 q) + bet (ix2 0 q)
  rw [s1, s2]

abbrev inA11_0 (V : Entry) (c : Dev nD) : A2 50000 64 := V c (Pipeline.arrRef spec11 0)

abbrev inA11_1 (V : Entry) (c : Dev nD) : A2 50000 64 := V c (Pipeline.arrRef spec11 1)

abbrev inA11_2 (V : Entry) (c : Dev nD) : A2 64 64 := V c (Pipeline.arrRef spec11 2)

abbrev inA11_3 (V : Entry) (c : Dev nD) : A2 64 64 := V c (Pipeline.arrRef spec11 3)

abbrev inA11_4 (V : Entry) (c : Dev nD) : A2 1 64 := V c (Pipeline.arrRef spec11 4)

abbrev inA11_5 (V : Entry) (c : Dev nD) : A2 1 64 := V c (Pipeline.arrRef spec11 5)

abbrev inA11_6 (V : Entry) (c : Dev nD) : A2 1 64 := V c (Pipeline.arrRef spec11 6)

abbrev inA11_7 (V : Entry) (c : Dev nD) : A2 1 64 := V c (Pipeline.arrRef spec11 7)

abbrev inA11_8 (V : Entry) (c : Dev nD) : A2 1 64 := V c (Pipeline.arrRef spec11 8)

abbrev inA11_9 (V : Entry) (c : Dev nD) : A2 1 64 := V c (Pipeline.arrRef spec11 9)

abbrev inB11_0 (V : Entry) (c : Dev nD) (t : Fin cfg11.N) : A2 10000 64 := iblk11 V c 0 t

abbrev inB11_1 (V : Entry) (c : Dev nD) (t : Fin cfg11.N) : A2 10000 64 := iblk11 V c 1 t

abbrev inB11_2 (V : Entry) (c : Dev nD) (t : Fin cfg11.N) : A2 64 64 := iblk11 V c 2 t

abbrev inB11_3 (V : Entry) (c : Dev nD) (t : Fin cfg11.N) : A2 64 64 := iblk11 V c 3 t

abbrev inB11_4 (V : Entry) (c : Dev nD) (t : Fin cfg11.N) : A2 1 64 := iblk11 V c 4 t

abbrev inB11_5 (V : Entry) (c : Dev nD) (t : Fin cfg11.N) : A2 1 64 := iblk11 V c 5 t

abbrev inB11_6 (V : Entry) (c : Dev nD) (t : Fin cfg11.N) : A2 1 64 := iblk11 V c 6 t

abbrev inB11_7 (V : Entry) (c : Dev nD) (t : Fin cfg11.N) : A2 1 64 := iblk11 V c 7 t

abbrev inB11_8 (V : Entry) (c : Dev nD) (t : Fin cfg11.N) : A2 1 64 := iblk11 V c 8 t

abbrev inB11_9 (V : Entry) (c : Dev nD) (t : Fin cfg11.N) : A2 1 64 := iblk11 V c 9 t

theorem zero_off11 : (![0, 0] : Fin 2 → Nat) = fun _ => 0 := funext fun a => by fin_cases a <;> rfl

theorem idx11_moving : ∀ t : Fin cfg11.N,
    win11_0.index t (0 : Fin 2) = t.val ∧ win11_0.index t (1 : Fin 2) = 0
    ∧ win11_1.index t (0 : Fin 2) = t.val ∧ win11_1.index t (1 : Fin 2) = 0
    ∧ win11_10.index t (0 : Fin 2) = t.val ∧ win11_10.index t (1 : Fin 2) = 0 :=
  (by decide +kernel : ∀ t : Fin grid11.N, _)

theorem idx11_fixed : ∀ t : Fin cfg11.N,
    (win11_2.index t (0 : Fin 2) = 0 ∧ win11_2.index t (1 : Fin 2) = 0)
    ∧ (win11_3.index t (0 : Fin 2) = 0 ∧ win11_3.index t (1 : Fin 2) = 0)
    ∧ (win11_4.index t (0 : Fin 2) = 0 ∧ win11_4.index t (1 : Fin 2) = 0)
    ∧ (win11_5.index t (0 : Fin 2) = 0 ∧ win11_5.index t (1 : Fin 2) = 0)
    ∧ (win11_6.index t (0 : Fin 2) = 0 ∧ win11_6.index t (1 : Fin 2) = 0)
    ∧ (win11_7.index t (0 : Fin 2) = 0 ∧ win11_7.index t (1 : Fin 2) = 0)
    ∧ (win11_8.index t (0 : Fin 2) = 0 ∧ win11_8.index t (1 : Fin 2) = 0)
    ∧ (win11_9.index t (0 : Fin 2) = 0 ∧ win11_9.index t (1 : Fin 2) = 0) :=
  (by decide +kernel : ∀ t : Fin grid11.N, _)

theorem inB11_0_apply (V : Entry) (c : Dev nD) (t : Fin cfg11.N) (p : Fin 10000) (k : Fin 64) (n : Fin 50000)
    (hn : n.val = t.val * 10000 + p.val) : inB11_0 V c t (ix2 p k) = inA11_0 V c (ix2 n k) := by
  obtain ⟨f0, f1, -, -, -, -⟩ := idx11_moving t
  show V c (Pipeline.arrRef spec11 0) (((cfg11.win 0).blk t).view.emb (ix2 p k)) = V c (Pipeline.arrRef spec11 0) (ix2 n k)
  refine congrArg (V c (Pipeline.arrRef spec11 0)) (funext fun a => Fin.ext ?_)
  match a with
  | ⟨0, _⟩ => show win11_0.index t (0 : Fin 2) * 10000 + 1 * p.val = n.val; omega
  | ⟨1, _⟩ => show win11_0.index t (1 : Fin 2) * 64 + 1 * k.val = k.val; omega

theorem inB11_1_apply (V : Entry) (c : Dev nD) (t : Fin cfg11.N) (p : Fin 10000) (k : Fin 64) (n : Fin 50000)
    (hn : n.val = t.val * 10000 + p.val) : inB11_1 V c t (ix2 p k) = inA11_1 V c (ix2 n k) := by
  obtain ⟨-, -, f0, f1, -, -⟩ := idx11_moving t
  show V c (Pipeline.arrRef spec11 1) (((cfg11.win 1).blk t).view.emb (ix2 p k)) = V c (Pipeline.arrRef spec11 1) (ix2 n k)
  refine congrArg (V c (Pipeline.arrRef spec11 1)) (funext fun a => Fin.ext ?_)
  match a with
  | ⟨0, _⟩ => show win11_1.index t (0 : Fin 2) * 10000 + 1 * p.val = n.val; omega
  | ⟨1, _⟩ => show win11_1.index t (1 : Fin 2) * 64 + 1 * k.val = k.val; omega

theorem inB11_2_eq (V : Entry) (c : Dev nD) (t : Fin cfg11.N) : inB11_2 V c t = inA11_2 V c := by
  obtain ⟨⟨f0, f1⟩, -⟩ := idx11_fixed t
  funext y
  show V c (Pipeline.arrRef spec11 2) (((cfg11.win 2).blk t).view.emb y) = V c (Pipeline.arrRef spec11 2) y
  refine congrArg (V c (Pipeline.arrRef spec11 2)) (funext fun a => Fin.ext ?_)
  match a with
  | ⟨0, _⟩ => show win11_2.index t (0 : Fin 2) * 64 + 1 * (y 0).val = (y 0).val; omega
  | ⟨1, _⟩ => show win11_2.index t (1 : Fin 2) * 64 + 1 * (y 1).val = (y 1).val; omega

theorem inB11_3_eq (V : Entry) (c : Dev nD) (t : Fin cfg11.N) : inB11_3 V c t = inA11_3 V c := by
  obtain ⟨-, ⟨f0, f1⟩, -⟩ := idx11_fixed t
  funext y
  show V c (Pipeline.arrRef spec11 3) (((cfg11.win 3).blk t).view.emb y) = V c (Pipeline.arrRef spec11 3) y
  refine congrArg (V c (Pipeline.arrRef spec11 3)) (funext fun a => Fin.ext ?_)
  match a with
  | ⟨0, _⟩ => show win11_3.index t (0 : Fin 2) * 64 + 1 * (y 0).val = (y 0).val; omega
  | ⟨1, _⟩ => show win11_3.index t (1 : Fin 2) * 64 + 1 * (y 1).val = (y 1).val; omega

theorem inB11_4_eq (V : Entry) (c : Dev nD) (t : Fin cfg11.N) : inB11_4 V c t = inA11_4 V c := by
  obtain ⟨-, -, ⟨f0, f1⟩, -⟩ := idx11_fixed t
  funext y
  show V c (Pipeline.arrRef spec11 4) (((cfg11.win 4).blk t).view.emb y) = V c (Pipeline.arrRef spec11 4) y
  refine congrArg (V c (Pipeline.arrRef spec11 4)) (funext fun a => Fin.ext ?_)
  match a with
  | ⟨0, _⟩ => show win11_4.index t (0 : Fin 2) * 1 + 1 * (y 0).val = (y 0).val; omega
  | ⟨1, _⟩ => show win11_4.index t (1 : Fin 2) * 64 + 1 * (y 1).val = (y 1).val; omega

theorem inB11_5_eq (V : Entry) (c : Dev nD) (t : Fin cfg11.N) : inB11_5 V c t = inA11_5 V c := by
  obtain ⟨-, -, -, ⟨f0, f1⟩, -⟩ := idx11_fixed t
  funext y
  show V c (Pipeline.arrRef spec11 5) (((cfg11.win 5).blk t).view.emb y) = V c (Pipeline.arrRef spec11 5) y
  refine congrArg (V c (Pipeline.arrRef spec11 5)) (funext fun a => Fin.ext ?_)
  match a with
  | ⟨0, _⟩ => show win11_5.index t (0 : Fin 2) * 1 + 1 * (y 0).val = (y 0).val; omega
  | ⟨1, _⟩ => show win11_5.index t (1 : Fin 2) * 64 + 1 * (y 1).val = (y 1).val; omega

theorem inB11_6_eq (V : Entry) (c : Dev nD) (t : Fin cfg11.N) : inB11_6 V c t = inA11_6 V c := by
  obtain ⟨-, -, -, -, ⟨f0, f1⟩, -⟩ := idx11_fixed t
  funext y
  show V c (Pipeline.arrRef spec11 6) (((cfg11.win 6).blk t).view.emb y) = V c (Pipeline.arrRef spec11 6) y
  refine congrArg (V c (Pipeline.arrRef spec11 6)) (funext fun a => Fin.ext ?_)
  match a with
  | ⟨0, _⟩ => show win11_6.index t (0 : Fin 2) * 1 + 1 * (y 0).val = (y 0).val; omega
  | ⟨1, _⟩ => show win11_6.index t (1 : Fin 2) * 64 + 1 * (y 1).val = (y 1).val; omega

theorem inB11_7_eq (V : Entry) (c : Dev nD) (t : Fin cfg11.N) : inB11_7 V c t = inA11_7 V c := by
  obtain ⟨-, -, -, -, -, ⟨f0, f1⟩, -⟩ := idx11_fixed t
  funext y
  show V c (Pipeline.arrRef spec11 7) (((cfg11.win 7).blk t).view.emb y) = V c (Pipeline.arrRef spec11 7) y
  refine congrArg (V c (Pipeline.arrRef spec11 7)) (funext fun a => Fin.ext ?_)
  match a with
  | ⟨0, _⟩ => show win11_7.index t (0 : Fin 2) * 1 + 1 * (y 0).val = (y 0).val; omega
  | ⟨1, _⟩ => show win11_7.index t (1 : Fin 2) * 64 + 1 * (y 1).val = (y 1).val; omega

theorem inB11_8_eq (V : Entry) (c : Dev nD) (t : Fin cfg11.N) : inB11_8 V c t = inA11_8 V c := by
  obtain ⟨-, -, -, -, -, -, ⟨f0, f1⟩, -⟩ := idx11_fixed t
  funext y
  show V c (Pipeline.arrRef spec11 8) (((cfg11.win 8).blk t).view.emb y) = V c (Pipeline.arrRef spec11 8) y
  refine congrArg (V c (Pipeline.arrRef spec11 8)) (funext fun a => Fin.ext ?_)
  match a with
  | ⟨0, _⟩ => show win11_8.index t (0 : Fin 2) * 1 + 1 * (y 0).val = (y 0).val; omega
  | ⟨1, _⟩ => show win11_8.index t (1 : Fin 2) * 64 + 1 * (y 1).val = (y 1).val; omega

theorem inB11_9_eq (V : Entry) (c : Dev nD) (t : Fin cfg11.N) : inB11_9 V c t = inA11_9 V c := by
  obtain ⟨-, -, -, -, -, -, -, f0, f1⟩ := idx11_fixed t
  funext y
  show V c (Pipeline.arrRef spec11 9) (((cfg11.win 9).blk t).view.emb y) = V c (Pipeline.arrRef spec11 9) y
  refine congrArg (V c (Pipeline.arrRef spec11 9)) (funext fun a => Fin.ext ?_)
  match a with
  | ⟨0, _⟩ => show win11_9.index t (0 : Fin 2) * 1 + 1 * (y 0).val = (y 0).val; omega
  | ⟨1, _⟩ => show win11_9.index t (1 : Fin 2) * 64 + 1 * (y 1).val = (y 1).val; omega

theorem out11_idx (t : Fin cfg11.N) (p : Fin 10000) (q : Fin 64) (n : Fin 50000) (hn : n.val = t.val * 10000 + p.val) :
    (((cfg11.win 10).blk t).view.emb (ix2 p q) : S50000x64.Idx) = ix2 n q := by
  obtain ⟨-, -, -, -, f0, f1⟩ := idx11_moving t
  funext a
  apply Fin.ext
  match a with
  | ⟨0, _⟩ => show win11_10.index t (0 : Fin 2) * 10000 + 1 * p.val = n.val; omega
  | ⟨1, _⟩ => show win11_10.index t (1 : Fin 2) * 64 + 1 * q.val = q.val; omega

theorem flushed11_eq (V : Entry) (c : Dev nD) (t : Fin cfg11.N) :
    (dat11 V c).flushed 10 t = ((cfg11.win 10).blk t).view.read (Elt Ideal) (normLoc (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (V c (Pipeline.arrRef spec11 9))) := by
  show (cfg11.win 10).cut (grid11.coords t) ((dat11 V c).after 10 t) = _
  rw [after11_10 V c t]
  unfold out11_10
  rw [View.canon_unit_zero zero_off11]
  simp only [View.ld_unit_zero (S := S10000x64) zero_off11, View.ld_unit_zero (S := S64x64) zero_off11,
    View.ld_unit_zero (S := S1x64) zero_off11]
  show (fun j : S10000x64.Idx => k11_pay1 (F := Ideal) (k11_pay2 (F := Ideal) (inB11_0 V c t) (inB11_1 V c t) (inB11_2 V c t) (inB11_3 V c t) (inB11_4 V c t) (inB11_5 V c t)) (k11_pay3 (F := Ideal) (inB11_6 V c t)) (k11_pay4 (F := Ideal) (inB11_7 V c t)) (k11_pay5 (F := Ideal) (inB11_8 V c t)) (inB11_9 V c t) j)
      = fun j : S10000x64.Idx => normLoc (inA11_0 V c) (inA11_1 V c) (inA11_2 V c) (inA11_3 V c) (inA11_4 V c) (inA11_5 V c) (inA11_6 V c) (inA11_7 V c) (inA11_8 V c) (inA11_9 V c) (((cfg11.win 10).blk t).view.emb j)
  funext j
  obtain ⟨p, q, rfl⟩ : ∃ (p : Fin 10000) (q : Fin 64), j = ix2 p q := ⟨j 0, j 1, eq_ix2 j⟩
  have ht : t.val < 5 := lt_of_lt_of_eq t.isLt N_11
  have hp : p.val < 10000 := p.isLt
  obtain ⟨n, hn⟩ : ∃ n : Fin 50000, n.val = t.val * 10000 + p.val := ⟨⟨t.val * 10000 + p.val, by omega⟩, rfl⟩
  refine (congrFun (pay11_eq (inB11_0 V c t) (inB11_1 V c t) (inB11_2 V c t) (inB11_3 V c t) (inB11_4 V c t) (inB11_5 V c t) (inB11_6 V c t) (inB11_7 V c t) (inB11_8 V c t) (inB11_9 V c t)) (ix2 p q)).trans ?_
  refine (normLoc_rows11 (inB11_0 V c t) (inB11_1 V c t) (inA11_0 V c) (inA11_1 V c) (inB11_2 V c t) (inB11_3 V c t) (inB11_4 V c t) (inB11_5 V c t) (inB11_6 V c t) (inB11_7 V c t) (inB11_8 V c t) (inB11_9 V c t) (inA11_2 V c) (inA11_3 V c) (inA11_4 V c) (inA11_5 V c) (inA11_6 V c) (inA11_7 V c) (inA11_8 V c) (inA11_9 V c)
    p n q
    (fun k => inB11_0_apply V c t p k n hn) (fun k => inB11_1_apply V c t p k n hn)
    (inB11_2_eq V c t) (inB11_3_eq V c t) (inB11_4_eq V c t) (inB11_5_eq V c t) (inB11_6_eq V c t) (inB11_7_eq V c t) (inB11_8_eq V c t) (inB11_9_eq V c t)).trans ?_
  exact congrArg (normLoc (inA11_0 V c) (inA11_1 V c) (inA11_2 V c) (inA11_3 V c) (inA11_4 V c) (inA11_5 V c) (inA11_6 V c) (inA11_7 V c) (inA11_8 V c) (inA11_9 V c)) (out11_idx t p q n hn).symm

theorem mem_blk11 (t : Fin cfg11.N) (i : S50000x64.Idx) :
    i ∈ ((cfg11.win 10).blk t).view.set ↔ ∀ a : Fin 2, win11_10.index t a * S10000x64.size a ≤ (i a).val ∧ (i a).val < win11_10.index t a * S10000x64.size a + S10000x64.size a := by
  show i ∈ ((View.whole main_v186).slice (win11_10.rect t)).set ↔ _
  rw [View.set_slice_whole, Rect.mem_set_unit]
  exact Iff.rfl

theorem cover11_arr (i : S50000x64.Idx) :
    ∃ t : Fin cfg11.N, (cfg11.win 10).flush t = true ∧ i ∈ ((cfg11.win 10).blk t).view.set := by
  have h0 : (i 0).val < 50000 := (i 0).isLt
  have h1 : (i 1).val < 64 := (i 1).isLt
  obtain ⟨t, ht⟩ : ∃ t : Fin cfg11.N, t.val = (i 0).val / 10000 :=
    ⟨⟨(i 0).val / 10000, by rw [show cfg11.N = 5 from N_11]; omega⟩, rfl⟩
  obtain ⟨-, -, -, -, f0, f1⟩ := idx11_moving t
  refine ⟨t, flush11_10 t, ?_⟩
  rw [mem_blk11]
  intro a
  match a with
  | ⟨0, _⟩ =>
    show win11_10.index t (0 : Fin 2) * 10000 ≤ (i 0).val ∧ (i 0).val < win11_10.index t (0 : Fin 2) * 10000 + 10000
    omega
  | ⟨1, _⟩ =>
    show win11_10.index t (1 : Fin 2) * 64 ≤ (i 1).val ∧ (i 1).val < win11_10.index t (1 : Fin 2) * 64 + 64
    omega

theorem norm11 (V : Entry) (c : Dev nD) :
    (dat11 V c).arrAt 10 cfg11.N = normLoc (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (V c (Pipeline.arrRef spec11 9)) := by
  exact (dat11 V c).arrAt_eq_of_cover 10 (normLoc (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (V c (Pipeline.arrRef spec11 9))) (fun t _ => flushed11_eq V c t) (fun i => cover11_arr i)

end Cert.KernelIdeal.Val

end
-- ==== Proof.KLayer3a.lean ====
import proofs.«428660_j69922067578969_2_alg».proof.Proof.Gen.KernelIdeal.Launch
import proofs.«428660_j69922067578969_2_alg».proof.Proof.KParams
import Idealize.ShloMosaic.Lib.StableHlo.Run

set_option maxRecDepth 16384

noncomputable section

namespace Cert.KernelIdeal.Val.L3

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrP : List (Ref sig .tc) :=
  [main_v143, main_v144, main_v145, main_v146, main_v147, main_v148, main_v149, main_v150, main_v151, main_v152,
   main_v153, main_v154, main_v155, main_v156, main_v157, main_v158, main_v159, main_v160, main_v161, main_v162,
   main_v163, main_v164, main_v165]

theorem wrP_sub :
    (hostOps9 (F := Ideal)).Forall fun op => op.writes ⊆ (wrP.map (Proc.devRef (τ := τ) .tc)).toFinset := by
  simp only [hostOps9, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepP (r : Ref sig .tc) (h : r ∉ wrP) :
    StableHlo.after (hostOps9 (F := Ideal)) V (Proc.devRef .tc r) = V (Proc.devRef .tc r) :=
  StableHlo.after_of_writes_sub _ V wrP_sub h

theorem p_wm0 : StableHlo.after (hostOps9 (F := Ideal)) V (Proc.devRef .tc main_v144)
    = half0 (V (Proc.devRef .tc main_arg3)) (3 : Fin 4) := by
  after_results_simp; exact half0_read _ (3 : Fin 4) _ rfl rfl rfl _ _

theorem p_wm1 : StableHlo.after (hostOps9 (F := Ideal)) V (Proc.devRef .tc main_v146)
    = half1 (V (Proc.devRef .tc main_arg3)) (3 : Fin 4) := by
  after_results_simp; exact half1_read _ (3 : Fin 4) _ rfl rfl rfl _ _

theorem p_wu0 : StableHlo.after (hostOps9 (F := Ideal)) V (Proc.devRef .tc main_v148)
    = half0 (V (Proc.devRef .tc main_arg5)) (3 : Fin 4) := by
  after_results_simp; exact half0_read _ (3 : Fin 4) _ rfl rfl rfl _ _

theorem p_wu1 : StableHlo.after (hostOps9 (F := Ideal)) V (Proc.devRef .tc main_v150)
    = half1 (V (Proc.devRef .tc main_arg5)) (3 : Fin 4) := by
  after_results_simp; exact half1_read _ (3 : Fin 4) _ rfl rfl rfl _ _

theorem p_bm : StableHlo.after (hostOps9 (F := Ideal)) V (Proc.devRef .tc main_v153)
    = rowOf (V (Proc.devRef .tc main_arg4)) (3 : Fin 4) := by
  after_results_simp; exact rowOf_read _ (3 : Fin 4) _ rfl rfl _ _ _

theorem p_bu : StableHlo.after (hostOps9 (F := Ideal)) V (Proc.devRef .tc main_v156)
    = rowOf (V (Proc.devRef .tc main_arg6)) (3 : Fin 4) := by
  after_results_simp; exact rowOf_read _ (3 : Fin 4) _ rfl rfl _ _ _

theorem p_a : StableHlo.after (hostOps9 (F := Ideal)) V (Proc.devRef .tc main_v159)
    = splatOf (V (Proc.devRef .tc main_arg7)) (3 : Fin 4) := by
  after_results_simp; exact splatOf_read _ (3 : Fin 4) _ rfl _ _ _ _

theorem p_gam : StableHlo.after (hostOps9 (F := Ideal)) V (Proc.devRef .tc main_v162)
    = rowOf (V (Proc.devRef .tc main_arg8)) (3 : Fin 4) := by
  after_results_simp; exact rowOf_read _ (3 : Fin 4) _ rfl rfl _ _ _

theorem p_bet : StableHlo.after (hostOps9 (F := Ideal)) V (Proc.devRef .tc main_v165)
    = rowOf (V (Proc.devRef .tc main_arg9)) (3 : Fin 4) := by
  after_results_simp; exact rowOf_read _ (3 : Fin 4) _ rfl rfl _ _ _

end Cert.KernelIdeal.Val.L3

end
-- ==== Proof.KLayer3b.lean ====
import proofs.«428660_j69922067578969_2_alg».proof.Proof.Gen.KernelIdeal.Launch
import proofs.«428660_j69922067578969_2_alg».proof.Proof.Take
import Idealize.ShloMosaic.Lib.StableHlo.Run

set_option maxRecDepth 16384

noncomputable section

namespace Cert.KernelIdeal.Val.L3

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrT1 : List (Ref sig .tc) :=
  [main_call6_c, main_call6_v0, main_call6_v1, main_call6_c_0, main_call6_v2, main_call6_v3, main_call6_v4,
   main_call6_v5, main_call6_c_1, main_call6_c_2, main_call6_v6, main_call6_v7, main_call6_v8,
   main_call6_v9, main_call6_v10, main_call6_v11, main_call6_c_3, main_call6_v12, main_call6_v13,
   main_call6_v14, main_call6_cst, main_call6_v15, main_v166]

theorem wrT1_sub :
    (hostOps9_1 (F := Ideal)).Forall fun op => op.writes ⊆ (wrT1.map (Proc.devRef (τ := τ) .tc)).toFinset := by
  simp only [hostOps9_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepT1 (r : Ref sig .tc) (h : r ∉ wrT1) :
    StableHlo.after (hostOps9_1 (F := Ideal)) V (Proc.devRef .tc r) = V (Proc.devRef .tc r) :=
  StableHlo.after_of_writes_sub _ V wrT1_sub h

abbrev wrT2 : List (Ref sig .tc) :=
  [main_call7_c, main_call7_v0, main_call7_v1, main_call7_c_0, main_call7_v2, main_call7_v3, main_call7_v4,
   main_call7_v5, main_call7_c_1, main_call7_c_2, main_call7_v6, main_call7_v7, main_call7_v8,
   main_call7_v9, main_call7_v10, main_call7_v11, main_call7_c_3, main_call7_v12, main_call7_v13,
   main_call7_v14, main_call7_cst, main_call7_v15, main_v167]

theorem wrT2_sub :
    (hostOps9_2 (F := Ideal)).Forall fun op => op.writes ⊆ (wrT2.map (Proc.devRef (τ := τ) .tc)).toFinset := by
  simp only [hostOps9_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepT2 (r : Ref sig .tc) (h : r ∉ wrT2) :
    StableHlo.after (hostOps9_2 (F := Ideal)) V (Proc.devRef .tc r) = V (Proc.devRef .tc r) :=
  StableHlo.after_of_writes_sub _ V wrT2_sub h

theorem cast_cast_id {α β : Type} (h₁ : α = β) (h₂ : β = α) (v : α) : cast h₂ (cast h₁ v) = v := by
  subst h₁; rfl

theorem toBuf_o1 (v : (⟨S800000x64, .f32⟩ : BufTy).Contents (Elt Ideal)) :
    (StableHlo.TRef.of main_v166 : StableHlo.TRef sig ⟨S800000x64, .f32⟩).toBuf v = v := rfl
theorem toBuf_o2 (v : (⟨S800000x64, .f32⟩ : BufTy).Contents (Elt Ideal)) :
    (StableHlo.TRef.of main_v167 : StableHlo.TRef sig ⟨S800000x64, .f32⟩).toBuf v = v := rfl
theorem ofBuf_h (v : (main_v142 : Ref sig .tc).ty.Contents (Elt Ideal)) :
    (StableHlo.TRef.of main_v142 : StableHlo.TRef sig ⟨S50000x64, .f32⟩).ofBuf v = v := rfl
theorem ofBuf_s (v : (main_v1 : Ref sig .tc).ty.Contents (Elt Ideal)) :
    (StableHlo.TRef.of main_v1 : StableHlo.TRef sig ⟨S800000, .i32⟩).ofBuf v = v := rfl
theorem ofBuf_d (v : (main_v3 : Ref sig .tc).ty.Contents (Elt Ideal)) :
    (StableHlo.TRef.of main_v3 : StableHlo.TRef sig ⟨S800000, .i32⟩).ofBuf v = v := rfl

theorem take1' : StableHlo.after (hostOps9_1 (F := Ideal)) V (Proc.devRef .tc main_v166)
    = (StableHlo.TRef.of main_v166 : StableHlo.TRef sig ⟨S800000x64, .f32⟩).toBuf
        (takeK ((StableHlo.TRef.of main_v142 : StableHlo.TRef sig ⟨S50000x64, .f32⟩).ofBuf (V (Proc.devRef .tc main_v142)))
          ((StableHlo.TRef.of main_v1 : StableHlo.TRef sig ⟨S800000, .i32⟩).ofBuf (V (Proc.devRef .tc main_v1)))) := by
  after_results_simp
  simp only [StableHlo.TRef.ofBuf, StableHlo.TRef.toBuf, cast_cast_id]
  unfold takeK Cert.Shared.wrap
  with_reducible rfl

theorem take1 : StableHlo.after (hostOps9_1 (F := Ideal)) V (Proc.devRef .tc main_v166)
    = takeK (V (Proc.devRef .tc main_v142)) (V (Proc.devRef .tc main_v1)) :=
  (take1' V).trans ((toBuf_o1 _).trans (congrArg₂ takeK (ofBuf_h _) (ofBuf_s _)))

theorem take2' : StableHlo.after (hostOps9_2 (F := Ideal)) V (Proc.devRef .tc main_v167)
    = (StableHlo.TRef.of main_v167 : StableHlo.TRef sig ⟨S800000x64, .f32⟩).toBuf
        (takeK ((StableHlo.TRef.of main_v142 : StableHlo.TRef sig ⟨S50000x64, .f32⟩).ofBuf (V (Proc.devRef .tc main_v142)))
          ((StableHlo.TRef.of main_v3 : StableHlo.TRef sig ⟨S800000, .i32⟩).ofBuf (V (Proc.devRef .tc main_v3)))) := by
  after_results_simp
  simp only [StableHlo.TRef.ofBuf, StableHlo.TRef.toBuf, cast_cast_id]
  unfold takeK Cert.Shared.wrap
  with_reducible rfl

theorem take2 : StableHlo.after (hostOps9_2 (F := Ideal)) V (Proc.devRef .tc main_v167)
    = takeK (V (Proc.devRef .tc main_v142)) (V (Proc.devRef .tc main_v3)) :=
  (take2' V).trans ((toBuf_o2 _).trans (congrArg₂ takeK (ofBuf_h _) (ofBuf_d _)))

end Cert.KernelIdeal.Val.L3

end
-- ==== Proof.KLayer3c.lean ====
import proofs.«428660_j69922067578969_2_alg».proof.Proof.Gen.KernelIdeal.Launch
import proofs.«428660_j69922067578969_2_alg».proof.Proof.Shared
import Idealize.ShloMosaic.Lib.StableHlo.Run

set_option maxRecDepth 16384

noncomputable section

namespace Cert.KernelIdeal.Val.L3

open Idealize.ShloMosaic Idealize.ShloMosaic.ValueIdx Idealize.ShloMosaic.TcCoe Idealize.SL.Sem
open Cert.KernelIdeal Cert.KernelIdeal.Gen Cert.Spec

variable (V : Valuation τ sig (Elt Ideal))

abbrev wrA : List (Ref sig .tc) :=
  [main_cst_17, main_v169, main_v170, main_v171, main_v172, main_v173]

theorem wrA_sub :
    (hostOps10 (F := Ideal)).Forall fun op => op.writes ⊆ (wrA.map (Proc.devRef (τ := τ) .tc)).toFinset := by
  simp only [hostOps10, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepA (r : Ref sig .tc) (h : r ∉ wrA) :
    StableHlo.after (hostOps10 (F := Ideal)) V (Proc.devRef .tc r) = V (Proc.devRef .tc r) :=
  StableHlo.after_of_writes_sub _ V wrA_sub h

abbrev wrS : List (Ref sig .tc) :=
  [main_cst_18, main_v175, main_v176, main_cst_19, main_v177, main_v178, main_v179, main_v180, main_cst_20,
   main_v181, main_v182, main_cst_21, main_v183, main_v184, main_v185]

theorem wrS_sub :
    (hostOps11 (F := Ideal)).Forall fun op => op.writes ⊆ (wrS.map (Proc.devRef (τ := τ) .tc)).toFinset := by
  simp only [hostOps11, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keepS (r : Ref sig .tc) (h : r ∉ wrS) :
    StableHlo.after (hostOps11 (F := Ideal)) V (Proc.devRef .tc r) = V (Proc.devRef .tc r) :=
  StableHlo.after_of_writes_sub _ V wrS_sub h

theorem aggr (ei : IVec S2x800000 32) (hd : V (Proc.devRef .tc main_v3) = Cert.Shared.dst ei)
    (hg : V (Proc.devRef .tc main_v10) = Cert.Shared.deg ei) :
    StableHlo.after (hostOps10 (F := Ideal)) V (Proc.devRef .tc main_v173)
      = Cert.Shared.agg ei (V (Proc.devRef .tc main_v168)) := by
  after_results
  rw [hd, hg]
  rfl

theorem mean : StableHlo.after (hostOps11 (F := Ideal)) V (Proc.devRef .tc main_v176)
    = meanOf (V (Proc.devRef .tc main_v174_0)) := by
  after_results
  rfl

theorem istd : StableHlo.after (hostOps11 (F := Ideal)) V (Proc.devRef .tc main_v185)
    = invstdOf (varK (V (Proc.devRef .tc main_v174_0)) (V (Proc.devRef .tc main_v174_1))) := by
  after_results
  rfl

end Cert.KernelIdeal.Val.L3

end
-- ==== Proof.KLayer3.lean ====
import proofs.«428660_j69922067578969_2_alg».proof.Proof.Gen.KernelIdeal.Frame
import proofs.«428660_j69922067578969_2_alg».proof.Proof.KLive
import proofs.«428660_j69922067578969_2_alg».proof.Proof.KMsg9
import proofs.«428660_j69922067578969_2_alg».proof.Proof.KStats10
import proofs.«428660_j69922067578969_2_alg».proof.Proof.KNorm11
import proofs.«428660_j69922067578969_2_alg».proof.Proof.KLayer3a
import proofs.«428660_j69922067578969_2_alg».proof.Proof.KLayer3b
import proofs.«428660_j69922067578969_2_alg».proof.Proof.KLayer3c

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.Spec

namespace L3

abbrev pWm0 (m : Mem) (c : Dev nD) : A2 64 64 := half0 (m ((c : Thread nD τ).loc main_arg3)) (3 : Fin 4)
abbrev pWm1 (m : Mem) (c : Dev nD) : A2 64 64 := half1 (m ((c : Thread nD τ).loc main_arg3)) (3 : Fin 4)
abbrev pBm (m : Mem) (c : Dev nD) : A2 1 64 := rowOf (m ((c : Thread nD τ).loc main_arg4)) (3 : Fin 4)
abbrev pWu0 (m : Mem) (c : Dev nD) : A2 64 64 := half0 (m ((c : Thread nD τ).loc main_arg5)) (3 : Fin 4)
abbrev pWu1 (m : Mem) (c : Dev nD) : A2 64 64 := half1 (m ((c : Thread nD τ).loc main_arg5)) (3 : Fin 4)
abbrev pBu (m : Mem) (c : Dev nD) : A2 1 64 := rowOf (m ((c : Thread nD τ).loc main_arg6)) (3 : Fin 4)
abbrev pA (m : Mem) (c : Dev nD) : A2 1 64 := splatOf (m ((c : Thread nD τ).loc main_arg7)) (3 : Fin 4)
abbrev pGam (m : Mem) (c : Dev nD) : A2 1 64 := rowOf (m ((c : Thread nD τ).loc main_arg8)) (3 : Fin 4)
abbrev pBet (m : Mem) (c : Dev nD) : A2 1 64 := rowOf (m ((c : Thread nD τ).loc main_arg9)) (3 : Fin 4)

abbrev xGs (m : Mem) (c : Dev nD) (H : A2 50000 64) : A2 800000 64 := Cert.Shared.gat (Cert.Shared.src (m ((c : Thread nD τ).loc main_arg1))) H
abbrev xGd (m : Mem) (c : Dev nD) (H : A2 50000 64) : A2 800000 64 := Cert.Shared.gat (Cert.Shared.dst (m ((c : Thread nD τ).loc main_arg1))) H

abbrev xMsg (m : Mem) (c : Dev nD) (H : A2 50000 64) : A2 800000 64 := msgLoc (xGs m c H) (xGd m c H) (pWm0 m c) (pWm1 m c) (pBm m c)
abbrev xAgg (m : Mem) (c : Dev nD) (H : A2 50000 64) : A2 50000 64 := Cert.Shared.agg (m ((c : Thread nD τ).loc main_arg1)) (xMsg m c H)
abbrev xUpd (m : Mem) (c : Dev nD) (H : A2 50000 64) : A2 50000 64 := uLoc H (xAgg m c H) (pWu0 m c) (pWu1 m c) (pBu m c) (pA m c)
abbrev xSum (m : Mem) (c : Dev nD) (H : A2 50000 64) : A2 1 64 := colSum (xUpd m c H)
abbrev xSq (m : Mem) (c : Dev nD) (H : A2 50000 64) : A2 1 64 := colSum (sq (xUpd m c H))
abbrev xMean (m : Mem) (c : Dev nD) (H : A2 50000 64) : A2 1 64 := meanOf (xSum m c H)
abbrev xIstd (m : Mem) (c : Dev nD) (H : A2 50000 64) : A2 1 64 := invstdOf (varK (xSum m c H) (xSq m c H))

abbrev xOut (m : Mem) (c : Dev nD) (H : A2 50000 64) : A2 50000 64 :=
  normLoc H (xAgg m c H) (pWu0 m c) (pWu1 m c) (pBu m c) (pA m c) (xMean m c H) (xIstd m c H) (pGam m c) (pBet m c)

theorem xOut_eq (m : Mem) (c : Dev nD) (H : A2 50000 64) : xOut m c H = layerOf m c (3 : Fin 4) H := rfl

section Keeps

variable (m : Mem) (ρ : Dev nD → PrngReg) (c : Dev nD)

theorem kP (r : Ref sig .tc) (h : r ∉ wrP) : W25 m ρ c (Proc.devRef .tc r) = W24 m ρ c (Proc.devRef .tc r) := keepP _ r h
theorem kT1 (r : Ref sig .tc) (h : r ∉ wrT1) : W26 m ρ c (Proc.devRef .tc r) = W25 m ρ c (Proc.devRef .tc r) := keepT1 _ r h
theorem kT2 (r : Ref sig .tc) (h : r ∉ wrT2) : W27 m ρ c (Proc.devRef .tc r) = W26 m ρ c (Proc.devRef .tc r) := keepT2 _ r h
theorem kA (r : Ref sig .tc) (h : r ∉ wrA) : W29 m ρ c (Proc.devRef .tc r) = W28 m ρ c (Proc.devRef .tc r) := keepA _ r h
theorem kQ (r : Ref sig .tc) (h : r ∉ wrS) : W31 m ρ c (Proc.devRef .tc r) = W30 m ρ c (Proc.devRef .tc r) := keepS _ r h

theorem inM : ∀ w : Fin 6, Pipeline.arrRef spec9 w ≠ main_v168 →
    W28 m ρ c (Proc.devRef .tc (Pipeline.arrRef spec9 w)) = W27 m ρ c (Proc.devRef .tc (Pipeline.arrRef spec9 w))
  | 0, _ => (W28_arr m ρ c 0).trans (((dat9 (V27 m ρ) c).arrAt_in 0 rfl _).trans (A_eq9 (V27 m ρ) c 0))
  | 1, _ => (W28_arr m ρ c 1).trans (((dat9 (V27 m ρ) c).arrAt_in 1 rfl _).trans (A_eq9 (V27 m ρ) c 1))
  | 2, _ => (W28_arr m ρ c 2).trans (((dat9 (V27 m ρ) c).arrAt_in 2 rfl _).trans (A_eq9 (V27 m ρ) c 2))
  | 3, _ => (W28_arr m ρ c 3).trans (((dat9 (V27 m ρ) c).arrAt_in 3 rfl _).trans (A_eq9 (V27 m ρ) c 3))
  | 4, _ => (W28_arr m ρ c 4).trans (((dat9 (V27 m ρ) c).arrAt_in 4 rfl _).trans (A_eq9 (V27 m ρ) c 4))
  | 5, h => absurd rfl h
  | ⟨_ + 6, hlt⟩, _ => absurd hlt (by omega)

theorem kM (r : Ref sig .tc) (h0 : r ≠ main_v168) :
    W28 m ρ c (Proc.devRef .tc r) = W27 m ρ c (Proc.devRef .tc r) := by
  by_cases hw : ∃ w, Pipeline.arrRef spec9 w = r
  · obtain ⟨w, rfl⟩ := hw
    exact inM m ρ c w h0
  · exact W28_of_ne m ρ c r fun w e => hw ⟨w, e⟩

theorem inS : ∀ w : Fin 8, Pipeline.arrRef spec10 w ≠ main_v174_0 → Pipeline.arrRef spec10 w ≠ main_v174_1 →
    W30 m ρ c (Proc.devRef .tc (Pipeline.arrRef spec10 w)) = W29 m ρ c (Proc.devRef .tc (Pipeline.arrRef spec10 w))
  | 0, _, _ => (W30_arr m ρ c 0).trans (((dat10 (V29 m ρ) c).arrAt_in 0 rfl _).trans (A_eq10 (V29 m ρ) c 0))
  | 1, _, _ => (W30_arr m ρ c 1).trans (((dat10 (V29 m ρ) c).arrAt_in 1 rfl _).trans (A_eq10 (V29 m ρ) c 1))
  | 2, _, _ => (W30_arr m ρ c 2).trans (((dat10 (V29 m ρ) c).arrAt_in 2 rfl _).trans (A_eq10 (V29 m ρ) c 2))
  | 3, _, _ => (W30_arr m ρ c 3).trans (((dat10 (V29 m ρ) c).arrAt_in 3 rfl _).trans (A_eq10 (V29 m ρ) c 3))
  | 4, _, _ => (W30_arr m ρ c 4).trans (((dat10 (V29 m ρ) c).arrAt_in 4 rfl _).trans (A_eq10 (V29 m ρ) c 4))
  | 5, _, _ => (W30_arr m ρ c 5).trans (((dat10 (V29 m ρ) c).arrAt_in 5 rfl _).trans (A_eq10 (V29 m ρ) c 5))
  | 6, h, _ => absurd rfl h
  | 7, _, h => absurd rfl h
  | ⟨_ + 8, hlt⟩, _, _ => absurd hlt (by omega)

theorem kS (r : Ref sig .tc) (h0 : r ≠ main_v174_0) (h1 : r ≠ main_v174_1) :
    W30 m ρ c (Proc.devRef .tc r) = W29 m ρ c (Proc.devRef .tc r) := by
  by_cases hw : ∃ w, Pipeline.arrRef spec10 w = r
  · obtain ⟨w, rfl⟩ := hw
    exact inS m ρ c w h0 h1
  · exact W30_of_ne m ρ c r fun w e => hw ⟨w, e⟩

theorem inN : ∀ w : Fin 11, Pipeline.arrRef spec11 w ≠ main_v186 →
    W32 m ρ c (Proc.devRef .tc (Pipeline.arrRef spec11 w)) = W31 m ρ c (Proc.devRef .tc (Pipeline.arrRef spec11 w))
  | 0, _ => (W32_arr m ρ c 0).trans (((dat11 (V31 m ρ) c).arrAt_in 0 rfl _).trans (A_eq11 (V31 m ρ) c 0))
  | 1, _ => (W32_arr m ρ c 1).trans (((dat11 (V31 m ρ) c).arrAt_in 1 rfl _).trans (A_eq11 (V31 m ρ) c 1))
  | 2, _ => (W32_arr m ρ c 2).trans (((dat11 (V31 m ρ) c).arrAt_in 2 rfl _).trans (A_eq11 (V31 m ρ) c 2))
  | 3, _ => (W32_arr m ρ c 3).trans (((dat11 (V31 m ρ) c).arrAt_in 3 rfl _).trans (A_eq11 (V31 m ρ) c 3))
  | 4, _ => (W32_arr m ρ c 4).trans (((dat11 (V31 m ρ) c).arrAt_in 4 rfl _).trans (A_eq11 (V31 m ρ) c 4))
  | 5, _ => (W32_arr m ρ c 5).trans (((dat11 (V31 m ρ) c).arrAt_in 5 rfl _).trans (A_eq11 (V31 m ρ) c 5))
  | 6, _ => (W32_arr m ρ c 6).trans (((dat11 (V31 m ρ) c).arrAt_in 6 rfl _).trans (A_eq11 (V31 m ρ) c 6))
  | 7, _ => (W32_arr m ρ c 7).trans (((dat11 (V31 m ρ) c).arrAt_in 7 rfl _).trans (A_eq11 (V31 m ρ) c 7))
  | 8, _ => (W32_arr m ρ c 8).trans (((dat11 (V31 m ρ) c).arrAt_in 8 rfl _).trans (A_eq11 (V31 m ρ) c 8))
  | 9, _ => (W32_arr m ρ c 9).trans (((dat11 (V31 m ρ) c).arrAt_in 9 rfl _).trans (A_eq11 (V31 m ρ) c 9))
  | 10, h => absurd rfl h
  | ⟨_ + 11, hlt⟩, _ => absurd hlt (by omega)

theorem kN (r : Ref sig .tc) (h0 : r ≠ main_v186) :
    W32 m ρ c (Proc.devRef .tc r) = W31 m ρ c (Proc.devRef .tc r) := by
  by_cases hw : ∃ w, Pipeline.arrRef spec11 w = r
  · obtain ⟨w, rfl⟩ := hw
    exact inN m ρ c w h0
  · exact W32_of_ne m ρ c r fun w e => hw ⟨w, e⟩

theorem kAll (r : Ref sig .tc) (hP : r ∉ wrP) (hT1 : r ∉ wrT1) (hT2 : r ∉ wrT2) (hM : r ≠ main_v168) (hA : r ∉ wrA)
    (hS0 : r ≠ main_v174_0) (hS1 : r ≠ main_v174_1) (hS : r ∉ wrS) (hN : r ≠ main_v186) :
    W32 m ρ c (Proc.devRef .tc r) = W24 m ρ c (Proc.devRef .tc r) :=
  (kN m ρ c r hN).trans <| (kQ m ρ c r hS).trans <| (kS m ρ c r hS0 hS1).trans <| (kA m ρ c r hA).trans <|
    (kM m ρ c r hM).trans <| (kT2 m ρ c r hT2).trans <| (kT1 m ρ c r hT1).trans (kP m ρ c r hP)

theorem liveN (L : Live m c (W24 m ρ c)) : Live m c (W32 m ρ c) where
  a0 := (kAll m ρ c main_arg0 (by decide) (by decide) (by decide) (by decide) (by decide) (by decide) (by decide) (by decide) (by decide)).trans L.a0
  a1 := (kAll m ρ c main_arg1 (by decide) (by decide) (by decide) (by decide) (by decide) (by decide) (by decide) (by decide) (by decide)).trans L.a1
  a2 := (kAll m ρ c main_arg2 (by decide) (by decide) (by decide) (by decide) (by decide) (by decide) (by decide) (by decide) (by decide)).trans L.a2
  a3 := (kAll m ρ c main_arg3 (by decide) (by decide) (by decide) (by decide) (by decide) (by decide) (by decide) (by decide) (by decide)).trans L.a3
  a4 := (kAll m ρ c main_arg4 (by decide) (by decide) (by decide) (by decide) (by decide) (by decide) (by decide) (by decide) (by decide)).trans L.a4
  a5 := (kAll m ρ c main_arg5 (by decide) (by decide) (by decide) (by decide) (by decide) (by decide) (by decide) (by decide) (by decide)).trans L.a5
  a6 := (kAll m ρ c main_arg6 (by decide) (by decide) (by decide) (by decide) (by decide) (by decide) (by decide) (by decide) (by decide)).trans L.a6
  a7 := (kAll m ρ c main_arg7 (by decide) (by decide) (by decide) (by decide) (by decide) (by decide) (by decide) (by decide) (by decide)).trans L.a7
  a8 := (kAll m ρ c main_arg8 (by decide) (by decide) (by decide) (by decide) (by decide) (by decide) (by decide) (by decide) (by decide)).trans L.a8
  a9 := (kAll m ρ c main_arg9 (by decide) (by decide) (by decide) (by decide) (by decide) (by decide) (by decide) (by decide) (by decide)).trans L.a9
  a10 := (kAll m ρ c main_arg10 (by decide) (by decide) (by decide) (by decide) (by decide) (by decide) (by decide) (by decide) (by decide)).trans L.a10
  a11 := (kAll m ρ c main_arg11 (by decide) (by decide) (by decide) (by decide) (by decide) (by decide) (by decide) (by decide) (by decide)).trans L.a11
  a12 := (kAll m ρ c main_arg12 (by decide) (by decide) (by decide) (by decide) (by decide) (by decide) (by decide) (by decide) (by decide)).trans L.a12
  a13 := (kAll m ρ c main_arg13 (by decide) (by decide) (by decide) (by decide) (by decide) (by decide) (by decide) (by decide) (by decide)).trans L.a13
  src := (kAll m ρ c main_v1 (by decide) (by decide) (by decide) (by decide) (by decide) (by decide) (by decide) (by decide) (by decide)).trans L.src
  dst := (kAll m ρ c main_v3 (by decide) (by decide) (by decide) (by decide) (by decide) (by decide) (by decide) (by decide) (by decide)).trans L.dst
  deg := (kAll m ρ c main_v10 (by decide) (by decide) (by decide) (by decide) (by decide) (by decide) (by decide) (by decide) (by decide)).trans L.deg

end Keeps

section Values

variable {m : Mem} {ρ : Dev nD → PrngReg} {c : Dev nD} {H : A2 50000 64}

theorem atP_h (hH : W24 m ρ c (Proc.devRef .tc main_v142) = H) : W25 m ρ c (Proc.devRef .tc main_v142) = H :=
  (kP m ρ c main_v142 (by decide)).trans hH
theorem atP_src (L : Live m c (W24 m ρ c)) : W25 m ρ c (Proc.devRef .tc main_v1) = Cert.Shared.src (m ((c : Thread nD τ).loc main_arg1)) :=
  (kP m ρ c main_v1 (by decide)).trans L.src
theorem atP_dst (L : Live m c (W24 m ρ c)) : W25 m ρ c (Proc.devRef .tc main_v3) = Cert.Shared.dst (m ((c : Thread nD τ).loc main_arg1)) :=
  (kP m ρ c main_v3 (by decide)).trans L.dst
theorem atP_deg (L : Live m c (W24 m ρ c)) : W25 m ρ c (Proc.devRef .tc main_v10) = Cert.Shared.deg (m ((c : Thread nD τ).loc main_arg1)) :=
  (kP m ρ c main_v10 (by decide)).trans L.deg
theorem atP_wm0 (L : Live m c (W24 m ρ c)) : W25 m ρ c (Proc.devRef .tc main_v144) = pWm0 m c :=
  (p_wm0 (W24 m ρ c)).trans (by rw [L.a3])
theorem atP_wm1 (L : Live m c (W24 m ρ c)) : W25 m ρ c (Proc.devRef .tc main_v146) = pWm1 m c :=
  (p_wm1 (W24 m ρ c)).trans (by rw [L.a3])
theorem atP_wu0 (L : Live m c (W24 m ρ c)) : W25 m ρ c (Proc.devRef .tc main_v148) = pWu0 m c :=
  (p_wu0 (W24 m ρ c)).trans (by rw [L.a5])
theorem atP_wu1 (L : Live m c (W24 m ρ c)) : W25 m ρ c (Proc.devRef .tc main_v150) = pWu1 m c :=
  (p_wu1 (W24 m ρ c)).trans (by rw [L.a5])
theorem atP_bm (L : Live m c (W24 m ρ c)) : W25 m ρ c (Proc.devRef .tc main_v153) = pBm m c :=
  (p_bm (W24 m ρ c)).trans (by rw [L.a4])
theorem atP_bu (L : Live m c (W24 m ρ c)) : W25 m ρ c (Proc.devRef .tc main_v156) = pBu m c :=
  (p_bu (W24 m ρ c)).trans (by rw [L.a6])
theorem atP_a (L : Live m c (W24 m ρ c)) : W25 m ρ c (Proc.devRef .tc main_v159) = pA m c :=
  (p_a (W24 m ρ c)).trans (by rw [L.a7])
theorem atP_gam (L : Live m c (W24 m ρ c)) : W25 m ρ c (Proc.devRef .tc main_v162) = pGam m c :=
  (p_gam (W24 m ρ c)).trans (by rw [L.a8])
theorem atP_bet (L : Live m c (W24 m ρ c)) : W25 m ρ c (Proc.devRef .tc main_v165) = pBet m c :=
  (p_bet (W24 m ρ c)).trans (by rw [L.a9])

theorem atT1_gs (hr : InRange m c) (L : Live m c (W24 m ρ c)) (hH : W24 m ρ c (Proc.devRef .tc main_v142) = H) :
    W26 m ρ c (Proc.devRef .tc main_v166) = xGs m c H :=
  (take1 (W25 m ρ c)).trans (by rw [atP_h hH, atP_src L]; exact takeK_src H _ hr)
theorem atT1_h (hH : W24 m ρ c (Proc.devRef .tc main_v142) = H) : W26 m ρ c (Proc.devRef .tc main_v142) = H :=
  (kT1 m ρ c main_v142 (by decide)).trans (atP_h hH)
theorem atT1_dst (L : Live m c (W24 m ρ c)) : W26 m ρ c (Proc.devRef .tc main_v3) = Cert.Shared.dst (m ((c : Thread nD τ).loc main_arg1)) :=
  (kT1 m ρ c main_v3 (by decide)).trans (atP_dst L)
theorem atT2_gd (hr : InRange m c) (L : Live m c (W24 m ρ c)) (hH : W24 m ρ c (Proc.devRef .tc main_v142) = H) :
    W27 m ρ c (Proc.devRef .tc main_v167) = xGd m c H :=
  (take2 (W26 m ρ c)).trans (by rw [atT1_h hH, atT1_dst L]; exact takeK_dst H _ hr)
theorem atT2_gs (hr : InRange m c) (L : Live m c (W24 m ρ c)) (hH : W24 m ρ c (Proc.devRef .tc main_v142) = H) :
    W27 m ρ c (Proc.devRef .tc main_v166) = xGs m c H :=
  (kT2 m ρ c main_v166 (by decide)).trans (atT1_gs hr L hH)
theorem atT2_wm0 (L : Live m c (W24 m ρ c)) : W27 m ρ c (Proc.devRef .tc main_v144) = pWm0 m c :=
  (kT2 m ρ c main_v144 (by decide)).trans <| (kT1 m ρ c main_v144 (by decide)).trans <| atP_wm0 L
theorem atT2_wm1 (L : Live m c (W24 m ρ c)) : W27 m ρ c (Proc.devRef .tc main_v146) = pWm1 m c :=
  (kT2 m ρ c main_v146 (by decide)).trans <| (kT1 m ρ c main_v146 (by decide)).trans <| atP_wm1 L
theorem atT2_bm (L : Live m c (W24 m ρ c)) : W27 m ρ c (Proc.devRef .tc main_v153) = pBm m c :=
  (kT2 m ρ c main_v153 (by decide)).trans <| (kT1 m ρ c main_v153 (by decide)).trans <| atP_bm L

theorem atM_msg (hr : InRange m c) (L : Live m c (W24 m ρ c)) (hH : W24 m ρ c (Proc.devRef .tc main_v142) = H) :
    W28 m ρ c (Proc.devRef .tc main_v168) = xMsg m c H := by
  refine ((W28_arr m ρ c 5).trans (msg9 (V27 m ρ) c)).trans ?_
  show msgLoc (W27 m ρ c (Proc.devRef .tc main_v166)) (W27 m ρ c (Proc.devRef .tc main_v167)) (W27 m ρ c (Proc.devRef .tc main_v144))
    (W27 m ρ c (Proc.devRef .tc main_v146)) (W27 m ρ c (Proc.devRef .tc main_v153)) = _
  rw [atT2_gs hr L hH, atT2_gd hr L hH, atT2_wm0 L, atT2_wm1 L, atT2_bm L]
theorem atM_dst (L : Live m c (W24 m ρ c)) : W28 m ρ c (Proc.devRef .tc main_v3) = Cert.Shared.dst (m ((c : Thread nD τ).loc main_arg1)) :=
  (kM m ρ c main_v3 (by decide)).trans <| (kT2 m ρ c main_v3 (by decide)).trans <| atT1_dst L
theorem atM_deg (L : Live m c (W24 m ρ c)) : W28 m ρ c (Proc.devRef .tc main_v10) = Cert.Shared.deg (m ((c : Thread nD τ).loc main_arg1)) :=
  (kM m ρ c main_v10 (by decide)).trans <| (kT2 m ρ c main_v10 (by decide)).trans <| (kT1 m ρ c main_v10 (by decide)).trans <| atP_deg L

theorem atA_agg (hr : InRange m c) (L : Live m c (W24 m ρ c)) (hH : W24 m ρ c (Proc.devRef .tc main_v142) = H) :
    W29 m ρ c (Proc.devRef .tc main_v173) = xAgg m c H :=
  (aggr (W28 m ρ c) (m ((c : Thread nD τ).loc main_arg1)) (atM_dst L) (atM_deg L)).trans (by rw [atM_msg hr L hH])
theorem atA_h (hH : W24 m ρ c (Proc.devRef .tc main_v142) = H) : W29 m ρ c (Proc.devRef .tc main_v142) = H :=
  (kA m ρ c main_v142 (by decide)).trans <| (kM m ρ c main_v142 (by decide)).trans <| (kT2 m ρ c main_v142 (by decide)).trans <| atT1_h hH
theorem atA_wu0 (L : Live m c (W24 m ρ c)) : W29 m ρ c (Proc.devRef .tc main_v148) = pWu0 m c :=
  (kA m ρ c main_v148 (by decide)).trans <| (kM m ρ c main_v148 (by decide)).trans <| (kT2 m ρ c main_v148 (by decide)).trans <| (kT1 m ρ c main_v148 (by decide)).trans <| atP_wu0 L
theorem atA_wu1 (L : Live m c (W24 m ρ c)) : W29 m ρ c (Proc.devRef .tc main_v150) = pWu1 m c :=
  (kA m ρ c main_v150 (by decide)).trans <| (kM m ρ c main_v150 (by decide)).trans <| (kT2 m ρ c main_v150 (by decide)).trans <| (kT1 m ρ c main_v150 (by decide)).trans <| atP_wu1 L
theorem atA_bu (L : Live m c (W24 m ρ c)) : W29 m ρ c (Proc.devRef .tc main_v156) = pBu m c :=
  (kA m ρ c main_v156 (by decide)).trans <| (kM m ρ c main_v156 (by decide)).trans <| (kT2 m ρ c main_v156 (by decide)).trans <| (kT1 m ρ c main_v156 (by decide)).trans <| atP_bu L
theorem atA_a (L : Live m c (W24 m ρ c)) : W29 m ρ c (Proc.devRef .tc main_v159) = pA m c :=
  (kA m ρ c main_v159 (by decide)).trans <| (kM m ρ c main_v159 (by decide)).trans <| (kT2 m ρ c main_v159 (by decide)).trans <| (kT1 m ρ c main_v159 (by decide)).trans <| atP_a L

theorem atS_sum (hr : InRange m c) (L : Live m c (W24 m ρ c)) (hH : W24 m ρ c (Proc.devRef .tc main_v142) = H) :
    W30 m ρ c (Proc.devRef .tc main_v174_0) = xSum m c H := by
  refine ((W30_arr m ρ c 6).trans (sum10 (V29 m ρ) c)).trans ?_
  show colSum (uLoc (W29 m ρ c (Proc.devRef .tc main_v142)) (W29 m ρ c (Proc.devRef .tc main_v173)) (W29 m ρ c (Proc.devRef .tc main_v148))
    (W29 m ρ c (Proc.devRef .tc main_v150)) (W29 m ρ c (Proc.devRef .tc main_v156)) (W29 m ρ c (Proc.devRef .tc main_v159))) = _
  rw [atA_h hH, atA_agg hr L hH, atA_wu0 L, atA_wu1 L, atA_bu L, atA_a L]
theorem atS_sq (hr : InRange m c) (L : Live m c (W24 m ρ c)) (hH : W24 m ρ c (Proc.devRef .tc main_v142) = H) :
    W30 m ρ c (Proc.devRef .tc main_v174_1) = xSq m c H := by
  refine ((W30_arr m ρ c 7).trans (sumsq10 (V29 m ρ) c)).trans ?_
  show colSum (sq (uLoc (W29 m ρ c (Proc.devRef .tc main_v142)) (W29 m ρ c (Proc.devRef .tc main_v173)) (W29 m ρ c (Proc.devRef .tc main_v148))
    (W29 m ρ c (Proc.devRef .tc main_v150)) (W29 m ρ c (Proc.devRef .tc main_v156)) (W29 m ρ c (Proc.devRef .tc main_v159)))) = _
  rw [atA_h hH, atA_agg hr L hH, atA_wu0 L, atA_wu1 L, atA_bu L, atA_a L]

theorem atQ_mean (hr : InRange m c) (L : Live m c (W24 m ρ c)) (hH : W24 m ρ c (Proc.devRef .tc main_v142) = H) :
    W31 m ρ c (Proc.devRef .tc main_v176) = xMean m c H :=
  (mean (W30 m ρ c)).trans (by rw [atS_sum hr L hH])
theorem atQ_istd (hr : InRange m c) (L : Live m c (W24 m ρ c)) (hH : W24 m ρ c (Proc.devRef .tc main_v142) = H) :
    W31 m ρ c (Proc.devRef .tc main_v185) = xIstd m c H :=
  (istd (W30 m ρ c)).trans (by rw [atS_sum hr L hH, atS_sq hr L hH])
theorem atQ_h (hH : W24 m ρ c (Proc.devRef .tc main_v142) = H) : W31 m ρ c (Proc.devRef .tc main_v142) = H :=
  (kQ m ρ c main_v142 (by decide)).trans <| (kS m ρ c main_v142 (by decide) (by decide)).trans <| atA_h hH
theorem atQ_agg (hr : InRange m c) (L : Live m c (W24 m ρ c)) (hH : W24 m ρ c (Proc.devRef .tc main_v142) = H) :
    W31 m ρ c (Proc.devRef .tc main_v173) = xAgg m c H :=
  (kQ m ρ c main_v173 (by decide)).trans <| (kS m ρ c main_v173 (by decide) (by decide)).trans <| atA_agg hr L hH
theorem atQ_wu0 (L : Live m c (W24 m ρ c)) : W31 m ρ c (Proc.devRef .tc main_v148) = pWu0 m c :=
  (kQ m ρ c main_v148 (by decide)).trans <| (kS m ρ c main_v148 (by decide) (by decide)).trans <| atA_wu0 L
theorem atQ_wu1 (L : Live m c (W24 m ρ c)) : W31 m ρ c (Proc.devRef .tc main_v150) = pWu1 m c :=
  (kQ m ρ c main_v150 (by decide)).trans <| (kS m ρ c main_v150 (by decide) (by decide)).trans <| atA_wu1 L
theorem atQ_bu (L : Live m c (W24 m ρ c)) : W31 m ρ c (Proc.devRef .tc main_v156) = pBu m c :=
  (kQ m ρ c main_v156 (by decide)).trans <| (kS m ρ c main_v156 (by decide) (by decide)).trans <| atA_bu L
theorem atQ_a (L : Live m c (W24 m ρ c)) : W31 m ρ c (Proc.devRef .tc main_v159) = pA m c :=
  (kQ m ρ c main_v159 (by decide)).trans <| (kS m ρ c main_v159 (by decide) (by decide)).trans <| atA_a L
theorem atQ_gam (L : Live m c (W24 m ρ c)) : W31 m ρ c (Proc.devRef .tc main_v162) = pGam m c :=
  (kQ m ρ c main_v162 (by decide)).trans <| (kS m ρ c main_v162 (by decide) (by decide)).trans <| (kA m ρ c main_v162 (by decide)).trans <| (kM m ρ c main_v162 (by decide)).trans <| (kT2 m ρ c main_v162 (by decide)).trans <| (kT1 m ρ c main_v162 (by decide)).trans <| atP_gam L
theorem atQ_bet (L : Live m c (W24 m ρ c)) : W31 m ρ c (Proc.devRef .tc main_v165) = pBet m c :=
  (kQ m ρ c main_v165 (by decide)).trans <| (kS m ρ c main_v165 (by decide) (by decide)).trans <| (kA m ρ c main_v165 (by decide)).trans <| (kM m ρ c main_v165 (by decide)).trans <| (kT2 m ρ c main_v165 (by decide)).trans <| (kT1 m ρ c main_v165 (by decide)).trans <| atP_bet L

theorem atN_out (hr : InRange m c) (L : Live m c (W24 m ρ c)) (hH : W24 m ρ c (Proc.devRef .tc main_v142) = H) :
    W32 m ρ c (Proc.devRef .tc main_v186) = xOut m c H := by
  refine ((W32_arr m ρ c 10).trans (norm11 (V31 m ρ) c)).trans ?_
  show normLoc (W31 m ρ c (Proc.devRef .tc main_v142)) (W31 m ρ c (Proc.devRef .tc main_v173)) (W31 m ρ c (Proc.devRef .tc main_v148))
    (W31 m ρ c (Proc.devRef .tc main_v150)) (W31 m ρ c (Proc.devRef .tc main_v156)) (W31 m ρ c (Proc.devRef .tc main_v159))
    (W31 m ρ c (Proc.devRef .tc main_v176)) (W31 m ρ c (Proc.devRef .tc main_v185)) (W31 m ρ c (Proc.devRef .tc main_v162))
    (W31 m ρ c (Proc.devRef .tc main_v165)) = _
  rw [atQ_h hH, atQ_agg hr L hH, atQ_wu0 L, atQ_wu1 L, atQ_bu L, atQ_a L, atQ_mean hr L hH, atQ_istd hr L hH,
    atQ_gam L, atQ_bet L]

end Values

end L3

theorem layer3 (m : Mem) (ρ : Dev nD → PrngReg) (c : Dev nD) (hr : InRange m c) (H : A2 50000 64)
    (L : Live m c (W24 m ρ c)) (hH : W24 m ρ c (Proc.devRef .tc main_v142) = H) :
    Live m c (W32 m ρ c) ∧ W32 m ρ c (Proc.devRef .tc main_v186) = layerOf m c (3 : Fin 4) H :=
  ⟨L3.liveN m ρ c L, (L3.atN_out hr L hH).trans (L3.xOut_eq m c H)⟩

end Cert.KernelIdeal.Val

end
-- ==== Proof.KHead12.lean ====
import proofs.«428660_j69922067578969_2_alg».proof.Proof.Gen.KernelIdeal.Frame
import proofs.«428660_j69922067578969_2_alg».proof.Proof.Spec
import proofs.«428660_j69922067578969_2_alg».proof.Proof.KEntry
import proofs.«428660_j69922067578969_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem Idealize.ShloMosaic.Pipeline Cert.KernelIdeal Cert.KernelIdeal.Gen Cert.Spec
open Idealize.ShloMosaic.ValueIdx
open scoped BigOperators

namespace Head12

theorem matmul_zero_at {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant (F := Ideal) ⟨2, ![A, B]⟩ .f32 0x00000000#32) (ix2 p q) = ∑ k : Fin K, lhs (ix2 p k) * rhs (ix2 k q) := by
  rw [Cert.LibPlainDot.eq_plain d hlc hrc hln hrn hlb hrb, Ideal.matmul_constant_zero_apply]
  exact Cert.LibPlainDot.plain_sum lhs rhs p q

theorem hidden12_at (x0 : FVec Ideal S500x64 .f32) (x1 : FVec Ideal S64x64 .f32) (x2 : FVec Ideal S1x64 .f32) (p : Fin 500) (k : Fin 64) :
    maximumf (addf (matmul dot_S500x64_S64x64_S500x64_1_0_0_1_n_n none
        (truncf .bf16 (shapeCast S500x64 x0 shapeCasts_S500x64_S500x64) bitsLt_bf16_f32) (truncf .bf16 x1 bitsLt_bf16_f32) (constant (F := Ideal) S500x64 .f32 0x00000000#32))
        (broadcastTo S500x64 (shapeCast S1x64 (shapeCast S1x64 x2 shapeCasts_S1x64_S1x64) shapeCasts_S1x64_S1x64) broadcasts_S1x64_S500x64))
      (broadcast S500x64 (Scalar.ofBits (F := Ideal) .f32 0x00000000#32)) (ix2 p k)
    = max ((∑ k' : Fin 64, x0 (ix2 p k') * x1 (ix2 k' k)) + x2 (ix2 0 k)) zeroE := by
  refine congrArg₂ max (congrArg₂ (· + ·) ?_ ?_) rfl
  · refine (matmul_zero_at dot_S500x64_S64x64_S500x64_1_0_0_1_n_n rfl rfl rfl rfl rfl rfl none _ _ p k).trans ?_
    refine Finset.sum_congr rfl fun k' _ => ?_
    exact congrArg₂ (· * ·) (congrFun (shapeCast_self x0 shapeCasts_S500x64_S500x64) (ix2 p k')) rfl
  · refine (broadcastTo_1b_ab_apply _ broadcasts_S1x64_S500x64 p k).trans ?_
    refine (congrFun (shapeCast_self _ shapeCasts_S1x64_S1x64) _).trans ?_
    exact congrFun (shapeCast_self x2 shapeCasts_S1x64_S1x64) _

theorem pay12_at (x0 : FVec Ideal S500x64 .f32) (x1 : FVec Ideal S64x64 .f32) (x2 : FVec Ideal S1x64 .f32)
    (x3 : FVec Ideal S64x10 .f32) (x4 : FVec Ideal S1x10 .f32) (p : Fin 500) (q : Fin 10) :
    k12_pay1 (F := Ideal) x0 x1 x2 x3 x4 (ix2 p q) = headLoc x0 x1 x2 x3 x4 (ix2 p q) := by
  show _ = (∑ k : Fin 64, max ((∑ k' : Fin 64, x0 (ix2 p k') * x1 (ix2 k' k)) + x2 (ix2 0 k)) zeroE * x3 (ix2 k q)) + x4 (ix2 0 q)
  unfold k12_pay1
  refine congrArg₂ (· + ·) ?_ ?_
  · refine (matmul_zero_at dot_S500x64_S64x10_S500x10_1_0_0_1_n_n rfl rfl rfl rfl rfl rfl none _ _ p q).trans ?_
    refine Finset.sum_congr rfl fun k _ => ?_
    exact congrArg₂ (· * ·) (hidden12_at x0 x1 x2 p k) rfl
  · refine (broadcastTo_1b_ab_apply _ broadcasts_S1x10_S500x10 p q).trans ?_
    refine (congrFun (shapeCast_self _ shapeCasts_S1x10_S1x10) _).trans ?_
    exact congrFun (shapeCast_self x4 shapeCasts_S1x10_S1x10) _

theorem pay12_eq (x0 : FVec Ideal S500x64 .f32) (x1 : FVec Ideal S64x64 .f32) (x2 : FVec Ideal S1x64 .f32)
    (x3 : FVec Ideal S64x10 .f32) (x4 : FVec Ideal S1x10 .f32) :
    k12_pay1 (F := Ideal) x0 x1 x2 x3 x4 = headLoc x0 x1 x2 x3 x4 := by
  funext j
  obtain ⟨p, q, rfl⟩ : ∃ (p : Fin 500) (q : Fin 10), j = ix2 p q := ⟨j 0, j 1, eq_ix2 j⟩
  exact pay12_at x0 x1 x2 x3 x4 p q

theorem hz12 : (![0, 0] : Fin 2 → Nat) = fun _ => 0 := funext fun a => by
  match a with
  | ⟨0, _⟩ => rfl
  | ⟨1, _⟩ => rfl

theorem out12_eq (x0 : Vec Ideal S500x64 .f32) (x1 : Vec Ideal S64x64 .f32) (x2 : Vec Ideal S1x64 .f32)
    (x3 : Vec Ideal S64x10 .f32) (x4 : Vec Ideal S1x10 .f32) :
    out12_5 (F := Ideal) x0 x1 x2 x3 x4 = headLoc x0 x1 x2 x3 x4 := by
  unfold out12_5
  rw [View.canon_unit_zero hz12]
  simp only [View.ld_unit_zero (S := S500x64) hz12, View.ld_unit_zero (S := S64x64) hz12, View.ld_unit_zero (S := S1x64) hz12,
    View.ld_unit_zero (S := S64x10) hz12, View.ld_unit_zero (S := S1x10) hz12]
  exact pay12_eq x0 x1 x2 x3 x4

theorem index12_0 (t : Fin cfg12.N) (a : Fin 2) : win12_0.index t a = 0 := by
  match a with
  | ⟨0, _⟩ => rfl
  | ⟨1, _⟩ => rfl
theorem index12_1 (t : Fin cfg12.N) (a : Fin 2) : win12_1.index t a = 0 := by
  match a with
  | ⟨0, _⟩ => rfl
  | ⟨1, _⟩ => rfl
theorem index12_2 (t : Fin cfg12.N) (a : Fin 2) : win12_2.index t a = 0 := by
  match a with
  | ⟨0, _⟩ => rfl
  | ⟨1, _⟩ => rfl
theorem index12_3 (t : Fin cfg12.N) (a : Fin 2) : win12_3.index t a = 0 := by
  match a with
  | ⟨0, _⟩ => rfl
  | ⟨1, _⟩ => rfl
theorem index12_4 (t : Fin cfg12.N) (a : Fin 2) : win12_4.index t a = 0 := by
  match a with
  | ⟨0, _⟩ => rfl
  | ⟨1, _⟩ => rfl
theorem index12_5 (t : Fin cfg12.N) (a : Fin 2) : win12_5.index t a = 0 := by
  match a with
  | ⟨0, _⟩ => rfl
  | ⟨1, _⟩ => rfl

theorem iblk12_0_eq (V : Entry) (c : Dev nD) (t : Fin cfg12.N) :
    (iblk12 V c 0 t : Vec Ideal S500x64 .f32) = (V c (Pipeline.arrRef spec12 0) : Vec Ideal S500x64 .f32) := by
  funext y
  show V c (Pipeline.arrRef spec12 0) (((cfg12.win 0).blk t).view.emb y) = V c (Pipeline.arrRef spec12 0) y
  refine congrArg (V c (Pipeline.arrRef spec12 0)) (funext fun a => Fin.ext ?_)
  exact win12_0.rect_emb_val_of_index_zero t a (index12_0 t a) y
theorem iblk12_1_eq (V : Entry) (c : Dev nD) (t : Fin cfg12.N) :
    (iblk12 V c 1 t : Vec Ideal S64x64 .f32) = (V c (Pipeline.arrRef spec12 1) : Vec Ideal S64x64 .f32) := by
  funext y
  show V c (Pipeline.arrRef spec12 1) (((cfg12.win 1).blk t).view.emb y) = V c (Pipeline.arrRef spec12 1) y
  refine congrArg (V c (Pipeline.arrRef spec12 1)) (funext fun a => Fin.ext ?_)
  exact win12_1.rect_emb_val_of_index_zero t a (index12_1 t a) y
theorem iblk12_2_eq (V : Entry) (c : Dev nD) (t : Fin cfg12.N) :
    (iblk12 V c 2 t : Vec Ideal S1x64 .f32) = (V c (Pipeline.arrRef spec12 2) : Vec Ideal S1x64 .f32) := by
  funext y
  show V c (Pipeline.arrRef spec12 2) (((cfg12.win 2).blk t).view.emb y) = V c (Pipeline.arrRef spec12 2) y
  refine congrArg (V c (Pipeline.arrRef spec12 2)) (funext fun a => Fin.ext ?_)
  exact win12_2.rect_emb_val_of_index_zero t a (index12_2 t a) y
theorem iblk12_3_eq (V : Entry) (c : Dev nD) (t : Fin cfg12.N) :
    (iblk12 V c 3 t : Vec Ideal S64x10 .f32) = (V c (Pipeline.arrRef spec12 3) : Vec Ideal S64x10 .f32) := by
  funext y
  show V c (Pipeline.arrRef spec12 3) (((cfg12.win 3).blk t).view.emb y) = V c (Pipeline.arrRef spec12 3) y
  refine congrArg (V c (Pipeline.arrRef spec12 3)) (funext fun a => Fin.ext ?_)
  exact win12_3.rect_emb_val_of_index_zero t a (index12_3 t a) y
theorem iblk12_4_eq (V : Entry) (c : Dev nD) (t : Fin cfg12.N) :
    (iblk12 V c 4 t : Vec Ideal S1x10 .f32) = (V c (Pipeline.arrRef spec12 4) : Vec Ideal S1x10 .f32) := by
  funext y
  show V c (Pipeline.arrRef spec12 4) (((cfg12.win 4).blk t).view.emb y) = V c (Pipeline.arrRef spec12 4) y
  refine congrArg (V c (Pipeline.arrRef spec12 4)) (funext fun a => Fin.ext ?_)
  exact win12_4.rect_emb_val_of_index_zero t a (index12_4 t a) y

theorem cut_eq_read12_5 (t : Fin cfg12.N) (G : S500x10.Idx → EReal) :
    (cfg12.win 5).cut (cfg12.grid.coords t) G = ((cfg12.win 5).blk t).view.read (Elt Ideal) G := by
  funext j
  show G ((cfg12.win 5).xinj (cfg12.grid.coords t) j) = G (((cfg12.win 5).blk t).view.emb j)
  refine congrArg G (funext fun a => Fin.ext ?_)
  exact (win12_5.rect_emb_val_of_index_zero t a (index12_5 t a) j).symm

theorem flushed12 (V : Entry) (c : Dev nD) (t : Fin cfg12.N) :
    (dat12 V c).flushed 5 t = ((cfg12.win 5).blk t).view.read (Elt Ideal)
      (headLoc (V c (Pipeline.arrRef spec12 0)) (V c (Pipeline.arrRef spec12 1)) (V c (Pipeline.arrRef spec12 2)) (V c (Pipeline.arrRef spec12 3)) (V c (Pipeline.arrRef spec12 4))) := by
  show (cfg12.win 5).cut (grid12.coords t) ((dat12 V c).after 5 t) = _
  rw [after12_5, iblk12_0_eq V c t, iblk12_1_eq V c t, iblk12_2_eq V c t, iblk12_3_eq V c t, iblk12_4_eq V c t]
  refine (congrArg ((cfg12.win 5).cut (grid12.coords t))
    (out12_eq (V c (Pipeline.arrRef spec12 0)) (V c (Pipeline.arrRef spec12 1)) (V c (Pipeline.arrRef spec12 2)) (V c (Pipeline.arrRef spec12 3)) (V c (Pipeline.arrRef spec12 4)))).trans ?_
  exact cut_eq_read12_5 t _

theorem cover12_out (i : S500x10.Idx) :
    ∃ t : Fin cfg12.N, (cfg12.win 5).flush t = true ∧ i ∈ ((cfg12.win 5).blk t).view.set := by
  refine ⟨t12_0, flush12_5 t12_0, ?_⟩
  show i ∈ ((View.whole main_v201).slice (win12_5.rect t12_0)).set
  rw [View.set_slice_whole, Rect.mem_set_unit]
  intro a
  match a with
  | ⟨0, _⟩ =>
    show win12_5.index t12_0 (0 : Fin 2) * 500 ≤ (i 0).val ∧ (i 0).val < win12_5.index t12_0 (0 : Fin 2) * 500 + 500
    have h0 : win12_5.index t12_0 (0 : Fin 2) = 0 := index12_5 t12_0 0
    have hi : (i 0).val < 500 := (i 0).isLt
    omega
  | ⟨1, _⟩ =>
    show win12_5.index t12_0 (1 : Fin 2) * 10 ≤ (i 1).val ∧ (i 1).val < win12_5.index t12_0 (1 : Fin 2) * 10 + 10
    have h1 : win12_5.index t12_0 (1 : Fin 2) = 0 := index12_5 t12_0 1
    have hi : (i 1).val < 10 := (i 1).isLt
    omega

end Head12

theorem head12 (V : Entry) (c : Dev nD) :
    (dat12 V c).arrAt 5 cfg12.N = headLoc (V c (Pipeline.arrRef spec12 0)) (V c (Pipeline.arrRef spec12 1)) (V c (Pipeline.arrRef spec12 2)) (V c (Pipeline.arrRef spec12 3)) (V c (Pipeline.arrRef spec12 4)) :=
  (dat12 V c).arrAt_eq_of_cover 5 _ (fun t _ => Head12.flushed12 V c t) Head12.cover12_out

end Cert.KernelIdeal.Val

end
-- ==== Proof.KEpi.lean ====
import proofs.«428660_j69922067578969_2_alg».proof.Proof.KLive
import proofs.«428660_j69922067578969_2_alg».proof.Proof.KHead12
import proofs.«428660_j69922067578969_2_alg».proof.Proof.Shared
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

theorem shapeCast_n_1n_apply {α : Type} {n : ℕ} (x : (⟨1, ![n]⟩ : Shape).Idx → α)
    (h : (⟨1, ![n]⟩ : Shape).ShapeCasts ⟨2, ![1, n]⟩) (i : (⟨2, ![1, n]⟩ : Shape).Idx) :
    shapeCast ⟨2, ![1, n]⟩ x h i = x (ix1 (i 1)) :=
  shapeCast_apply x h _ _ (by
    have h0 : (i 0).val < 1 := (i 0).isLt
    rw [Shape.rowMajor_val_two, Shape.rowMajor_val_one]
    show (i 1).val = (i 0).val * n + (i 1).val
    have : (i 0).val = 0 := by omega
    rw [this, Nat.zero_mul, Nat.zero_add])

theorem pool_after (W : Valuation τ sig (Elt Ideal)) :
    (StableHlo.after (hostOps12 (F := Ideal)) W (Proc.devRef .tc main_v198) : A2 500 64)
      = Cert.Shared.pool (W (Proc.devRef .tc main_arg2)) (W (Proc.devRef .tc main_v186)) := by
  after_results; rfl

theorem row11_after (W : Valuation τ sig (Elt Ideal)) :
    (StableHlo.after (hostOps12 (F := Ideal)) W (Proc.devRef .tc main_v199) : A2 1 64)
      = asRow (W (Proc.devRef .tc main_arg11)) := by
  after_results
  funext i
  exact shapeCast_n_1n_apply _ _ i

theorem row13_after (W : Valuation τ sig (Elt Ideal)) :
    (StableHlo.after (hostOps12 (F := Ideal)) W (Proc.devRef .tc main_v200) : A2 1 10)
      = asRow (W (Proc.devRef .tc main_arg13)) := by
  after_results
  funext i
  exact shapeCast_n_1n_apply _ _ i

theorem arg10_after (W : Valuation τ sig (Elt Ideal)) :
    StableHlo.after (hostOps12 (F := Ideal)) W (Proc.devRef .tc main_arg10) = W (Proc.devRef .tc main_arg10) :=
  StableHlo.after_of_forall_not_mem (b := Proc.devRef .tc main_arg10) _ _ (List.forall_iff_forall_mem.mp (by
    simp only [hostOps12, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem arg12_after (W : Valuation τ sig (Elt Ideal)) :
    StableHlo.after (hostOps12 (F := Ideal)) W (Proc.devRef .tc main_arg12) = W (Proc.devRef .tc main_arg12) :=
  StableHlo.after_of_forall_not_mem (b := Proc.devRef .tc main_arg12) _ _ (List.forall_iff_forall_mem.mp (by
    simp only [hostOps12, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem epi (m : Mem) (ρ : Dev nD → PrngReg) (c : Dev nD) (H : A2 50000 64) (L : Live m c (W32 m ρ c))
    (hH : W32 m ρ c (Proc.devRef .tc main_v186) = H) :
    W34 m ρ c (Proc.devRef .tc main_v201)
      = headLoc (Cert.Shared.pool (m ((c : Thread nD τ).loc main_arg2)) H) (m ((c : Thread nD τ).loc main_arg10))
          (asRow (m ((c : Thread nD τ).loc main_arg11))) (m ((c : Thread nD τ).loc main_arg12))
          (asRow (m ((c : Thread nD τ).loc main_arg13))) := by

  have e0 : V33 m ρ c (Pipeline.arrRef spec12 0) = Cert.Shared.pool (m ((c : Thread nD τ).loc main_arg2)) H :=
    (pool_after (W32 m ρ c)).trans (by rw [L.a2, hH])
  have e1 : V33 m ρ c (Pipeline.arrRef spec12 1) = m ((c : Thread nD τ).loc main_arg10) :=
    (arg10_after (W32 m ρ c)).trans L.a10
  have e2 : V33 m ρ c (Pipeline.arrRef spec12 2) = asRow (m ((c : Thread nD τ).loc main_arg11)) :=
    (row11_after (W32 m ρ c)).trans (by rw [L.a11])
  have e3 : V33 m ρ c (Pipeline.arrRef spec12 3) = m ((c : Thread nD τ).loc main_arg12) :=
    (arg12_after (W32 m ρ c)).trans L.a12
  have e4 : V33 m ρ c (Pipeline.arrRef spec12 4) = asRow (m ((c : Thread nD τ).loc main_arg13)) :=
    (row13_after (W32 m ρ c)).trans (by rw [L.a13])
  calc W34 m ρ c (Proc.devRef .tc main_v201)
      = (dat12 (V33 m ρ) c).arrAt 5 cfg12.N := W34_arr m ρ c 5
    _ = headLoc (V33 m ρ c (Pipeline.arrRef spec12 0)) (V33 m ρ c (Pipeline.arrRef spec12 1))
          (V33 m ρ c (Pipeline.arrRef spec12 2)) (V33 m ρ c (Pipeline.arrRef spec12 3))
          (V33 m ρ c (Pipeline.arrRef spec12 4)) := head12 (V33 m ρ) c
    _ = _ := by rw [e0, e1, e2, e3, e4]

end Cert.KernelIdeal.Val

end
-- ==== Proof.KValue.lean ====
import proofs.«428660_j69922067578969_2_alg».proof.Proof.KLive
import proofs.«428660_j69922067578969_2_alg».proof.Proof.KLayer0
import proofs.«428660_j69922067578969_2_alg».proof.Proof.KLayer1
import proofs.«428660_j69922067578969_2_alg».proof.Proof.KLayer2
import proofs.«428660_j69922067578969_2_alg».proof.Proof.KLayer3
import proofs.«428660_j69922067578969_2_alg».proof.Proof.KEpi

noncomputable section

namespace Cert.KernelIdeal.Val

open Idealize.ShloMosaic Idealize.ShloMosaic.TcCoe Idealize.SL.Sem
open Cert.KernelIdeal Cert.KernelIdeal.Gen Cert.Spec

theorem value (m : Mem) (ρ : Dev nD → PrngReg) (c : Dev nD) (hr : InRange m c) :
    W34 m ρ c (Proc.devRef .tc main_v201)
      = Cert.Shared.value (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  obtain ⟨L8, h8⟩ := layer0 m ρ c hr
  obtain ⟨L16, h16⟩ := layer1 m ρ c hr _ L8 h8
  obtain ⟨L24, h24⟩ := layer2 m ρ c hr _ L16 h16
  obtain ⟨L32, h32⟩ := layer3 m ρ c hr _ L24 h24
  refine (epi m ρ c _ L32 h32).trans ?_
  unfold Cert.Shared.value Cert.Spec.net
  rfl

end Cert.KernelIdeal.Val

end
-- ==== Proof.Pre.lean ====
import proofs.«428660_j69922067578969_2_alg».proof.Defs
import proofs.«428660_j69922067578969_2_alg».proof.Proof.Spec
import Idealize.ShloMosaic.Lib.ReduceAll
import Idealize.ShloMosaic.Lib.StableHlo.Predicate

noncomputable section

namespace Cert.Pre

open Idealize.ShloMosaic Idealize.ShloMosaic.ValueIdx Cert.Spec

abbrev S0 : Shape := ⟨0, ![]⟩

instance : Subsingleton S0.Idx := ⟨fun a b => funext fun d => d.elim0⟩

theorem inf_word : Ideal.ofBits .f32 0x7F800000#32 = (⊤ : EReal) := by
  simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  induction x using EReal.rec with
  | bot => simp at h
  | top => simp at h
  | coe r => exact ⟨r, rfl⟩

theorem isReal_of_all {s : Shape} {axes : List (Fin s.rank)} (x : FVec Ideal s .f32)
    (hb : S0.BroadcastsInDim s (![] : Fin 0 → Fin s.rank)) (hr : s.ReducesTo axes S0) (h0 : 0 < S0.numel)
    (e : Host.reduce IntOp.andi
          (cmpf .olt (Host.absf x) (broadcastInDim s ![] hb (constant (F := Ideal) S0 .f32 0x7F800000#32)))
          (constantI S0 1 1#1) hr h0 ix0 = 1#1) : IsReal x := by
  intro i
  exact real_of_abs_lt_top (x i) (Host.reduce_andi_all _ _ hr h0 ix0 e i)

theorem zero_word : (0#32 : BitVec 32).toInt = 0 := by decide
theorem n_word : (50000#32 : BitVec 32).toInt = 50000 := by decide

theorem range_of_all {s : Shape} {axes : List (Fin s.rank)} (ei : IVec s 32)
    (hb : S0.BroadcastsInDim s (![] : Fin 0 → Fin s.rank)) (hr : s.ReducesTo axes S0) (h0 : 0 < S0.numel)
    (e0 : Host.reduce IntOp.andi (cmpi .sge ei (broadcastInDim s ![] hb (constantI S0 32 0#32)))
          (constantI S0 1 1#1) hr h0 ix0 = 1#1)
    (e1 : Host.reduce IntOp.andi (cmpi .slt ei (broadcastInDim s ![] hb (constantI S0 32 50000#32)))
          (constantI S0 1 1#1) hr h0 ix0 = 1#1) :
    ∀ i, 0 ≤ (ei i).toInt ∧ (ei i).toInt < 50000 := by
  intro i
  have a : IntOp.cmpi .sge (ei i) 0#32 = 1#1 := Host.reduce_andi_all _ _ hr h0 ix0 e0 i
  have b : IntOp.cmpi .slt (ei i) 50000#32 = 1#1 := Host.reduce_andi_all _ _ hr h0 ix0 e1 i
  rw [IntOp.cmpi_sge, zero_word] at a
  rw [IntOp.cmpi_slt, n_word] at b
  exact ⟨a, b⟩

open Cert.Pre_finite_inputs in
theorem decode [Cert.Pre_finite_inputs.Facts]
    (x : FVec Ideal S50000x64 .f32) (ei : IVec S2x800000 32) (bt : IVec S50000 32)
    (Wm : FVec Ideal S4x128x64 .f32) (bm : FVec Ideal S4x64 .f32) (Wu : FVec Ideal S4x128x64 .f32)
    (bu : FVec Ideal S4x64 .f32) (a : FVec Ideal S4 .f32) (gam bet : FVec Ideal S4x64 .f32)
    (W1 : FVec Ideal S64x64 .f32) (b1 : FVec Ideal S64 .f32) (W2 : FVec Ideal S64x10 .f32) (b2 : FVec Ideal S10 .f32)
    (h : Cert.Pre_finite_inputs.fn (F := Ideal) x ei bt Wm bm Wu bu a gam bet W1 b1 W2 b2 = (fun _ => 1#1)) :
    (IsReal x ∧ IsReal Wm ∧ IsReal bm ∧ IsReal Wu ∧ IsReal bu ∧ IsReal a ∧ IsReal gam ∧ IsReal bet
      ∧ IsReal W1 ∧ IsReal b1 ∧ IsReal W2 ∧ IsReal b2)
    ∧ ∀ i, 0 ≤ (ei i).toInt ∧ (ei i).toInt < 50000 := by

  have e := congrFun h ix0
  dsimp only [fn, fn_part1, fn_part2, fn_part3, andi] at e
  simp only [IntOp.andi_eq_one] at e
  obtain ⟨⟨⟨⟨⟨⟨⟨⟨⟨⟨⟨⟨⟨hx, hWm⟩, hbm⟩, hWu⟩, hbu⟩, ha⟩, hgam⟩, hbet⟩, hW1⟩, hb1⟩, hW2⟩, hb2⟩, hge⟩, hlt⟩ := e
  exact ⟨⟨isReal_of_all x _ _ _ hx, isReal_of_all Wm _ _ _ hWm, isReal_of_all bm _ _ _ hbm,
    isReal_of_all Wu _ _ _ hWu, isReal_of_all bu _ _ _ hbu, isReal_of_all a _ _ _ ha,
    isReal_of_all gam _ _ _ hgam, isReal_of_all bet _ _ _ hbet, isReal_of_all W1 _ _ _ hW1,
    isReal_of_all b1 _ _ _ hb1, isReal_of_all W2 _ _ _ hW2, isReal_of_all b2 _ _ _ hb2⟩,
    range_of_all ei _ _ _ hge hlt⟩

open Cert.KernelIdeal Idealize.SL.Sem in
theorem decode_mem [Cert.Pre_finite_inputs.Facts]
    (m : (ℓ : Loc nD τ sig) → Buf (Elt Ideal) ℓ) (h : Cert.Pre_KernelIdeal m) (c : Dev nD) :
    (IsReal (m ((c.tc : Thread nD τ).loc main_arg0)) ∧ IsReal (m ((c.tc : Thread nD τ).loc main_arg3))
      ∧ IsReal (m ((c.tc : Thread nD τ).loc main_arg4)) ∧ IsReal (m ((c.tc : Thread nD τ).loc main_arg5))
      ∧ IsReal (m ((c.tc : Thread nD τ).loc main_arg6)) ∧ IsReal (m ((c.tc : Thread nD τ).loc main_arg7))
      ∧ IsReal (m ((c.tc : Thread nD τ).loc main_arg8)) ∧ IsReal (m ((c.tc : Thread nD τ).loc main_arg9))
      ∧ IsReal (m ((c.tc : Thread nD τ).loc main_arg10)) ∧ IsReal (m ((c.tc : Thread nD τ).loc main_arg11))
      ∧ IsReal (m ((c.tc : Thread nD τ).loc main_arg12)) ∧ IsReal (m ((c.tc : Thread nD τ).loc main_arg13)))
    ∧ ∀ i, 0 ≤ ((m ((c.tc : Thread nD τ).loc main_arg1)) i).toInt
        ∧ ((m ((c.tc : Thread nD τ).loc main_arg1)) i).toInt < 50000 :=
  decode _ _ _ _ _ _ _ _ _ _ _ _ _ _ (h c)

end Cert.Pre

end
-- ==== Proof.KClaims.lean ====
import proofs.«428660_j69922067578969_2_alg».proof.Proof.KRun
import proofs.«428660_j69922067578969_2_alg».proof.Proof.KValue
import proofs.«428660_j69922067578969_2_alg».proof.Proof.Pre
import proofs.«428660_j69922067578969_2_alg».proof.Proof.Gen.Pre_finite_inputs

noncomputable section

namespace Cert.KernelIdeal.Val

open Idealize.ShloMosaic Idealize.ShloMosaic.TcCoe Idealize.SL.Sem
open Cert.KernelIdeal Cert.KernelIdeal.Gen Cert.Spec

theorem inRange_of_pre (m : Mem) (hpre : Cert.Pre_KernelIdeal m) (c : Dev nD) : InRange m c :=
  (Cert.Pre.decode_mem m hpre c).2

theorem run_value (m : Mem) (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v201)
        = Cert.Shared.value (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono
    (fun r h c => ⟨(h c).1.trans (value m ρ c (inRange_of_pre m hpre c)), (h c).2⟩) (run m ρ)

end Cert.KernelIdeal.Val

end
-- ==== Proof.RRun.lean ====
import proofs.«428660_j69922067578969_2_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    unary main_v9 main_v10 (broadcastInDim S50000x1 ![0] bcast_S50000_S50000x1_0 : (⟨S50000, .f32⟩ : BufTy).Contents (Elt F) → (⟨S50000x1, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_arg0 main_v23 main_v24 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v17 main_v24 main_v25 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg3 main_v26 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v26 main_v27 rfl shapeCasts_S1x128x64_S128x64,
    binary main_v25 main_v27 main_v28 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg4 main_v29 ((extractStridedSlice S1x64 ![0, 0] · slices_S4x64_S1x64_0_0) : (⟨S4x64, .f32⟩ : BufTy).Contents (Elt F) → (⟨S1x64, .f32⟩ : BufTy).Contents (Elt F)),
    reshape main_v29 main_v30 rfl shapeCasts_S1x64_S64,
    unary main_v30 main_v31 (broadcastInDim S1x64 ![1] bcast_S64_S1x64_1 : (⟨S64, .f32⟩ : BufTy).Contents (Elt F) → (⟨S1x64, .f32⟩ : BufTy).Contents (Elt F)),
    unary main_v31 main_v32 (broadcastInDim S800000x64 ![0, 1] bcast_S1x64_S800000x64_0_1 : (⟨S1x64, .f32⟩ : BufTy).Contents (Elt F) → (⟨S800000x64, .f32⟩ : BufTy).Contents (Elt F)),
    binary main_v28 main_v32 main_v33 (addf : (⟨S800000x64, .f32⟩ : BufTy).Contents (Elt F) → (⟨S800000x64, .f32⟩ : BufTy).Contents (Elt F) → (⟨S800000x64, .f32⟩ : BufTy).Contents (Elt F)),
    TRef.nullary main_call0.cst (constant S_ .f32 0x00000000#32),
    TRef.unary main_call0.cst main_call0.v0 (broadcastInDim S800000x64 ![] bcast_S_S800000x64),
    TRef.binary (.of main_v33 : TRef sig ⟨S800000x64, .f32⟩) main_call0.v0 main_call0.v1 maximumf,
    nullary main_cst_5 (constant S_ .f32 0x00000000#32),
    unary main_cst_5 main_v35 (broadcastInDim S50000x64 ![] bcast_S_S50000x64 : (⟨S_, .f32⟩ : BufTy).Contents (Elt F) → (⟨S50000x64, .f32⟩ : BufTy).Contents (Elt F)),
    unary main_v3 main_v36 (broadcastInDim S800000x1 ![0] bcast_S800000_S800000x1_0 : (⟨S800000, .i32⟩ : BufTy).Contents (Elt F) → (⟨S800000x1, .i32⟩ : BufTy).Contents (Elt F)),
    ternary main_v35 main_v36 main_v34 main_v37 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v10 main_v38 (broadcastInDim S50000x64 ![0, 1] bcast_S50000x1_S50000x64_0_1 : (⟨S50000x1, .f32⟩ : BufTy).Contents (Elt F) → (⟨S50000x64, .f32⟩ : BufTy).Contents (Elt F)),
    binary main_v37 main_v38 main_v39 (Host.divf : (⟨S50000x64, .f32⟩ : BufTy).Contents (Elt F) → (⟨S50000x64, .f32⟩ : BufTy).Contents (Elt F) → (⟨S50000x64, .f32⟩ : BufTy).Contents (Elt F)),
    binary main_arg0 main_v39 main_v40 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg5 main_v41 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v41 main_v42 rfl shapeCasts_S1x128x64_S128x64,
    binary main_v40 main_v42 main_v43 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v44 ((extractStridedSlice S1x64 ![0, 0] · slices_S4x64_S1x64_0_0) : (⟨S4x64, .f32⟩ : BufTy).Contents (Elt F) → (⟨S1x64, .f32⟩ : BufTy).Contents (Elt F)),
    reshape main_v44 main_v45 rfl shapeCasts_S1x64_S64,
    unary main_v45 main_v46 (broadcastInDim S1x64 ![1] bcast_S64_S1x64_1 : (⟨S64, .f32⟩ : BufTy).Contents (Elt F) → (⟨S1x64, .f32⟩ : BufTy).Contents (Elt F)),
    unary main_v46 main_v47 (broadcastInDim S50000x64 ![0, 1] bcast_S1x64_S50000x64_0_1 : (⟨S1x64, .f32⟩ : BufTy).Contents (Elt F) → (⟨S50000x64, .f32⟩ : BufTy).Contents (Elt F)),
    binary main_v43 main_v47 main_v48 (addf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x00000000#32),
    unary main_cst_6 main_v49 (broadcastInDim S50000x64 ![] bcast_S_S50000x64 : (⟨S_, .f32⟩ : BufTy).Contents (Elt F) → (⟨S50000x64, .f32⟩ : BufTy).Contents (Elt F)),
    binary main_v48 main_v49 main_v50 (cmpf .oge : (⟨S50000x64, .f32⟩ : BufTy).Contents (Elt F) → (⟨S50000x64, .f32⟩ : BufTy).Contents (Elt F) → (⟨S50000x64, .i1⟩ : BufTy).Contents (Elt F)) ]

abbrev ops1 : List (HloOp τ sig (Elt F)) :=
  [ unary main_arg7 main_v51 ((extractStridedSlice S1 ![0] · slices_S4_S1_0) : (⟨S4, .f32⟩ : BufTy).Contents (Elt F) → (⟨S1, .f32⟩ : BufTy).Contents (Elt F)),
    reshape main_v51 main_v52 rfl shapeCasts_S1_S_,
    unary main_v52 main_v53 (broadcastInDim S50000x64 ![] bcast_S_S50000x64 : (⟨S_, .f32⟩ : BufTy).Contents (Elt F) → (⟨S50000x64, .f32⟩ : BufTy).Contents (Elt F)),
    binary main_v53 main_v48 main_v54 (mulf : (⟨S50000x64, .f32⟩ : BufTy).Contents (Elt F) → (⟨S50000x64, .f32⟩ : BufTy).Contents (Elt F) → (⟨S50000x64, .f32⟩ : BufTy).Contents (Elt F)),
    TRef.ternary (.of main_v50 : TRef sig ⟨S50000x64, .i1⟩) (.of main_v48 : TRef sig ⟨S50000x64, .f32⟩) (.of main_v54 : TRef sig ⟨S50000x64, .f32⟩) main_call1.v0 select,
    nullary main_cst_7 (constant S_ .f32 0x00000000#32),
    binary main_v55 main_cst_7 main_v56 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_8 (constant S_ .f32 0x47435000#32),
    unary main_cst_8 main_v57 (broadcastInDim S64 ![] bcast_S_S64 : (⟨S_, .f32⟩ : BufTy).Contents (Elt F) → (⟨S64, .f32⟩ : BufTy).Contents (Elt F)),
    binary main_v56 main_v57 main_v58 (Host.divf : (⟨S64, .f32⟩ : BufTy).Contents (Elt F) → (⟨S64, .f32⟩ : BufTy).Contents (Elt F) → (⟨S64, .f32⟩ : BufTy).Contents (Elt F)),
    nullary main_c_9 (constantI S_ 32 0#32),
    TRef.nullary main_call2.cst (constant S_ .f32 0x00000000#32),
    TRef.binary (.of main_v55 : TRef sig ⟨S50000x64, .f32⟩) main_call2.cst main_call2.v0 (fun x v => Host.reduceAdd x v reducesTo_S50000x64_S64_d0 h_S_),
    TRef.unary main_call2.v0 main_call2.v1 (broadcastInDim S1x64 ![1] bcast_S64_S1x64_1),
    TRef.nullary main_call2.cst_0 (constant S_ .f32 0x47435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S50000x64 ![0, 1] bcast_S1x64_S50000x64_0_1),
    TRef.binary (.of main_v55 : TRef sig ⟨S50000x64, .f32⟩) main_call2.v4 main_call2.v5 subf,
    TRef.binary main_call2.v5 main_call2.v5 main_call2.v6 mulf,
    TRef.unary (.of main_c_9 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2_call0.v0 id,
    TRef.unary main_call2_call0.v0 main_call2_call0.v1 (broadcastInDim S64 ![] bcast_S_S64),
    TRef.ternary main_call2.v12 main_call2.v11 main_call2_call0.v1 main_call2_call0.v2 (fun p a b => select (broadcastInDim S64 ![] bcast_S_S64 p) a b),
    unary main_v58 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v55 main_v61 main_v62 (subf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x3727C5AC#32),
    unary main_cst_10 main_v63 (broadcastInDim S64 ![] bcast_S_S64 : (⟨S_, .f32⟩ : BufTy).Contents (Elt F) → (⟨S64, .f32⟩ : BufTy).Contents (Elt F)),
    binary main_v59 main_v63 main_v64 (addf : (⟨S64, .f32⟩ : BufTy).Contents (Elt F) → (⟨S64, .f32⟩ : BufTy).Contents (Elt F) → (⟨S64, .f32⟩ : BufTy).Contents (Elt F)),
    unary main_v64 main_v65 (Host.rsqrt : (⟨S64, .f32⟩ : BufTy).Contents (Elt F) → (⟨S64, .f32⟩ : BufTy).Contents (Elt F)),
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S50000x64 ![0, 1] bcast_S1x64_S50000x64_0_1 : (⟨S1x64, .f32⟩ : BufTy).Contents (Elt F) → (⟨S50000x64, .f32⟩ : BufTy).Contents (Elt F)),
    binary main_v62 main_v67 main_v68 (mulf : (⟨S50000x64, .f32⟩ : BufTy).Contents (Elt F) → (⟨S50000x64, .f32⟩ : BufTy).Contents (Elt F) → (⟨S50000x64, .f32⟩ : BufTy).Contents (Elt F)),
    unary main_arg8 main_v69 ((extractStridedSlice S1x64 ![0, 0] · slices_S4x64_S1x64_0_0) : (⟨S4x64, .f32⟩ : BufTy).Contents (Elt F) → (⟨S1x64, .f32⟩ : BufTy).Contents (Elt F)),
    reshape main_v69 main_v70 rfl shapeCasts_S1x64_S64,
    unary main_v70 main_v71 (broadcastInDim S1x64 ![1] bcast_S64_S1x64_1 : (⟨S64, .f32⟩ : BufTy).Contents (Elt F) → (⟨S1x64, .f32⟩ : BufTy).Contents (Elt F)),
    unary main_v71 main_v72 (broadcastInDim S50000x64 ![0, 1] bcast_S1x64_S50000x64_0_1 : (⟨S1x64, .f32⟩ : BufTy).Contents (Elt F) → (⟨S50000x64, .f32⟩ : BufTy).Contents (Elt F)),
    binary main_v68 main_v72 main_v73 (mulf : (⟨S50000x64, .f32⟩ : BufTy).Contents (Elt F) → (⟨S50000x64, .f32⟩ : BufTy).Contents (Elt F) → (⟨S50000x64, .f32⟩ : BufTy).Contents (Elt F)),
    unary main_arg9 main_v74 ((extractStridedSlice S1x64 ![0, 0] · slices_S4x64_S1x64_0_0) : (⟨S4x64, .f32⟩ : BufTy).Contents (Elt F) → (⟨S1x64, .f32⟩ : BufTy).Contents (Elt F)),
    reshape main_v74 main_v75 rfl shapeCasts_S1x64_S64,
    unary main_v75 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v73 main_v77 main_v78 (addf : (⟨S50000x64, .f32⟩ : BufTy).Contents (Elt F) → (⟨S50000x64, .f32⟩ : BufTy).Contents (Elt F) → (⟨S50000x64, .f32⟩ : BufTy).Contents (Elt F)),
    nullary main_c_11 (constantI S_ 32 0#32),
    unary main_c_11 main_v79 (broadcastInDim S800000 ![] bcast_S_S800000 : (⟨S_, .i32⟩ : BufTy).Contents (Elt F) → (⟨S800000, .i32⟩ : BufTy).Contents (Elt F)),
    binary main_v1 main_v79 main_v80 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v81 (broadcastInDim S800000 ![] bcast_S_S800000 : (⟨S_, .i32⟩ : BufTy).Contents (Elt F) → (⟨S800000, .i32⟩ : BufTy).Contents (Elt F)),
    binary main_v1 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_v1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v78 main_v84 main_v85 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_13 (constantI S_ 32 0#32),
    unary main_c_13 main_v86 (broadcastInDim S800000 ![] bcast_S_S800000 : (⟨S_, .i32⟩ : BufTy).Contents (Elt F) → (⟨S800000, .i32⟩ : BufTy).Contents (Elt F)),
    binary main_v3 main_v86 main_v87 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v88 (broadcastInDim S800000 ![] bcast_S_S800000 : (⟨S_, .i32⟩ : BufTy).Contents (Elt F) → (⟨S800000, .i32⟩ : BufTy).Contents (Elt F)),
    binary main_v3 main_v88 main_v89 (addi : (⟨S800000, .i32⟩ : BufTy).Contents (Elt F) → (⟨S800000, .i32⟩ : BufTy).Contents (Elt F) → (⟨S800000, .i32⟩ : BufTy).Contents (Elt F)),
    ternary main_v87 main_v89 main_v3 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v90 main_v91 (broadcastInDim S800000x1 ![0] bcast_S800000_S800000x1_0 : (⟨S800000, .i32⟩ : BufTy).Contents (Elt F) → (⟨S800000x1, .i32⟩ : BufTy).Contents (Elt F)),
    binary main_v78 main_v91 main_v92 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v85 main_v92 main_v93 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg3 main_v94 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v94 main_v95 rfl shapeCasts_S1x128x64_S128x64,
    binary main_v93 main_v95 main_v96 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg4 main_v97 ((extractStridedSlice S1x64 ![1, 0] · slices_S4x64_S1x64_1_0) : (⟨S4x64, .f32⟩ : BufTy).Contents (Elt F) → (⟨S1x64, .f32⟩ : BufTy).Contents (Elt F)),
    reshape main_v97 main_v98 rfl shapeCasts_S1x64_S64,
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S800000x64 ![0, 1] bcast_S1x64_S800000x64_0_1 : (⟨S1x64, .f32⟩ : BufTy).Contents (Elt F) → (⟨S800000x64, .f32⟩ : BufTy).Contents (Elt F)),
    binary main_v96 main_v100 main_v101 (addf : (⟨S800000x64, .f32⟩ : BufTy).Contents (Elt F) → (⟨S800000x64, .f32⟩ : BufTy).Contents (Elt F) → (⟨S800000x64, .f32⟩ : BufTy).Contents (Elt F)),
    TRef.nullary main_call3.cst (constant S_ .f32 0x00000000#32),
    TRef.unary main_call3.cst main_call3.v0 (broadcastInDim S800000x64 ![] bcast_S_S800000x64),
    TRef.binary (.of main_v101 : TRef sig ⟨S800000x64, .f32⟩) main_call3.v0 main_call3.v1 maximumf ]

abbrev ops2 : List (HloOp τ sig (Elt F)) :=
  [ nullary main_cst_15 (constant S_ .f32 0x00000000#32),
    unary main_cst_15 main_v103 (broadcastInDim S50000x64 ![] bcast_S_S50000x64 : (⟨S_, .f32⟩ : BufTy).Contents (Elt F) → (⟨S50000x64, .f32⟩ : BufTy).Contents (Elt F)),
    unary main_v3 main_v104 (broadcastInDim S800000x1 ![0] bcast_S800000_S800000x1_0 : (⟨S800000, .i32⟩ : BufTy).Contents (Elt F) → (⟨S800000x1, .i32⟩ : BufTy).Contents (Elt F)),
    ternary main_v103 main_v104 main_v102 main_v105 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v10 main_v106 (broadcastInDim S50000x64 ![0, 1] bcast_S50000x1_S50000x64_0_1 : (⟨S50000x1, .f32⟩ : BufTy).Contents (Elt F) → (⟨S50000x64, .f32⟩ : BufTy).Contents (Elt F)),
    binary main_v105 main_v106 main_v107 (Host.divf : (⟨S50000x64, .f32⟩ : BufTy).Contents (Elt F) → (⟨S50000x64, .f32⟩ : BufTy).Contents (Elt F) → (⟨S50000x64, .f32⟩ : BufTy).Contents (Elt F)),
    binary main_v78 main_v107 main_v108 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg5 main_v109 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v109 main_v110 rfl shapeCasts_S1x128x64_S128x64,
    binary main_v108 main_v110 main_v111 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v112 ((extractStridedSlice S1x64 ![1, 0] · slices_S4x64_S1x64_1_0) : (⟨S4x64, .f32⟩ : BufTy).Contents (Elt F) → (⟨S1x64, .f32⟩ : BufTy).Contents (Elt F)),
    reshape main_v112 main_v113 rfl shapeCasts_S1x64_S64,
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S50000x64 ![0, 1] bcast_S1x64_S50000x64_0_1 : (⟨S1x64, .f32⟩ : BufTy).Contents (Elt F) → (⟨S50000x64, .f32⟩ : BufTy).Contents (Elt F)),
    binary main_v111 main_v115 main_v116 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x00000000#32),
    unary main_cst_16 main_v117 (broadcastInDim S50000x64 ![] bcast_S_S50000x64 : (⟨S_, .f32⟩ : BufTy).Contents (Elt F) → (⟨S50000x64, .f32⟩ : BufTy).Contents (Elt F)),
    binary main_v116 main_v117 main_v118 (cmpf .oge : (⟨S50000x64, .f32⟩ : BufTy).Contents (Elt F) → (⟨S50000x64, .f32⟩ : BufTy).Contents (Elt F) → (⟨S50000x64, .i1⟩ : BufTy).Contents (Elt F)),
    unary main_arg7 main_v119 ((extractStridedSlice S1 ![1] · slices_S4_S1_1) : (⟨S4, .f32⟩ : BufTy).Contents (Elt F) → (⟨S1, .f32⟩ : BufTy).Contents (Elt F)),
    reshape main_v119 main_v120 rfl shapeCasts_S1_S_,
    unary main_v120 main_v121 (broadcastInDim S50000x64 ![] bcast_S_S50000x64 : (⟨S_, .f32⟩ : BufTy).Contents (Elt F) → (⟨S50000x64, .f32⟩ : BufTy).Contents (Elt F)),
    binary main_v121 main_v116 main_v122 (mulf : (⟨S50000x64, .f32⟩ : BufTy).Contents (Elt F) → (⟨S50000x64, .f32⟩ : BufTy).Contents (Elt F) → (⟨S50000x64, .f32⟩ : BufTy).Contents (Elt F)),
    TRef.ternary (.of main_v118 : TRef sig ⟨S50000x64, .i1⟩) (.of main_v116 : TRef sig ⟨S50000x64, .f32⟩) (.of main_v122 : TRef sig ⟨S50000x64, .f32⟩) main_call4.v0 select,
    nullary main_cst_17 (constant S_ .f32 0x00000000#32),
    binary main_v123 main_cst_17 main_v124 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_18 (constant S_ .f32 0x47435000#32),
    unary main_cst_18 main_v125 (broadcastInDim S64 ![] bcast_S_S64 : (⟨S_, .f32⟩ : BufTy).Contents (Elt F) → (⟨S64, .f32⟩ : BufTy).Contents (Elt F)),
    binary main_v124 main_v125 main_v126 (Host.divf : (⟨S64, .f32⟩ : BufTy).Contents (Elt F) → (⟨S64, .f32⟩ : BufTy).Contents (Elt F) → (⟨S64, .f32⟩ : BufTy).Contents (Elt F)),
    nullary main_c_19 (constantI S_ 32 0#32),
    TRef.nullary main_call5.cst (constant S_ .f32 0x00000000#32),
    TRef.binary (.of main_v123 : TRef sig ⟨S50000x64, .f32⟩) main_call5.cst main_call5.v0 (fun x v => Host.reduceAdd x v reducesTo_S50000x64_S64_d0 h_S_),
    TRef.unary main_call5.v0 main_call5.v1 (broadcastInDim S1x64 ![1] bcast_S64_S1x64_1),
    TRef.nullary main_call5.cst_0 (constant S_ .f32 0x47435000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S50000x64 ![0, 1] bcast_S1x64_S50000x64_0_1),
    TRef.binary (.of main_v123 : TRef sig ⟨S50000x64, .f32⟩) main_call5.v4 main_call5.v5 subf,
    TRef.binary main_call5.v5 main_call5.v5 main_call5.v6 mulf,
    TRef.unary (.of main_c_19 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5_call0.v0 id,
    TRef.unary main_call5_call0.v0 main_call5_call0.v1 (broadcastInDim S64 ![] bcast_S_S64),
    TRef.ternary main_call5.v12 main_call5.v11 main_call5_call0.v1 main_call5_call0.v2 (fun p a b => select (broadcastInDim S64 ![] bcast_S_S64 p) a b),
    unary main_v126 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v123 main_v129 main_v130 (subf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x3727C5AC#32),
    unary main_cst_20 main_v131 (broadcastInDim S64 ![] bcast_S_S64 : (⟨S_, .f32⟩ : BufTy).Contents (Elt F) → (⟨S64, .f32⟩ : BufTy).Contents (Elt F)),
    binary main_v127 main_v131 main_v132 (addf : (⟨S64, .f32⟩ : BufTy).Contents (Elt F) → (⟨S64, .f32⟩ : BufTy).Contents (Elt F) → (⟨S64, .f32⟩ : BufTy).Contents (Elt F)),
    unary main_v132 main_v133 (Host.rsqrt : (⟨S64, .f32⟩ : BufTy).Contents (Elt F) → (⟨S64, .f32⟩ : BufTy).Contents (Elt F)),
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v130 main_v135 main_v136 (mulf : (⟨S50000x64, .f32⟩ : BufTy).Contents (Elt F) → (⟨S50000x64, .f32⟩ : BufTy).Contents (Elt F) → (⟨S50000x64, .f32⟩ : BufTy).Contents (Elt F)),
    unary main_arg8 main_v137 ((extractStridedSlice S1x64 ![1, 0] · slices_S4x64_S1x64_1_0) : (⟨S4x64, .f32⟩ : BufTy).Contents (Elt F) → (⟨S1x64, .f32⟩ : BufTy).Contents (Elt F)),
    reshape main_v137 main_v138 rfl shapeCasts_S1x64_S64,
    unary main_v138 main_v139 (broadcastInDim S1x64 ![1] bcast_S64_S1x64_1 : (⟨S64, .f32⟩ : BufTy).Contents (Elt F) → (⟨S1x64, .f32⟩ : BufTy).Contents (Elt F)),
    unary main_v139 main_v140 (broadcastInDim S50000x64 ![0, 1] bcast_S1x64_S50000x64_0_1 : (⟨S1x64, .f32⟩ : BufTy).Contents (Elt F) → (⟨S50000x64, .f32⟩ : BufTy).Contents (Elt F)),
    binary main_v136 main_v140 main_v141 (mulf : (⟨S50000x64, .f32⟩ : BufTy).Contents (Elt F) → (⟨S50000x64, .f32⟩ : BufTy).Contents (Elt F) → (⟨S50000x64, .f32⟩ : BufTy).Contents (Elt F)),
    unary main_arg9 main_v142 ((extractStridedSlice S1x64 ![1, 0] · slices_S4x64_S1x64_1_0) : (⟨S4x64, .f32⟩ : BufTy).Contents (Elt F) → (⟨S1x64, .f32⟩ : BufTy).Contents (Elt F)),
    reshape main_v142 main_v143 rfl shapeCasts_S1x64_S64,
    unary main_v143 main_v144 (broadcastInDim S1x64 ![1] bcast_S64_S1x64_1 : (⟨S64, .f32⟩ : BufTy).Contents (Elt F) → (⟨S1x64, .f32⟩ : BufTy).Contents (Elt F)),
    unary main_v144 main_v145 (broadcastInDim S50000x64 ![0, 1] bcast_S1x64_S50000x64_0_1 : (⟨S1x64, .f32⟩ : BufTy).Contents (Elt F) → (⟨S50000x64, .f32⟩ : BufTy).Contents (Elt F)),
    binary main_v141 main_v145 main_v146 (addf : (⟨S50000x64, .f32⟩ : BufTy).Contents (Elt F) → (⟨S50000x64, .f32⟩ : BufTy).Contents (Elt F) → (⟨S50000x64, .f32⟩ : BufTy).Contents (Elt F)),
    nullary main_c_21 (constantI S_ 32 0#32),
    unary main_c_21 main_v147 (broadcastInDim S800000 ![] bcast_S_S800000 : (⟨S_, .i32⟩ : BufTy).Contents (Elt F) → (⟨S800000, .i32⟩ : BufTy).Contents (Elt F)),
    binary main_v1 main_v147 main_v148 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v149 (broadcastInDim S800000 ![] bcast_S_S800000 : (⟨S_, .i32⟩ : BufTy).Contents (Elt F) → (⟨S800000, .i32⟩ : BufTy).Contents (Elt F)),
    binary main_v1 main_v149 main_v150 (addi : (⟨S800000, .i32⟩ : BufTy).Contents (Elt F) → (⟨S800000, .i32⟩ : BufTy).Contents (Elt F) → (⟨S800000, .i32⟩ : BufTy).Contents (Elt F)),
    ternary main_v148 main_v150 main_v1 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v151 main_v152 (broadcastInDim S800000x1 ![0] bcast_S800000_S800000x1_0 : (⟨S800000, .i32⟩ : BufTy).Contents (Elt F) → (⟨S800000x1, .i32⟩ : BufTy).Contents (Elt F)),
    binary main_v146 main_v152 main_v153 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_23 (constantI S_ 32 0#32) ]

abbrev ops3 : List (HloOp τ sig (Elt F)) :=
  [ unary main_c_23 main_v154 (broadcastInDim S800000 ![] bcast_S_S800000 : (⟨S_, .i32⟩ : BufTy).Contents (Elt F) → (⟨S800000, .i32⟩ : BufTy).Contents (Elt F)),
    binary main_v3 main_v154 main_v155 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v156 (broadcastInDim S800000 ![] bcast_S_S800000 : (⟨S_, .i32⟩ : BufTy).Contents (Elt F) → (⟨S800000, .i32⟩ : BufTy).Contents (Elt F)),
    binary main_v3 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v3 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v146 main_v159 main_v160 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v153 main_v160 main_v161 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg3 main_v162 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v162 main_v163 rfl shapeCasts_S1x128x64_S128x64,
    binary main_v161 main_v163 main_v164 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg4 main_v165 ((extractStridedSlice S1x64 ![2, 0] · slices_S4x64_S1x64_2_0) : (⟨S4x64, .f32⟩ : BufTy).Contents (Elt F) → (⟨S1x64, .f32⟩ : BufTy).Contents (Elt F)),
    reshape main_v165 main_v166 rfl shapeCasts_S1x64_S64,
    unary main_v166 main_v167 (broadcastInDim S1x64 ![1] bcast_S64_S1x64_1 : (⟨S64, .f32⟩ : BufTy).Contents (Elt F) → (⟨S1x64, .f32⟩ : BufTy).Contents (Elt F)),
    unary main_v167 main_v168 (broadcastInDim S800000x64 ![0, 1] bcast_S1x64_S800000x64_0_1 : (⟨S1x64, .f32⟩ : BufTy).Contents (Elt F) → (⟨S800000x64, .f32⟩ : BufTy).Contents (Elt F)),
    binary main_v164 main_v168 main_v169 (addf : (⟨S800000x64, .f32⟩ : BufTy).Contents (Elt F) → (⟨S800000x64, .f32⟩ : BufTy).Contents (Elt F) → (⟨S800000x64, .f32⟩ : BufTy).Contents (Elt F)),
    TRef.nullary main_call6.cst (constant S_ .f32 0x00000000#32),
    TRef.unary main_call6.cst main_call6.v0 (broadcastInDim S800000x64 ![] bcast_S_S800000x64),
    TRef.binary (.of main_v169 : TRef sig ⟨S800000x64, .f32⟩) main_call6.v0 main_call6.v1 maximumf,
    nullary main_cst_25 (constant S_ .f32 0x00000000#32),
    unary main_cst_25 main_v171 (broadcastInDim S50000x64 ![] bcast_S_S50000x64 : (⟨S_, .f32⟩ : BufTy).Contents (Elt F) → (⟨S50000x64, .f32⟩ : BufTy).Contents (Elt F)),
    unary main_v3 main_v172 (broadcastInDim S800000x1 ![0] bcast_S800000_S800000x1_0 : (⟨S800000, .i32⟩ : BufTy).Contents (Elt F) → (⟨S800000x1, .i32⟩ : BufTy).Contents (Elt F)),
    ternary main_v171 main_v172 main_v170 main_v173 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v10 main_v174 (broadcastInDim S50000x64 ![0, 1] bcast_S50000x1_S50000x64_0_1 : (⟨S50000x1, .f32⟩ : BufTy).Contents (Elt F) → (⟨S50000x64, .f32⟩ : BufTy).Contents (Elt F)),
    binary main_v173 main_v174 main_v175 (Host.divf : (⟨S50000x64, .f32⟩ : BufTy).Contents (Elt F) → (⟨S50000x64, .f32⟩ : BufTy).Contents (Elt F) → (⟨S50000x64, .f32⟩ : BufTy).Contents (Elt F)),
    binary main_v146 main_v175 main_v176 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg5 main_v177 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v177 main_v178 rfl shapeCasts_S1x128x64_S128x64,
    binary main_v176 main_v178 main_v179 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v180 ((extractStridedSlice S1x64 ![2, 0] · slices_S4x64_S1x64_2_0) : (⟨S4x64, .f32⟩ : BufTy).Contents (Elt F) → (⟨S1x64, .f32⟩ : BufTy).Contents (Elt F)),
    reshape main_v180 main_v181 rfl shapeCasts_S1x64_S64,
    unary main_v181 main_v182 (broadcastInDim S1x64 ![1] bcast_S64_S1x64_1 : (⟨S64, .f32⟩ : BufTy).Contents (Elt F) → (⟨S1x64, .f32⟩ : BufTy).Contents (Elt F)),
    unary main_v182 main_v183 (broadcastInDim S50000x64 ![0, 1] bcast_S1x64_S50000x64_0_1 : (⟨S1x64, .f32⟩ : BufTy).Contents (Elt F) → (⟨S50000x64, .f32⟩ : BufTy).Contents (Elt F)),
    binary main_v179 main_v183 main_v184 (addf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x00000000#32),
    unary main_cst_26 main_v185 (broadcastInDim S50000x64 ![] bcast_S_S50000x64 : (⟨S_, .f32⟩ : BufTy).Contents (Elt F) → (⟨S50000x64, .f32⟩ : BufTy).Contents (Elt F)),
    binary main_v184 main_v185 main_v186 (cmpf .oge : (⟨S50000x64, .f32⟩ : BufTy).Contents (Elt F) → (⟨S50000x64, .f32⟩ : BufTy).Contents (Elt F) → (⟨S50000x64, .i1⟩ : BufTy).Contents (Elt F)),
    unary main_arg7 main_v187 ((extractStridedSlice S1 ![2] · slices_S4_S1_2) : (⟨S4, .f32⟩ : BufTy).Contents (Elt F) → (⟨S1, .f32⟩ : BufTy).Contents (Elt F)),
    reshape main_v187 main_v188 rfl shapeCasts_S1_S_,
    unary main_v188 main_v189 (broadcastInDim S50000x64 ![] bcast_S_S50000x64 : (⟨S_, .f32⟩ : BufTy).Contents (Elt F) → (⟨S50000x64, .f32⟩ : BufTy).Contents (Elt F)),
    binary main_v189 main_v184 main_v190 (mulf : (⟨S50000x64, .f32⟩ : BufTy).Contents (Elt F) → (⟨S50000x64, .f32⟩ : BufTy).Contents (Elt F) → (⟨S50000x64, .f32⟩ : BufTy).Contents (Elt F)),
    TRef.ternary (.of main_v186 : TRef sig ⟨S50000x64, .i1⟩) (.of main_v184 : TRef sig ⟨S50000x64, .f32⟩) (.of main_v190 : TRef sig ⟨S50000x64, .f32⟩) main_call7.v0 select,
    nullary main_cst_27 (constant S_ .f32 0x00000000#32),
    binary main_v191 main_cst_27 main_v192 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_28 (constant S_ .f32 0x47435000#32),
    unary main_cst_28 main_v193 (broadcastInDim S64 ![] bcast_S_S64 : (⟨S_, .f32⟩ : BufTy).Contents (Elt F) → (⟨S64, .f32⟩ : BufTy).Contents (Elt F)),
    binary main_v192 main_v193 main_v194 (Host.divf : (⟨S64, .f32⟩ : BufTy).Contents (Elt F) → (⟨S64, .f32⟩ : BufTy).Contents (Elt F) → (⟨S64, .f32⟩ : BufTy).Contents (Elt F)),
    nullary main_c_29 (constantI S_ 32 0#32),
    TRef.nullary main_call8.cst (constant S_ .f32 0x00000000#32),
    TRef.binary (.of main_v191 : TRef sig ⟨S50000x64, .f32⟩) main_call8.cst main_call8.v0 (fun x v => Host.reduceAdd x v reducesTo_S50000x64_S64_d0 h_S_),
    TRef.unary main_call8.v0 main_call8.v1 (broadcastInDim S1x64 ![1] bcast_S64_S1x64_1),
    TRef.nullary main_call8.cst_0 (constant S_ .f32 0x47435000#32),
    TRef.unary main_call8.cst_0 main_call8.v2 (broadcastInDim S1x64 ![] bcast_S_S1x64),
    TRef.binary main_call8.v1 main_call8.v2 main_call8.v3 Host.divf,
    TRef.unary main_call8.v3 main_call8.v4 (broadcastInDim S50000x64 ![0, 1] bcast_S1x64_S50000x64_0_1),
    TRef.binary (.of main_v191 : TRef sig ⟨S50000x64, .f32⟩) main_call8.v4 main_call8.v5 subf,
    TRef.binary main_call8.v5 main_call8.v5 main_call8.v6 mulf,
    TRef.unary (.of main_c_29 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x64_S64_d0 h_S_),
    TRef.unary main_call8.v8 main_call8.v10 (broadcastInDim S64 ![] bcast_S_S64),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8_call0.v0 id,
    TRef.unary main_call8_call0.v0 main_call8_call0.v1 (broadcastInDim S64 ![] bcast_S_S64),
    TRef.ternary main_call8.v12 main_call8.v11 main_call8_call0.v1 main_call8_call0.v2 (fun p a b => select (broadcastInDim S64 ![] bcast_S_S64 p) a b),
    unary main_v194 main_v196 (broadcastInDim S1x64 ![1] bcast_S64_S1x64_1 : (⟨S64, .f32⟩ : BufTy).Contents (Elt F) → (⟨S1x64, .f32⟩ : BufTy).Contents (Elt F)),
    unary main_v196 main_v197 (broadcastInDim S50000x64 ![0, 1] bcast_S1x64_S50000x64_0_1 : (⟨S1x64, .f32⟩ : BufTy).Contents (Elt F) → (⟨S50000x64, .f32⟩ : BufTy).Contents (Elt F)),
    binary main_v191 main_v197 main_v198 (subf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x3727C5AC#32),
    unary main_cst_30 main_v199 (broadcastInDim S64 ![] bcast_S_S64 : (⟨S_, .f32⟩ : BufTy).Contents (Elt F) → (⟨S64, .f32⟩ : BufTy).Contents (Elt F)),
    binary main_v195 main_v199 main_v200 (addf : (⟨S64, .f32⟩ : BufTy).Contents (Elt F) → (⟨S64, .f32⟩ : BufTy).Contents (Elt F) → (⟨S64, .f32⟩ : BufTy).Contents (Elt F)),
    unary main_v200 main_v201 (Host.rsqrt : (⟨S64, .f32⟩ : BufTy).Contents (Elt F) → (⟨S64, .f32⟩ : BufTy).Contents (Elt F)),
    unary main_v201 main_v202 (broadcastInDim S1x64 ![1] bcast_S64_S1x64_1 : (⟨S64, .f32⟩ : BufTy).Contents (Elt F) → (⟨S1x64, .f32⟩ : BufTy).Contents (Elt F)),
    unary main_v202 main_v203 (broadcastInDim S50000x64 ![0, 1] bcast_S1x64_S50000x64_0_1 : (⟨S1x64, .f32⟩ : BufTy).Contents (Elt F) → (⟨S50000x64, .f32⟩ : BufTy).Contents (Elt F)),
    binary main_v198 main_v203 main_v204 (mulf : (⟨S50000x64, .f32⟩ : BufTy).Contents (Elt F) → (⟨S50000x64, .f32⟩ : BufTy).Contents (Elt F) → (⟨S50000x64, .f32⟩ : BufTy).Contents (Elt F)),
    unary main_arg8 main_v205 ((extractStridedSlice S1x64 ![2, 0] · slices_S4x64_S1x64_2_0) : (⟨S4x64, .f32⟩ : BufTy).Contents (Elt F) → (⟨S1x64, .f32⟩ : BufTy).Contents (Elt F)),
    reshape main_v205 main_v206 rfl shapeCasts_S1x64_S64 ]

abbrev ops4 : List (HloOp τ sig (Elt F)) :=
  [ unary main_v206 main_v207 (broadcastInDim S1x64 ![1] bcast_S64_S1x64_1 : (⟨S64, .f32⟩ : BufTy).Contents (Elt F) → (⟨S1x64, .f32⟩ : BufTy).Contents (Elt F)),
    unary main_v207 main_v208 (broadcastInDim S50000x64 ![0, 1] bcast_S1x64_S50000x64_0_1 : (⟨S1x64, .f32⟩ : BufTy).Contents (Elt F) → (⟨S50000x64, .f32⟩ : BufTy).Contents (Elt F)),
    binary main_v204 main_v208 main_v209 (mulf : (⟨S50000x64, .f32⟩ : BufTy).Contents (Elt F) → (⟨S50000x64, .f32⟩ : BufTy).Contents (Elt F) → (⟨S50000x64, .f32⟩ : BufTy).Contents (Elt F)),
    unary main_arg9 main_v210 ((extractStridedSlice S1x64 ![2, 0] · slices_S4x64_S1x64_2_0) : (⟨S4x64, .f32⟩ : BufTy).Contents (Elt F) → (⟨S1x64, .f32⟩ : BufTy).Contents (Elt F)),
    reshape main_v210 main_v211 rfl shapeCasts_S1x64_S64,
    unary main_v211 main_v212 (broadcastInDim S1x64 ![1] bcast_S64_S1x64_1 : (⟨S64, .f32⟩ : BufTy).Contents (Elt F) → (⟨S1x64, .f32⟩ : BufTy).Contents (Elt F)),
    unary main_v212 main_v213 (broadcastInDim S50000x64 ![0, 1] bcast_S1x64_S50000x64_0_1 : (⟨S1x64, .f32⟩ : BufTy).Contents (Elt F) → (⟨S50000x64, .f32⟩ : BufTy).Contents (Elt F)),
    binary main_v209 main_v213 main_v214 (addf : (⟨S50000x64, .f32⟩ : BufTy).Contents (Elt F) → (⟨S50000x64, .f32⟩ : BufTy).Contents (Elt F) → (⟨S50000x64, .f32⟩ : BufTy).Contents (Elt F)),
    nullary main_c_31 (constantI S_ 32 0#32),
    unary main_c_31 main_v215 (broadcastInDim S800000 ![] bcast_S_S800000 : (⟨S_, .i32⟩ : BufTy).Contents (Elt F) → (⟨S800000, .i32⟩ : BufTy).Contents (Elt F)),
    binary main_v1 main_v215 main_v216 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v217 (broadcastInDim S800000 ![] bcast_S_S800000 : (⟨S_, .i32⟩ : BufTy).Contents (Elt F) → (⟨S800000, .i32⟩ : BufTy).Contents (Elt F)),
    binary main_v1 main_v217 main_v218 (addi : (⟨S800000, .i32⟩ : BufTy).Contents (Elt F) → (⟨S800000, .i32⟩ : BufTy).Contents (Elt F) → (⟨S800000, .i32⟩ : BufTy).Contents (Elt F)),
    ternary main_v216 main_v218 main_v1 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v219 main_v220 (broadcastInDim S800000x1 ![0] bcast_S800000_S800000x1_0 : (⟨S800000, .i32⟩ : BufTy).Contents (Elt F) → (⟨S800000x1, .i32⟩ : BufTy).Contents (Elt F)),
    binary main_v214 main_v220 main_v221 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_33 (constantI S_ 32 0#32),
    unary main_c_33 main_v222 (broadcastInDim S800000 ![] bcast_S_S800000 : (⟨S_, .i32⟩ : BufTy).Contents (Elt F) → (⟨S800000, .i32⟩ : BufTy).Contents (Elt F)),
    binary main_v3 main_v222 main_v223 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v224 (broadcastInDim S800000 ![] bcast_S_S800000 : (⟨S_, .i32⟩ : BufTy).Contents (Elt F) → (⟨S800000, .i32⟩ : BufTy).Contents (Elt F)),
    binary main_v3 main_v224 main_v225 (addi : (⟨S800000, .i32⟩ : BufTy).Contents (Elt F) → (⟨S800000, .i32⟩ : BufTy).Contents (Elt F) → (⟨S800000, .i32⟩ : BufTy).Contents (Elt F)),
    ternary main_v223 main_v225 main_v3 main_v226 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v226 main_v227 (broadcastInDim S800000x1 ![0] bcast_S800000_S800000x1_0 : (⟨S800000, .i32⟩ : BufTy).Contents (Elt F) → (⟨S800000x1, .i32⟩ : BufTy).Contents (Elt F)),
    binary main_v214 main_v227 main_v228 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v221 main_v228 main_v229 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg3 main_v230 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v230 main_v231 rfl shapeCasts_S1x128x64_S128x64,
    binary main_v229 main_v231 main_v232 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg4 main_v233 ((extractStridedSlice S1x64 ![3, 0] · slices_S4x64_S1x64_3_0) : (⟨S4x64, .f32⟩ : BufTy).Contents (Elt F) → (⟨S1x64, .f32⟩ : BufTy).Contents (Elt F)),
    reshape main_v233 main_v234 rfl shapeCasts_S1x64_S64,
    unary main_v234 main_v235 (broadcastInDim S1x64 ![1] bcast_S64_S1x64_1 : (⟨S64, .f32⟩ : BufTy).Contents (Elt F) → (⟨S1x64, .f32⟩ : BufTy).Contents (Elt F)),
    unary main_v235 main_v236 (broadcastInDim S800000x64 ![0, 1] bcast_S1x64_S800000x64_0_1 : (⟨S1x64, .f32⟩ : BufTy).Contents (Elt F) → (⟨S800000x64, .f32⟩ : BufTy).Contents (Elt F)),
    binary main_v232 main_v236 main_v237 (addf : (⟨S800000x64, .f32⟩ : BufTy).Contents (Elt F) → (⟨S800000x64, .f32⟩ : BufTy).Contents (Elt F) → (⟨S800000x64, .f32⟩ : BufTy).Contents (Elt F)),
    TRef.nullary main_call9.cst (constant S_ .f32 0x00000000#32),
    TRef.unary main_call9.cst main_call9.v0 (broadcastInDim S800000x64 ![] bcast_S_S800000x64),
    TRef.binary (.of main_v237 : TRef sig ⟨S800000x64, .f32⟩) main_call9.v0 main_call9.v1 maximumf,
    nullary main_cst_35 (constant S_ .f32 0x00000000#32),
    unary main_cst_35 main_v239 (broadcastInDim S50000x64 ![] bcast_S_S50000x64 : (⟨S_, .f32⟩ : BufTy).Contents (Elt F) → (⟨S50000x64, .f32⟩ : BufTy).Contents (Elt F)),
    unary main_v3 main_v240 (broadcastInDim S800000x1 ![0] bcast_S800000_S800000x1_0 : (⟨S800000, .i32⟩ : BufTy).Contents (Elt F) → (⟨S800000x1, .i32⟩ : BufTy).Contents (Elt F)),
    ternary main_v239 main_v240 main_v238 main_v241 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v10 main_v242 (broadcastInDim S50000x64 ![0, 1] bcast_S50000x1_S50000x64_0_1 : (⟨S50000x1, .f32⟩ : BufTy).Contents (Elt F) → (⟨S50000x64, .f32⟩ : BufTy).Contents (Elt F)),
    binary main_v241 main_v242 main_v243 (Host.divf : (⟨S50000x64, .f32⟩ : BufTy).Contents (Elt F) → (⟨S50000x64, .f32⟩ : BufTy).Contents (Elt F) → (⟨S50000x64, .f32⟩ : BufTy).Contents (Elt F)),
    binary main_v214 main_v243 main_v244 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg5 main_v245 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v245 main_v246 rfl shapeCasts_S1x128x64_S128x64,
    binary main_v244 main_v246 main_v247 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v248 ((extractStridedSlice S1x64 ![3, 0] · slices_S4x64_S1x64_3_0) : (⟨S4x64, .f32⟩ : BufTy).Contents (Elt F) → (⟨S1x64, .f32⟩ : BufTy).Contents (Elt F)),
    reshape main_v248 main_v249 rfl shapeCasts_S1x64_S64,
    unary main_v249 main_v250 (broadcastInDim S1x64 ![1] bcast_S64_S1x64_1 : (⟨S64, .f32⟩ : BufTy).Contents (Elt F) → (⟨S1x64, .f32⟩ : BufTy).Contents (Elt F)),
    unary main_v250 main_v251 (broadcastInDim S50000x64 ![0, 1] bcast_S1x64_S50000x64_0_1 : (⟨S1x64, .f32⟩ : BufTy).Contents (Elt F) → (⟨S50000x64, .f32⟩ : BufTy).Contents (Elt F)),
    binary main_v247 main_v251 main_v252 (addf : (⟨S50000x64, .f32⟩ : BufTy).Contents (Elt F) → (⟨S50000x64, .f32⟩ : BufTy).Contents (Elt F) → (⟨S50000x64, .f32⟩ : BufTy).Contents (Elt F)),
    nullary main_cst_36 (constant S_ .f32 0x00000000#32),
    unary main_cst_36 main_v253 (broadcastInDim S50000x64 ![] bcast_S_S50000x64 : (⟨S_, .f32⟩ : BufTy).Contents (Elt F) → (⟨S50000x64, .f32⟩ : BufTy).Contents (Elt F)),
    binary main_v252 main_v253 main_v254 (cmpf .oge : (⟨S50000x64, .f32⟩ : BufTy).Contents (Elt F) → (⟨S50000x64, .f32⟩ : BufTy).Contents (Elt F) → (⟨S50000x64, .i1⟩ : BufTy).Contents (Elt F)),
    unary main_arg7 main_v255 ((extractStridedSlice S1 ![3] · slices_S4_S1_3) : (⟨S4, .f32⟩ : BufTy).Contents (Elt F) → (⟨S1, .f32⟩ : BufTy).Contents (Elt F)),
    reshape main_v255 main_v256 rfl shapeCasts_S1_S_,
    unary main_v256 main_v257 (broadcastInDim S50000x64 ![] bcast_S_S50000x64 : (⟨S_, .f32⟩ : BufTy).Contents (Elt F) → (⟨S50000x64, .f32⟩ : BufTy).Contents (Elt F)),
    binary main_v257 main_v252 main_v258 (mulf : (⟨S50000x64, .f32⟩ : BufTy).Contents (Elt F) → (⟨S50000x64, .f32⟩ : BufTy).Contents (Elt F) → (⟨S50000x64, .f32⟩ : BufTy).Contents (Elt F)),
    TRef.ternary (.of main_v254 : TRef sig ⟨S50000x64, .i1⟩) (.of main_v252 : TRef sig ⟨S50000x64, .f32⟩) (.of main_v258 : TRef sig ⟨S50000x64, .f32⟩) main_call10.v0 select,
    nullary main_cst_37 (constant S_ .f32 0x00000000#32) ]

abbrev ops5 : List (HloOp τ sig (Elt F)) :=
  [ binary main_v259 main_cst_37 main_v260 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_38 (constant S_ .f32 0x47435000#32),
    unary main_cst_38 main_v261 (broadcastInDim S64 ![] bcast_S_S64 : (⟨S_, .f32⟩ : BufTy).Contents (Elt F) → (⟨S64, .f32⟩ : BufTy).Contents (Elt F)),
    binary main_v260 main_v261 main_v262 (Host.divf : (⟨S64, .f32⟩ : BufTy).Contents (Elt F) → (⟨S64, .f32⟩ : BufTy).Contents (Elt F) → (⟨S64, .f32⟩ : BufTy).Contents (Elt F)),
    nullary main_c_39 (constantI S_ 32 0#32),
    TRef.nullary main_call11.cst (constant S_ .f32 0x00000000#32),
    TRef.binary (.of main_v259 : TRef sig ⟨S50000x64, .f32⟩) main_call11.cst main_call11.v0 (fun x v => Host.reduceAdd x v reducesTo_S50000x64_S64_d0 h_S_),
    TRef.unary main_call11.v0 main_call11.v1 (broadcastInDim S1x64 ![1] bcast_S64_S1x64_1),
    TRef.nullary main_call11.cst_0 (constant S_ .f32 0x47435000#32),
    TRef.unary main_call11.cst_0 main_call11.v2 (broadcastInDim S1x64 ![] bcast_S_S1x64),
    TRef.binary main_call11.v1 main_call11.v2 main_call11.v3 Host.divf,
    TRef.unary main_call11.v3 main_call11.v4 (broadcastInDim S50000x64 ![0, 1] bcast_S1x64_S50000x64_0_1),
    TRef.binary (.of main_v259 : TRef sig ⟨S50000x64, .f32⟩) main_call11.v4 main_call11.v5 subf,
    TRef.binary main_call11.v5 main_call11.v5 main_call11.v6 mulf,
    TRef.unary (.of main_c_39 : TRef sig ⟨S_, .i32⟩) main_call11.v7 (sitofp .f32),
    TRef.nullary main_call11.cst_1 (constant S_ .f32 0x47435000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S50000x64_S64_d0 h_S_),
    TRef.unary main_call11.v8 main_call11.v10 (broadcastInDim S64 ![] bcast_S_S64),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11_call0.v0 id,
    TRef.unary main_call11_call0.v0 main_call11_call0.v1 (broadcastInDim S64 ![] bcast_S_S64),
    TRef.ternary main_call11.v12 main_call11.v11 main_call11_call0.v1 main_call11_call0.v2 (fun p a b => select (broadcastInDim S64 ![] bcast_S_S64 p) a b),
    unary main_v262 main_v264 (broadcastInDim S1x64 ![1] bcast_S64_S1x64_1 : (⟨S64, .f32⟩ : BufTy).Contents (Elt F) → (⟨S1x64, .f32⟩ : BufTy).Contents (Elt F)),
    unary main_v264 main_v265 (broadcastInDim S50000x64 ![0, 1] bcast_S1x64_S50000x64_0_1 : (⟨S1x64, .f32⟩ : BufTy).Contents (Elt F) → (⟨S50000x64, .f32⟩ : BufTy).Contents (Elt F)),
    binary main_v259 main_v265 main_v266 (subf : (⟨S50000x64, .f32⟩ : BufTy).Contents (Elt F) → (⟨S50000x64, .f32⟩ : BufTy).Contents (Elt F) → (⟨S50000x64, .f32⟩ : BufTy).Contents (Elt F)),
    nullary main_cst_40 (constant S_ .f32 0x3727C5AC#32),
    unary main_cst_40 main_v267 (broadcastInDim S64 ![] bcast_S_S64 : (⟨S_, .f32⟩ : BufTy).Contents (Elt F) → (⟨S64, .f32⟩ : BufTy).Contents (Elt F)),
    binary main_v263 main_v267 main_v268 (addf : (⟨S64, .f32⟩ : BufTy).Contents (Elt F) → (⟨S64, .f32⟩ : BufTy).Contents (Elt F) → (⟨S64, .f32⟩ : BufTy).Contents (Elt F)),
    unary main_v268 main_v269 (Host.rsqrt : (⟨S64, .f32⟩ : BufTy).Contents (Elt F) → (⟨S64, .f32⟩ : BufTy).Contents (Elt F)),
    unary main_v269 main_v270 (broadcastInDim S1x64 ![1] bcast_S64_S1x64_1 : (⟨S64, .f32⟩ : BufTy).Contents (Elt F) → (⟨S1x64, .f32⟩ : BufTy).Contents (Elt F)),
    unary main_v270 main_v271 (broadcastInDim S50000x64 ![0, 1] bcast_S1x64_S50000x64_0_1 : (⟨S1x64, .f32⟩ : BufTy).Contents (Elt F) → (⟨S50000x64, .f32⟩ : BufTy).Contents (Elt F)),
    binary main_v266 main_v271 main_v272 (mulf : (⟨S50000x64, .f32⟩ : BufTy).Contents (Elt F) → (⟨S50000x64, .f32⟩ : BufTy).Contents (Elt F) → (⟨S50000x64, .f32⟩ : BufTy).Contents (Elt F)),
    unary main_arg8 main_v273 ((extractStridedSlice S1x64 ![3, 0] · slices_S4x64_S1x64_3_0) : (⟨S4x64, .f32⟩ : BufTy).Contents (Elt F) → (⟨S1x64, .f32⟩ : BufTy).Contents (Elt F)),
    reshape main_v273 main_v274 rfl shapeCasts_S1x64_S64,
    unary main_v274 main_v275 (broadcastInDim S1x64 ![1] bcast_S64_S1x64_1 : (⟨S64, .f32⟩ : BufTy).Contents (Elt F) → (⟨S1x64, .f32⟩ : BufTy).Contents (Elt F)),
    unary main_v275 main_v276 (broadcastInDim S50000x64 ![0, 1] bcast_S1x64_S50000x64_0_1 : (⟨S1x64, .f32⟩ : BufTy).Contents (Elt F) → (⟨S50000x64, .f32⟩ : BufTy).Contents (Elt F)),
    binary main_v272 main_v276 main_v277 (mulf : (⟨S50000x64, .f32⟩ : BufTy).Contents (Elt F) → (⟨S50000x64, .f32⟩ : BufTy).Contents (Elt F) → (⟨S50000x64, .f32⟩ : BufTy).Contents (Elt F)),
    unary main_arg9 main_v278 ((extractStridedSlice S1x64 ![3, 0] · slices_S4x64_S1x64_3_0) : (⟨S4x64, .f32⟩ : BufTy).Contents (Elt F) → (⟨S1x64, .f32⟩ : BufTy).Contents (Elt F)),
    reshape main_v278 main_v279 rfl shapeCasts_S1x64_S64,
    unary main_v279 main_v280 (broadcastInDim S1x64 ![1] bcast_S64_S1x64_1 : (⟨S64, .f32⟩ : BufTy).Contents (Elt F) → (⟨S1x64, .f32⟩ : BufTy).Contents (Elt F)),
    unary main_v280 main_v281 (broadcastInDim S50000x64 ![0, 1] bcast_S1x64_S50000x64_0_1 : (⟨S1x64, .f32⟩ : BufTy).Contents (Elt F) → (⟨S50000x64, .f32⟩ : BufTy).Contents (Elt F)),
    binary main_v277 main_v281 main_v282 (addf : (⟨S50000x64, .f32⟩ : BufTy).Contents (Elt F) → (⟨S50000x64, .f32⟩ : BufTy).Contents (Elt F) → (⟨S50000x64, .f32⟩ : BufTy).Contents (Elt F)),
    nullary main_cst_41 (constant S_ .f32 0x3F800000#32),
    unary main_cst_41 main_v283 (broadcastInDim S50000 ![] bcast_S_S50000 : (⟨S_, .f32⟩ : BufTy).Contents (Elt F) → (⟨S50000, .f32⟩ : BufTy).Contents (Elt F)),
    nullary main_cst_42 (constant S_ .f32 0x00000000#32),
    unary main_cst_42 main_v284 (broadcastInDim S500 ![] bcast_S_S500 : (⟨S_, .f32⟩ : BufTy).Contents (Elt F) → (⟨S500, .f32⟩ : BufTy).Contents (Elt F)),
    unary main_arg2 main_v285 (broadcastInDim S50000x1 ![0] bcast_S50000_S50000x1_0 : (⟨S50000, .i32⟩ : BufTy).Contents (Elt F) → (⟨S50000x1, .i32⟩ : BufTy).Contents (Elt F)),
    ternary main_v284 main_v285 main_v283 main_v286 ((fun x i u => Host.scatterAdd scatter_S500_S50000x1_S50000_n_0_0_1 x i u) : (⟨S500, .f32⟩ : BufTy).Contents (Elt F) → (⟨S50000x1, .i32⟩ : BufTy).Contents (Elt F) → (⟨S50000, .f32⟩ : BufTy).Contents (Elt F) → (⟨S500, .f32⟩ : BufTy).Contents (Elt F)),
    nullary main_cst_43 (constant S_ .f32 0x3F800000#32),
    unary main_cst_43 main_v287 (broadcastInDim S500 ![] bcast_S_S500 : (⟨S_, .f32⟩ : BufTy).Contents (Elt F) → (⟨S500, .f32⟩ : BufTy).Contents (Elt F)),
    binary main_v286 main_v287 main_v288 (maximumf : (⟨S500, .f32⟩ : BufTy).Contents (Elt F) → (⟨S500, .f32⟩ : BufTy).Contents (Elt F) → (⟨S500, .f32⟩ : BufTy).Contents (Elt F)),
    unary main_v288 main_v289 (broadcastInDim S500x1 ![0] bcast_S500_S500x1_0 : (⟨S500, .f32⟩ : BufTy).Contents (Elt F) → (⟨S500x1, .f32⟩ : BufTy).Contents (Elt F)),
    nullary main_cst_44 (constant S_ .f32 0x00000000#32),
    unary main_cst_44 main_v290 (broadcastInDim S500x64 ![] bcast_S_S500x64 : (⟨S_, .f32⟩ : BufTy).Contents (Elt F) → (⟨S500x64, .f32⟩ : BufTy).Contents (Elt F)),
    unary main_arg2 main_v291 (broadcastInDim S50000x1 ![0] bcast_S50000_S50000x1_0 : (⟨S50000, .i32⟩ : BufTy).Contents (Elt F) → (⟨S50000x1, .i32⟩ : BufTy).Contents (Elt F)),
    ternary main_v290 main_v291 main_v282 main_v292 ((fun x i u => Host.scatterAdd scatter_S500x64_S50000x1_S50000x64_1_0_0_1 x i u) : (⟨S500x64, .f32⟩ : BufTy).Contents (Elt F) → (⟨S50000x1, .i32⟩ : BufTy).Contents (Elt F) → (⟨S50000x64, .f32⟩ : BufTy).Contents (Elt F) → (⟨S500x64, .f32⟩ : BufTy).Contents (Elt F)),
    unary main_v289 main_v293 (broadcastInDim S500x64 ![0, 1] bcast_S500x1_S500x64_0_1 : (⟨S500x1, .f32⟩ : BufTy).Contents (Elt F) → (⟨S500x64, .f32⟩ : BufTy).Contents (Elt F)),
    binary main_v292 main_v293 main_v294 (Host.divf : (⟨S500x64, .f32⟩ : BufTy).Contents (Elt F) → (⟨S500x64, .f32⟩ : BufTy).Contents (Elt F) → (⟨S500x64, .f32⟩ : BufTy).Contents (Elt F)),
    binary main_v294 main_arg10 main_v295 ((fun l r => Host.dotGeneral dot_S500x64_S64x64_S500x64_1_0_0_1_n_n none l r) : (⟨S500x64, .f32⟩ : BufTy).Contents (Elt F) → (⟨S64x64, .f32⟩ : BufTy).Contents (Elt F) → (⟨S500x64, .f32⟩ : BufTy).Contents (Elt F)),
    unary main_arg11 main_v296 (broadcastInDim S1x64 ![1] bcast_S64_S1x64_1 : (⟨S64, .f32⟩ : BufTy).Contents (Elt F) → (⟨S1x64, .f32⟩ : BufTy).Contents (Elt F)),
    unary main_v296 main_v297 (broadcastInDim S500x64 ![0, 1] bcast_S1x64_S500x64_0_1 : (⟨S1x64, .f32⟩ : BufTy).Contents (Elt F) → (⟨S500x64, .f32⟩ : BufTy).Contents (Elt F)),
    binary main_v295 main_v297 main_v298 (addf : (⟨S500x64, .f32⟩ : BufTy).Contents (Elt F) → (⟨S500x64, .f32⟩ : BufTy).Contents (Elt F) → (⟨S500x64, .f32⟩ : BufTy).Contents (Elt F)),
    TRef.nullary main_call12.cst (constant S_ .f32 0x00000000#32),
    TRef.unary main_call12.cst main_call12.v0 (broadcastInDim S500x64 ![] bcast_S_S500x64),
    TRef.binary (.of main_v298 : TRef sig ⟨S500x64, .f32⟩) main_call12.v0 main_call12.v1 maximumf,
    binary main_v299 main_arg12 main_v300 ((fun l r => Host.dotGeneral dot_S500x64_S64x10_S500x10_1_0_0_1_n_n none l r) : (⟨S500x64, .f32⟩ : BufTy).Contents (Elt F) → (⟨S64x10, .f32⟩ : BufTy).Contents (Elt F) → (⟨S500x10, .f32⟩ : BufTy).Contents (Elt F)),
    unary main_arg13 main_v301 (broadcastInDim S1x10 ![1] bcast_S10_S1x10_1 : (⟨S10, .f32⟩ : BufTy).Contents (Elt F) → (⟨S1x10, .f32⟩ : BufTy).Contents (Elt F)),
    unary main_v301 main_v302 (broadcastInDim S500x10 ![0, 1] bcast_S1x10_S500x10_0_1 : (⟨S1x10, .f32⟩ : BufTy).Contents (Elt F) → (⟨S500x10, .f32⟩ : BufTy).Contents (Elt F)),
    binary main_v300 main_v302 main_v303 (addf : (⟨S500x10, .f32⟩ : BufTy).Contents (Elt F) → (⟨S500x10, .f32⟩ : BufTy).Contents (Elt F) → (⟨S500x10, .f32⟩ : BufTy).Contents (Elt F)) ]

abbrev ops : List (HloOp τ sig (Elt F)) :=
  ops0 ++ (ops1 ++ (ops2 ++ (ops3 ++ (ops4 ++ (ops5)))))

set_option maxRecDepth 8192 in
set_option maxHeartbeats 4000000 in
theorem main_part0_eq (c : Dev nD) : main_part0 (F := F) c = seq ops0 := by
  simp only [main_part0, fn_relu.body, seq, bind_assoc, pure_bind] <;> rfl

set_option maxRecDepth 8192 in
set_option maxHeartbeats 4000000 in
theorem main_part1_eq (c : Dev nD) : main_part1 (F := F) c = seq ops1 := by
  simp only [main_part1, fn_relu.body, fn_var.body, fn_where.body, fn_where_0.body, seq, bind_assoc, pure_bind] <;> rfl

set_option maxRecDepth 8192 in
set_option maxHeartbeats 4000000 in
theorem main_part2_eq (c : Dev nD) : main_part2 (F := F) c = seq ops2 := by
  simp only [main_part2, fn_var.body, fn_where.body, fn_where_0.body, seq, bind_assoc, pure_bind] <;> rfl

set_option maxRecDepth 8192 in
set_option maxHeartbeats 4000000 in
theorem main_part3_eq (c : Dev nD) : main_part3 (F := F) c = seq ops3 := by
  simp only [main_part3, fn_relu.body, fn_var.body, fn_where.body, fn_where_0.body, seq, bind_assoc, pure_bind] <;> rfl

set_option maxRecDepth 8192 in
set_option maxHeartbeats 4000000 in
theorem main_part4_eq (c : Dev nD) : main_part4 (F := F) c = seq ops4 := by
  simp only [main_part4, fn_relu.body, fn_where.body, seq, bind_assoc, pure_bind] <;> rfl

set_option maxRecDepth 8192 in
set_option maxHeartbeats 4000000 in
theorem main_part5_eq (c : Dev nD) : main_part5 (F := F) c = seq ops5 := by
  simp only [main_part5, fn_relu_1.body, fn_var.body, fn_where_0.body, seq, bind_assoc, pure_bind] <;> rfl

theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub ..,
    nullary_bufs_sub .., unary_bufs_sub .., nullary_bufs_sub .., unary_bufs_sub ..,
    unary_bufs_sub .., ternary_bufs_sub .., nullary_bufs_sub .., unary_bufs_sub ..,
    binary_bufs_sub .., unary_bufs_sub .., nullary_bufs_sub .., unary_bufs_sub ..,
    binary_bufs_sub .., nullary_bufs_sub .., unary_bufs_sub .., binary_bufs_sub ..,
    ternary_bufs_sub .., unary_bufs_sub .., binary_bufs_sub .., nullary_bufs_sub ..,
    unary_bufs_sub .., binary_bufs_sub .., nullary_bufs_sub .., unary_bufs_sub ..,
    binary_bufs_sub .., ternary_bufs_sub .., unary_bufs_sub .., binary_bufs_sub ..,
    binary_bufs_sub .., unary_bufs_sub .., reshape_bufs_sub .., binary_bufs_sub ..,
    unary_bufs_sub .., reshape_bufs_sub .., unary_bufs_sub .., unary_bufs_sub ..,
    binary_bufs_sub .., nullary_bufs_sub .., unary_bufs_sub .., binary_bufs_sub ..,
    nullary_bufs_sub .., unary_bufs_sub .., unary_bufs_sub .., ternary_bufs_sub ..,
    unary_bufs_sub .., binary_bufs_sub .., binary_bufs_sub .., unary_bufs_sub ..,
    reshape_bufs_sub .., binary_bufs_sub .., unary_bufs_sub .., reshape_bufs_sub ..,
    unary_bufs_sub .., unary_bufs_sub .., binary_bufs_sub .., nullary_bufs_sub ..,
    unary_bufs_sub .., binary_bufs_sub ..⟩

set_option maxRecDepth 8192 in
theorem ops1_sub : (ops1 : List (HloOp τ sig (Elt F))).Forall fun op => op.bufs ⊆ tcRefs τ sig :=
  ⟨unary_bufs_sub .., reshape_bufs_sub .., unary_bufs_sub .., binary_bufs_sub ..,
    ternary_bufs_sub .., nullary_bufs_sub .., binary_bufs_sub .., nullary_bufs_sub ..,
    unary_bufs_sub .., binary_bufs_sub .., nullary_bufs_sub .., nullary_bufs_sub ..,
    binary_bufs_sub .., unary_bufs_sub .., nullary_bufs_sub .., unary_bufs_sub ..,
    binary_bufs_sub .., unary_bufs_sub .., binary_bufs_sub .., binary_bufs_sub ..,
    unary_bufs_sub .., nullary_bufs_sub .., binary_bufs_sub .., nullary_bufs_sub ..,
    binary_bufs_sub .., unary_bufs_sub .., binary_bufs_sub .., nullary_bufs_sub ..,
    binary_bufs_sub .., nullary_bufs_sub .., unary_bufs_sub .., unary_bufs_sub ..,
    ternary_bufs_sub .., unary_bufs_sub .., unary_bufs_sub .., binary_bufs_sub ..,
    nullary_bufs_sub .., unary_bufs_sub .., binary_bufs_sub .., unary_bufs_sub ..,
    unary_bufs_sub .., unary_bufs_sub .., binary_bufs_sub .., unary_bufs_sub ..,
    reshape_bufs_sub .., unary_bufs_sub .., unary_bufs_sub .., binary_bufs_sub ..,
    unary_bufs_sub .., reshape_bufs_sub .., unary_bufs_sub .., unary_bufs_sub ..,
    binary_bufs_sub .., nullary_bufs_sub .., unary_bufs_sub .., binary_bufs_sub ..,
    nullary_bufs_sub .., unary_bufs_sub .., binary_bufs_sub .., ternary_bufs_sub ..,
    unary_bufs_sub .., binary_bufs_sub .., nullary_bufs_sub .., unary_bufs_sub ..,
    binary_bufs_sub .., nullary_bufs_sub .., unary_bufs_sub .., binary_bufs_sub ..,
    ternary_bufs_sub .., unary_bufs_sub .., binary_bufs_sub .., binary_bufs_sub ..,
    unary_bufs_sub .., reshape_bufs_sub .., binary_bufs_sub .., unary_bufs_sub ..,
    reshape_bufs_sub .., unary_bufs_sub .., unary_bufs_sub .., binary_bufs_sub ..,
    nullary_bufs_sub .., unary_bufs_sub .., binary_bufs_sub ..⟩

set_option maxRecDepth 8192 in
theorem ops2_sub : (ops2 : List (HloOp τ sig (Elt F))).Forall fun op => op.bufs ⊆ tcRefs τ sig :=
  ⟨nullary_bufs_sub .., unary_bufs_sub .., unary_bufs_sub .., ternary_bufs_sub ..,
    unary_bufs_sub .., binary_bufs_sub .., binary_bufs_sub .., unary_bufs_sub ..,
    reshape_bufs_sub .., binary_bufs_sub .., unary_bufs_sub .., reshape_bufs_sub ..,
    unary_bufs_sub .., unary_bufs_sub .., binary_bufs_sub .., nullary_bufs_sub ..,
    unary_bufs_sub .., binary_bufs_sub .., unary_bufs_sub .., reshape_bufs_sub ..,
    unary_bufs_sub .., binary_bufs_sub .., ternary_bufs_sub .., nullary_bufs_sub ..,
    binary_bufs_sub .., nullary_bufs_sub .., unary_bufs_sub .., binary_bufs_sub ..,
    nullary_bufs_sub .., nullary_bufs_sub .., binary_bufs_sub .., unary_bufs_sub ..,
    nullary_bufs_sub .., unary_bufs_sub .., binary_bufs_sub .., unary_bufs_sub ..,
    binary_bufs_sub .., binary_bufs_sub .., unary_bufs_sub .., nullary_bufs_sub ..,
    binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub .., unary_bufs_sub ..,
    unary_bufs_sub .., binary_bufs_sub .., nullary_bufs_sub .., unary_bufs_sub ..,
    binary_bufs_sub .., unary_bufs_sub .., unary_bufs_sub .., unary_bufs_sub ..,
    binary_bufs_sub .., unary_bufs_sub .., reshape_bufs_sub .., unary_bufs_sub ..,
    unary_bufs_sub .., binary_bufs_sub .., unary_bufs_sub .., reshape_bufs_sub ..,
    unary_bufs_sub .., unary_bufs_sub .., binary_bufs_sub .., nullary_bufs_sub ..,
    unary_bufs_sub .., binary_bufs_sub .., nullary_bufs_sub .., unary_bufs_sub ..,
    binary_bufs_sub .., ternary_bufs_sub .., unary_bufs_sub .., binary_bufs_sub ..,
    nullary_bufs_sub ..⟩

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub ..,
    binary_bufs_sub .., ternary_bufs_sub .., unary_bufs_sub .., binary_bufs_sub ..,
    binary_bufs_sub .., unary_bufs_sub .., reshape_bufs_sub .., binary_bufs_sub ..,
    unary_bufs_sub .., reshape_bufs_sub .., unary_bufs_sub .., unary_bufs_sub ..,
    binary_bufs_sub .., nullary_bufs_sub .., unary_bufs_sub .., binary_bufs_sub ..,
    nullary_bufs_sub .., unary_bufs_sub .., unary_bufs_sub .., ternary_bufs_sub ..,
    unary_bufs_sub .., binary_bufs_sub .., binary_bufs_sub .., unary_bufs_sub ..,
    reshape_bufs_sub .., binary_bufs_sub .., unary_bufs_sub .., reshape_bufs_sub ..,
    unary_bufs_sub .., unary_bufs_sub .., binary_bufs_sub .., nullary_bufs_sub ..,
    unary_bufs_sub .., binary_bufs_sub .., unary_bufs_sub .., reshape_bufs_sub ..,
    unary_bufs_sub .., binary_bufs_sub .., ternary_bufs_sub .., nullary_bufs_sub ..,
    binary_bufs_sub .., nullary_bufs_sub .., unary_bufs_sub .., binary_bufs_sub ..,
    nullary_bufs_sub .., nullary_bufs_sub .., binary_bufs_sub .., unary_bufs_sub ..,
    nullary_bufs_sub .., unary_bufs_sub .., binary_bufs_sub .., unary_bufs_sub ..,
    binary_bufs_sub .., binary_bufs_sub .., unary_bufs_sub .., nullary_bufs_sub ..,
    binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub .., unary_bufs_sub ..,
    unary_bufs_sub .., binary_bufs_sub .., nullary_bufs_sub .., unary_bufs_sub ..,
    binary_bufs_sub .., unary_bufs_sub .., unary_bufs_sub .., unary_bufs_sub ..,
    binary_bufs_sub .., unary_bufs_sub .., reshape_bufs_sub ..⟩

set_option maxRecDepth 8192 in
theorem ops4_sub : (ops4 : List (HloOp τ sig (Elt F))).Forall fun op => op.bufs ⊆ tcRefs τ sig :=
  ⟨unary_bufs_sub .., unary_bufs_sub .., binary_bufs_sub .., unary_bufs_sub ..,
    reshape_bufs_sub .., unary_bufs_sub .., unary_bufs_sub .., binary_bufs_sub ..,
    nullary_bufs_sub .., unary_bufs_sub .., binary_bufs_sub .., nullary_bufs_sub ..,
    unary_bufs_sub .., binary_bufs_sub .., ternary_bufs_sub .., unary_bufs_sub ..,
    binary_bufs_sub .., nullary_bufs_sub .., unary_bufs_sub .., binary_bufs_sub ..,
    nullary_bufs_sub .., unary_bufs_sub .., binary_bufs_sub .., ternary_bufs_sub ..,
    unary_bufs_sub .., binary_bufs_sub .., binary_bufs_sub .., unary_bufs_sub ..,
    reshape_bufs_sub .., binary_bufs_sub .., unary_bufs_sub .., reshape_bufs_sub ..,
    unary_bufs_sub .., unary_bufs_sub .., binary_bufs_sub .., nullary_bufs_sub ..,
    unary_bufs_sub .., binary_bufs_sub .., nullary_bufs_sub .., unary_bufs_sub ..,
    unary_bufs_sub .., ternary_bufs_sub .., unary_bufs_sub .., binary_bufs_sub ..,
    binary_bufs_sub .., unary_bufs_sub .., reshape_bufs_sub .., binary_bufs_sub ..,
    unary_bufs_sub .., reshape_bufs_sub .., unary_bufs_sub .., unary_bufs_sub ..,
    binary_bufs_sub .., nullary_bufs_sub .., unary_bufs_sub .., binary_bufs_sub ..,
    unary_bufs_sub .., reshape_bufs_sub .., unary_bufs_sub .., binary_bufs_sub ..,
    ternary_bufs_sub .., nullary_bufs_sub ..⟩

set_option maxRecDepth 8192 in
theorem ops5_sub : (ops5 : List (HloOp τ sig (Elt F))).Forall fun op => op.bufs ⊆ tcRefs τ sig :=
  ⟨binary_bufs_sub .., nullary_bufs_sub .., unary_bufs_sub .., binary_bufs_sub ..,
    nullary_bufs_sub .., nullary_bufs_sub .., binary_bufs_sub .., unary_bufs_sub ..,
    nullary_bufs_sub .., unary_bufs_sub .., binary_bufs_sub .., unary_bufs_sub ..,
    binary_bufs_sub .., binary_bufs_sub .., unary_bufs_sub .., nullary_bufs_sub ..,
    binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub .., unary_bufs_sub ..,
    unary_bufs_sub .., binary_bufs_sub .., nullary_bufs_sub .., unary_bufs_sub ..,
    binary_bufs_sub .., unary_bufs_sub .., unary_bufs_sub .., unary_bufs_sub ..,
    binary_bufs_sub .., unary_bufs_sub .., reshape_bufs_sub .., unary_bufs_sub ..,
    unary_bufs_sub .., binary_bufs_sub .., unary_bufs_sub .., reshape_bufs_sub ..,
    unary_bufs_sub .., unary_bufs_sub .., binary_bufs_sub .., nullary_bufs_sub ..,
    unary_bufs_sub .., nullary_bufs_sub .., unary_bufs_sub .., unary_bufs_sub ..,
    ternary_bufs_sub .., nullary_bufs_sub .., unary_bufs_sub .., binary_bufs_sub ..,
    unary_bufs_sub .., nullary_bufs_sub .., unary_bufs_sub .., unary_bufs_sub ..,
    ternary_bufs_sub .., unary_bufs_sub .., binary_bufs_sub .., binary_bufs_sub ..,
    unary_bufs_sub .., unary_bufs_sub .., binary_bufs_sub .., nullary_bufs_sub ..,
    unary_bufs_sub .., binary_bufs_sub .., binary_bufs_sub .., unary_bufs_sub ..,
    unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

set_option maxRecDepth 8192 in
theorem ops3_fresh : ∀ op ∈ (ops3 : List (HloOp τ sig (Elt F))), op.fresh = ∅ := by
  intro _ h; (repeat (cases h with | head => rfl | tail _ h => ?_)); exact nomatch h

set_option maxRecDepth 8192 in
theorem ops4_fresh : ∀ op ∈ (ops4 : List (HloOp τ sig (Elt F))), op.fresh = ∅ := by
  intro _ h; (repeat (cases h with | head => rfl | tail _ h => ?_)); exact nomatch h

set_option maxRecDepth 8192 in
theorem ops5_fresh : ∀ op ∈ (ops5 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h | h | h
  exacts [ops0_fresh op h, ops1_fresh op h, ops2_fresh op h, ops3_fresh op h, ops4_fresh op h, ops5_fresh op h]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Val

end
-- ==== Proof.LibStage.lean ====
import Idealize.ShloMosaic.Lib.StableHlo.Run

namespace Idealize.ShloMosaic.StableHlo

variable {τ : Topo} {sig : RefSig} {Val : EltTy → Type}

structure StageAt (rk : DevRef τ sig → ℕ) (lo : ℕ) (op : HloOp τ sig Val) : Prop where
  reads_lt : ∀ b ∈ op.bufs, b ∉ op.writes → rk b < lo
  writes_eq : ∀ b ∈ op.writes, rk b = lo
  indep : ∀ F G : Valuation τ sig Val, (∀ b ∈ op.bufs, b ∉ op.writes → F b = G b) →
    ∀ b ∈ op.writes, op.result F b = op.result G b

def Staged (rk : DevRef τ sig → ℕ) : ℕ → List (HloOp τ sig Val) → ℕ → Prop
  | lo, [], hi => lo = hi
  | lo, op :: post, hi => StageAt rk lo op ∧ Staged rk (lo + 1) post hi

namespace Staged

variable {rk : DevRef τ sig → ℕ}

theorem nil (lo : ℕ) : Staged rk lo ([] : List (HloOp τ sig Val)) lo := rfl

theorem cons {lo hi : ℕ} {op : HloOp τ sig Val} {post : List (HloOp τ sig Val)} (h : StageAt rk lo op)
    (hp : Staged rk (lo + 1) post hi) : Staged rk lo (op :: post) hi := ⟨h, hp⟩

theorem append {l₁ l₂ : List (HloOp τ sig Val)} {hi : ℕ} :
    ∀ {lo mid : ℕ}, Staged rk lo l₁ mid → Staged rk mid l₂ hi → Staged rk lo (l₁ ++ l₂) hi := by
  induction l₁ with
  | nil => intro lo mid h₁ h₂; cases (show lo = mid from h₁); exact h₂
  | cons op l ih => intro lo mid h₁ h₂; exact ⟨h₁.1, ih h₁.2 h₂⟩

theorem le_rk_of_mem {l : List (HloOp τ sig Val)} {hi : ℕ} :
    ∀ {lo : ℕ}, Staged rk lo l hi → ∀ op ∈ l, ∀ b ∈ op.writes, lo ≤ rk b := by
  induction l with
  | nil => intro lo _ op hop; exact absurd hop List.not_mem_nil
  | cons o post ih =>
    intro lo h op hop b hb
    rcases List.mem_cons.mp hop with e | hop
    · exact Nat.le_of_eq ((e ▸ h.1).writes_eq b hb).symm
    · exact Nat.le_of_succ_le (ih h.2 op hop b hb)

theorem after_of_lt {l : List (HloOp τ sig Val)} {lo hi : ℕ} (h : Staged rk lo l hi) (V : Valuation τ sig Val)
    {b : DevRef τ sig} (hb : rk b < lo) : after l V b = V b :=
  after_of_forall_not_mem l V fun op hop hw => absurd (h.le_rk_of_mem op hop b hw) (Nat.not_le.mpr hb)

theorem after_eq {l : List (HloOp τ sig Val)} {hi : ℕ} :
    ∀ {lo : ℕ}, Staged rk lo l hi → ∀ (V : Valuation τ sig Val) (op : HloOp τ sig Val), op ∈ l →
      ∀ b ∈ op.writes, after l V b = op.result (after l V) b := by
  induction l with
  | nil => intro lo _ V op hop; exact absurd hop List.not_mem_nil
  | cons o post ih =>
    intro lo h V op hop b hb
    rw [after_cons]
    rcases List.mem_cons.mp hop with e | hop
    · subst e
      have ho := h.1
      have hpost := h.2
      have hlt : rk b < lo + 1 := Nat.lt_succ_of_le (Nat.le_of_eq (ho.writes_eq b hb))
      rw [hpost.after_of_lt _ hlt]
      refine ho.indep _ _ (fun c hc hcw => ?_) b hb
      rw [hpost.after_of_lt _ (Nat.lt_succ_of_lt (ho.reads_lt c hc hcw)), HloOp.result_of_not_mem _ V hcw]
    · exact ih h.2 _ op hop b hb

end Staged

section Builders

variable {rk : DevRef τ sig → ℕ} {lo : ℕ}

private theorem not_mem_single {x y : Ref sig .tc} (h1 : rk (Proc.devRef (τ := τ) .tc x) < lo)
    (h2 : rk (Proc.devRef (τ := τ) .tc y) = lo) :
    (Proc.devRef (τ := τ) .tc x) ∉ ({Proc.devRef (τ := τ) .tc y} : Finset (DevRef τ sig)) := fun hm => by
  rw [Finset.mem_singleton.mp hm, h2] at h1; exact Nat.lt_irrefl _ h1

theorem nullary_stageAt (y : Ref sig .tc) (v : y.ty.Contents Val) (hy)
    (h : rk (Proc.devRef (τ := τ) .tc y) = lo) : StageAt rk lo (nullary (τ := τ) y v hy) where
  reads_lt b hb hw := absurd hb hw
  writes_eq b hb := by obtain rfl := Finset.mem_singleton.mp hb; exact h
  indep F G _ b hb := by
    obtain rfl := Finset.mem_singleton.mp hb
    exact (nullary_result y v hy F).trans (nullary_result y v hy G).symm

theorem unary_stageAt (x y : Ref sig .tc) (f : x.ty.Contents Val → y.ty.Contents Val) (hx hy)
    (h1 : rk (Proc.devRef (τ := τ) .tc x) < lo) (h2 : rk (Proc.devRef (τ := τ) .tc y) = lo) :
    StageAt rk lo (unary (τ := τ) x y f hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [unary_result, unary_result, h _ (Finset.mem_insert_self _ _) (not_mem_single h1 h2)]

theorem reshape_stageAt (x y : Ref sig .tc) (he hn hx hy)
    (h1 : rk (Proc.devRef (τ := τ) .tc x) < lo) (h2 : rk (Proc.devRef (τ := τ) .tc y) = lo) :
    StageAt rk lo (reshape (τ := τ) (Val := Val) x y he hn hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [reshape_result, reshape_result, h _ (Finset.mem_insert_self _ _) (not_mem_single h1 h2)]

theorem binary_stageAt (a b y : Ref sig .tc) (f : a.ty.Contents Val → b.ty.Contents Val → y.ty.Contents Val) (ha hb hy)
    (h1 : rk (Proc.devRef (τ := τ) .tc a) < lo) (h2 : rk (Proc.devRef (τ := τ) .tc b) < lo)
    (h3 : rk (Proc.devRef (τ := τ) .tc y) = lo) : StageAt rk lo (binary (τ := τ) a b y f ha hb hy) where
  reads_lt c hc hw := by
    rcases Finset.mem_insert.mp hc with rfl | hc
    · exact h1
    rcases Finset.mem_insert.mp hc with rfl | hc
    · exact h2
    · exact absurd hc hw
  writes_eq c hc := by obtain rfl := Finset.mem_singleton.mp hc; exact h3
  indep F G h c hc := by
    obtain rfl := Finset.mem_singleton.mp hc
    have ea := h _ (Finset.mem_insert_self _ _) (not_mem_single h1 h3)
    have eb := h _ (Finset.mem_insert_of_mem (Finset.mem_insert_self _ _)) (not_mem_single h2 h3)
    exact (binary_result a b y f ha hb hy F).trans
      ((congrArg₂ f ea eb).trans (binary_result a b y f ha hb hy G).symm)

theorem ternary_stageAt (c a b y : Ref sig .tc)
    (f : c.ty.Contents Val → a.ty.Contents Val → b.ty.Contents Val → y.ty.Contents Val) (hc ha hb hy)
    (h0 : rk (Proc.devRef (τ := τ) .tc c) < lo) (h1 : rk (Proc.devRef (τ := τ) .tc a) < lo)
    (h2 : rk (Proc.devRef (τ := τ) .tc b) < lo) (h3 : rk (Proc.devRef (τ := τ) .tc y) = lo) :
    StageAt rk lo (ternary (τ := τ) c a b y f hc ha hb hy) where
  reads_lt d hd hw := by
    rcases Finset.mem_insert.mp hd with rfl | hd
    · exact h0
    rcases Finset.mem_insert.mp hd with rfl | hd
    · exact h1
    rcases Finset.mem_insert.mp hd with rfl | hd
    · exact h2
    · exact absurd hd hw
  writes_eq d hd := by obtain rfl := Finset.mem_singleton.mp hd; exact h3
  indep F G h d hd := by
    obtain rfl := Finset.mem_singleton.mp hd
    have ec := h _ (Finset.mem_insert_self _ _) (not_mem_single h0 h3)
    have ea := h _ (Finset.mem_insert_of_mem (Finset.mem_insert_self _ _)) (not_mem_single h1 h3)
    have eb := h _ (Finset.mem_insert_of_mem (Finset.mem_insert_of_mem (Finset.mem_insert_self _ _))) (not_mem_single h2 h3)
    refine (ternary_result c a b y f hc ha hb hy F).trans (Eq.trans ?_ (ternary_result c a b y f hc ha hb hy G).symm)
    rw [ec, ea, eb]

end Builders

end Idealize.ShloMosaic.StableHlo
-- ==== Proof.LibRerun.lean ====
import proofs.«428660_j69922067578969_2_alg».proof.Proof.LibStage

namespace Cert.LibRerun

open Idealize.ShloMosaic Idealize.ShloMosaic.StableHlo

variable {τ : Topo} {sig : RefSig} {Val : EltTy → Type} {rk : DevRef τ sig → ℕ}

theorem result_after {l : List (HloOp τ sig Val)} {lo hi : ℕ} (h : Staged rk lo l hi) (V : Valuation τ sig Val)
    (op : HloOp τ sig Val) (hop : op ∈ l) : op.result (after l V) = after l V := by
  funext b
  by_cases hb : b ∈ op.writes
  · exact (h.after_eq V op hop b hb).symm
  · exact HloOp.result_of_not_mem _ _ hb

theorem after_after {l : List (HloOp τ sig Val)} {lo hi : ℕ} (h : Staged rk lo l hi) (V : Valuation τ sig Val) :
    ∀ seg : List (HloOp τ sig Val), (∀ op ∈ seg, op ∈ l) → after seg (after l V) = after l V := by
  intro seg
  induction seg with
  | nil => intro _; rfl
  | cons op s ih =>
    intro hseg
    rw [after_cons, result_after h V op (hseg op List.mem_cons_self)]
    exact ih fun o ho => hseg o (List.mem_cons_of_mem _ ho)

end Cert.LibRerun
-- ==== Proof.RRank.lean ====
import proofs.«428660_j69922067578969_2_alg».proof.Proof.RRun
import proofs.«428660_j69922067578969_2_alg».proof.Proof.LibStage
import proofs.«428660_j69922067578969_2_alg».proof.Proof.LibRerun

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev rk (b : DevRef τ sig) : ℕ := b.idx.val

set_option maxRecDepth 8192 in
theorem ops0_staged : Staged rk 14 (ops0 (F := F)) 76 := by
  repeat' (first
    | exact Staged.nil _
    | refine Staged.cons (nullary_stageAt _ _ _ rfl) ?_
    | refine Staged.cons (unary_stageAt _ _ _ _ _ (by decide) rfl) ?_
    | refine Staged.cons (reshape_stageAt _ _ _ _ _ _ (by decide) rfl) ?_
    | refine Staged.cons (binary_stageAt _ _ _ _ _ _ _ (by decide) (by decide) rfl) ?_
    | refine Staged.cons (ternary_stageAt _ _ _ _ _ _ _ _ _ (by decide) (by decide) (by decide) rfl) ?_)

set_option maxRecDepth 8192 in
theorem ops1_staged : Staged rk 76 (ops1 (F := F)) 159 := by
  repeat' (first
    | exact Staged.nil _
    | refine Staged.cons (nullary_stageAt _ _ _ rfl) ?_
    | refine Staged.cons (unary_stageAt _ _ _ _ _ (by decide) rfl) ?_
    | refine Staged.cons (reshape_stageAt _ _ _ _ _ _ (by decide) rfl) ?_
    | refine Staged.cons (binary_stageAt _ _ _ _ _ _ _ (by decide) (by decide) rfl) ?_
    | refine Staged.cons (ternary_stageAt _ _ _ _ _ _ _ _ _ (by decide) (by decide) (by decide) rfl) ?_)

set_option maxRecDepth 8192 in
theorem ops2_staged : Staged rk 159 (ops2 (F := F)) 240 := by
  repeat' (first
    | exact Staged.nil _
    | refine Staged.cons (nullary_stageAt _ _ _ rfl) ?_
    | refine Staged.cons (unary_stageAt _ _ _ _ _ (by decide) rfl) ?_
    | refine Staged.cons (reshape_stageAt _ _ _ _ _ _ (by decide) rfl) ?_
    | refine Staged.cons (binary_stageAt _ _ _ _ _ _ _ (by decide) (by decide) rfl) ?_
    | refine Staged.cons (ternary_stageAt _ _ _ _ _ _ _ _ _ (by decide) (by decide) (by decide) rfl) ?_)

set_option maxRecDepth 8192 in
theorem ops3_staged : Staged rk 240 (ops3 (F := F)) 323 := by
  repeat' (first
    | exact Staged.nil _
    | refine Staged.cons (nullary_stageAt _ _ _ rfl) ?_
    | refine Staged.cons (unary_stageAt _ _ _ _ _ (by decide) rfl) ?_
    | refine Staged.cons (reshape_stageAt _ _ _ _ _ _ (by decide) rfl) ?_
    | refine Staged.cons (binary_stageAt _ _ _ _ _ _ _ (by decide) (by decide) rfl) ?_
    | refine Staged.cons (ternary_stageAt _ _ _ _ _ _ _ _ _ (by decide) (by decide) (by decide) rfl) ?_)

set_option maxRecDepth 8192 in
theorem ops4_staged : Staged rk 323 (ops4 (F := F)) 385 := by
  repeat' (first
    | exact Staged.nil _
    | refine Staged.cons (nullary_stageAt _ _ _ rfl) ?_
    | refine Staged.cons (unary_stageAt _ _ _ _ _ (by decide) rfl) ?_
    | refine Staged.cons (reshape_stageAt _ _ _ _ _ _ (by decide) rfl) ?_
    | refine Staged.cons (binary_stageAt _ _ _ _ _ _ _ (by decide) (by decide) rfl) ?_
    | refine Staged.cons (ternary_stageAt _ _ _ _ _ _ _ _ _ (by decide) (by decide) (by decide) rfl) ?_)

set_option maxRecDepth 8192 in
theorem ops5_staged : Staged rk 385 (ops5 (F := F)) 459 := by
  repeat' (first
    | exact Staged.nil _
    | refine Staged.cons (nullary_stageAt _ _ _ rfl) ?_
    | refine Staged.cons (unary_stageAt _ _ _ _ _ (by decide) rfl) ?_
    | refine Staged.cons (reshape_stageAt _ _ _ _ _ _ (by decide) rfl) ?_
    | refine Staged.cons (binary_stageAt _ _ _ _ _ _ _ (by decide) (by decide) rfl) ?_
    | refine Staged.cons (ternary_stageAt _ _ _ _ _ _ _ _ _ (by decide) (by decide) (by decide) rfl) ?_)

theorem ops_staged : Staged rk 14 (ops (F := F)) 459 :=
  ops0_staged.append (ops1_staged.append (ops2_staged.append (ops3_staged.append (ops4_staged.append ops5_staged))))

theorem mem_ops0 {op : HloOp τ sig (Elt F)} (h : op ∈ ops0) : op ∈ ops := List.mem_append_left _ h
theorem mem_ops1 {op : HloOp τ sig (Elt F)} (h : op ∈ ops1) : op ∈ ops :=
  List.mem_append_right _ (List.mem_append_left _ h)
theorem mem_ops2 {op : HloOp τ sig (Elt F)} (h : op ∈ ops2) : op ∈ ops :=
  List.mem_append_right _ (List.mem_append_right _ (List.mem_append_left _ h))
theorem mem_ops3 {op : HloOp τ sig (Elt F)} (h : op ∈ ops3) : op ∈ ops :=
  List.mem_append_right _ (List.mem_append_right _ (List.mem_append_right _ (List.mem_append_left _ h)))
theorem mem_ops4 {op : HloOp τ sig (Elt F)} (h : op ∈ ops4) : op ∈ ops :=
  List.mem_append_right _ (List.mem_append_right _ (List.mem_append_right _ (List.mem_append_right _
    (List.mem_append_left _ h))))
theorem mem_ops5 {op : HloOp τ sig (Elt F)} (h : op ∈ ops5) : op ∈ ops :=
  List.mem_append_right _ (List.mem_append_right _ (List.mem_append_right _ (List.mem_append_right _
    (List.mem_append_right _ h))))

variable (V : Valuation τ sig (Elt F))

/-- The operation at place `k` of a window is an operation of the line. -/
theorem at0 (k : ℕ) {op : HloOp τ sig (Elt F)} (h : ops0[k]? = some op) : op ∈ ops := mem_ops0 (List.mem_of_getElem? h)
theorem at1 (k : ℕ) {op : HloOp τ sig (Elt F)} (h : ops1[k]? = some op) : op ∈ ops := mem_ops1 (List.mem_of_getElem? h)
theorem at2 (k : ℕ) {op : HloOp τ sig (Elt F)} (h : ops2[k]? = some op) : op ∈ ops := mem_ops2 (List.mem_of_getElem? h)
theorem at3 (k : ℕ) {op : HloOp τ sig (Elt F)} (h : ops3[k]? = some op) : op ∈ ops := mem_ops3 (List.mem_of_getElem? h)
theorem at4 (k : ℕ) {op : HloOp τ sig (Elt F)} (h : ops4[k]? = some op) : op ∈ ops := mem_ops4 (List.mem_of_getElem? h)
theorem at5 (k : ℕ) {op : HloOp τ sig (Elt F)} (h : ops5[k]? = some op) : op ∈ ops := mem_ops5 (List.mem_of_getElem? h)

/-- The line is staged, so in its final contents each operation's result is the operation's function of its operands' final contents. -/
theorem nu {y : Ref sig .tc} {v hy} (h : nullary (τ := τ) y v hy ∈ ops (F := F)) :
    after ops V (y : DevRef τ sig) = v :=
  (ops_staged.after_eq V _ h _ (Finset.mem_singleton_self _)).trans (nullary_result ..)

theorem un {x y : Ref sig .tc} {f hx hy} (h : unary (τ := τ) x y f hx hy ∈ ops (F := F)) :
    after ops V (y : DevRef τ sig) = f (after ops V (x : DevRef τ sig)) :=
  (ops_staged.after_eq V _ h _ (Finset.mem_singleton_self _)).trans (unary_result ..)

theorem re {x y : Ref sig .tc} {he hn hx hy} (h : reshape (τ := τ) x y he hn hx hy ∈ ops (F := F)) :
    after ops V (y : DevRef τ sig) = fun i => he ▸ shapeCast y.ty.shape (after ops V (x : DevRef τ sig)) hn i :=
  (ops_staged.after_eq V _ h _ (Finset.mem_singleton_self _)).trans (reshape_result ..)

theorem bi {a b y : Ref sig .tc} {f ha hb hy} (h : binary (τ := τ) a b y f ha hb hy ∈ ops (F := F)) :
    after ops V (y : DevRef τ sig) = f (after ops V (a : DevRef τ sig)) (after ops V (b : DevRef τ sig)) :=
  (ops_staged.after_eq V _ h _ (Finset.mem_singleton_self _)).trans (binary_result ..)

theorem te {c a b y : Ref sig .tc} {f hc ha hb hy} (h : ternary (τ := τ) c a b y f hc ha hb hy ∈ ops (F := F)) :
    after ops V (y : DevRef τ sig) =
      f (after ops V (c : DevRef τ sig)) (after ops V (a : DevRef τ sig)) (after ops V (b : DevRef τ sig)) :=
  (ops_staged.after_eq V _ h _ (Finset.mem_singleton_self _)).trans (ternary_result ..)

/-- The arguments rank below every operation of the line: they end as launched. -/
theorem arg0_eq : after ops V (main_arg0 : DevRef τ sig) = V (main_arg0 : DevRef τ sig) := ops_staged.after_of_lt V (by decide)
theorem arg1_eq : after ops V (main_arg1 : DevRef τ sig) = V (main_arg1 : DevRef τ sig) := ops_staged.after_of_lt V (by decide)
theorem arg2_eq : after ops V (main_arg2 : DevRef τ sig) = V (main_arg2 : DevRef τ sig) := ops_staged.after_of_lt V (by decide)
theorem arg3_eq : after ops V (main_arg3 : DevRef τ sig) = V (main_arg3 : DevRef τ sig) := ops_staged.after_of_lt V (by decide)
theorem arg4_eq : after ops V (main_arg4 : DevRef τ sig) = V (main_arg4 : DevRef τ sig) := ops_staged.after_of_lt V (by decide)
theorem arg5_eq : after ops V (main_arg5 : DevRef τ sig) = V (main_arg5 : DevRef τ sig) := ops_staged.after_of_lt V (by decide)
theorem arg6_eq : after ops V (main_arg6 : DevRef τ sig) = V (main_arg6 : DevRef τ sig) := ops_staged.after_of_lt V (by decide)
theorem arg7_eq : after ops V (main_arg7 : DevRef τ sig) = V (main_arg7 : DevRef τ sig) := ops_staged.after_of_lt V (by decide)
theorem arg8_eq : after ops V (main_arg8 : DevRef τ sig) = V (main_arg8 : DevRef τ sig) := ops_staged.after_of_lt V (by decide)
theorem arg9_eq : after ops V (main_arg9 : DevRef τ sig) = V (main_arg9 : DevRef τ sig) := ops_staged.after_of_lt V (by decide)
theorem arg10_eq : after ops V (main_arg10 : DevRef τ sig) = V (main_arg10 : DevRef τ sig) := ops_staged.after_of_lt V (by decide)
theorem arg11_eq : after ops V (main_arg11 : DevRef τ sig) = V (main_arg11 : DevRef τ sig) := ops_staged.after_of_lt V (by decide)
theorem arg12_eq : after ops V (main_arg12 : DevRef τ sig) = V (main_arg12 : DevRef τ sig) := ops_staged.after_of_lt V (by decide)
theorem arg13_eq : after ops V (main_arg13 : DevRef τ sig) = V (main_arg13 : DevRef τ sig) := ops_staged.after_of_lt V (by decide)

theorem rerun (seg : List (HloOp τ sig (Elt F))) (hseg : ∀ op ∈ seg, op ∈ ops) :
    after seg (after ops V) = after ops V :=
  Cert.LibRerun.after_after ops_staged V seg hseg

end Cert.ReferenceIdeal.Val

end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

theorem max_coe (a b : ℝ) : max (a : EReal) (b : EReal) = ((max a b : ℝ) : EReal) :=
  (EReal.coe_strictMono.monotone.map_max (a := a) (b := b)).symm

theorem zero_coe : (0 : EReal) = ((0 : ℝ) : EReal) := EReal.coe_zero.symm

theorem log_coe {a : ℝ} (h : 0 < a) : Ideal.log (a : EReal) = ((Real.log a : ℝ) : EReal) := by
  rw [Ideal.log_coe, if_neg (not_le.mpr h)]

theorem div_coe (a : ℝ) {b : ℝ} (h : b ≠ 0) : Ideal.div (a : EReal) (b : EReal) = ((a / b : ℝ) : EReal) := by
  rw [Ideal.div_coe h, mul_coe, mul_one_div]

theorem ofBits_zero : Ideal.ofBits .f32 0x00000000#32 = 0 := Ideal.ofBits_zero_f32

theorem ofBits_zero_coe : Ideal.ofBits .f32 0x00000000#32 = ((0 : ℝ) : EReal) := by
  rw [ofBits_zero, zero_coe]

theorem ofBits_one_coe : Ideal.ofBits .f32 0x3F800000#32 = ((1 : ℝ) : EReal) := by
  simp [Ideal.ofBits, Ideal.ieee, -EReal.coe_mul]; norm_num

theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

end Cert.LibIdealReal

end
-- ==== Proof.SharedReal.lean ====
import proofs.«428660_j69922067578969_2_alg».proof.Proof.Shared
import proofs.«428660_j69922067578969_2_alg».proof.Proof.LibIdealReal
import proofs.«428660_j69922067578969_2_alg».proof.Proof.Gen.ReferenceIdeal

noncomputable section

namespace Cert.Shared

open Idealize.ShloMosaic Idealize.ShloMosaic.ValueIdx Cert.KernelIdeal Cert.KernelIdeal.Gen Cert.Spec
open scoped BigOperators

theorem gather_isReal {s si t : Shape} {w : Nat} (d : GatherDims s si t) (x : s.Idx → EReal) (idx : IVec si w)
    (hx : IsReal x) : IsReal (Host.gather d x idx) :=
  fun j => hx (d.operandIdx j idx)

theorem gat_isReal (ix : IVec S800000 32) (h : A2 50000 64) (hh : IsReal h) : IsReal (gat ix h) := by
  unfold gat
  exact gather_isReal _ _ _ hh

theorem add_sum_real {ι : Type} (s : Finset ι) (g : ι → EReal) (hg : IsReal g) {a : EReal}
    (ha : ∃ r : ℝ, a = (r : EReal)) : ∃ r : ℝ, a + ∑ i ∈ s, g i = (r : EReal) := by
  obtain ⟨r, rfl⟩ := ha
  choose f hf using hg
  exact ⟨r + ∑ i ∈ s, f i, by rw [LibIdealReal.sum_of_eq s g f (fun i _ => hf i), LibIdealReal.add_coe]⟩

theorem scatterAdd_isReal {s si su : Shape} {w : Nat} {φ : FTy} (d : ScatterDims s si su) (x : FVec Ideal s φ)
    (idx : IVec si w) (upd : FVec Ideal su φ) (hx : IsReal x) (hu : IsReal upd) :
    IsReal (Host.scatterAdd (F := Ideal) d x idx upd) := by
  intro i
  show ∃ r : ℝ, Ideal.hostScatterAdd d x idx upd i = (r : EReal)
  unfold Ideal.hostScatterAdd
  exact add_sum_real _ upd hu (hx i)

theorem splat_isReal {T : Shape} (h : S_.BroadcastsInDim T ![]) (b : BitVec 32) (r : ℝ)
    (hb : Ideal.ofBits .f32 b = (r : EReal)) :
    IsReal (broadcastInDim T ![] h (constant (F := Ideal) S_ .f32 b)) :=
  fun _ => ⟨r, hb⟩

theorem bcast_reads {s t : Shape} {α : Type} (dims : Fin s.rank → Fin t.rank) (h : s.BroadcastsInDim t dims)
    (x : s.Idx → α) (j : t.Idx) : ∃ k, broadcastInDim t dims h x j = x k := ⟨_, rfl⟩

theorem max_one_real {s : Shape} (hs : S_.BroadcastsInDim s ![]) (x : FVec Ideal s .f32) (hx : IsReal x) (k : s.Idx) :
    ∃ r : ℝ, 1 ≤ r ∧
      maximumf x (broadcastInDim s ![] hs (constant (F := Ideal) S_ .f32 0x3F800000#32)) k = (r : EReal) := by
  obtain ⟨c, hc⟩ := hx k
  refine ⟨max c 1, le_max_right _ _, ?_⟩
  show max (x k) (Ideal.ofBits .f32 0x3F800000#32) = _
  rw [hc, LibIdealReal.ofBits_one_coe, LibIdealReal.max_coe]

theorem bcast_ge_one {s t : Shape} (dims : Fin s.rank → Fin t.rank) (h : s.BroadcastsInDim t dims)
    (x : FVec Ideal s .f32) (hx : ∀ k, ∃ r : ℝ, 1 ≤ r ∧ x k = (r : EReal)) (j : t.Idx) :
    ∃ r : ℝ, 1 ≤ r ∧ broadcastInDim t dims h x j = (r : EReal) := by
  obtain ⟨k, hk⟩ := bcast_reads dims h x j
  rw [hk]
  exact hx k

theorem divf_isReal {s : Shape} (x y : FVec Ideal s .f32) (hx : IsReal x)
    (hy : ∀ i, ∃ r : ℝ, 1 ≤ r ∧ y i = (r : EReal)) : IsReal (Host.divf x y) := by
  intro i
  obtain ⟨a, ha⟩ := hx i
  obtain ⟨r, hr1, hr⟩ := hy i
  refine ⟨a / r, ?_⟩
  show Ideal.div (x i) (y i) = _
  rw [ha, hr, LibIdealReal.div_coe a (lt_of_lt_of_le zero_lt_one hr1).ne']

theorem deg_real (ei : IVec S2x800000 32) : ∀ i, ∃ r : ℝ, 1 ≤ r ∧ deg ei i = (r : EReal) := by
  intro i
  unfold deg
  exact bcast_ge_one _ _ _ (max_one_real _ _ (scatterAdd_isReal _ _ _ _
    (splat_isReal _ _ 0 LibIdealReal.ofBits_zero_coe) (splat_isReal _ _ 1 LibIdealReal.ofBits_one_coe))) i

theorem agg_isReal (ei : IVec S2x800000 32) (msg : A2 800000 64) (hm : IsReal msg) : IsReal (agg ei msg) := by
  unfold agg
  exact divf_isReal _ _ (scatterAdd_isReal _ _ _ _ (splat_isReal _ _ 0 LibIdealReal.ofBits_zero_coe) hm)
    (bcast_ge_one _ _ _ (deg_real ei))

theorem ref_src (ei : IVec S2x800000 32) :
    shapeCast Cert.ReferenceIdeal.S800000
        (extractStridedSlice Cert.ReferenceIdeal.S1x800000 ![0, 0] ei
          Cert.ReferenceIdeal.Gen.slices_S2x800000_S1x800000_0_0)
        Cert.ReferenceIdeal.Gen.shapeCasts_S1x800000_S800000
      = src ei := rfl

theorem ref_dst (ei : IVec S2x800000 32) :
    shapeCast Cert.ReferenceIdeal.S800000
        (extractStridedSlice Cert.ReferenceIdeal.S1x800000 ![1, 0] ei
          Cert.ReferenceIdeal.Gen.slices_S2x800000_S1x800000_1_0)
        Cert.ReferenceIdeal.Gen.shapeCasts_S1x800000_S800000
      = dst ei := rfl

theorem ref_gat (ix : IVec S800000 32) (h : A2 50000 64) :
    Host.gather Cert.ReferenceIdeal.gather_S50000x64_S800000x1_S800000x64_1_0_n_n_0_1_164 h
        (broadcastInDim Cert.ReferenceIdeal.S800000x1 ![0] Cert.ReferenceIdeal.Gen.bcast_S800000_S800000x1_0
          (select
            (cmpi .slt ix
              (broadcastInDim Cert.ReferenceIdeal.S800000 ![] Cert.ReferenceIdeal.Gen.bcast_S_S800000
                (constantI Cert.ReferenceIdeal.S_ 32 0#32)))
            (addi ix
              (broadcastInDim Cert.ReferenceIdeal.S800000 ![] Cert.ReferenceIdeal.Gen.bcast_S_S800000
                (constantI Cert.ReferenceIdeal.S_ 32 50000#32)))
            ix))
      = gat ix h := rfl

theorem ref_deg (ei : IVec S2x800000 32) :
    broadcastInDim Cert.ReferenceIdeal.S50000x1 ![0] Cert.ReferenceIdeal.Gen.bcast_S50000_S50000x1_0
        (maximumf
          (Host.scatterAdd Cert.ReferenceIdeal.scatter_S50000_S800000x1_S800000_n_0_0_1
            (broadcastInDim Cert.ReferenceIdeal.S50000 ![] Cert.ReferenceIdeal.Gen.bcast_S_S50000
              (constant (F := Ideal) Cert.ReferenceIdeal.S_ .f32 0x00000000#32))
            (broadcastInDim Cert.ReferenceIdeal.S800000x1 ![0] Cert.ReferenceIdeal.Gen.bcast_S800000_S800000x1_0
              (dst ei))
            (broadcastInDim Cert.ReferenceIdeal.S800000 ![] Cert.ReferenceIdeal.Gen.bcast_S_S800000
              (constant (F := Ideal) Cert.ReferenceIdeal.S_ .f32 0x3F800000#32)))
          (broadcastInDim Cert.ReferenceIdeal.S50000 ![] Cert.ReferenceIdeal.Gen.bcast_S_S50000
            (constant (F := Ideal) Cert.ReferenceIdeal.S_ .f32 0x3F800000#32)))
      = deg ei := rfl

theorem ref_agg (ei : IVec S2x800000 32) (msg : A2 800000 64) :
    Host.divf
        (Host.scatterAdd Cert.ReferenceIdeal.scatter_S50000x64_S800000x1_S800000x64_1_0_0_1
          (broadcastInDim Cert.ReferenceIdeal.S50000x64 ![] Cert.ReferenceIdeal.Gen.bcast_S_S50000x64
            (constant (F := Ideal) Cert.ReferenceIdeal.S_ .f32 0x00000000#32))
          (broadcastInDim Cert.ReferenceIdeal.S800000x1 ![0] Cert.ReferenceIdeal.Gen.bcast_S800000_S800000x1_0
            (dst ei))
          msg)
        (broadcastInDim Cert.ReferenceIdeal.S50000x64 ![0, 1] Cert.ReferenceIdeal.Gen.bcast_S50000x1_S50000x64_0_1
          (deg ei))
      = agg ei msg := rfl

end Cert.Shared

end
-- ==== Proof.Math.lean ====
import proofs.«428660_j69922067578969_2_alg».proof.Proof.Spec
import proofs.«428660_j69922067578969_2_alg».proof.Proof.LibIdealReal
import Idealize.ShloMosaic.PureOps.Ideal.Laws
import Mathlib.Algebra.BigOperators.Ring.Finset
import Mathlib.Algebra.BigOperators.Group.Finset.Basic
import Mathlib.Algebra.Order.BigOperators.Group.Finset
import Mathlib.Data.Real.Basic
import Mathlib.Data.Fintype.Card
import Mathlib.Tactic.NormNum
import Mathlib.Tactic.FieldSimp
import Mathlib.Tactic.Ring
import Mathlib.Tactic.Choose

noncomputable section

namespace Cert.Spec

open Idealize.ShloMosaic Idealize.ShloMosaic.ValueIdx Cert.LibIdealReal
open scoped BigOperators

theorem zeroE_eq : zeroE = 0 := Ideal.ofBits_zero_f32

theorem zeroE_coe : zeroE = ((0 : ℝ) : EReal) := ofBits_zero_coe

theorem nE_eq : nE = ((50000 : ℝ) : EReal) := by
  show Ideal.ofBits .f32 0x47435000#32 = _
  simp [Ideal.ofBits, Ideal.ieee, -EReal.coe_mul]; norm_num

theorem epsE_eq : epsE = (((10995116 : ℝ) / 2 ^ 40 : ℝ) : EReal) := by
  show Ideal.ofBits .f32 0x3727C5AC#32 = _
  simp [Ideal.ofBits, Ideal.ieee, -EReal.coe_mul]; norm_num

theorem epsE_pos : ∃ e : ℝ, 0 < e ∧ epsE = (e : EReal) := ⟨_, by norm_num, epsE_eq⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, add_coe a b⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, sub_coe a b⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, mul_coe a b⟩

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy; exact ⟨max a b, max_coe a b⟩

theorem real_zeroE : ∃ r : ℝ, zeroE = (r : EReal) := ⟨0, zeroE_coe⟩

theorem real_sum {ι : Type} (s : Finset ι) (g : ι → EReal) (hg : ∀ i, ∃ r : ℝ, g i = (r : EReal)) :
    ∃ r : ℝ, ∑ i ∈ s, g i = (r : EReal) := by
  choose f hf using hg
  exact ⟨∑ i ∈ s, f i, sum_of_eq s g f (fun i _ => hf i)⟩

theorem real_div_n {x : EReal} (hx : ∃ r : ℝ, x = (r : EReal)) : ∃ r : ℝ, Ideal.div x nE = (r : EReal) := by
  obtain ⟨a, rfl⟩ := hx
  exact ⟨a / 50000, by rw [nE_eq, div_coe a (by norm_num)]⟩

theorem real_select {c : BitVec 1} {x y : EReal} (hx : ∃ r : ℝ, x = (r : EReal)) (hy : ∃ r : ℝ, y = (r : EReal)) :
    ∃ r : ℝ, Scalar.select c x y = (r : EReal) := by
  unfold Scalar.select
  split
  · exact hx
  · exact hy

theorem real_prelu {a x : EReal} (ha : ∃ r : ℝ, a = (r : EReal)) (hx : ∃ r : ℝ, x = (r : EReal)) :
    ∃ r : ℝ, prelu a x = (r : EReal) :=
  real_select hx (real_mul ha hx)

section Closure

variable {R : ℕ}

theorem isReal_lin {x y : A2 R 64} {w0 w1 : A2 64 64} {b : A2 1 64} (hx : IsReal x) (hy : IsReal y)
    (hw0 : IsReal w0) (hw1 : IsReal w1) (hb : IsReal b) (p : Fin R) (q : Fin 64) :
    ∃ r : ℝ, lin x y w0 w1 b p q = (r : EReal) := by
  unfold lin
  exact real_add (real_add (real_sum _ _ (fun k => real_mul (hx _) (hw0 _)))
    (real_sum _ _ (fun k => real_mul (hy _) (hw1 _)))) (hb _)

theorem isReal_msgLoc {x y : A2 R 64} {w0 w1 : A2 64 64} {b : A2 1 64} (hx : IsReal x) (hy : IsReal y)
    (hw0 : IsReal w0) (hw1 : IsReal w1) (hb : IsReal b) : IsReal (msgLoc x y w0 w1 b) :=
  fun i => real_max (isReal_lin hx hy hw0 hw1 hb (i 0) (i 1)) real_zeroE

theorem isReal_uLoc {h g : A2 R 64} {w0 w1 : A2 64 64} {b a : A2 1 64} (hh : IsReal h) (hg : IsReal g)
    (hw0 : IsReal w0) (hw1 : IsReal w1) (hb : IsReal b) (ha : IsReal a) : IsReal (uLoc h g w0 w1 b a) :=
  fun i => real_prelu (ha _) (isReal_lin hh hg hw0 hw1 hb (i 0) (i 1))

theorem isReal_colSum {u : A2 R 64} (hu : IsReal u) : IsReal (colSum u) :=
  fun _ => real_sum _ _ (fun _ => hu _)

theorem isReal_sq {u : A2 R 64} (hu : IsReal u) : IsReal (sq u) :=
  fun i => real_mul (hu i) (hu i)

theorem isReal_meanOf {s : A2 1 64} (hs : IsReal s) : IsReal (meanOf s) :=
  fun i => real_div_n (hs i)

theorem varK_nonneg {s ss : A2 1 64} (hs : IsReal s) (hss : IsReal ss) (i : (⟨2, ![1, 64]⟩ : Shape).Idx) :
    ∃ r : ℝ, 0 ≤ r ∧ varK s ss i = (r : EReal) := by
  obtain ⟨a, ha⟩ := real_sub (real_div_n (hss i)) (real_mul (isReal_meanOf hs i) (isReal_meanOf hs i))
  refine ⟨max a 0, le_max_right a 0, ?_⟩
  show max (Ideal.div (ss i) nE - meanOf s i * meanOf s i) zeroE = _
  rw [ha, zeroE_coe, max_coe]

theorem isReal_invstdOf {v : A2 1 64} (hv : ∀ i, ∃ r : ℝ, 0 ≤ r ∧ v i = (r : EReal)) : IsReal (invstdOf v) := by
  intro i
  obtain ⟨r, hr, hvi⟩ := hv i
  obtain ⟨e, he, hee⟩ := epsE_pos
  have hpos : 0 < r + e := add_pos_of_nonneg_of_pos hr he
  refine ⟨(Real.sqrt (r + e))⁻¹, ?_⟩
  show Ideal.rsqrt (v i + epsE) = _
  rw [hvi, hee, add_coe, Ideal.rsqrt_coe, if_neg (not_lt.mpr hpos.le), if_neg hpos.ne']

theorem isReal_normLoc {h g : A2 R 64} {w0 w1 : A2 64 64} {b a mean istd gam bet : A2 1 64} (hh : IsReal h)
    (hg : IsReal g) (hw0 : IsReal w0) (hw1 : IsReal w1) (hb : IsReal b) (ha : IsReal a) (hmean : IsReal mean)
    (histd : IsReal istd) (hgam : IsReal gam) (hbet : IsReal bet) :
    IsReal (normLoc h g w0 w1 b a mean istd gam bet) :=
  fun i => real_add (real_mul (real_mul (real_sub (isReal_uLoc hh hg hw0 hw1 hb ha i) (hmean _)) (histd _))
    (hgam _)) (hbet _)

end Closure

theorem isReal_half0 {W : A3 4 128 64} (hW : IsReal W) (l : Fin 4) : IsReal (half0 W l) := fun _ => hW _

theorem isReal_half1 {W : A3 4 128 64} (hW : IsReal W) (l : Fin 4) : IsReal (half1 W l) := fun _ => hW _

theorem isReal_rowOf {B : A2 4 64} (hB : IsReal B) (l : Fin 4) : IsReal (rowOf B l) := fun _ => hB _

theorem isReal_splatOf {a : A1 4} (ha : IsReal a) (l : Fin 4) : IsReal (splatOf a l) := fun _ => ha _

theorem isReal_layer {gs gd : A2 50000 64 → A2 800000 64} {agg : A2 800000 64 → A2 50000 64}
    (hgs : ∀ x, IsReal x → IsReal (gs x)) (hgd : ∀ x, IsReal x → IsReal (gd x))
    (hagg : ∀ x, IsReal x → IsReal (agg x))
    {wm0 wm1 : A2 64 64} {bm : A2 1 64} {wu0 wu1 : A2 64 64} {bu a gam bet : A2 1 64}
    (hwm0 : IsReal wm0) (hwm1 : IsReal wm1) (hbm : IsReal bm) (hwu0 : IsReal wu0) (hwu1 : IsReal wu1)
    (hbu : IsReal bu) (ha : IsReal a) (hgam : IsReal gam) (hbet : IsReal bet)
    {h : A2 50000 64} (hh : IsReal h) : IsReal (layer gs gd agg wm0 wm1 bm wu0 wu1 bu a gam bet h) := by
  have hm : IsReal (agg (msgLoc (gs h) (gd h) wm0 wm1 bm)) :=
    hagg _ (isReal_msgLoc (hgs h hh) (hgd h hh) hwm0 hwm1 hbm)
  have hu : IsReal (uLoc h (agg (msgLoc (gs h) (gd h) wm0 wm1 bm)) wu0 wu1 bu a) :=
    isReal_uLoc hh hm hwu0 hwu1 hbu ha
  exact isReal_normLoc hh hm hwu0 hwu1 hbu ha (isReal_meanOf (isReal_colSum hu))
    (isReal_invstdOf (varK_nonneg (isReal_colSum hu) (isReal_colSum (isReal_sq hu)))) hgam hbet

theorem isReal_layerAt {gs gd : A2 50000 64 → A2 800000 64} {agg : A2 800000 64 → A2 50000 64}
    (hgs : ∀ x, IsReal x → IsReal (gs x)) (hgd : ∀ x, IsReal x → IsReal (gd x))
    (hagg : ∀ x, IsReal x → IsReal (agg x))
    {Wm : A3 4 128 64} {bm : A2 4 64} {Wu : A3 4 128 64} {bu : A2 4 64} {a : A1 4} {gam bet : A2 4 64}
    (hWm : IsReal Wm) (hbm : IsReal bm) (hWu : IsReal Wu) (hbu : IsReal bu) (ha : IsReal a) (hgam : IsReal gam)
    (hbet : IsReal bet) (l : Fin 4) {h : A2 50000 64} (hh : IsReal h) :
    IsReal (layerAt gs gd agg Wm bm Wu bu a gam bet l h) :=
  isReal_layer hgs hgd hagg (isReal_half0 hWm l) (isReal_half1 hWm l) (isReal_rowOf hbm l) (isReal_half0 hWu l)
    (isReal_half1 hWu l) (isReal_rowOf hbu l) (isReal_splatOf ha l) (isReal_rowOf hgam l) (isReal_rowOf hbet l) hh

theorem real_var_identity {ι : Type} [Fintype ι] (f : ι → ℝ) (N : ℝ) (hN : (Fintype.card ι : ℝ) = N) (hN0 : N ≠ 0) :
    (∑ n, (f n - (∑ m, f m) / N) * (f n - (∑ m, f m) / N)) / N
      = (∑ n, f n * f n) / N - ((∑ m, f m) / N) * ((∑ m, f m) / N) := by
  have hexp : ∀ n, (f n - (∑ m, f m) / N) * (f n - (∑ m, f m) / N)
      = f n * f n - 2 * ((∑ m, f m) / N) * f n + ((∑ m, f m) / N) * ((∑ m, f m) / N) := fun n => by ring
  rw [Finset.sum_congr rfl (fun n _ => hexp n), Finset.sum_add_distrib, Finset.sum_sub_distrib, ← Finset.mul_sum,
    Finset.sum_const, Finset.card_univ, nsmul_eq_mul, hN]
  field_simp
  ring

theorem real_var_nonneg {ι : Type} [Fintype ι] (g : ι → ℝ) (N : ℝ) (hN0 : 0 < N) : 0 ≤ (∑ n, g n * g n) / N :=
  div_nonneg (Finset.sum_nonneg (fun n _ => mul_self_nonneg (g n))) hN0.le

theorem varDev_eq_varK (u : A2 50000 64) (hu : IsReal u) : varDev u = varK (colSum u) (colSum (sq u)) := by
  funext i
  choose f hf using fun n : Fin 50000 => hu (ix2 n (i 1))
  have hN : ((Fintype.card (Fin 50000) : ℕ) : ℝ) = 50000 := by rw [Fintype.card_fin]; norm_num
  have hcs : colSum u i = ((∑ n, f n : ℝ) : EReal) := sum_of_eq _ _ _ (fun n _ => hf n)
  have hmean : meanOf (colSum u) i = (((∑ n, f n) / 50000 : ℝ) : EReal) := by
    show Ideal.div (colSum u i) nE = _
    rw [hcs, nE_eq, div_coe _ (by norm_num)]
  have hcss : colSum (sq u) i = ((∑ n, f n * f n : ℝ) : EReal) :=
    sum_of_eq _ _ _ (fun n _ => by show u (ix2 n (i 1)) * u (ix2 n (i 1)) = _; rw [hf n, mul_coe])
  have hdev : varDev u i
      = (((∑ n, (f n - (∑ m, f m) / 50000) * (f n - (∑ m, f m) / 50000)) / 50000 : ℝ) : EReal) := by
    show Ideal.div (∑ n : Fin 50000, (u (ix2 n (i 1)) - meanOf (colSum u) i) * (u (ix2 n (i 1)) - meanOf (colSum u) i))
      nE = _
    rw [sum_of_eq Finset.univ _ (fun n => (f n - (∑ m, f m) / 50000) * (f n - (∑ m, f m) / 50000))
      (fun n _ => by rw [hf n, hmean, sub_coe, mul_coe]), nE_eq, div_coe _ (by norm_num)]
  have hk : varK (colSum u) (colSum (sq u)) i
      = ((max ((∑ n, f n * f n) / 50000 - ((∑ m, f m) / 50000) * ((∑ m, f m) / 50000)) 0 : ℝ) : EReal) := by
    show max (Ideal.div (colSum (sq u) i) nE - meanOf (colSum u) i * meanOf (colSum u) i) zeroE = _
    rw [hcss, hmean, nE_eq, div_coe _ (by norm_num), mul_coe, sub_coe, zeroE_coe, max_coe]
  rw [hdev, hk, real_var_identity f 50000 hN (by norm_num), max_eq_left]
  rw [← real_var_identity f 50000 hN (by norm_num)]
  exact real_var_nonneg (fun n => f n - (∑ m, f m) / 50000) 50000 (by norm_num)

end Cert.Spec

end
-- ==== Proof.LibSumSplit.lean ====
import Mathlib.Algebra.BigOperators.Fin

namespace Cert.LibSumSplit

open scoped BigOperators

theorem sum_split {M : Type} [AddCommMonoid M] (a b c : Nat) (h : c = a + b) (f : Fin c → M) :
    ∑ k : Fin c, f k
      = (∑ k : Fin a, f ⟨k.val, by have := k.isLt; omega⟩) + ∑ k : Fin b, f ⟨a + k.val, by have := k.isLt; omega⟩ := by
  subst h
  exact Fin.sum_univ_add f

end Cert.LibSumSplit
-- ==== Proof.RLayerFn.lean ====
import proofs.«428660_j69922067578969_2_alg».proof.Defs
import proofs.«428660_j69922067578969_2_alg».proof.Proof.Gen.ReferenceIdeal
import proofs.«428660_j69922067578969_2_alg».proof.Proof.Spec
import proofs.«428660_j69922067578969_2_alg».proof.Proof.Shared
import proofs.«428660_j69922067578969_2_alg».proof.Proof.SharedReal
import proofs.«428660_j69922067578969_2_alg».proof.Proof.Math
import proofs.«428660_j69922067578969_2_alg».proof.Proof.LibPlainDot
import proofs.«428660_j69922067578969_2_alg».proof.Proof.LibSumSplit
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Mathlib.Algebra.BigOperators.Fin
import Mathlib.Tactic.NormNum

noncomputable section

namespace Cert.ReferenceIdeal.Val

open Idealize.ShloMosaic Idealize.ShloMosaic.ValueIdx Cert.ReferenceIdeal.Gen Cert.Spec
open scoped BigOperators

def rW (o : ℕ) (hs : S4x128x64.Slices ![o, 0, 0] S1x128x64) (W : A3 4 128 64) : A2 128 64 :=
  shapeCast S128x64 (extractStridedSlice S1x128x64 ![o, 0, 0] W hs) shapeCasts_S1x128x64_S128x64

theorem rW_apply (o : ℕ) (ho : o < 4) (hs : S4x128x64.Slices ![o, 0, 0] S1x128x64) (W : A3 4 128 64)
    (k : Fin 128) (q : Fin 64) : rW o hs W (ix2 k q) = W (ix3 ⟨o, ho⟩ k q) := by
  unfold rW
  refine (shapeCast_1ab_ab_apply _ _ k q).trans ?_
  refine extractStridedSlice_apply _ W hs _ (ix3 ⟨o, ho⟩ k q) fun a => ?_
  match a with
  | ⟨0, _⟩ => rfl
  | ⟨1, _⟩ => exact (Nat.zero_add _).symm
  | ⟨2, _⟩ => exact (Nat.zero_add _).symm

theorem asRow_apply (v : A1 64) (u : Fin 1) (q : Fin 64) :
    broadcastInDim S1x64 ![1] bcast_S64_S1x64_1 v (ix2 u q) = v (ix1 q) := by
  refine broadcastInDim_apply ![1] bcast_S64_S1x64_1 v (ix2 u q) (ix1 q) fun a => ?_
  match a with
  | ⟨0, _⟩ => rfl

def rRow (o : ℕ) (hs : S4x64.Slices ![o, 0] S1x64) (B : A2 4 64) : A2 1 64 :=
  broadcastInDim S1x64 ![1] bcast_S64_S1x64_1
    (shapeCast S64 (extractStridedSlice S1x64 ![o, 0] B hs) shapeCasts_S1x64_S64)

theorem rRow_apply (o : ℕ) (ho : o < 4) (hs : S4x64.Slices ![o, 0] S1x64) (B : A2 4 64) (u : Fin 1) (q : Fin 64) :
    rRow o hs B (ix2 u q) = B (ix2 ⟨o, ho⟩ q) := by
  unfold rRow
  refine (asRow_apply _ u q).trans ?_
  refine (shapeCast_1a_a_apply _ _ q).trans ?_
  exact slice2_axis0_apply o B hs (0 : Fin 1) q ⟨o, ho⟩ rfl

theorem rowDown_apply {R : ℕ} (hb : S1x64.BroadcastsInDim ⟨2, ![R, 64]⟩ (![0, 1] : Fin 2 → Fin 2)) (v : A2 1 64)
    (p : Fin R) (q : Fin 64) : broadcastInDim ⟨2, ![R, 64]⟩ ![0, 1] hb v (ix2 p q) = v (ix2 (0 : Fin 1) q) := by
  refine broadcastInDim_apply ![0, 1] hb v (ix2 p q) (ix2 (0 : Fin 1) q) fun a => ?_
  match a with
  | ⟨0, _⟩ => rfl
  | ⟨1, _⟩ => rfl

def rSlope (o : ℕ) (hs : S4.Slices ![o] S1) (a : A1 4) : A2 50000 64 :=
  broadcastInDim S50000x64 ![] bcast_S_S50000x64 (shapeCast S_ (extractStridedSlice S1 ![o] a hs) shapeCasts_S1_S_)

theorem rSlope_apply (o : ℕ) (ho : o < 4) (hs : S4.Slices ![o] S1) (a : A1 4) (i : S50000x64.Idx) :
    rSlope o hs a i = a (ix1 ⟨o, ho⟩) := by
  unfold rSlope
  refine (broadcastInDim_scalar_apply _ _ i).trans ?_
  refine (shapeCast_dropUnit_apply ![] _ _ ix0).trans ?_
  refine extractStridedSlice_apply _ a hs _ (ix1 ⟨o, ho⟩) fun b => ?_
  match b with
  | ⟨0, _⟩ => rfl

theorem cat_left {R : ℕ} (x y : A2 R 64)
    (hc : Shape.Concatenates [(⟨2, ![R, 64]⟩ : Shape), ⟨2, ![R, 64]⟩] ⟨2, ![R, 128]⟩ 1) (p : Fin R) (k : Fin 64) :
    concatenate ⟨2, ![R, 128]⟩ 1 [⟨⟨2, ![R, 64]⟩, x⟩, ⟨⟨2, ![R, 64]⟩, y⟩] hc
        (ix2 p ⟨k.val, by have := k.isLt; omega⟩) = x (ix2 p k) := by
  refine concatenate_pair_apply_left 1 x y hc _ rfl (ix2 p k) fun b => ?_
  match b with
  | ⟨0, _⟩ => rfl
  | ⟨1, _⟩ => rfl

theorem cat_right {R : ℕ} (x y : A2 R 64)
    (hc : Shape.Concatenates [(⟨2, ![R, 64]⟩ : Shape), ⟨2, ![R, 64]⟩] ⟨2, ![R, 128]⟩ 1) (p : Fin R) (k : Fin 64) :
    concatenate ⟨2, ![R, 128]⟩ 1 [⟨⟨2, ![R, 64]⟩, x⟩, ⟨⟨2, ![R, 64]⟩, y⟩] hc
        (ix2 p ⟨64 + k.val, by have := k.isLt; omega⟩) = y (ix2 p k) := by
  refine concatenate_pair_apply_right 1 x y hc _ rfl rfl (ix2 p k) (fun b hb => ?_) ?_
  · match b with
    | ⟨0, _⟩ => rfl
    | ⟨1, _⟩ => exact absurd rfl hb
  · exact Nat.add_comm _ _

theorem catDot_apply {R : ℕ} (x y : A2 R 64) (W : A2 128 64)
    (hc : Shape.Concatenates [(⟨2, ![R, 64]⟩ : Shape), ⟨2, ![R, 64]⟩] ⟨2, ![R, 128]⟩ 1)
    (d : DotDims ⟨2, ![R, 128]⟩ ⟨2, ![128, 64]⟩ ⟨2, ![R, 64]⟩)
    (hlc : d.lhsContracting = [1]) (hrc : d.rhsContracting = [0]) (hln : d.lhsNonContracting = [0])
    (hrn : d.rhsNonContracting = [1]) (hlb : d.lhsBatch = []) (hrb : d.rhsBatch = [])
    (p : Fin R) (q : Fin 64) :
    Host.dotGeneral (F := Ideal) (φ₁ := .f32) (φ₂ := .f32) d none
        (concatenate ⟨2, ![R, 128]⟩ 1 [⟨⟨2, ![R, 64]⟩, x⟩, ⟨⟨2, ![R, 64]⟩, y⟩] hc) W (ix2 p q)
      = (∑ k : Fin 64, x (ix2 p k) * W (ix2 ⟨k.val, by have := k.isLt; omega⟩ q))
        + ∑ k : Fin 64, y (ix2 p k) * W (ix2 ⟨64 + k.val, by have := k.isLt; omega⟩ q) := by
  refine (Cert.LibPlainDot.dotGeneral_apply d hlc hrc hln hrn hlb hrb none .single _ W p q).trans ?_
  refine (Cert.LibSumSplit.sum_split 64 64 128 rfl _).trans ?_
  congr 1
  · exact Finset.sum_congr rfl fun k _ => by rw [cat_left]
  · exact Finset.sum_congr rfl fun k _ => by rw [cat_right]

def rSrc (ei : IVec S2x800000 32) : IVec S800000 32 :=
  shapeCast S800000 (extractStridedSlice S1x800000 ![0, 0] ei slices_S2x800000_S1x800000_0_0) shapeCasts_S1x800000_S800000

def rDst (ei : IVec S2x800000 32) : IVec S800000 32 :=
  shapeCast S800000 (extractStridedSlice S1x800000 ![1, 0] ei slices_S2x800000_S1x800000_1_0) shapeCasts_S1x800000_S800000

def rDeg (ei : IVec S2x800000 32) : FVec Ideal S50000x1 .f32 :=
  broadcastInDim S50000x1 ![0] bcast_S50000_S50000x1_0
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 (rDst ei))
        (broadcastInDim S800000 ![] bcast_S_S800000 (constant (F := Ideal) S_ .f32 0x3F800000#32)))
      (broadcastInDim S50000 ![] bcast_S_S50000 (constant (F := Ideal) S_ .f32 0x3F800000#32)))

def rGat (ix : IVec S800000 32) (h : A2 50000 64) : A2 800000 64 :=
  Host.gather gather_S50000x64_S800000x1_S800000x64_1_0_n_n_0_1_164 h
    (broadcastInDim S800000x1 ![0] bcast_S800000_S800000x1_0
      (select (cmpi .slt ix (broadcastInDim S800000 ![] bcast_S_S800000 (constantI S_ 32 0#32)))
        (addi ix (broadcastInDim S800000 ![] bcast_S_S800000 (constantI S_ 32 50000#32))) ix))

def rAgg (ei : IVec S2x800000 32) (msg : A2 800000 64) : A2 50000 64 :=
  Host.divf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 (rDst ei)) msg)
    (broadcastInDim S50000x64 ![0, 1] bcast_S50000x1_S50000x64_0_1 (rDeg ei))

theorem rSrc_eq (ei : IVec S2x800000 32) : rSrc ei = Cert.Shared.src ei := Cert.Shared.ref_src ei
theorem rDst_eq (ei : IVec S2x800000 32) : rDst ei = Cert.Shared.dst ei := Cert.Shared.ref_dst ei
theorem rDeg_eq (ei : IVec S2x800000 32) : rDeg ei = Cert.Shared.deg ei := by
  unfold rDeg
  rw [rDst_eq]
  exact Cert.Shared.ref_deg ei
theorem rGat_eq (ix : IVec S800000 32) (h : A2 50000 64) : rGat ix h = Cert.Shared.gat ix h := Cert.Shared.ref_gat ix h
theorem rAgg_eq (ei : IVec S2x800000 32) (msg : A2 800000 64) : rAgg ei msg = Cert.Shared.agg ei msg := by
  unfold rAgg
  rw [rDst_eq, rDeg_eq]
  exact Cert.Shared.ref_agg ei msg

theorem linG_apply {R : ℕ} (o : ℕ) (ho : o < 4) (hW : S4x128x64.Slices ![o, 0, 0] S1x128x64)
    (hB : S4x64.Slices ![o, 0] S1x64) (W : A3 4 128 64) (B : A2 4 64) (x y : A2 R 64)
    (hc : Shape.Concatenates [(⟨2, ![R, 64]⟩ : Shape), ⟨2, ![R, 64]⟩] ⟨2, ![R, 128]⟩ 1)
    (d : DotDims ⟨2, ![R, 128]⟩ ⟨2, ![128, 64]⟩ ⟨2, ![R, 64]⟩)
    (hlc : d.lhsContracting = [1]) (hrc : d.rhsContracting = [0]) (hln : d.lhsNonContracting = [0])
    (hrn : d.rhsNonContracting = [1]) (hlb : d.lhsBatch = []) (hrb : d.rhsBatch = [])
    (hb : S1x64.BroadcastsInDim ⟨2, ![R, 64]⟩ (![0, 1] : Fin 2 → Fin 2)) (p : Fin R) (q : Fin 64) :
    addf
        (Host.dotGeneral (F := Ideal) (φ₁ := .f32) (φ₂ := .f32) d none
          (concatenate ⟨2, ![R, 128]⟩ 1 [⟨⟨2, ![R, 64]⟩, x⟩, ⟨⟨2, ![R, 64]⟩, y⟩] hc) (rW o hW W))
        (broadcastInDim ⟨2, ![R, 64]⟩ ![0, 1] hb (rRow o hB B)) (ix2 p q)
      = lin x y (half0 W ⟨o, ho⟩) (half1 W ⟨o, ho⟩) (rowOf B ⟨o, ho⟩) p q := by
  refine (addf_apply _ _ (ix2 p q)).trans ?_
  rw [catDot_apply x y (rW o hW W) hc d hlc hrc hln hrn hlb hrb p q, rowDown_apply hb, rRow_apply o ho]
  unfold lin
  refine congrArg₂ (· + ·) (congrArg₂ (· + ·) (Finset.sum_congr rfl fun k _ => ?_) (Finset.sum_congr rfl fun k _ => ?_)) rfl
  · exact congrArg (x (ix2 p k) * ·) (rW_apply o ho hW W _ q)
  · exact congrArg (y (ix2 p k) * ·) (rW_apply o ho hW W _ q)

def rMsg (o : ℕ) (hW : S4x128x64.Slices ![o, 0, 0] S1x128x64) (hB : S4x64.Slices ![o, 0] S1x64)
    (Wm : A3 4 128 64) (bm : A2 4 64) (x y : A2 800000 64) : A2 800000 64 :=
  maximumf
    (addf
      (Host.dotGeneral (F := Ideal) (φ₁ := .f32) (φ₂ := .f32) dot_S800000x128_S128x64_S800000x64_1_0_0_1_n_n none
        (concatenate S800000x128 1 [⟨S800000x64, x⟩, ⟨S800000x64, y⟩] concatenates_S800000x64_S800000x64_S800000x128_d1)
        (rW o hW Wm))
      (broadcastInDim S800000x64 ![0, 1] bcast_S1x64_S800000x64_0_1 (rRow o hB bm)))
    (broadcastInDim S800000x64 ![] bcast_S_S800000x64 (constant (F := Ideal) S_ .f32 0x00000000#32))

theorem rMsg_eq (o : ℕ) (ho : o < 4) (hW : S4x128x64.Slices ![o, 0, 0] S1x128x64) (hB : S4x64.Slices ![o, 0] S1x64)
    (Wm : A3 4 128 64) (bm : A2 4 64) (x y : A2 800000 64) :
    rMsg o hW hB Wm bm x y = msgLoc x y (half0 Wm ⟨o, ho⟩) (half1 Wm ⟨o, ho⟩) (rowOf bm ⟨o, ho⟩) := by
  funext i
  obtain ⟨p, q, rfl⟩ : ∃ (p : Fin 800000) (q : Fin 64), i = ix2 p q := ⟨i 0, i 1, eq_ix2 i⟩
  unfold rMsg
  refine (maximumf_apply _ _ (ix2 p q)).trans ?_
  refine congrArg₂ max ?_ ?_
  · exact linG_apply o ho hW hB Wm bm x y _ _ rfl rfl rfl rfl rfl rfl _ p q
  · exact broadcastInDim_scalar_apply _ _ _

def rPre (o : ℕ) (hW : S4x128x64.Slices ![o, 0, 0] S1x128x64) (hB : S4x64.Slices ![o, 0] S1x64)
    (Wu : A3 4 128 64) (bu : A2 4 64) (h g : A2 50000 64) : A2 50000 64 :=
  addf
    (Host.dotGeneral (F := Ideal) (φ₁ := .f32) (φ₂ := .f32) dot_S50000x128_S128x64_S50000x64_1_0_0_1_n_n none
      (concatenate S50000x128 1 [⟨S50000x64, h⟩, ⟨S50000x64, g⟩] concatenates_S50000x64_S50000x64_S50000x128_d1)
      (rW o hW Wu))
    (broadcastInDim S50000x64 ![0, 1] bcast_S1x64_S50000x64_0_1 (rRow o hB bu))

def rU (o : ℕ) (hW : S4x128x64.Slices ![o, 0, 0] S1x128x64) (hB : S4x64.Slices ![o, 0] S1x64) (ha : S4.Slices ![o] S1)
    (Wu : A3 4 128 64) (bu : A2 4 64) (a : A1 4) (h g : A2 50000 64) : A2 50000 64 :=
  select
    (cmpf .oge (rPre o hW hB Wu bu h g)
      (broadcastInDim S50000x64 ![] bcast_S_S50000x64 (constant (F := Ideal) S_ .f32 0x00000000#32)))
    (rPre o hW hB Wu bu h g)
    (mulf (F := Ideal) (φ := .f32) (rSlope o ha a) (rPre o hW hB Wu bu h g))

theorem rU_eq (o : ℕ) (ho : o < 4) (hW : S4x128x64.Slices ![o, 0, 0] S1x128x64) (hB : S4x64.Slices ![o, 0] S1x64)
    (ha : S4.Slices ![o] S1) (Wu : A3 4 128 64) (bu : A2 4 64) (a : A1 4) (h g : A2 50000 64) :
    rU o hW hB ha Wu bu a h g
      = uLoc h g (half0 Wu ⟨o, ho⟩) (half1 Wu ⟨o, ho⟩) (rowOf bu ⟨o, ho⟩) (splatOf a ⟨o, ho⟩) := by
  funext i
  obtain ⟨p, q, rfl⟩ : ∃ (p : Fin 50000) (q : Fin 64), i = ix2 p q := ⟨i 0, i 1, eq_ix2 i⟩
  have hpre : rPre o hW hB Wu bu h g (ix2 p q)
      = lin h g (half0 Wu ⟨o, ho⟩) (half1 Wu ⟨o, ho⟩) (rowOf bu ⟨o, ho⟩) p q := by
    unfold rPre
    exact linG_apply o ho hW hB Wu bu h g _ _ rfl rfl rfl rfl rfl rfl _ p q
  show Scalar.select
      (Ideal.cmp .oge (rPre o hW hB Wu bu h g (ix2 p q))
        (broadcastInDim S50000x64 ![] bcast_S_S50000x64 (constant (F := Ideal) S_ .f32 0x00000000#32) (ix2 p q)))
      (rPre o hW hB Wu bu h g (ix2 p q)) (rSlope o ha a (ix2 p q) * rPre o hW hB Wu bu h g (ix2 p q))
    = prelu (splatOf a ⟨o, ho⟩ (ix2 (0 : Fin 1) q)) (lin h g (half0 Wu ⟨o, ho⟩) (half1 Wu ⟨o, ho⟩) (rowOf bu ⟨o, ho⟩) p q)
  rw [hpre, rSlope_apply o ho, broadcastInDim_scalar_apply]
  rfl

theorem colReduce_apply (u : A2 50000 64) (q : Fin 64) :
    Host.reduceAdd u (constant (F := Ideal) S_ .f32 0x00000000#32) reducesTo_S50000x64_S64_d0 h_S_ (ix1 q)
      = ∑ n : Fin 50000, u (ix2 n q) := by
  have hR : S50000x64.Reduces [0] S64 := by decide
  refine (Ideal.hostReduceAdd_single reducesTo_S50000x64_S64_d0 hR u _ (ix1 q)).trans ?_
  show Ideal.ofBits .f32 0x00000000#32 + ∑ n : Fin 50000, u (hR.lift (ix1 q) n) = _
  rw [Ideal.ofBits_zero_f32, zero_add]
  refine Finset.sum_congr rfl fun n _ => congrArg u ?_
  funext a
  apply Fin.ext
  match a with
  | ⟨0, _⟩ => rfl
  | ⟨1, _⟩ => rfl

def rMean (u : A2 50000 64) : A1 64 :=
  Host.divf (Host.reduceAdd u (constant (F := Ideal) S_ .f32 0x00000000#32) reducesTo_S50000x64_S64_d0 h_S_)
    (broadcastInDim S64 ![] bcast_S_S64 (constant (F := Ideal) S_ .f32 0x47435000#32))

theorem rMean_apply (u : A2 50000 64) (q : Fin 64) : rMean u (ix1 q) = meanOf (colSum u) (ix2 (0 : Fin 1) q) := by
  unfold rMean
  show Ideal.div (Host.reduceAdd u (constant (F := Ideal) S_ .f32 0x00000000#32) reducesTo_S50000x64_S64_d0 h_S_ (ix1 q))
      (broadcastInDim S64 ![] bcast_S_S64 (constant (F := Ideal) S_ .f32 0x47435000#32) (ix1 q)) = _
  rw [colReduce_apply, broadcastInDim_scalar_apply]
  rfl

def rMeanRows (u : A2 50000 64) : A2 50000 64 :=
  broadcastInDim S50000x64 ![0, 1] bcast_S1x64_S50000x64_0_1
    (Host.divf
      (broadcastInDim S1x64 ![1] bcast_S64_S1x64_1
        (Host.reduceAdd u (constant (F := Ideal) S_ .f32 0x00000000#32) reducesTo_S50000x64_S64_d0 h_S_))
      (broadcastInDim S1x64 ![] bcast_S_S1x64 (constant (F := Ideal) S_ .f32 0x47435000#32)))

theorem rMeanRows_apply (u : A2 50000 64) (n : Fin 50000) (q : Fin 64) :
    rMeanRows u (ix2 n q) = meanOf (colSum u) (ix2 (0 : Fin 1) q) := by
  unfold rMeanRows
  refine (rowDown_apply _ _ n q).trans ?_
  show Ideal.div
      (broadcastInDim S1x64 ![1] bcast_S64_S1x64_1
        (Host.reduceAdd u (constant (F := Ideal) S_ .f32 0x00000000#32) reducesTo_S50000x64_S64_d0 h_S_) (ix2 (0 : Fin 1) q))
      (broadcastInDim S1x64 ![] bcast_S_S1x64 (constant (F := Ideal) S_ .f32 0x47435000#32) (ix2 (0 : Fin 1) q)) = _
  rw [asRow_apply, colReduce_apply, broadcastInDim_scalar_apply]
  rfl

def rDen : FVec Ideal S_ .f32 :=
  subf (constant (F := Ideal) S_ .f32 0x47435000#32) (sitofp (F := Ideal) .f32 (constantI S_ 32 0#32))

theorem rDen_eq : rDen ix0 = nE := by
  have h0 : FloatOps.sitofp (F := Ideal) .f32 (0#32 : BitVec 32) = 0 := by
    show ((((0#32 : BitVec 32).toInt : ℤ) : ℝ) : EReal) = 0
    simp
  show nE - FloatOps.sitofp (F := Ideal) .f32 (0#32 : BitVec 32) = nE
  rw [h0, sub_zero]

theorem guard_eq : Ideal.cmp .ogt nE zeroE = 1#1 := by
  rw [nE_eq, zeroE_eq]
  have hpos : (0 : EReal) < ((50000 : ℝ) : EReal) := by exact_mod_cast (by norm_num : (0 : ℝ) < 50000)
  show BitVec.ofBool (decide ((0 : EReal) < ((50000 : ℝ) : EReal))) = 1#1
  rw [decide_eq_true hpos]
  rfl

def rVar (u : A2 50000 64) : A1 64 :=
  select
    (broadcastInDim S64 ![] bcast_S_S64 (cmpf .ogt rDen (constant (F := Ideal) S_ .f32 0x00000000#32)))
    (Host.divf
      (Host.reduceAdd (mulf (subf u (rMeanRows u)) (subf u (rMeanRows u)))
        (constant (F := Ideal) S_ .f32 0x00000000#32) reducesTo_S50000x64_S64_d0 h_S_)
      (broadcastInDim S64 ![] bcast_S_S64 rDen))
    (broadcastInDim S64 ![] bcast_S_S64 (id (constant (F := Ideal) S_ .f32 0x7FC00000#32)))

theorem rVar_apply (u : A2 50000 64) (q : Fin 64) : rVar u (ix1 q) = varDev u (ix2 (0 : Fin 1) q) := by
  have hguard : broadcastInDim S64 ![] bcast_S_S64 (cmpf .ogt rDen (constant (F := Ideal) S_ .f32 0x00000000#32)) (ix1 q) = 1#1 := by
    refine (broadcastInDim_scalar_apply _ _ _).trans ?_
    show Ideal.cmp .ogt (rDen ix0) zeroE = 1#1
    rw [rDen_eq]
    exact guard_eq
  have hden : broadcastInDim S64 ![] bcast_S_S64 rDen (ix1 q) = nE :=
    (broadcastInDim_scalar_apply _ _ _).trans rDen_eq
  unfold rVar
  refine (select_apply _ _ _ (ix1 q)).trans ?_
  rw [hguard, select_one]
  refine (hostDivf_apply _ _ (ix1 q)).trans ?_
  rw [hden, colReduce_apply]
  unfold varDev
  refine congrArg (Ideal.div · nE) (Finset.sum_congr rfl fun n _ => ?_)
  show (u (ix2 n q) - rMeanRows u (ix2 n q)) * (u (ix2 n q) - rMeanRows u (ix2 n q)) = _
  rw [rMeanRows_apply]

def rNorm (o : ℕ) (hB : S4x64.Slices ![o, 0] S1x64) (gam bet : A2 4 64) (u : A2 50000 64) : A2 50000 64 :=
  addf
    (mulf
      (mulf
        (subf u
          (broadcastInDim S50000x64 ![0, 1] bcast_S1x64_S50000x64_0_1
            (broadcastInDim S1x64 ![1] bcast_S64_S1x64_1 (rMean u))))
        (broadcastInDim S50000x64 ![0, 1] bcast_S1x64_S50000x64_0_1
          (broadcastInDim S1x64 ![1] bcast_S64_S1x64_1
            (Host.rsqrt
              (addf (rVar u) (broadcastInDim S64 ![] bcast_S_S64 (constant (F := Ideal) S_ .f32 0x3727C5AC#32)))))))
      (broadcastInDim S50000x64 ![0, 1] bcast_S1x64_S50000x64_0_1 (rRow o hB gam)))
    (broadcastInDim S50000x64 ![0, 1] bcast_S1x64_S50000x64_0_1 (rRow o hB bet))

theorem rNorm_apply (o : ℕ) (ho : o < 4) (hB : S4x64.Slices ![o, 0] S1x64) (gam bet : A2 4 64) (u : A2 50000 64)
    (n : Fin 50000) (q : Fin 64) :
    rNorm o hB gam bet u (ix2 n q)
      = ((u (ix2 n q) - meanOf (colSum u) (ix2 (0 : Fin 1) q)) * Ideal.rsqrt (varDev u (ix2 (0 : Fin 1) q) + epsE))
          * gam (ix2 ⟨o, ho⟩ q) + bet (ix2 ⟨o, ho⟩ q) := by
  have h1 : broadcastInDim S50000x64 ![0, 1] bcast_S1x64_S50000x64_0_1
      (broadcastInDim S1x64 ![1] bcast_S64_S1x64_1 (rMean u)) (ix2 n q) = meanOf (colSum u) (ix2 (0 : Fin 1) q) :=
    (rowDown_apply _ _ n q).trans ((asRow_apply _ 0 q).trans (rMean_apply u q))
  have h2 : broadcastInDim S50000x64 ![0, 1] bcast_S1x64_S50000x64_0_1
      (broadcastInDim S1x64 ![1] bcast_S64_S1x64_1
        (Host.rsqrt
          (addf (rVar u) (broadcastInDim S64 ![] bcast_S_S64 (constant (F := Ideal) S_ .f32 0x3727C5AC#32))))) (ix2 n q)
      = Ideal.rsqrt (varDev u (ix2 (0 : Fin 1) q) + epsE) := by
    refine (rowDown_apply _ _ n q).trans ((asRow_apply _ 0 q).trans ?_)
    show Ideal.rsqrt (rVar u (ix1 q)
      + broadcastInDim S64 ![] bcast_S_S64 (constant (F := Ideal) S_ .f32 0x3727C5AC#32) (ix1 q)) = _
    rw [rVar_apply, broadcastInDim_scalar_apply]
    rfl
  have h3 : broadcastInDim S50000x64 ![0, 1] bcast_S1x64_S50000x64_0_1 (rRow o hB gam) (ix2 n q) = gam (ix2 ⟨o, ho⟩ q) :=
    (rowDown_apply _ _ n q).trans (rRow_apply o ho hB gam 0 q)
  have h4 : broadcastInDim S50000x64 ![0, 1] bcast_S1x64_S50000x64_0_1 (rRow o hB bet) (ix2 n q) = bet (ix2 ⟨o, ho⟩ q) :=
    (rowDown_apply _ _ n q).trans (rRow_apply o ho hB bet 0 q)
  unfold rNorm
  exact congrArg₂ (· + ·) (congrArg₂ (· * ·) (congrArg₂ (· * ·) (congrArg (u (ix2 n q) - ·) h1) h2) h3) h4

def refLayerG (o : ℕ) (hW : S4x128x64.Slices ![o, 0, 0] S1x128x64) (hB : S4x64.Slices ![o, 0] S1x64)
    (ha : S4.Slices ![o] S1) (ei : IVec S2x800000 32) (Wm : A3 4 128 64) (bm : A2 4 64) (Wu : A3 4 128 64)
    (bu : A2 4 64) (a : A1 4) (gam bet : A2 4 64) (h : A2 50000 64) : A2 50000 64 :=
  rNorm o hB gam bet
    (rU o hW hB ha Wu bu a h (rAgg ei (rMsg o hW hB Wm bm (rGat (rSrc ei) h) (rGat (rDst ei) h))))

theorem refLayerG_eq (o : ℕ) (ho : o < 4) (hW : S4x128x64.Slices ![o, 0, 0] S1x128x64)
    (hB : S4x64.Slices ![o, 0] S1x64) (ha : S4.Slices ![o] S1) (ei : IVec S2x800000 32) (Wm : A3 4 128 64)
    (bm : A2 4 64) (Wu : A3 4 128 64) (bu : A2 4 64) (a : A1 4) (gam bet : A2 4 64) (h : A2 50000 64)
    (hWm : IsReal Wm) (hbm : IsReal bm) (hWu : IsReal Wu) (hbu : IsReal bu) (har : IsReal a) (hh : IsReal h) :
    refLayerG o hW hB ha ei Wm bm Wu bu a gam bet h
      = layerAt (Cert.Shared.gat (Cert.Shared.src ei)) (Cert.Shared.gat (Cert.Shared.dst ei)) (Cert.Shared.agg ei)
          Wm bm Wu bu a gam bet ⟨o, ho⟩ h := by
  unfold refLayerG
  rw [rSrc_eq, rDst_eq, rGat_eq, rGat_eq, rMsg_eq o ho, rAgg_eq, rU_eq o ho]
  have hU : IsReal (uLoc h
      (Cert.Shared.agg ei (msgLoc (Cert.Shared.gat (Cert.Shared.src ei) h) (Cert.Shared.gat (Cert.Shared.dst ei) h)
        (half0 Wm ⟨o, ho⟩) (half1 Wm ⟨o, ho⟩) (rowOf bm ⟨o, ho⟩)))
      (half0 Wu ⟨o, ho⟩) (half1 Wu ⟨o, ho⟩) (rowOf bu ⟨o, ho⟩) (splatOf a ⟨o, ho⟩)) :=
    isReal_uLoc hh
      (Cert.Shared.agg_isReal ei _
        (isReal_msgLoc (Cert.Shared.gat_isReal _ h hh) (Cert.Shared.gat_isReal _ h hh) (isReal_half0 hWm _)
          (isReal_half1 hWm _) (isReal_rowOf hbm _)))
      (isReal_half0 hWu _) (isReal_half1 hWu _) (isReal_rowOf hbu _) (isReal_splatOf har _)
  funext i
  obtain ⟨n, q, rfl⟩ : ∃ (n : Fin 50000) (q : Fin 64), i = ix2 n q := ⟨i 0, i 1, eq_ix2 i⟩
  rw [rNorm_apply o ho, varDev_eq_varK _ hU]
  rfl

def refLayer0 (ei : IVec S2x800000 32) (Wm : A3 4 128 64) (bm : A2 4 64) (Wu : A3 4 128 64) (bu : A2 4 64) (a : A1 4)
    (gam bet : A2 4 64) (h : A2 50000 64) : A2 50000 64 :=
  refLayerG 0 slices_S4x128x64_S1x128x64_0_0_0 slices_S4x64_S1x64_0_0 slices_S4_S1_0 ei Wm bm Wu bu a gam bet h

def refLayer1 (ei : IVec S2x800000 32) (Wm : A3 4 128 64) (bm : A2 4 64) (Wu : A3 4 128 64) (bu : A2 4 64) (a : A1 4)
    (gam bet : A2 4 64) (h : A2 50000 64) : A2 50000 64 :=
  refLayerG 1 slices_S4x128x64_S1x128x64_1_0_0 slices_S4x64_S1x64_1_0 slices_S4_S1_1 ei Wm bm Wu bu a gam bet h

def refLayer2 (ei : IVec S2x800000 32) (Wm : A3 4 128 64) (bm : A2 4 64) (Wu : A3 4 128 64) (bu : A2 4 64) (a : A1 4)
    (gam bet : A2 4 64) (h : A2 50000 64) : A2 50000 64 :=
  refLayerG 2 slices_S4x128x64_S1x128x64_2_0_0 slices_S4x64_S1x64_2_0 slices_S4_S1_2 ei Wm bm Wu bu a gam bet h

def refLayer3 (ei : IVec S2x800000 32) (Wm : A3 4 128 64) (bm : A2 4 64) (Wu : A3 4 128 64) (bu : A2 4 64) (a : A1 4)
    (gam bet : A2 4 64) (h : A2 50000 64) : A2 50000 64 :=
  refLayerG 3 slices_S4x128x64_S1x128x64_3_0_0 slices_S4x64_S1x64_3_0 slices_S4_S1_3 ei Wm bm Wu bu a gam bet h

theorem refLayer0_eq (ei : IVec S2x800000 32) (Wm : A3 4 128 64) (bm : A2 4 64) (Wu : A3 4 128 64) (bu : A2 4 64)
    (a : A1 4) (gam bet : A2 4 64) (h : A2 50000 64)
    (hWm : IsReal Wm) (hbm : IsReal bm) (hWu : IsReal Wu) (hbu : IsReal bu) (har : IsReal a) (hh : IsReal h) :
    refLayer0 ei Wm bm Wu bu a gam bet h
      = layerAt (Cert.Shared.gat (Cert.Shared.src ei)) (Cert.Shared.gat (Cert.Shared.dst ei)) (Cert.Shared.agg ei)
          Wm bm Wu bu a gam bet 0 h :=
  refLayerG_eq 0 (by decide) _ _ _ ei Wm bm Wu bu a gam bet h hWm hbm hWu hbu har hh

theorem refLayer1_eq (ei : IVec S2x800000 32) (Wm : A3 4 128 64) (bm : A2 4 64) (Wu : A3 4 128 64) (bu : A2 4 64)
    (a : A1 4) (gam bet : A2 4 64) (h : A2 50000 64)
    (hWm : IsReal Wm) (hbm : IsReal bm) (hWu : IsReal Wu) (hbu : IsReal bu) (har : IsReal a) (hh : IsReal h) :
    refLayer1 ei Wm bm Wu bu a gam bet h
      = layerAt (Cert.Shared.gat (Cert.Shared.src ei)) (Cert.Shared.gat (Cert.Shared.dst ei)) (Cert.Shared.agg ei)
          Wm bm Wu bu a gam bet 1 h :=
  refLayerG_eq 1 (by decide) _ _ _ ei Wm bm Wu bu a gam bet h hWm hbm hWu hbu har hh

theorem refLayer2_eq (ei : IVec S2x800000 32) (Wm : A3 4 128 64) (bm : A2 4 64) (Wu : A3 4 128 64) (bu : A2 4 64)
    (a : A1 4) (gam bet : A2 4 64) (h : A2 50000 64)
    (hWm : IsReal Wm) (hbm : IsReal bm) (hWu : IsReal Wu) (hbu : IsReal bu) (har : IsReal a) (hh : IsReal h) :
    refLayer2 ei Wm bm Wu bu a gam bet h
      = layerAt (Cert.Shared.gat (Cert.Shared.src ei)) (Cert.Shared.gat (Cert.Shared.dst ei)) (Cert.Shared.agg ei)
          Wm bm Wu bu a gam bet 2 h :=
  refLayerG_eq 2 (by decide) _ _ _ ei Wm bm Wu bu a gam bet h hWm hbm hWu hbu har hh

theorem refLayer3_eq (ei : IVec S2x800000 32) (Wm : A3 4 128 64) (bm : A2 4 64) (Wu : A3 4 128 64) (bu : A2 4 64)
    (a : A1 4) (gam bet : A2 4 64) (h : A2 50000 64)
    (hWm : IsReal Wm) (hbm : IsReal bm) (hWu : IsReal Wu) (hbu : IsReal bu) (har : IsReal a) (hh : IsReal h) :
    refLayer3 ei Wm bm Wu bu a gam bet h
      = layerAt (Cert.Shared.gat (Cert.Shared.src ei)) (Cert.Shared.gat (Cert.Shared.dst ei)) (Cert.Shared.agg ei)
          Wm bm Wu bu a gam bet 3 h :=
  refLayerG_eq 3 (by decide) _ _ _ ei Wm bm Wu bu a gam bet h hWm hbm hWu hbu har hh

end Cert.ReferenceIdeal.Val

end
-- ==== Proof.RStage.lean ====
import proofs.«428660_j69922067578969_2_alg».proof.Proof.RRank
import proofs.«428660_j69922067578969_2_alg».proof.Proof.RLayerFn
import Idealize.ShloMosaic.PureOps.Ideal

noncomputable section

namespace Cert.ReferenceIdeal.Val

open Cert.ReferenceIdeal Cert.ReferenceIdeal.Gen Idealize.ShloMosaic Idealize.ShloMosaic.TcCoe Idealize.SL.Sem Idealize.ShloMosaic.StableHlo

section

variable {F : FTy → Type} [FloatOps F] (V : Valuation τ sig (Elt F))

/-- The equation of a reshape, and of an operation inside a call, written out in the printed form the layer functions use. -/
theorem st_main_v75 :
    after ops V main_v75 = (shapeCast S64 (after ops V main_v74) shapeCasts_S1x64_S64 : (⟨S64, .f32⟩ : BufTy).Contents (Elt F)) :=
  re V (at1 49 rfl)

theorem st_main_v70 :
    after ops V main_v70 = (shapeCast S64 (after ops V main_v69) shapeCasts_S1x64_S64 : (⟨S64, .f32⟩ : BufTy).Contents (Elt F)) :=
  re V (at1 44 rfl)

theorem st_main_v59 :
    after ops V main_v59 = (((fun p a b => select (broadcastInDim S64 ![] bcast_S_S64 p) a b)) : (⟨S_, .i1⟩ : BufTy).Contents (Elt F) → (⟨S64, .f32⟩ : BufTy).Contents (Elt F) → (⟨S64, .f32⟩ : BufTy).Contents (Elt F) → (⟨S64, .f32⟩ : BufTy).Contents (Elt F)) (after ops V main_call2_v12) (after ops V main_call2_v11) (after ops V main_call2_call0_v1) := by
  have h := ops_staged.after_eq V _ (at1 32 rfl) _ (Finset.mem_singleton_self _)
  generalize after ops V = G at h ⊢
  exact h.trans (ternary_result ..)

theorem st_main_call2_call0_v1 :
    after ops V main_call2_call0_v1 = (((broadcastInDim S64 ![] bcast_S_S64)) : (⟨S_, .f32⟩ : BufTy).Contents (Elt F) → (⟨S64, .f32⟩ : BufTy).Contents (Elt F)) (after ops V main_call2_call0_v0) :=
  un V (at1 31 rfl)

theorem st_main_call2_call0_v0 :
    after ops V main_call2_call0_v0 = ((id) : (⟨S_, .f32⟩ : BufTy).Contents (Elt F) → (⟨S_, .f32⟩ : BufTy).Contents (Elt F)) (after ops V main_call2_cst_4) :=
  un V (at1 30 rfl)

theorem st_main_call2_cst_4 :
    after ops V main_call2_cst_4 = ((constant S_ .f32 0x7FC00000#32) : (⟨S_, .f32⟩ : BufTy).Contents (Elt F)) :=
  nu V (at1 29 rfl)

theorem st_main_call2_v12 :
    after ops V main_call2_v12 = (((cmpf .ogt)) : (⟨S_, .f32⟩ : BufTy).Contents (Elt F) → (⟨S_, .f32⟩ : BufTy).Contents (Elt F) → (⟨S_, .i1⟩ : BufTy).Contents (Elt F)) (after ops V main_call2_v8) (after ops V main_call2_cst_3) :=
  bi V (at1 28 rfl)

theorem st_main_call2_cst_3 :
    after ops V main_call2_cst_3 = ((constant S_ .f32 0x00000000#32) : (⟨S_, .f32⟩ : BufTy).Contents (Elt F)) :=
  nu V (at1 27 rfl)

theorem st_main_call2_v11 :
    after ops V main_call2_v11 = ((Host.divf) : (⟨S64, .f32⟩ : BufTy).Contents (Elt F) → (⟨S64, .f32⟩ : BufTy).Contents (Elt F) → (⟨S64, .f32⟩ : BufTy).Contents (Elt F)) (after ops V main_call2_v9) (after ops V main_call2_v10) :=
  bi V (at1 26 rfl)

theorem st_main_call2_v10 :
    after ops V main_call2_v10 = (((broadcastInDim S64 ![] bcast_S_S64)) : (⟨S_, .f32⟩ : BufTy).Contents (Elt F) → (⟨S64, .f32⟩ : BufTy).Contents (Elt F)) (after ops V main_call2_v8) :=
  un V (at1 25 rfl)

theorem st_main_call2_v9 :
    after ops V main_call2_v9 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_call2_v6) (after ops V main_call2_cst_2) :=
  bi V (at1 24 rfl)

theorem st_main_call2_cst_2 :
    after ops V main_call2_cst_2 = ((constant S_ .f32 0x00000000#32) : (⟨S_, .f32⟩ : BufTy).Contents (Elt F)) :=
  nu V (at1 23 rfl)

theorem st_main_call2_v8 :
    after ops V main_call2_v8 = ((subf) : (⟨S_, .f32⟩ : BufTy).Contents (Elt F) → (⟨S_, .f32⟩ : BufTy).Contents (Elt F) → (⟨S_, .f32⟩ : BufTy).Contents (Elt F)) (after ops V main_call2_cst_1) (after ops V main_call2_v7) :=
  bi V (at1 22 rfl)

theorem st_main_call2_cst_1 :
    after ops V main_call2_cst_1 = ((constant S_ .f32 0x47435000#32) : (⟨S_, .f32⟩ : BufTy).Contents (Elt F)) :=
  nu V (at1 21 rfl)

theorem st_main_call2_v7 :
    after ops V main_call2_v7 = (((sitofp .f32)) : (⟨S_, .i32⟩ : BufTy).Contents (Elt F) → (⟨S_, .f32⟩ : BufTy).Contents (Elt F)) (after ops V main_c_9) :=
  un V (at1 20 rfl)

theorem st_main_call2_v6 :
    after ops V main_call2_v6 = ((mulf) : (⟨S50000x64, .f32⟩ : BufTy).Contents (Elt F) → (⟨S50000x64, .f32⟩ : BufTy).Contents (Elt F) → (⟨S50000x64, .f32⟩ : BufTy).Contents (Elt F)) (after ops V main_call2_v5) (after ops V main_call2_v5) :=
  bi V (at1 19 rfl)

theorem st_main_call2_v5 :
    after ops V main_call2_v5 = ((subf) : (⟨S50000x64, .f32⟩ : BufTy).Contents (Elt F) → (⟨S50000x64, .f32⟩ : BufTy).Contents (Elt F) → (⟨S50000x64, .f32⟩ : BufTy).Contents (Elt F)) (after ops V main_v55) (after ops V main_call2_v4) :=
  bi V (at1 18 rfl)

theorem st_main_call2_v4 :
    after ops V main_call2_v4 = (((broadcastInDim S50000x64 ![0, 1] bcast_S1x64_S50000x64_0_1)) : (⟨S1x64, .f32⟩ : BufTy).Contents (Elt F) → (⟨S50000x64, .f32⟩ : BufTy).Contents (Elt F)) (after ops V main_call2_v3) :=
  un V (at1 17 rfl)

theorem st_main_call2_v3 :
    after ops V main_call2_v3 = ((Host.divf) : (⟨S1x64, .f32⟩ : BufTy).Contents (Elt F) → (⟨S1x64, .f32⟩ : BufTy).Contents (Elt F) → (⟨S1x64, .f32⟩ : BufTy).Contents (Elt F)) (after ops V main_call2_v1) (after ops V main_call2_v2) :=
  bi V (at1 16 rfl)

theorem st_main_call2_v2 :
    after ops V main_call2_v2 = (((broadcastInDim S1x64 ![] bcast_S_S1x64)) : (⟨S_, .f32⟩ : BufTy).Contents (Elt F) → (⟨S1x64, .f32⟩ : BufTy).Contents (Elt F)) (after ops V main_call2_cst_0) :=
  un V (at1 15 rfl)

theorem st_main_call2_cst_0 :
    after ops V main_call2_cst_0 = ((constant S_ .f32 0x47435000#32) : (⟨S_, .f32⟩ : BufTy).Contents (Elt F)) :=
  nu V (at1 14 rfl)

theorem st_main_call2_v1 :
    after ops V main_call2_v1 = (((broadcastInDim S1x64 ![1] bcast_S64_S1x64_1)) : (⟨S64, .f32⟩ : BufTy).Contents (Elt F) → (⟨S1x64, .f32⟩ : BufTy).Contents (Elt F)) (after ops V main_call2_v0) :=
  un V (at1 13 rfl)

theorem st_main_call2_v0 :
    after ops V main_call2_v0 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_v55) (after ops V main_call2_cst) :=
  bi V (at1 12 rfl)

theorem st_main_call2_cst :
    after ops V main_call2_cst = ((constant S_ .f32 0x00000000#32) : (⟨S_, .f32⟩ : BufTy).Contents (Elt F)) :=
  nu V (at1 11 rfl)

theorem st_main_v55 :
    after ops V main_v55 = ((select) : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) (after ops V main_v50) (after ops V main_v48) (after ops V main_v54) :=
  te V (at1 4 rfl)

theorem st_main_v52 :
    after ops V main_v52 = (shapeCast S_ (after ops V main_v51) shapeCasts_S1_S_ : (⟨S_, .f32⟩ : BufTy).Contents (Elt F)) :=
  re V (at1 1 rfl)

theorem st_main_v45 :
    after ops V main_v45 = (shapeCast S64 (after ops V main_v44) shapeCasts_S1x64_S64 : (⟨S64, .f32⟩ : BufTy).Contents (Elt F)) :=
  re V (at0 55 rfl)

theorem st_main_v42 :
    after ops V main_v42 = (shapeCast S128x64 (after ops V main_v41) shapeCasts_S1x128x64_S128x64 : (⟨S128x64, .f32⟩ : BufTy).Contents (Elt F)) :=
  re V (at0 52 rfl)

theorem st_main_v34 :
    after ops V main_v34 = ((maximumf) : (⟨S800000x64, .f32⟩ : BufTy).Contents (Elt F) → (⟨S800000x64, .f32⟩ : BufTy).Contents (Elt F) → (⟨S800000x64, .f32⟩ : BufTy).Contents (Elt F)) (after ops V main_v33) (after ops V main_call0_v0) :=
  bi V (at0 43 rfl)

theorem st_main_call0_v0 :
    after ops V main_call0_v0 = (((broadcastInDim S800000x64 ![] bcast_S_S800000x64)) : (⟨S_, .f32⟩ : BufTy).Contents (Elt F) → (⟨S800000x64, .f32⟩ : BufTy).Contents (Elt F)) (after ops V main_call0_cst) :=
  un V (at0 42 rfl)

theorem st_main_call0_cst :
    after ops V main_call0_cst = ((constant S_ .f32 0x00000000#32) : (⟨S_, .f32⟩ : BufTy).Contents (Elt F)) :=
  nu V (at0 41 rfl)

theorem st_main_v30 :
    after ops V main_v30 = (shapeCast S64 (after ops V main_v29) shapeCasts_S1x64_S64 : (⟨S64, .f32⟩ : BufTy).Contents (Elt F)) :=
  re V (at0 37 rfl)

theorem st_main_v27 :
    after ops V main_v27 = (shapeCast S128x64 (after ops V main_v26) shapeCasts_S1x128x64_S128x64 : (⟨S128x64, .f32⟩ : BufTy).Contents (Elt F)) :=
  re V (at0 34 rfl)

theorem st_main_v3 :
    after ops V main_v3 = (shapeCast S800000 (after ops V main_v2) shapeCasts_S1x800000_S800000 : (⟨S800000, .i32⟩ : BufTy).Contents (Elt F)) :=
  re V (at0 3 rfl)

theorem st_main_v1 :
    after ops V main_v1 = (shapeCast S800000 (after ops V main_v0) shapeCasts_S1x800000_S800000 : (⟨S800000, .i32⟩ : BufTy).Contents (Elt F)) :=
  re V (at0 1 rfl)

theorem st_main_v143 :
    after ops V main_v143 = (shapeCast S64 (after ops V main_v142) shapeCasts_S1x64_S64 : (⟨S64, .f32⟩ : BufTy).Contents (Elt F)) :=
  re V (at2 67 rfl)

theorem st_main_v138 :
    after ops V main_v138 = (shapeCast S64 (after ops V main_v137) shapeCasts_S1x64_S64 : (⟨S64, .f32⟩ : BufTy).Contents (Elt F)) :=
  re V (at2 62 rfl)

theorem st_main_v127 :
    after ops V main_v127 = (((fun p a b => select (broadcastInDim S64 ![] bcast_S_S64 p) a b)) : (⟨S_, .i1⟩ : BufTy).Contents (Elt F) → (⟨S64, .f32⟩ : BufTy).Contents (Elt F) → (⟨S64, .f32⟩ : BufTy).Contents (Elt F) → (⟨S64, .f32⟩ : BufTy).Contents (Elt F)) (after ops V main_call5_v12) (after ops V main_call5_v11) (after ops V main_call5_call0_v1) := by
  have h := ops_staged.after_eq V _ (at2 50 rfl) _ (Finset.mem_singleton_self _)
  generalize after ops V = G at h ⊢
  exact h.trans (ternary_result ..)

theorem st_main_call5_call0_v1 :
    after ops V main_call5_call0_v1 = (((broadcastInDim S64 ![] bcast_S_S64)) : (⟨S_, .f32⟩ : BufTy).Contents (Elt F) → (⟨S64, .f32⟩ : BufTy).Contents (Elt F)) (after ops V main_call5_call0_v0) :=
  un V (at2 49 rfl)

theorem st_main_call5_call0_v0 :
    after ops V main_call5_call0_v0 = ((id) : (⟨S_, .f32⟩ : BufTy).Contents (Elt F) → (⟨S_, .f32⟩ : BufTy).Contents (Elt F)) (after ops V main_call5_cst_4) :=
  un V (at2 48 rfl)

theorem st_main_call5_cst_4 :
    after ops V main_call5_cst_4 = ((constant S_ .f32 0x7FC00000#32) : (⟨S_, .f32⟩ : BufTy).Contents (Elt F)) :=
  nu V (at2 47 rfl)

theorem st_main_call5_v12 :
    after ops V main_call5_v12 = (((cmpf .ogt)) : (⟨S_, .f32⟩ : BufTy).Contents (Elt F) → (⟨S_, .f32⟩ : BufTy).Contents (Elt F) → (⟨S_, .i1⟩ : BufTy).Contents (Elt F)) (after ops V main_call5_v8) (after ops V main_call5_cst_3) :=
  bi V (at2 46 rfl)

theorem st_main_call5_cst_3 :
    after ops V main_call5_cst_3 = ((constant S_ .f32 0x00000000#32) : (⟨S_, .f32⟩ : BufTy).Contents (Elt F)) :=
  nu V (at2 45 rfl)

theorem st_main_call5_v11 :
    after ops V main_call5_v11 = ((Host.divf) : (⟨S64, .f32⟩ : BufTy).Contents (Elt F) → (⟨S64, .f32⟩ : BufTy).Contents (Elt F) → (⟨S64, .f32⟩ : BufTy).Contents (Elt F)) (after ops V main_call5_v9) (after ops V main_call5_v10) :=
  bi V (at2 44 rfl)

theorem st_main_call5_v10 :
    after ops V main_call5_v10 = (((broadcastInDim S64 ![] bcast_S_S64)) : (⟨S_, .f32⟩ : BufTy).Contents (Elt F) → (⟨S64, .f32⟩ : BufTy).Contents (Elt F)) (after ops V main_call5_v8) :=
  un V (at2 43 rfl)

theorem st_main_call5_v9 :
    after ops V main_call5_v9 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_call5_v6) (after ops V main_call5_cst_2) :=
  bi V (at2 42 rfl)

theorem st_main_call5_cst_2 :
    after ops V main_call5_cst_2 = ((constant S_ .f32 0x00000000#32) : (⟨S_, .f32⟩ : BufTy).Contents (Elt F)) :=
  nu V (at2 41 rfl)

theorem st_main_call5_v8 :
    after ops V main_call5_v8 = ((subf) : (⟨S_, .f32⟩ : BufTy).Contents (Elt F) → (⟨S_, .f32⟩ : BufTy).Contents (Elt F) → (⟨S_, .f32⟩ : BufTy).Contents (Elt F)) (after ops V main_call5_cst_1) (after ops V main_call5_v7) :=
  bi V (at2 40 rfl)

theorem st_main_call5_cst_1 :
    after ops V main_call5_cst_1 = ((constant S_ .f32 0x47435000#32) : (⟨S_, .f32⟩ : BufTy).Contents (Elt F)) :=
  nu V (at2 39 rfl)

theorem st_main_call5_v7 :
    after ops V main_call5_v7 = (((sitofp .f32)) : (⟨S_, .i32⟩ : BufTy).Contents (Elt F) → (⟨S_, .f32⟩ : BufTy).Contents (Elt F)) (after ops V main_c_19) :=
  un V (at2 38 rfl)

theorem st_main_call5_v6 :
    after ops V main_call5_v6 = ((mulf) : (⟨S50000x64, .f32⟩ : BufTy).Contents (Elt F) → (⟨S50000x64, .f32⟩ : BufTy).Contents (Elt F) → (⟨S50000x64, .f32⟩ : BufTy).Contents (Elt F)) (after ops V main_call5_v5) (after ops V main_call5_v5) :=
  bi V (at2 37 rfl)

theorem st_main_call5_v5 :
    after ops V main_call5_v5 = ((subf) : (⟨S50000x64, .f32⟩ : BufTy).Contents (Elt F) → (⟨S50000x64, .f32⟩ : BufTy).Contents (Elt F) → (⟨S50000x64, .f32⟩ : BufTy).Contents (Elt F)) (after ops V main_v123) (after ops V main_call5_v4) :=
  bi V (at2 36 rfl)

theorem st_main_call5_v4 :
    after ops V main_call5_v4 = (((broadcastInDim S50000x64 ![0, 1] bcast_S1x64_S50000x64_0_1)) : (⟨S1x64, .f32⟩ : BufTy).Contents (Elt F) → (⟨S50000x64, .f32⟩ : BufTy).Contents (Elt F)) (after ops V main_call5_v3) :=
  un V (at2 35 rfl)

theorem st_main_call5_v3 :
    after ops V main_call5_v3 = ((Host.divf) : (⟨S1x64, .f32⟩ : BufTy).Contents (Elt F) → (⟨S1x64, .f32⟩ : BufTy).Contents (Elt F) → (⟨S1x64, .f32⟩ : BufTy).Contents (Elt F)) (after ops V main_call5_v1) (after ops V main_call5_v2) :=
  bi V (at2 34 rfl)

theorem st_main_call5_v2 :
    after ops V main_call5_v2 = (((broadcastInDim S1x64 ![] bcast_S_S1x64)) : (⟨S_, .f32⟩ : BufTy).Contents (Elt F) → (⟨S1x64, .f32⟩ : BufTy).Contents (Elt F)) (after ops V main_call5_cst_0) :=
  un V (at2 33 rfl)

theorem st_main_call5_cst_0 :
    after ops V main_call5_cst_0 = ((constant S_ .f32 0x47435000#32) : (⟨S_, .f32⟩ : BufTy).Contents (Elt F)) :=
  nu V (at2 32 rfl)

theorem st_main_call5_v1 :
    after ops V main_call5_v1 = (((broadcastInDim S1x64 ![1] bcast_S64_S1x64_1)) : (⟨S64, .f32⟩ : BufTy).Contents (Elt F) → (⟨S1x64, .f32⟩ : BufTy).Contents (Elt F)) (after ops V main_call5_v0) :=
  un V (at2 31 rfl)

theorem st_main_call5_v0 :
    after ops V main_call5_v0 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_v123) (after ops V main_call5_cst) :=
  bi V (at2 30 rfl)

theorem st_main_call5_cst :
    after ops V main_call5_cst = ((constant S_ .f32 0x00000000#32) : (⟨S_, .f32⟩ : BufTy).Contents (Elt F)) :=
  nu V (at2 29 rfl)

theorem st_main_v123 :
    after ops V main_v123 = ((select) : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) (after ops V main_v118) (after ops V main_v116) (after ops V main_v122) :=
  te V (at2 22 rfl)

theorem st_main_v120 :
    after ops V main_v120 = (shapeCast S_ (after ops V main_v119) shapeCasts_S1_S_ : (⟨S_, .f32⟩ : BufTy).Contents (Elt F)) :=
  re V (at2 19 rfl)

theorem st_main_v113 :
    after ops V main_v113 = (shapeCast S64 (after ops V main_v112) shapeCasts_S1x64_S64 : (⟨S64, .f32⟩ : BufTy).Contents (Elt F)) :=
  re V (at2 11 rfl)

theorem st_main_v110 :
    after ops V main_v110 = (shapeCast S128x64 (after ops V main_v109) shapeCasts_S1x128x64_S128x64 : (⟨S128x64, .f32⟩ : BufTy).Contents (Elt F)) :=
  re V (at2 8 rfl)

theorem st_main_v102 :
    after ops V main_v102 = ((maximumf) : (⟨S800000x64, .f32⟩ : BufTy).Contents (Elt F) → (⟨S800000x64, .f32⟩ : BufTy).Contents (Elt F) → (⟨S800000x64, .f32⟩ : BufTy).Contents (Elt F)) (after ops V main_v101) (after ops V main_call3_v0) :=
  bi V (at1 82 rfl)

theorem st_main_call3_v0 :
    after ops V main_call3_v0 = (((broadcastInDim S800000x64 ![] bcast_S_S800000x64)) : (⟨S_, .f32⟩ : BufTy).Contents (Elt F) → (⟨S800000x64, .f32⟩ : BufTy).Contents (Elt F)) (after ops V main_call3_cst) :=
  un V (at1 81 rfl)

theorem st_main_call3_cst :
    after ops V main_call3_cst = ((constant S_ .f32 0x00000000#32) : (⟨S_, .f32⟩ : BufTy).Contents (Elt F)) :=
  nu V (at1 80 rfl)

theorem st_main_v98 :
    after ops V main_v98 = (shapeCast S64 (after ops V main_v97) shapeCasts_S1x64_S64 : (⟨S64, .f32⟩ : BufTy).Contents (Elt F)) :=
  re V (at1 76 rfl)

theorem st_main_v95 :
    after ops V main_v95 = (shapeCast S128x64 (after ops V main_v94) shapeCasts_S1x128x64_S128x64 : (⟨S128x64, .f32⟩ : BufTy).Contents (Elt F)) :=
  re V (at1 73 rfl)

theorem st_main_v211 :
    after ops V main_v211 = (shapeCast S64 (after ops V main_v210) shapeCasts_S1x64_S64 : (⟨S64, .f32⟩ : BufTy).Contents (Elt F)) :=
  re V (at4 4 rfl)

theorem st_main_v206 :
    after ops V main_v206 = (shapeCast S64 (after ops V main_v205) shapeCasts_S1x64_S64 : (⟨S64, .f32⟩ : BufTy).Contents (Elt F)) :=
  re V (at3 82 rfl)

theorem st_main_v195 :
    after ops V main_v195 = (((fun p a b => select (broadcastInDim S64 ![] bcast_S_S64 p) a b)) : (⟨S_, .i1⟩ : BufTy).Contents (Elt F) → (⟨S64, .f32⟩ : BufTy).Contents (Elt F) → (⟨S64, .f32⟩ : BufTy).Contents (Elt F) → (⟨S64, .f32⟩ : BufTy).Contents (Elt F)) (after ops V main_call8_v12) (after ops V main_call8_v11) (after ops V main_call8_call0_v1) := by
  have h := ops_staged.after_eq V _ (at3 70 rfl) _ (Finset.mem_singleton_self _)
  generalize after ops V = G at h ⊢
  exact h.trans (ternary_result ..)

theorem st_main_call8_call0_v1 :
    after ops V main_call8_call0_v1 = (((broadcastInDim S64 ![] bcast_S_S64)) : (⟨S_, .f32⟩ : BufTy).Contents (Elt F) → (⟨S64, .f32⟩ : BufTy).Contents (Elt F)) (after ops V main_call8_call0_v0) :=
  un V (at3 69 rfl)

theorem st_main_call8_call0_v0 :
    after ops V main_call8_call0_v0 = ((id) : (⟨S_, .f32⟩ : BufTy).Contents (Elt F) → (⟨S_, .f32⟩ : BufTy).Contents (Elt F)) (after ops V main_call8_cst_4) :=
  un V (at3 68 rfl)

theorem st_main_call8_cst_4 :
    after ops V main_call8_cst_4 = ((constant S_ .f32 0x7FC00000#32) : (⟨S_, .f32⟩ : BufTy).Contents (Elt F)) :=
  nu V (at3 67 rfl)

theorem st_main_call8_v12 :
    after ops V main_call8_v12 = (((cmpf .ogt)) : (⟨S_, .f32⟩ : BufTy).Contents (Elt F) → (⟨S_, .f32⟩ : BufTy).Contents (Elt F) → (⟨S_, .i1⟩ : BufTy).Contents (Elt F)) (after ops V main_call8_v8) (after ops V main_call8_cst_3) :=
  bi V (at3 66 rfl)

theorem st_main_call8_cst_3 :
    after ops V main_call8_cst_3 = ((constant S_ .f32 0x00000000#32) : (⟨S_, .f32⟩ : BufTy).Contents (Elt F)) :=
  nu V (at3 65 rfl)

theorem st_main_call8_v11 :
    after ops V main_call8_v11 = ((Host.divf) : (⟨S64, .f32⟩ : BufTy).Contents (Elt F) → (⟨S64, .f32⟩ : BufTy).Contents (Elt F) → (⟨S64, .f32⟩ : BufTy).Contents (Elt F)) (after ops V main_call8_v9) (after ops V main_call8_v10) :=
  bi V (at3 64 rfl)

theorem st_main_call8_v10 :
    after ops V main_call8_v10 = (((broadcastInDim S64 ![] bcast_S_S64)) : (⟨S_, .f32⟩ : BufTy).Contents (Elt F) → (⟨S64, .f32⟩ : BufTy).Contents (Elt F)) (after ops V main_call8_v8) :=
  un V (at3 63 rfl)

theorem st_main_call8_v9 :
    after ops V main_call8_v9 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_call8_v6) (after ops V main_call8_cst_2) :=
  bi V (at3 62 rfl)

theorem st_main_call8_cst_2 :
    after ops V main_call8_cst_2 = ((constant S_ .f32 0x00000000#32) : (⟨S_, .f32⟩ : BufTy).Contents (Elt F)) :=
  nu V (at3 61 rfl)

theorem st_main_call8_v8 :
    after ops V main_call8_v8 = ((subf) : (⟨S_, .f32⟩ : BufTy).Contents (Elt F) → (⟨S_, .f32⟩ : BufTy).Contents (Elt F) → (⟨S_, .f32⟩ : BufTy).Contents (Elt F)) (after ops V main_call8_cst_1) (after ops V main_call8_v7) :=
  bi V (at3 60 rfl)

theorem st_main_call8_cst_1 :
    after ops V main_call8_cst_1 = ((constant S_ .f32 0x47435000#32) : (⟨S_, .f32⟩ : BufTy).Contents (Elt F)) :=
  nu V (at3 59 rfl)

theorem st_main_call8_v7 :
    after ops V main_call8_v7 = (((sitofp .f32)) : (⟨S_, .i32⟩ : BufTy).Contents (Elt F) → (⟨S_, .f32⟩ : BufTy).Contents (Elt F)) (after ops V main_c_29) :=
  un V (at3 58 rfl)

theorem st_main_call8_v6 :
    after ops V main_call8_v6 = ((mulf) : (⟨S50000x64, .f32⟩ : BufTy).Contents (Elt F) → (⟨S50000x64, .f32⟩ : BufTy).Contents (Elt F) → (⟨S50000x64, .f32⟩ : BufTy).Contents (Elt F)) (after ops V main_call8_v5) (after ops V main_call8_v5) :=
  bi V (at3 57 rfl)

theorem st_main_call8_v5 :
    after ops V main_call8_v5 = ((subf) : (⟨S50000x64, .f32⟩ : BufTy).Contents (Elt F) → (⟨S50000x64, .f32⟩ : BufTy).Contents (Elt F) → (⟨S50000x64, .f32⟩ : BufTy).Contents (Elt F)) (after ops V main_v191) (after ops V main_call8_v4) :=
  bi V (at3 56 rfl)

theorem st_main_call8_v4 :
    after ops V main_call8_v4 = (((broadcastInDim S50000x64 ![0, 1] bcast_S1x64_S50000x64_0_1)) : (⟨S1x64, .f32⟩ : BufTy).Contents (Elt F) → (⟨S50000x64, .f32⟩ : BufTy).Contents (Elt F)) (after ops V main_call8_v3) :=
  un V (at3 55 rfl)

theorem st_main_call8_v3 :
    after ops V main_call8_v3 = ((Host.divf) : (⟨S1x64, .f32⟩ : BufTy).Contents (Elt F) → (⟨S1x64, .f32⟩ : BufTy).Contents (Elt F) → (⟨S1x64, .f32⟩ : BufTy).Contents (Elt F)) (after ops V main_call8_v1) (after ops V main_call8_v2) :=
  bi V (at3 54 rfl)

theorem st_main_call8_v2 :
    after ops V main_call8_v2 = (((broadcastInDim S1x64 ![] bcast_S_S1x64)) : (⟨S_, .f32⟩ : BufTy).Contents (Elt F) → (⟨S1x64, .f32⟩ : BufTy).Contents (Elt F)) (after ops V main_call8_cst_0) :=
  un V (at3 53 rfl)

theorem st_main_call8_cst_0 :
    after ops V main_call8_cst_0 = ((constant S_ .f32 0x47435000#32) : (⟨S_, .f32⟩ : BufTy).Contents (Elt F)) :=
  nu V (at3 52 rfl)

theorem st_main_call8_v1 :
    after ops V main_call8_v1 = (((broadcastInDim S1x64 ![1] bcast_S64_S1x64_1)) : (⟨S64, .f32⟩ : BufTy).Contents (Elt F) → (⟨S1x64, .f32⟩ : BufTy).Contents (Elt F)) (after ops V main_call8_v0) :=
  un V (at3 51 rfl)

theorem st_main_call8_v0 :
    after ops V main_call8_v0 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_v191) (after ops V main_call8_cst) :=
  bi V (at3 50 rfl)

theorem st_main_call8_cst :
    after ops V main_call8_cst = ((constant S_ .f32 0x00000000#32) : (⟨S_, .f32⟩ : BufTy).Contents (Elt F)) :=
  nu V (at3 49 rfl)

theorem st_main_v191 :
    after ops V main_v191 = ((select) : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) (after ops V main_v186) (after ops V main_v184) (after ops V main_v190) :=
  te V (at3 42 rfl)

theorem st_main_v188 :
    after ops V main_v188 = (shapeCast S_ (after ops V main_v187) shapeCasts_S1_S_ : (⟨S_, .f32⟩ : BufTy).Contents (Elt F)) :=
  re V (at3 39 rfl)

theorem st_main_v181 :
    after ops V main_v181 = (shapeCast S64 (after ops V main_v180) shapeCasts_S1x64_S64 : (⟨S64, .f32⟩ : BufTy).Contents (Elt F)) :=
  re V (at3 31 rfl)

theorem st_main_v178 :
    after ops V main_v178 = (shapeCast S128x64 (after ops V main_v177) shapeCasts_S1x128x64_S128x64 : (⟨S128x64, .f32⟩ : BufTy).Contents (Elt F)) :=
  re V (at3 28 rfl)

theorem st_main_v170 :
    after ops V main_v170 = ((maximumf) : (⟨S800000x64, .f32⟩ : BufTy).Contents (Elt F) → (⟨S800000x64, .f32⟩ : BufTy).Contents (Elt F) → (⟨S800000x64, .f32⟩ : BufTy).Contents (Elt F)) (after ops V main_v169) (after ops V main_call6_v0) :=
  bi V (at3 19 rfl)

theorem st_main_call6_v0 :
    after ops V main_call6_v0 = (((broadcastInDim S800000x64 ![] bcast_S_S800000x64)) : (⟨S_, .f32⟩ : BufTy).Contents (Elt F) → (⟨S800000x64, .f32⟩ : BufTy).Contents (Elt F)) (after ops V main_call6_cst) :=
  un V (at3 18 rfl)

theorem st_main_call6_cst :
    after ops V main_call6_cst = ((constant S_ .f32 0x00000000#32) : (⟨S_, .f32⟩ : BufTy).Contents (Elt F)) :=
  nu V (at3 17 rfl)

theorem st_main_v166 :
    after ops V main_v166 = (shapeCast S64 (after ops V main_v165) shapeCasts_S1x64_S64 : (⟨S64, .f32⟩ : BufTy).Contents (Elt F)) :=
  re V (at3 13 rfl)

theorem st_main_v163 :
    after ops V main_v163 = (shapeCast S128x64 (after ops V main_v162) shapeCasts_S1x128x64_S128x64 : (⟨S128x64, .f32⟩ : BufTy).Contents (Elt F)) :=
  re V (at3 10 rfl)

theorem st_main_v279 :
    after ops V main_v279 = (shapeCast S64 (after ops V main_v278) shapeCasts_S1x64_S64 : (⟨S64, .f32⟩ : BufTy).Contents (Elt F)) :=
  re V (at5 43 rfl)

theorem st_main_v274 :
    after ops V main_v274 = (shapeCast S64 (after ops V main_v273) shapeCasts_S1x64_S64 : (⟨S64, .f32⟩ : BufTy).Contents (Elt F)) :=
  re V (at5 38 rfl)

theorem st_main_v263 :
    after ops V main_v263 = (((fun p a b => select (broadcastInDim S64 ![] bcast_S_S64 p) a b)) : (⟨S_, .i1⟩ : BufTy).Contents (Elt F) → (⟨S64, .f32⟩ : BufTy).Contents (Elt F) → (⟨S64, .f32⟩ : BufTy).Contents (Elt F) → (⟨S64, .f32⟩ : BufTy).Contents (Elt F)) (after ops V main_call11_v12) (after ops V main_call11_v11) (after ops V main_call11_call0_v1) := by
  have h := ops_staged.after_eq V _ (at5 26 rfl) _ (Finset.mem_singleton_self _)
  generalize after ops V = G at h ⊢
  exact h.trans (ternary_result ..)

theorem st_main_call11_call0_v1 :
    after ops V main_call11_call0_v1 = (((broadcastInDim S64 ![] bcast_S_S64)) : (⟨S_, .f32⟩ : BufTy).Contents (Elt F) → (⟨S64, .f32⟩ : BufTy).Contents (Elt F)) (after ops V main_call11_call0_v0) :=
  un V (at5 25 rfl)

theorem st_main_call11_call0_v0 :
    after ops V main_call11_call0_v0 = ((id) : (⟨S_, .f32⟩ : BufTy).Contents (Elt F) → (⟨S_, .f32⟩ : BufTy).Contents (Elt F)) (after ops V main_call11_cst_4) :=
  un V (at5 24 rfl)

theorem st_main_call11_cst_4 :
    after ops V main_call11_cst_4 = ((constant S_ .f32 0x7FC00000#32) : (⟨S_, .f32⟩ : BufTy).Contents (Elt F)) :=
  nu V (at5 23 rfl)

theorem st_main_call11_v12 :
    after ops V main_call11_v12 = (((cmpf .ogt)) : (⟨S_, .f32⟩ : BufTy).Contents (Elt F) → (⟨S_, .f32⟩ : BufTy).Contents (Elt F) → (⟨S_, .i1⟩ : BufTy).Contents (Elt F)) (after ops V main_call11_v8) (after ops V main_call11_cst_3) :=
  bi V (at5 22 rfl)

theorem st_main_call11_cst_3 :
    after ops V main_call11_cst_3 = ((constant S_ .f32 0x00000000#32) : (⟨S_, .f32⟩ : BufTy).Contents (Elt F)) :=
  nu V (at5 21 rfl)

theorem st_main_call11_v11 :
    after ops V main_call11_v11 = ((Host.divf) : (⟨S64, .f32⟩ : BufTy).Contents (Elt F) → (⟨S64, .f32⟩ : BufTy).Contents (Elt F) → (⟨S64, .f32⟩ : BufTy).Contents (Elt F)) (after ops V main_call11_v9) (after ops V main_call11_v10) :=
  bi V (at5 20 rfl)

theorem st_main_call11_v10 :
    after ops V main_call11_v10 = (((broadcastInDim S64 ![] bcast_S_S64)) : (⟨S_, .f32⟩ : BufTy).Contents (Elt F) → (⟨S64, .f32⟩ : BufTy).Contents (Elt F)) (after ops V main_call11_v8) :=
  un V (at5 19 rfl)

theorem st_main_call11_v9 :
    after ops V main_call11_v9 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_call11_v6) (after ops V main_call11_cst_2) :=
  bi V (at5 18 rfl)

theorem st_main_call11_cst_2 :
    after ops V main_call11_cst_2 = ((constant S_ .f32 0x00000000#32) : (⟨S_, .f32⟩ : BufTy).Contents (Elt F)) :=
  nu V (at5 17 rfl)

theorem st_main_call11_v8 :
    after ops V main_call11_v8 = ((subf) : (⟨S_, .f32⟩ : BufTy).Contents (Elt F) → (⟨S_, .f32⟩ : BufTy).Contents (Elt F) → (⟨S_, .f32⟩ : BufTy).Contents (Elt F)) (after ops V main_call11_cst_1) (after ops V main_call11_v7) :=
  bi V (at5 16 rfl)

theorem st_main_call11_cst_1 :
    after ops V main_call11_cst_1 = ((constant S_ .f32 0x47435000#32) : (⟨S_, .f32⟩ : BufTy).Contents (Elt F)) :=
  nu V (at5 15 rfl)

theorem st_main_call11_v7 :
    after ops V main_call11_v7 = (((sitofp .f32)) : (⟨S_, .i32⟩ : BufTy).Contents (Elt F) → (⟨S_, .f32⟩ : BufTy).Contents (Elt F)) (after ops V main_c_39) :=
  un V (at5 14 rfl)

theorem st_main_call11_v6 :
    after ops V main_call11_v6 = ((mulf) : (⟨S50000x64, .f32⟩ : BufTy).Contents (Elt F) → (⟨S50000x64, .f32⟩ : BufTy).Contents (Elt F) → (⟨S50000x64, .f32⟩ : BufTy).Contents (Elt F)) (after ops V main_call11_v5) (after ops V main_call11_v5) :=
  bi V (at5 13 rfl)

theorem st_main_call11_v5 :
    after ops V main_call11_v5 = ((subf) : (⟨S50000x64, .f32⟩ : BufTy).Contents (Elt F) → (⟨S50000x64, .f32⟩ : BufTy).Contents (Elt F) → (⟨S50000x64, .f32⟩ : BufTy).Contents (Elt F)) (after ops V main_v259) (after ops V main_call11_v4) :=
  bi V (at5 12 rfl)

theorem st_main_call11_v4 :
    after ops V main_call11_v4 = (((broadcastInDim S50000x64 ![0, 1] bcast_S1x64_S50000x64_0_1)) : (⟨S1x64, .f32⟩ : BufTy).Contents (Elt F) → (⟨S50000x64, .f32⟩ : BufTy).Contents (Elt F)) (after ops V main_call11_v3) :=
  un V (at5 11 rfl)

theorem st_main_call11_v3 :
    after ops V main_call11_v3 = ((Host.divf) : (⟨S1x64, .f32⟩ : BufTy).Contents (Elt F) → (⟨S1x64, .f32⟩ : BufTy).Contents (Elt F) → (⟨S1x64, .f32⟩ : BufTy).Contents (Elt F)) (after ops V main_call11_v1) (after ops V main_call11_v2) :=
  bi V (at5 10 rfl)

theorem st_main_call11_v2 :
    after ops V main_call11_v2 = (((broadcastInDim S1x64 ![] bcast_S_S1x64)) : (⟨S_, .f32⟩ : BufTy).Contents (Elt F) → (⟨S1x64, .f32⟩ : BufTy).Contents (Elt F)) (after ops V main_call11_cst_0) :=
  un V (at5 9 rfl)

theorem st_main_call11_cst_0 :
    after ops V main_call11_cst_0 = ((constant S_ .f32 0x47435000#32) : (⟨S_, .f32⟩ : BufTy).Contents (Elt F)) :=
  nu V (at5 8 rfl)

theorem st_main_call11_v1 :
    after ops V main_call11_v1 = (((broadcastInDim S1x64 ![1] bcast_S64_S1x64_1)) : (⟨S64, .f32⟩ : BufTy).Contents (Elt F) → (⟨S1x64, .f32⟩ : BufTy).Contents (Elt F)) (after ops V main_call11_v0) :=
  un V (at5 7 rfl)

theorem st_main_call11_v0 :
    after ops V main_call11_v0 = (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)) (after ops V main_v259) (after ops V main_call11_cst) :=
  bi V (at5 6 rfl)

theorem st_main_call11_cst :
    after ops V main_call11_cst = ((constant S_ .f32 0x00000000#32) : (⟨S_, .f32⟩ : BufTy).Contents (Elt F)) :=
  nu V (at5 5 rfl)

theorem st_main_v259 :
    after ops V main_v259 = ((select) : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) (after ops V main_v254) (after ops V main_v252) (after ops V main_v258) :=
  te V (at4 60 rfl)

theorem st_main_v256 :
    after ops V main_v256 = (shapeCast S_ (after ops V main_v255) shapeCasts_S1_S_ : (⟨S_, .f32⟩ : BufTy).Contents (Elt F)) :=
  re V (at4 57 rfl)

theorem st_main_v249 :
    after ops V main_v249 = (shapeCast S64 (after ops V main_v248) shapeCasts_S1x64_S64 : (⟨S64, .f32⟩ : BufTy).Contents (Elt F)) :=
  re V (at4 49 rfl)

theorem st_main_v246 :
    after ops V main_v246 = (shapeCast S128x64 (after ops V main_v245) shapeCasts_S1x128x64_S128x64 : (⟨S128x64, .f32⟩ : BufTy).Contents (Elt F)) :=
  re V (at4 46 rfl)

theorem st_main_v238 :
    after ops V main_v238 = ((maximumf) : (⟨S800000x64, .f32⟩ : BufTy).Contents (Elt F) → (⟨S800000x64, .f32⟩ : BufTy).Contents (Elt F) → (⟨S800000x64, .f32⟩ : BufTy).Contents (Elt F)) (after ops V main_v237) (after ops V main_call9_v0) :=
  bi V (at4 37 rfl)

theorem st_main_call9_v0 :
    after ops V main_call9_v0 = (((broadcastInDim S800000x64 ![] bcast_S_S800000x64)) : (⟨S_, .f32⟩ : BufTy).Contents (Elt F) → (⟨S800000x64, .f32⟩ : BufTy).Contents (Elt F)) (after ops V main_call9_cst) :=
  un V (at4 36 rfl)

theorem st_main_call9_cst :
    after ops V main_call9_cst = ((constant S_ .f32 0x00000000#32) : (⟨S_, .f32⟩ : BufTy).Contents (Elt F)) :=
  nu V (at4 35 rfl)

theorem st_main_v234 :
    after ops V main_v234 = (shapeCast S64 (after ops V main_v233) shapeCasts_S1x64_S64 : (⟨S64, .f32⟩ : BufTy).Contents (Elt F)) :=
  re V (at4 31 rfl)

theorem st_main_v231 :
    after ops V main_v231 = (shapeCast S128x64 (after ops V main_v230) shapeCasts_S1x128x64_S128x64 : (⟨S128x64, .f32⟩ : BufTy).Contents (Elt F)) :=
  re V (at4 28 rfl)

end

set_option maxRecDepth 16384 in
set_option maxHeartbeats 4000000 in
/-- A layer's output buffer, rewritten operation by operation from the last back to the first, is the printed layer function of the layer's input and the arguments. -/
theorem stage0 (V : Valuation τ sig (Elt Ideal)) :
    after ops V main_v78 = refLayer0 (V main_arg1) (V main_arg3) (V main_arg4) (V main_arg5) (V main_arg6) (V main_arg7) (V main_arg8) (V main_arg9) (V main_arg0) := by
  rw [bi V (at1 52 rfl), un V (at1 51 rfl), un V (at1 50 rfl), st_main_v75 V, un V (at1 48 rfl), bi V (at1 47 rfl),
    un V (at1 46 rfl), un V (at1 45 rfl), st_main_v70 V, un V (at1 43 rfl), bi V (at1 42 rfl), un V (at1 41 rfl),
    un V (at1 40 rfl), un V (at1 39 rfl), bi V (at1 38 rfl), un V (at1 37 rfl), nu V (at1 36 rfl), bi V (at1 35 rfl),
    un V (at1 34 rfl), un V (at1 33 rfl), st_main_v59 V, st_main_call2_call0_v1 V, st_main_call2_call0_v0 V,
    st_main_call2_cst_4 V, st_main_call2_v12 V, st_main_call2_cst_3 V, st_main_call2_v11 V, st_main_call2_v10 V,
    st_main_call2_v9 V, st_main_call2_cst_2 V, st_main_call2_v8 V, st_main_call2_cst_1 V, st_main_call2_v7 V,
    st_main_call2_v6 V, st_main_call2_v5 V, st_main_call2_v4 V, st_main_call2_v3 V, st_main_call2_v2 V,
    st_main_call2_cst_0 V, st_main_call2_v1 V, st_main_call2_v0 V, st_main_call2_cst V, nu V (at1 10 rfl),
    bi V (at1 9 rfl), un V (at1 8 rfl), nu V (at1 7 rfl), bi V (at1 6 rfl), nu V (at1 5 rfl), st_main_v55 V,
    bi V (at1 3 rfl), un V (at1 2 rfl), st_main_v52 V, un V (at1 0 rfl), bi V (at0 61 rfl), un V (at0 60 rfl),
    nu V (at0 59 rfl), bi V (at0 58 rfl), un V (at0 57 rfl), un V (at0 56 rfl), st_main_v45 V, un V (at0 54 rfl),
    bi V (at0 53 rfl), st_main_v42 V, un V (at0 51 rfl), bi V (at0 50 rfl), bi V (at0 49 rfl), un V (at0 48 rfl),
    te V (at0 47 rfl), un V (at0 46 rfl), un V (at0 45 rfl), nu V (at0 44 rfl), st_main_v34 V, st_main_call0_v0 V,
    st_main_call0_cst V, bi V (at0 40 rfl), un V (at0 39 rfl), un V (at0 38 rfl), st_main_v30 V, un V (at0 36 rfl),
    bi V (at0 35 rfl), st_main_v27 V, un V (at0 33 rfl), bi V (at0 32 rfl), bi V (at0 31 rfl), un V (at0 30 rfl),
    te V (at0 29 rfl), bi V (at0 28 rfl), un V (at0 27 rfl), nu V (at0 26 rfl), bi V (at0 25 rfl), un V (at0 24 rfl),
    nu V (at0 23 rfl), bi V (at0 22 rfl), un V (at0 21 rfl), te V (at0 20 rfl), bi V (at0 19 rfl), un V (at0 18 rfl),
    nu V (at0 17 rfl), bi V (at0 16 rfl), un V (at0 15 rfl), nu V (at0 14 rfl), un V (at0 13 rfl), bi V (at0 12 rfl),
    un V (at0 11 rfl), nu V (at0 10 rfl), te V (at0 9 rfl), un V (at0 8 rfl), un V (at0 7 rfl), nu V (at0 6 rfl),
    un V (at0 5 rfl), nu V (at0 4 rfl), st_main_v3 V, un V (at0 2 rfl), st_main_v1 V, un V (at0 0 rfl)]
  rw [arg0_eq V, arg1_eq V, arg3_eq V, arg4_eq V, arg5_eq V, arg6_eq V, arg7_eq V, arg8_eq V, arg9_eq V]
  unfold refLayer0 refLayerG rNorm rU rPre rMsg rAgg rGat rSrc rDst rDeg rW rRow rSlope rMean rVar rMeanRows rDen
  rfl

set_option maxRecDepth 16384 in
set_option maxHeartbeats 4000000 in
theorem stage1 (V : Valuation τ sig (Elt Ideal)) :
    after ops V main_v146 = refLayer1 (V main_arg1) (V main_arg3) (V main_arg4) (V main_arg5) (V main_arg6) (V main_arg7) (V main_arg8) (V main_arg9) (after ops V main_v78) := by
  rw [bi V (at2 70 rfl), un V (at2 69 rfl), un V (at2 68 rfl), st_main_v143 V, un V (at2 66 rfl), bi V (at2 65 rfl),
    un V (at2 64 rfl), un V (at2 63 rfl), st_main_v138 V, un V (at2 61 rfl), bi V (at2 60 rfl), un V (at2 59 rfl),
    un V (at2 58 rfl), un V (at2 57 rfl), bi V (at2 56 rfl), un V (at2 55 rfl), nu V (at2 54 rfl), bi V (at2 53 rfl),
    un V (at2 52 rfl), un V (at2 51 rfl), st_main_v127 V, st_main_call5_call0_v1 V, st_main_call5_call0_v0 V,
    st_main_call5_cst_4 V, st_main_call5_v12 V, st_main_call5_cst_3 V, st_main_call5_v11 V, st_main_call5_v10 V,
    st_main_call5_v9 V, st_main_call5_cst_2 V, st_main_call5_v8 V, st_main_call5_cst_1 V, st_main_call5_v7 V,
    st_main_call5_v6 V, st_main_call5_v5 V, st_main_call5_v4 V, st_main_call5_v3 V, st_main_call5_v2 V,
    st_main_call5_cst_0 V, st_main_call5_v1 V, st_main_call5_v0 V, st_main_call5_cst V, nu V (at2 28 rfl),
    bi V (at2 27 rfl), un V (at2 26 rfl), nu V (at2 25 rfl), bi V (at2 24 rfl), nu V (at2 23 rfl), st_main_v123 V,
    bi V (at2 21 rfl), un V (at2 20 rfl), st_main_v120 V, un V (at2 18 rfl), bi V (at2 17 rfl), un V (at2 16 rfl),
    nu V (at2 15 rfl), bi V (at2 14 rfl), un V (at2 13 rfl), un V (at2 12 rfl), st_main_v113 V, un V (at2 10 rfl),
    bi V (at2 9 rfl), st_main_v110 V, un V (at2 7 rfl), bi V (at2 6 rfl), bi V (at2 5 rfl), un V (at2 4 rfl),
    te V (at2 3 rfl), un V (at2 2 rfl), un V (at2 1 rfl), nu V (at2 0 rfl), st_main_v102 V, st_main_call3_v0 V,
    st_main_call3_cst V, bi V (at1 79 rfl), un V (at1 78 rfl), un V (at1 77 rfl), st_main_v98 V, un V (at1 75 rfl),
    bi V (at1 74 rfl), st_main_v95 V, un V (at1 72 rfl), bi V (at1 71 rfl), bi V (at1 70 rfl), un V (at1 69 rfl),
    te V (at1 68 rfl), bi V (at1 67 rfl), un V (at1 66 rfl), nu V (at1 65 rfl), bi V (at1 64 rfl), un V (at1 63 rfl),
    nu V (at1 62 rfl), bi V (at1 61 rfl), un V (at1 60 rfl), te V (at1 59 rfl), bi V (at1 58 rfl), un V (at1 57 rfl),
    nu V (at1 56 rfl), bi V (at1 55 rfl), un V (at1 54 rfl), nu V (at1 53 rfl), un V (at0 13 rfl), bi V (at0 12 rfl),
    un V (at0 11 rfl), nu V (at0 10 rfl), te V (at0 9 rfl), un V (at0 8 rfl), un V (at0 7 rfl), nu V (at0 6 rfl),
    un V (at0 5 rfl), nu V (at0 4 rfl), st_main_v3 V, un V (at0 2 rfl), st_main_v1 V, un V (at0 0 rfl)]
  rw [arg1_eq V, arg3_eq V, arg4_eq V, arg5_eq V, arg6_eq V, arg7_eq V, arg8_eq V, arg9_eq V]
  unfold refLayer1 refLayerG rNorm rU rPre rMsg rAgg rGat rSrc rDst rDeg rW rRow rSlope rMean rVar rMeanRows rDen
  rfl

set_option maxRecDepth 16384 in
set_option maxHeartbeats 4000000 in
theorem stage2 (V : Valuation τ sig (Elt Ideal)) :
    after ops V main_v214 = refLayer2 (V main_arg1) (V main_arg3) (V main_arg4) (V main_arg5) (V main_arg6) (V main_arg7) (V main_arg8) (V main_arg9) (after ops V main_v146) := by
  rw [bi V (at4 7 rfl), un V (at4 6 rfl), un V (at4 5 rfl), st_main_v211 V, un V (at4 3 rfl), bi V (at4 2 rfl),
    un V (at4 1 rfl), un V (at4 0 rfl), st_main_v206 V, un V (at3 81 rfl), bi V (at3 80 rfl), un V (at3 79 rfl),
    un V (at3 78 rfl), un V (at3 77 rfl), bi V (at3 76 rfl), un V (at3 75 rfl), nu V (at3 74 rfl), bi V (at3 73 rfl),
    un V (at3 72 rfl), un V (at3 71 rfl), st_main_v195 V, st_main_call8_call0_v1 V, st_main_call8_call0_v0 V,
    st_main_call8_cst_4 V, st_main_call8_v12 V, st_main_call8_cst_3 V, st_main_call8_v11 V, st_main_call8_v10 V,
    st_main_call8_v9 V, st_main_call8_cst_2 V, st_main_call8_v8 V, st_main_call8_cst_1 V, st_main_call8_v7 V,
    st_main_call8_v6 V, st_main_call8_v5 V, st_main_call8_v4 V, st_main_call8_v3 V, st_main_call8_v2 V,
    st_main_call8_cst_0 V, st_main_call8_v1 V, st_main_call8_v0 V, st_main_call8_cst V, nu V (at3 48 rfl),
    bi V (at3 47 rfl), un V (at3 46 rfl), nu V (at3 45 rfl), bi V (at3 44 rfl), nu V (at3 43 rfl), st_main_v191 V,
    bi V (at3 41 rfl), un V (at3 40 rfl), st_main_v188 V, un V (at3 38 rfl), bi V (at3 37 rfl), un V (at3 36 rfl),
    nu V (at3 35 rfl), bi V (at3 34 rfl), un V (at3 33 rfl), un V (at3 32 rfl), st_main_v181 V, un V (at3 30 rfl),
    bi V (at3 29 rfl), st_main_v178 V, un V (at3 27 rfl), bi V (at3 26 rfl), bi V (at3 25 rfl), un V (at3 24 rfl),
    te V (at3 23 rfl), un V (at3 22 rfl), un V (at3 21 rfl), nu V (at3 20 rfl), st_main_v170 V, st_main_call6_v0 V,
    st_main_call6_cst V, bi V (at3 16 rfl), un V (at3 15 rfl), un V (at3 14 rfl), st_main_v166 V, un V (at3 12 rfl),
    bi V (at3 11 rfl), st_main_v163 V, un V (at3 9 rfl), bi V (at3 8 rfl), bi V (at3 7 rfl), un V (at3 6 rfl),
    te V (at3 5 rfl), bi V (at3 4 rfl), un V (at3 3 rfl), nu V (at3 2 rfl), bi V (at3 1 rfl), un V (at3 0 rfl),
    nu V (at2 80 rfl), bi V (at2 79 rfl), un V (at2 78 rfl), te V (at2 77 rfl), bi V (at2 76 rfl), un V (at2 75 rfl),
    nu V (at2 74 rfl), bi V (at2 73 rfl), un V (at2 72 rfl), nu V (at2 71 rfl), un V (at0 13 rfl), bi V (at0 12 rfl),
    un V (at0 11 rfl), nu V (at0 10 rfl), te V (at0 9 rfl), un V (at0 8 rfl), un V (at0 7 rfl), nu V (at0 6 rfl),
    un V (at0 5 rfl), nu V (at0 4 rfl), st_main_v3 V, un V (at0 2 rfl), st_main_v1 V, un V (at0 0 rfl)]
  rw [arg1_eq V, arg3_eq V, arg4_eq V, arg5_eq V, arg6_eq V, arg7_eq V, arg8_eq V, arg9_eq V]
  unfold refLayer2 refLayerG rNorm rU rPre rMsg rAgg rGat rSrc rDst rDeg rW rRow rSlope rMean rVar rMeanRows rDen
  rfl

set_option maxRecDepth 16384 in
set_option maxHeartbeats 4000000 in
theorem stage3 (V : Valuation τ sig (Elt Ideal)) :
    after ops V main_v282 = refLayer3 (V main_arg1) (V main_arg3) (V main_arg4) (V main_arg5) (V main_arg6) (V main_arg7) (V main_arg8) (V main_arg9) (after ops V main_v214) := by
  rw [bi V (at5 46 rfl), un V (at5 45 rfl), un V (at5 44 rfl), st_main_v279 V, un V (at5 42 rfl), bi V (at5 41 rfl),
    un V (at5 40 rfl), un V (at5 39 rfl), st_main_v274 V, un V (at5 37 rfl), bi V (at5 36 rfl), un V (at5 35 rfl),
    un V (at5 34 rfl), un V (at5 33 rfl), bi V (at5 32 rfl), un V (at5 31 rfl), nu V (at5 30 rfl), bi V (at5 29 rfl),
    un V (at5 28 rfl), un V (at5 27 rfl), st_main_v263 V, st_main_call11_call0_v1 V, st_main_call11_call0_v0 V,
    st_main_call11_cst_4 V, st_main_call11_v12 V, st_main_call11_cst_3 V, st_main_call11_v11 V, st_main_call11_v10 V,
    st_main_call11_v9 V, st_main_call11_cst_2 V, st_main_call11_v8 V, st_main_call11_cst_1 V, st_main_call11_v7 V,
    st_main_call11_v6 V, st_main_call11_v5 V, st_main_call11_v4 V, st_main_call11_v3 V, st_main_call11_v2 V,
    st_main_call11_cst_0 V, st_main_call11_v1 V, st_main_call11_v0 V, st_main_call11_cst V, nu V (at5 4 rfl),
    bi V (at5 3 rfl), un V (at5 2 rfl), nu V (at5 1 rfl), bi V (at5 0 rfl), nu V (at4 61 rfl), st_main_v259 V,
    bi V (at4 59 rfl), un V (at4 58 rfl), st_main_v256 V, un V (at4 56 rfl), bi V (at4 55 rfl), un V (at4 54 rfl),
    nu V (at4 53 rfl), bi V (at4 52 rfl), un V (at4 51 rfl), un V (at4 50 rfl), st_main_v249 V, un V (at4 48 rfl),
    bi V (at4 47 rfl), st_main_v246 V, un V (at4 45 rfl), bi V (at4 44 rfl), bi V (at4 43 rfl), un V (at4 42 rfl),
    te V (at4 41 rfl), un V (at4 40 rfl), un V (at4 39 rfl), nu V (at4 38 rfl), st_main_v238 V, st_main_call9_v0 V,
    st_main_call9_cst V, bi V (at4 34 rfl), un V (at4 33 rfl), un V (at4 32 rfl), st_main_v234 V, un V (at4 30 rfl),
    bi V (at4 29 rfl), st_main_v231 V, un V (at4 27 rfl), bi V (at4 26 rfl), bi V (at4 25 rfl), un V (at4 24 rfl),
    te V (at4 23 rfl), bi V (at4 22 rfl), un V (at4 21 rfl), nu V (at4 20 rfl), bi V (at4 19 rfl), un V (at4 18 rfl),
    nu V (at4 17 rfl), bi V (at4 16 rfl), un V (at4 15 rfl), te V (at4 14 rfl), bi V (at4 13 rfl), un V (at4 12 rfl),
    nu V (at4 11 rfl), bi V (at4 10 rfl), un V (at4 9 rfl), nu V (at4 8 rfl), un V (at0 13 rfl), bi V (at0 12 rfl),
    un V (at0 11 rfl), nu V (at0 10 rfl), te V (at0 9 rfl), un V (at0 8 rfl), un V (at0 7 rfl), nu V (at0 6 rfl),
    un V (at0 5 rfl), nu V (at0 4 rfl), st_main_v3 V, un V (at0 2 rfl), st_main_v1 V, un V (at0 0 rfl)]
  rw [arg1_eq V, arg3_eq V, arg4_eq V, arg5_eq V, arg6_eq V, arg7_eq V, arg8_eq V, arg9_eq V]
  unfold refLayer3 refLayerG rNorm rU rPre rMsg rAgg rGat rSrc rDst rDeg rW rRow rSlope rMean rVar rMeanRows rDen
  rfl

end Cert.ReferenceIdeal.Val

end
-- ==== Proof.RHeadFn.lean ====
import proofs.«428660_j69922067578969_2_alg».proof.Proof.Shared
import proofs.«428660_j69922067578969_2_alg».proof.Proof.Gen.ReferenceIdeal
import proofs.«428660_j69922067578969_2_alg».proof.Proof.LibPlainDot
import Idealize.ShloMosaic.Lib.Pipeline.Value

noncomputable section

namespace Cert.ReferenceIdeal.Val

open Idealize.ShloMosaic Idealize.ShloMosaic.ValueIdx Cert.ReferenceIdeal Cert.ReferenceIdeal.Gen Cert.Spec
open scoped BigOperators

def refHead (bt : IVec S50000 32) (W1 : A2 64 64) (b1 : A1 64) (W2 : A2 64 10) (b2 : A1 10) (h : A2 50000 64) :
    A2 500 10 :=
  addf
    (Host.dotGeneral (φ₂ := .f32) dot_S500x64_S64x10_S500x10_1_0_0_1_n_n none
      (maximumf
        (addf
          (Host.dotGeneral (φ₂ := .f32) dot_S500x64_S64x64_S500x64_1_0_0_1_n_n none
            (Host.divf
              (Host.scatterAdd scatter_S500x64_S50000x1_S50000x64_1_0_0_1
                (broadcastInDim S500x64 ![] bcast_S_S500x64 (constant (F := Ideal) S_ .f32 0x00000000#32))
                (broadcastInDim S50000x1 ![0] bcast_S50000_S50000x1_0 bt) h)
              (broadcastInDim S500x64 ![0, 1] bcast_S500x1_S500x64_0_1
                (broadcastInDim S500x1 ![0] bcast_S500_S500x1_0
                  (maximumf
                    (Host.scatterAdd scatter_S500_S50000x1_S50000_n_0_0_1
                      (broadcastInDim S500 ![] bcast_S_S500 (constant (F := Ideal) S_ .f32 0x00000000#32))
                      (broadcastInDim S50000x1 ![0] bcast_S50000_S50000x1_0 bt)
                      (broadcastInDim S50000 ![] bcast_S_S50000 (constant (F := Ideal) S_ .f32 0x3F800000#32)))
                    (broadcastInDim S500 ![] bcast_S_S500 (constant (F := Ideal) S_ .f32 0x3F800000#32))))))
            W1)
          (broadcastInDim S500x64 ![0, 1] bcast_S1x64_S500x64_0_1 (broadcastInDim S1x64 ![1] bcast_S64_S1x64_1 b1)))
        (broadcastInDim S500x64 ![] bcast_S_S500x64 (constant (F := Ideal) S_ .f32 0x00000000#32)))
      W2)
    (broadcastInDim S500x10 ![0, 1] bcast_S1x10_S500x10_0_1 (broadcastInDim S1x10 ![1] bcast_S10_S1x10_1 b2))

theorem row_bias_apply {α : Type} {R m : ℕ} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![R, m]⟩ ![0, 1]) (p : Fin R) (q : Fin m) :
    broadcastInDim ⟨2, ![R, m]⟩ ![0, 1] h2 (broadcastInDim ⟨2, ![1, m]⟩ ![1] h1 b) (ix2 p q) = b (ix1 q) := by
  have hq : q.val < m := q.isLt
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ =>
      show q.val = if m = 1 then 0 else q.val
      split
      · omega
      · rfl
  · match a with
    | ⟨0, _⟩ =>
      show q.val = if m = 1 then 0 else q.val
      split
      · omega
      · rfl

theorem refHead_eq (bt : IVec S50000 32) (W1 : A2 64 64) (b1 : A1 64) (W2 : A2 64 10) (b2 : A1 10) (h : A2 50000 64) :
    refHead bt W1 b1 W2 b2 h = headLoc (Cert.Shared.pool bt h) W1 (asRow b1) W2 (asRow b2) := by
  funext i
  obtain ⟨p, q, rfl⟩ : ∃ p q, i = ix2 p q := ⟨i 0, i 1, eq_ix2 i⟩
  unfold refHead headLoc Host.dotGeneral
  rw [addf_apply, row_bias_apply,
    LibPlainDot.dotGeneral_apply dot_S500x64_S64x10_S500x10_1_0_0_1_n_n rfl rfl rfl rfl rfl rfl]
  refine congrArg₂ (· + ·) (Finset.sum_congr rfl fun k _ => ?_) rfl
  refine congrArg₂ (· * ·) ?_ rfl
  rw [maximumf_apply, addf_apply, row_bias_apply,
    LibPlainDot.dotGeneral_apply dot_S500x64_S64x64_S500x64_1_0_0_1_n_n rfl rfl rfl rfl rfl rfl]
  rfl

end Cert.ReferenceIdeal.Val

end
-- ==== Proof.RValue.lean ====
import proofs.«428660_j69922067578969_2_alg».proof.Proof.RRank
import proofs.«428660_j69922067578969_2_alg».proof.Proof.RStage
import proofs.«428660_j69922067578969_2_alg».proof.Proof.RLayerFn
import proofs.«428660_j69922067578969_2_alg».proof.Proof.RHeadFn
import proofs.«428660_j69922067578969_2_alg».proof.Proof.SharedReal
import proofs.«428660_j69922067578969_2_alg».proof.Proof.Math

noncomputable section

namespace Cert.ReferenceIdeal.Val

open Cert.ReferenceIdeal Cert.ReferenceIdeal.Gen Idealize.ShloMosaic Idealize.ShloMosaic.TcCoe Idealize.SL.Sem Idealize.ShloMosaic.StableHlo
open Cert.Spec

theorem stageHead (V : Valuation τ sig (Elt Ideal)) :
    after ops V (main_v303 : DevRef τ sig)
      = refHead (V (main_arg2 : DevRef τ sig)) (V (main_arg10 : DevRef τ sig)) (V (main_arg11 : DevRef τ sig))
          (V (main_arg12 : DevRef τ sig)) (V (main_arg13 : DevRef τ sig)) (after ops V (main_v282 : DevRef τ sig)) := by
  rw [← arg2_eq V, ← arg10_eq V, ← arg11_eq V, ← arg12_eq V, ← arg13_eq V]
  have hfix := rerun V (ops5.drop 47) (fun op h => mem_ops5 (List.mem_of_mem_drop h))
  generalize after ops V = G at hfix ⊢
  conv_lhs => rw [← hfix]
  simp only [ops5, List.drop_succ_cons, List.drop_zero]
  after_results_simp
  rfl

theorem value (V : Valuation τ sig (Elt Ideal))
    (hx : IsReal (V (main_arg0 : DevRef τ sig))) (hWm : IsReal (V (main_arg3 : DevRef τ sig)))
    (hbm : IsReal (V (main_arg4 : DevRef τ sig))) (hWu : IsReal (V (main_arg5 : DevRef τ sig)))
    (hbu : IsReal (V (main_arg6 : DevRef τ sig))) (ha : IsReal (V (main_arg7 : DevRef τ sig)))
    (hg : IsReal (V (main_arg8 : DevRef τ sig))) (hb : IsReal (V (main_arg9 : DevRef τ sig))) :
    after ops V (main_v303 : DevRef τ sig)
      = Cert.Shared.value (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) := by
  have hgs : ∀ x : A2 50000 64, IsReal x →
      IsReal (Cert.Shared.gat (Cert.Shared.src (V (main_arg1 : DevRef τ sig))) x) :=
    fun x h => Cert.Shared.gat_isReal _ x h
  have hgd : ∀ x : A2 50000 64, IsReal x →
      IsReal (Cert.Shared.gat (Cert.Shared.dst (V (main_arg1 : DevRef τ sig))) x) :=
    fun x h => Cert.Shared.gat_isReal _ x h
  have hagg : ∀ x : A2 800000 64, IsReal x → IsReal (Cert.Shared.agg (V (main_arg1 : DevRef τ sig)) x) :=
    fun x h => Cert.Shared.agg_isReal _ x h
  have e0 := (stage0 V).trans (refLayer0_eq _ _ _ _ _ _ _ _ _ hWm hbm hWu hbu ha hx)
  have r0 := isReal_layerAt hgs hgd hagg hWm hbm hWu hbu ha hg hb 0 hx
  have e1 := (stage1 V).trans
    ((congrArg _ e0).trans (refLayer1_eq _ _ _ _ _ _ _ _ _ hWm hbm hWu hbu ha r0))
  have r1 := isReal_layerAt hgs hgd hagg hWm hbm hWu hbu ha hg hb 1 r0
  have e2 := (stage2 V).trans
    ((congrArg _ e1).trans (refLayer2_eq _ _ _ _ _ _ _ _ _ hWm hbm hWu hbu ha r1))
  have r2 := isReal_layerAt hgs hgd hagg hWm hbm hWu hbu ha hg hb 2 r1
  have e3 := (stage3 V).trans
    ((congrArg _ e2).trans (refLayer3_eq _ _ _ _ _ _ _ _ _ hWm hbm hWu hbu ha r2))
  rw [stageHead V, e3, refHead_eq]
  rfl

end Cert.ReferenceIdeal.Val

end
-- ==== Proof.RClaims.lean ====
import proofs.«428660_j69922067578969_2_alg».proof.Defs
import proofs.«428660_j69922067578969_2_alg».proof.Proof.RRun
import proofs.«428660_j69922067578969_2_alg».proof.Proof.RValue
import proofs.«428660_j69922067578969_2_alg».proof.Proof.Math
import proofs.«428660_j69922067578969_2_alg».proof.Proof.Gen.ReferenceIdeal
import proofs.«428660_j69922067578969_2_alg».proof.Proof.Gen.Pre_finite_inputs

noncomputable section

namespace Cert.ReferenceIdeal.Val

open Cert.ReferenceIdeal Cert.ReferenceIdeal.Gen Idealize.ShloMosaic Idealize.ShloMosaic.TcCoe Idealize.SL.Sem
open Idealize.ShloMosaic.StableHlo Cert.Spec

theorem frame_ri : Cert.frame_ReferenceIdeal := fun m ρ _ =>
  (θ_run Cert.ReferenceIdeal.defs _ _).mono
    (fun r h c =>
      ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

theorem run_value (m' : (ℓ : Loc nD τ sig) → Buf (Elt Ideal) ℓ) (ρ' : Dev nD → PrngReg)
    (h0 : ∀ c : Dev nD, IsReal (m' ((c.tc : Thread nD τ).loc main_arg0)))
    (h3 : ∀ c : Dev nD, IsReal (m' ((c.tc : Thread nD τ).loc main_arg3)))
    (h4 : ∀ c : Dev nD, IsReal (m' ((c.tc : Thread nD τ).loc main_arg4)))
    (h5 : ∀ c : Dev nD, IsReal (m' ((c.tc : Thread nD τ).loc main_arg5)))
    (h6 : ∀ c : Dev nD, IsReal (m' ((c.tc : Thread nD τ).loc main_arg6)))
    (h7 : ∀ c : Dev nD, IsReal (m' ((c.tc : Thread nD τ).loc main_arg7)))
    (h8 : ∀ c : Dev nD, IsReal (m' ((c.tc : Thread nD τ).loc main_arg8)))
    (h9 : ∀ c : Dev nD, IsReal (m' ((c.tc : Thread nD τ).loc main_arg9))) :
    θ_run defs (onTc (τ := τ) (main (F := Ideal))) ⟨m', fun _ => 0, ρ'⟩ (fun r => ∀ c : Dev nD,
      r.2.mem ((c.tc : Thread nD τ).loc main_v303) = Cert.Shared.value (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run Cert.ReferenceIdeal.defs _ _).mono
    (fun r h c =>
      ⟨(h c main_v303).trans (value (launchContents m' c) (h0 c) (h3 c) (h4 c) (h5 c) (h6 c) (h7 c) (h8 c) (h9 c)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m' ρ')

end Cert.ReferenceIdeal.Val

end
-- ==== Proof.lean ====
import proofs.«428660_j69922067578969_2_alg».proof.Defs
import proofs.«428660_j69922067578969_2_alg».proof.Proof.Gen.Kernel
import proofs.«428660_j69922067578969_2_alg».proof.Proof.Gen.Kernel.Skeleton
import proofs.«428660_j69922067578969_2_alg».proof.Proof.Gen.Kernel.Launch
import proofs.«428660_j69922067578969_2_alg».proof.Proof.Gen.Kernel.Points
import proofs.«428660_j69922067578969_2_alg».proof.Proof.Gen.Kernel.Frame
import proofs.«428660_j69922067578969_2_alg».proof.Proof.Gen.KernelIdeal
import proofs.«428660_j69922067578969_2_alg».proof.Proof.Gen.KernelIdeal.Skeleton
import proofs.«428660_j69922067578969_2_alg».proof.Proof.Gen.KernelIdeal.Launch
import proofs.«428660_j69922067578969_2_alg».proof.Proof.Gen.KernelIdeal.Points
import proofs.«428660_j69922067578969_2_alg».proof.Proof.Gen.KernelIdeal.Frame
import proofs.«428660_j69922067578969_2_alg».proof.Proof.Gen.ReferenceIdeal
import proofs.«428660_j69922067578969_2_alg».proof.Proof.Gen.Pre_finite_inputs
import proofs.«428660_j69922067578969_2_alg».proof.Proof.KClaims
import proofs.«428660_j69922067578969_2_alg».proof.Proof.RClaims
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem algebraic : Cert.algebraic_KernelIdeal_ReferenceIdeal := by
  intro m ρ m' ρ' hpre hagree
  refine ⟨fun c => Cert.Shared.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.KernelIdeal.Val.run_value m ρ hpre, ?_⟩
  have hreal := fun c => (Cert.Pre.decode_mem m hpre c).1
  refine (θ_run Cert.ReferenceIdeal.defs _ _).mono (fun r h c => ?_)
    (Cert.ReferenceIdeal.Val.run_value m' ρ'
      (fun c => by rw [(hagree c).1]; exact (hreal c).1)
      (fun c => by rw [(hagree c).2.2.2.1]; exact (hreal c).2.1)
      (fun c => by rw [(hagree c).2.2.2.2.1]; exact (hreal c).2.2.1)
      (fun c => by rw [(hagree c).2.2.2.2.2.1]; exact (hreal c).2.2.2.1)
      (fun c => by rw [(hagree c).2.2.2.2.2.2.1]; exact (hreal c).2.2.2.2.1)
      (fun c => by rw [(hagree c).2.2.2.2.2.2.2.1]; exact (hreal c).2.2.2.2.2.1)
      (fun c => by rw [(hagree c).2.2.2.2.2.2.2.2.1]; exact (hreal c).2.2.2.2.2.2.1)
      (fun c => by rw [(hagree c).2.2.2.2.2.2.2.2.2.1]; exact (hreal c).2.2.2.2.2.2.2.1))
  obtain ⟨e0, e1, e2, e3, e4, e5, e6, e7, e8, e9, e10, e11, e12, e13⟩ := hagree c
  refine ⟨(h c).1.trans ?_, (h c).2⟩
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.Val.frame_ri, trivial, algebraic⟩

end Cert.Proof

end
